-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024 : Shape := ⟨1, ![1024]⟩
abbrev S1024x20000 : Shape := ⟨2, ![1024, 20000]⟩
abbrev S20000 : Shape := ⟨1, ![20000]⟩
abbrev S1024x3 : Shape := ⟨2, ![1024, 3]⟩
abbrev S3 : Shape := ⟨1, ![3]⟩
abbrev S1024x256 : Shape := ⟨2, ![1024, 256]⟩
abbrev S256x40000 : Shape := ⟨2, ![256, 40000]⟩
abbrev S40000 : Shape := ⟨1, ![40000]⟩
abbrev S1024x64 : Shape := ⟨2, ![1024, 64]⟩
abbrev S64x120000 : Shape := ⟨2, ![64, 120000]⟩
abbrev S120000 : Shape := ⟨1, ![120000]⟩
abbrev S1024x16 : Shape := ⟨2, ![1024, 16]⟩
abbrev S16x87735 : Shape := ⟨2, ![16, 87735]⟩
abbrev S87735 : Shape := ⟨1, ![87735]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x20000 : S_.BroadcastsInDim S1024x20000 (![] : Fin 0 → Fin S1024x20000.rank)
  reducesTo_S1024x20000_S_d0_1 : S1024x20000.ReducesTo [0, 1] S_
  bcast_S_S20000 : S_.BroadcastsInDim S20000 (![] : Fin 0 → Fin S20000.rank)
  reducesTo_S20000_S_d0 : S20000.ReducesTo [0] S_
  bcast_S_S1024x3 : S_.BroadcastsInDim S1024x3 (![] : Fin 0 → Fin S1024x3.rank)
  reducesTo_S1024x3_S_d0_1 : S1024x3.ReducesTo [0, 1] S_
  bcast_S_S3 : S_.BroadcastsInDim S3 (![] : Fin 0 → Fin S3.rank)
  reducesTo_S3_S_d0 : S3.ReducesTo [0] S_
  bcast_S_S1024x256 : S_.BroadcastsInDim S1024x256 (![] : Fin 0 → Fin S1024x256.rank)
  reducesTo_S1024x256_S_d0_1 : S1024x256.ReducesTo [0, 1] S_
  bcast_S_S256x40000 : S_.BroadcastsInDim S256x40000 (![] : Fin 0 → Fin S256x40000.rank)
  reducesTo_S256x40000_S_d0_1 : S256x40000.ReducesTo [0, 1] S_
  bcast_S_S40000 : S_.BroadcastsInDim S40000 (![] : Fin 0 → Fin S40000.rank)
  reducesTo_S40000_S_d0 : S40000.ReducesTo [0] S_
  bcast_S_S1024x64 : S_.BroadcastsInDim S1024x64 (![] : Fin 0 → Fin S1024x64.rank)
  reducesTo_S1024x64_S_d0_1 : S1024x64.ReducesTo [0, 1] S_
  bcast_S_S64x120000 : S_.BroadcastsInDim S64x120000 (![] : Fin 0 → Fin S64x120000.rank)
  reducesTo_S64x120000_S_d0_1 : S64x120000.ReducesTo [0, 1] S_
  bcast_S_S120000 : S_.BroadcastsInDim S120000 (![] : Fin 0 → Fin S120000.rank)
  reducesTo_S120000_S_d0 : S120000.ReducesTo [0] S_
  bcast_S_S1024x16 : S_.BroadcastsInDim S1024x16 (![] : Fin 0 → Fin S1024x16.rank)
  reducesTo_S1024x16_S_d0_1 : S1024x16.ReducesTo [0, 1] S_
  bcast_S_S16x87735 : S_.BroadcastsInDim S16x87735 (![] : Fin 0 → Fin S16x87735.rank)
  reducesTo_S16x87735_S_d0_1 : S16x87735.ReducesTo [0, 1] S_
  bcast_S_S87735 : S_.BroadcastsInDim S87735 (![] : Fin 0 → Fin S87735.rank)
  reducesTo_S87735_S_d0 : S87735.ReducesTo [0] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg1 : IVec S1024 32) (main_v63 : IVec S_ 1) (main_v67 : IVec S_ 1) : IVec S_ 1 :=
  let main_v68 : IVec S_ 1 := andi main_v63 main_v67
  let main_c_26 : IVec S_ 32 := constantI S_ 32 0#32
  let main_v69 : IVec S1024 32 := broadcastInDim S1024 ![] bcast_S_S1024 main_c_26
  let main_v70 : IVec S1024 1 := cmpi .sge main_arg1 main_v69
  let main_c_27 : IVec S_ 1 := constantI S_ 1 1#1
  let main_v71 : IVec S_ 1 := (fun x v => Host.reduce IntOp.andi x v reducesTo_S1024_S_d0 h_S_) main_v70 main_c_27
  let main_v72 : IVec S_ 1 := andi main_v68 main_v71
  main_v72

def fn_part3 {F : FTy → Type} [FloatOps F] (main_arg1 : IVec S1024 32) (main_arg12 : FVec F S1024x16 .f32) (main_arg13 : FVec F S16x87735 .f32) (main_arg14 : FVec F S87735 .f32) (main_v48 : IVec S_ 1) (main_v49 : FVec F S120000 .f32) (main_v50 : FVec F S120000 .f32) : IVec S_ 1 :=
  let main_v51 : IVec S120000 1 := cmpf .olt main_v49 main_v50
  let main_c_19 : IVec S_ 1 := constantI S_ 1 1#1
  let main_v52 : IVec S_ 1 := (fun x v => Host.reduce IntOp.andi x v reducesTo_S120000_S_d0 h_S_) main_v51 main_c_19
  let main_v53 : IVec S_ 1 := andi main_v48 main_v52
  let main_v54 : FVec F S1024x16 .f32 := Host.absf main_arg12
  let main_cst_20 : FVec F S_ .f32 := constant S_ .f32 0x7F800000#32
  let main_v55 : FVec F S1024x16 .f32 := broadcastInDim S1024x16 ![] bcast_S_S1024x16 main_cst_20
  let main_v56 : IVec S1024x16 1 := cmpf .olt main_v54 main_v55
  let main_c_21 : IVec S_ 1 := constantI S_ 1 1#1
  let main_v57 : IVec S_ 1 := (fun x v => Host.reduce IntOp.andi x v reducesTo_S1024x16_S_d0_1 h_S_) main_v56 main_c_21
  let main_v58 : IVec S_ 1 := andi main_v53 main_v57
  let main_v59 : FVec F S16x87735 .f32 := Host.absf main_arg13
  let main_cst_22 : FVec F S_ .f32 := constant S_ .f32 0x7F800000#32
  let main_v60 : FVec F S16x87735 .f32 := broadcastInDim S16x87735 ![] bcast_S_S16x87735 main_cst_22
  let main_v61 : IVec S16x87735 1 := cmpf .olt main_v59 main_v60
  let main_c_23 : IVec S_ 1 := constantI S_ 1 1#1
  let main_v62 : IVec S_ 1 := (fun x v => Host.reduce IntOp.andi x v reducesTo_S16x87735_S_d0_1 h_S_) main_v61 main_c_23
  let main_v63 : IVec S_ 1 := andi main_v58 main_v62
  let main_v64 : FVec F S87735 .f32 := Host.absf main_arg14
  let main_cst_24 : FVec F S_ .f32 := constant S_ .f32 0x7F800000#32
  let main_v65 : FVec F S87735 .f32 := broadcastInDim S87735 ![] bcast_S_S87735 main_cst_24
  let main_v66 : IVec S87735 1 := cmpf .olt main_v64 main_v65
  let main_c_25 : IVec S_ 1 := constantI S_ 1 1#1
  let main_v67 : IVec S_ 1 := (fun x v => Host.reduce IntOp.andi x v reducesTo_S87735_S_d0 h_S_) main_v66 main_c_25
  fn_part4 (F := F) main_arg1 main_v63 main_v67

def fn_part2 {F : FTy → Type} [FloatOps F] (main_arg1 : IVec S1024 32) (main_arg8 : FVec F S40000 .f32) (main_arg9 : FVec F S1024x64 .f32) (main_arg10 : FVec F S64x120000 .f32) (main_arg11 : FVec F S120000 .f32) (main_arg12 : FVec F S1024x16 .f32) (main_arg13 : FVec F S16x87735 .f32) (main_arg14 : FVec F S87735 .f32) (main_v33 : IVec S_ 1) : IVec S_ 1 :=
  let main_v34 : FVec F S40000 .f32 := Host.absf main_arg8
  let main_cst_12 : FVec F S_ .f32 := constant S_ .f32 0x7F800000#32
  let main_v35 : FVec F S40000 .f32 := broadcastInDim S40000 ![] bcast_S_S40000 main_cst_12
  let main_v36 : IVec S40000 1 := cmpf .olt main_v34 main_v35
  let main_c_13 : IVec S_ 1 := constantI S_ 1 1#1
  let main_v37 : IVec S_ 1 := (fun x v => Host.reduce IntOp.andi x v reducesTo_S40000_S_d0 h_S_) main_v36 main_c_13
  let main_v38 : IVec S_ 1 := andi main_v33 main_v37
  let main_v39 : FVec F S1024x64 .f32 := Host.absf main_arg9
  let main_cst_14 : FVec F S_ .f32 := constant S_ .f32 0x7F800000#32
  let main_v40 : FVec F S1024x64 .f32 := broadcastInDim S1024x64 ![] bcast_S_S1024x64 main_cst_14
  let main_v41 : IVec S1024x64 1 := cmpf .olt main_v39 main_v40
  let main_c_15 : IVec S_ 1 := constantI S_ 1 1#1
  let main_v42 : IVec S_ 1 := (fun x v => Host.reduce IntOp.andi x v reducesTo_S1024x64_S_d0_1 h_S_) main_v41 main_c_15
  let main_v43 : IVec S_ 1 := andi main_v38 main_v42
  let main_v44 : FVec F S64x120000 .f32 := Host.absf main_arg10
  let main_cst_16 : FVec F S_ .f32 := constant S_ .f32 0x7F800000#32
  let main_v45 : FVec F S64x120000 .f32 := broadcastInDim S64x120000 ![] bcast_S_S64x120000 main_cst_16
  let main_v46 : IVec S64x120000 1 := cmpf .olt main_v44 main_v45
  let main_c_17 : IVec S_ 1 := constantI S_ 1 1#1
  let main_v47 : IVec S_ 1 := (fun x v => Host.reduce IntOp.andi x v reducesTo_S64x120000_S_d0_1 h_S_) main_v46 main_c_17
  let main_v48 : IVec S_ 1 := andi main_v43 main_v47
  let main_v49 : FVec F S120000 .f32 := Host.absf main_arg11
  let main_cst_18 : FVec F S_ .f32 := constant S_ .f32 0x7F800000#32
  let main_v50 : FVec F S120000 .f32 := broadcastInDim S120000 ![] bcast_S_S120000 main_cst_18
  fn_part3 (F := F) main_arg1 main_arg12 main_arg13 main_arg14 main_v48 main_v49 main_v50

def fn_part1 {F : FTy → Type} [FloatOps F] (main_arg1 : IVec S1024 32) (main_arg5 : FVec F S3 .f32) (main_arg6 : FVec F S1024x256 .f32) (main_arg7 : FVec F S256x40000 .f32) (main_arg8 : FVec F S40000 .f32) (main_arg9 : FVec F S1024x64 .f32) (main_arg10 : FVec F S64x120000 .f32) (main_arg11 : FVec F S120000 .f32) (main_arg12 : FVec F S1024x16 .f32) (main_arg13 : FVec F S16x87735 .f32) (main_arg14 : FVec F S87735 .f32) (main_v13 : IVec S_ 1) (main_v16 : IVec S1024x3 1) : IVec S_ 1 :=
  let main_c_5 : IVec S_ 1 := constantI S_ 1 1#1
  let main_v17 : IVec S_ 1 := (fun x v => Host.reduce IntOp.andi x v reducesTo_S1024x3_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S1024x256 .f32 := Host.absf main_arg6
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S256x40000 .f32 := Host.absf main_arg7
  let main_cst_10 : FVec F S_ .f32 := constant S_ .f32 0x7F800000#32
  let main_v30 : FVec F S256x40000 .f32 := broadcastInDim S256x40000 ![] bcast_S_S256x40000 main_cst_10
  let main_v31 : IVec S256x40000 1 := cmpf .olt main_v29 main_v30
  let main_c_11 : IVec S_ 1 := constantI S_ 1 1#1
  let main_v32 : IVec S_ 1 := (fun x v => Host.reduce IntOp.andi x v reducesTo_S256x40000_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S1024x1024 .f32) (main_arg1 : IVec S1024 32) (main_arg2 : FVec F S1024x20000 .f32) (main_arg3 : FVec F S20000 .f32) (main_arg4 : FVec F S1024x3 .f32) (main_arg5 : FVec F S3 .f32) (main_arg6 : FVec F S1024x256 .f32) (main_arg7 : FVec F S256x40000 .f32) (main_arg8 : FVec F S40000 .f32) (main_arg9 : FVec F S1024x64 .f32) (main_arg10 : FVec F S64x120000 .f32) (main_arg11 : FVec F S120000 .f32) (main_arg12 : FVec F S1024x16 .f32) (main_arg13 : FVec F S16x87735 .f32) (main_arg14 : FVec F S87735 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x20000 .f32 := Host.absf main_arg2
  let main_cst_0 : FVec F S_ .f32 := constant S_ .f32 0x7F800000#32
  let main_v5 : FVec F S1024x20000 .f32 := broadcastInDim S1024x20000 ![] bcast_S_S1024x20000 main_cst_0
  let main_v6 : IVec S1024x20000 1 := cmpf .olt main_v4 main_v5
  let main_c_1 : IVec S_ 1 := constantI S_ 1 1#1
  let main_v7 : IVec S_ 1 := (fun x v => Host.reduce IntOp.andi x v reducesTo_S1024x20000_S_d0_1 h_S_) main_v6 main_c_1
  let main_v8 : IVec S_ 1 := andi main_v3 main_v7
  let main_v9 : FVec F S20000 .f32 := Host.absf main_arg3
  let main_cst_2 : FVec F S_ .f32 := constant S_ .f32 0x7F800000#32
  let main_v10 : FVec F S20000 .f32 := broadcastInDim S20000 ![] bcast_S_S20000 main_cst_2
  let main_v11 : IVec S20000 1 := cmpf .olt main_v9 main_v10
  let main_c_3 : IVec S_ 1 := constantI S_ 1 1#1
  let main_v12 : IVec S_ 1 := (fun x v => Host.reduce IntOp.andi x v reducesTo_S20000_S_d0 h_S_) main_v11 main_c_3
  let main_v13 : IVec S_ 1 := andi main_v8 main_v12
  let main_v14 : FVec F S1024x3 .f32 := Host.absf main_arg4
  let main_cst_4 : FVec F S_ .f32 := constant S_ .f32 0x7F800000#32
  let main_v15 : FVec F S1024x3 .f32 := broadcastInDim S1024x3 ![] bcast_S_S1024x3 main_cst_4
  let main_v16 : IVec S1024x3 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S1024x1024 : Shape := ⟨2, ![1024, 1024]⟩
abbrev S1024 : Shape := ⟨1, ![1024]⟩
abbrev S1024x20000 : Shape := ⟨2, ![1024, 20000]⟩
abbrev S20000 : Shape := ⟨1, ![20000]⟩
abbrev S1024x3 : Shape := ⟨2, ![1024, 3]⟩
abbrev S3 : Shape := ⟨1, ![3]⟩
abbrev S1024x256 : Shape := ⟨2, ![1024, 256]⟩
abbrev S256x40000 : Shape := ⟨2, ![256, 40000]⟩
abbrev S40000 : Shape := ⟨1, ![40000]⟩
abbrev S1024x64 : Shape := ⟨2, ![1024, 64]⟩
abbrev S64x120000 : Shape := ⟨2, ![64, 120000]⟩
abbrev S120000 : Shape := ⟨1, ![120000]⟩
abbrev S1024x16 : Shape := ⟨2, ![1024, 16]⟩
abbrev S16x87735 : Shape := ⟨2, ![16, 87735]⟩
abbrev S87735 : Shape := ⟨1, ![87735]⟩
abbrev S1x3 : Shape := ⟨2, ![1, 3]⟩
abbrev S_ : Shape := ⟨0, ![]⟩
abbrev S1x20000 : Shape := ⟨2, ![1, 20000]⟩
abbrev S1024x1 : Shape := ⟨2, ![1024, 1]⟩
abbrev S512x1024 : Shape := ⟨2, ![512, 1024]⟩
abbrev S1024x2048 : Shape := ⟨2, ![1024, 2048]⟩
abbrev S1x2048 : Shape := ⟨2, ![1, 2048]⟩
abbrev S512x1 : Shape := ⟨2, ![512, 1]⟩
abbrev S512x2048 : Shape := ⟨2, ![512, 2048]⟩
abbrev S512 : Shape := ⟨1, ![512]⟩
abbrev S1x40000 : Shape := ⟨2, ![1, 40000]⟩
abbrev S512x256 : Shape := ⟨2, ![512, 256]⟩
abbrev S256x4096 : Shape := ⟨2, ![256, 4096]⟩
abbrev S1x4096 : Shape := ⟨2, ![1, 4096]⟩
abbrev S512x4096 : Shape := ⟨2, ![512, 4096]⟩
abbrev S1x120000 : Shape := ⟨2, ![1, 120000]⟩
abbrev S256x64 : Shape := ⟨2, ![256, 64]⟩
abbrev S64x8192 : Shape := ⟨2, ![64, 8192]⟩
abbrev S1x8192 : Shape := ⟨2, ![1, 8192]⟩
abbrev S256x1 : Shape := ⟨2, ![256, 1]⟩
abbrev S256x8192 : Shape := ⟨2, ![256, 8192]⟩
abbrev S256 : Shape := ⟨1, ![256]⟩
abbrev S1x87735 : Shape := ⟨2, ![1, 87735]⟩
abbrev S256x16 : Shape := ⟨2, ![256, 16]⟩
abbrev S16x8192 : Shape := ⟨2, ![16, 8192]⟩

abbrev nBuf : Space → Nat
  | .hbm => 126
  | .vmem => 60
  | .smem => 0
  | _ => 0

abbrev bufTy : (tb : Table) → Fin (tcTables nBuf tb) → BufTy
  | .hbm, ⟨0, _⟩ => ⟨S1024x1024, .f32⟩
  | .hbm, ⟨1, _⟩ => ⟨S1024, .i32⟩
  | .hbm, ⟨2, _⟩ => ⟨S1024x20000, .f32⟩
  | .hbm, ⟨3, _⟩ => ⟨S20000, .f32⟩
  | .hbm, ⟨4, _⟩ => ⟨S1024x3, .f32⟩
  | .hbm, ⟨5, _⟩ => ⟨S3, .f32⟩
  | .hbm, ⟨6, _⟩ => ⟨S1024x256, .f32⟩
  | .hbm, ⟨7, _⟩ => ⟨S256x40000, .f32⟩
  | .hbm, ⟨8, _⟩ => ⟨S40000, .f32⟩
  | .hbm, ⟨9, _⟩ => ⟨S1024x64, .f32⟩
  | .hbm, ⟨10, _⟩ => ⟨S64x120000, .f32⟩
  | .hbm, ⟨11, _⟩ => ⟨S120000, .f32⟩
  | .hbm, ⟨12, _⟩ => ⟨S1024x16, .f32⟩
  | .hbm, ⟨13, _⟩ => ⟨S16x87735, .f32⟩
  | .hbm, ⟨14, _⟩ => ⟨S87735, .f32⟩
  | .hbm, ⟨15, _⟩ => ⟨S1024x3, .f32⟩
  | .hbm, ⟨16, _⟩ => ⟨S1x3, .f32⟩
  | .hbm, ⟨17, _⟩ => ⟨S1024x3, .f32⟩
  | .hbm, ⟨18, _⟩ => ⟨S1024x3, .f32⟩
  | .hbm, ⟨19, _⟩ => ⟨S1024x256, .f32⟩
  | .hbm, ⟨20, _⟩ => ⟨S1024x64, .f32⟩
  | .hbm, ⟨21, _⟩ => ⟨S1024x16, .f32⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024x1024, .bf16⟩
  | .hbm, ⟨26, _⟩ => ⟨S1x20000, .f32⟩
  | .hbm, ⟨27, _⟩ => ⟨S1024x1, .i32⟩
  | .hbm, ⟨28, _⟩ => ⟨S1024x1, .f32⟩
  | .hbm, ⟨29, _⟩ => ⟨S1024x1, .f32⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024x256, .bf16⟩
  | .hbm, ⟨34, _⟩ => ⟨S1x40000, .f32⟩
  | .hbm, ⟨35, _⟩ => ⟨S1024x1, .i32⟩
  | .hbm, ⟨36, _⟩ => ⟨S1024x1, .f32⟩
  | .hbm, ⟨37, _⟩ => ⟨S1024x1, .f32⟩
  | .hbm, ⟨38, _⟩ => ⟨S_, .i32⟩
  | .hbm, ⟨39, _⟩ => ⟨S1024, .i32⟩
  | .hbm, ⟨40, _⟩ => ⟨S1024, .i32⟩
  | .hbm, ⟨41, _⟩ => ⟨S1024x64, .bf16⟩
  | .hbm, ⟨42, _⟩ => ⟨S1x120000, .f32⟩
  | .hbm, ⟨43, _⟩ => ⟨S1024x1, .i32⟩
  | .hbm, ⟨44, _⟩ => ⟨S1024x1, .f32⟩
  | .hbm, ⟨45, _⟩ => ⟨S1024x1, .f32⟩
  | .hbm, ⟨46, _⟩ => ⟨S_, .i32⟩
  | .hbm, ⟨47, _⟩ => ⟨S1024, .i32⟩
  | .hbm, ⟨48, _⟩ => ⟨S1024, .i32⟩
  | .hbm, ⟨49, _⟩ => ⟨S1024x16, .bf16⟩
  | .hbm, ⟨50, _⟩ => ⟨S1x87735, .f32⟩
  | .hbm, ⟨51, _⟩ => ⟨S1024x1, .i32⟩
  | .hbm, ⟨52, _⟩ => ⟨S1024x1, .f32⟩
  | .hbm, ⟨53, _⟩ => ⟨S1024x1, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S1024x1, .f32⟩
  | .hbm, ⟨68, _⟩ => ⟨S1024x3, .f32⟩
  | .hbm, ⟨69, _⟩ => ⟨S1024x3, .f32⟩
  | .hbm, ⟨70, _⟩ => ⟨S1024x3, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S1024, .f32⟩
  | .hbm, ⟨75, _⟩ => ⟨S1024, .f32⟩
  | .hbm, ⟨76, _⟩ => ⟨S1024, .f32⟩
  | .hbm, ⟨77, _⟩ => ⟨S1024x1, .f32⟩
  | .hbm, ⟨78, _⟩ => ⟨S1024x3, .f32⟩
  | .hbm, ⟨79, _⟩ => ⟨S1024x3, .f32⟩
  | .hbm, ⟨80, _⟩ => ⟨S1024, .f32⟩
  | .hbm, ⟨81, _⟩ => ⟨S1024, .f32⟩
  | .hbm, ⟨82, _⟩ => ⟨S1024, .f32⟩
  | .hbm, ⟨83, _⟩ => ⟨S_, .i32⟩
  | .hbm, ⟨84, _⟩ => ⟨S1024, .i32⟩
  | .hbm, ⟨85, _⟩ => ⟨S1024, .i1⟩
  | .hbm, ⟨86, _⟩ => ⟨S1024, .f32⟩
  | .hbm, ⟨87, _⟩ => ⟨S_, .f32⟩
  | .hbm, ⟨88, _⟩ => ⟨S1024, .f32⟩
  | .hbm, ⟨89, _⟩ => ⟨S1024, .f32⟩
  | .hbm, ⟨90, _⟩ => ⟨S1024x1, .f32⟩
  | .hbm, ⟨91, _⟩ => ⟨S1024, .f32⟩
  | .hbm, ⟨92, _⟩ => ⟨S1024, .f32⟩
  | .hbm, ⟨93, _⟩ => ⟨S_, .i32⟩
  | .hbm, ⟨94, _⟩ => ⟨S1024, .i32⟩
  | .hbm, ⟨95, _⟩ => ⟨S1024, .i1⟩
  | .hbm, ⟨96, _⟩ => ⟨S_, .i32⟩
  | .hbm, ⟨97, _⟩ => ⟨S1024, .i32⟩
  | .hbm, ⟨98, _⟩ => ⟨S1024, .i1⟩
  | .hbm, ⟨99, _⟩ => ⟨S1024, .i1⟩
  | .hbm, ⟨100, _⟩ => ⟨S1024, .f32⟩
  | .hbm, ⟨101, _⟩ => ⟨S1024, .f32⟩
  | .hbm, ⟨102, _⟩ => ⟨S1024x1, .f32⟩
  | .hbm, ⟨103, _⟩ => ⟨S1024, .f32⟩
  | .hbm, ⟨104, _⟩ => ⟨S1024, .f32⟩
  | .hbm, ⟨105, _⟩ => ⟨S_, .i32⟩
  | .hbm, ⟨106, _⟩ => ⟨S1024, .i32⟩
  | .hbm, ⟨107, _⟩ => ⟨S1024, .i1⟩
  | .hbm, ⟨108, _⟩ => ⟨S_, .i32⟩
  | .hbm, ⟨109, _⟩ => ⟨S1024, .i32⟩
  | .hbm, ⟨110, _⟩ => ⟨S1024, .i1⟩
  | .hbm, ⟨111, _⟩ => ⟨S1024, .i1⟩
  | .hbm, ⟨112, _⟩ => ⟨S1024, .f32⟩
  | .hbm, ⟨113, _⟩ => ⟨S1024, .f32⟩
  | .hbm, ⟨114, _⟩ => ⟨S1024x1, .f32⟩
  | .hbm, ⟨115, _⟩ => ⟨S1024, .f32⟩
  | .hbm, ⟨116, _⟩ => ⟨S1024, .f32⟩
  | .hbm, ⟨117, _⟩ => ⟨S_, .i32⟩
  | .hbm, ⟨118, _⟩ => ⟨S1024, .i32⟩
  | .hbm, ⟨119, _⟩ => ⟨S1024, .i1⟩
  | .hbm, ⟨120, _⟩ => ⟨S_, .i32⟩
  | .hbm, ⟨121, _⟩ => ⟨S1024, .i32⟩
  | .hbm, ⟨122, _⟩ => ⟨S1024, .i1⟩
  | .hbm, ⟨123, _⟩ => ⟨S1024, .i1⟩
  | .hbm, ⟨124, _⟩ => ⟨S1024, .f32⟩
  | .hbm, ⟨125, _⟩ => ⟨S1024, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .f32⟩
  | .local _ .vmem, ⟨3, _⟩ => ⟨S1024x2048, .f32⟩
  | .local _ .vmem, ⟨4, _⟩ => ⟨S1x2048, .f32⟩
  | .local _ .vmem, ⟨5, _⟩ => ⟨S1x2048, .f32⟩
  | .local _ .vmem, ⟨6, _⟩ => ⟨S512x1, .i32⟩
  | .local _ .vmem, ⟨7, _⟩ => ⟨S512x1, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x256, .bf16⟩
  | .local _ .vmem, ⟨16, _⟩ => ⟨S512x256, .bf16⟩
  | .local _ .vmem, ⟨17, _⟩ => ⟨S256x4096, .f32⟩
  | .local _ .vmem, ⟨18, _⟩ => ⟨S256x4096, .f32⟩
  | .local _ .vmem, ⟨19, _⟩ => ⟨S1x4096, .f32⟩
  | .local _ .vmem, ⟨20, _⟩ => ⟨S1x4096, .f32⟩
  | .local _ .vmem, ⟨21, _⟩ => ⟨S512x1, .i32⟩
  | .local _ .vmem, ⟨22, _⟩ => ⟨S512x1, .i32⟩
  | .local _ .vmem, ⟨23, _⟩ => ⟨S512x1, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S256x64, .bf16⟩
  | .local _ .vmem, ⟨31, _⟩ => ⟨S256x64, .bf16⟩
  | .local _ .vmem, ⟨32, _⟩ => ⟨S64x8192, .f32⟩
  | .local _ .vmem, ⟨33, _⟩ => ⟨S64x8192, .f32⟩
  | .local _ .vmem, ⟨34, _⟩ => ⟨S1x8192, .f32⟩
  | .local _ .vmem, ⟨35, _⟩ => ⟨S1x8192, .f32⟩
  | .local _ .vmem, ⟨36, _⟩ => ⟨S256x1, .i32⟩
  | .local _ .vmem, ⟨37, _⟩ => ⟨S256x1, .i32⟩
  | .local _ .vmem, ⟨38, _⟩ => ⟨S256x1, .f32⟩
  | .local _ .vmem, ⟨39, _⟩ => ⟨S256x1, .f32⟩
  | .local _ .vmem, ⟨40, _⟩ => ⟨S256x1, .f32⟩
  | .local _ .vmem, ⟨41, _⟩ => ⟨S256x1, .f32⟩
  | .local _ .vmem, ⟨42, _⟩ => ⟨S256x1, .f32⟩
  | .local _ .vmem, ⟨43, _⟩ => ⟨S256x1, .f32⟩
  | .local _ .vmem, ⟨44, _⟩ => ⟨S256x1, .f32⟩
  | .local _ .vmem, ⟨45, _⟩ => ⟨S256x16, .bf16⟩
  | .local _ .vmem, ⟨46, _⟩ => ⟨S256x16, .bf16⟩
  | .local _ .vmem, ⟨47, _⟩ => ⟨S16x8192, .f32⟩
  | .local _ .vmem, ⟨48, _⟩ => ⟨S16x8192, .f32⟩
  | .local _ .vmem, ⟨49, _⟩ => ⟨S1x8192, .f32⟩
  | .local _ .vmem, ⟨50, _⟩ => ⟨S1x8192, .f32⟩
  | .local _ .vmem, ⟨51, _⟩ => ⟨S256x1, .i32⟩
  | .local _ .vmem, ⟨52, _⟩ => ⟨S256x1, .i32⟩
  | .local _ .vmem, ⟨53, _⟩ => ⟨S256x1, .f32⟩
  | .local _ .vmem, ⟨54, _⟩ => ⟨S256x1, .f32⟩
  | .local _ .vmem, ⟨55, _⟩ => ⟨S256x1, .f32⟩
  | .local _ .vmem, ⟨56, _⟩ => ⟨S256x1, .f32⟩
  | .local _ .vmem, ⟨57, _⟩ => ⟨S256x1, .f32⟩
  | .local _ .vmem, ⟨58, _⟩ => ⟨S256x1, .f32⟩
  | .local _ .vmem, ⟨59, _⟩ => ⟨S256x1, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_c_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_c_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30_0 : Ref sig .tc := ⟨.hbm, 52, rfl⟩
abbrev main_v30_1 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_3 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_4 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_5 : Ref sig .tc := ⟨.hbm, 87, rfl⟩
abbrev main_call0_v0 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_6 : Ref sig .tc := ⟨.hbm, 93, rfl⟩
abbrev main_v65 : Ref sig .tc := ⟨.hbm, 94, rfl⟩
abbrev main_v66 : Ref sig .tc := ⟨.hbm, 95, rfl⟩
abbrev main_c_7 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_8 : Ref sig .tc := ⟨.hbm, 105, rfl⟩
abbrev main_v75 : Ref sig .tc := ⟨.hbm, 106, rfl⟩
abbrev main_v76 : Ref sig .tc := ⟨.hbm, 107, rfl⟩
abbrev main_c_9 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_10 : Ref sig .tc := ⟨.hbm, 117, rfl⟩
abbrev main_v85 : Ref sig .tc := ⟨.hbm, 118, rfl⟩
abbrev main_v86 : Ref sig .tc := ⟨.hbm, 119, rfl⟩
abbrev main_c_11 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg4_1 : Ref sig .tc := ⟨.vmem, 39, rfl⟩
abbrev cc2_stg5_0 : Ref sig .tc := ⟨.vmem, 40, rfl⟩
abbrev cc2_stg5_1 : Ref sig .tc := ⟨.vmem, 41, rfl⟩
abbrev cc2_scratch0 : Ref sig .tc := ⟨.vmem, 42, rfl⟩
abbrev cc2_scratch1 : Ref sig .tc := ⟨.vmem, 43, rfl⟩
abbrev cc2_scratch2 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc3_stg3_0 : Ref sig .tc := ⟨.vmem, 51, rfl⟩
abbrev cc3_stg3_1 : Ref sig .tc := ⟨.vmem, 52, rfl⟩
abbrev cc3_stg4_0 : Ref sig .tc := ⟨.vmem, 53, rfl⟩
abbrev cc3_stg4_1 : Ref sig .tc := ⟨.vmem, 54, rfl⟩
abbrev cc3_stg5_0 : Ref sig .tc := ⟨.vmem, 55, rfl⟩
abbrev cc3_stg5_1 : Ref sig .tc := ⟨.vmem, 56, rfl⟩
abbrev cc3_scratch0 : Ref sig .tc := ⟨.vmem, 57, rfl⟩
abbrev cc3_scratch1 : Ref sig .tc := ⟨.vmem, 58, rfl⟩
abbrev cc3_scratch2 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem4_1 : DmaSem sig := 45
abbrev cc3_sem5_0 : DmaSem sig := 46
abbrev cc3_sem5_1 : DmaSem sig := 47

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v57 : BitVec 1 := Scalar.cmpi .eq arg1 c9_i32
  let v58 : BitVec 32 := Scalar.extui v57
  let c0_i32_27 : BitVec 32 := 0#32
  let v59 : BitVec 1 := Scalar.cmpi .ne v58 c0_i32_27
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 10], ![false, false]⟩

def k1_cond2 (i : grid1.Coords) : BitVec 1 :=
  let arg1 : BitVec 32 := BitVec.ofNat 32 (i 1).val
  let c9_i32 : BitVec 32 := 9#32
  let v57 : BitVec 1 := Scalar.cmpi .eq arg1 c9_i32
  let v58 : BitVec 32 := Scalar.extui v57
  let c0_i32_27 : BitVec 32 := 0#32
  let v59 : BitVec 1 := Scalar.cmpi .ne v58 c0_i32_27
  v59

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![4, 15], ![false, false]⟩

def k2_cond2 (i : grid2.Coords) : BitVec 1 :=
  let arg1 : BitVec 32 := BitVec.ofNat 32 (i 1).val
  let c14_i32 : BitVec 32 := 14#32
  let v57 : BitVec 1 := Scalar.cmpi .eq arg1 c14_i32
  let v58 : BitVec 32 := Scalar.extui v57
  let c0_i32_27 : BitVec 32 := 0#32
  let v59 : BitVec 1 := Scalar.cmpi .ne v58 c0_i32_27
  v59

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S64x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x8192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S256x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S256x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S256x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![4, 11], ![false, false]⟩

def k3_cond2 (i : grid3.Coords) : BitVec 1 :=
  let arg1 : BitVec 32 := BitVec.ofNat 32 (i 1).val
  let c10_i32 : BitVec 32 := 10#32
  let v57 : BitVec 1 := Scalar.cmpi .eq arg1 c10_i32
  let v58 : BitVec 32 := Scalar.extui v57
  let c0_i32_27 : BitVec 32 := 0#32
  let v59 : BitVec 1 := Scalar.cmpi .ne v58 c0_i32_27
  v59

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S256x16 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S16x8192 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x8192 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S256x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S256x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S256x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  bcast_S3_S1x3_1 : S3.BroadcastsInDim S1x3 (![1] : Fin 1 → Fin S1x3.rank)
  bcast_S1x3_S1024x3_0_1 : S1x3.BroadcastsInDim S1024x3 (![0, 1] : Fin 2 → Fin S1024x3.rank)
  bcast_S_S1024 : S_.BroadcastsInDim S1024 (![] : Fin 0 → Fin S1024.rank)
  bitsLt_bf16_f32 : FTy.bits .bf16 < FTy.bits .f32
  shapeCasts_S20000_S1x20000 : S20000.ShapeCasts S1x20000
  shapeCasts_S1024_S1024x1 : S1024.ShapeCasts S1024x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1024x2048_S1024x2048_0_0 : ∀ a, (![0, 0] : Fin 2 → Nat) a + S1024x2048.size a ≤ S1024x2048.size a
  h_S1024x2048 : 0 < S1024x2048.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  iota_S512x2048_d1_w32 : S512x2048.Iotas .tc 32 [1]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  shapeCasts_S40000_S1x40000 : S40000.ShapeCasts S1x40000
  inb_S256x4096_S256x4096_0_0 : ∀ a, (![0, 0] : Fin 2 → Nat) a + S256x4096.size a ≤ S256x4096.size a
  h_S256x4096 : 0 < S256x4096.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S512x4096_d1_w32 : S512x4096.Iotas .tc 32 [1]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  reduces_S512x4096_S512 : S512x4096.Reduces [1] S512
  broadcasts_S512x1_S512x4096 : S512x1.Broadcasts S512x4096
  shapeCasts_S120000_S1x120000 : S120000.ShapeCasts S1x120000
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S64x8192_S64x8192_0_0 : ∀ a, (![0, 0] : Fin 2 → Nat) a + S64x8192.size a ≤ S64x8192.size a
  h_S64x8192 : 0 < S64x8192.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  iota_S256x8192_d1_w32 : S256x8192.Iotas .tc 32 [1]
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  reduces_S256x8192_S256 : S256x8192.Reduces [1] S256
  shapeCasts_S256_S256x1 : S256.ShapeCasts S256x1
  broadcasts_S256x1_S256x8192 : S256x1.Broadcasts S256x8192
  shapeCasts_S87735_S1x87735 : S87735.ShapeCasts S1x87735
  inb_S16x8192_S16x8192_0_0 : ∀ a, (![0, 0] : Fin 2 → Nat) a + S16x8192.size a ≤ S16x8192.size a
  h_S16x8192 : 0 < S16x8192.numel
  inb_S256x16_S256x16_0_0 : ∀ a, (![0, 0] : Fin 2 → Nat) a + S256x16.size a ≤ S256x16.size a
  h_S256x16 : 0 < S256x16.numel
  shapeCasts_S256x16_S256x16 : S256x16.ShapeCasts S256x16
  shapeCasts_S1024x1_S1024 : S1024x1.ShapeCasts S1024
  reducesTo_S1024x3_S1024_d1 : S1024x3.ReducesTo [1] S1024
  h_S_ : 0 < S_.numel
  bcast_S1024_S1024x1_0 : S1024.BroadcastsInDim S1024x1 (![0] : Fin 1 → Fin S1024x1.rank)
  bcast_S1024x1_S1024x3_0_1 : S1024x1.BroadcastsInDim S1024x3 (![0, 1] : Fin 2 → Fin S1024x3.rank)
  slices_S1024x3_S1024x1_0_2 : S1024x3.Slices ![0, 2] S1024x1
  slices_S1024x3_S1024x1_0_1 : S1024x3.Slices ![0, 1] S1024x1
  slices_S1024x3_S1024x1_0_0 : S1024x3.Slices ![0, 0] S1024x1
  dot_S1024x1024_S1024x3_S1024x3_1_0_0_1_n_n_wf : DotDims.WF S1024x1024 S1024x3 S1024x3 [1] [0] [0] [1] [] []
  dot_S1024x1024_S1024x256_S1024x256_1_0_0_1_n_n_wf : DotDims.WF S1024x1024 S1024x256 S1024x256 [1] [0] [0] [1] [] []
  dot_S1024x1024_S1024x64_S1024x64_1_0_0_1_n_n_wf : DotDims.WF S1024x1024 S1024x64 S1024x64 [1] [0] [0] [1] [] []
  dot_S1024x1024_S1024x16_S1024x16_1_0_0_1_n_n_wf : DotDims.WF S1024x1024 S1024x16 S1024x16 [1] [0] [0] [1] [] []
  dot_S512x1024_S1024x2048_S512x2048_1_0_0_1_n_n_wf : DotDims.WF S512x1024 S1024x2048 S512x2048 [1] [0] [0] [1] [] []
  dot_S512x256_S256x4096_S512x4096_1_0_0_1_n_n_wf : DotDims.WF S512x256 S256x4096 S512x4096 [1] [0] [0] [1] [] []
  dot_S256x64_S64x8192_S256x8192_1_0_0_1_n_n_wf : DotDims.WF S256x64 S64x8192 S256x8192 [1] [0] [0] [1] [] []
  dot_S256x16_S16x8192_S256x8192_1_0_0_1_n_n_wf : DotDims.WF S256x16 S16x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x1024.size a
  hwx0_0 : ∀ i : grid0.Coords, EltTy.bits .bf16 = 32 ∨ (Rect.block (s := S1024x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x2048.size a < S1024x20000.size a
  hwx0_1 : ∀ i : grid0.Coords, EltTy.bits .f32 = 32 ∨ (Rect.unit (s := S1024x20000) (fun a => cc0_transform_1 i a * S1024x2048.size a) (fun a => (Pipeline.Clip.of (cc0_transform_1 i a) (S1024x2048.size a) (S1024x20000.size a)).extent (S1024x2048.size a)) fun a => Pipeline.Clip.inb (Pipeline.Clip.ok_of (hstart0_1 i a))).WholeWords (EltTy.packing .f32)
  hwxs0_1 : ∀ i : grid0.Coords, EltTy.bits .f32 = 32 ∨ (Rect.unit (s := S1024x2048) (fun _ => 0) (fun a => (Pipeline.Clip.of (cc0_transform_1 i a) (S1024x2048.size a) (S1024x20000.size a)).extent (S1024x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x2048.size a < S1x20000.size a
  hwx0_2 : ∀ i : grid0.Coords, EltTy.bits .f32 = 32 ∨ (Rect.unit (s := S1x20000) (fun a => cc0_transform_2 i a * S1x2048.size a) (fun a => (Pipeline.Clip.of (cc0_transform_2 i a) (S1x2048.size a) (S1x20000.size a)).extent (S1x2048.size a)) fun a => Pipeline.Clip.inb (Pipeline.Clip.ok_of (hstart0_2 i a))).WholeWords (EltTy.packing .f32)
  hwxs0_2 : ∀ i : grid0.Coords, EltTy.bits .f32 = 32 ∨ (Rect.unit (s := S1x2048) (fun _ => 0) (fun a => (Pipeline.Clip.of (cc0_transform_2 i a) (S1x2048.size a) (S1x20000.size a)).extent (S1x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S1024x1.size a
  hwx0_3 : ∀ i : grid0.Coords, EltTy.bits .i32 = 32 ∨ (Rect.block (s := S1024x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S1024x1.size a
  hwx0_4 : ∀ i : grid0.Coords, EltTy.bits .f32 = 32 ∨ (Rect.block (s := S1024x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S1024x1.size a
  hwx0_5 : ∀ i : grid0.Coords, EltTy.bits .f32 = 32 ∨ (Rect.block (s := S1024x1) S512x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S1024x256.size a
  hwx1_0 : ∀ i : grid1.Coords, EltTy.bits .bf16 = 32 ∨ (Rect.block (s := S1024x256) S512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S256x4096.size a < S256x40000.size a
  hwx1_1 : ∀ i : grid1.Coords, EltTy.bits .f32 = 32 ∨ (Rect.unit (s := S256x40000) (fun a => cc1_transform_1 i a * S256x4096.size a) (fun a => (Pipeline.Clip.of (cc1_transform_1 i a) (S256x4096.size a) (S256x40000.size a)).extent (S256x4096.size a)) fun a => Pipeline.Clip.inb (Pipeline.Clip.ok_of (hstart1_1 i a))).WholeWords (EltTy.packing .f32)
  hwxs1_1 : ∀ i : grid1.Coords, EltTy.bits .f32 = 32 ∨ (Rect.unit (s := S256x4096) (fun _ => 0) (fun a => (Pipeline.Clip.of (cc1_transform_1 i a) (S256x4096.size a) (S256x40000.size a)).extent (S256x4096.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x4096.size a < S1x40000.size a
  hwx1_2 : ∀ i : grid1.Coords, EltTy.bits .f32 = 32 ∨ (Rect.unit (s := S1x40000) (fun a => cc1_transform_2 i a * S1x4096.size a) (fun a => (Pipeline.Clip.of (cc1_transform_2 i a) (S1x4096.size a) (S1x40000.size a)).extent (S1x4096.size a)) fun a => Pipeline.Clip.inb (Pipeline.Clip.ok_of (hstart1_2 i a))).WholeWords (EltTy.packing .f32)
  hwxs1_2 : ∀ i : grid1.Coords, EltTy.bits .f32 = 32 ∨ (Rect.unit (s := S1x4096) (fun _ => 0) (fun a => (Pipeline.Clip.of (cc1_transform_2 i a) (S1x4096.size a) (S1x40000.size a)).extent (S1x4096.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S1024x1.size a
  hwx1_3 : ∀ i : grid1.Coords, EltTy.bits .i32 = 32 ∨ (Rect.block (s := S1024x1) S512x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S1024x1.size a
  hwx1_4 : ∀ i : grid1.Coords, EltTy.bits .f32 = 32 ∨ (Rect.block (s := S1024x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S1024x1.size a
  hwx1_5 : ∀ i : grid1.Coords, EltTy.bits .f32 = 32 ∨ (Rect.block (s := S1024x1) S512x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x64.size a ≤ S1024x64.size a
  hwx2_0 : ∀ i : grid2.Coords, EltTy.bits .bf16 = 32 ∨ (Rect.block (s := S1024x64) S256x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S64x8192.size a < S64x120000.size a
  hwx2_1 : ∀ i : grid2.Coords, EltTy.bits .f32 = 32 ∨ (Rect.unit (s := S64x120000) (fun a => cc2_transform_1 i a * S64x8192.size a) (fun a => (Pipeline.Clip.of (cc2_transform_1 i a) (S64x8192.size a) (S64x120000.size a)).extent (S64x8192.size a)) fun a => Pipeline.Clip.inb (Pipeline.Clip.ok_of (hstart2_1 i a))).WholeWords (EltTy.packing .f32)
  hwxs2_1 : ∀ i : grid2.Coords, EltTy.bits .f32 = 32 ∨ (Rect.unit (s := S64x8192) (fun _ => 0) (fun a => (Pipeline.Clip.of (cc2_transform_1 i a) (S64x8192.size a) (S64x120000.size a)).extent (S64x8192.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x8192.size a < S1x120000.size a
  hwx2_2 : ∀ i : grid2.Coords, EltTy.bits .f32 = 32 ∨ (Rect.unit (s := S1x120000) (fun a => cc2_transform_2 i a * S1x8192.size a) (fun a => (Pipeline.Clip.of (cc2_transform_2 i a) (S1x8192.size a) (S1x120000.size a)).extent (S1x8192.size a)) fun a => Pipeline.Clip.inb (Pipeline.Clip.ok_of (hstart2_2 i a))).WholeWords (EltTy.packing .f32)
  hwxs2_2 : ∀ i : grid2.Coords, EltTy.bits .f32 = 32 ∨ (Rect.unit (s := S1x8192) (fun _ => 0) (fun a => (Pipeline.Clip.of (cc2_transform_2 i a) (S1x8192.size a) (S1x120000.size a)).extent (S1x8192.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S1024x1.size a
  hwx2_3 : ∀ i : grid2.Coords, EltTy.bits .i32 = 32 ∨ (Rect.block (s := S1024x1) S256x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x1.size a ≤ S1024x1.size a
  hwx2_4 : ∀ i : grid2.Coords, EltTy.bits .f32 = 32 ∨ (Rect.block (s := S1024x1) S256x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x1.size a ≤ S1024x1.size a
  hwx2_5 : ∀ i : grid2.Coords, EltTy.bits .f32 = 32 ∨ (Rect.block (s := S1024x1) S256x1.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x16.size a ≤ S1024x16.size a
  hwx3_0 : ∀ i : grid3.Coords, EltTy.bits .bf16 = 32 ∨ (Rect.block (s := S1024x16) S256x16.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S16x8192.size a < S16x87735.size a
  hwx3_1 : ∀ i : grid3.Coords, EltTy.bits .f32 = 32 ∨ (Rect.unit (s := S16x87735) (fun a => cc3_transform_1 i a * S16x8192.size a) (fun a => (Pipeline.Clip.of (cc3_transform_1 i a) (S16x8192.size a) (S16x87735.size a)).extent (S16x8192.size a)) fun a => Pipeline.Clip.inb (Pipeline.Clip.ok_of (hstart3_1 i a))).WholeWords (EltTy.packing .f32)
  hwxs3_1 : ∀ i : grid3.Coords, EltTy.bits .f32 = 32 ∨ (Rect.unit (s := S16x8192) (fun _ => 0) (fun a => (Pipeline.Clip.of (cc3_transform_1 i a) (S16x8192.size a) (S16x87735.size a)).extent (S16x8192.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S1x8192.size a < S1x87735.size a
  hwx3_2 : ∀ i : grid3.Coords, EltTy.bits .f32 = 32 ∨ (Rect.unit (s := S1x87735) (fun a => cc3_transform_2 i a * S1x8192.size a) (fun a => (Pipeline.Clip.of (cc3_transform_2 i a) (S1x8192.size a) (S1x87735.size a)).extent (S1x8192.size a)) fun a => Pipeline.Clip.inb (Pipeline.Clip.ok_of (hstart3_2 i a))).WholeWords (EltTy.packing .f32)
  hwxs3_2 : ∀ i : grid3.Coords, EltTy.bits .f32 = 32 ∨ (Rect.unit (s := S1x8192) (fun _ => 0) (fun a => (Pipeline.Clip.of (cc3_transform_2 i a) (S1x8192.size a) (S1x87735.size a)).extent (S1x8192.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x1.size a ≤ S1024x1.size a
  hwx3_3 : ∀ i : grid3.Coords, EltTy.bits .i32 = 32 ∨ (Rect.block (s := S1024x1) S256x1.size (cc3_transform_3 i) (hinb3_3 i)).WholeWords (EltTy.packing .i32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x1.size a ≤ S1024x1.size a
  hwx3_4 : ∀ i : grid3.Coords, EltTy.bits .f32 = 32 ∨ (Rect.block (s := S1024x1) S256x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x1.size a ≤ S1024x1.size a
  hwx3_5 : ∀ i : grid3.Coords, EltTy.bits .f32 = 32 ∨ (Rect.block (s := S1024x1) S256x1.size (cc3_transform_5 i) (hinb3_5 i)).WholeWords (EltTy.packing .f32)

variable [Facts₀]

def dot_S1024x1024_S1024x3_S1024x3_1_0_0_1_n_n : DotDims S1024x1024 S1024x3 S1024x3 where
  lhsContracting := [1]
  rhsContracting := [0]
  lhsNonContracting := [0]
  rhsNonContracting := [1]
  lhsBatch := []
  rhsBatch := []
  wf := dot_S1024x1024_S1024x3_S1024x3_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf
def dot_S256x64_S64x8192_S256x8192_1_0_0_1_n_n : DotDims S256x64 S64x8192 S256x8192 where
  lhsContracting := [1]
  rhsContracting := [0]
  lhsNonContracting := [0]
  rhsNonContracting := [1]
  lhsBatch := []
  rhsBatch := []
  wf := dot_S256x64_S64x8192_S256x8192_1_0_0_1_n_n_wf
def dot_S256x16_S16x8192_S256x8192_1_0_0_1_n_n : DotDims S256x16 S16x8192 S256x8192 where
  lhsContracting := [1]
  rhsContracting := [0]
  lhsNonContracting := [0]
  rhsNonContracting := [1]
  lhsBatch := []
  rhsBatch := []
  wf := dot_S256x16_S16x8192_S256x8192_1_0_0_1_n_n_wf

abbrev win0_0 : Pipeline.Window sig grid0 :=
  Pipeline.Window.ofSpec (Memref.whole main_v9) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S1024x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v10) S1x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v11) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v15) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_arg7) S256x4096.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v16) S1x4096.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_v17) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18_0) S512x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v18_1) S512x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v21) S256x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpecClip (Memref.whole main_arg10) S64x8192.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v22) S1x8192.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpec (Memref.whole main_v23) S256x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v24_0) S256x1.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v24_1) S256x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v27) S256x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpecClip (Memref.whole main_arg13) S16x8192.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v28) S1x8192.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpec (Memref.whole main_v29) S256x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v30_0) S256x1.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v30_1) S256x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun i => !(k3_cond2 i == 1#1) | 5 => fun i => !(k3_cond2 i == 1#1) | ⟨_ + 6, h⟩ => absurd h (Nat.not_lt.2 (Nat.le_add_left _ _))

class Facts : Prop extends Facts₀ where

variable [Facts]
-- ==== ReferenceIdeal.lean ====
abbrev S1024x1024 : Shape := ⟨2, ![1024, 1024]⟩
abbrev S1024 : Shape := ⟨1, ![1024]⟩
abbrev S1024x20000 : Shape := ⟨2, ![1024, 20000]⟩
abbrev S20000 : Shape := ⟨1, ![20000]⟩
abbrev S1024x3 : Shape := ⟨2, ![1024, 3]⟩
abbrev S3 : Shape := ⟨1, ![3]⟩
abbrev S1024x256 : Shape := ⟨2, ![1024, 256]⟩
abbrev S256x40000 : Shape := ⟨2, ![256, 40000]⟩
abbrev S40000 : Shape := ⟨1, ![40000]⟩
abbrev S1024x64 : Shape := ⟨2, ![1024, 64]⟩
abbrev S64x120000 : Shape := ⟨2, ![64, 120000]⟩
abbrev S120000 : Shape := ⟨1, ![120000]⟩
abbrev S1024x16 : Shape := ⟨2, ![1024, 16]⟩
abbrev S16x87735 : Shape := ⟨2, ![16, 87735]⟩
abbrev S87735 : Shape := ⟨1, ![87735]⟩
abbrev S1x20000 : Shape := ⟨2, ![1, 20000]⟩
abbrev S1x3 : Shape := ⟨2, ![1, 3]⟩
abbrev S1024x20003 : Shape := ⟨2, ![1024, 20003]⟩
abbrev S_ : Shape := ⟨0, ![]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S1024x40000 : Shape := ⟨2, ![1024, 40000]⟩
abbrev S1x40000 : Shape := ⟨2, ![1, 40000]⟩
abbrev S1024x120000 : Shape := ⟨2, ![1024, 120000]⟩
abbrev S1x120000 : Shape := ⟨2, ![1, 120000]⟩
abbrev S1024x87735 : Shape := ⟨2, ![1024, 87735]⟩
abbrev S1x87735 : Shape := ⟨2, ![1, 87735]⟩

abbrev nBuf : Space → Nat
  | .hbm => 279
  | .vmem => 0
  | .smem => 0
  | _ => 0

abbrev hbmTy0_0 (i : Nat) : BufTy := match i % 128 with
  | 0 => ⟨S1024x1024, .f32⟩
  | 1 => ⟨S1024, .i32⟩
  | 2 => ⟨S1024x20000, .f32⟩
  | 3 => ⟨S20000, .f32⟩
  | 4 => ⟨S1024x3, .f32⟩
  | 5 => ⟨S3, .f32⟩
  | 6 => ⟨S1024x256, .f32⟩
  | 7 => ⟨S256x40000, .f32⟩
  | 8 => ⟨S40000, .f32⟩
  | 9 => ⟨S1024x64, .f32⟩
  | 10 => ⟨S64x120000, .f32⟩
  | 11 => ⟨S120000, .f32⟩
  | 12 => ⟨S1024x16, .f32⟩
  | 13 => ⟨S16x87735, .f32⟩
  | 14 => ⟨S87735, .f32⟩
  | 15 => ⟨S1024x20000, .f32⟩
  | 16 => ⟨S1x20000, .f32⟩
  | 17 => ⟨S1024x20000, .f32⟩
  | 18 => ⟨S1024x20000, .f32⟩
  | 19 => ⟨S1024x3, .f32⟩
  | 20 => ⟨S1x3, .f32⟩
  | 21 => ⟨S1024x3, .f32⟩
  | 22 => ⟨S1024x3, .f32⟩
  | 23 => ⟨S1024x20003, .f32⟩
  | 24 => ⟨S_, .f32⟩
  | 25 => ⟨S1024, .f32⟩
  | 26 => ⟨S_, .f32⟩
  | 27 => ⟨S1024, .f32⟩
  | 28 => ⟨S1024, .f32⟩
  | 29 => ⟨S1024x1, .f32⟩
  | 30 => ⟨S1024x20003, .f32⟩
  | 31 => ⟨S1024x20003, .f32⟩
  | 32 => ⟨S1024x20003, .f32⟩
  | 33 => ⟨S_, .f32⟩
  | 34 => ⟨S1024, .f32⟩
  | 35 => ⟨S1024x1, .f32⟩
  | 36 => ⟨S1024x1, .f32⟩
  | 37 => ⟨S1024x20003, .f32⟩
  | 38 => ⟨S1024x20003, .f32⟩
  | 39 => ⟨S_, .i32⟩
  | 40 => ⟨S_, .i32⟩
  | 41 => ⟨S_, .i32⟩
  | 42 => ⟨S1024, .i32⟩
  | 43 => ⟨S1024, .i32⟩
  | 44 => ⟨S_, .i32⟩
  | 45 => ⟨S1024, .i32⟩
  | 46 => ⟨S1024, .i32⟩
  | 47 => ⟨S1024x1, .i32⟩
  | 48 => ⟨S_, .i32⟩
  | 49 => ⟨S1024x1, .i32⟩
  | 50 => ⟨S1024x1, .i1⟩
  | 51 => ⟨S_, .i32⟩
  | 52 => ⟨S1024x1, .i32⟩
  | 53 => ⟨S1024x1, .i32⟩
  | 54 => ⟨S1024x1, .i32⟩
  | 55 => ⟨S1024x1x1, .i32⟩
  | 56 => ⟨S1, .i32⟩
  | 57 => ⟨S_, .i32⟩
  | 58 => ⟨S1024x1x1, .i32⟩
  | 59 => ⟨S1024x1x1, .i1⟩
  | 60 => ⟨S1x1x1, .i32⟩
  | 61 => ⟨S1024x1x1, .i32⟩
  | 62 => ⟨S1024x1x1, .i1⟩
  | 63 => ⟨S1024x1x1, .i1⟩
  | 64 => ⟨S_, .i1⟩
  | 65 => ⟨S1024x1, .i1⟩
  | 66 => ⟨S1024x1, .f32⟩
  | 67 => ⟨S_, .f32⟩
  | 68 => ⟨S1024x1, .f32⟩
  | 69 => ⟨S1024x1, .f32⟩
  | 70 => ⟨S1024, .f32⟩
  | 71 => ⟨S_, .i32⟩
  | 72 => ⟨S1024, .i32⟩
  | 73 => ⟨S1024, .i1⟩
  | 74 => ⟨S1024, .f32⟩
  | 75 => ⟨S_, .f32⟩
  | 76 => ⟨S1024, .f32⟩
  | 77 => ⟨S1024, .f32⟩
  | 78 => ⟨S1024x256, .f32⟩
  | 79 => ⟨S1024x40000, .f32⟩
  | 80 => ⟨S1x40000, .f32⟩
  | 81 => ⟨S1024x40000, .f32⟩
  | 82 => ⟨S1024x40000, .f32⟩
  | 83 => ⟨S_, .f32⟩
  | 84 => ⟨S1024, .f32⟩
  | 85 => ⟨S_, .f32⟩
  | 86 => ⟨S1024, .f32⟩
  | 87 => ⟨S1024, .f32⟩
  | 88 => ⟨S1024x1, .f32⟩
  | 89 => ⟨S1024x40000, .f32⟩
  | 90 => ⟨S1024x40000, .f32⟩
  | 91 => ⟨S1024x40000, .f32⟩
  | 92 => ⟨S_, .f32⟩
  | 93 => ⟨S1024, .f32⟩
  | 94 => ⟨S1024x1, .f32⟩
  | 95 => ⟨S1024x1, .f32⟩
  | 96 => ⟨S1024x40000, .f32⟩
  | 97 => ⟨S1024x40000, .f32⟩
  | 98 => ⟨S_, .i32⟩
  | 99 => ⟨S1024, .i32⟩
  | 100 => ⟨S1024, .i32⟩
  | 101 => ⟨S_, .i32⟩
  | 102 => ⟨S_, .i32⟩
  | 103 => ⟨S_, .i32⟩
  | 104 => ⟨S1024, .i32⟩
  | 105 => ⟨S1024, .i32⟩
  | 106 => ⟨S_, .i32⟩
  | 107 => ⟨S1024, .i32⟩
  | 108 => ⟨S1024, .i32⟩
  | 109 => ⟨S1024x1, .f32⟩
  | 110 => ⟨S1024, .f32⟩
  | 111 => ⟨S1024x1, .i32⟩
  | 112 => ⟨S_, .i32⟩
  | 113 => ⟨S1024x1, .i32⟩
  | 114 => ⟨S1024x1, .i1⟩
  | 115 => ⟨S_, .i32⟩
  | 116 => ⟨S1024x1, .i32⟩
  | 117 => ⟨S1024x1, .i32⟩
  | 118 => ⟨S1024x1, .i32⟩
  | 119 => ⟨S1024x1x1, .i32⟩
  | 120 => ⟨S1, .i32⟩
  | 121 => ⟨S_, .i32⟩
  | 122 => ⟨S1024x1x1, .i32⟩
  | 123 => ⟨S1024x1x1, .i1⟩
  | 124 => ⟨S1x1x1, .i32⟩
  | 125 => ⟨S1024x1x1, .i32⟩
  | 126 => ⟨S1024x1x1, .i1⟩
  | 127 => ⟨S1024x1x1, .i1⟩
  | _ => ⟨S1024x1024, .f32⟩

abbrev hbmTy0_1 (i : Nat) : BufTy := match i % 128 with
  | 0 => ⟨S_, .i1⟩
  | 1 => ⟨S1024x1, .i1⟩
  | 2 => ⟨S1024x1, .f32⟩
  | 3 => ⟨S_, .f32⟩
  | 4 => ⟨S1024x1, .f32⟩
  | 5 => ⟨S1024x1, .f32⟩
  | 6 => ⟨S1024, .f32⟩
  | 7 => ⟨S1024, .f32⟩
  | 8 => ⟨S_, .i32⟩
  | 9 => ⟨S1024, .i32⟩
  | 10 => ⟨S1024, .i1⟩
  | 11 => ⟨S_, .i32⟩
  | 12 => ⟨S1024, .i32⟩
  | 13 => ⟨S1024, .i1⟩
  | 14 => ⟨S1024, .i1⟩
  | 15 => ⟨S1024, .f32⟩
  | 16 => ⟨S1024, .f32⟩
  | 17 => ⟨S1024x64, .f32⟩
  | 18 => ⟨S1024x120000, .f32⟩
  | 19 => ⟨S1x120000, .f32⟩
  | 20 => ⟨S1024x120000, .f32⟩
  | 21 => ⟨S1024x120000, .f32⟩
  | 22 => ⟨S_, .f32⟩
  | 23 => ⟨S1024, .f32⟩
  | 24 => ⟨S_, .f32⟩
  | 25 => ⟨S1024, .f32⟩
  | 26 => ⟨S1024, .f32⟩
  | 27 => ⟨S1024x1, .f32⟩
  | 28 => ⟨S1024x120000, .f32⟩
  | 29 => ⟨S1024x120000, .f32⟩
  | 30 => ⟨S1024x120000, .f32⟩
  | 31 => ⟨S_, .f32⟩
  | 32 => ⟨S1024, .f32⟩
  | 33 => ⟨S1024x1, .f32⟩
  | 34 => ⟨S1024x1, .f32⟩
  | 35 => ⟨S1024x120000, .f32⟩
  | 36 => ⟨S1024x120000, .f32⟩
  | 37 => ⟨S_, .i32⟩
  | 38 => ⟨S1024, .i32⟩
  | 39 => ⟨S1024, .i32⟩
  | 40 => ⟨S_, .i32⟩
  | 41 => ⟨S_, .i32⟩
  | 42 => ⟨S_, .i32⟩
  | 43 => ⟨S1024, .i32⟩
  | 44 => ⟨S1024, .i32⟩
  | 45 => ⟨S_, .i32⟩
  | 46 => ⟨S1024, .i32⟩
  | 47 => ⟨S1024, .i32⟩
  | 48 => ⟨S1024x1, .f32⟩
  | 49 => ⟨S1024, .f32⟩
  | 50 => ⟨S1024x1, .i32⟩
  | 51 => ⟨S_, .i32⟩
  | 52 => ⟨S1024x1, .i32⟩
  | 53 => ⟨S1024x1, .i1⟩
  | 54 => ⟨S_, .i32⟩
  | 55 => ⟨S1024x1, .i32⟩
  | 56 => ⟨S1024x1, .i32⟩
  | 57 => ⟨S1024x1, .i32⟩
  | 58 => ⟨S1024x1x1, .i32⟩
  | 59 => ⟨S1, .i32⟩
  | 60 => ⟨S_, .i32⟩
  | 61 => ⟨S1024x1x1, .i32⟩
  | 62 => ⟨S1024x1x1, .i1⟩
  | 63 => ⟨S1x1x1, .i32⟩
  | 64 => ⟨S1024x1x1, .i32⟩
  | 65 => ⟨S1024x1x1, .i1⟩
  | 66 => ⟨S1024x1x1, .i1⟩
  | 67 => ⟨S_, .i1⟩
  | 68 => ⟨S1024x1, .i1⟩
  | 69 => ⟨S1024x1, .f32⟩
  | 70 => ⟨S_, .f32⟩
  | 71 => ⟨S1024x1, .f32⟩
  | 72 => ⟨S1024x1, .f32⟩
  | 73 => ⟨S1024, .f32⟩
  | 74 => ⟨S1024, .f32⟩
  | 75 => ⟨S_, .i32⟩
  | 76 => ⟨S1024, .i32⟩
  | 77 => ⟨S1024, .i1⟩
  | 78 => ⟨S_, .i32⟩
  | 79 => ⟨S1024, .i32⟩
  | 80 => ⟨S1024, .i1⟩
  | 81 => ⟨S1024, .i1⟩
  | 82 => ⟨S1024, .f32⟩
  | 83 => ⟨S1024, .f32⟩
  | 84 => ⟨S1024x16, .f32⟩
  | 85 => ⟨S1024x87735, .f32⟩
  | 86 => ⟨S1x87735, .f32⟩
  | 87 => ⟨S1024x87735, .f32⟩
  | 88 => ⟨S1024x87735, .f32⟩
  | 89 => ⟨S_, .f32⟩
  | 90 => ⟨S1024, .f32⟩
  | 91 => ⟨S_, .f32⟩
  | 92 => ⟨S1024, .f32⟩
  | 93 => ⟨S1024, .f32⟩
  | 94 => ⟨S1024x1, .f32⟩
  | 95 => ⟨S1024x87735, .f32⟩
  | 96 => ⟨S1024x87735, .f32⟩
  | 97 => ⟨S1024x87735, .f32⟩
  | 98 => ⟨S_, .f32⟩
  | 99 => ⟨S1024, .f32⟩
  | 100 => ⟨S1024x1, .f32⟩
  | 101 => ⟨S1024x1, .f32⟩
  | 102 => ⟨S1024x87735, .f32⟩
  | 103 => ⟨S1024x87735, .f32⟩
  | 104 => ⟨S_, .i32⟩
  | 105 => ⟨S1024, .i32⟩
  | 106 => ⟨S1024, .i32⟩
  | 107 => ⟨S_, .i32⟩
  | 108 => ⟨S_, .i32⟩
  | 109 => ⟨S_, .i32⟩
  | 110 => ⟨S1024, .i32⟩
  | 111 => ⟨S1024, .i32⟩
  | 112 => ⟨S_, .i32⟩
  | 113 => ⟨S1024, .i32⟩
  | 114 => ⟨S1024, .i32⟩
  | 115 => ⟨S1024x1, .f32⟩
  | 116 => ⟨S1024, .f32⟩
  | 117 => ⟨S1024x1, .i32⟩
  | 118 => ⟨S_, .i32⟩
  | 119 => ⟨S1024x1, .i32⟩
  | 120 => ⟨S1024x1, .i1⟩
  | 121 => ⟨S_, .i32⟩
  | 122 => ⟨S1024x1, .i32⟩
  | 123 => ⟨S1024x1, .i32⟩
  | 124 => ⟨S1024x1, .i32⟩
  | 125 => ⟨S1024x1x1, .i32⟩
  | 126 => ⟨S1, .i32⟩
  | 127 => ⟨S_, .i32⟩
  | _ => ⟨S1024x1024, .f32⟩

abbrev hbmTy0_2 (i : Nat) : BufTy := match i % 128 with
  | 0 => ⟨S1024x1x1, .i32⟩
  | 1 => ⟨S1024x1x1, .i1⟩
  | 2 => ⟨S1x1x1, .i32⟩
  | 3 => ⟨S1024x1x1, .i32⟩
  | 4 => ⟨S1024x1x1, .i1⟩
  | 5 => ⟨S1024x1x1, .i1⟩
  | 6 => ⟨S_, .i1⟩
  | 7 => ⟨S1024x1, .i1⟩
  | 8 => ⟨S1024x1, .f32⟩
  | 9 => ⟨S_, .f32⟩
  | 10 => ⟨S1024x1, .f32⟩
  | 11 => ⟨S1024x1, .f32⟩
  | 12 => ⟨S1024, .f32⟩
  | 13 => ⟨S1024, .f32⟩
  | 14 => ⟨S_, .i32⟩
  | 15 => ⟨S1024, .i32⟩
  | 16 => ⟨S1024, .i1⟩
  | 17 => ⟨S_, .i32⟩
  | 18 => ⟨S1024, .i32⟩
  | 19 => ⟨S1024, .i1⟩
  | 20 => ⟨S1024, .i1⟩
  | 21 => ⟨S1024, .f32⟩
  | 22 => ⟨S1024, .f32⟩
  | _ => ⟨S1024x1024, .f32⟩

abbrev hbmTy (i : Nat) : BufTy := match i / 128 with
  | 0 => hbmTy0_0 i
  | 1 => hbmTy0_1 i
  | 2 => hbmTy0_2 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_cst : Ref sig .tc := ⟨.hbm, 24, rfl⟩
abbrev main_call0_v0 : Ref sig .tc := ⟨.hbm, 25, rfl⟩
abbrev main_call0_cst_0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_cst_1 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_v9 : Ref sig .tc := ⟨.hbm, 38, rfl⟩
abbrev main_c : Ref sig .tc := ⟨.hbm, 39, rfl⟩
abbrev main_c_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v10 : Ref sig .tc := ⟨.hbm, 46, rfl⟩
abbrev main_v11 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_cst : Ref sig .tc := ⟨.hbm, 67, rfl⟩
abbrev main_call2_v14 : Ref sig .tc := ⟨.hbm, 68, rfl⟩
abbrev main_v12 : Ref sig .tc := ⟨.hbm, 69, rfl⟩
abbrev main_v13 : Ref sig .tc := ⟨.hbm, 70, rfl⟩
abbrev main_c_1 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_cst : Ref sig .tc := ⟨.hbm, 75, rfl⟩
abbrev main_call3_v0 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_call4_cst : Ref sig .tc := ⟨.hbm, 83, rfl⟩
abbrev main_call4_v0 : Ref sig .tc := ⟨.hbm, 84, rfl⟩
abbrev main_call4_cst_0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_call4_v5 : Ref sig .tc := ⟨.hbm, 90, rfl⟩
abbrev main_call4_v6 : Ref sig .tc := ⟨.hbm, 91, rfl⟩
abbrev main_call4_cst_1 : Ref sig .tc := ⟨.hbm, 92, rfl⟩
abbrev main_call4_v7 : Ref sig .tc := ⟨.hbm, 93, rfl⟩
abbrev main_call4_v8 : Ref sig .tc := ⟨.hbm, 94, rfl⟩
abbrev main_call4_v9 : Ref sig .tc := ⟨.hbm, 95, rfl⟩
abbrev main_call4_v10 : Ref sig .tc := ⟨.hbm, 96, rfl⟩
abbrev main_v23 : Ref sig .tc := ⟨.hbm, 97, rfl⟩
abbrev main_c_2 : Ref sig .tc := ⟨.hbm, 98, rfl⟩
abbrev main_v24 : Ref sig .tc := ⟨.hbm, 99, rfl⟩
abbrev main_v25 : Ref sig .tc := ⟨.hbm, 100, rfl⟩
abbrev main_c_3 : Ref sig .tc := ⟨.hbm, 101, rfl⟩
abbrev main_c_4 : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_call6_c : Ref sig .tc := ⟨.hbm, 112, rfl⟩
abbrev main_call6_v0 : Ref sig .tc := ⟨.hbm, 113, rfl⟩
abbrev main_call6_v1 : Ref sig .tc := ⟨.hbm, 114, rfl⟩
abbrev main_call6_c_0 : Ref sig .tc := ⟨.hbm, 115, rfl⟩
abbrev main_call6_v2 : Ref sig .tc := ⟨.hbm, 116, rfl⟩
abbrev main_call6_v3 : Ref sig .tc := ⟨.hbm, 117, rfl⟩
abbrev main_call6_v4 : Ref sig .tc := ⟨.hbm, 118, rfl⟩
abbrev main_call6_v5 : Ref sig .tc := ⟨.hbm, 119, rfl⟩
abbrev main_call6_c_1 : Ref sig .tc := ⟨.hbm, 120, rfl⟩
abbrev main_call6_c_2 : Ref sig .tc := ⟨.hbm, 121, rfl⟩
abbrev main_call6_v6 : Ref sig .tc := ⟨.hbm, 122, rfl⟩
abbrev main_call6_v7 : Ref sig .tc := ⟨.hbm, 123, rfl⟩
abbrev main_call6_v8 : Ref sig .tc := ⟨.hbm, 124, rfl⟩
abbrev main_call6_v9 : Ref sig .tc := ⟨.hbm, 125, rfl⟩
abbrev main_call6_v10 : Ref sig .tc := ⟨.hbm, 126, rfl⟩
abbrev main_call6_v11 : Ref sig .tc := ⟨.hbm, 127, rfl⟩
abbrev main_call6_c_3 : Ref sig .tc := ⟨.hbm, 128, rfl⟩
abbrev main_call6_v12 : Ref sig .tc := ⟨.hbm, 129, rfl⟩
abbrev main_call6_v13 : Ref sig .tc := ⟨.hbm, 130, rfl⟩
abbrev main_call6_cst : Ref sig .tc := ⟨.hbm, 131, rfl⟩
abbrev main_call6_v14 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_c_5 : Ref sig .tc := ⟨.hbm, 136, rfl⟩
abbrev main_v33 : Ref sig .tc := ⟨.hbm, 137, rfl⟩
abbrev main_v34 : Ref sig .tc := ⟨.hbm, 138, rfl⟩
abbrev main_c_6 : Ref sig .tc := ⟨.hbm, 139, rfl⟩
abbrev main_v35 : Ref sig .tc := ⟨.hbm, 140, rfl⟩
abbrev main_v36 : Ref sig .tc := ⟨.hbm, 141, rfl⟩
abbrev main_v37 : Ref sig .tc := ⟨.hbm, 142, rfl⟩
abbrev main_v38 : Ref sig .tc := ⟨.hbm, 143, rfl⟩
abbrev main_v39 : Ref sig .tc := ⟨.hbm, 144, rfl⟩
abbrev main_v40 : Ref sig .tc := ⟨.hbm, 145, rfl⟩
abbrev main_v41 : Ref sig .tc := ⟨.hbm, 146, rfl⟩
abbrev main_v42 : Ref sig .tc := ⟨.hbm, 147, rfl⟩
abbrev main_v43 : Ref sig .tc := ⟨.hbm, 148, rfl⟩
abbrev main_v44 : Ref sig .tc := ⟨.hbm, 149, rfl⟩
abbrev main_call8_cst : Ref sig .tc := ⟨.hbm, 150, rfl⟩
abbrev main_call8_v0 : Ref sig .tc := ⟨.hbm, 151, rfl⟩
abbrev main_call8_cst_0 : Ref sig .tc := ⟨.hbm, 152, rfl⟩
abbrev main_call8_v1 : Ref sig .tc := ⟨.hbm, 153, rfl⟩
abbrev main_call8_v2 : Ref sig .tc := ⟨.hbm, 154, rfl⟩
abbrev main_call8_v3 : Ref sig .tc := ⟨.hbm, 155, rfl⟩
abbrev main_call8_v4 : Ref sig .tc := ⟨.hbm, 156, rfl⟩
abbrev main_call8_v5 : Ref sig .tc := ⟨.hbm, 157, rfl⟩
abbrev main_call8_v6 : Ref sig .tc := ⟨.hbm, 158, rfl⟩
abbrev main_call8_cst_1 : Ref sig .tc := ⟨.hbm, 159, rfl⟩
abbrev main_call8_v7 : Ref sig .tc := ⟨.hbm, 160, rfl⟩
abbrev main_call8_v8 : Ref sig .tc := ⟨.hbm, 161, rfl⟩
abbrev main_call8_v9 : Ref sig .tc := ⟨.hbm, 162, rfl⟩
abbrev main_call8_v10 : Ref sig .tc := ⟨.hbm, 163, rfl⟩
abbrev main_v45 : Ref sig .tc := ⟨.hbm, 164, rfl⟩
abbrev main_c_7 : Ref sig .tc := ⟨.hbm, 165, rfl⟩
abbrev main_v46 : Ref sig .tc := ⟨.hbm, 166, rfl⟩
abbrev main_v47 : Ref sig .tc := ⟨.hbm, 167, rfl⟩
abbrev main_c_8 : Ref sig .tc := ⟨.hbm, 168, rfl⟩
abbrev main_c_9 : Ref sig .tc := ⟨.hbm, 169, rfl⟩
abbrev main_call9_v0 : Ref sig .tc := ⟨.hbm, 170, rfl⟩
abbrev main_call9_v1 : Ref sig .tc := ⟨.hbm, 171, rfl⟩
abbrev main_call9_v2 : Ref sig .tc := ⟨.hbm, 172, rfl⟩
abbrev main_call9_v3 : Ref sig .tc := ⟨.hbm, 173, rfl⟩
abbrev main_call9_v4 : Ref sig .tc := ⟨.hbm, 174, rfl⟩
abbrev main_v48 : Ref sig .tc := ⟨.hbm, 175, rfl⟩
abbrev main_v49 : Ref sig .tc := ⟨.hbm, 176, rfl⟩
abbrev main_v50 : Ref sig .tc := ⟨.hbm, 177, rfl⟩
abbrev main_v51 : Ref sig .tc := ⟨.hbm, 178, rfl⟩
abbrev main_call10_c : Ref sig .tc := ⟨.hbm, 179, rfl⟩
abbrev main_call10_v0 : Ref sig .tc := ⟨.hbm, 180, rfl⟩
abbrev main_call10_v1 : Ref sig .tc := ⟨.hbm, 181, rfl⟩
abbrev main_call10_c_0 : Ref sig .tc := ⟨.hbm, 182, rfl⟩
abbrev main_call10_v2 : Ref sig .tc := ⟨.hbm, 183, rfl⟩
abbrev main_call10_v3 : Ref sig .tc := ⟨.hbm, 184, rfl⟩
abbrev main_call10_v4 : Ref sig .tc := ⟨.hbm, 185, rfl⟩
abbrev main_call10_v5 : Ref sig .tc := ⟨.hbm, 186, rfl⟩
abbrev main_call10_c_1 : Ref sig .tc := ⟨.hbm, 187, rfl⟩
abbrev main_call10_c_2 : Ref sig .tc := ⟨.hbm, 188, rfl⟩
abbrev main_call10_v6 : Ref sig .tc := ⟨.hbm, 189, rfl⟩
abbrev main_call10_v7 : Ref sig .tc := ⟨.hbm, 190, rfl⟩
abbrev main_call10_v8 : Ref sig .tc := ⟨.hbm, 191, rfl⟩
abbrev main_call10_v9 : Ref sig .tc := ⟨.hbm, 192, rfl⟩
abbrev main_call10_v10 : Ref sig .tc := ⟨.hbm, 193, rfl⟩
abbrev main_call10_v11 : Ref sig .tc := ⟨.hbm, 194, rfl⟩
abbrev main_call10_c_3 : Ref sig .tc := ⟨.hbm, 195, rfl⟩
abbrev main_call10_v12 : Ref sig .tc := ⟨.hbm, 196, rfl⟩
abbrev main_call10_v13 : Ref sig .tc := ⟨.hbm, 197, rfl⟩
abbrev main_call10_cst : Ref sig .tc := ⟨.hbm, 198, rfl⟩
abbrev main_call10_v14 : Ref sig .tc := ⟨.hbm, 199, rfl⟩
abbrev main_v52 : Ref sig .tc := ⟨.hbm, 200, rfl⟩
abbrev main_v53 : Ref sig .tc := ⟨.hbm, 201, rfl⟩
abbrev main_v54 : Ref sig .tc := ⟨.hbm, 202, rfl⟩
abbrev main_c_10 : Ref sig .tc := ⟨.hbm, 203, rfl⟩
abbrev main_v55 : Ref sig .tc := ⟨.hbm, 204, rfl⟩
abbrev main_v56 : Ref sig .tc := ⟨.hbm, 205, rfl⟩
abbrev main_c_11 : Ref sig .tc := ⟨.hbm, 206, rfl⟩
abbrev main_v57 : Ref sig .tc := ⟨.hbm, 207, rfl⟩
abbrev main_v58 : Ref sig .tc := ⟨.hbm, 208, rfl⟩
abbrev main_v59 : Ref sig .tc := ⟨.hbm, 209, rfl⟩
abbrev main_v60 : Ref sig .tc := ⟨.hbm, 210, rfl⟩
abbrev main_v61 : Ref sig .tc := ⟨.hbm, 211, rfl⟩
abbrev main_v62 : Ref sig .tc := ⟨.hbm, 212, rfl⟩
abbrev main_v63 : Ref sig .tc := ⟨.hbm, 213, rfl⟩
abbrev main_v64 : Ref sig .tc := ⟨.hbm, 214, rfl⟩
abbrev main_v65 : Ref sig .tc := ⟨.hbm, 215, rfl⟩
abbrev main_v66 : Ref sig .tc := ⟨.hbm, 216, rfl⟩
abbrev main_call12_cst : Ref sig .tc := ⟨.hbm, 217, rfl⟩
abbrev main_call12_v0 : Ref sig .tc := ⟨.hbm, 218, rfl⟩
abbrev main_call12_cst_0 : Ref sig .tc := ⟨.hbm, 219, rfl⟩
abbrev main_call12_v1 : Ref sig .tc := ⟨.hbm, 220, rfl⟩
abbrev main_call12_v2 : Ref sig .tc := ⟨.hbm, 221, rfl⟩
abbrev main_call12_v3 : Ref sig .tc := ⟨.hbm, 222, rfl⟩
abbrev main_call12_v4 : Ref sig .tc := ⟨.hbm, 223, rfl⟩
abbrev main_call12_v5 : Ref sig .tc := ⟨.hbm, 224, rfl⟩
abbrev main_call12_v6 : Ref sig .tc := ⟨.hbm, 225, rfl⟩
abbrev main_call12_cst_1 : Ref sig .tc := ⟨.hbm, 226, rfl⟩
abbrev main_call12_v7 : Ref sig .tc := ⟨.hbm, 227, rfl⟩
abbrev main_call12_v8 : Ref sig .tc := ⟨.hbm, 228, rfl⟩
abbrev main_call12_v9 : Ref sig .tc := ⟨.hbm, 229, rfl⟩
abbrev main_call12_v10 : Ref sig .tc := ⟨.hbm, 230, rfl⟩
abbrev main_v67 : Ref sig .tc := ⟨.hbm, 231, rfl⟩
abbrev main_c_12 : Ref sig .tc := ⟨.hbm, 232, rfl⟩
abbrev main_v68 : Ref sig .tc := ⟨.hbm, 233, rfl⟩
abbrev main_v69 : Ref sig .tc := ⟨.hbm, 234, rfl⟩
abbrev main_c_13 : Ref sig .tc := ⟨.hbm, 235, rfl⟩
abbrev main_c_14 : Ref sig .tc := ⟨.hbm, 236, rfl⟩
abbrev main_call13_v0 : Ref sig .tc := ⟨.hbm, 237, rfl⟩
abbrev main_call13_v1 : Ref sig .tc := ⟨.hbm, 238, rfl⟩
abbrev main_call13_v2 : Ref sig .tc := ⟨.hbm, 239, rfl⟩
abbrev main_call13_v3 : Ref sig .tc := ⟨.hbm, 240, rfl⟩
abbrev main_call13_v4 : Ref sig .tc := ⟨.hbm, 241, rfl⟩
abbrev main_v70 : Ref sig .tc := ⟨.hbm, 242, rfl⟩
abbrev main_v71 : Ref sig .tc := ⟨.hbm, 243, rfl⟩
abbrev main_v72 : Ref sig .tc := ⟨.hbm, 244, rfl⟩
abbrev main_v73 : Ref sig .tc := ⟨.hbm, 245, rfl⟩
abbrev main_call14_c : Ref sig .tc := ⟨.hbm, 246, rfl⟩
abbrev main_call14_v0 : Ref sig .tc := ⟨.hbm, 247, rfl⟩
abbrev main_call14_v1 : Ref sig .tc := ⟨.hbm, 248, rfl⟩
abbrev main_call14_c_0 : Ref sig .tc := ⟨.hbm, 249, rfl⟩
abbrev main_call14_v2 : Ref sig .tc := ⟨.hbm, 250, rfl⟩
abbrev main_call14_v3 : Ref sig .tc := ⟨.hbm, 251, rfl⟩
abbrev main_call14_v4 : Ref sig .tc := ⟨.hbm, 252, rfl⟩
abbrev main_call14_v5 : Ref sig .tc := ⟨.hbm, 253, rfl⟩
abbrev main_call14_c_1 : Ref sig .tc := ⟨.hbm, 254, rfl⟩
abbrev main_call14_c_2 : Ref sig .tc := ⟨.hbm, 255, rfl⟩
abbrev main_call14_v6 : Ref sig .tc := ⟨.hbm, 256, rfl⟩
abbrev main_call14_v7 : Ref sig .tc := ⟨.hbm, 257, rfl⟩
abbrev main_call14_v8 : Ref sig .tc := ⟨.hbm, 258, rfl⟩
abbrev main_call14_v9 : Ref sig .tc := ⟨.hbm, 259, rfl⟩
abbrev main_call14_v10 : Ref sig .tc := ⟨.hbm, 260, rfl⟩
abbrev main_call14_v11 : Ref sig .tc := ⟨.hbm, 261, rfl⟩
abbrev main_call14_c_3 : Ref sig .tc := ⟨.hbm, 262, rfl⟩
abbrev main_call14_v12 : Ref sig .tc := ⟨.hbm, 263, rfl⟩
abbrev main_call14_v13 : Ref sig .tc := ⟨.hbm, 264, rfl⟩
abbrev main_call14_cst : Ref sig .tc := ⟨.hbm, 265, rfl⟩
abbrev main_call14_v14 : Ref sig .tc := ⟨.hbm, 266, rfl⟩
abbrev main_v74 : Ref sig .tc := ⟨.hbm, 267, rfl⟩
abbrev main_v75 : Ref sig .tc := ⟨.hbm, 268, rfl⟩
abbrev main_v76 : Ref sig .tc := ⟨.hbm, 269, rfl⟩
abbrev main_c_15 : Ref sig .tc := ⟨.hbm, 270, rfl⟩
abbrev main_v77 : Ref sig .tc := ⟨.hbm, 271, rfl⟩
abbrev main_v78 : Ref sig .tc := ⟨.hbm, 272, rfl⟩
abbrev main_c_16 : Ref sig .tc := ⟨.hbm, 273, rfl⟩
abbrev main_v79 : Ref sig .tc := ⟨.hbm, 274, rfl⟩
abbrev main_v80 : Ref sig .tc := ⟨.hbm, 275, rfl⟩
abbrev main_v81 : Ref sig .tc := ⟨.hbm, 276, rfl⟩
abbrev main_v82 : Ref sig .tc := ⟨.hbm, 277, rfl⟩
abbrev main_v83 : Ref sig .tc := ⟨.hbm, 278, rfl⟩

abbrev nD : Nat := 1
abbrev τ : Topo := Topo.v7x

variable {F : FTy → Type} [FloatOps F]

class Facts₀ : Prop where
  bcast_S20000_S1x20000_1 : S20000.BroadcastsInDim S1x20000 (![1] : Fin 1 → Fin S1x20000.rank)
  bcast_S1x20000_S1024x20000_0_1 : S1x20000.BroadcastsInDim S1024x20000 (![0, 1] : Fin 2 → Fin S1024x20000.rank)
  bcast_S3_S1x3_1 : S3.BroadcastsInDim S1x3 (![1] : Fin 1 → Fin S1x3.rank)
  bcast_S1x3_S1024x3_0_1 : S1x3.BroadcastsInDim S1024x3 (![0, 1] : Fin 2 → Fin S1024x3.rank)
  concatenates_S1024x20000_S1024x3_S1024x20003_d1 : Shape.Concatenates [S1024x20000, S1024x3] S1024x20003 1
  reducesTo_S1024x20003_S1024_d1 : S1024x20003.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x20003_0_1 : S1024x1.BroadcastsInDim S1024x20003 (![0, 1] : Fin 2 → Fin S1024x20003.rank)
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  bcast_S40000_S1x40000_1 : S40000.BroadcastsInDim S1x40000 (![1] : Fin 1 → Fin S1x40000.rank)
  bcast_S1x40000_S1024x40000_0_1 : S1x40000.BroadcastsInDim S1024x40000 (![0, 1] : Fin 2 → Fin S1024x40000.rank)
  reducesTo_S1024x40000_S1024_d1 : S1024x40000.ReducesTo [1] S1024
  bcast_S1024x1_S1024x40000_0_1 : S1024x1.BroadcastsInDim S1024x40000 (![0, 1] : Fin 2 → Fin S1024x40000.rank)
  slices_S1024x20003_S1024x1_0_20002 : S1024x20003.Slices ![0, 20002] S1024x1
  bcast_S120000_S1x120000_1 : S120000.BroadcastsInDim S1x120000 (![1] : Fin 1 → Fin S1x120000.rank)
  bcast_S1x120000_S1024x120000_0_1 : S1x120000.BroadcastsInDim S1024x120000 (![0, 1] : Fin 2 → Fin S1024x120000.rank)
  reducesTo_S1024x120000_S1024_d1 : S1024x120000.ReducesTo [1] S1024
  bcast_S1024x1_S1024x120000_0_1 : S1024x1.BroadcastsInDim S1024x120000 (![0, 1] : Fin 2 → Fin S1024x120000.rank)
  slices_S1024x20003_S1024x1_0_20001 : S1024x20003.Slices ![0, 20001] S1024x1
  bcast_S87735_S1x87735_1 : S87735.BroadcastsInDim S1x87735 (![1] : Fin 1 → Fin S1x87735.rank)
  bcast_S1x87735_S1024x87735_0_1 : S1x87735.BroadcastsInDim S1024x87735 (![0, 1] : Fin 2 → Fin S1024x87735.rank)
  reducesTo_S1024x87735_S1024_d1 : S1024x87735.ReducesTo [1] S1024
  bcast_S1024x1_S1024x87735_0_1 : S1024x1.BroadcastsInDim S1024x87735 (![0, 1] : Fin 2 → Fin S1024x87735.rank)
  slices_S1024x20003_S1024x1_0_20000 : S1024x20003.Slices ![0, 20000] S1024x1
  dot_S1024x1024_S1024x20000_S1024x20000_1_0_0_1_n_n_wf : DotDims.WF S1024x1024 S1024x20000 S1024x20000 [1] [0] [0] [1] [] []
  dot_S1024x1024_S1024x3_S1024x3_1_0_0_1_n_n_wf : DotDims.WF S1024x1024 S1024x3 S1024x3 [1] [0] [0] [1] [] []
  gather_S1024x20003_S1024x1x1_S1024x1_n_1_0_0_1_2_11_wf : GatherDims.WF S1024x20003 S1024x1x1 S1024x1 [] [1] [0] [1] [0] 2 ![1, 1]
  dot_S1024x1024_S1024x256_S1024x256_1_0_0_1_n_n_wf : DotDims.WF S1024x1024 S1024x256 S1024x256 [1] [0] [0] [1] [] []
  dot_S1024x256_S256x40000_S1024x40000_1_0_0_1_n_n_wf : DotDims.WF S1024x256 S256x40000 S1024x40000 [1] [0] [0] [1] [] []
  gather_S1024x40000_S1024x1x1_S1024x1_n_1_0_0_1_2_11_wf : GatherDims.WF S1024x40000 S1024x1x1 S1024x1 [] [1] [0] [1] [0] 2 ![1, 1]
  dot_S1024x1024_S1024x64_S1024x64_1_0_0_1_n_n_wf : DotDims.WF S1024x1024 S1024x64 S1024x64 [1] [0] [0] [1] [] []
  dot_S1024x64_S64x120000_S1024x120000_1_0_0_1_n_n_wf : DotDims.WF S1024x64 S64x120000 S1024x120000 [1] [0] [0] [1] [] []
  gather_S1024x120000_S1024x1x1_S1024x1_n_1_0_0_1_2_11_wf : GatherDims.WF S1024x120000 S1024x1x1 S1024x1 [] [1] [0] [1] [0] 2 ![1, 1]
  dot_S1024x1024_S1024x16_S1024x16_1_0_0_1_n_n_wf : DotDims.WF S1024x1024 S1024x16 S1024x16 [1] [0] [0] [1] [] []
  dot_S1024x16_S16x87735_S1024x87735_1_0_0_1_n_n_wf : DotDims.WF S1024x16 S16x87735 S1024x87735 [1] [0] [0] [1] [] []
  gather_S1024x87735_S1024x1x1_S1024x1_n_1_0_0_1_2_11_wf : GatherDims.WF S1024x87735 S1024x1x1 S1024x1 [] [1] [0] [1] [0] 2 ![1, 1]

variable [Facts₀]

def dot_S1024x1024_S1024x20000_S1024x20000_1_0_0_1_n_n : DotDims S1024x1024 S1024x20000 S1024x20000 where
  lhsContracting := [1]
  rhsContracting := [0]
  lhsNonContracting := [0]
  rhsNonContracting := [1]
  lhsBatch := []
  rhsBatch := []
  wf := dot_S1024x1024_S1024x20000_S1024x20000_1_0_0_1_n_n_wf
def dot_S1024x1024_S1024x3_S1024x3_1_0_0_1_n_n : DotDims S1024x1024 S1024x3 S1024x3 where
  lhsContracting := [1]
  rhsContracting := [0]
  lhsNonContracting := [0]
  rhsNonContracting := [1]
  lhsBatch := []
  rhsBatch := []
  wf := dot_S1024x1024_S1024x3_S1024x3_1_0_0_1_n_n_wf
def gather_S1024x20003_S1024x1x1_S1024x1_n_1_0_0_1_2_11 : GatherDims S1024x20003 S1024x1x1 S1024x1 where
  offsetDims := []
  collapsedSliceDims := [1]
  operandBatchingDims := [0]
  startIndicesBatchingDims := [0]
  startIndexMap := [1]
  indexVectorDim := 2
  sliceSizes := ![1, 1]
  wf := gather_S1024x20003_S1024x1x1_S1024x1_n_1_0_0_1_2_11_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x40000_S1024x40000_1_0_0_1_n_n : DotDims S1024x256 S256x40000 S1024x40000 where
  lhsContracting := [1]
  rhsContracting := [0]
  lhsNonContracting := [0]
  rhsNonContracting := [1]
  lhsBatch := []
  rhsBatch := []
  wf := dot_S1024x256_S256x40000_S1024x40000_1_0_0_1_n_n_wf
def gather_S1024x40000_S1024x1x1_S1024x1_n_1_0_0_1_2_11 : GatherDims S1024x40000 S1024x1x1 S1024x1 where
  offsetDims := []
  collapsedSliceDims := [1]
  operandBatchingDims := [0]
  startIndicesBatchingDims := [0]
  startIndexMap := [1]
  indexVectorDim := 2
  sliceSizes := ![1, 1]
  wf := gather_S1024x40000_S1024x1x1_S1024x1_n_1_0_0_1_2_11_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x120000_S1024x120000_1_0_0_1_n_n : DotDims S1024x64 S64x120000 S1024x120000 where
  lhsContracting := [1]
  rhsContracting := [0]
  lhsNonContracting := [0]
  rhsNonContracting := [1]
  lhsBatch := []
  rhsBatch := []
  wf := dot_S1024x64_S64x120000_S1024x120000_1_0_0_1_n_n_wf
def gather_S1024x120000_S1024x1x1_S1024x1_n_1_0_0_1_2_11 : GatherDims S1024x120000 S1024x1x1 S1024x1 where
  offsetDims := []
  collapsedSliceDims := [1]
  operandBatchingDims := [0]
  startIndicesBatchingDims := [0]
  startIndexMap := [1]
  indexVectorDim := 2
  sliceSizes := ![1, 1]
  wf := gather_S1024x120000_S1024x1x1_S1024x1_n_1_0_0_1_2_11_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x87735_S1024x87735_1_0_0_1_n_n : DotDims S1024x16 S16x87735 S1024x87735 where
  lhsContracting := [1]
  rhsContracting := [0]
  lhsNonContracting := [0]
  rhsNonContracting := [1]
  lhsBatch := []
  rhsBatch := []
  wf := dot_S1024x16_S16x87735_S1024x87735_1_0_0_1_n_n_wf
def gather_S1024x87735_S1024x1x1_S1024x1_n_1_0_0_1_2_11 : GatherDims S1024x87735 S1024x1x1 S1024x1 where
  offsetDims := []
  collapsedSliceDims := [1]
  operandBatchingDims := [0]
  startIndicesBatchingDims := [0]
  startIndexMap := [1]
  indexVectorDim := 2
  sliceSizes := ![1, 1]
  wf := gather_S1024x87735_S1024x1x1_S1024x1_n_1_0_0_1_2_11_wf

class Facts : Prop extends Facts₀ where

variable [Facts]
-- ==== Proof.Preserves.lean ====
import proofs.«407035_j66254165508793_2_alg».proof.Defs

noncomputable section

namespace Cert.Proof.Preserves

open Idealize.ShloMosaic

theorem fill_named : IdealRules.named_const.Statement Cert.KernelIdeal.κ "neg_big" .f32 0xF149F2CA#32 ⊥ :=
  IdealRules.named_const.statement Cert.KernelIdeal.κ "neg_big" .f32 0xF149F2CA#32 ⊥ rfl

theorem preserves : Cert.preserves_Kernel_KernelIdeal :=
  ⟨fill_named, fill_named, fill_named, fill_named⟩

end Cert.Proof.Preserves

end
-- ==== Proof.PreRead.lean ====
import proofs.«407035_j66254165508793_2_alg».proof.Defs
import Idealize.ShloMosaic.Lib.ReduceAll
import Idealize.ShloMosaic.Lib.ValueIdx
import Idealize.ShloMosaic.Lib.StableHlo.Predicate

noncomputable section

namespace Cert.Proof.PreRead

open Idealize.ShloMosaic Idealize.ShloMosaic.ValueIdx
open Cert.Pre_finite_inputs

instance : Subsingleton S_.Idx := ⟨fun a b => funext fun d => d.elim0⟩

theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ y : ℝ, x = (y : EReal) := by
  have hinf : Ideal.ofBits .f32 0x7F800000#32 = (⊤ : EReal) := by simp [Ideal.ofBits, Ideal.ieee]
  change BitVec.ofBool (decide (max x (-x) < Ideal.ofBits .f32 0x7F800000#32)) = 1#1 at h
  rw [hinf, StableHlo.Predicate.ofBool_eq_one_iff, decide_eq_true_eq] at h
  induction x using EReal.rec with
  | bot => simp at h
  | coe r => exact ⟨r, rfl⟩
  | top => simp at h

theorem toInt_nonneg_of_sge (w : BitVec 32) (h : IntOp.cmpi .sge w 0#32 = 1#1) : 0 ≤ w.toInt := by
  unfold IntOp.cmpi at h
  rw [StableHlo.Predicate.ofBool_eq_one_iff] at h
  simpa [BitVec.sle] using h

theorem and_split {A B : IVec S_ 1} (h : andi A B ix0 = 1#1) : A ix0 = 1#1 ∧ B ix0 = 1#1 :=
  IntOp.andi_eq_one.mp h

theorem all_real {s : Shape} {axes : List (Fin s.rank)} (x : FVec Ideal s .f32) (hb : S_.BroadcastsInDim s (![] : Fin 0 → Fin s.rank))
    (hr : s.ReducesTo axes S_) (hu : 0 < S_.numel)
    (e : Host.reduce IntOp.andi
          (cmpf .olt (Host.absf x) (broadcastInDim s ![] hb (constant S_ .f32 0x7F800000#32)))
          (constantI S_ 1 1#1) hr hu ix0 = 1#1) :
    ∀ i, ∃ y : ℝ, x i = (y : EReal) := fun i =>
  real_of_abs_lt_inf (x i) (Host.reduce_andi_all _ _ hr hu ix0 e i)

theorem all_nonneg {s : Shape} {axes : List (Fin s.rank)} (t : IVec s 32) (hb : S_.BroadcastsInDim s (![] : Fin 0 → Fin s.rank))
    (hr : s.ReducesTo axes S_) (hu : 0 < S_.numel)
    (e : Host.reduce IntOp.andi
          (cmpi .sge t (broadcastInDim s ![] hb (constantI S_ 32 0#32)))
          (constantI S_ 1 1#1) hr hu ix0 = 1#1) :
    ∀ i, 0 ≤ (t i).toInt := fun i =>
  toInt_nonneg_of_sge (t i) (Host.reduce_andi_all _ _ hr hu ix0 e i)

variable [Cert.Pre_finite_inputs.Facts]

theorem finite_of_pre
    (a0 : FVec Ideal S1024x1024 .f32) (a1 : IVec S1024 32) (a2 : FVec Ideal S1024x20000 .f32)
    (a3 : FVec Ideal S20000 .f32) (a4 : FVec Ideal S1024x3 .f32) (a5 : FVec Ideal S3 .f32)
    (a6 : FVec Ideal S1024x256 .f32) (a7 : FVec Ideal S256x40000 .f32) (a8 : FVec Ideal S40000 .f32)
    (a9 : FVec Ideal S1024x64 .f32) (a10 : FVec Ideal S64x120000 .f32) (a11 : FVec Ideal S120000 .f32)
    (a12 : FVec Ideal S1024x16 .f32) (a13 : FVec Ideal S16x87735 .f32) (a14 : FVec Ideal S87735 .f32)
    (h : Cert.Pre_finite_inputs.fn (F := Ideal) a0 a1 a2 a3 a4 a5 a6 a7 a8 a9 a10 a11 a12 a13 a14 = fun _ => 1#1) :
    (∀ i, ∃ y : ℝ, a0 i = (y : EReal)) ∧ (∀ i, ∃ y : ℝ, a2 i = (y : EReal)) ∧ (∀ i, ∃ y : ℝ, a3 i = (y : EReal))
    ∧ (∀ i, ∃ y : ℝ, a4 i = (y : EReal)) ∧ (∀ i, ∃ y : ℝ, a5 i = (y : EReal)) ∧ (∀ i, ∃ y : ℝ, a6 i = (y : EReal))
    ∧ (∀ i, ∃ y : ℝ, a7 i = (y : EReal)) ∧ (∀ i, ∃ y : ℝ, a8 i = (y : EReal)) ∧ (∀ i, ∃ y : ℝ, a9 i = (y : EReal))
    ∧ (∀ i, ∃ y : ℝ, a10 i = (y : EReal)) ∧ (∀ i, ∃ y : ℝ, a11 i = (y : EReal)) ∧ (∀ i, ∃ y : ℝ, a12 i = (y : EReal))
    ∧ (∀ i, ∃ y : ℝ, a13 i = (y : EReal)) ∧ (∀ i, ∃ y : ℝ, a14 i = (y : EReal))
    ∧ (∀ i, 0 ≤ (a1 i).toInt) := by
  have h0 := congrFun h ix0
  dsimp only [fn, fn_part1, fn_part2, fn_part3, fn_part4] at h0
  obtain ⟨h0, e1⟩ := and_split h0
  obtain ⟨h0, e14⟩ := and_split h0
  obtain ⟨h0, e13⟩ := and_split h0
  obtain ⟨h0, e12⟩ := and_split h0
  obtain ⟨h0, e11⟩ := and_split h0
  obtain ⟨h0, e10⟩ := and_split h0
  obtain ⟨h0, e9⟩ := and_split h0
  obtain ⟨h0, e8⟩ := and_split h0
  obtain ⟨h0, e7⟩ := and_split h0
  obtain ⟨h0, e6⟩ := and_split h0
  obtain ⟨h0, e5⟩ := and_split h0
  obtain ⟨h0, e4⟩ := and_split h0
  obtain ⟨h0, e3⟩ := and_split h0
  obtain ⟨e0, e2⟩ := and_split h0
  exact ⟨all_real a0 _ _ _ e0, all_real a2 _ _ _ e2, all_real a3 _ _ _ e3, all_real a4 _ _ _ e4,
    all_real a5 _ _ _ e5, all_real a6 _ _ _ e6, all_real a7 _ _ _ e7, all_real a8 _ _ _ e8,
    all_real a9 _ _ _ e9, all_real a10 _ _ _ e10, all_real a11 _ _ _ e11, all_real a12 _ _ _ e12,
    all_real a13 _ _ _ e13, all_real a14 _ _ _ e14, all_nonneg a1 _ _ _ e1⟩

end Cert.Proof.PreRead
-- ==== Proof.Spec.lean ====
import Idealize.ShloMosaic.PureOps.Ideal
import Idealize.ShloMosaic.Lib.ValueIdx

noncomputable section

namespace Cert.Spec

open Idealize.ShloMosaic

def dot {K : ℕ} (a b : Fin K → EReal) : EReal := ∑ k, a k * b k

def logits {K n : ℕ} (x : Fin K → EReal) (W : Fin K → Fin n → EReal) (b : Fin n → EReal) : Fin n → EReal :=
  fun c => dot x (fun k => W k c) + b c

def proj {K n : ℕ} (x : Fin K → EReal) (W : Fin K → Fin n → EReal) : Fin n → EReal :=
  fun e => dot x (fun k => W k e)

def blk (T n : ℕ) (X : Fin n → EReal) (k : ℕ) (j : Fin T) : EReal :=
  if h : k * T + j.val < n then X ⟨k * T + j.val, h⟩ else ⊥

def hit (T n : ℕ) (t : BitVec 32) (k : ℕ) (j : Fin T) : Bool :=
  (BitVec.ofNat 32 j.val == t - BitVec.ofNat 32 (k * T)) && decide (k * T + j.val < n)

def step {T : ℕ} (x : Fin T → EReal) (hitx : Fin T → Bool) (s : EReal × EReal × EReal) : EReal × EReal × EReal :=
  (max s.1 (Finset.univ.sup x),
   Ideal.exp (s.1 - max s.1 (Finset.univ.sup x)) * s.2.1 + ∑ j, Ideal.exp (x j - max s.1 (Finset.univ.sup x)),
   s.2.2 + ∑ j, (if hitx j then x j else 0))

def online (T n : ℕ) (X : Fin n → EReal) (t : BitVec 32) : ℕ → EReal × EReal × EReal
  | 0 => (⊥, 0, 0)
  | k + 1 => step (blk T n X k) (hit T n t k) (online T n X t k)

def lseOnline (T n nb : ℕ) (X : Fin n → EReal) (t : BitVec 32) : EReal :=
  (online T n X t nb).1 + Ideal.log (online T n X t nb).2.1

def selOnline (T n nb : ℕ) (X : Fin n → EReal) (t : BitVec 32) : EReal :=
  (online T n X t nb).2.2

def lsm {n : ℕ} (x : Fin n → EReal) (j : Fin n) : EReal :=
  (x j - Finset.univ.sup x) - Ideal.log (∑ c, Ideal.exp (x c - Finset.univ.sup x))

def clipNat (t : BitVec 32) (hi : ℕ) : ℕ := (min (hi : ℤ) (max 0 t.toInt)).toNat

theorem clipNat_le (t : BitVec 32) (hi : ℕ) : clipNat t hi ≤ hi := by
  unfold clipNat; omega

def headCat (X0 : Fin 20000 → EReal) (cl : Fin 3 → EReal) : Fin 20003 → EReal :=
  fun j => if h : j.val < 20000 then X0 ⟨j.val, h⟩ else cl ⟨j.val - 20000, by omega⟩

section rows

variable (h : Fin 1024 → EReal) (t : BitVec 32)
  (Wh : Fin 1024 → Fin 20000 → EReal) (bh : Fin 20000 → EReal)
  (Wc : Fin 1024 → Fin 3 → EReal) (bc : Fin 3 → EReal)
  (Wp1 : Fin 1024 → Fin 256 → EReal) (Wt1 : Fin 256 → Fin 40000 → EReal) (bt1 : Fin 40000 → EReal)
  (Wp2 : Fin 1024 → Fin 64 → EReal) (Wt2 : Fin 64 → Fin 120000 → EReal) (bt2 : Fin 120000 → EReal)
  (Wp3 : Fin 1024 → Fin 16 → EReal) (Wt3 : Fin 16 → Fin 87735 → EReal) (bt3 : Fin 87735 → EReal)

abbrev X0 : Fin 20000 → EReal := logits h Wh bh

abbrev cl : Fin 3 → EReal := logits h Wc bc

abbrev X1 : Fin 40000 → EReal := logits (proj h Wp1) Wt1 bt1
abbrev X2 : Fin 120000 → EReal := logits (proj h Wp2) Wt2 bt2
abbrev X3 : Fin 87735 → EReal := logits (proj h Wp3) Wt3 bt3

def fullK : EReal :=
  let lseH := lseOnline 2048 20000 10 (X0 h Wh bh) (t - 0#32)
  let m2 := max lseH (Finset.univ.sup (cl h Wc bc))
  m2 + Ideal.log (Ideal.exp (lseH - m2) + ∑ j, Ideal.exp (cl h Wc bc j - m2))

def nllK : EReal :=
  let full := fullK h t Wh bh Wc bc
  let n0 : EReal := if BitVec.slt t 20000#32 then -(selOnline 2048 20000 10 (X0 h Wh bh) (t - 0#32) - full) else 0
  let n1 : EReal := if (BitVec.sle 20000#32 t && BitVec.slt t 60000#32) then
      -((cl h Wc bc 2 - full) + (selOnline 4096 40000 10 (X1 h Wp1 Wt1 bt1) (t - 20000#32) - lseOnline 4096 40000 10 (X1 h Wp1 Wt1 bt1) (t - 20000#32))) else n0
  let n2 : EReal := if (BitVec.sle 60000#32 t && BitVec.slt t 180000#32) then
      -((cl h Wc bc 1 - full) + (selOnline 8192 120000 15 (X2 h Wp2 Wt2 bt2) (t - 60000#32) - lseOnline 8192 120000 15 (X2 h Wp2 Wt2 bt2) (t - 60000#32))) else n1
  if (BitVec.sle 180000#32 t && BitVec.slt t 267735#32) then
      -((cl h Wc bc 0 - full) + (selOnline 8192 87735 11 (X3 h Wp3 Wt3 bt3) (t - 180000#32) - lseOnline 8192 87735 11 (X3 h Wp3 Wt3 bt3) (t - 180000#32))) else n2

def nllR : EReal :=
  let H := headCat (X0 h Wh bh) (cl h Wc bc)
  let r0 : EReal := if BitVec.slt t 20000#32 then -(lsm H ⟨clipNat t 19999, by have := clipNat_le t 19999; omega⟩) else 0
  let r1 : EReal := if (BitVec.sle 20000#32 t && BitVec.slt t 60000#32) then
      -(lsm H ⟨20002, by omega⟩ + lsm (X1 h Wp1 Wt1 bt1) ⟨clipNat (t - 20000#32) 39999, by have := clipNat_le (t - 20000#32) 39999; omega⟩) else r0
  let r2 : EReal := if (BitVec.sle 60000#32 t && BitVec.slt t 180000#32) then
      -(lsm H ⟨20001, by omega⟩ + lsm (X2 h Wp2 Wt2 bt2) ⟨clipNat (t - 60000#32) 119999, by have := clipNat_le (t - 60000#32) 119999; omega⟩) else r1
  if (BitVec.sle 180000#32 t && BitVec.slt t 267735#32) then
      -(lsm H ⟨20000, by omega⟩ + lsm (X3 h Wp3 Wt3 bt3) ⟨clipNat (t - 180000#32) 87734, by have := clipNat_le (t - 180000#32) 87734; omega⟩) else r2

end rows

open ValueIdx in

abbrev row {a b : ℕ} (A : (⟨2, ![a, b]⟩ : Shape).Idx → EReal) (i : Fin a) : Fin b → EReal := fun d => A (ValueIdx.ix2 i d)

abbrev mat {a b : ℕ} (A : (⟨2, ![a, b]⟩ : Shape).Idx → EReal) : Fin a → Fin b → EReal := fun p q => A (ValueIdx.ix2 p q)

abbrev vec {a : ℕ} (A : (⟨1, ![a]⟩ : Shape).Idx → EReal) : Fin a → EReal := fun p => A (ValueIdx.ix1 p)

section arrays

variable (hidden : (⟨2, ![1024, 1024]⟩ : Shape).Idx → EReal) (target : (⟨1, ![1024]⟩ : Shape).Idx → BitVec 32)
  (W_head : (⟨2, ![1024, 20000]⟩ : Shape).Idx → EReal) (b_head : (⟨1, ![20000]⟩ : Shape).Idx → EReal)
  (W_cluster : (⟨2, ![1024, 3]⟩ : Shape).Idx → EReal) (b_cluster : (⟨1, ![3]⟩ : Shape).Idx → EReal)
  (W_proj1 : (⟨2, ![1024, 256]⟩ : Shape).Idx → EReal) (W_tail1 : (⟨2, ![256, 40000]⟩ : Shape).Idx → EReal) (b_tail1 : (⟨1, ![40000]⟩ : Shape).Idx → EReal)
  (W_proj2 : (⟨2, ![1024, 64]⟩ : Shape).Idx → EReal) (W_tail2 : (⟨2, ![64, 120000]⟩ : Shape).Idx → EReal) (b_tail2 : (⟨1, ![120000]⟩ : Shape).Idx → EReal)
  (W_proj3 : (⟨2, ![1024, 16]⟩ : Shape).Idx → EReal) (W_tail3 : (⟨2, ![16, 87735]⟩ : Shape).Idx → EReal) (b_tail3 : (⟨1, ![87735]⟩ : Shape).Idx → EReal)

def nllKArr : (⟨1, ![1024]⟩ : Shape).Idx → EReal := fun i =>
  nllK (row hidden (i 0)) (target i) (mat W_head) (vec b_head) (mat W_cluster) (vec b_cluster)
    (mat W_proj1) (mat W_tail1) (vec b_tail1) (mat W_proj2) (mat W_tail2) (vec b_tail2) (mat W_proj3) (mat W_tail3) (vec b_tail3)

def nllRArr : (⟨1, ![1024]⟩ : Shape).Idx → EReal := fun i =>
  nllR (row hidden (i 0)) (target i) (mat W_head) (vec b_head) (mat W_cluster) (vec b_cluster)
    (mat W_proj1) (mat W_tail1) (vec b_tail1) (mat W_proj2) (mat W_tail2) (vec b_tail2) (mat W_proj3) (mat W_tail3) (vec b_tail3)

end arrays

end Cert.Spec

end
-- ==== Proof.SpecLaws.lean ====
import proofs.«407035_j66254165508793_2_alg».proof.Proof.Spec
import Mathlib.Analysis.SpecialFunctions.Log.Basic
import Mathlib.Algebra.BigOperators.Fin
import Mathlib.Data.EReal.Operations

noncomputable section

namespace Cert.Spec

open Idealize.ShloMosaic

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

def lse {n : ℕ} (x : Fin n → ℝ) : ℝ := Real.log (∑ c, Real.exp (x c))

theorem sum_exp_pos {n : ℕ} (hn : 0 < n) (x : Fin n → ℝ) : 0 < ∑ c, Real.exp (x c) := by
  have : Nonempty (Fin n) := ⟨⟨0, hn⟩⟩
  exact Finset.sum_pos (fun c _ => Real.exp_pos _) Finset.univ_nonempty

theorem shift_lse {n : ℕ} (hn : 0 < n) (x : Fin n → ℝ) (M : ℝ) :
    M + Real.log (∑ c, Real.exp (x c - M)) = lse x := by
  have hpos := sum_exp_pos hn x
  have hs : ∑ c, Real.exp (x c - M) = (∑ c, Real.exp (x c)) * Real.exp (-M) := by
    rw [Finset.sum_mul]
    refine Finset.sum_congr rfl (fun c _ => ?_)
    rw [← Real.exp_add, sub_eq_add_neg]
  rw [hs, Real.log_mul hpos.ne' (Real.exp_ne_zero _), Real.log_exp]
  unfold lse
  ring

theorem sup_coe_real {n : ℕ} (hn : 0 < n) (x : Fin n → ℝ) :
    ∃ M : ℝ, Finset.univ.sup (fun c => (x c : EReal)) = (M : EReal) := by
  have h1 : Finset.univ.sup (fun c => (x c : EReal)) ≠ ⊤ := by
    apply ne_of_lt
    rw [Finset.sup_lt_iff bot_lt_top]
    intro c _
    exact EReal.coe_lt_top _
  have h2 : Finset.univ.sup (fun c => (x c : EReal)) ≠ ⊥ := by
    apply ne_of_gt
    exact lt_of_lt_of_le (EReal.bot_lt_coe (x ⟨0, hn⟩))
      (Finset.le_sup (f := fun c => (x c : EReal)) (Finset.mem_univ (⟨0, hn⟩ : Fin n)))
  exact ⟨_, (EReal.coe_toReal h1 h2).symm⟩

theorem lsm_coe {n : ℕ} (hn : 0 < n) (x : Fin n → ℝ) (j : Fin n) :
    lsm (fun c => (x c : EReal)) j = ((x j - lse x : ℝ) : EReal) := by
  obtain ⟨M, hM⟩ := sup_coe_real hn x
  unfold lsm
  rw [hM]
  have hs : (∑ c, Ideal.exp ((x c : EReal) - (M : EReal))) = ((∑ c, Real.exp (x c - M) : ℝ) : EReal) := by
    rw [coe_sum]
    refine Finset.sum_congr rfl (fun c _ => ?_)
    rw [← EReal.coe_sub, Ideal.exp_coe]
  rw [hs, Ideal.log_coe, if_neg (not_le.mpr (sum_exp_pos hn (fun c => x c - M))), ← EReal.coe_sub, ← EReal.coe_sub]
  rw [← shift_lse hn x M]
  congr 1
  ring

def expCol {n : ℕ} (x : Fin n → ℝ) (c : ℕ) : ℝ := if h : c < n then Real.exp (x ⟨c, h⟩) else 0

def pickCol {n : ℕ} (x : Fin n → ℝ) (p c : ℕ) : ℝ := if h : c < n then (if c = p then x ⟨c, h⟩ else 0) else 0

theorem sum_expCol {n N : ℕ} (h : n ≤ N) (x : Fin n → ℝ) :
    ∑ c ∈ Finset.range N, expCol x c = ∑ c : Fin n, Real.exp (x c) := by
  rw [← Finset.sum_subset (Finset.range_mono h) (fun c _ hc => ?_), Finset.sum_range]
  · refine Finset.sum_congr rfl (fun c _ => ?_)
    unfold expCol; rw [dif_pos c.isLt]
  · unfold expCol; rw [dif_neg (by simpa using hc)]

theorem sum_pickCol {n N : ℕ} (h : n ≤ N) (x : Fin n → ℝ) (p : ℕ) :
    ∑ c ∈ Finset.range N, pickCol x p c = if hp : p < n then x ⟨p, hp⟩ else 0 := by
  rw [← Finset.sum_subset (Finset.range_mono h) (fun c _ hc => ?_), Finset.sum_range]
  · by_cases hp : p < n
    · rw [dif_pos hp, Finset.sum_eq_single (⟨p, hp⟩ : Fin n)]
      · unfold pickCol; rw [dif_pos hp, if_pos rfl]
      · intro c _ hc; unfold pickCol; rw [dif_pos c.isLt, if_neg (fun e => hc (Fin.ext e))]
      · intro h; exact absurd (Finset.mem_univ _) h
    · rw [dif_neg hp]; refine Finset.sum_eq_zero (fun c _ => ?_)
      unfold pickCol; rw [dif_pos c.isLt, if_neg (by have := c.isLt; omega)]
  · unfold pickCol; rw [dif_neg (by simpa using hc)]

theorem coe_max' (a b : ℝ) : max (a : EReal) (b : EReal) = ((max a b : ℝ) : EReal) :=
  (Monotone.map_max EReal.coe_strictMono.monotone).symm

theorem online_succ {T n : ℕ} (X : Fin n → EReal) (t : BitVec 32) (k : ℕ) :
    online T n X t (k + 1) = step (blk T n X k) (hit T n t k) (online T n X t k) := rfl

theorem online_zero {T n : ℕ} (X : Fin n → EReal) (t : BitVec 32) : online T n X t 0 = (⊥, 0, 0) := rfl

theorem step_fst {T : ℕ} (x : Fin T → EReal) (hitx : Fin T → Bool) (s : EReal × EReal × EReal) :
    (step x hitx s).1 = max s.1 (Finset.univ.sup x) := rfl

theorem step_snd {T : ℕ} (x : Fin T → EReal) (hitx : Fin T → Bool) (s : EReal × EReal × EReal) :
    (step x hitx s).2.1 = Ideal.exp (s.1 - max s.1 (Finset.univ.sup x)) * s.2.1
      + ∑ j, Ideal.exp (x j - max s.1 (Finset.univ.sup x)) := rfl

theorem step_trd {T : ℕ} (x : Fin T → EReal) (hitx : Fin T → Bool) (s : EReal × EReal × EReal) :
    (step x hitx s).2.2 = s.2.2 + ∑ j, (if hitx j then x j else 0) := rfl

section scan
variable {T n : ℕ}

theorem blk_lt_top (x : Fin n → ℝ) (k : ℕ) (j : Fin T) : blk T n (fun c => (x c : EReal)) k j < ⊤ := by
  unfold blk; split
  · exact EReal.coe_lt_top _
  · exact bot_lt_top

theorem blk_sup_real (hT : 0 < T) (x : Fin n → ℝ) (k : ℕ) (hk : k * T < n) :
    ∃ B : ℝ, Finset.univ.sup (blk T n (fun c => (x c : EReal)) k) = (B : EReal) := by
  have h1 : Finset.univ.sup (blk T n (fun c => (x c : EReal)) k) ≠ ⊤ := by
    apply ne_of_lt
    rw [Finset.sup_lt_iff bot_lt_top]
    intro j _; exact blk_lt_top x k j
  have h2 : Finset.univ.sup (blk T n (fun c => (x c : EReal)) k) ≠ ⊥ := by
    apply ne_of_gt
    refine lt_of_lt_of_le ?_ (Finset.le_sup (f := blk T n (fun c => (x c : EReal)) k) (Finset.mem_univ (⟨0, hT⟩ : Fin T)))
    unfold blk
    rw [dif_pos (show k * T + (⟨0, hT⟩ : Fin T).val < n by simpa using hk)]
    exact EReal.bot_lt_coe _
  exact ⟨_, (EReal.coe_toReal h1 h2).symm⟩

theorem blk_exp_sum (x : Fin n → ℝ) (k : ℕ) (M : ℝ) :
    ∑ j, Ideal.exp (blk T n (fun c => (x c : EReal)) k j - (M : EReal))
      = (((∑ j ∈ Finset.range T, expCol x (k * T + j)) * Real.exp (-M) : ℝ) : EReal) := by
  rw [Finset.sum_mul, Finset.sum_range, coe_sum]
  refine Finset.sum_congr rfl (fun j _ => ?_)
  unfold blk expCol
  by_cases h : k * T + j.val < n
  · rw [dif_pos h, dif_pos h]
    show Ideal.exp ((x ⟨k * T + j.val, h⟩ : EReal) - (M : EReal)) = _
    rw [← EReal.coe_sub, Ideal.exp_coe, sub_eq_add_neg, Real.exp_add]
  · rw [dif_neg h, dif_neg h, EReal.bot_sub, Ideal.exp_bot, zero_mul, EReal.coe_zero]

theorem hit_iff (t : BitVec 32) (k : ℕ) (j : Fin T) (hb : k * T + j.val < 2 ^ 32) :
    hit T n t k j = true ↔ (k * T + j.val = t.toNat ∧ k * T + j.val < n) := by
  unfold hit
  rw [Bool.and_eq_true, beq_iff_eq, decide_eq_true_iff]
  refine and_congr_left (fun _ => ?_)
  have ht := t.isLt
  generalize k * T = b at hb
  constructor
  · intro h
    have := congrArg BitVec.toNat h
    simp only [BitVec.toNat_sub, BitVec.toNat_ofNat] at this
    omega
  · intro h
    apply BitVec.eq_of_toNat_eq
    simp only [BitVec.toNat_sub, BitVec.toNat_ofNat]
    omega

theorem blk_pick_sum (x : Fin n → ℝ) (t : BitVec 32) (k : ℕ) (hb : (k + 1) * T ≤ 2 ^ 32) :
    ∑ j, (if hit T n t k j then blk T n (fun c => (x c : EReal)) k j else 0)
      = ((∑ j ∈ Finset.range T, pickCol x t.toNat (k * T + j) : ℝ) : EReal) := by
  rw [Finset.sum_range, coe_sum]
  refine Finset.sum_congr rfl (fun j _ => ?_)
  have hj : k * T + j.val < 2 ^ 32 := by have := j.isLt; rw [add_mul, one_mul] at hb; omega
  have hi := hit_iff (n := n) t k j hj
  unfold pickCol
  by_cases h : k * T + j.val < n
  · rw [dif_pos h]
    by_cases e : k * T + j.val = t.toNat
    · rw [if_pos (hi.mpr ⟨e, h⟩), if_pos e]; unfold blk; rw [dif_pos h]
    · rw [if_neg (fun hh => e (hi.mp hh).1), if_neg e, EReal.coe_zero]
  · rw [dif_neg h, if_neg (fun hh => h (hi.mp hh).2), EReal.coe_zero]

theorem online_pick (x : Fin n → ℝ) (t : BitVec 32) (k : ℕ) (hb : k * T ≤ 2 ^ 32) :
    (online T n (fun c => (x c : EReal)) t k).2.2
      = ((∑ c ∈ Finset.range (k * T), pickCol x t.toNat c : ℝ) : EReal) := by
  induction k with
  | zero => simp [online]
  | succ k ih =>
    have hb' : k * T ≤ 2 ^ 32 := by rw [add_mul, one_mul] at hb; omega
    rw [online_succ, step_trd, ih hb', blk_pick_sum x t k hb, ← EReal.coe_add, add_mul, one_mul,
      Finset.sum_range_add]

theorem online_lse_inv (hT : 0 < T) (x : Fin n → ℝ) (t : BitVec 32) (k : ℕ) (hk : k * T < n) :
    ∃ M S : ℝ, (online T n (fun c => (x c : EReal)) t (k + 1)).1 = (M : EReal) ∧
      (online T n (fun c => (x c : EReal)) t (k + 1)).2.1 = (S : EReal) ∧
      S * Real.exp M = ∑ c ∈ Finset.range ((k + 1) * T), expCol x c := by
  induction k with
  | zero =>
    obtain ⟨B, hB⟩ := blk_sup_real hT x 0 hk
    have e2 : Real.exp (-B) * Real.exp B = 1 := by rw [← Real.exp_add, neg_add_cancel, Real.exp_zero]
    refine ⟨B, (∑ j ∈ Finset.range T, expCol x (0 * T + j)) * Real.exp (-B), ?_, ?_, ?_⟩
    · rw [online_succ, step_fst, hB, online_zero]; exact max_eq_right bot_le
    · rw [online_succ, step_snd, hB, online_zero]
      show Ideal.exp (⊥ - max ⊥ (B : EReal)) * 0
        + ∑ j, Ideal.exp (blk T n (fun c => (x c : EReal)) 0 j - max ⊥ (B : EReal)) = _
      rw [max_eq_right bot_le, blk_exp_sum, mul_zero, zero_add]
    · rw [mul_assoc, e2, mul_one, zero_add, one_mul]
      refine Finset.sum_congr rfl (fun j _ => ?_)
      rw [zero_mul, zero_add]
  | succ k ih =>
    have hk' : k * T < n := by rw [add_mul, one_mul] at hk; omega
    obtain ⟨M, S, h1, h2, h3⟩ := ih hk'
    obtain ⟨B, hB⟩ := blk_sup_real hT x (k + 1) hk
    have e1 : Real.exp (M - max M B) * Real.exp (max M B) = Real.exp M := by
      rw [← Real.exp_add]; congr 1; ring
    have e2 : Real.exp (-(max M B)) * Real.exp (max M B) = 1 := by
      rw [← Real.exp_add, neg_add_cancel, Real.exp_zero]
    refine ⟨max M B, Real.exp (M - max M B) * S
      + (∑ j ∈ Finset.range T, expCol x ((k + 1) * T + j)) * Real.exp (-(max M B)), ?_, ?_, ?_⟩
    · rw [online_succ, step_fst, h1, hB, coe_max']
    · rw [online_succ, step_snd, h1, h2, hB, coe_max', ← EReal.coe_sub, Ideal.exp_coe, blk_exp_sum,
        ← EReal.coe_mul, ← EReal.coe_add]
    · rw [show (k + 1 + 1) * T = (k + 1) * T + T by ring, Finset.sum_range_add, ← h3]
      calc (Real.exp (M - max M B) * S
              + (∑ j ∈ Finset.range T, expCol x ((k + 1) * T + j)) * Real.exp (-(max M B))) * Real.exp (max M B)
          = (Real.exp (M - max M B) * Real.exp (max M B)) * S
              + (∑ j ∈ Finset.range T, expCol x ((k + 1) * T + j))
                * (Real.exp (-(max M B)) * Real.exp (max M B)) := by ring
        _ = _ := by rw [e1, e2]; ring

theorem lseOnline_coe {nb : ℕ} (hT : 0 < T) (h1 : (nb - 1) * T < n) (h2 : n ≤ nb * T)
    (x : Fin n → ℝ) (t : BitVec 32) :
    lseOnline T n nb (fun c => (x c : EReal)) t = ((lse x : ℝ) : EReal) := by
  have hn : 0 < n := by omega
  have hnb : 0 < nb := by
    rcases Nat.eq_zero_or_pos nb with h | h
    · subst h; simp at h2; omega
    · exact h
  obtain ⟨k, rfl⟩ : ∃ k, nb = k + 1 := ⟨nb - 1, by omega⟩
  obtain ⟨M, S, e1, e2, e3⟩ := online_lse_inv hT x t k (by simpa using h1)
  rw [sum_expCol h2] at e3
  have hS : 0 < S := by
    have hp := sum_exp_pos hn x
    rw [← e3] at hp
    by_contra hneg
    have := mul_nonpos_of_nonpos_of_nonneg (not_lt.mp hneg) (Real.exp_pos M).le
    linarith
  unfold lseOnline
  rw [e1, e2, Ideal.log_coe, if_neg (not_le.mpr hS), ← EReal.coe_add]
  congr 1
  unfold lse
  rw [← e3, Real.log_mul hS.ne' (Real.exp_ne_zero _), Real.log_exp]
  ring

theorem selOnline_coe {nb : ℕ} (h2 : n ≤ nb * T) (hb : nb * T ≤ 2 ^ 32) (x : Fin n → ℝ) (t : BitVec 32) :
    selOnline T n nb (fun c => (x c : EReal)) t
      = if hp : t.toNat < n then (x ⟨t.toNat, hp⟩ : EReal) else 0 := by
  unfold selOnline
  rw [online_pick x t nb hb, sum_pickCol h2]
  split <;> simp

end scan

theorem dot_real {K : ℕ} (a b : Fin K → EReal) (ha : ∀ k, ∃ y : ℝ, a k = (y : EReal))
    (hb : ∀ k, ∃ y : ℝ, b k = (y : EReal)) : ∃ y : ℝ, dot a b = (y : EReal) := by
  choose a' ha' using ha
  choose b' hb' using hb
  refine ⟨∑ k, a' k * b' k, ?_⟩
  unfold dot
  rw [coe_sum]
  refine Finset.sum_congr rfl (fun k _ => ?_)
  rw [ha', hb', EReal.coe_mul]

theorem proj_real {K n : ℕ} (x : Fin K → EReal) (W : Fin K → Fin n → EReal)
    (hx : ∀ k, ∃ y : ℝ, x k = (y : EReal)) (hW : ∀ k c, ∃ y : ℝ, W k c = (y : EReal)) :
    ∀ e, ∃ y : ℝ, proj x W e = (y : EReal) :=
  fun e => dot_real x (fun k => W k e) hx (fun k => hW k e)

theorem logits_real {K n : ℕ} (x : Fin K → EReal) (W : Fin K → Fin n → EReal) (b : Fin n → EReal)
    (hx : ∀ k, ∃ y : ℝ, x k = (y : EReal)) (hW : ∀ k c, ∃ y : ℝ, W k c = (y : EReal))
    (hb : ∀ c, ∃ y : ℝ, b c = (y : EReal)) :
    ∃ f : Fin n → ℝ, logits x W b = fun c => (f c : EReal) := by
  have hall : ∀ c, ∃ y : ℝ, logits x W b c = (y : EReal) := by
    intro c
    obtain ⟨d, hd⟩ := dot_real x (fun k => W k c) hx (fun k => hW k c)
    obtain ⟨e, he⟩ := hb c
    exact ⟨d + e, by unfold logits; rw [hd, he, EReal.coe_add]⟩
  choose f hf using hall
  exact ⟨f, funext hf⟩

def hcat (x0 : Fin 20000 → ℝ) (c3 : Fin 3 → ℝ) : Fin 20003 → ℝ :=
  fun j => if h : j.val < 20000 then x0 ⟨j.val, h⟩ else c3 ⟨j.val - 20000, by omega⟩

theorem headCat_coe (x0 : Fin 20000 → ℝ) (c3 : Fin 3 → ℝ) :
    headCat (fun c => (x0 c : EReal)) (fun j => (c3 j : EReal)) = fun j => ((hcat x0 c3 j : ℝ) : EReal) := by
  funext j
  unfold headCat hcat
  split <;> rfl

theorem hcat_word (x0 : Fin 20000 → ℝ) (c3 : Fin 3 → ℝ) (j : Fin 20003) (i : Fin 20000) (h : j.val = i.val) :
    hcat x0 c3 j = x0 i := by
  unfold hcat
  rw [dif_pos (by rw [h]; exact i.isLt)]
  exact congrArg x0 (Fin.ext h)

theorem hcat_cluster (x0 : Fin 20000 → ℝ) (c3 : Fin 3 → ℝ) (j : Fin 20003) (i : Fin 3)
    (h : j.val = 20000 + i.val) : hcat x0 c3 j = c3 i := by
  unfold hcat
  rw [dif_neg (by omega)]
  refine congrArg c3 (Fin.ext ?_)
  show j.val - 20000 = i.val
  omega

theorem sum_hcat (x0 : Fin 20000 → ℝ) (c3 : Fin 3 → ℝ) :
    ∑ j, Real.exp (hcat x0 c3 j) = ∑ c, Real.exp (x0 c) + ∑ j, Real.exp (c3 j) := by
  have e := Fin.sum_univ_add (fun j : Fin (20000 + 3) => Real.exp (hcat x0 c3 j))
  refine e.trans ?_
  refine congrArg₂ (fun a b : ℝ => a + b) ?_ ?_
  · refine Finset.sum_congr rfl (fun i _ => ?_)
    rw [hcat_word x0 c3 _ i rfl]
  · refine Finset.sum_congr rfl (fun i _ => ?_)
    rw [hcat_cluster x0 c3 _ i rfl]

theorem sum_exp_sub_coe {n : ℕ} (x : Fin n → ℝ) (M : ℝ) :
    ∑ c, Ideal.exp ((x c : EReal) - (M : EReal)) = ((∑ c, Real.exp (x c - M) : ℝ) : EReal) := by
  rw [coe_sum]
  refine Finset.sum_congr rfl (fun c _ => ?_)
  rw [← EReal.coe_sub, Ideal.exp_coe]

theorem fullK_eq (h : Fin 1024 → EReal) (t : BitVec 32)
    (Wh : Fin 1024 → Fin 20000 → EReal) (bh : Fin 20000 → EReal)
    (Wc : Fin 1024 → Fin 3 → EReal) (bc : Fin 3 → EReal)
    (x0 : Fin 20000 → ℝ) (c3 : Fin 3 → ℝ)
    (hx0 : logits h Wh bh = fun c => (x0 c : EReal)) (hc3 : logits h Wc bc = fun j => (c3 j : EReal)) :
    fullK h t Wh bh Wc bc = ((lse (hcat x0 c3) : ℝ) : EReal) := by
  unfold fullK X0 cl
  dsimp only
  rw [hx0, hc3, lseOnline_coe (T := 2048) (n := 20000) (nb := 10) (by norm_num) (by norm_num) (by norm_num)]
  obtain ⟨C, hC⟩ := sup_coe_real (by norm_num : 0 < 3) c3
  rw [hC, coe_max']
  generalize max (lse x0) C = m2
  have hpos : 0 < Real.exp (lse x0 - m2) + ∑ j, Real.exp (c3 j - m2) :=
    add_pos_of_pos_of_nonneg (Real.exp_pos _) (Finset.sum_nonneg (fun j _ => (Real.exp_pos _).le))
  rw [sum_exp_sub_coe, ← EReal.coe_sub, Ideal.exp_coe, ← EReal.coe_add, Ideal.log_coe,
    if_neg (not_le.mpr hpos), ← EReal.coe_add]
  congr 1
  rw [← shift_lse (n := 20003) (by norm_num) (hcat x0 c3) m2]
  refine congrArg (fun z : ℝ => m2 + Real.log z) ?_
  have hw : Real.exp (lse x0 - m2) = ∑ c, Real.exp (x0 c - m2) := by
    have hs := shift_lse (n := 20000) (by norm_num) x0 m2
    have hp := sum_exp_pos (n := 20000) (by norm_num) (fun c => x0 c - m2)
    rw [← hs, add_sub_cancel_left, Real.exp_log hp]
  have hsplit := sum_hcat (fun c => x0 c - m2) (fun j => c3 j - m2)
  have hshift : ∀ j, hcat (fun c => x0 c - m2) (fun j => c3 j - m2) j = hcat x0 c3 j - m2 := by
    intro j; unfold hcat; split <;> rfl
  rw [hw, ← hsplit]
  refine Finset.sum_congr rfl (fun j _ => ?_)
  rw [hshift]

theorem toNat_lt_of_toInt_nonneg (t : BitVec 32) (ht : 0 ≤ t.toInt) : t.toNat < 2 ^ 31 := by
  have hlt := t.isLt
  by_contra hge
  rw [BitVec.toInt_eq_toNat_cond, if_neg (by omega)] at ht
  omega

theorem toInt_of_toNat_lt (s : BitVec 32) (hs : s.toNat < 2 ^ 31) : s.toInt = (s.toNat : ℤ) := by
  rw [BitVec.toInt_eq_toNat_cond, if_pos (by omega)]

theorem bucket_idx (t : BitVec 32) (ht : 0 ≤ t.toInt) (off hi n : ℕ) (hn : hi = off + n) (hhi : hi < 2 ^ 31)
    (hc : (BitVec.sle (BitVec.ofNat 32 off) t && BitVec.slt t (BitVec.ofNat 32 hi)) = true) :
    clipNat (t - BitVec.ofNat 32 off) (n - 1) = (t - BitVec.ofNat 32 off).toNat
      ∧ (t - BitVec.ofNat 32 off).toNat < n := by
  have ht1 := toNat_lt_of_toInt_nonneg t ht
  have ht2 := toInt_of_toNat_lt t ht1
  have ho : (BitVec.ofNat 32 off).toNat = off := by
    rw [BitVec.toNat_ofNat]; exact Nat.mod_eq_of_lt (by omega)
  have hh : (BitVec.ofNat 32 hi).toNat = hi := by
    rw [BitVec.toNat_ofNat]; exact Nat.mod_eq_of_lt (by omega)
  have ho2 := toInt_of_toNat_lt (BitVec.ofNat 32 off) (by rw [ho]; omega)
  have hh2 := toInt_of_toNat_lt (BitVec.ofNat 32 hi) (by rw [hh]; omega)
  rw [Bool.and_eq_true] at hc
  obtain ⟨hlo, hup⟩ := hc
  rw [BitVec.sle, decide_eq_true_eq, ho2, ht2, ho] at hlo
  rw [BitVec.slt, decide_eq_true_eq, hh2, ht2, hh] at hup
  have hsub : (t - BitVec.ofNat 32 off).toNat = t.toNat - off := by
    rw [BitVec.toNat_sub, ho]; omega
  have hs2 := toInt_of_toNat_lt (t - BitVec.ofNat 32 off) (by rw [hsub]; omega)
  constructor
  · unfold clipNat; rw [hs2, hsub]; omega
  · rw [hsub]; omega

theorem bucket0_idx (t : BitVec 32) (ht : 0 ≤ t.toInt) (hc : BitVec.slt t 20000#32 = true) :
    clipNat t 19999 = t.toNat ∧ t.toNat < 20000 := by
  have ht1 := toNat_lt_of_toInt_nonneg t ht
  have ht2 := toInt_of_toNat_lt t ht1
  have hh : (20000#32 : BitVec 32).toInt = 20000 := by decide
  rw [BitVec.slt, decide_eq_true_eq, hh, ht2] at hc
  constructor
  · unfold clipNat; rw [ht2]; omega
  · omega

theorem cluster_term {T n nb : ℕ} (hT : 0 < T) (h1 : (nb - 1) * T < n) (h2 : n ≤ nb * T) (hb : nb * T ≤ 2 ^ 32)
    (x : Fin n → ℝ) (s : BitVec 32) (j : Fin n) (hj : j.val = s.toNat) :
    selOnline T n nb (fun c => (x c : EReal)) s - lseOnline T n nb (fun c => (x c : EReal)) s
      = lsm (fun c => (x c : EReal)) j := by
  have hn : 0 < n := by omega
  rw [selOnline_coe h2 hb, lseOnline_coe hT h1 h2, lsm_coe hn, dif_pos (by rw [← hj]; exact j.isLt),
    ← EReal.coe_sub]
  congr 3
  exact Fin.ext hj.symm

theorem nllK_eq_nllR (h : Fin 1024 → EReal) (t : BitVec 32)
    (Wh : Fin 1024 → Fin 20000 → EReal) (bh : Fin 20000 → EReal)
    (Wc : Fin 1024 → Fin 3 → EReal) (bc : Fin 3 → EReal)
    (Wp1 : Fin 1024 → Fin 256 → EReal) (Wt1 : Fin 256 → Fin 40000 → EReal) (bt1 : Fin 40000 → EReal)
    (Wp2 : Fin 1024 → Fin 64 → EReal) (Wt2 : Fin 64 → Fin 120000 → EReal) (bt2 : Fin 120000 → EReal)
    (Wp3 : Fin 1024 → Fin 16 → EReal) (Wt3 : Fin 16 → Fin 87735 → EReal) (bt3 : Fin 87735 → EReal)
    (hh : ∀ d, ∃ y : ℝ, h d = (y : EReal))
    (hWh : ∀ d c, ∃ y : ℝ, Wh d c = (y : EReal)) (hbh : ∀ c, ∃ y : ℝ, bh c = (y : EReal))
    (hWc : ∀ d c, ∃ y : ℝ, Wc d c = (y : EReal)) (hbc : ∀ c, ∃ y : ℝ, bc c = (y : EReal))
    (hWp1 : ∀ d c, ∃ y : ℝ, Wp1 d c = (y : EReal)) (hWt1 : ∀ d c, ∃ y : ℝ, Wt1 d c = (y : EReal))
    (hbt1 : ∀ c, ∃ y : ℝ, bt1 c = (y : EReal))
    (hWp2 : ∀ d c, ∃ y : ℝ, Wp2 d c = (y : EReal)) (hWt2 : ∀ d c, ∃ y : ℝ, Wt2 d c = (y : EReal))
    (hbt2 : ∀ c, ∃ y : ℝ, bt2 c = (y : EReal))
    (hWp3 : ∀ d c, ∃ y : ℝ, Wp3 d c = (y : EReal)) (hWt3 : ∀ d c, ∃ y : ℝ, Wt3 d c = (y : EReal))
    (hbt3 : ∀ c, ∃ y : ℝ, bt3 c = (y : EReal))
    (ht : 0 ≤ t.toInt) :
    nllK h t Wh bh Wc bc Wp1 Wt1 bt1 Wp2 Wt2 bt2 Wp3 Wt3 bt3
      = nllR h t Wh bh Wc bc Wp1 Wt1 bt1 Wp2 Wt2 bt2 Wp3 Wt3 bt3 := by
  obtain ⟨x0, hx0⟩ := logits_real h Wh bh hh hWh hbh
  obtain ⟨c3, hc3⟩ := logits_real h Wc bc hh hWc hbc
  obtain ⟨x1, hx1⟩ := logits_real (proj h Wp1) Wt1 bt1 (proj_real h Wp1 hh hWp1) hWt1 hbt1
  obtain ⟨x2, hx2⟩ := logits_real (proj h Wp2) Wt2 bt2 (proj_real h Wp2 hh hWp2) hWt2 hbt2
  obtain ⟨x3, hx3⟩ := logits_real (proj h Wp3) Wt3 bt3 (proj_real h Wp3 hh hWp3) hWt3 hbt3
  have hfull := fullK_eq h t Wh bh Wc bc x0 c3 hx0 hc3
  unfold nllK nllR X0 cl X1 X2 X3
  dsimp only
  rw [hfull, hx0, hc3, hx1, hx2, hx3, headCat_coe]
  dsimp only
  by_cases b3 : (BitVec.sle 180000#32 t && BitVec.slt t 267735#32) = true
  · rw [if_pos b3, if_pos b3]
    obtain ⟨hclip, hlt⟩ := bucket_idx t ht 180000 267735 87735 rfl (by norm_num) b3
    rw [cluster_term (T := 8192) (nb := 11) (by norm_num) (by norm_num) (by norm_num) (by norm_num) x3
        (t - 180000#32) ⟨clipNat (t - 180000#32) 87734, by have := clipNat_le (t - 180000#32) 87734; omega⟩ hclip,
      lsm_coe (by norm_num) (hcat x0 c3), hcat_cluster x0 c3 ⟨20000, by omega⟩ 0 rfl, EReal.coe_sub]
  · rw [if_neg b3, if_neg b3]
    by_cases b2 : (BitVec.sle 60000#32 t && BitVec.slt t 180000#32) = true
    · rw [if_pos b2, if_pos b2]
      obtain ⟨hclip, hlt⟩ := bucket_idx t ht 60000 180000 120000 rfl (by norm_num) b2
      rw [cluster_term (T := 8192) (nb := 15) (by norm_num) (by norm_num) (by norm_num) (by norm_num) x2
          (t - 60000#32) ⟨clipNat (t - 60000#32) 119999, by have := clipNat_le (t - 60000#32) 119999; omega⟩ hclip,
        lsm_coe (by norm_num) (hcat x0 c3), hcat_cluster x0 c3 ⟨20001, by omega⟩ 1 rfl, EReal.coe_sub]
    · rw [if_neg b2, if_neg b2]
      by_cases b1 : (BitVec.sle 20000#32 t && BitVec.slt t 60000#32) = true
      · rw [if_pos b1, if_pos b1]
        obtain ⟨hclip, hlt⟩ := bucket_idx t ht 20000 60000 40000 rfl (by norm_num) b1
        rw [cluster_term (T := 4096) (nb := 10) (by norm_num) (by norm_num) (by norm_num) (by norm_num) x1
            (t - 20000#32) ⟨clipNat (t - 20000#32) 39999, by have := clipNat_le (t - 20000#32) 39999; omega⟩ hclip,
          lsm_coe (by norm_num) (hcat x0 c3), hcat_cluster x0 c3 ⟨20002, by omega⟩ 2 rfl, EReal.coe_sub]
      · rw [if_neg b1, if_neg b1]
        by_cases b0 : BitVec.slt t 20000#32 = true
        · rw [if_pos b0, if_pos b0]
          obtain ⟨hclip, hlt⟩ := bucket0_idx t ht b0
          rw [BitVec.sub_zero, selOnline_coe (T := 2048) (nb := 10) (by norm_num) (by norm_num), dif_pos hlt,
            lsm_coe (by norm_num) (hcat x0 c3),
            hcat_word x0 c3 ⟨clipNat t 19999, by have := clipNat_le t 19999; omega⟩ ⟨t.toNat, hlt⟩ hclip,
            EReal.coe_sub]
        · rw [if_neg b0, if_neg b0]

theorem nllKArr_eq_nllRArr
    (hidden : (⟨2, ![1024, 1024]⟩ : Shape).Idx → EReal) (target : (⟨1, ![1024]⟩ : Shape).Idx → BitVec 32)
    (W_head : (⟨2, ![1024, 20000]⟩ : Shape).Idx → EReal) (b_head : (⟨1, ![20000]⟩ : Shape).Idx → EReal)
    (W_cluster : (⟨2, ![1024, 3]⟩ : Shape).Idx → EReal) (b_cluster : (⟨1, ![3]⟩ : Shape).Idx → EReal)
    (W_proj1 : (⟨2, ![1024, 256]⟩ : Shape).Idx → EReal) (W_tail1 : (⟨2, ![256, 40000]⟩ : Shape).Idx → EReal)
    (b_tail1 : (⟨1, ![40000]⟩ : Shape).Idx → EReal)
    (W_proj2 : (⟨2, ![1024, 64]⟩ : Shape).Idx → EReal) (W_tail2 : (⟨2, ![64, 120000]⟩ : Shape).Idx → EReal)
    (b_tail2 : (⟨1, ![120000]⟩ : Shape).Idx → EReal)
    (W_proj3 : (⟨2, ![1024, 16]⟩ : Shape).Idx → EReal) (W_tail3 : (⟨2, ![16, 87735]⟩ : Shape).Idx → EReal)
    (b_tail3 : (⟨1, ![87735]⟩ : Shape).Idx → EReal)
    (hhidden : ∀ i, ∃ y : ℝ, hidden i = (y : EReal))
    (hW_head : ∀ i, ∃ y : ℝ, W_head i = (y : EReal)) (hb_head : ∀ i, ∃ y : ℝ, b_head i = (y : EReal))
    (hW_cluster : ∀ i, ∃ y : ℝ, W_cluster i = (y : EReal)) (hb_cluster : ∀ i, ∃ y : ℝ, b_cluster i = (y : EReal))
    (hW_proj1 : ∀ i, ∃ y : ℝ, W_proj1 i = (y : EReal)) (hW_tail1 : ∀ i, ∃ y : ℝ, W_tail1 i = (y : EReal))
    (hb_tail1 : ∀ i, ∃ y : ℝ, b_tail1 i = (y : EReal))
    (hW_proj2 : ∀ i, ∃ y : ℝ, W_proj2 i = (y : EReal)) (hW_tail2 : ∀ i, ∃ y : ℝ, W_tail2 i = (y : EReal))
    (hb_tail2 : ∀ i, ∃ y : ℝ, b_tail2 i = (y : EReal))
    (hW_proj3 : ∀ i, ∃ y : ℝ, W_proj3 i = (y : EReal)) (hW_tail3 : ∀ i, ∃ y : ℝ, W_tail3 i = (y : EReal))
    (hb_tail3 : ∀ i, ∃ y : ℝ, b_tail3 i = (y : EReal))
    (ht : ∀ i, 0 ≤ (target i).toInt) :
    nllKArr hidden target W_head b_head W_cluster b_cluster W_proj1 W_tail1 b_tail1 W_proj2 W_tail2 b_tail2
        W_proj3 W_tail3 b_tail3
      = nllRArr hidden target W_head b_head W_cluster b_cluster W_proj1 W_tail1 b_tail1 W_proj2 W_tail2 b_tail2
        W_proj3 W_tail3 b_tail3 := by
  funext i
  exact nllK_eq_nllR _ _ _ _ _ _ _ _ _ _ _ _ _ _ _
    (fun d => hhidden _) (fun d c => hW_head _) (fun c => hb_head _)
    (fun d c => hW_cluster _) (fun c => hb_cluster _)
    (fun d c => hW_proj1 _) (fun d c => hW_tail1 _) (fun c => hb_tail1 _)
    (fun d c => hW_proj2 _) (fun d c => hW_tail2 _) (fun c => hb_tail2 _)
    (fun d c => hW_proj3 _) (fun d c => hW_tail3 _) (fun c => hb_tail3 _) (ht i)

end Cert.Spec

end
-- ==== Proof.RefRun.lean ====
import proofs.«407035_j66254165508793_2_alg».proof.Proof.RefRead
import Idealize.ShloMosaic.Lib.Pipeline.Frame

noncomputable section

namespace Cert.Proof.RefRunHand

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-- @main's 264 operations in twelve stretches, each ending after an intermediate that later operations read more than once. -/
abbrev ops1 : List (HloOp τ sig (Elt F)) :=
  [
    binary main_arg0 main_arg2 main_v0 ((fun l r => Host.dotGeneral dot_S1024x1024_S1024x20000_S1024x20000_1_0_0_1_n_n none l r) : (⟨S1024x1024, .f32⟩ : BufTy).Contents (Elt F) → (⟨S1024x20000, .f32⟩ : BufTy).Contents (Elt F) → (⟨S1024x20000, .f32⟩ : BufTy).Contents (Elt F)),
    unary main_arg3 main_v1 (broadcastInDim S1x20000 ![1] bcast_S20000_S1x20000_1 : (⟨S20000, .f32⟩ : BufTy).Contents (Elt F) → (⟨S1x20000, .f32⟩ : BufTy).Contents (Elt F)),
    unary main_v1 main_v2 (broadcastInDim S1024x20000 ![0, 1] bcast_S1x20000_S1024x20000_0_1 : (⟨S1x20000, .f32⟩ : BufTy).Contents (Elt F) → (⟨S1024x20000, .f32⟩ : BufTy).Contents (Elt F)),
    binary main_v0 main_v2 main_v3 (addf : (⟨S1024x20000, .f32⟩ : BufTy).Contents (Elt F) → (⟨S1024x20000, .f32⟩ : BufTy).Contents (Elt F) → (⟨S1024x20000, .f32⟩ : BufTy).Contents (Elt F)),
    binary main_arg0 main_arg4 main_v4 ((fun l r => Host.dotGeneral dot_S1024x1024_S1024x3_S1024x3_1_0_0_1_n_n none l r) : (⟨S1024x1024, .f32⟩ : BufTy).Contents (Elt F) → (⟨S1024x3, .f32⟩ : BufTy).Contents (Elt F) → (⟨S1024x3, .f32⟩ : BufTy).Contents (Elt F)),
    unary main_arg5 main_v5 (broadcastInDim S1x3 ![1] bcast_S3_S1x3_1 : (⟨S3, .f32⟩ : BufTy).Contents (Elt F) → (⟨S1x3, .f32⟩ : BufTy).Contents (Elt F)),
    unary main_v5 main_v6 (broadcastInDim S1024x3 ![0, 1] bcast_S1x3_S1024x3_0_1 : (⟨S1x3, .f32⟩ : BufTy).Contents (Elt F) → (⟨S1024x3, .f32⟩ : BufTy).Contents (Elt F)),
    binary main_v4 main_v6 main_v7 (addf : (⟨S1024x3, .f32⟩ : BufTy).Contents (Elt F) → (⟨S1024x3, .f32⟩ : BufTy).Contents (Elt F) → (⟨S1024x3, .f32⟩ : BufTy).Contents (Elt F)),
    binary main_v3 main_v7 main_v8 ((fun a b => concatenate S1024x20003 1 [⟨S1024x20000, a⟩, ⟨S1024x3, b⟩] concatenates_S1024x20000_S1024x3_S1024x20003_d1) : (⟨S1024x20000, .f32⟩ : BufTy).Contents (Elt F) → (⟨S1024x3, .f32⟩ : BufTy).Contents (Elt F) → (⟨S1024x20003, .f32⟩ : BufTy).Contents (Elt F)) ]

abbrev ops2 : List (HloOp τ sig (Elt F)) :=
  [
    TRef.nullary (TRef.of (T := ⟨S_, .f32⟩) main_call0_cst) (constant S_ .f32 0xFF800000#32),
    TRef.binary (TRef.of (T := ⟨S1024x20003, .f32⟩) main_v8) (TRef.of (T := ⟨S_, .f32⟩) main_call0_cst) (TRef.of (T := ⟨S1024, .f32⟩) main_call0_v0) (fun x v => Host.reduce FloatOps.maximumf x v reducesTo_S1024x20003_S1024_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1024, .f32⟩) main_call0_v1) (broadcastInDim S1024 ![] bcast_S_S1024),
    TRef.binary (TRef.of (T := ⟨S1024, .f32⟩) main_call0_v1) (TRef.of (T := ⟨S1024, .f32⟩) main_call0_v0) (TRef.of (T := ⟨S1024, .f32⟩) main_call0_v2) maximumf,
    TRef.unary (TRef.of (T := ⟨S1024, .f32⟩) main_call0_v2) (TRef.of (T := ⟨S1024x1, .f32⟩) main_call0_v3) (broadcastInDim S1024x1 ![0] bcast_S1024_S1024x1_0),
    TRef.unary (TRef.of (T := ⟨S1024x1, .f32⟩) main_call0_v3) (TRef.of (T := ⟨S1024x20003, .f32⟩) main_call0_v4) (broadcastInDim S1024x20003 ![0, 1] bcast_S1024x1_S1024x20003_0_1),
    TRef.binary (TRef.of (T := ⟨S1024x20003, .f32⟩) main_v8) (TRef.of (T := ⟨S1024x20003, .f32⟩) main_call0_v4) (TRef.of (T := ⟨S1024x20003, .f32⟩) main_call0_v5) subf,
    TRef.unary (TRef.of (T := ⟨S1024x20003, .f32⟩) main_call0_v5) (TRef.of (T := ⟨S1024x20003, .f32⟩) main_call0_v6) Host.exp,
    TRef.nullary (TRef.of (T := ⟨S_, .f32⟩) main_call0_cst_1) (constant S_ .f32 0x00000000#32),
    TRef.binary (TRef.of (T := ⟨S1024x20003, .f32⟩) main_call0_v6) (TRef.of (T := ⟨S_, .f32⟩) main_call0_cst_1) (TRef.of (T := ⟨S1024, .f32⟩) main_call0_v7) (fun x v => Host.reduceAdd x v reducesTo_S1024x20003_S1024_d1 h_S_),
    TRef.unary (TRef.of (T := ⟨S1024, .f32⟩) main_call0_v7) (TRef.of (T := ⟨S1024x1, .f32⟩) main_call0_v8) (broadcastInDim S1024x1 ![0] bcast_S1024_S1024x1_0),
    TRef.unary (TRef.of (T := ⟨S1024x1, .f32⟩) main_call0_v8) (TRef.of (T := ⟨S1024x1, .f32⟩) main_call0_v9) Host.log,
    TRef.unary (TRef.of (T := ⟨S1024x1, .f32⟩) main_call0_v9) (TRef.of (T := ⟨S1024x20003, .f32⟩) main_call0_v10) (broadcastInDim S1024x20003 ![0, 1] bcast_S1024x1_S1024x20003_0_1),
    TRef.binary (TRef.of (T := ⟨S1024x20003, .f32⟩) main_call0_v5) (TRef.of (T := ⟨S1024x20003, .f32⟩) main_call0_v10) (TRef.of (T := ⟨S1024x20003, .f32⟩) main_v9) subf ]

abbrev ops3 : List (HloOp τ sig (Elt F)) :=
  [
    nullary main_c (constantI S_ 32 0#32),
    nullary main_c_0 (constantI S_ 32 19999#32),
    TRef.unary (TRef.of (T := ⟨S_, .i32⟩) main_c) (TRef.of (T := ⟨S_, .i32⟩) main_call1_v0) id,
    TRef.unary (TRef.of (T := ⟨S_, .i32⟩) main_call1_v0) (TRef.of (T := ⟨S1024, .i32⟩) main_call1_v1) (broadcastInDim S1024 ![] bcast_S_S1024),
    TRef.binary (TRef.of (T := ⟨S1024, .i32⟩) main_call1_v1) (TRef.of (T := ⟨S1024, .i32⟩) main_arg1) (TRef.of (T := ⟨S1024, .i32⟩) main_call1_v2) maxsi,
    TRef.unary (TRef.of (T := ⟨S_, .i32⟩) main_c_0) (TRef.of (T := ⟨S_, .i32⟩) main_call1_v3) id,
    TRef.unary (TRef.of (T := ⟨S_, .i32⟩) main_call1_v3) (TRef.of (T := ⟨S1024, .i32⟩) main_call1_v4) (broadcastInDim S1024 ![] bcast_S_S1024),
    TRef.binary (TRef.of (T := ⟨S1024, .i32⟩) main_call1_v4) (TRef.of (T := ⟨S1024, .i32⟩) main_call1_v2) (TRef.of (T := ⟨S1024, .i32⟩) main_v10) minsi,
    unary main_v10 main_v11 (broadcastInDim S1024x1 ![0] bcast_S1024_S1024x1_0 : (⟨S1024, .i32⟩ : BufTy).Contents (Elt F) → (⟨S1024x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S1024x1, .i32⟩) main_call2_v0) (broadcastInDim S1024x1 ![] bcast_S_S1024x1),
    TRef.binary (TRef.of (T := ⟨S1024x1, .i32⟩) main_v11) (TRef.of (T := ⟨S1024x1, .i32⟩) main_call2_v0) (TRef.of (T := ⟨S1024x1, .i1⟩) main_call2_v1) (cmpi .slt),
    TRef.nullary (TRef.of (T := ⟨S_, .i32⟩) main_call2_c_0) (constantI S_ 32 20003#32),
    TRef.unary (TRef.of (T := ⟨S_, .i32⟩) main_call2_c_0) (TRef.of (T := ⟨S1024x1, .i32⟩) main_call2_v2) (broadcastInDim S1024x1 ![] bcast_S_S1024x1),
    TRef.binary (TRef.of (T := ⟨S1024x1, .i32⟩) main_v11) (TRef.of (T := ⟨S1024x1, .i32⟩) main_call2_v2) (TRef.of (T := ⟨S1024x1, .i32⟩) main_call2_v3) addi,
    TRef.ternary (TRef.of (T := ⟨S1024x1, .i1⟩) main_call2_v1) (TRef.of (T := ⟨S1024x1, .i32⟩) main_call2_v3) (TRef.of (T := ⟨S1024x1, .i32⟩) main_v11) (TRef.of (T := ⟨S1024x1, .i32⟩) main_call2_v4) select,
    TRef.reshape (TRef.of (T := ⟨S1024x1, .i32⟩) main_call2_v4) (TRef.of (T := ⟨S1024x1x1, .i32⟩) main_call2_v5) rfl shapeCasts_S1024x1_S1024x1x1,
    TRef.nullary (TRef.of (T := ⟨S1, .i32⟩) main_call2_c_1) (constantI S1 32 20002#32),
    TRef.nullary (TRef.of (T := ⟨S_, .i32⟩) main_call2_c_2) (constantI S_ 32 0#32),
    TRef.unary (TRef.of (T := ⟨S_, .i32⟩) main_call2_c_2) (TRef.of (T := ⟨S1024x1x1, .i32⟩) main_call2_v6) (broadcastInDim S1024x1x1 ![] bcast_S_S1024x1x1),
    TRef.binary (TRef.of (T := ⟨S1024x1x1, .i32⟩) main_call2_v5) (TRef.of (T := ⟨S1024x1x1, .i32⟩) main_call2_v6) (TRef.of (T := ⟨S1024x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S1024x1x1, .i32⟩) main_call2_v9) (broadcastInDim S1024x1x1 ![0, 1, 2] bcast_S1x1x1_S1024x1x1_0_1_2),
    TRef.binary (TRef.of (T := ⟨S1024x1x1, .i32⟩) main_call2_v5) (TRef.of (T := ⟨S1024x1x1, .i32⟩) main_call2_v9) (TRef.of (T := ⟨S1024x1x1, .i1⟩) main_call2_v10) (cmpi .sle),
    TRef.binary (TRef.of (T := ⟨S1024x1x1, .i1⟩) main_call2_v7) (TRef.of (T := ⟨S1024x1x1, .i1⟩) main_call2_v10) (TRef.of (T := ⟨S1024x1x1, .i1⟩) main_call2_v11) andi,
    TRef.nullary (TRef.of (T := ⟨S_, .i1⟩) main_call2_c_3) (constantI S_ 1 1#1),
    TRef.binary (TRef.of (T := ⟨S1024x1x1, .i1⟩) main_call2_v11) (TRef.of (T := ⟨S_, .i1⟩) main_call2_c_3) (TRef.of (T := ⟨S1024x1, .i1⟩) main_call2_v12) (fun x v => Host.reduce IntOp.andi x v reducesTo_S1024x1x1_S1024x1_d2 h_S_),
    TRef.binary (TRef.of (T := ⟨S1024x20003, .f32⟩) main_v9) (TRef.of (T := ⟨S1024x1x1, .i32⟩) main_call2_v5) (TRef.of (T := ⟨S1024x1, .f32⟩) main_call2_v13) (fun x i => Host.gather gather_S1024x20003_S1024x1x1_S1024x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S1024x1, .f32⟩) main_call2_v14) (broadcastInDim S1024x1 ![] bcast_S_S1024x1),
    TRef.ternary (TRef.of (T := ⟨S1024x1, .i1⟩) main_call2_v12) (TRef.of (T := ⟨S1024x1, .f32⟩) main_call2_v13) (TRef.of (T := ⟨S1024x1, .f32⟩) main_call2_v14) (TRef.of (T := ⟨S1024x1, .f32⟩) main_v12) select,
    reshape main_v12 main_v13 rfl shapeCasts_S1024x1_S1024,
    nullary main_c_1 (constantI S_ 32 20000#32),
    unary main_c_1 main_v14 (broadcastInDim S1024 ![] bcast_S_S1024 : (⟨S_, .i32⟩ : BufTy).Contents (Elt F) → (⟨S1024, .i32⟩ : BufTy).Contents (Elt F)),
    binary main_arg1 main_v14 main_v15 (cmpi .slt : (⟨S1024, .i32⟩ : BufTy).Contents (Elt F) → (⟨S1024, .i32⟩ : BufTy).Contents (Elt F) → (⟨S1024, .i1⟩ : BufTy).Contents (Elt F)),
    unary main_v13 main_v16 (Host.negf : (⟨S1024, .f32⟩ : BufTy).Contents (Elt F) → (⟨S1024, .f32⟩ : BufTy).Contents (Elt F)),
    nullary main_cst (constant S_ .f32 0x00000000#32),
    TRef.unary (TRef.of (T := ⟨S_, .f32⟩) main_cst) (TRef.of (T := ⟨S1024, .f32⟩) main_call3_v0) (broadcastInDim S1024 ![] bcast_S_S1024),
    TRef.ternary (TRef.of (T := ⟨S1024, .i1⟩) main_v15) (TRef.of (T := ⟨S1024, .f32⟩) main_v16) (TRef.of (T := ⟨S1024, .f32⟩) main_call3_v0) (TRef.of (T := ⟨S1024, .f32⟩) main_v17) select ]

abbrev ops4 : List (HloOp τ sig (Elt F)) :=
  [
    binary main_arg0 main_arg6 main_v18 ((fun l r => Host.dotGeneral dot_S1024x1024_S1024x256_S1024x256_1_0_0_1_n_n none l r) : (⟨S1024x1024, .f32⟩ : BufTy).Contents (Elt F) → (⟨S1024x256, .f32⟩ : BufTy).Contents (Elt F) → (⟨S1024x256, .f32⟩ : BufTy).Contents (Elt F)),
    binary main_v18 main_arg7 main_v19 ((fun l r => Host.dotGeneral dot_S1024x256_S256x40000_S1024x40000_1_0_0_1_n_n none l r) : (⟨S1024x256, .f32⟩ : BufTy).Contents (Elt F) → (⟨S256x40000, .f32⟩ : BufTy).Contents (Elt F) → (⟨S1024x40000, .f32⟩ : BufTy).Contents (Elt F)),
    unary main_arg8 main_v20 (broadcastInDim S1x40000 ![1] bcast_S40000_S1x40000_1 : (⟨S40000, .f32⟩ : BufTy).Contents (Elt F) → (⟨S1x40000, .f32⟩ : BufTy).Contents (Elt F)),
    unary main_v20 main_v21 (broadcastInDim S1024x40000 ![0, 1] bcast_S1x40000_S1024x40000_0_1 : (⟨S1x40000, .f32⟩ : BufTy).Contents (Elt F) → (⟨S1024x40000, .f32⟩ : BufTy).Contents (Elt F)),
    binary main_v19 main_v21 main_v22 (addf : (⟨S1024x40000, .f32⟩ : BufTy).Contents (Elt F) → (⟨S1024x40000, .f32⟩ : BufTy).Contents (Elt F) → (⟨S1024x40000, .f32⟩ : BufTy).Contents (Elt F)) ]

abbrev ops5 : List (HloOp τ sig (Elt F)) :=
  [
    TRef.nullary (TRef.of (T := ⟨S_, .f32⟩) main_call4_cst) (constant S_ .f32 0xFF800000#32),
    TRef.binary (TRef.of (T := ⟨S1024x40000, .f32⟩) main_v22) (TRef.of (T := ⟨S_, .f32⟩) main_call4_cst) (TRef.of (T := ⟨S1024, .f32⟩) main_call4_v0) (fun x v => Host.reduce FloatOps.maximumf x v reducesTo_S1024x40000_S1024_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S1024, .f32⟩) main_call4_v1) (broadcastInDim S1024 ![] bcast_S_S1024),
    TRef.binary (TRef.of (T := ⟨S1024, .f32⟩) main_call4_v1) (TRef.of (T := ⟨S1024, .f32⟩) main_call4_v0) (TRef.of (T := ⟨S1024, .f32⟩) main_call4_v2) maximumf,
    TRef.unary (TRef.of (T := ⟨S1024, .f32⟩) main_call4_v2) (TRef.of (T := ⟨S1024x1, .f32⟩) main_call4_v3) (broadcastInDim S1024x1 ![0] bcast_S1024_S1024x1_0),
    TRef.unary (TRef.of (T := ⟨S1024x1, .f32⟩) main_call4_v3) (TRef.of (T := ⟨S1024x40000, .f32⟩) main_call4_v4) (broadcastInDim S1024x40000 ![0, 1] bcast_S1024x1_S1024x40000_0_1),
    TRef.binary (TRef.of (T := ⟨S1024x40000, .f32⟩) main_v22) (TRef.of (T := ⟨S1024x40000, .f32⟩) main_call4_v4) (TRef.of (T := ⟨S1024x40000, .f32⟩) main_call4_v5) subf,
    TRef.unary (TRef.of (T := ⟨S1024x40000, .f32⟩) main_call4_v5) (TRef.of (T := ⟨S1024x40000, .f32⟩) main_call4_v6) Host.exp,
    TRef.nullary (TRef.of (T := ⟨S_, .f32⟩) main_call4_cst_1) (constant S_ .f32 0x00000000#32),
    TRef.binary (TRef.of (T := ⟨S1024x40000, .f32⟩) main_call4_v6) (TRef.of (T := ⟨S_, .f32⟩) main_call4_cst_1) (TRef.of (T := ⟨S1024, .f32⟩) main_call4_v7) (fun x v => Host.reduceAdd x v reducesTo_S1024x40000_S1024_d1 h_S_),
    TRef.unary (TRef.of (T := ⟨S1024, .f32⟩) main_call4_v7) (TRef.of (T := ⟨S1024x1, .f32⟩) main_call4_v8) (broadcastInDim S1024x1 ![0] bcast_S1024_S1024x1_0),
    TRef.unary (TRef.of (T := ⟨S1024x1, .f32⟩) main_call4_v8) (TRef.of (T := ⟨S1024x1, .f32⟩) main_call4_v9) Host.log,
    TRef.unary (TRef.of (T := ⟨S1024x1, .f32⟩) main_call4_v9) (TRef.of (T := ⟨S1024x40000, .f32⟩) main_call4_v10) (broadcastInDim S1024x40000 ![0, 1] bcast_S1024x1_S1024x40000_0_1),
    TRef.binary (TRef.of (T := ⟨S1024x40000, .f32⟩) main_call4_v5) (TRef.of (T := ⟨S1024x40000, .f32⟩) main_call4_v10) (TRef.of (T := ⟨S1024x40000, .f32⟩) main_v23) subf ]

abbrev ops6 : List (HloOp τ sig (Elt F)) :=
  [
    nullary main_c_2 (constantI S_ 32 20000#32),
    unary main_c_2 main_v24 (broadcastInDim S1024 ![] bcast_S_S1024 : (⟨S_, .i32⟩ : BufTy).Contents (Elt F) → (⟨S1024, .i32⟩ : BufTy).Contents (Elt F)),
    binary main_arg1 main_v24 main_v25 (subi : (⟨S1024, .i32⟩ : BufTy).Contents (Elt F) → (⟨S1024, .i32⟩ : BufTy).Contents (Elt F) → (⟨S1024, .i32⟩ : BufTy).Contents (Elt F)),
    nullary main_c_3 (constantI S_ 32 0#32),
    nullary main_c_4 (constantI S_ 32 39999#32),
    TRef.unary (TRef.of (T := ⟨S_, .i32⟩) main_c_3) (TRef.of (T := ⟨S_, .i32⟩) main_call5_v0) id,
    TRef.unary (TRef.of (T := ⟨S_, .i32⟩) main_call5_v0) (TRef.of (T := ⟨S1024, .i32⟩) main_call5_v1) (broadcastInDim S1024 ![] bcast_S_S1024),
    TRef.binary (TRef.of (T := ⟨S1024, .i32⟩) main_call5_v1) (TRef.of (T := ⟨S1024, .i32⟩) main_v25) (TRef.of (T := ⟨S1024, .i32⟩) main_call5_v2) maxsi,
    TRef.unary (TRef.of (T := ⟨S_, .i32⟩) main_c_4) (TRef.of (T := ⟨S_, .i32⟩) main_call5_v3) id,
    TRef.unary (TRef.of (T := ⟨S_, .i32⟩) main_call5_v3) (TRef.of (T := ⟨S1024, .i32⟩) main_call5_v4) (broadcastInDim S1024 ![] bcast_S_S1024),
    TRef.binary (TRef.of (T := ⟨S1024, .i32⟩) main_call5_v4) (TRef.of (T := ⟨S1024, .i32⟩) main_call5_v2) (TRef.of (T := ⟨S1024, .i32⟩) main_v26) minsi,
    unary main_v9 main_v27 ((extractStridedSlice S1024x1 ![0, 20002] · slices_S1024x20003_S1024x1_0_20002) : (⟨S1024x20003, .f32⟩ : BufTy).Contents (Elt F) → (⟨S1024x1, .f32⟩ : BufTy).Contents (Elt F)),
    reshape main_v27 main_v28 rfl shapeCasts_S1024x1_S1024,
    unary main_v26 main_v29 (broadcastInDim S1024x1 ![0] bcast_S1024_S1024x1_0 : (⟨S1024, .i32⟩ : BufTy).Contents (Elt F) → (⟨S1024x1, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S1024x1, .i32⟩) main_call6_v0) (broadcastInDim S1024x1 ![] bcast_S_S1024x1),
    TRef.binary (TRef.of (T := ⟨S1024x1, .i32⟩) main_v29) (TRef.of (T := ⟨S1024x1, .i32⟩) main_call6_v0) (TRef.of (T := ⟨S1024x1, .i1⟩) main_call6_v1) (cmpi .slt),
    TRef.nullary (TRef.of (T := ⟨S_, .i32⟩) main_call6_c_0) (constantI S_ 32 40000#32),
    TRef.unary (TRef.of (T := ⟨S_, .i32⟩) main_call6_c_0) (TRef.of (T := ⟨S1024x1, .i32⟩) main_call6_v2) (broadcastInDim S1024x1 ![] bcast_S_S1024x1),
    TRef.binary (TRef.of (T := ⟨S1024x1, .i32⟩) main_v29) (TRef.of (T := ⟨S1024x1, .i32⟩) main_call6_v2) (TRef.of (T := ⟨S1024x1, .i32⟩) main_call6_v3) addi,
    TRef.ternary (TRef.of (T := ⟨S1024x1, .i1⟩) main_call6_v1) (TRef.of (T := ⟨S1024x1, .i32⟩) main_call6_v3) (TRef.of (T := ⟨S1024x1, .i32⟩) main_v29) (TRef.of (T := ⟨S1024x1, .i32⟩) main_call6_v4) select,
    TRef.reshape (TRef.of (T := ⟨S1024x1, .i32⟩) main_call6_v4) (TRef.of (T := ⟨S1024x1x1, .i32⟩) main_call6_v5) rfl shapeCasts_S1024x1_S1024x1x1,
    TRef.nullary (TRef.of (T := ⟨S1, .i32⟩) main_call6_c_1) (constantI S1 32 39999#32),
    TRef.nullary (TRef.of (T := ⟨S_, .i32⟩) main_call6_c_2) (constantI S_ 32 0#32),
    TRef.unary (TRef.of (T := ⟨S_, .i32⟩) main_call6_c_2) (TRef.of (T := ⟨S1024x1x1, .i32⟩) main_call6_v6) (broadcastInDim S1024x1x1 ![] bcast_S_S1024x1x1),
    TRef.binary (TRef.of (T := ⟨S1024x1x1, .i32⟩) main_call6_v5) (TRef.of (T := ⟨S1024x1x1, .i32⟩) main_call6_v6) (TRef.of (T := ⟨S1024x1x1, .i1⟩) main_call6_v7) (cmpi .sge),
    TRef.unary (TRef.of (T := ⟨S1, .i32⟩) main_call6_c_1) (TRef.of (T := ⟨S1x1x1, .i32⟩) main_call6_v8) (broadcastInDim S1x1x1 ![2] bcast_S1_S1x1x1_2),
    TRef.unary (TRef.of (T := ⟨S1x1x1, .i32⟩) main_call6_v8) (TRef.of (T := ⟨S1024x1x1, .i32⟩) main_call6_v9) (broadcastInDim S1024x1x1 ![0, 1, 2] bcast_S1x1x1_S1024x1x1_0_1_2),
    TRef.binary (TRef.of (T := ⟨S1024x1x1, .i32⟩) main_call6_v5) (TRef.of (T := ⟨S1024x1x1, .i32⟩) main_call6_v9) (TRef.of (T := ⟨S1024x1x1, .i1⟩) main_call6_v10) (cmpi .sle),
    TRef.binary (TRef.of (T := ⟨S1024x1x1, .i1⟩) main_call6_v7) (TRef.of (T := ⟨S1024x1x1, .i1⟩) main_call6_v10) (TRef.of (T := ⟨S1024x1x1, .i1⟩) main_call6_v11) andi,
    TRef.nullary (TRef.of (T := ⟨S_, .i1⟩) main_call6_c_3) (constantI S_ 1 1#1),
    TRef.binary (TRef.of (T := ⟨S1024x1x1, .i1⟩) main_call6_v11) (TRef.of (T := ⟨S_, .i1⟩) main_call6_c_3) (TRef.of (T := ⟨S1024x1, .i1⟩) main_call6_v12) (fun x v => Host.reduce IntOp.andi x v reducesTo_S1024x1x1_S1024x1_d2 h_S_),
    TRef.binary (TRef.of (T := ⟨S1024x40000, .f32⟩) main_v23) (TRef.of (T := ⟨S1024x1x1, .i32⟩) main_call6_v5) (TRef.of (T := ⟨S1024x1, .f32⟩) main_call6_v13) (fun x i => Host.gather gather_S1024x40000_S1024x1x1_S1024x1_n_1_0_0_1_2_11 x i),
    TRef.nullary (TRef.of (T := ⟨S_, .f32⟩) main_call6_cst) (constant S_ .f32 0x7FC00000#32),
    TRef.unary (TRef.of (T := ⟨S_, .f32⟩) main_call6_cst) (TRef.of (T := ⟨S1024x1, .f32⟩) main_call6_v14) (broadcastInDim S1024x1 ![] bcast_S_S1024x1),
    TRef.ternary (TRef.of (T := ⟨S1024x1, .i1⟩) main_call6_v12) (TRef.of (T := ⟨S1024x1, .f32⟩) main_call6_v13) (TRef.of (T := ⟨S1024x1, .f32⟩) main_call6_v14) (TRef.of (T := ⟨S1024x1, .f32⟩) main_v30) select,
    reshape main_v30 main_v31 rfl shapeCasts_S1024x1_S1024,
    binary main_v28 main_v31 main_v32 (addf : (⟨S1024, .f32⟩ : BufTy).Contents (Elt F) → (⟨S1024, .f32⟩ : BufTy).Contents (Elt F) → (⟨S1024, .f32⟩ : BufTy).Contents (Elt F)),
    nullary main_c_5 (constantI S_ 32 20000#32),
    unary main_c_5 main_v33 (broadcastInDim S1024 ![] bcast_S_S1024 : (⟨S_, .i32⟩ : BufTy).Contents (Elt F) → (⟨S1024, .i32⟩ : BufTy).Contents (Elt F)),
    binary main_arg1 main_v33 main_v34 (cmpi .sge : (⟨S1024, .i32⟩ : BufTy).Contents (Elt F) → (⟨S1024, .i32⟩ : BufTy).Contents (Elt F) → (⟨S1024, .i1⟩ : BufTy).Contents (Elt F)),
    nullary main_c_6 (constantI S_ 32 60000#32),
    unary main_c_6 main_v35 (broadcastInDim S1024 ![] bcast_S_S1024 : (⟨S_, .i32⟩ : BufTy).Contents (Elt F) → (⟨S1024, .i32⟩ : BufTy).Contents (Elt F)),
    binary main_arg1 main_v35 main_v36 (cmpi .slt : (⟨S1024, .i32⟩ : BufTy).Contents (Elt F) → (⟨S1024, .i32⟩ : BufTy).Contents (Elt F) → (⟨S1024, .i1⟩ : BufTy).Contents (Elt F)),
    binary main_v34 main_v36 main_v37 (andi : (⟨S1024, .i1⟩ : BufTy).Contents (Elt F) → (⟨S1024, .i1⟩ : BufTy).Contents (Elt F) → (⟨S1024, .i1⟩ : BufTy).Contents (Elt F)),
    unary main_v32 main_v38 (Host.negf : (⟨S1024, .f32⟩ : BufTy).Contents (Elt F) → (⟨S1024, .f32⟩ : BufTy).Contents (Elt F)),
    TRef.ternary (TRef.of (T := ⟨S1024, .i1⟩) main_v37) (TRef.of (T := ⟨S1024, .f32⟩) main_v38) (TRef.of (T := ⟨S1024, .f32⟩) main_v17) (TRef.of (T := ⟨S1024, .f32⟩) main_v39) select ]

abbrev ops7 : List (HloOp τ sig (Elt F)) :=
  [
    binary main_arg0 main_arg9 main_v40 ((fun l r => Host.dotGeneral dot_S1024x1024_S1024x64_S1024x64_1_0_0_1_n_n none l r) : (⟨S1024x1024, .f32⟩ : BufTy).Contents (Elt F) → (⟨S1024x64, .f32⟩ : BufTy).Contents (Elt F) → (⟨S1024x64, .f32⟩ : BufTy).Contents (Elt F)),
    binary main_v40 main_arg10 main_v41 ((fun l r => Host.dotGeneral dot_S1024x64_S64x120000_S1024x120000_1_0_0_1_n_n none l r) : (⟨S1024x64, .f32⟩ : BufTy).Contents (Elt F) → (⟨S64x120000, .f32⟩ : BufTy).Contents (Elt F) → (⟨S1024x120000, .f32⟩ : BufTy).Contents (Elt F)),
    unary main_arg11 main_v42 (broadcastInDim S1x120000 ![1] bcast_S120000_S1x120000_1 : (⟨S120000, .f32⟩ : BufTy).Contents (Elt F) → (⟨S1x120000, .f32⟩ : BufTy).Contents (Elt F)),
    unary main_v42 main_v43 (broadcastInDim S1024x120000 ![0, 1] bcast_S1x120000_S1024x120000_0_1 : (⟨S1x120000, .f32⟩ : BufTy).Contents (Elt F) → (⟨S1024x120000, .f32⟩ : BufTy).Contents (Elt F)),
    binary main_v41 main_v43 main_v44 (addf : (⟨S1024x120000, .f32⟩ : BufTy).Contents (Elt F) → (⟨S1024x120000, .f32⟩ : BufTy).Contents (Elt F) → (⟨S1024x120000, .f32⟩ : BufTy).Contents (Elt F)) ]

abbrev ops8 : List (HloOp τ sig (Elt F)) :=
  [
    TRef.nullary (TRef.of (T := ⟨S_, .f32⟩) main_call8_cst) (constant S_ .f32 0xFF800000#32),
    TRef.binary (TRef.of (T := ⟨S1024x120000, .f32⟩) main_v44) (TRef.of (T := ⟨S_, .f32⟩) main_call8_cst) (TRef.of (T := ⟨S1024, .f32⟩) main_call8_v0) (fun x v => Host.reduce FloatOps.maximumf x v reducesTo_S1024x120000_S1024_d1 h_S_),
    TRef.nullary (TRef.of (T := ⟨S_, .f32⟩) main_call8_cst_0) (constant S_ .f32 0xFF800000#32),
    TRef.unary (TRef.of (T := ⟨S_, .f32⟩) main_call8_cst_0) (TRef.of (T := ⟨S1024, .f32⟩) main_call8_v1) (broadcastInDim S1024 ![] bcast_S_S1024),
    TRef.binary (TRef.of (T := ⟨S1024, .f32⟩) main_call8_v1) (TRef.of (T := ⟨S1024, .f32⟩) main_call8_v0) (TRef.of (T := ⟨S1024, .f32⟩) main_call8_v2) maximumf,
    TRef.unary (TRef.of (T := ⟨S1024, .f32⟩) main_call8_v2) (TRef.of (T := ⟨S1024x1, .f32⟩) main_call8_v3) (broadcastInDim S1024x1 ![0] bcast_S1024_S1024x1_0),
    TRef.unary (TRef.of (T := ⟨S1024x1, .f32⟩) main_call8_v3) (TRef.of (T := ⟨S1024x120000, .f32⟩) main_call8_v4) (broadcastInDim S1024x120000 ![0, 1] bcast_S1024x1_S1024x120000_0_1),
    TRef.binary (TRef.of (T := ⟨S1024x120000, .f32⟩) main_v44) (TRef.of (T := ⟨S1024x120000, .f32⟩) main_call8_v4) (TRef.of (T := ⟨S1024x120000, .f32⟩) main_call8_v5) subf,
    TRef.unary (TRef.of (T := ⟨S1024x120000, .f32⟩) main_call8_v5) (TRef.of (T := ⟨S1024x120000, .f32⟩) main_call8_v6) Host.exp,
    TRef.nullary (TRef.of (T := ⟨S_, .f32⟩) main_call8_cst_1) (constant S_ .f32 0x00000000#32),
    TRef.binary (TRef.of (T := ⟨S1024x120000, .f32⟩) main_call8_v6) (TRef.of (T := ⟨S_, .f32⟩) main_call8_cst_1) (TRef.of (T := ⟨S1024, .f32⟩) main_call8_v7) (fun x v => Host.reduceAdd x v reducesTo_S1024x120000_S1024_d1 h_S_),
    TRef.unary (TRef.of (T := ⟨S1024, .f32⟩) main_call8_v7) (TRef.of (T := ⟨S1024x1, .f32⟩) main_call8_v8) (broadcastInDim S1024x1 ![0] bcast_S1024_S1024x1_0),
    TRef.unary (TRef.of (T := ⟨S1024x1, .f32⟩) main_call8_v8) (TRef.of (T := ⟨S1024x1, .f32⟩) main_call8_v9) Host.log,
    TRef.unary (TRef.of (T := ⟨S1024x1, .f32⟩) main_call8_v9) (TRef.of (T := ⟨S1024x120000, .f32⟩) main_call8_v10) (broadcastInDim S1024x120000 ![0, 1] bcast_S1024x1_S1024x120000_0_1),
    TRef.binary (TRef.of (T := ⟨S1024x120000, .f32⟩) main_call8_v5) (TRef.of (T := ⟨S1024x120000, .f32⟩) main_call8_v10) (TRef.of (T := ⟨S1024x120000, .f32⟩) main_v45) subf ]

abbrev ops9 : List (HloOp τ sig (Elt F)) :=
  [
    nullary main_c_7 (constantI S_ 32 60000#32),
    unary main_c_7 main_v46 (broadcastInDim S1024 ![] bcast_S_S1024 : (⟨S_, .i32⟩ : BufTy).Contents (Elt F) → (⟨S1024, .i32⟩ : BufTy).Contents (Elt F)),
    binary main_arg1 main_v46 main_v47 (subi : (⟨S1024, .i32⟩ : BufTy).Contents (Elt F) → (⟨S1024, .i32⟩ : BufTy).Contents (Elt F) → (⟨S1024, .i32⟩ : BufTy).Contents (Elt F)),
    nullary main_c_8 (constantI S_ 32 0#32),
    nullary main_c_9 (constantI S_ 32 119999#32),
    TRef.unary (TRef.of (T := ⟨S_, .i32⟩) main_c_8) (TRef.of (T := ⟨S_, .i32⟩) main_call9_v0) id,
    TRef.unary (TRef.of (T := ⟨S_, .i32⟩) main_call9_v0) (TRef.of (T := ⟨S1024, .i32⟩) main_call9_v1) (broadcastInDim S1024 ![] bcast_S_S1024),
    TRef.binary (TRef.of (T := ⟨S1024, .i32⟩) main_call9_v1) (TRef.of (T := ⟨S1024, .i32⟩) main_v47) (TRef.of (T := ⟨S1024, .i32⟩) main_call9_v2) maxsi,
    TRef.unary (TRef.of (T := ⟨S_, .i32⟩) main_c_9) (TRef.of (T := ⟨S_, .i32⟩) main_call9_v3) id,
    TRef.unary (TRef.of (T := ⟨S_, .i32⟩) main_call9_v3) (TRef.of (T := ⟨S1024, .i32⟩) main_call9_v4) (broadcastInDim S1024 ![] bcast_S_S1024),
    TRef.binary (TRef.of (T := ⟨S1024, .i32⟩) main_call9_v4) (TRef.of (T := ⟨S1024, .i32⟩) main_call9_v2) (TRef.of (T := ⟨S1024, .i32⟩) main_v48) minsi,
    unary main_v9 main_v49 ((extractStridedSlice S1024x1 ![0, 20001] · slices_S1024x20003_S1024x1_0_20001) : (⟨S1024x20003, .f32⟩ : BufTy).Contents (Elt F) → (⟨S1024x1, .f32⟩ : BufTy).Contents (Elt F)),
    reshape main_v49 main_v50 rfl shapeCasts_S1024x1_S1024,
    unary main_v48 main_v51 (broadcastInDim S1024x1 ![0] bcast_S1024_S1024x1_0 : (⟨S1024, .i32⟩ : BufTy).Contents (Elt F) → (⟨S1024x1, .i32⟩ : BufTy).Contents (Elt F)),
    TRef.nullary (TRef.of (T := ⟨S_, .i32⟩) main_call10_c) (constantI S_ 32 0#32),
    TRef.unary (TRef.of (T := ⟨S_, .i32⟩) main_call10_c) (TRef.of (T := ⟨S1024x1, .i32⟩) main_call10_v0) (broadcastInDim S1024x1 ![] bcast_S_S1024x1),
    TRef.binary (TRef.of (T := ⟨S1024x1, .i32⟩) main_v51) (TRef.of (T := ⟨S1024x1, .i32⟩) main_call10_v0) (TRef.of (T := ⟨S1024x1, .i1⟩) main_call10_v1) (cmpi .slt),
    TRef.nullary (TRef.of (T := ⟨S_, .i32⟩) main_call10_c_0) (constantI S_ 32 120000#32),
    TRef.unary (TRef.of (T := ⟨S_, .i32⟩) main_call10_c_0) (TRef.of (T := ⟨S1024x1, .i32⟩) main_call10_v2) (broadcastInDim S1024x1 ![] bcast_S_S1024x1),
    TRef.binary (TRef.of (T := ⟨S1024x1, .i32⟩) main_v51) (TRef.of (T := ⟨S1024x1, .i32⟩) main_call10_v2) (TRef.of (T := ⟨S1024x1, .i32⟩) main_call10_v3) addi,
    TRef.ternary (TRef.of (T := ⟨S1024x1, .i1⟩) main_call10_v1) (TRef.of (T := ⟨S1024x1, .i32⟩) main_call10_v3) (TRef.of (T := ⟨S1024x1, .i32⟩) main_v51) (TRef.of (T := ⟨S1024x1, .i32⟩) main_call10_v4) select,
    TRef.reshape (TRef.of (T := ⟨S1024x1, .i32⟩) main_call10_v4) (TRef.of (T := ⟨S1024x1x1, .i32⟩) main_call10_v5) rfl shapeCasts_S1024x1_S1024x1x1,
    TRef.nullary (TRef.of (T := ⟨S1, .i32⟩) main_call10_c_1) (constantI S1 32 119999#32),
    TRef.nullary (TRef.of (T := ⟨S_, .i32⟩) main_call10_c_2) (constantI S_ 32 0#32),
    TRef.unary (TRef.of (T := ⟨S_, .i32⟩) main_call10_c_2) (TRef.of (T := ⟨S1024x1x1, .i32⟩) main_call10_v6) (broadcastInDim S1024x1x1 ![] bcast_S_S1024x1x1),
    TRef.binary (TRef.of (T := ⟨S1024x1x1, .i32⟩) main_call10_v5) (TRef.of (T := ⟨S1024x1x1, .i32⟩) main_call10_v6) (TRef.of (T := ⟨S1024x1x1, .i1⟩) main_call10_v7) (cmpi .sge),
    TRef.unary (TRef.of (T := ⟨S1, .i32⟩) main_call10_c_1) (TRef.of (T := ⟨S1x1x1, .i32⟩) main_call10_v8) (broadcastInDim S1x1x1 ![2] bcast_S1_S1x1x1_2),
    TRef.unary (TRef.of (T := ⟨S1x1x1, .i32⟩) main_call10_v8) (TRef.of (T := ⟨S1024x1x1, .i32⟩) main_call10_v9) (broadcastInDim S1024x1x1 ![0, 1, 2] bcast_S1x1x1_S1024x1x1_0_1_2),
    TRef.binary (TRef.of (T := ⟨S1024x1x1, .i32⟩) main_call10_v5) (TRef.of (T := ⟨S1024x1x1, .i32⟩) main_call10_v9) (TRef.of (T := ⟨S1024x1x1, .i1⟩) main_call10_v10) (cmpi .sle),
    TRef.binary (TRef.of (T := ⟨S1024x1x1, .i1⟩) main_call10_v7) (TRef.of (T := ⟨S1024x1x1, .i1⟩) main_call10_v10) (TRef.of (T := ⟨S1024x1x1, .i1⟩) main_call10_v11) andi,
    TRef.nullary (TRef.of (T := ⟨S_, .i1⟩) main_call10_c_3) (constantI S_ 1 1#1),
    TRef.binary (TRef.of (T := ⟨S1024x1x1, .i1⟩) main_call10_v11) (TRef.of (T := ⟨S_, .i1⟩) main_call10_c_3) (TRef.of (T := ⟨S1024x1, .i1⟩) main_call10_v12) (fun x v => Host.reduce IntOp.andi x v reducesTo_S1024x1x1_S1024x1_d2 h_S_),
    TRef.binary (TRef.of (T := ⟨S1024x120000, .f32⟩) main_v45) (TRef.of (T := ⟨S1024x1x1, .i32⟩) main_call10_v5) (TRef.of (T := ⟨S1024x1, .f32⟩) main_call10_v13) (fun x i => Host.gather gather_S1024x120000_S1024x1x1_S1024x1_n_1_0_0_1_2_11 x i),
    TRef.nullary (TRef.of (T := ⟨S_, .f32⟩) main_call10_cst) (constant S_ .f32 0x7FC00000#32),
    TRef.unary (TRef.of (T := ⟨S_, .f32⟩) main_call10_cst) (TRef.of (T := ⟨S1024x1, .f32⟩) main_call10_v14) (broadcastInDim S1024x1 ![] bcast_S_S1024x1),
    TRef.ternary (TRef.of (T := ⟨S1024x1, .i1⟩) main_call10_v12) (TRef.of (T := ⟨S1024x1, .f32⟩) main_call10_v13) (TRef.of (T := ⟨S1024x1, .f32⟩) main_call10_v14) (TRef.of (T := ⟨S1024x1, .f32⟩) main_v52) select,
    reshape main_v52 main_v53 rfl shapeCasts_S1024x1_S1024,
    binary main_v50 main_v53 main_v54 (addf : (⟨S1024, .f32⟩ : BufTy).Contents (Elt F) → (⟨S1024, .f32⟩ : BufTy).Contents (Elt F) → (⟨S1024, .f32⟩ : BufTy).Contents (Elt F)),
    nullary main_c_10 (constantI S_ 32 60000#32),
    unary main_c_10 main_v55 (broadcastInDim S1024 ![] bcast_S_S1024 : (⟨S_, .i32⟩ : BufTy).Contents (Elt F) → (⟨S1024, .i32⟩ : BufTy).Contents (Elt F)),
    binary main_arg1 main_v55 main_v56 (cmpi .sge : (⟨S1024, .i32⟩ : BufTy).Contents (Elt F) → (⟨S1024, .i32⟩ : BufTy).Contents (Elt F) → (⟨S1024, .i1⟩ : BufTy).Contents (Elt F)),
    nullary main_c_11 (constantI S_ 32 180000#32),
    unary main_c_11 main_v57 (broadcastInDim S1024 ![] bcast_S_S1024 : (⟨S_, .i32⟩ : BufTy).Contents (Elt F) → (⟨S1024, .i32⟩ : BufTy).Contents (Elt F)),
    binary main_arg1 main_v57 main_v58 (cmpi .slt : (⟨S1024, .i32⟩ : BufTy).Contents (Elt F) → (⟨S1024, .i32⟩ : BufTy).Contents (Elt F) → (⟨S1024, .i1⟩ : BufTy).Contents (Elt F)),
    binary main_v56 main_v58 main_v59 (andi : (⟨S1024, .i1⟩ : BufTy).Contents (Elt F) → (⟨S1024, .i1⟩ : BufTy).Contents (Elt F) → (⟨S1024, .i1⟩ : BufTy).Contents (Elt F)),
    unary main_v54 main_v60 (Host.negf : (⟨S1024, .f32⟩ : BufTy).Contents (Elt F) → (⟨S1024, .f32⟩ : BufTy).Contents (Elt F)),
    TRef.ternary (TRef.of (T := ⟨S1024, .i1⟩) main_v59) (TRef.of (T := ⟨S1024, .f32⟩) main_v60) (TRef.of (T := ⟨S1024, .f32⟩) main_v39) (TRef.of (T := ⟨S1024, .f32⟩) main_v61) select ]

abbrev ops10 : List (HloOp τ sig (Elt F)) :=
  [
    binary main_arg0 main_arg12 main_v62 ((fun l r => Host.dotGeneral dot_S1024x1024_S1024x16_S1024x16_1_0_0_1_n_n none l r) : (⟨S1024x1024, .f32⟩ : BufTy).Contents (Elt F) → (⟨S1024x16, .f32⟩ : BufTy).Contents (Elt F) → (⟨S1024x16, .f32⟩ : BufTy).Contents (Elt F)),
    binary main_v62 main_arg13 main_v63 ((fun l r => Host.dotGeneral dot_S1024x16_S16x87735_S1024x87735_1_0_0_1_n_n none l r) : (⟨S1024x16, .f32⟩ : BufTy).Contents (Elt F) → (⟨S16x87735, .f32⟩ : BufTy).Contents (Elt F) → (⟨S1024x87735, .f32⟩ : BufTy).Contents (Elt F)),
    unary main_arg14 main_v64 (broadcastInDim S1x87735 ![1] bcast_S87735_S1x87735_1 : (⟨S87735, .f32⟩ : BufTy).Contents (Elt F) → (⟨S1x87735, .f32⟩ : BufTy).Contents (Elt F)),
    unary main_v64 main_v65 (broadcastInDim S1024x87735 ![0, 1] bcast_S1x87735_S1024x87735_0_1 : (⟨S1x87735, .f32⟩ : BufTy).Contents (Elt F) → (⟨S1024x87735, .f32⟩ : BufTy).Contents (Elt F)),
    binary main_v63 main_v65 main_v66 (addf : (⟨S1024x87735, .f32⟩ : BufTy).Contents (Elt F) → (⟨S1024x87735, .f32⟩ : BufTy).Contents (Elt F) → (⟨S1024x87735, .f32⟩ : BufTy).Contents (Elt F)) ]

abbrev ops11 : List (HloOp τ sig (Elt F)) :=
  [
    TRef.nullary (TRef.of (T := ⟨S_, .f32⟩) main_call12_cst) (constant S_ .f32 0xFF800000#32),
    TRef.binary (TRef.of (T := ⟨S1024x87735, .f32⟩) main_v66) (TRef.of (T := ⟨S_, .f32⟩) main_call12_cst) (TRef.of (T := ⟨S1024, .f32⟩) main_call12_v0) (fun x v => Host.reduce FloatOps.maximumf x v reducesTo_S1024x87735_S1024_d1 h_S_),
    TRef.nullary (TRef.of (T := ⟨S_, .f32⟩) main_call12_cst_0) (constant S_ .f32 0xFF800000#32),
    TRef.unary (TRef.of (T := ⟨S_, .f32⟩) main_call12_cst_0) (TRef.of (T := ⟨S1024, .f32⟩) main_call12_v1) (broadcastInDim S1024 ![] bcast_S_S1024),
    TRef.binary (TRef.of (T := ⟨S1024, .f32⟩) main_call12_v1) (TRef.of (T := ⟨S1024, .f32⟩) main_call12_v0) (TRef.of (T := ⟨S1024, .f32⟩) main_call12_v2) maximumf,
    TRef.unary (TRef.of (T := ⟨S1024, .f32⟩) main_call12_v2) (TRef.of (T := ⟨S1024x1, .f32⟩) main_call12_v3) (broadcastInDim S1024x1 ![0] bcast_S1024_S1024x1_0),
    TRef.unary (TRef.of (T := ⟨S1024x1, .f32⟩) main_call12_v3) (TRef.of (T := ⟨S1024x87735, .f32⟩) main_call12_v4) (broadcastInDim S1024x87735 ![0, 1] bcast_S1024x1_S1024x87735_0_1),
    TRef.binary (TRef.of (T := ⟨S1024x87735, .f32⟩) main_v66) (TRef.of (T := ⟨S1024x87735, .f32⟩) main_call12_v4) (TRef.of (T := ⟨S1024x87735, .f32⟩) main_call12_v5) subf,
    TRef.unary (TRef.of (T := ⟨S1024x87735, .f32⟩) main_call12_v5) (TRef.of (T := ⟨S1024x87735, .f32⟩) main_call12_v6) Host.exp,
    TRef.nullary (TRef.of (T := ⟨S_, .f32⟩) main_call12_cst_1) (constant S_ .f32 0x00000000#32),
    TRef.binary (TRef.of (T := ⟨S1024x87735, .f32⟩) main_call12_v6) (TRef.of (T := ⟨S_, .f32⟩) main_call12_cst_1) (TRef.of (T := ⟨S1024, .f32⟩) main_call12_v7) (fun x v => Host.reduceAdd x v reducesTo_S1024x87735_S1024_d1 h_S_),
    TRef.unary (TRef.of (T := ⟨S1024, .f32⟩) main_call12_v7) (TRef.of (T := ⟨S1024x1, .f32⟩) main_call12_v8) (broadcastInDim S1024x1 ![0] bcast_S1024_S1024x1_0),
    TRef.unary (TRef.of (T := ⟨S1024x1, .f32⟩) main_call12_v8) (TRef.of (T := ⟨S1024x1, .f32⟩) main_call12_v9) Host.log,
    TRef.unary (TRef.of (T := ⟨S1024x1, .f32⟩) main_call12_v9) (TRef.of (T := ⟨S1024x87735, .f32⟩) main_call12_v10) (broadcastInDim S1024x87735 ![0, 1] bcast_S1024x1_S1024x87735_0_1),
    TRef.binary (TRef.of (T := ⟨S1024x87735, .f32⟩) main_call12_v5) (TRef.of (T := ⟨S1024x87735, .f32⟩) main_call12_v10) (TRef.of (T := ⟨S1024x87735, .f32⟩) main_v67) subf ]

abbrev ops12 : List (HloOp τ sig (Elt F)) :=
  [
    nullary main_c_12 (constantI S_ 32 180000#32),
    unary main_c_12 main_v68 (broadcastInDim S1024 ![] bcast_S_S1024 : (⟨S_, .i32⟩ : BufTy).Contents (Elt F) → (⟨S1024, .i32⟩ : BufTy).Contents (Elt F)),
    binary main_arg1 main_v68 main_v69 (subi : (⟨S1024, .i32⟩ : BufTy).Contents (Elt F) → (⟨S1024, .i32⟩ : BufTy).Contents (Elt F) → (⟨S1024, .i32⟩ : BufTy).Contents (Elt F)),
    nullary main_c_13 (constantI S_ 32 0#32),
    nullary main_c_14 (constantI S_ 32 87734#32),
    TRef.unary (TRef.of (T := ⟨S_, .i32⟩) main_c_13) (TRef.of (T := ⟨S_, .i32⟩) main_call13_v0) id,
    TRef.unary (TRef.of (T := ⟨S_, .i32⟩) main_call13_v0) (TRef.of (T := ⟨S1024, .i32⟩) main_call13_v1) (broadcastInDim S1024 ![] bcast_S_S1024),
    TRef.binary (TRef.of (T := ⟨S1024, .i32⟩) main_call13_v1) (TRef.of (T := ⟨S1024, .i32⟩) main_v69) (TRef.of (T := ⟨S1024, .i32⟩) main_call13_v2) maxsi,
    TRef.unary (TRef.of (T := ⟨S_, .i32⟩) main_c_14) (TRef.of (T := ⟨S_, .i32⟩) main_call13_v3) id,
    TRef.unary (TRef.of (T := ⟨S_, .i32⟩) main_call13_v3) (TRef.of (T := ⟨S1024, .i32⟩) main_call13_v4) (broadcastInDim S1024 ![] bcast_S_S1024),
    TRef.binary (TRef.of (T := ⟨S1024, .i32⟩) main_call13_v4) (TRef.of (T := ⟨S1024, .i32⟩) main_call13_v2) (TRef.of (T := ⟨S1024, .i32⟩) main_v70) minsi,
    unary main_v9 main_v71 ((extractStridedSlice S1024x1 ![0, 20000] · slices_S1024x20003_S1024x1_0_20000) : (⟨S1024x20003, .f32⟩ : BufTy).Contents (Elt F) → (⟨S1024x1, .f32⟩ : BufTy).Contents (Elt F)),
    reshape main_v71 main_v72 rfl shapeCasts_S1024x1_S1024,
    unary main_v70 main_v73 (broadcastInDim S1024x1 ![0] bcast_S1024_S1024x1_0 : (⟨S1024, .i32⟩ : BufTy).Contents (Elt F) → (⟨S1024x1, .i32⟩ : BufTy).Contents (Elt F)),
    TRef.nullary (TRef.of (T := ⟨S_, .i32⟩) main_call14_c) (constantI S_ 32 0#32),
    TRef.unary (TRef.of (T := ⟨S_, .i32⟩) main_call14_c) (TRef.of (T := ⟨S1024x1, .i32⟩) main_call14_v0) (broadcastInDim S1024x1 ![] bcast_S_S1024x1),
    TRef.binary (TRef.of (T := ⟨S1024x1, .i32⟩) main_v73) (TRef.of (T := ⟨S1024x1, .i32⟩) main_call14_v0) (TRef.of (T := ⟨S1024x1, .i1⟩) main_call14_v1) (cmpi .slt),
    TRef.nullary (TRef.of (T := ⟨S_, .i32⟩) main_call14_c_0) (constantI S_ 32 87735#32),
    TRef.unary (TRef.of (T := ⟨S_, .i32⟩) main_call14_c_0) (TRef.of (T := ⟨S1024x1, .i32⟩) main_call14_v2) (broadcastInDim S1024x1 ![] bcast_S_S1024x1),
    TRef.binary (TRef.of (T := ⟨S1024x1, .i32⟩) main_v73) (TRef.of (T := ⟨S1024x1, .i32⟩) main_call14_v2) (TRef.of (T := ⟨S1024x1, .i32⟩) main_call14_v3) addi,
    TRef.ternary (TRef.of (T := ⟨S1024x1, .i1⟩) main_call14_v1) (TRef.of (T := ⟨S1024x1, .i32⟩) main_call14_v3) (TRef.of (T := ⟨S1024x1, .i32⟩) main_v73) (TRef.of (T := ⟨S1024x1, .i32⟩) main_call14_v4) select,
    TRef.reshape (TRef.of (T := ⟨S1024x1, .i32⟩) main_call14_v4) (TRef.of (T := ⟨S1024x1x1, .i32⟩) main_call14_v5) rfl shapeCasts_S1024x1_S1024x1x1,
    TRef.nullary (TRef.of (T := ⟨S1, .i32⟩) main_call14_c_1) (constantI S1 32 87734#32),
    TRef.nullary (TRef.of (T := ⟨S_, .i32⟩) main_call14_c_2) (constantI S_ 32 0#32),
    TRef.unary (TRef.of (T := ⟨S_, .i32⟩) main_call14_c_2) (TRef.of (T := ⟨S1024x1x1, .i32⟩) main_call14_v6) (broadcastInDim S1024x1x1 ![] bcast_S_S1024x1x1),
    TRef.binary (TRef.of (T := ⟨S1024x1x1, .i32⟩) main_call14_v5) (TRef.of (T := ⟨S1024x1x1, .i32⟩) main_call14_v6) (TRef.of (T := ⟨S1024x1x1, .i1⟩) main_call14_v7) (cmpi .sge),
    TRef.unary (TRef.of (T := ⟨S1, .i32⟩) main_call14_c_1) (TRef.of (T := ⟨S1x1x1, .i32⟩) main_call14_v8) (broadcastInDim S1x1x1 ![2] bcast_S1_S1x1x1_2),
    TRef.unary (TRef.of (T := ⟨S1x1x1, .i32⟩) main_call14_v8) (TRef.of (T := ⟨S1024x1x1, .i32⟩) main_call14_v9) (broadcastInDim S1024x1x1 ![0, 1, 2] bcast_S1x1x1_S1024x1x1_0_1_2),
    TRef.binary (TRef.of (T := ⟨S1024x1x1, .i32⟩) main_call14_v5) (TRef.of (T := ⟨S1024x1x1, .i32⟩) main_call14_v9) (TRef.of (T := ⟨S1024x1x1, .i1⟩) main_call14_v10) (cmpi .sle),
    TRef.binary (TRef.of (T := ⟨S1024x1x1, .i1⟩) main_call14_v7) (TRef.of (T := ⟨S1024x1x1, .i1⟩) main_call14_v10) (TRef.of (T := ⟨S1024x1x1, .i1⟩) main_call14_v11) andi,
    TRef.nullary (TRef.of (T := ⟨S_, .i1⟩) main_call14_c_3) (constantI S_ 1 1#1),
    TRef.binary (TRef.of (T := ⟨S1024x1x1, .i1⟩) main_call14_v11) (TRef.of (T := ⟨S_, .i1⟩) main_call14_c_3) (TRef.of (T := ⟨S1024x1, .i1⟩) main_call14_v12) (fun x v => Host.reduce IntOp.andi x v reducesTo_S1024x1x1_S1024x1_d2 h_S_),
    TRef.binary (TRef.of (T := ⟨S1024x87735, .f32⟩) main_v67) (TRef.of (T := ⟨S1024x1x1, .i32⟩) main_call14_v5) (TRef.of (T := ⟨S1024x1, .f32⟩) main_call14_v13) (fun x i => Host.gather gather_S1024x87735_S1024x1x1_S1024x1_n_1_0_0_1_2_11 x i),
    TRef.nullary (TRef.of (T := ⟨S_, .f32⟩) main_call14_cst) (constant S_ .f32 0x7FC00000#32),
    TRef.unary (TRef.of (T := ⟨S_, .f32⟩) main_call14_cst) (TRef.of (T := ⟨S1024x1, .f32⟩) main_call14_v14) (broadcastInDim S1024x1 ![] bcast_S_S1024x1),
    TRef.ternary (TRef.of (T := ⟨S1024x1, .i1⟩) main_call14_v12) (TRef.of (T := ⟨S1024x1, .f32⟩) main_call14_v13) (TRef.of (T := ⟨S1024x1, .f32⟩) main_call14_v14) (TRef.of (T := ⟨S1024x1, .f32⟩) main_v74) select,
    reshape main_v74 main_v75 rfl shapeCasts_S1024x1_S1024,
    binary main_v72 main_v75 main_v76 (addf : (⟨S1024, .f32⟩ : BufTy).Contents (Elt F) → (⟨S1024, .f32⟩ : BufTy).Contents (Elt F) → (⟨S1024, .f32⟩ : BufTy).Contents (Elt F)),
    nullary main_c_15 (constantI S_ 32 180000#32),
    unary main_c_15 main_v77 (broadcastInDim S1024 ![] bcast_S_S1024 : (⟨S_, .i32⟩ : BufTy).Contents (Elt F) → (⟨S1024, .i32⟩ : BufTy).Contents (Elt F)),
    binary main_arg1 main_v77 main_v78 (cmpi .sge : (⟨S1024, .i32⟩ : BufTy).Contents (Elt F) → (⟨S1024, .i32⟩ : BufTy).Contents (Elt F) → (⟨S1024, .i1⟩ : BufTy).Contents (Elt F)),
    nullary main_c_16 (constantI S_ 32 267735#32),
    unary main_c_16 main_v79 (broadcastInDim S1024 ![] bcast_S_S1024 : (⟨S_, .i32⟩ : BufTy).Contents (Elt F) → (⟨S1024, .i32⟩ : BufTy).Contents (Elt F)),
    binary main_arg1 main_v79 main_v80 (cmpi .slt : (⟨S1024, .i32⟩ : BufTy).Contents (Elt F) → (⟨S1024, .i32⟩ : BufTy).Contents (Elt F) → (⟨S1024, .i1⟩ : BufTy).Contents (Elt F)),
    binary main_v78 main_v80 main_v81 (andi : (⟨S1024, .i1⟩ : BufTy).Contents (Elt F) → (⟨S1024, .i1⟩ : BufTy).Contents (Elt F) → (⟨S1024, .i1⟩ : BufTy).Contents (Elt F)),
    unary main_v76 main_v82 (Host.negf : (⟨S1024, .f32⟩ : BufTy).Contents (Elt F) → (⟨S1024, .f32⟩ : BufTy).Contents (Elt F)),
    TRef.ternary (TRef.of (T := ⟨S1024, .i1⟩) main_v81) (TRef.of (T := ⟨S1024, .f32⟩) main_v82) (TRef.of (T := ⟨S1024, .f32⟩) main_v61) (TRef.of (T := ⟨S1024, .f32⟩) main_v83) select ]

abbrev ops : List (HloOp τ sig (Elt F)) :=
  ops1 ++ (ops2 ++ (ops3 ++ (ops4 ++ (ops5 ++ (ops6 ++ (ops7 ++ (ops8 ++ (ops9 ++ (ops10 ++ (ops11 ++ ops12))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig := by
  simp only [ops, ops1, ops2, ops3, ops4, ops5, ops6, ops7, ops8, ops9, ops10, ops11, ops12, List.cons_append, List.nil_append, List.Forall,
    nullary_bufs_sub, unary_bufs_sub, binary_bufs_sub, ternary_bufs_sub, reshape_bufs_sub, and_self]

/-- The fifteen argument arrays; `Args V W`: the valuation `W` holds `V`'s argument arrays. -/
abbrev argRefs : List (Ref sig .tc) := [main_arg0, main_arg1, main_arg2, main_arg3, main_arg4, main_arg5, main_arg6, main_arg7, main_arg8, main_arg9, main_arg10, main_arg11, main_arg12, main_arg13, main_arg14]
def Args (V W : Valuation τ sig (Elt F)) : Prop := ∀ r ∈ argRefs, W (Proc.devRef .tc r) = V (Proc.devRef .tc r)

/-- An operation whose result is no argument array writes no argument array. -/
theorem keeps {y : Ref sig .tc} (hy : y ∉ argRefs) : ∀ r ∈ argRefs, Proc.devRef (τ := τ) .tc r ∉ ({Proc.devRef .tc y} : Finset (DevRef τ sig)) :=
  fun r hr h => hy (Proc.devRef_injective _ (Finset.mem_singleton.mp h) ▸ hr)

/-- A line none of whose operations writes an argument array keeps `Args`. -/
theorem Args.after {V W : Valuation τ sig (Elt F)} (h : Args V W) {l : List (HloOp τ sig (Elt F))}
    (hl : l.Forall fun op => ∀ r ∈ argRefs, Proc.devRef (τ := τ) .tc r ∉ op.writes) : Args V (after l W) :=
  fun r hr => (after_of_forall_not_mem l W fun op hop => List.forall_iff_forall_mem.mp hl op hop r hr).trans (h r hr)

/-- The stages that cross a cut, as functions of `V`'s argument arrays. -/
abbrev s_v8 (V : Valuation τ sig (Elt F)) := val_main_v8 (F := F) (V (Proc.devRef .tc main_arg0)) (V (Proc.devRef .tc main_arg2)) (V (Proc.devRef .tc main_arg3)) (V (Proc.devRef .tc main_arg4)) (V (Proc.devRef .tc main_arg5))
abbrev s_v9 (V : Valuation τ sig (Elt F)) := val_main_v9 (F := F) (V (Proc.devRef .tc main_arg0)) (V (Proc.devRef .tc main_arg2)) (V (Proc.devRef .tc main_arg3)) (V (Proc.devRef .tc main_arg4)) (V (Proc.devRef .tc main_arg5))
abbrev s_v17 (V : Valuation τ sig (Elt F)) := val_main_v17 (F := F) (V (Proc.devRef .tc main_arg0)) (V (Proc.devRef .tc main_arg1)) (V (Proc.devRef .tc main_arg2)) (V (Proc.devRef .tc main_arg3)) (V (Proc.devRef .tc main_arg4)) (V (Proc.devRef .tc main_arg5))
abbrev s_v22 (V : Valuation τ sig (Elt F)) := val_main_v22 (F := F) (V (Proc.devRef .tc main_arg0)) (V (Proc.devRef .tc main_arg6)) (V (Proc.devRef .tc main_arg7)) (V (Proc.devRef .tc main_arg8))
abbrev s_v23 (V : Valuation τ sig (Elt F)) := val_main_v23 (F := F) (V (Proc.devRef .tc main_arg0)) (V (Proc.devRef .tc main_arg6)) (V (Proc.devRef .tc main_arg7)) (V (Proc.devRef .tc main_arg8))
abbrev s_v39 (V : Valuation τ sig (Elt F)) := val_main_v39 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))
abbrev s_v44 (V : Valuation τ sig (Elt F)) := val_main_v44 (F := F) (V (Proc.devRef .tc main_arg0)) (V (Proc.devRef .tc main_arg9)) (V (Proc.devRef .tc main_arg10)) (V (Proc.devRef .tc main_arg11))
abbrev s_v45 (V : Valuation τ sig (Elt F)) := val_main_v45 (F := F) (V (Proc.devRef .tc main_arg0)) (V (Proc.devRef .tc main_arg9)) (V (Proc.devRef .tc main_arg10)) (V (Proc.devRef .tc main_arg11))
abbrev s_v61 (V : Valuation τ sig (Elt F)) := val_main_v61 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
abbrev s_v66 (V : Valuation τ sig (Elt F)) := val_main_v66 (F := F) (V (Proc.devRef .tc main_arg0)) (V (Proc.devRef .tc main_arg12)) (V (Proc.devRef .tc main_arg13)) (V (Proc.devRef .tc main_arg14))
abbrev s_v67 (V : Valuation τ sig (Elt F)) := val_main_v67 (F := F) (V (Proc.devRef .tc main_arg0)) (V (Proc.devRef .tc main_arg12)) (V (Proc.devRef .tc main_arg13)) (V (Proc.devRef .tc main_arg14))
abbrev s_v83 (V : Valuation τ sig (Elt F)) := val_main_v83 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14))

set_option maxRecDepth 8192 in
set_option maxHeartbeats 8000000 in
theorem step1 (V W : Valuation τ sig (Elt F)) (hA : Args V W) :
    Args V (after (ops1 (F := F)) W)
      ∧ after (ops1 (F := F)) W (Proc.devRef .tc main_v8) = s_v8 V := by
  have h_main_arg0 := hA main_arg0 (by decide)
  have h_main_arg2 := hA main_arg2 (by decide)
  have h_main_arg3 := hA main_arg3 (by decide)
  have h_main_arg4 := hA main_arg4 (by decide)
  have h_main_arg5 := hA main_arg5 (by decide)
  have hk : (ops1 (F := F)).Forall fun op => ∀ r ∈ argRefs, Proc.devRef (τ := τ) .tc r ∉ op.writes := by
    simp only [ops1, List.Forall]
    repeat' apply And.intro
    all_goals exact keeps (by decide)
  refine ⟨hA.after hk, ?_⟩
  · after_results; rw [h_main_arg0, h_main_arg2, h_main_arg3, h_main_arg4, h_main_arg5]; rfl

set_option maxRecDepth 8192 in
set_option maxHeartbeats 8000000 in
theorem step2 (V W : Valuation τ sig (Elt F)) (hA : Args V W)
    (h_main_v8 : W (Proc.devRef .tc main_v8) = s_v8 V) :
    Args V (after (ops2 (F := F)) W)
      ∧ after (ops2 (F := F)) W (Proc.devRef .tc main_v9) = s_v9 V := by
  have hk : (ops2 (F := F)).Forall fun op => ∀ r ∈ argRefs, Proc.devRef (τ := τ) .tc r ∉ op.writes := by
    simp only [ops2, List.Forall]
    repeat' apply And.intro
    all_goals exact keeps (by decide)
  refine ⟨hA.after hk, ?_⟩
  · after_results_simp; simp only [TRef.ofBuf, TRef.toBuf, cast_eq, h_main_v8] <;> rfl

set_option maxRecDepth 8192 in
set_option maxHeartbeats 8000000 in
theorem step3 (V W : Valuation τ sig (Elt F)) (hA : Args V W)
    (h_main_v9 : W (Proc.devRef .tc main_v9) = s_v9 V) :
    Args V (after (ops3 (F := F)) W)
      ∧ after (ops3 (F := F)) W (Proc.devRef .tc main_v9) = s_v9 V
      ∧ after (ops3 (F := F)) W (Proc.devRef .tc main_v17) = s_v17 V := by
  have h_main_arg1 := hA main_arg1 (by decide)
  have hk : (ops3 (F := F)).Forall fun op => ∀ r ∈ argRefs, Proc.devRef (τ := τ) .tc r ∉ op.writes := by
    simp only [ops3, List.Forall]
    repeat' apply And.intro
    all_goals exact keeps (by decide)
  refine ⟨hA.after hk, ?_, ?_⟩
  · after_results_simp; exact h_main_v9
  · after_results_simp; simp only [TRef.ofBuf, TRef.toBuf, cast_eq, h_main_arg1, h_main_v9] <;> rfl

set_option maxRecDepth 8192 in
set_option maxHeartbeats 8000000 in
theorem step4 (V W : Valuation τ sig (Elt F)) (hA : Args V W)
    (h_main_v9 : W (Proc.devRef .tc main_v9) = s_v9 V)
    (h_main_v17 : W (Proc.devRef .tc main_v17) = s_v17 V) :
    Args V (after (ops4 (F := F)) W)
      ∧ after (ops4 (F := F)) W (Proc.devRef .tc main_v22) = s_v22 V
      ∧ after (ops4 (F := F)) W (Proc.devRef .tc main_v9) = s_v9 V
      ∧ after (ops4 (F := F)) W (Proc.devRef .tc main_v17) = s_v17 V := by
  have h_main_arg0 := hA main_arg0 (by decide)
  have h_main_arg6 := hA main_arg6 (by decide)
  have h_main_arg7 := hA main_arg7 (by decide)
  have h_main_arg8 := hA main_arg8 (by decide)
  have hk : (ops4 (F := F)).Forall fun op => ∀ r ∈ argRefs, Proc.devRef (τ := τ) .tc r ∉ op.writes := by
    simp only [ops4, List.Forall]
    repeat' apply And.intro
    all_goals exact keeps (by decide)
  refine ⟨hA.after hk, ?_, ?_, ?_⟩
  · after_results_simp; simp only [TRef.ofBuf, TRef.toBuf, cast_eq, h_main_arg0, h_main_arg6, h_main_arg7, h_main_arg8] <;> rfl
  · after_results_simp; exact h_main_v9
  · after_results_simp; exact h_main_v17

set_option maxRecDepth 8192 in
set_option maxHeartbeats 8000000 in
theorem step5 (V W : Valuation τ sig (Elt F)) (hA : Args V W)
    (h_main_v22 : W (Proc.devRef .tc main_v22) = s_v22 V)
    (h_main_v9 : W (Proc.devRef .tc main_v9) = s_v9 V)
    (h_main_v17 : W (Proc.devRef .tc main_v17) = s_v17 V) :
    Args V (after (ops5 (F := F)) W)
      ∧ after (ops5 (F := F)) W (Proc.devRef .tc main_v9) = s_v9 V
      ∧ after (ops5 (F := F)) W (Proc.devRef .tc main_v23) = s_v23 V
      ∧ after (ops5 (F := F)) W (Proc.devRef .tc main_v17) = s_v17 V := by
  have hk : (ops5 (F := F)).Forall fun op => ∀ r ∈ argRefs, Proc.devRef (τ := τ) .tc r ∉ op.writes := by
    simp only [ops5, List.Forall]
    repeat' apply And.intro
    all_goals exact keeps (by decide)
  refine ⟨hA.after hk, ?_, ?_, ?_⟩
  · after_results_simp; exact h_main_v9
  · after_results_simp; simp only [TRef.ofBuf, TRef.toBuf, cast_eq, h_main_v22] <;> rfl
  · after_results_simp; exact h_main_v17

set_option maxRecDepth 8192 in
set_option maxHeartbeats 8000000 in
theorem step6 (V W : Valuation τ sig (Elt F)) (hA : Args V W)
    (h_main_v9 : W (Proc.devRef .tc main_v9) = s_v9 V)
    (h_main_v23 : W (Proc.devRef .tc main_v23) = s_v23 V)
    (h_main_v17 : W (Proc.devRef .tc main_v17) = s_v17 V) :
    Args V (after (ops6 (F := F)) W)
      ∧ after (ops6 (F := F)) W (Proc.devRef .tc main_v9) = s_v9 V
      ∧ after (ops6 (F := F)) W (Proc.devRef .tc main_v39) = s_v39 V := by
  have h_main_arg1 := hA main_arg1 (by decide)
  have hk : (ops6 (F := F)).Forall fun op => ∀ r ∈ argRefs, Proc.devRef (τ := τ) .tc r ∉ op.writes := by
    simp only [ops6, List.Forall]
    repeat' apply And.intro
    all_goals exact keeps (by decide)
  refine ⟨hA.after hk, ?_, ?_⟩
  · after_results_simp; exact h_main_v9
  · after_results_simp; simp only [TRef.ofBuf, TRef.toBuf, cast_eq, h_main_arg1, h_main_v9, h_main_v23, h_main_v17] <;> rfl

set_option maxRecDepth 8192 in
set_option maxHeartbeats 8000000 in
theorem step7 (V W : Valuation τ sig (Elt F)) (hA : Args V W)
    (h_main_v9 : W (Proc.devRef .tc main_v9) = s_v9 V)
    (h_main_v39 : W (Proc.devRef .tc main_v39) = s_v39 V) :
    Args V (after (ops7 (F := F)) W)
      ∧ after (ops7 (F := F)) W (Proc.devRef .tc main_v44) = s_v44 V
      ∧ after (ops7 (F := F)) W (Proc.devRef .tc main_v9) = s_v9 V
      ∧ after (ops7 (F := F)) W (Proc.devRef .tc main_v39) = s_v39 V := by
  have h_main_arg0 := hA main_arg0 (by decide)
  have h_main_arg9 := hA main_arg9 (by decide)
  have h_main_arg10 := hA main_arg10 (by decide)
  have h_main_arg11 := hA main_arg11 (by decide)
  have hk : (ops7 (F := F)).Forall fun op => ∀ r ∈ argRefs, Proc.devRef (τ := τ) .tc r ∉ op.writes := by
    simp only [ops7, List.Forall]
    repeat' apply And.intro
    all_goals exact keeps (by decide)
  refine ⟨hA.after hk, ?_, ?_, ?_⟩
  · after_results_simp; simp only [TRef.ofBuf, TRef.toBuf, cast_eq, h_main_arg0, h_main_arg9, h_main_arg10, h_main_arg11] <;> rfl
  · after_results_simp; exact h_main_v9
  · after_results_simp; exact h_main_v39

set_option maxRecDepth 8192 in
set_option maxHeartbeats 8000000 in
theorem step8 (V W : Valuation τ sig (Elt F)) (hA : Args V W)
    (h_main_v44 : W (Proc.devRef .tc main_v44) = s_v44 V)
    (h_main_v9 : W (Proc.devRef .tc main_v9) = s_v9 V)
    (h_main_v39 : W (Proc.devRef .tc main_v39) = s_v39 V) :
    Args V (after (ops8 (F := F)) W)
      ∧ after (ops8 (F := F)) W (Proc.devRef .tc main_v9) = s_v9 V
      ∧ after (ops8 (F := F)) W (Proc.devRef .tc main_v45) = s_v45 V
      ∧ after (ops8 (F := F)) W (Proc.devRef .tc main_v39) = s_v39 V := by
  have hk : (ops8 (F := F)).Forall fun op => ∀ r ∈ argRefs, Proc.devRef (τ := τ) .tc r ∉ op.writes := by
    simp only [ops8, List.Forall]
    repeat' apply And.intro
    all_goals exact keeps (by decide)
  refine ⟨hA.after hk, ?_, ?_, ?_⟩
  · after_results_simp; exact h_main_v9
  · after_results_simp; simp only [TRef.ofBuf, TRef.toBuf, cast_eq, h_main_v44] <;> rfl
  · after_results_simp; exact h_main_v39

set_option maxRecDepth 8192 in
set_option maxHeartbeats 8000000 in
theorem step9 (V W : Valuation τ sig (Elt F)) (hA : Args V W)
    (h_main_v9 : W (Proc.devRef .tc main_v9) = s_v9 V)
    (h_main_v45 : W (Proc.devRef .tc main_v45) = s_v45 V)
    (h_main_v39 : W (Proc.devRef .tc main_v39) = s_v39 V) :
    Args V (after (ops9 (F := F)) W)
      ∧ after (ops9 (F := F)) W (Proc.devRef .tc main_v9) = s_v9 V
      ∧ after (ops9 (F := F)) W (Proc.devRef .tc main_v61) = s_v61 V := by
  have h_main_arg1 := hA main_arg1 (by decide)
  have hk : (ops9 (F := F)).Forall fun op => ∀ r ∈ argRefs, Proc.devRef (τ := τ) .tc r ∉ op.writes := by
    simp only [ops9, List.Forall]
    repeat' apply And.intro
    all_goals exact keeps (by decide)
  refine ⟨hA.after hk, ?_, ?_⟩
  · after_results_simp; exact h_main_v9
  · after_results_simp; simp only [TRef.ofBuf, TRef.toBuf, cast_eq, h_main_arg1, h_main_v9, h_main_v45, h_main_v39] <;> rfl

set_option maxRecDepth 8192 in
set_option maxHeartbeats 8000000 in
theorem step10 (V W : Valuation τ sig (Elt F)) (hA : Args V W)
    (h_main_v9 : W (Proc.devRef .tc main_v9) = s_v9 V)
    (h_main_v61 : W (Proc.devRef .tc main_v61) = s_v61 V) :
    Args V (after (ops10 (F := F)) W)
      ∧ after (ops10 (F := F)) W (Proc.devRef .tc main_v66) = s_v66 V
      ∧ after (ops10 (F := F)) W (Proc.devRef .tc main_v9) = s_v9 V
      ∧ after (ops10 (F := F)) W (Proc.devRef .tc main_v61) = s_v61 V := by
  have h_main_arg0 := hA main_arg0 (by decide)
  have h_main_arg12 := hA main_arg12 (by decide)
  have h_main_arg13 := hA main_arg13 (by decide)
  have h_main_arg14 := hA main_arg14 (by decide)
  have hk : (ops10 (F := F)).Forall fun op => ∀ r ∈ argRefs, Proc.devRef (τ := τ) .tc r ∉ op.writes := by
    simp only [ops10, List.Forall]
    repeat' apply And.intro
    all_goals exact keeps (by decide)
  refine ⟨hA.after hk, ?_, ?_, ?_⟩
  · after_results_simp; simp only [TRef.ofBuf, TRef.toBuf, cast_eq, h_main_arg0, h_main_arg12, h_main_arg13, h_main_arg14] <;> rfl
  · after_results_simp; exact h_main_v9
  · after_results_simp; exact h_main_v61

set_option maxRecDepth 8192 in
set_option maxHeartbeats 8000000 in
theorem step11 (V W : Valuation τ sig (Elt F)) (hA : Args V W)
    (h_main_v66 : W (Proc.devRef .tc main_v66) = s_v66 V)
    (h_main_v9 : W (Proc.devRef .tc main_v9) = s_v9 V)
    (h_main_v61 : W (Proc.devRef .tc main_v61) = s_v61 V) :
    Args V (after (ops11 (F := F)) W)
      ∧ after (ops11 (F := F)) W (Proc.devRef .tc main_v9) = s_v9 V
      ∧ after (ops11 (F := F)) W (Proc.devRef .tc main_v67) = s_v67 V
      ∧ after (ops11 (F := F)) W (Proc.devRef .tc main_v61) = s_v61 V := by
  have hk : (ops11 (F := F)).Forall fun op => ∀ r ∈ argRefs, Proc.devRef (τ := τ) .tc r ∉ op.writes := by
    simp only [ops11, List.Forall]
    repeat' apply And.intro
    all_goals exact keeps (by decide)
  refine ⟨hA.after hk, ?_, ?_, ?_⟩
  · after_results_simp; exact h_main_v9
  · after_results_simp; simp only [TRef.ofBuf, TRef.toBuf, cast_eq, h_main_v66] <;> rfl
  · after_results_simp; exact h_main_v61

set_option maxRecDepth 8192 in
set_option maxHeartbeats 8000000 in
theorem step12 (V W : Valuation τ sig (Elt F)) (hA : Args V W)
    (h_main_v9 : W (Proc.devRef .tc main_v9) = s_v9 V)
    (h_main_v67 : W (Proc.devRef .tc main_v67) = s_v67 V)
    (h_main_v61 : W (Proc.devRef .tc main_v61) = s_v61 V) :
    Args V (after (ops12 (F := F)) W)
      ∧ after (ops12 (F := F)) W (Proc.devRef .tc main_v83) = s_v83 V := by
  have h_main_arg1 := hA main_arg1 (by decide)
  have hk : (ops12 (F := F)).Forall fun op => ∀ r ∈ argRefs, Proc.devRef (τ := τ) .tc r ∉ op.writes := by
    simp only [ops12, List.Forall]
    repeat' apply And.intro
    all_goals exact keeps (by decide)
  refine ⟨hA.after hk, ?_⟩
  · after_results_simp; simp only [TRef.ofBuf, TRef.toBuf, cast_eq, h_main_arg1, h_main_v9, h_main_v67, h_main_v61] <;> rfl

/-- The twelve stretches in a row, from `V` itself: the argument arrays are kept and the result buffer holds the last stage. -/
theorem after_ops (V : Valuation τ sig (Elt F)) :
    Args V (after (ops (F := F)) V) ∧ after (ops (F := F)) V (Proc.devRef .tc main_v83) = s_v83 V := by
  simp only [ops, after_append]
  have ⟨a1, e1_v8⟩ := step1 (F := F) V V (fun _ _ => rfl)
  have ⟨a2, e2_v9⟩ := step2 (F := F) V _ a1 e1_v8
  have ⟨a3, e3_v9, e3_v17⟩ := step3 (F := F) V _ a2 e2_v9
  have ⟨a4, e4_v22, e4_v9, e4_v17⟩ := step4 (F := F) V _ a3 e3_v9 e3_v17
  have ⟨a5, e5_v9, e5_v23, e5_v17⟩ := step5 (F := F) V _ a4 e4_v22 e4_v9 e4_v17
  have ⟨a6, e6_v9, e6_v39⟩ := step6 (F := F) V _ a5 e5_v9 e5_v23 e5_v17
  have ⟨a7, e7_v44, e7_v9, e7_v39⟩ := step7 (F := F) V _ a6 e6_v9 e6_v39
  have ⟨a8, e8_v9, e8_v45, e8_v39⟩ := step8 (F := F) V _ a7 e7_v44 e7_v9 e7_v39
  have ⟨a9, e9_v9, e9_v61⟩ := step9 (F := F) V _ a8 e8_v9 e8_v45 e8_v39
  have ⟨a10, e10_v66, e10_v9, e10_v61⟩ := step10 (F := F) V _ a9 e9_v9 e9_v61
  have ⟨a11, e11_v9, e11_v67, e11_v61⟩ := step11 (F := F) V _ a10 e10_v66 e10_v9 e10_v61
  exact step12 (F := F) V _ a11 e11_v9 e11_v67 e11_v61

set_option maxRecDepth 8192 in
/-- Every weakly fair execution of @main ends with the result at the last stage of the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
      have ⟨hA, h83⟩ := after_ops (F := F) (launchContents m c)
      ⟨(h c main_v83).trans h83,
        (h c main_arg0).trans (hA main_arg0 (by decide)),
        (h c main_arg1).trans (hA main_arg1 (by decide)),
        (h c main_arg2).trans (hA main_arg2 (by decide)),
        (h c main_arg3).trans (hA main_arg3 (by decide)),
        (h c main_arg4).trans (hA main_arg4 (by decide)),
        (h c main_arg5).trans (hA main_arg5 (by decide)),
        (h c main_arg6).trans (hA main_arg6 (by decide)),
        (h c main_arg7).trans (hA main_arg7 (by decide)),
        (h c main_arg8).trans (hA main_arg8 (by decide)),
        (h c main_arg9).trans (hA main_arg9 (by decide)),
        (h c main_arg10).trans (hA main_arg10 (by decide)),
        (h c main_arg11).trans (hA main_arg11 (by decide)),
        (h c main_arg12).trans (hA main_arg12 (by decide)),
        (h c main_arg13).trans (hA main_arg13 (by decide)),
        (h c main_arg14).trans (hA main_arg14 (by decide))⟩)
    (run_seq scopedRefs_eq scopedSems_eq defs main (fun _ => ops) main_eq (fun _ => ops_sub) m ρ)

end Cert.Proof.RefRunHand

end
-- ==== Proof.RefOps.lean ====
import Idealize.ShloMosaic.PureOps.Ideal
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value
import proofs.«407035_j66254165508793_2_alg».proof.Proof.Spec

noncomputable section

namespace Cert.Proof.RefOps

open Idealize.ShloMosaic Idealize.ShloMosaic.ValueIdx

theorem ofBits_neg_inf : Ideal.ofBits .f32 0xFF800000#32 = (⊥ : EReal) := by simp [Ideal.ofBits, Ideal.ieee]

theorem fold_max_bot {ι : Type} [Fintype ι] (f : ι → EReal) :
    (Finset.univ : Finset ι).fold max (⊥ : EReal) f = Finset.univ.sup f := rfl

theorem select_ofBool {α : Type} (b : Bool) (x y : α) : Scalar.select (BitVec.ofBool b) x y = if b then x else y := by
  cases b
  · exact if_neg (by decide)
  · exact if_pos rfl

theorem select_slt {α : Type} (t c : BitVec 32) (x y : α) :
    Scalar.select (IntOp.cmpi .slt t c) x y = if BitVec.slt t c then x else y := select_ofBool _ x y

theorem select_range {α : Type} (t lo hi : BitVec 32) (x y : α) :
    Scalar.select (IntOp.andi (IntOp.cmpi .sge t lo) (IntOp.cmpi .slt t hi)) x y
      = if (BitVec.sle lo t && BitVec.slt t hi) then x else y := by
  have e : IntOp.andi (IntOp.cmpi .sge t lo) (IntOp.cmpi .slt t hi) = BitVec.ofBool (BitVec.sle lo t && BitVec.slt t hi) := by
    show BitVec.ofBool (BitVec.sle lo t) &&& BitVec.ofBool (BitVec.slt t hi) = _
    cases BitVec.sle lo t <;> cases BitVec.slt t hi <;> rfl
  rw [e, select_ofBool]

section rows

variable {R N : ℕ}

theorem reduces_of_reducesTo (red : (⟨2, ![R, N]⟩ : Shape).ReducesTo [1] ⟨1, ![R]⟩) :
    (⟨2, ![R, N]⟩ : Shape).Reduces [1] ⟨1, ![R]⟩ := ⟨red.1, Nat.one_pos, red.2⟩

theorem lift_eq (h : (⟨2, ![R, N]⟩ : Shape).Reduces [1] ⟨1, ![R]⟩) (j : (⟨1, ![R]⟩ : Shape).Idx) (k : Fin N) :
    h.lift j k = ix2 (j 0) k := by
  funext a
  match a with
  | ⟨0, _⟩ => exact Fin.ext rfl
  | ⟨1, _⟩ => exact Fin.ext rfl

theorem rowMax_apply (red : (⟨2, ![R, N]⟩ : Shape).ReducesTo [1] ⟨1, ![R]⟩) (hu : 0 < (⟨0, ![]⟩ : Shape).numel)
    (X : FVec Ideal ⟨2, ![R, N]⟩ .f32) (j : (⟨1, ![R]⟩ : Shape).Idx) :
    Host.reduce FloatOps.maximumf X (constant (F := Ideal) ⟨0, ![]⟩ .f32 0xFF800000#32) red hu j
      = Finset.univ.sup (fun c : Fin N => X (ix2 (j 0) c)) := by
  have h := reduces_of_reducesTo red
  rw [Host.reduce_eq_fold_single FloatOps.maximumf X _ red h hu j]
  show (Finset.univ : Finset (Fin N)).fold max (Ideal.ofBits .f32 0xFF800000#32) (X ∘ h.lift j) = _
  rw [ofBits_neg_inf]
  refine (fold_max_bot (ι := Fin N) (X ∘ h.lift j)).trans ?_
  exact congrArg _ (funext fun k => congrArg X (lift_eq h j k))

theorem bcast_col_apply {α : Type} (h : (⟨2, ![R, 1]⟩ : Shape).BroadcastsInDim ⟨2, ![R, N]⟩ (![0, 1] : Fin 2 → Fin 2))
    (w : (⟨2, ![R, 1]⟩ : Shape).Idx → α) (p : Fin R) (q : Fin N) :
    broadcastInDim ⟨2, ![R, N]⟩ ![0, 1] h w (ix2 p q) = w (ix2 p 0) :=
  broadcastInDim_apply _ h w (ix2 p q) (ix2 p 0) (fun a => match a with
    | ⟨0, _⟩ => by
        show p.val = if R = 1 then 0 else p.val
        split
        · have := p.isLt; omega
        · rfl
    | ⟨1, _⟩ => by show 0 = if (1 : ℕ) = 1 then 0 else q.val; rw [if_pos rfl])

theorem bcast_vec_col_apply {α : Type} (h : (⟨1, ![R]⟩ : Shape).BroadcastsInDim ⟨2, ![R, 1]⟩ (![0] : Fin 1 → Fin 2))
    (v : (⟨1, ![R]⟩ : Shape).Idx → α) (p : Fin R) (z : Fin 1) :
    broadcastInDim ⟨2, ![R, 1]⟩ ![0] h v (ix2 p z) = v (ix1 p) :=
  broadcastInDim_apply _ h v (ix2 p z) (ix1 p) (fun a => match a with
    | ⟨0, _⟩ => by
        show p.val = if R = 1 then 0 else p.val
        split
        · have := p.isLt; omega
        · rfl)

def shifted (b0R : (⟨0, ![]⟩ : Shape).BroadcastsInDim ⟨1, ![R]⟩ (![] : Fin 0 → Fin 1))
    (bRc : (⟨1, ![R]⟩ : Shape).BroadcastsInDim ⟨2, ![R, 1]⟩ (![0] : Fin 1 → Fin 2))
    (bcN : (⟨2, ![R, 1]⟩ : Shape).BroadcastsInDim ⟨2, ![R, N]⟩ (![0, 1] : Fin 2 → Fin 2))
    (red : (⟨2, ![R, N]⟩ : Shape).ReducesTo [1] ⟨1, ![R]⟩) (hu : 0 < (⟨0, ![]⟩ : Shape).numel)
    (X : FVec Ideal ⟨2, ![R, N]⟩ .f32) : FVec Ideal ⟨2, ![R, N]⟩ .f32 :=
  subf X (broadcastInDim ⟨2, ![R, N]⟩ ![0, 1] bcN (broadcastInDim ⟨2, ![R, 1]⟩ ![0] bRc
    (maximumf (broadcastInDim ⟨1, ![R]⟩ ![] b0R (constant ⟨0, ![]⟩ .f32 0xFF800000#32))
      (Host.reduce FloatOps.maximumf X (constant ⟨0, ![]⟩ .f32 0xFF800000#32) red hu))))

def logSoftmax (b0R : (⟨0, ![]⟩ : Shape).BroadcastsInDim ⟨1, ![R]⟩ (![] : Fin 0 → Fin 1))
    (bRc : (⟨1, ![R]⟩ : Shape).BroadcastsInDim ⟨2, ![R, 1]⟩ (![0] : Fin 1 → Fin 2))
    (bcN : (⟨2, ![R, 1]⟩ : Shape).BroadcastsInDim ⟨2, ![R, N]⟩ (![0, 1] : Fin 2 → Fin 2))
    (red : (⟨2, ![R, N]⟩ : Shape).ReducesTo [1] ⟨1, ![R]⟩) (hu : 0 < (⟨0, ![]⟩ : Shape).numel)
    (X : FVec Ideal ⟨2, ![R, N]⟩ .f32) : FVec Ideal ⟨2, ![R, N]⟩ .f32 :=
  subf (shifted b0R bRc bcN red hu X) (broadcastInDim ⟨2, ![R, N]⟩ ![0, 1] bcN (Host.log (broadcastInDim ⟨2, ![R, 1]⟩ ![0] bRc
    (Host.reduceAdd (Host.exp (shifted b0R bRc bcN red hu X)) (constant ⟨0, ![]⟩ .f32 0x00000000#32) red hu))))

theorem shifted_apply (b0R : (⟨0, ![]⟩ : Shape).BroadcastsInDim ⟨1, ![R]⟩ (![] : Fin 0 → Fin 1))
    (bRc : (⟨1, ![R]⟩ : Shape).BroadcastsInDim ⟨2, ![R, 1]⟩ (![0] : Fin 1 → Fin 2))
    (bcN : (⟨2, ![R, 1]⟩ : Shape).BroadcastsInDim ⟨2, ![R, N]⟩ (![0, 1] : Fin 2 → Fin 2))
    (red : (⟨2, ![R, N]⟩ : Shape).ReducesTo [1] ⟨1, ![R]⟩) (hu : 0 < (⟨0, ![]⟩ : Shape).numel)
    (X : FVec Ideal ⟨2, ![R, N]⟩ .f32) (p : Fin R) (q : Fin N) :
    shifted b0R bRc bcN red hu X (ix2 p q) = X (ix2 p q) - Finset.univ.sup (fun c : Fin N => X (ix2 p c)) := by
  unfold shifted
  show X (ix2 p q) - (broadcastInDim ⟨2, ![R, N]⟩ ![0, 1] bcN (broadcastInDim ⟨2, ![R, 1]⟩ ![0] bRc
      (maximumf (broadcastInDim ⟨1, ![R]⟩ ![] b0R (constant (F := Ideal) ⟨0, ![]⟩ .f32 0xFF800000#32))
        (Host.reduce FloatOps.maximumf X (constant (F := Ideal) ⟨0, ![]⟩ .f32 0xFF800000#32) red hu)))) (ix2 p q) = _
  rw [bcast_col_apply, bcast_vec_col_apply]
  show X (ix2 p q) - max (broadcastInDim ⟨1, ![R]⟩ ![] b0R (constant (F := Ideal) ⟨0, ![]⟩ .f32 0xFF800000#32) (ix1 p))
      (Host.reduce FloatOps.maximumf X (constant (F := Ideal) ⟨0, ![]⟩ .f32 0xFF800000#32) red hu (ix1 p)) = _
  rw [broadcastInDim_scalar_apply, rowMax_apply]
  show X (ix2 p q) - max (Ideal.ofBits .f32 0xFF800000#32) _ = _
  rw [ofBits_neg_inf, max_eq_right bot_le]
  rfl

theorem logSoftmax_apply (b0R : (⟨0, ![]⟩ : Shape).BroadcastsInDim ⟨1, ![R]⟩ (![] : Fin 0 → Fin 1))
    (bRc : (⟨1, ![R]⟩ : Shape).BroadcastsInDim ⟨2, ![R, 1]⟩ (![0] : Fin 1 → Fin 2))
    (bcN : (⟨2, ![R, 1]⟩ : Shape).BroadcastsInDim ⟨2, ![R, N]⟩ (![0, 1] : Fin 2 → Fin 2))
    (red : (⟨2, ![R, N]⟩ : Shape).ReducesTo [1] ⟨1, ![R]⟩) (hu : 0 < (⟨0, ![]⟩ : Shape).numel)
    (X : FVec Ideal ⟨2, ![R, N]⟩ .f32) (p : Fin R) (q : Fin N) :
    logSoftmax b0R bRc bcN red hu X (ix2 p q) = Cert.Spec.lsm (fun c => X (ix2 p c)) q := by
  have h := reduces_of_reducesTo red
  unfold logSoftmax Cert.Spec.lsm
  show shifted b0R bRc bcN red hu X (ix2 p q) - (broadcastInDim ⟨2, ![R, N]⟩ ![0, 1] bcN (Host.log (broadcastInDim ⟨2, ![R, 1]⟩ ![0] bRc
    (Host.reduceAdd (Host.exp (shifted b0R bRc bcN red hu X)) (constant (F := Ideal) ⟨0, ![]⟩ .f32 0x00000000#32) red hu)))) (ix2 p q) = _
  rw [bcast_col_apply]
  show shifted b0R bRc bcN red hu X (ix2 p q) - Ideal.log ((broadcastInDim ⟨2, ![R, 1]⟩ ![0] bRc
    (Host.reduceAdd (Host.exp (shifted b0R bRc bcN red hu X)) (constant (F := Ideal) ⟨0, ![]⟩ .f32 0x00000000#32) red hu)) (ix2 p 0)) = _
  rw [bcast_vec_col_apply, hostReduceAdd_apply, Ideal.hostReduceAdd_single red h, shifted_apply]
  show _ - Ideal.log (Ideal.ofBits .f32 0x00000000#32
    + ∑ k : Fin N, Ideal.exp (shifted b0R bRc bcN red hu X (h.lift (ix1 p) k))) = _
  rw [Ideal.ofBits_zero_f32, zero_add]
  refine congrArg (fun s => _ - Ideal.log s) (Finset.sum_congr rfl fun (k : Fin N) _ => ?_)
  rw [lift_eq h (ix1 p) k]
  show Ideal.exp (shifted b0R bRc bcN red hu X (ix2 p k)) = _
  rw [shifted_apply]

theorem catCols_apply {α : Type} {n1 n2 : ℕ} (hn : n1 + n2 = N)
    (h : Shape.Concatenates [(⟨2, ![R, n1]⟩ : Shape), ⟨2, ![R, n2]⟩] ⟨2, ![R, N]⟩ 1)
    (a : (⟨2, ![R, n1]⟩ : Shape).Idx → α) (b : (⟨2, ![R, n2]⟩ : Shape).Idx → α) (p : Fin R) (q : Fin N) :
    concatenate ⟨2, ![R, N]⟩ 1 [⟨⟨2, ![R, n1]⟩, a⟩, ⟨⟨2, ![R, n2]⟩, b⟩] h (ix2 p q)
      = if hq : q.val < n1 then a (ix2 p ⟨q.val, hq⟩) else b (ix2 p ⟨q.val - n1, by have := q.isLt; omega⟩) := by
  split
  · next hq =>
    exact concatenate_pair_apply_left 1 a b h (ix2 p q) rfl (ix2 p ⟨q.val, hq⟩) (fun c => match c with
      | ⟨0, _⟩ => rfl
      | ⟨1, _⟩ => rfl)
  · next hq =>
    exact concatenate_pair_apply_right 1 a b h (ix2 p q) rfl rfl (ix2 p ⟨q.val - n1, by have := q.isLt; omega⟩)
      (fun c => match c with
        | ⟨0, _⟩ => fun _ => rfl
        | ⟨1, _⟩ => fun hc => absurd rfl hc)
      (by show q.val - n1 + n1 = q.val; omega)

end rows

end Cert.Proof.RefOps

end
-- ==== Proof.RefGather.lean ====
import Idealize.ShloMosaic.PureOps.Ideal
import Idealize.ShloMosaic.PureOps.Reduce
import Idealize.ShloMosaic.Lib.ValueIdx
import Idealize.ShloMosaic.Lib.Pipeline.Value
import Idealize.ShloMosaic.Lib.StableHlo.Predicate
import proofs.«407035_j66254165508793_2_alg».proof.Proof.Spec

noncomputable section

namespace Cert.Proof.RefGather

open Idealize.ShloMosaic Idealize.ShloMosaic.ValueIdx

section words

theorem clipWord_toInt (hiN : ℕ) (hhi : hiN < 2 ^ 31) (t : BitVec 32) :
    (IntOp.minsi (BitVec.ofNat 32 hiN) (IntOp.maxsi 0#32 t)).toInt = min (hiN : ℤ) (max 0 t.toInt) := by
  have h0 : (0#32 : BitVec 32).toInt = 0 := by decide
  have hh : (BitVec.ofNat 32 hiN).toInt = hiN := StableHlo.Predicate.toInt_ofNat_small hiN hhi
  unfold IntOp.minsi IntOp.maxsi
  by_cases h1 : t.slt 0#32 = true
  · rw [if_pos h1]
    have h1' := BitVec.slt_iff_toInt_lt.mp h1
    rw [h0] at h1'
    by_cases h2 : (BitVec.ofNat 32 hiN).slt 0#32 = true
    · have h2' := BitVec.slt_iff_toInt_lt.mp h2
      rw [h0, hh] at h2'
      omega
    · rw [if_neg h2, h0]; omega
  · rw [if_neg h1]
    have h1' : ¬ t.toInt < 0 := fun h => h1 (BitVec.slt_iff_toInt_lt.mpr (by rw [h0]; exact h))
    by_cases h2 : (BitVec.ofNat 32 hiN).slt t = true
    · rw [if_pos h2, hh]
      have h2' := BitVec.slt_iff_toInt_lt.mp h2
      rw [hh] at h2'
      omega
    · rw [if_neg h2]
      have h2' : ¬ (hiN : ℤ) < t.toInt := fun h => h2 (BitVec.slt_iff_toInt_lt.mpr (by rw [hh]; exact h))
      omega

theorem clipWord_facts {N : ℕ} (hiN : ℕ) (hN : N < 2 ^ 31) (hhi : hiN + 1 ≤ N) (t w : BitVec 32)
    (hw : w = IntOp.minsi (BitVec.ofNat 32 hiN) (IntOp.maxsi 0#32 t)) :
    IntOp.cmpi .slt w 0#32 = 0#1 ∧ IntOp.cmpi .sge w 0#32 = 1#1 ∧
      IntOp.cmpi .sle w (BitVec.ofNat 32 (N - 1)) = 1#1 ∧ min w.toInt.toNat (N - 1) = Cert.Spec.clipNat t hiN := by
  have h0 : (0#32 : BitVec 32).toInt = 0 := by decide
  have hwi : w.toInt = min (hiN : ℤ) (max 0 t.toInt) := by rw [hw]; exact clipWord_toInt hiN (by omega) t
  have hn : (BitVec.ofNat 32 (N - 1)).toInt = ((N - 1 : ℕ) : ℤ) := StableHlo.Predicate.toInt_ofNat_small (N - 1) (by omega)
  refine ⟨?_, ?_, ?_, ?_⟩
  · show BitVec.ofBool (w.slt 0#32) = 0#1
    have : w.slt 0#32 = false := by
      rw [BitVec.slt_eq_decide, h0, hwi]; exact decide_eq_false (by omega)
    rw [this]; rfl
  · show BitVec.ofBool ((0#32 : BitVec 32).sle w) = 1#1
    have : (0#32 : BitVec 32).sle w = true := by
      rw [BitVec.sle_eq_decide, h0, hwi]; exact decide_eq_true (by omega)
    rw [this]; rfl
  · show BitVec.ofBool (w.sle (BitVec.ofNat 32 (N - 1))) = 1#1
    have : w.sle (BitVec.ofNat 32 (N - 1)) = true := by
      rw [BitVec.sle_eq_decide, hn, hwi]; exact decide_eq_true (by omega)
    rw [this]; rfl
  · unfold Cert.Spec.clipNat
    rw [hwi]; omega

end words

section mask

theorem fold_andi_one {ι : Type} [DecidableEq ι] (S : Finset ι) (g : ι → BitVec 1) (hg : ∀ k, g k = 1#1) :
    S.fold IntOp.andi 1#1 g = 1#1 := by
  induction S using Finset.induction_on with
  | empty => rfl
  | insert a S ha ih => rw [Finset.fold_insert ha, ih, hg]; rfl

theorem reduce_andi_one {s t u : Shape} {axes : List (Fin s.rank)} (x : IVec s 1) (hx : ∀ y, x y = 1#1)
    (init : u.Idx → BitVec 1) (hu : 0 < u.numel) (hinit : init (Shape.Idx.first hu) = 1#1)
    (red : s.ReducesTo axes t) (j : t.Idx) :
    Host.reduce IntOp.andi x init red hu j = 1#1 := by
  rw [Host.reduce_eq_fold, hinit]
  exact fold_andi_one _ x hx

end mask

abbrev takeAlongDims (R N : ℕ)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

section gather
variable {α : Type} {R N : ℕ}

theorem gather_takeAlong_apply {w : ℕ} (hN : 0 < N)
    (wf : GatherDims.WF ⟨2, ![R, N]⟩ ⟨3, ![R, 1, 1]⟩ ⟨2, ![R, 1]⟩ [] [1] [0] [1] [0] 2 ![1, 1])
    (lp : (⟨2, ![R, N]⟩ : Shape).Idx → α) (idx : IVec ⟨3, ![R, 1, 1]⟩ w) (j : (⟨2, ![R, 1]⟩ : Shape).Idx) :
    Host.gather (takeAlongDims R N wf) lp idx j
      = lp (ix2 (j 0) ⟨min (idx (ix3 (j 0) 0 0)).toInt.toNat (N - 1), by omega⟩) := by
  unfold Host.gather
  congr 1
  funext a
  refine Fin.ext ?_
  match a with
  | ⟨0, _⟩ =>

    show (takeAlongDims R N wf).start j idx 0 + (takeAlongDims R N wf).batchCoord j 0
      + (takeAlongDims R N wf).offCoord j 0 = (j 0).val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (takeAlongDims R N wf).operandBatchingDims from List.mem_singleton.mpr rfl)]
    rfl
  | ⟨1, _⟩ =>

    show (takeAlongDims R N wf).start j idx 1 + (takeAlongDims R N wf).batchCoord j 1
      + (takeAlongDims R N wf).offCoord j 1 = min (idx (ix3 (j 0) 0 0)).toInt.toNat (N - 1)
    rw [GatherDims.batchCoord_eq_zero _ _ _ (fun h => absurd (show (1 : ℕ) = 0 from congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeAlongDims R N wf).startIndexMap from List.mem_singleton.mpr rfl)]
    have hsi : (takeAlongDims R N wf).siIdx j ⟨List.idxOf (1 : Fin 2) (takeAlongDims R N wf).startIndexMap,
        List.idxOf_lt_length_iff.2 (List.mem_singleton.mpr rfl)⟩ = ix3 (j 0) 0 0 := by
      funext b; refine Fin.ext ?_
      match b with
      | ⟨0, _⟩ => rfl
      | ⟨1, _⟩ =>
        have h1 : (j 1).val < 1 := (j 1).isLt
        show (j 1).val = 0
        omega
      | ⟨2, _⟩ => rfl
    rw [hsi]
    rfl

end gather

section chain

variable {α : Type} {R N : ℕ}
  (b0R : (⟨0, ![]⟩ : Shape).BroadcastsInDim ⟨1, ![R]⟩ (![] : Fin 0 → Fin 1))
  (bRc : (⟨1, ![R]⟩ : Shape).BroadcastsInDim ⟨2, ![R, 1]⟩ (![0] : Fin 1 → Fin 2))
  (b0c : (⟨0, ![]⟩ : Shape).BroadcastsInDim ⟨2, ![R, 1]⟩ (![] : Fin 0 → Fin 2))
  (sc3 : (⟨2, ![R, 1]⟩ : Shape).ShapeCasts ⟨3, ![R, 1, 1]⟩)
  (b03 : (⟨0, ![]⟩ : Shape).BroadcastsInDim ⟨3, ![R, 1, 1]⟩ (![] : Fin 0 → Fin 3))
  (b1u : (⟨1, ![1]⟩ : Shape).BroadcastsInDim ⟨3, ![1, 1, 1]⟩ (![2] : Fin 1 → Fin 3))
  (bu3 : (⟨3, ![1, 1, 1]⟩ : Shape).BroadcastsInDim ⟨3, ![R, 1, 1]⟩ (![0, 1, 2] : Fin 3 → Fin 3))
  (red : (⟨3, ![R, 1, 1]⟩ : Shape).ReducesTo [2] ⟨2, ![R, 1]⟩)
  (hu : 0 < (⟨0, ![]⟩ : Shape).numel)
  (wf : GatherDims.WF ⟨2, ![R, N]⟩ ⟨3, ![R, 1, 1]⟩ ⟨2, ![R, 1]⟩ [] [1] [0] [1] [0] 2 ![1, 1])
  (sc1 : (⟨2, ![R, 1]⟩ : Shape).ShapeCasts ⟨1, ![R]⟩)

def startIdx (lo hi nn : BitVec 32) (tt : IVec ⟨1, ![R]⟩ 32) : IVec ⟨3, ![R, 1, 1]⟩ 32 :=
  let col : IVec ⟨2, ![R, 1]⟩ 32 := broadcastInDim ⟨2, ![R, 1]⟩ ![0] bRc
    (minsi (broadcastInDim ⟨1, ![R]⟩ ![] b0R (id (constantI ⟨0, ![]⟩ 32 hi)))
      (maxsi (broadcastInDim ⟨1, ![R]⟩ ![] b0R (id (constantI ⟨0, ![]⟩ 32 lo))) tt))
  shapeCast _ (select (cmpi .slt col (broadcastInDim ⟨2, ![R, 1]⟩ ![] b0c (constantI ⟨0, ![]⟩ 32 0#32)))
    (addi col (broadcastInDim ⟨2, ![R, 1]⟩ ![] b0c (constantI ⟨0, ![]⟩ 32 nn))) col) sc3

def takeClip (lo hi nn nm1 : BitVec 32) (fill : (⟨2, ![R, 1]⟩ : Shape).Idx → α)
    (lp : (⟨2, ![R, N]⟩ : Shape).Idx → α) (tt : IVec ⟨1, ![R]⟩ 32) : (⟨1, ![R]⟩ : Shape).Idx → α :=
  let idx3 := startIdx b0R bRc b0c sc3 lo hi nn tt
  shapeCast _ (select
    (Host.reduce IntOp.andi
      (andi (cmpi .sge idx3 (broadcastInDim ⟨3, ![R, 1, 1]⟩ ![] b03 (constantI ⟨0, ![]⟩ 32 0#32)))
        (cmpi .sle idx3 (broadcastInDim ⟨3, ![R, 1, 1]⟩ ![0, 1, 2] bu3
          (broadcastInDim ⟨3, ![1, 1, 1]⟩ ![2] b1u (constantI ⟨1, ![1]⟩ 32 nm1)))))
      (constantI ⟨0, ![]⟩ 1 1#1) red hu)
    (Host.gather (takeAlongDims R N wf) lp idx3) fill) sc1

theorem startIdx_apply (lo hi nn : BitVec 32) (tt : IVec ⟨1, ![R]⟩ 32) (j : (⟨3, ![R, 1, 1]⟩ : Shape).Idx) :
    startIdx b0R bRc b0c sc3 lo hi nn tt j
      = Scalar.select (IntOp.cmpi .slt (IntOp.minsi hi (IntOp.maxsi lo (tt (ix1 (j 0))))) 0#32)
          (IntOp.addi (IntOp.minsi hi (IntOp.maxsi lo (tt (ix1 (j 0))))) nn)
          (IntOp.minsi hi (IntOp.maxsi lo (tt (ix1 (j 0))))) := by
  unfold startIdx
  refine (shapeCast_apply _ sc3 j (ix2 (j 0) 0) ?_).trans ?_
  · rewrite [Shape.rowMajor_val_two, Shape.rowMajor_val_three]
    have h1 : (j 1).val < 1 := (j 1).isLt
    have h2 : (j 2).val < 1 := (j 2).isLt
    show (j 0).val * 1 + 0 = ((j 0).val * 1 + (j 1).val) * 1 + (j 2).val
    omega
  · generalize hV : minsi (broadcastInDim ⟨1, ![R]⟩ ![] b0R (id (constantI ⟨0, ![]⟩ 32 hi)))
      (maxsi (broadcastInDim ⟨1, ![R]⟩ ![] b0R (id (constantI ⟨0, ![]⟩ 32 lo))) tt) = V
    have hVi : ∀ i, V i = IntOp.minsi hi (IntOp.maxsi lo (tt i)) := fun i => by rw [← hV]; rfl
    have hcol : broadcastInDim ⟨2, ![R, 1]⟩ ![0] bRc V (ix2 (j 0) 0) = V (ix1 (j 0)) :=
      broadcastInDim_apply _ bRc V (ix2 (j 0) 0) (ix1 (j 0)) (fun a => match a with
        | ⟨0, _⟩ => by
          show (j 0).val = if R = 1 then 0 else (j 0).val
          have h0 : (j 0).val < R := (j 0).isLt
          split <;> omega)
    show Scalar.select (IntOp.cmpi .slt (broadcastInDim ⟨2, ![R, 1]⟩ ![0] bRc V (ix2 (j 0) 0)) 0#32)
      (IntOp.addi (broadcastInDim ⟨2, ![R, 1]⟩ ![0] bRc V (ix2 (j 0) 0)) nn)
      (broadcastInDim ⟨2, ![R, 1]⟩ ![0] bRc V (ix2 (j 0) 0)) = _
    rw [hcol, hVi]

theorem takeClip_apply (hiN : ℕ) (hN : N < 2 ^ 31) (hhi : hiN + 1 ≤ N) (nn : BitVec 32)
    (fill : (⟨2, ![R, 1]⟩ : Shape).Idx → α) (lp : (⟨2, ![R, N]⟩ : Shape).Idx → α) (tt : IVec ⟨1, ![R]⟩ 32)
    (i : (⟨1, ![R]⟩ : Shape).Idx) :
    takeClip b0R bRc b0c sc3 b03 b1u bu3 red hu wf sc1 0#32 (BitVec.ofNat 32 hiN) nn (BitVec.ofNat 32 (N - 1)) fill lp tt i
      = lp (ix2 (i 0) ⟨Cert.Spec.clipNat (tt i) hiN, by have := Cert.Spec.clipNat_le (tt i) hiN; omega⟩) := by

  have hidx : ∀ j, startIdx b0R bRc b0c sc3 0#32 (BitVec.ofNat 32 hiN) nn tt j
      = IntOp.minsi (BitVec.ofNat 32 hiN) (IntOp.maxsi 0#32 (tt (ix1 (j 0)))) := fun j => by
    rw [startIdx_apply, (clipWord_facts hiN hN hhi (tt (ix1 (j 0))) _ rfl).1]
    exact select_zero _ _
  unfold takeClip
  refine (shapeCast_apply _ sc1 i (ix2 (i 0) 0) ?_).trans ?_
  · rewrite [Shape.rowMajor_val_two, Shape.rowMajor_val_one]
    show (i 0).val * 1 + 0 = (i 0).val
    omega
  · show Scalar.select (Host.reduce IntOp.andi _ _ red hu (ix2 (i 0) 0)) _ _ = _
    rw [reduce_andi_one, select_one]
    ·
      rw [gather_takeAlong_apply (by omega) wf lp _ (ix2 (i 0) 0)]
      refine congrArg lp (funext fun a => ?_)
      match a with
      | ⟨0, _⟩ => rfl
      | ⟨1, _⟩ =>
        refine Fin.ext ?_
        show min (startIdx b0R bRc b0c sc3 0#32 (BitVec.ofNat 32 hiN) nn tt (ix3 (i 0) 0 0)).toInt.toNat (N - 1)
          = Cert.Spec.clipNat (tt i) hiN
        rw [hidx]
        have hi : tt (ix1 (i 0)) = tt i := congrArg tt (eq_ix1 i).symm
        refine Eq.trans ?_ (clipWord_facts hiN hN hhi (tt i) _ rfl).2.2.2
        exact congrArg (fun t => min (IntOp.minsi (BitVec.ofNat 32 hiN) (IntOp.maxsi 0#32 t)).toInt.toNat (N - 1)) hi
    ·
      intro y
      show IntOp.andi (IntOp.cmpi .sge (startIdx b0R bRc b0c sc3 0#32 (BitVec.ofNat 32 hiN) nn tt y) 0#32)
        (IntOp.cmpi .sle (startIdx b0R bRc b0c sc3 0#32 (BitVec.ofNat 32 hiN) nn tt y) (BitVec.ofNat 32 (N - 1))) = 1#1
      rw [hidx, (clipWord_facts hiN hN hhi (tt (ix1 (y 0))) _ rfl).2.1,
        (clipWord_facts hiN hN hhi (tt (ix1 (y 0))) _ rfl).2.2.1]
      rfl
    · rfl

end chain

end Cert.Proof.RefGather

end
-- ==== Proof.RefValue.lean ====
import proofs.«407035_j66254165508793_2_alg».proof.Defs
import proofs.«407035_j66254165508793_2_alg».proof.Proof.Gen.ReferenceIdeal
import proofs.«407035_j66254165508793_2_alg».proof.Proof.RefRead
import proofs.«407035_j66254165508793_2_alg».proof.Proof.RefRun
import proofs.«407035_j66254165508793_2_alg».proof.Proof.Spec
import proofs.«407035_j66254165508793_2_alg».proof.Proof.RefOps
import proofs.«407035_j66254165508793_2_alg».proof.Proof.RefGather

noncomputable section

namespace Cert.Proof.RefValue

open Idealize.ShloMosaic Idealize.ShloMosaic.TcCoe Idealize.SL.Sem Idealize.ShloMosaic.ValueIdx
open Cert Cert.ReferenceIdeal Cert.ReferenceIdeal.Gen Cert.ReferenceIdeal.Read

variable (x0 : (⟨S1024x1024, .f32⟩ : BufTy).Contents (Elt Ideal)) (x1 : (⟨S1024, .i32⟩ : BufTy).Contents (Elt Ideal))
  (x2 : (⟨S1024x20000, .f32⟩ : BufTy).Contents (Elt Ideal)) (x3 : (⟨S20000, .f32⟩ : BufTy).Contents (Elt Ideal))
  (x4 : (⟨S1024x3, .f32⟩ : BufTy).Contents (Elt Ideal)) (x5 : (⟨S3, .f32⟩ : BufTy).Contents (Elt Ideal))
  (x6 : (⟨S1024x256, .f32⟩ : BufTy).Contents (Elt Ideal)) (x7 : (⟨S256x40000, .f32⟩ : BufTy).Contents (Elt Ideal))
  (x8 : (⟨S40000, .f32⟩ : BufTy).Contents (Elt Ideal))
  (x9 : (⟨S1024x64, .f32⟩ : BufTy).Contents (Elt Ideal)) (x10 : (⟨S64x120000, .f32⟩ : BufTy).Contents (Elt Ideal))
  (x11 : (⟨S120000, .f32⟩ : BufTy).Contents (Elt Ideal))
  (x12 : (⟨S1024x16, .f32⟩ : BufTy).Contents (Elt Ideal)) (x13 : (⟨S16x87735, .f32⟩ : BufTy).Contents (Elt Ideal))
  (x14 : (⟨S87735, .f32⟩ : BufTy).Contents (Elt Ideal))

theorem head_logits (p : Fin 1024) (c : Fin 20000) :
    val_main_v3 (F := Ideal) x0 x2 x3 (ix2 p c) = Spec.logits (Spec.row x0 p) (Spec.mat x2) (Spec.vec x3) c := by
  have eL : ∀ k : Fin 1024, lidx_main_v0 (ix2 p c) k = ix2 p k := fun k => funext fun a => by
    match a with | ⟨0, _⟩ => rfl | ⟨1, _⟩ => rfl
  have eR : ∀ k : Fin 1024, ridx_main_v0 (ix2 p c) k = ix2 k c := fun k => funext fun a => by
    match a with | ⟨0, _⟩ => rfl | ⟨1, _⟩ => rfl
  have eB : idx_main_v1 (idx_main_v2 (ix2 p c)) = ix1 c := funext fun a => by match a with | ⟨0, _⟩ => rfl
  rw [val_main_v3_apply, val_main_v0_apply, val_main_v2_apply, val_main_v1_apply, eB]
  show (∑ k : Fin 1024, x0 (lidx_main_v0 (ix2 p c) k) * x2 (ridx_main_v0 (ix2 p c) k)) + x3 (ix1 c)
    = (∑ k : Fin 1024, x0 (ix2 p k) * x2 (ix2 k c)) + x3 (ix1 c)
  refine congrArg (· + x3 (ix1 c)) (Finset.sum_congr rfl fun k _ => ?_)
  rw [eL k, eR k]

theorem cluster_logits (p : Fin 1024) (c : Fin 3) :
    val_main_v7 (F := Ideal) x0 x4 x5 (ix2 p c) = Spec.logits (Spec.row x0 p) (Spec.mat x4) (Spec.vec x5) c := by
  have eL : ∀ k : Fin 1024, lidx_main_v4 (ix2 p c) k = ix2 p k := fun k => funext fun a => by
    match a with | ⟨0, _⟩ => rfl | ⟨1, _⟩ => rfl
  have eR : ∀ k : Fin 1024, ridx_main_v4 (ix2 p c) k = ix2 k c := fun k => funext fun a => by
    match a with | ⟨0, _⟩ => rfl | ⟨1, _⟩ => rfl
  have eB : idx_main_v5 (idx_main_v6 (ix2 p c)) = ix1 c := funext fun a => by match a with | ⟨0, _⟩ => rfl
  rw [val_main_v7_apply, val_main_v4_apply, val_main_v6_apply, val_main_v5_apply, eB]
  show (∑ k : Fin 1024, x0 (lidx_main_v4 (ix2 p c) k) * x4 (ridx_main_v4 (ix2 p c) k)) + x5 (ix1 c)
    = (∑ k : Fin 1024, x0 (ix2 p k) * x4 (ix2 k c)) + x5 (ix1 c)
  refine congrArg (· + x5 (ix1 c)) (Finset.sum_congr rfl fun k _ => ?_)
  rw [eL k, eR k]

theorem head_row (p : Fin 1024) :
    (fun q : Fin 20003 => val_main_v8 (F := Ideal) x0 x2 x3 x4 x5 (ix2 p q))
      = Spec.headCat (Spec.X0 (Spec.row x0 p) (Spec.mat x2) (Spec.vec x3))
          (Spec.cl (Spec.row x0 p) (Spec.mat x4) (Spec.vec x5)) := by
  funext q
  unfold val_main_v8 Spec.headCat
  rw [RefOps.catCols_apply (show 20000 + 3 = 20003 from rfl)]
  by_cases hq : q.val < 20000
  · rw [dif_pos hq, dif_pos hq]; exact head_logits x0 x2 x3 p ⟨q.val, hq⟩
  · rw [dif_neg hq, dif_neg hq]; exact cluster_logits x0 x4 x5 p _

theorem head_lp_eq : val_main_v9 (F := Ideal) x0 x2 x3 x4 x5
    = RefOps.logSoftmax bcast_S_S1024 bcast_S1024_S1024x1_0 bcast_S1024x1_S1024x20003_0_1 reducesTo_S1024x20003_S1024_d1 h_S_
        (val_main_v8 (F := Ideal) x0 x2 x3 x4 x5) := rfl

theorem head_lp (p : Fin 1024) (q : Fin 20003) :
    val_main_v9 (F := Ideal) x0 x2 x3 x4 x5 (ix2 p q)
      = Spec.lsm (Spec.headCat (Spec.X0 (Spec.row x0 p) (Spec.mat x2) (Spec.vec x3))
          (Spec.cl (Spec.row x0 p) (Spec.mat x4) (Spec.vec x5))) q := by
  rw [head_lp_eq, RefOps.logSoftmax_apply, head_row]

theorem tail1_proj (p : Fin 1024) (e : Fin 256) :
    val_main_v18 (F := Ideal) x0 x6 (ix2 p e) = Spec.proj (Spec.row x0 p) (Spec.mat x6) e := by
  have eL : ∀ k : Fin 1024, lidx_main_v18 (ix2 p e) k = ix2 p k := fun k => funext fun a => by
    match a with | ⟨0, _⟩ => rfl | ⟨1, _⟩ => rfl
  have eR : ∀ k : Fin 1024, ridx_main_v18 (ix2 p e) k = ix2 k e := fun k => funext fun a => by
    match a with | ⟨0, _⟩ => rfl | ⟨1, _⟩ => rfl
  rw [val_main_v18_apply]
  show (∑ k : Fin 1024, x0 (lidx_main_v18 (ix2 p e) k) * x6 (ridx_main_v18 (ix2 p e) k))
    = ∑ k : Fin 1024, x0 (ix2 p k) * x6 (ix2 k e)
  refine Finset.sum_congr rfl fun k _ => ?_
  rw [eL k, eR k]

theorem tail1_logits (p : Fin 1024) (c : Fin 40000) :
    val_main_v22 (F := Ideal) x0 x6 x7 x8 (ix2 p c)
      = Spec.logits (Spec.proj (Spec.row x0 p) (Spec.mat x6)) (Spec.mat x7) (Spec.vec x8) c := by
  have eL : ∀ k : Fin 256, lidx_main_v19 (ix2 p c) k = ix2 p k := fun k => funext fun a => by
    match a with | ⟨0, _⟩ => rfl | ⟨1, _⟩ => rfl
  have eR : ∀ k : Fin 256, ridx_main_v19 (ix2 p c) k = ix2 k c := fun k => funext fun a => by
    match a with | ⟨0, _⟩ => rfl | ⟨1, _⟩ => rfl
  have eB : idx_main_v20 (idx_main_v21 (ix2 p c)) = ix1 c := funext fun a => by match a with | ⟨0, _⟩ => rfl
  rw [val_main_v22_apply, val_main_v19_apply, val_main_v21_apply, val_main_v20_apply, eB]
  show (∑ k : Fin 256, val_main_v18 (F := Ideal) x0 x6 (lidx_main_v19 (ix2 p c) k) * x7 (ridx_main_v19 (ix2 p c) k)) + x8 (ix1 c)
    = (∑ k : Fin 256, Spec.proj (Spec.row x0 p) (Spec.mat x6) k * x7 (ix2 k c)) + x8 (ix1 c)
  refine congrArg (· + x8 (ix1 c)) (Finset.sum_congr rfl fun k _ => ?_)
  rw [eL k, eR k, tail1_proj]

theorem tail1_lp_eq : val_main_v23 (F := Ideal) x0 x6 x7 x8
    = RefOps.logSoftmax bcast_S_S1024 bcast_S1024_S1024x1_0 bcast_S1024x1_S1024x40000_0_1 reducesTo_S1024x40000_S1024_d1 h_S_
        (val_main_v22 (F := Ideal) x0 x6 x7 x8) := rfl

theorem tail1_lp (p : Fin 1024) (q : Fin 40000) :
    val_main_v23 (F := Ideal) x0 x6 x7 x8 (ix2 p q)
      = Spec.lsm (Spec.logits (Spec.proj (Spec.row x0 p) (Spec.mat x6)) (Spec.mat x7) (Spec.vec x8)) q := by
  rw [tail1_lp_eq, RefOps.logSoftmax_apply]
  exact congrArg (fun f => Spec.lsm f q) (funext fun c => tail1_logits x0 x6 x7 x8 p c)

theorem tail2_proj (p : Fin 1024) (e : Fin 64) :
    val_main_v40 (F := Ideal) x0 x9 (ix2 p e) = Spec.proj (Spec.row x0 p) (Spec.mat x9) e := by
  have eL : ∀ k : Fin 1024, lidx_main_v40 (ix2 p e) k = ix2 p k := fun k => funext fun a => by
    match a with | ⟨0, _⟩ => rfl | ⟨1, _⟩ => rfl
  have eR : ∀ k : Fin 1024, ridx_main_v40 (ix2 p e) k = ix2 k e := fun k => funext fun a => by
    match a with | ⟨0, _⟩ => rfl | ⟨1, _⟩ => rfl
  rw [val_main_v40_apply]
  show (∑ k : Fin 1024, x0 (lidx_main_v40 (ix2 p e) k) * x9 (ridx_main_v40 (ix2 p e) k))
    = ∑ k : Fin 1024, x0 (ix2 p k) * x9 (ix2 k e)
  refine Finset.sum_congr rfl fun k _ => ?_
  rw [eL k, eR k]

theorem tail2_logits (p : Fin 1024) (c : Fin 120000) :
    val_main_v44 (F := Ideal) x0 x9 x10 x11 (ix2 p c)
      = Spec.logits (Spec.proj (Spec.row x0 p) (Spec.mat x9)) (Spec.mat x10) (Spec.vec x11) c := by
  have eL : ∀ k : Fin 64, lidx_main_v41 (ix2 p c) k = ix2 p k := fun k => funext fun a => by
    match a with | ⟨0, _⟩ => rfl | ⟨1, _⟩ => rfl
  have eR : ∀ k : Fin 64, ridx_main_v41 (ix2 p c) k = ix2 k c := fun k => funext fun a => by
    match a with | ⟨0, _⟩ => rfl | ⟨1, _⟩ => rfl
  have eB : idx_main_v42 (idx_main_v43 (ix2 p c)) = ix1 c := funext fun a => by match a with | ⟨0, _⟩ => rfl
  rw [val_main_v44_apply, val_main_v41_apply, val_main_v43_apply, val_main_v42_apply, eB]
  show (∑ k : Fin 64, val_main_v40 (F := Ideal) x0 x9 (lidx_main_v41 (ix2 p c) k) * x10 (ridx_main_v41 (ix2 p c) k)) + x11 (ix1 c)
    = (∑ k : Fin 64, Spec.proj (Spec.row x0 p) (Spec.mat x9) k * x10 (ix2 k c)) + x11 (ix1 c)
  refine congrArg (· + x11 (ix1 c)) (Finset.sum_congr rfl fun k _ => ?_)
  rw [eL k, eR k, tail2_proj]

theorem tail2_lp_eq : val_main_v45 (F := Ideal) x0 x9 x10 x11
    = RefOps.logSoftmax bcast_S_S1024 bcast_S1024_S1024x1_0 bcast_S1024x1_S1024x120000_0_1 reducesTo_S1024x120000_S1024_d1 h_S_
        (val_main_v44 (F := Ideal) x0 x9 x10 x11) := rfl

theorem tail2_lp (p : Fin 1024) (q : Fin 120000) :
    val_main_v45 (F := Ideal) x0 x9 x10 x11 (ix2 p q)
      = Spec.lsm (Spec.logits (Spec.proj (Spec.row x0 p) (Spec.mat x9)) (Spec.mat x10) (Spec.vec x11)) q := by
  rw [tail2_lp_eq, RefOps.logSoftmax_apply]
  exact congrArg (fun f => Spec.lsm f q) (funext fun c => tail2_logits x0 x9 x10 x11 p c)

theorem tail3_proj (p : Fin 1024) (e : Fin 16) :
    val_main_v62 (F := Ideal) x0 x12 (ix2 p e) = Spec.proj (Spec.row x0 p) (Spec.mat x12) e := by
  have eL : ∀ k : Fin 1024, lidx_main_v62 (ix2 p e) k = ix2 p k := fun k => funext fun a => by
    match a with | ⟨0, _⟩ => rfl | ⟨1, _⟩ => rfl
  have eR : ∀ k : Fin 1024, ridx_main_v62 (ix2 p e) k = ix2 k e := fun k => funext fun a => by
    match a with | ⟨0, _⟩ => rfl | ⟨1, _⟩ => rfl
  rw [val_main_v62_apply]
  show (∑ k : Fin 1024, x0 (lidx_main_v62 (ix2 p e) k) * x12 (ridx_main_v62 (ix2 p e) k))
    = ∑ k : Fin 1024, x0 (ix2 p k) * x12 (ix2 k e)
  refine Finset.sum_congr rfl fun k _ => ?_
  rw [eL k, eR k]

theorem tail3_logits (p : Fin 1024) (c : Fin 87735) :
    val_main_v66 (F := Ideal) x0 x12 x13 x14 (ix2 p c)
      = Spec.logits (Spec.proj (Spec.row x0 p) (Spec.mat x12)) (Spec.mat x13) (Spec.vec x14) c := by
  have eL : ∀ k : Fin 16, lidx_main_v63 (ix2 p c) k = ix2 p k := fun k => funext fun a => by
    match a with | ⟨0, _⟩ => rfl | ⟨1, _⟩ => rfl
  have eR : ∀ k : Fin 16, ridx_main_v63 (ix2 p c) k = ix2 k c := fun k => funext fun a => by
    match a with | ⟨0, _⟩ => rfl | ⟨1, _⟩ => rfl
  have eB : idx_main_v64 (idx_main_v65 (ix2 p c)) = ix1 c := funext fun a => by match a with | ⟨0, _⟩ => rfl
  rw [val_main_v66_apply, val_main_v63_apply, val_main_v65_apply, val_main_v64_apply, eB]
  show (∑ k : Fin 16, val_main_v62 (F := Ideal) x0 x12 (lidx_main_v63 (ix2 p c) k) * x13 (ridx_main_v63 (ix2 p c) k)) + x14 (ix1 c)
    = (∑ k : Fin 16, Spec.proj (Spec.row x0 p) (Spec.mat x12) k * x13 (ix2 k c)) + x14 (ix1 c)
  refine congrArg (· + x14 (ix1 c)) (Finset.sum_congr rfl fun k _ => ?_)
  rw [eL k, eR k, tail3_proj]

theorem tail3_lp_eq : val_main_v67 (F := Ideal) x0 x12 x13 x14
    = RefOps.logSoftmax bcast_S_S1024 bcast_S1024_S1024x1_0 bcast_S1024x1_S1024x87735_0_1 reducesTo_S1024x87735_S1024_d1 h_S_
        (val_main_v66 (F := Ideal) x0 x12 x13 x14) := rfl

theorem tail3_lp (p : Fin 1024) (q : Fin 87735) :
    val_main_v67 (F := Ideal) x0 x12 x13 x14 (ix2 p q)
      = Spec.lsm (Spec.logits (Spec.proj (Spec.row x0 p) (Spec.mat x12)) (Spec.mat x13) (Spec.vec x14)) q := by
  rw [tail3_lp_eq, RefOps.logSoftmax_apply]
  exact congrArg (fun f => Spec.lsm f q) (funext fun c => tail3_logits x0 x12 x13 x14 p c)

theorem head_pick_eq : val_main_v13 (F := Ideal) x0 x1 x2 x3 x4 x5
    = RefGather.takeClip bcast_S_S1024 bcast_S1024_S1024x1_0 bcast_S_S1024x1 shapeCasts_S1024x1_S1024x1x1 bcast_S_S1024x1x1
        bcast_S1_S1x1x1_2 bcast_S1x1x1_S1024x1x1_0_1_2 reducesTo_S1024x1x1_S1024x1_d2 h_S_
        gather_S1024x20003_S1024x1x1_S1024x1_n_1_0_0_1_2_11_wf shapeCasts_S1024x1_S1024
        0#32 19999#32 20003#32 20002#32 (val_main_call2_v14 (F := Ideal)) (val_main_v9 (F := Ideal) x0 x2 x3 x4 x5) x1 := rfl

theorem head_pick (p : Fin 1024) :
    val_main_v13 (F := Ideal) x0 x1 x2 x3 x4 x5 (ix1 p)
      = val_main_v9 (F := Ideal) x0 x2 x3 x4 x5
          (ix2 p ⟨Spec.clipNat (x1 (ix1 p)) 19999, by have := Spec.clipNat_le (x1 (ix1 p)) 19999; omega⟩) := by
  rw [head_pick_eq]
  exact RefGather.takeClip_apply _ _ _ _ _ _ _ _ _ _ _ 19999 (by norm_num) (by norm_num) 20003#32 _ _ x1 (ix1 p)

theorem tail1_off (i : S1024.Idx) : val_main_v25 (F := Ideal) x1 i = x1 i - 20000#32 := by
  rw [val_main_v25_apply, val_main_v24_apply, val_main_c_2_apply]; rfl

theorem tail1_pick_eq : val_main_v31 (F := Ideal) x0 x1 x6 x7 x8
    = RefGather.takeClip bcast_S_S1024 bcast_S1024_S1024x1_0 bcast_S_S1024x1 shapeCasts_S1024x1_S1024x1x1 bcast_S_S1024x1x1
        bcast_S1_S1x1x1_2 bcast_S1x1x1_S1024x1x1_0_1_2 reducesTo_S1024x1x1_S1024x1_d2 h_S_
        gather_S1024x40000_S1024x1x1_S1024x1_n_1_0_0_1_2_11_wf shapeCasts_S1024x1_S1024
        0#32 39999#32 40000#32 39999#32 (val_main_call6_v14 (F := Ideal)) (val_main_v23 (F := Ideal) x0 x6 x7 x8)
        (val_main_v25 (F := Ideal) x1) := rfl

theorem tail1_pick (p : Fin 1024) :
    val_main_v31 (F := Ideal) x0 x1 x6 x7 x8 (ix1 p)
      = val_main_v23 (F := Ideal) x0 x6 x7 x8
          (ix2 p ⟨Spec.clipNat (x1 (ix1 p) - 20000#32) 39999, by have := Spec.clipNat_le (x1 (ix1 p) - 20000#32) 39999; omega⟩) := by
  rw [tail1_pick_eq]
  refine (RefGather.takeClip_apply _ _ _ _ _ _ _ _ _ _ _ 39999 (by norm_num) (by norm_num) 40000#32 _ _ (val_main_v25 (F := Ideal) x1) (ix1 p)).trans ?_
  exact congrArg (val_main_v23 (F := Ideal) x0 x6 x7 x8) (congrArg (ix2 p) (Fin.ext (by
    show Spec.clipNat (val_main_v25 (F := Ideal) x1 (ix1 p)) 39999 = Spec.clipNat (x1 (ix1 p) - 20000#32) 39999
    rw [tail1_off])))

theorem tail2_off (i : S1024.Idx) : val_main_v47 (F := Ideal) x1 i = x1 i - 60000#32 := by
  rw [val_main_v47_apply, val_main_v46_apply, val_main_c_7_apply]; rfl

theorem tail2_pick_eq : val_main_v53 (F := Ideal) x0 x1 x9 x10 x11
    = RefGather.takeClip bcast_S_S1024 bcast_S1024_S1024x1_0 bcast_S_S1024x1 shapeCasts_S1024x1_S1024x1x1 bcast_S_S1024x1x1
        bcast_S1_S1x1x1_2 bcast_S1x1x1_S1024x1x1_0_1_2 reducesTo_S1024x1x1_S1024x1_d2 h_S_
        gather_S1024x120000_S1024x1x1_S1024x1_n_1_0_0_1_2_11_wf shapeCasts_S1024x1_S1024
        0#32 119999#32 120000#32 119999#32 (val_main_call10_v14 (F := Ideal)) (val_main_v45 (F := Ideal) x0 x9 x10 x11)
        (val_main_v47 (F := Ideal) x1) := rfl

theorem tail2_pick (p : Fin 1024) :
    val_main_v53 (F := Ideal) x0 x1 x9 x10 x11 (ix1 p)
      = val_main_v45 (F := Ideal) x0 x9 x10 x11
          (ix2 p ⟨Spec.clipNat (x1 (ix1 p) - 60000#32) 119999, by have := Spec.clipNat_le (x1 (ix1 p) - 60000#32) 119999; omega⟩) := by
  rw [tail2_pick_eq]
  refine (RefGather.takeClip_apply _ _ _ _ _ _ _ _ _ _ _ 119999 (by norm_num) (by norm_num) 120000#32 _ _ (val_main_v47 (F := Ideal) x1) (ix1 p)).trans ?_
  exact congrArg (val_main_v45 (F := Ideal) x0 x9 x10 x11) (congrArg (ix2 p) (Fin.ext (by
    show Spec.clipNat (val_main_v47 (F := Ideal) x1 (ix1 p)) 119999 = Spec.clipNat (x1 (ix1 p) - 60000#32) 119999
    rw [tail2_off])))

theorem tail3_off (i : S1024.Idx) : val_main_v69 (F := Ideal) x1 i = x1 i - 180000#32 := by
  rw [val_main_v69_apply, val_main_v68_apply, val_main_c_12_apply]; rfl

theorem tail3_pick_eq : val_main_v75 (F := Ideal) x0 x1 x12 x13 x14
    = RefGather.takeClip bcast_S_S1024 bcast_S1024_S1024x1_0 bcast_S_S1024x1 shapeCasts_S1024x1_S1024x1x1 bcast_S_S1024x1x1
        bcast_S1_S1x1x1_2 bcast_S1x1x1_S1024x1x1_0_1_2 reducesTo_S1024x1x1_S1024x1_d2 h_S_
        gather_S1024x87735_S1024x1x1_S1024x1_n_1_0_0_1_2_11_wf shapeCasts_S1024x1_S1024
        0#32 87734#32 87735#32 87734#32 (val_main_call14_v14 (F := Ideal)) (val_main_v67 (F := Ideal) x0 x12 x13 x14)
        (val_main_v69 (F := Ideal) x1) := rfl

theorem tail3_pick (p : Fin 1024) :
    val_main_v75 (F := Ideal) x0 x1 x12 x13 x14 (ix1 p)
      = val_main_v67 (F := Ideal) x0 x12 x13 x14
          (ix2 p ⟨Spec.clipNat (x1 (ix1 p) - 180000#32) 87734, by have := Spec.clipNat_le (x1 (ix1 p) - 180000#32) 87734; omega⟩) := by
  rw [tail3_pick_eq]
  refine (RefGather.takeClip_apply _ _ _ _ _ _ _ _ _ _ _ 87734 (by norm_num) (by norm_num) 87735#32 _ _ (val_main_v69 (F := Ideal) x1) (ix1 p)).trans ?_
  exact congrArg (val_main_v67 (F := Ideal) x0 x12 x13 x14) (congrArg (ix2 p) (Fin.ext (by
    show Spec.clipNat (val_main_v69 (F := Ideal) x1 (ix1 p)) 87734 = Spec.clipNat (x1 (ix1 p) - 180000#32) 87734
    rw [tail3_off])))

theorem head_col20002 (p : Fin 1024) :
    val_main_v28 (F := Ideal) x0 x2 x3 x4 x5 (ix1 p)
      = val_main_v9 (F := Ideal) x0 x2 x3 x4 x5 (ix2 p (⟨20002, by norm_num⟩ : Fin 20003)) := by
  rw [val_main_v28_apply, val_main_v27_apply]
  exact congrArg _ (funext fun a => by
    match a with
    | ⟨0, _⟩ => exact Fin.ext (Nat.div_one _)
    | ⟨1, _⟩ => rfl)

theorem head_col20001 (p : Fin 1024) :
    val_main_v50 (F := Ideal) x0 x2 x3 x4 x5 (ix1 p)
      = val_main_v9 (F := Ideal) x0 x2 x3 x4 x5 (ix2 p (⟨20001, by norm_num⟩ : Fin 20003)) := by
  rw [val_main_v50_apply, val_main_v49_apply]
  exact congrArg _ (funext fun a => by
    match a with
    | ⟨0, _⟩ => exact Fin.ext (Nat.div_one _)
    | ⟨1, _⟩ => rfl)

theorem head_col20000 (p : Fin 1024) :
    val_main_v72 (F := Ideal) x0 x2 x3 x4 x5 (ix1 p)
      = val_main_v9 (F := Ideal) x0 x2 x3 x4 x5 (ix2 p (⟨20000, by norm_num⟩ : Fin 20003)) := by
  rw [val_main_v72_apply, val_main_v71_apply]
  exact congrArg _ (funext fun a => by
    match a with
    | ⟨0, _⟩ => exact Fin.ext (Nat.div_one _)
    | ⟨1, _⟩ => rfl)

theorem stage0 (i : S1024.Idx) :
    val_main_v17 (F := Ideal) x0 x1 x2 x3 x4 x5 i
      = if BitVec.slt (x1 i) 20000#32 then -(val_main_v13 (F := Ideal) x0 x1 x2 x3 x4 x5 i) else 0 := by
  rw [val_main_v17_apply, val_main_v15_apply, val_main_v14_apply, val_main_c_1_apply, RefOps.select_slt, val_main_v16_apply,
    val_main_call3_v0_apply, val_main_cst_apply]
  show (if BitVec.slt (x1 i) 20000#32 then -(val_main_v13 (F := Ideal) x0 x1 x2 x3 x4 x5 i) else Ideal.ofBits .f32 0x00000000#32) = _
  rw [Ideal.ofBits_zero_f32]

theorem stage1 (i : S1024.Idx) :
    val_main_v39 (F := Ideal) x0 x1 x2 x3 x4 x5 x6 x7 x8 i
      = if (BitVec.sle 20000#32 (x1 i) && BitVec.slt (x1 i) 60000#32) then
          -(val_main_v28 (F := Ideal) x0 x2 x3 x4 x5 i + val_main_v31 (F := Ideal) x0 x1 x6 x7 x8 i)
        else val_main_v17 (F := Ideal) x0 x1 x2 x3 x4 x5 i := by
  rw [val_main_v39_apply, val_main_v37_apply, val_main_v34_apply, val_main_v33_apply, val_main_c_5_apply,
    val_main_v36_apply, val_main_v35_apply, val_main_c_6_apply, RefOps.select_range, val_main_v38_apply,
    val_main_v32_apply]
  rfl

theorem stage2 (i : S1024.Idx) :
    val_main_v61 (F := Ideal) x0 x1 x2 x3 x4 x5 x6 x7 x8 x9 x10 x11 i
      = if (BitVec.sle 60000#32 (x1 i) && BitVec.slt (x1 i) 180000#32) then
          -(val_main_v50 (F := Ideal) x0 x2 x3 x4 x5 i + val_main_v53 (F := Ideal) x0 x1 x9 x10 x11 i)
        else val_main_v39 (F := Ideal) x0 x1 x2 x3 x4 x5 x6 x7 x8 i := by
  rw [val_main_v61_apply, val_main_v59_apply, val_main_v56_apply, val_main_v55_apply, val_main_c_10_apply,
    val_main_v58_apply, val_main_v57_apply, val_main_c_11_apply, RefOps.select_range, val_main_v60_apply,
    val_main_v54_apply]
  rfl

theorem stage3 (i : S1024.Idx) :
    val_main_v83 (F := Ideal) x0 x1 x2 x3 x4 x5 x6 x7 x8 x9 x10 x11 x12 x13 x14 i
      = if (BitVec.sle 180000#32 (x1 i) && BitVec.slt (x1 i) 267735#32) then
          -(val_main_v72 (F := Ideal) x0 x2 x3 x4 x5 i + val_main_v75 (F := Ideal) x0 x1 x12 x13 x14 i)
        else val_main_v61 (F := Ideal) x0 x1 x2 x3 x4 x5 x6 x7 x8 x9 x10 x11 i := by
  rw [val_main_v83_apply, val_main_v81_apply, val_main_v78_apply, val_main_v77_apply, val_main_c_15_apply,
    val_main_v80_apply, val_main_v79_apply, val_main_c_16_apply, RefOps.select_range, val_main_v82_apply,
    val_main_v76_apply]
  rfl

theorem result_apply (i : S1024.Idx) :
    val_main_v83 (F := Ideal) x0 x1 x2 x3 x4 x5 x6 x7 x8 x9 x10 x11 x12 x13 x14 i = Spec.nllRArr x0 x1 x2 x3 x4 x5 x6 x7 x8 x9 x10 x11 x12 x13 x14 i := by
  obtain ⟨p, rfl⟩ : ∃ p : Fin 1024, i = ix1 p := ⟨i 0, eq_ix1 i⟩
  rw [stage3, stage2, stage1, stage0, head_col20000, head_col20001, head_col20002, head_pick, tail1_pick, tail2_pick, tail3_pick,
    head_lp, head_lp, head_lp, head_lp, tail1_lp, tail2_lp, tail3_lp]
  rfl

theorem result_eq : val_main_v83 (F := Ideal) x0 x1 x2 x3 x4 x5 x6 x7 x8 x9 x10 x11 x12 x13 x14 = Spec.nllRArr x0 x1 x2 x3 x4 x5 x6 x7 x8 x9 x10 x11 x12 x13 x14 :=
  funext (result_apply x0 x1 x2 x3 x4 x5 x6 x7 x8 x9 x10 x11 x12 x13 x14)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v83) = Spec.nllRArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run (defs (F := Ideal)) _ _).mono (fun _ h c =>
    ⟨(h c).1.trans (result_eq ..), (h c).2⟩)
    (Cert.Proof.RefRunHand.run (F := Ideal) m ρ)

end Cert.Proof.RefValue

end
-- ==== Proof.KOuts.lean ====
import proofs.«407035_j66254165508793_2_alg».proof.Proof.Gen.KernelIdeal.Regions
import proofs.«407035_j66254165508793_2_alg».proof.Proof.Spec

noncomputable section

namespace Cert.Proof.KOuts

open Cert.KernelIdeal Cert.KernelIdeal.Gen Idealize.ShloMosaic Idealize.ShloMosaic.TcCoe ValueIdx Idealize.SL.Sem

variable (m : (ℓ : Loc nD τ sig) → Buf (Elt Ideal) ℓ) (c : Dev nD)

abbrev hid : (⟨2, ![1024, 1024]⟩ : Shape).Idx → EReal := m ((c.tc : Thread nD τ).loc main_arg0)
abbrev tgt : (⟨1, ![1024]⟩ : Shape).Idx → BitVec 32 := m ((c.tc : Thread nD τ).loc main_arg1)
abbrev Wh : (⟨2, ![1024, 20000]⟩ : Shape).Idx → EReal := m ((c.tc : Thread nD τ).loc main_arg2)
abbrev bh : (⟨1, ![20000]⟩ : Shape).Idx → EReal := m ((c.tc : Thread nD τ).loc main_arg3)
abbrev Wc : (⟨2, ![1024, 3]⟩ : Shape).Idx → EReal := m ((c.tc : Thread nD τ).loc main_arg4)
abbrev bc : (⟨1, ![3]⟩ : Shape).Idx → EReal := m ((c.tc : Thread nD τ).loc main_arg5)
abbrev Wp1 : (⟨2, ![1024, 256]⟩ : Shape).Idx → EReal := m ((c.tc : Thread nD τ).loc main_arg6)
abbrev Wt1 : (⟨2, ![256, 40000]⟩ : Shape).Idx → EReal := m ((c.tc : Thread nD τ).loc main_arg7)
abbrev bt1 : (⟨1, ![40000]⟩ : Shape).Idx → EReal := m ((c.tc : Thread nD τ).loc main_arg8)
abbrev Wp2 : (⟨2, ![1024, 64]⟩ : Shape).Idx → EReal := m ((c.tc : Thread nD τ).loc main_arg9)
abbrev Wt2 : (⟨2, ![64, 120000]⟩ : Shape).Idx → EReal := m ((c.tc : Thread nD τ).loc main_arg10)
abbrev bt2 : (⟨1, ![120000]⟩ : Shape).Idx → EReal := m ((c.tc : Thread nD τ).loc main_arg11)
abbrev Wp3 : (⟨2, ![1024, 16]⟩ : Shape).Idx → EReal := m ((c.tc : Thread nD τ).loc main_arg12)
abbrev Wt3 : (⟨2, ![16, 87735]⟩ : Shape).Idx → EReal := m ((c.tc : Thread nD τ).loc main_arg13)
abbrev bt3 : (⟨1, ![87735]⟩ : Shape).Idx → EReal := m ((c.tc : Thread nD τ).loc main_arg14)

def X0r (r : Fin 1024) : Fin 20000 → EReal := Spec.X0 (Spec.row (hid m c) r) (Spec.mat (Wh m c)) (Spec.vec (bh m c))

def X1r (r : Fin 1024) : Fin 40000 → EReal := Spec.X1 (Spec.row (hid m c) r) (Spec.mat (Wp1 m c)) (Spec.mat (Wt1 m c)) (Spec.vec (bt1 m c))
def X2r (r : Fin 1024) : Fin 120000 → EReal := Spec.X2 (Spec.row (hid m c) r) (Spec.mat (Wp2 m c)) (Spec.mat (Wt2 m c)) (Spec.vec (bt2 m c))
def X3r (r : Fin 1024) : Fin 87735 → EReal := Spec.X3 (Spec.row (hid m c) r) (Spec.mat (Wp3 m c)) (Spec.mat (Wt3 m c)) (Spec.vec (bt3 m c))

def tr (r : Fin 1024) : BitVec 32 := tgt m c (ix1 r)

def lse0 : (⟨2, ![1024, 1]⟩ : Shape).Idx → EReal := fun i => Spec.lseOnline 2048 20000 10 (X0r m c (i 0)) (tr m c (i 0) - 0#32)
def sel0 : (⟨2, ![1024, 1]⟩ : Shape).Idx → EReal := fun i => Spec.selOnline 2048 20000 10 (X0r m c (i 0)) (tr m c (i 0) - 0#32)
def lse1 : (⟨2, ![1024, 1]⟩ : Shape).Idx → EReal := fun i => Spec.lseOnline 4096 40000 10 (X1r m c (i 0)) (tr m c (i 0) - 20000#32)
def sel1 : (⟨2, ![1024, 1]⟩ : Shape).Idx → EReal := fun i => Spec.selOnline 4096 40000 10 (X1r m c (i 0)) (tr m c (i 0) - 20000#32)
def lse2 : (⟨2, ![1024, 1]⟩ : Shape).Idx → EReal := fun i => Spec.lseOnline 8192 120000 15 (X2r m c (i 0)) (tr m c (i 0) - 60000#32)
def sel2 : (⟨2, ![1024, 1]⟩ : Shape).Idx → EReal := fun i => Spec.selOnline 8192 120000 15 (X2r m c (i 0)) (tr m c (i 0) - 60000#32)
def lse3 : (⟨2, ![1024, 1]⟩ : Shape).Idx → EReal := fun i => Spec.lseOnline 8192 87735 11 (X3r m c (i 0)) (tr m c (i 0) - 180000#32)
def sel3 : (⟨2, ![1024, 1]⟩ : Shape).Idx → EReal := fun i => Spec.selOnline 8192 87735 11 (X3r m c (i 0)) (tr m c (i 0) - 180000#32)

def outs : Outs (F := Ideal) := fun _ r c =>
  (Function.update (Function.update (Function.update (Function.update (Function.update (Function.update (Function.update (Function.update (fun r : Ref sig .tc => m ((c.tc : Thread nD τ).loc r)) main_v12_0 (lse0 m c)) main_v12_1 (sel0 m c)) main_v18_0 (lse1 m c)) main_v18_1 (sel1 m c)) main_v24_0 (lse2 m c)) main_v24_1 (sel2 m c)) main_v30_0 (lse3 m c)) main_v30_1 (sel3 m c)) r

theorem outs_v12_0 (J : ℕ) : outs m J main_v12_0 c = lse0 m c := by
  unfold outs
  rw [Function.update_of_ne (show main_v12_0 ≠ main_v30_1 by decide), Function.update_of_ne (show main_v12_0 ≠ main_v30_0 by decide), Function.update_of_ne (show main_v12_0 ≠ main_v24_1 by decide), Function.update_of_ne (show main_v12_0 ≠ main_v24_0 by decide), Function.update_of_ne (show main_v12_0 ≠ main_v18_1 by decide), Function.update_of_ne (show main_v12_0 ≠ main_v18_0 by decide), Function.update_of_ne (show main_v12_0 ≠ main_v12_1 by decide), Function.update_self]
theorem outs_v12_1 (J : ℕ) : outs m J main_v12_1 c = sel0 m c := by
  unfold outs
  rw [Function.update_of_ne (show main_v12_1 ≠ main_v30_1 by decide), Function.update_of_ne (show main_v12_1 ≠ main_v30_0 by decide), Function.update_of_ne (show main_v12_1 ≠ main_v24_1 by decide), Function.update_of_ne (show main_v12_1 ≠ main_v24_0 by decide), Function.update_of_ne (show main_v12_1 ≠ main_v18_1 by decide), Function.update_of_ne (show main_v12_1 ≠ main_v18_0 by decide), Function.update_self]
theorem outs_v18_0 (J : ℕ) : outs m J main_v18_0 c = lse1 m c := by
  unfold outs
  rw [Function.update_of_ne (show main_v18_0 ≠ main_v30_1 by decide), Function.update_of_ne (show main_v18_0 ≠ main_v30_0 by decide), Function.update_of_ne (show main_v18_0 ≠ main_v24_1 by decide), Function.update_of_ne (show main_v18_0 ≠ main_v24_0 by decide), Function.update_of_ne (show main_v18_0 ≠ main_v18_1 by decide), Function.update_self]
theorem outs_v18_1 (J : ℕ) : outs m J main_v18_1 c = sel1 m c := by
  unfold outs
  rw [Function.update_of_ne (show main_v18_1 ≠ main_v30_1 by decide), Function.update_of_ne (show main_v18_1 ≠ main_v30_0 by decide), Function.update_of_ne (show main_v18_1 ≠ main_v24_1 by decide), Function.update_of_ne (show main_v18_1 ≠ main_v24_0 by decide), Function.update_self]
theorem outs_v24_0 (J : ℕ) : outs m J main_v24_0 c = lse2 m c := by
  unfold outs
  rw [Function.update_of_ne (show main_v24_0 ≠ main_v30_1 by decide), Function.update_of_ne (show main_v24_0 ≠ main_v30_0 by decide), Function.update_of_ne (show main_v24_0 ≠ main_v24_1 by decide), Function.update_self]
theorem outs_v24_1 (J : ℕ) : outs m J main_v24_1 c = sel2 m c := by
  unfold outs
  rw [Function.update_of_ne (show main_v24_1 ≠ main_v30_1 by decide), Function.update_of_ne (show main_v24_1 ≠ main_v30_0 by decide), Function.update_self]
theorem outs_v30_0 (J : ℕ) : outs m J main_v30_0 c = lse3 m c := by
  unfold outs
  rw [Function.update_of_ne (show main_v30_0 ≠ main_v30_1 by decide), Function.update_self]
theorem outs_v30_1 (J : ℕ) : outs m J main_v30_1 c = sel3 m c := by
  unfold outs
  rw [Function.update_self]

end Cert.Proof.KOuts

end
-- ==== Proof.KRuns0.lean ====
import proofs.«407035_j66254165508793_2_alg».proof.Proof.Gen.KernelIdeal.Regions
import proofs.«407035_j66254165508793_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.Proof.KRuns0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU : Type := UR sig nD τ × Counters

local notation "𝕄" => MT nD τ sig Unit (Elt F) ℕ UU ℕ

abbrev cond0_first (i : grid0.Coords) : Prop :=
  (Scalar.cmpi .ne (Scalar.extui (Scalar.cmpi .eq (BitVec.ofNat 32 (i 1).val) 0#32)) 0#32) = 1#1

theorem hz : (![0, 0] : Fin 2 → Nat) = fun _ => 0 := funext fun a => by fin_cases a <;> rfl

theorem read_writes_last {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

set_option maxHeartbeats 1000000 in

theorem run0_B (c : Dev nD) (i : grid0.Coords)
    (arg2 : Memref sig .tc .vmem S512x1024 .bf16) (harg2 : arg2.IsWhole) (arg3 : Memref sig .tc .vmem S1024x2048 .f32) (harg3 : arg3.IsWhole)
    (arg4 : Memref sig .tc .vmem S1x2048 .f32) (harg4 : arg4.IsWhole) (arg5 : Memref sig .tc .vmem S512x1 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole)
    (hc1 : ¬cond0_first i) (hc2 : ¬k0_cond2 i = 1#1)
    (x : Vec F S512x1024 .bf16) (W : Vec F S1024x2048 .f32) (b : Vec F S1x2048 .f32) (tg : Vec F S512x1 .i32)
    (o6 o7 M L S : Vec F S512x1 .f32) (E : Set ℕ) (K : PUnit → sProp 𝕄) :
    iprop(owns (c : Thread nD τ) arg2 fullShare x ∗ owns (c : Thread nD τ) arg3 fullShare W ∗ owns (c : Thread nD τ) arg4 fullShare b
        ∗ owns (c : Thread nD τ) arg5 fullShare tg ∗ owns (c : Thread nD τ) arg6 fullShare o6 ∗ owns (c : Thread nD τ) arg7 fullShare o7
        ∗ owns (c : Thread nD τ) arg8 fullShare M ∗ owns (c : Thread nD τ) arg9 fullShare L ∗ owns (c : Thread nD τ) arg10 fullShare S
        ∗ (iprop(owns (c : Thread nD τ) arg2 fullShare x ∗ owns (c : Thread nD τ) arg3 fullShare W ∗ owns (c : Thread nD τ) arg4 fullShare b
            ∗ owns (c : Thread nD τ) arg5 fullShare tg ∗ owns (c : Thread nD τ) arg6 fullShare o6 ∗ owns (c : Thread nD τ) arg7 fullShare o7
            ∗ owns (c : Thread nD τ) arg8 fullShare (k0_pay2 (k0_pay10 i W x b M))
            ∗ owns (c : Thread nD τ) arg9 fullShare (k0_pay1 (k0_pay11 i W x b M M L))
            ∗ owns (c : Thread nD τ) arg10 fullShare
                (k0_pay3 (Scalar.muli (BitVec.ofNat 32 (i 1).val) 2048#32) (iota .tc S512x2048 32 [1] iota_S512x2048_d1_w32)
                  (k0_pay8 i) (k0_pay9 i W x b) tg S)) -∗ K ⟨⟩))
      ⊢ wp frame (wpE (defs₀ (F := F)) Variants.none c none) E
          (cc0__cluster_kernel i arg2 harg2 arg3 harg3 arg4 harg4 arg5 harg5 arg6 harg6 arg7 harg7 arg8 harg8 arg9 harg9 arg10 harg10) K := by
  simp only [cc0__cluster_kernel_eq_skeleton]; unfold cc0__cluster_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2)
  sl_step
  iapply Hk
  isplitl [H2]; iexists _; isplitr; rotate_left; iexact H2
  isplitl [H3]; iexists _; isplitr; rotate_left; iexact H3
  isplitl [H4]; iexists _; isplitr; rotate_left; iexact H4
  isplitl [H5]; iexists _; isplitr; rotate_left; iexact H5
  isplitl [H6]; iexists _; isplitr; rotate_left; iexact H6
  isplitl [H7]; iexists _; isplitr; rotate_left; iexact H7
  isplitl [H8]; iexists _; isplitr; rotate_left; iexact H8
  isplitl [H9]; iexists _; isplitr; rotate_left; iexact H9
  iexists _; isplitr; rotate_left; iexact H10
  all_goals
    ipureintro
    try refine (read_writes_last _ _ hz _ _ _).trans ?_
    try sl_unfold_run_names
    simp only [View.readAt_eq_ld, harg2.read_unread, harg3.read_unread, harg4.read_unread, harg5.read_unread,
      harg6.read_unread, harg7.read_unread, harg8.read_unread, harg9.read_unread, harg10.read_unread, View.readCov_unit_zero (S := S512x1) _ hz,
      View.ld_unit_zero (S := S512x1024) hz, View.ld_unit_zero (S := S1024x2048) hz, View.ld_unit_zero (S := S1x2048) hz,
      View.ld_unit_zero (S := S512x1) hz]

set_option maxHeartbeats 1000000 in

theorem run0_A (c : Dev nD) (i : grid0.Coords)
    (arg2 : Memref sig .tc .vmem S512x1024 .bf16) (harg2 : arg2.IsWhole) (arg3 : Memref sig .tc .vmem S1024x2048 .f32) (harg3 : arg3.IsWhole)
    (arg4 : Memref sig .tc .vmem S1x2048 .f32) (harg4 : arg4.IsWhole) (arg5 : Memref sig .tc .vmem S512x1 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole)
    (hc1 : cond0_first i) (hc2 : ¬k0_cond2 i = 1#1)
    (x : Vec F S512x1024 .bf16) (W : Vec F S1024x2048 .f32) (b : Vec F S1x2048 .f32) (tg : Vec F S512x1 .i32)
    (o6 o7 : Vec F S512x1 .f32) (E : Set ℕ) (K : PUnit → sProp 𝕄) :
    iprop(owns (c : Thread nD τ) arg2 fullShare x ∗ owns (c : Thread nD τ) arg3 fullShare W ∗ owns (c : Thread nD τ) arg4 fullShare b
        ∗ owns (c : Thread nD τ) arg5 fullShare tg ∗ owns (c : Thread nD τ) arg6 fullShare o6 ∗ owns (c : Thread nD τ) arg7 fullShare o7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x ∗ owns (c : Thread nD τ) arg3 fullShare W ∗ owns (c : Thread nD τ) arg4 fullShare b
            ∗ owns (c : Thread nD τ) arg5 fullShare tg ∗ owns (c : Thread nD τ) arg6 fullShare o6 ∗ owns (c : Thread nD τ) arg7 fullShare o7
            ∗ owns (c : Thread nD τ) arg8 fullShare (k0_pay2 (k0_pay10 i W x b k0_pay5))
            ∗ owns (c : Thread nD τ) arg9 fullShare (k0_pay1 (k0_pay11 i W x b k0_pay5 k0_pay5 k0_pay6))
            ∗ owns (c : Thread nD τ) arg10 fullShare (k0_pay3 (Scalar.muli (BitVec.ofNat 32 (i 1).val) 2048#32) (iota .tc S512x2048 32 [1] iota_S512x2048_d1_w32)
                  (k0_pay8 i) (k0_pay9 i W x b) tg k0_pay7)) -∗ K ⟨⟩))
      ⊢ wp frame (wpE (defs₀ (F := F)) Variants.none c none) E
          (cc0__cluster_kernel i arg2 harg2 arg3 harg3 arg4 harg4 arg5 harg5 arg6 harg6 arg7 harg7 arg8 harg8 arg9 harg9 arg10 harg10) K := by
  simp only [cc0__cluster_kernel_eq_skeleton]; unfold cc0__cluster_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H2]; iexists _; isplitr; rotate_left; iexact H2
  isplitl [H3]; iexists _; isplitr; rotate_left; iexact H3
  isplitl [H4]; iexists _; isplitr; rotate_left; iexact H4
  isplitl [H5]; iexists _; isplitr; rotate_left; iexact H5
  isplitl [H6]; iexists _; isplitr; rotate_left; iexact H6
  isplitl [H7]; iexists _; isplitr; rotate_left; iexact H7
  isplitl [H8]; iexists _; isplitr; rotate_left; iexact H8
  isplitl [H9]; iexists _; isplitr; rotate_left; iexact H9
  iexists _; isplitr; rotate_left; iexact H10
  all_goals
    ipureintro
    try refine (read_writes_last _ _ hz _ _ _).trans ?_
    try sl_unfold_run_names
    simp only [View.readAt_eq_ld, harg2.read_unread, harg3.read_unread, harg4.read_unread, harg5.read_unread,
      harg6.read_unread, harg7.read_unread, harg8.read_unread, harg9.read_unread, harg10.read_unread, View.readCov_unit_zero (S := S512x1) _ hz,
      View.ld_unit_zero (S := S512x1024) hz, View.ld_unit_zero (S := S1024x2048) hz, View.ld_unit_zero (S := S1x2048) hz,
      View.ld_unit_zero (S := S512x1) hz]

set_option maxHeartbeats 1000000 in

theorem run0_C (c : Dev nD) (i : grid0.Coords)
    (arg2 : Memref sig .tc .vmem S512x1024 .bf16) (harg2 : arg2.IsWhole) (arg3 : Memref sig .tc .vmem S1024x2048 .f32) (harg3 : arg3.IsWhole)
    (arg4 : Memref sig .tc .vmem S1x2048 .f32) (harg4 : arg4.IsWhole) (arg5 : Memref sig .tc .vmem S512x1 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole)
    (hc1 : ¬cond0_first i) (hc2 : k0_cond2 i = 1#1)
    (x : Vec F S512x1024 .bf16) (W : Vec F S1024x2048 .f32) (b : Vec F S1x2048 .f32) (tg : Vec F S512x1 .i32)
    (M L S : Vec F S512x1 .f32) (E : Set ℕ) (K : PUnit → sProp 𝕄) :
    iprop(owns (c : Thread nD τ) arg2 fullShare x ∗ owns (c : Thread nD τ) arg3 fullShare W ∗ owns (c : Thread nD τ) arg4 fullShare b
        ∗ owns (c : Thread nD τ) arg5 fullShare tg ∗ (∃ d, owns (c : Thread nD τ) arg6 fullShare d) ∗ (∃ d, owns (c : Thread nD τ) arg7 fullShare d)
        ∗ owns (c : Thread nD τ) arg8 fullShare M ∗ owns (c : Thread nD τ) arg9 fullShare L ∗ owns (c : Thread nD τ) arg10 fullShare S
        ∗ (iprop(owns (c : Thread nD τ) arg2 fullShare x ∗ owns (c : Thread nD τ) arg3 fullShare W ∗ owns (c : Thread nD τ) arg4 fullShare b
            ∗ owns (c : Thread nD τ) arg5 fullShare tg
            ∗ owns (c : Thread nD τ) arg6 fullShare (k0_pay4 (k0_pay2 (k0_pay10 i W x b M)) (k0_pay1 (k0_pay11 i W x b M M L)))
            ∗ owns (c : Thread nD τ) arg7 fullShare (k0_pay3 (Scalar.muli (BitVec.ofNat 32 (i 1).val) 2048#32) (iota .tc S512x2048 32 [1] iota_S512x2048_d1_w32)
                  (k0_pay8 i) (k0_pay9 i W x b) tg S)
            ∗ owns (c : Thread nD τ) arg8 fullShare (k0_pay2 (k0_pay10 i W x b M))
            ∗ owns (c : Thread nD τ) arg9 fullShare (k0_pay1 (k0_pay11 i W x b M M L))
            ∗ owns (c : Thread nD τ) arg10 fullShare (k0_pay3 (Scalar.muli (BitVec.ofNat 32 (i 1).val) 2048#32) (iota .tc S512x2048 32 [1] iota_S512x2048_d1_w32)
                  (k0_pay8 i) (k0_pay9 i W x b) tg S)) -∗ K ⟨⟩))
      ⊢ wp frame (wpE (defs₀ (F := F)) Variants.none c none) E
          (cc0__cluster_kernel i arg2 harg2 arg3 harg3 arg4 harg4 arg5 harg5 arg6 harg6 arg7 harg7 arg8 harg8 arg9 harg9 arg10 harg10) K := by
  simp only [cc0__cluster_kernel_eq_skeleton]; unfold cc0__cluster_kernel_skel
  simp only [k0_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5
  obtain rfl := harg8.eq_unread hf8; obtain rfl := harg9.eq_unread hf9; obtain rfl := harg10.eq_unread hf10
  sl_exec (disch := first | exact hc1 | exact hc2)
  sl_step
  iapply Hk
  isplitl [H2]; iexists _; isplitr; rotate_left; iexact H2
  isplitl [H3]; iexists _; isplitr; rotate_left; iexact H3
  isplitl [H4]; iexists _; isplitr; rotate_left; iexact H4
  isplitl [H5]; iexists _; isplitr; rotate_left; iexact H5
  isplitl [H6]; iexists _; isplitr; rotate_left; iexact H6
  isplitl [H7]; iexists _; isplitr; rotate_left; iexact H7
  isplitl [H8]; iexists _; isplitr; rotate_left; iexact H8
  isplitl [H9]; iexists _; isplitr; rotate_left; iexact H9
  iexists _; isplitr; rotate_left; iexact H10
  all_goals
    ipureintro
    try refine (read_writes_last _ _ hz _ _ _).trans ?_
    try sl_unfold_run_names
    simp only [View.readAt_eq_ld, harg2.read_unread, harg3.read_unread, harg4.read_unread, harg5.read_unread,
      harg6.read_unread, harg7.read_unread, harg8.read_unread, harg9.read_unread, harg10.read_unread, View.readCov_unit_zero (S := S512x1) _ hz,
      View.ld_unit_zero (S := S512x1024) hz, View.ld_unit_zero (S := S1024x2048) hz, View.ld_unit_zero (S := S1x2048) hz,
      View.ld_unit_zero (S := S512x1) hz]

end Cert.Proof.KRuns0

end
-- ==== Proof.LibRows.lean ====
import Idealize.ShloMosaic.Lib.ValueIdx
import Idealize.ShloMosaic.Lib.ValueLayout
import Idealize.ShloMosaic.Lib.Pipeline.Value
import Idealize.ShloMosaic.PureOps.Ideal.Laws
import Idealize.ShloMosaic.Lib.WordArith

noncomputable section

/-! Rank-2 blocks read row by row over the extended reals: a column cast and broadcast, a lane reduction of a row, the
    word comparisons that mask and pick lanes of a column block, and a rows-by-columns product at an entry. -/
namespace Cert.Proof.LibRows

open Idealize.ShloMosaic ValueIdx

/-- Entry `(p, u)` of a column `[a, 1]` cast from `[a]` is entry `p`: the only `u` is 0. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- Entry `(p, c)` of a column broadcast along the lanes is the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem ofBits_neg_inf_f32 : Ideal.ofBits .f32 0xFF800000#32 = ⊥ := by
  simp [Ideal.ofBits, Ideal.ieee]

theorem exp_apply {s : Shape} {φ : FTy} (a : FVec Ideal s φ) (q : s.Idx) : exp a q = Ideal.exp (a q) := rfl

/-- Lane `j` of block `k` of width `T` holds one of `n` columns exactly when `k * T + j < n`: below 2^31 the word
    sum does not wrap and reads signed as itself. -/
theorem valid_word (T n k j : ℕ) (h : k * T + j < 2 ^ 31) (hn : n < 2 ^ 31) :
    IntOp.cmpi .slt (IntOp.addi (Scalar.muli (BitVec.ofNat 32 k) (BitVec.ofNat 32 T)) (BitVec.ofNat 32 j)) (BitVec.ofNat 32 n)
      = BitVec.ofBool (decide (k * T + j < n)) := by
  have e : IntOp.addi (Scalar.muli (BitVec.ofNat 32 k) (BitVec.ofNat 32 T)) (BitVec.ofNat 32 j) = BitVec.ofNat 32 (k * T + j) := by
    show BitVec.ofNat 32 k * BitVec.ofNat 32 T + BitVec.ofNat 32 j = _
    rw [← BitVec.ofNat_mul, ← BitVec.ofNat_add]
  rw [e]
  show BitVec.ofBool (decide ((BitVec.ofNat 32 (k * T + j)).toInt < (BitVec.ofNat 32 n).toInt)) = _
  rw [WordArith.toInt_ofNat_small _ h, WordArith.toInt_ofNat_small _ hn]
  exact congrArg BitVec.ofBool (decide_eq_decide.mpr (by omega))

theorem hit_word (t : BitVec 32) (T k j : ℕ) :
    IntOp.cmpi .eq (BitVec.ofNat 32 j) (IntOp.subi t (Scalar.muli (BitVec.ofNat 32 k) (BitVec.ofNat 32 T)))
      = BitVec.ofBool (BitVec.ofNat 32 j == t - BitVec.ofNat 32 (k * T)) := by
  show BitVec.ofBool (BitVec.ofNat 32 j == t - BitVec.ofNat 32 k * BitVec.ofNat 32 T) = _
  rw [← BitVec.ofNat_mul]

/-- Entry `(p, j)` of a rows-by-columns product into a zero accumulator: the sum over the contraction coordinate,
    the record's operand indices at `(p, j)` and `q` being `(p, q)` and `(q, j)`. -/
theorem plain_matmul_entry {a k b : ℕ} {φ₁ φ₂ : FTy} (lhs : FVec Ideal ⟨2, ![a, k]⟩ φ₁) (rhs : FVec Ideal ⟨2, ![k, b]⟩ φ₂) (p : Fin a) (j : Fin b) :
    matmul (DotDims.plain a k b) none lhs rhs (constant (F := Ideal) ⟨2, ![a, b]⟩ .f32 0x00000000#32) (ix2 p j)
      = ∑ q : Fin k, lhs (ix2 p q) * rhs (ix2 q j) := by
  refine (Ideal.matmul_constant_zero_apply (DotDims.plain a k b) none lhs rhs (ix2 p j)).trans ?_
  rw [← Equiv.sum_comp (contrEquiv1 (DotDims.plain a k b) k rfl rfl).symm]
  refine Finset.sum_congr rfl fun q _ => ?_
  have hq := contrEquiv1_symm_val (DotDims.plain a k b) k rfl rfl q
  have el : (DotDims.plain a k b).lhsIdx (ix2 p j) ((contrEquiv1 (DotDims.plain a k b) k rfl rfl).symm q) = ix2 p q :=
    funext fun d => Fin.ext (by
      match d with
      | ⟨0, _⟩ => rfl
      | ⟨1, _⟩ => exact ((DotDims.plain a k b).lhsIdx_val_of_single rfl _ _).trans hq)
  have er : (DotDims.plain a k b).rhsIdx (ix2 p j) ((contrEquiv1 (DotDims.plain a k b) k rfl rfl).symm q) = ix2 q j :=
    funext fun d => Fin.ext (by
      match d with
      | ⟨0, _⟩ => exact ((DotDims.plain a k b).rhsIdx_val_of_single rfl _ _).trans hq
      | ⟨1, _⟩ => rfl)
  rw [el, er]

/-- The same for the host's product of two matrices. -/
theorem plain_dot_apply {a k b : ℕ} (x : (⟨2, ![a, k]⟩ : Shape).Idx → EReal) (w : (⟨2, ![k, b]⟩ : Shape).Idx → EReal)
    (i : (⟨2, ![a, b]⟩ : Shape).Idx) :
    (Host.dotGeneral (F := Ideal) (φ₁ := .f32) (φ₂ := .f32) (DotDims.plain a k b) none x w : (⟨2, ![a, b]⟩ : Shape).Idx → EReal) i
      = ∑ q : Fin k, x (ix2 (i 0) q) * w (ix2 q (i 1)) := by
  simp only [Host.dotGeneral]
  rw [Ideal.dotGeneral_apply, ← Equiv.sum_comp (contrEquiv1 (DotDims.plain a k b) k rfl rfl).symm]
  refine Finset.sum_congr rfl fun q _ => ?_
  have hq := contrEquiv1_symm_val (DotDims.plain a k b) k rfl rfl q
  have el : (DotDims.plain a k b).lhsIdx i ((contrEquiv1 (DotDims.plain a k b) k rfl rfl).symm q) = ix2 (i 0) q :=
    funext fun d => Fin.ext (by
      match d with
      | ⟨0, _⟩ => rfl
      | ⟨1, _⟩ => exact ((DotDims.plain a k b).lhsIdx_val_of_single rfl _ _).trans hq)
  have er : (DotDims.plain a k b).rhsIdx i ((contrEquiv1 (DotDims.plain a k b) k rfl rfl).symm q) = ix2 q (i 1) :=
    funext fun d => Fin.ext (by
      match d with
      | ⟨0, _⟩ => exact ((DotDims.plain a k b).rhsIdx_val_of_single rfl _ _).trans hq
      | ⟨1, _⟩ => rfl)
  rw [el, er]
  rfl

variable {R T : ℕ}

theorem lift_eq (h : (⟨2, ![R, T]⟩ : Shape).Reduces [1] ⟨1, ![R]⟩) (p : Fin R) (j : Fin T) : h.lift (ix1 p) j = ix2 p j :=
  funext fun a => Fin.ext (by match a with | ⟨0, _⟩ => rfl | ⟨1, _⟩ => rfl)

/-- The lane maximum of row `p`, kept as a column: the supremum of the row's lanes. -/
theorem rowMax (src : FVec Ideal ⟨2, ![R, T]⟩ .f32) (h : (⟨2, ![R, T]⟩ : Shape).Reduces [1] ⟨1, ![R]⟩) (hφ : FKind.Formats .f32)
    (hacc : (0xFF800000#32 : BitVec 32) = FKind.maximumf.neutral .f32 hφ) (h2 : (⟨1, ![R]⟩ : Shape).ShapeCasts ⟨2, ![R, 1]⟩) (p : Fin R) :
    shapeCast ⟨2, ![R, 1]⟩ (multiReduction (F := Ideal) .maximumf [1] ⟨1, ![R]⟩ src 0xFF800000#32 h hφ hacc) h2 (ix2 p 0)
      = Finset.univ.sup fun j : Fin T => src (ix2 p j) := by
  refine (shapeCast_a_a1_apply _ h2 p 0).trans ?_
  refine (Ideal.multiReduction_maximumf_single src _ h hφ hacc (ix1 p)).trans ?_
  show (Finset.univ : Finset (Fin T)).fold max (Ideal.ofBits .f32 0xFF800000#32) (fun j : Fin T => src (h.lift (ix1 p) j)) = _
  rw [ofBits_neg_inf_f32, show (fun j : Fin T => src (h.lift (ix1 p) j)) = fun j : Fin T => src (ix2 p j) from
    funext fun j => congrArg src (lift_eq h p j)]
  rfl

/-- The lane sum of row `p`, kept as a column. -/
theorem rowSum (src : FVec Ideal ⟨2, ![R, T]⟩ .f32) (h : (⟨2, ![R, T]⟩ : Shape).Reduces [1] ⟨1, ![R]⟩) (hφ : FKind.Formats .f32)
    (hacc : (0x00000000#32 : BitVec 32) = FKind.add.neutral .f32 hφ) (h2 : (⟨1, ![R]⟩ : Shape).ShapeCasts ⟨2, ![R, 1]⟩) (p : Fin R) :
    shapeCast ⟨2, ![R, 1]⟩ (multiReduction (F := Ideal) .add [1] ⟨1, ![R]⟩ src 0x00000000#32 h hφ hacc) h2 (ix2 p 0)
      = ∑ j : Fin T, src (ix2 p j) := by
  refine (shapeCast_a_a1_apply _ h2 p 0).trans ?_
  refine (Ideal.multiReduction_add_single src _ h hφ hacc (ix1 p)).trans ?_
  show ∑ j : Fin T, src (h.lift (ix1 p) j) = _
  exact Finset.sum_congr rfl fun j _ => congrArg src (lift_eq h p j)

end Cert.Proof.LibRows

end
-- ==== Proof.KBody0.lean ====
import proofs.«407035_j66254165508793_2_alg».proof.Proof.Gen.KernelIdeal.Skeleton
import proofs.«407035_j66254165508793_2_alg».proof.Proof.Spec
import proofs.«407035_j66254165508793_2_alg».proof.Proof.LibRows
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.WordArith

noncomputable section

namespace Cert.Proof.KBody0

open Cert.KernelIdeal Cert.KernelIdeal.Gen Idealize.ShloMosaic ValueIdx Cert.Proof.LibRows

theorem pay1_eq (v : FVec Ideal S512x1 .f32) : k0_pay1 v = v := shapeCast_self v _
theorem pay2_eq (v : FVec Ideal S512x1 .f32) : k0_pay2 v = v := shapeCast_self v _

theorem pay5_row (p : Fin 512) : k0_pay5 (F := Ideal) (ix2 p 0) = (⊥ : EReal) := by
  unfold k0_pay5
  refine (congrFun (shapeCast_self _ _) (ix2 p 0)).trans ?_
  exact ofBits_neg_inf_f32

theorem pay6_row (p : Fin 512) : k0_pay6 (F := Ideal) (ix2 p 0) = (0 : EReal) := by
  unfold k0_pay6
  refine (congrFun (shapeCast_self _ _) (ix2 p 0)).trans ?_
  exact Ideal.ofBits_zero_f32

theorem pay7_row (p : Fin 512) : k0_pay7 (F := Ideal) (ix2 p 0) = (0 : EReal) := by
  unfold k0_pay7
  refine (congrFun (shapeCast_self _ _) (ix2 p 0)).trans ?_
  exact Ideal.ofBits_zero_f32

theorem pay4_row (M L : Vec Ideal S512x1 .f32) (p : Fin 512) :
    k0_pay4 (F := Ideal) M L (ix2 p 0) = M (ix2 p 0) + Ideal.log (L (ix2 p 0)) := rfl

theorem matmul_lane (lhs : FVec Ideal S512x1024 .bf16) (rhs : FVec Ideal S1024x2048 .bf16) (p : Fin 512) (j : Fin 2048) :
    matmul dot_S512x1024_S1024x2048_S512x2048_1_0_0_1_n_n none lhs rhs (constant (F := Ideal) S512x2048 .f32 0x00000000#32) (ix2 p j)
      = ∑ kk : Fin 1024, lhs (ix2 p kk) * rhs (ix2 kk j) :=
  plain_matmul_entry lhs rhs p j

section step

variable (i : grid0.Coords) (W : Vec Ideal S1024x2048 .f32) (x : Vec Ideal S512x1024 .bf16)
  (b : Vec Ideal S1x2048 .f32) (tg : Vec Ideal S512x1 .i32) (M L S : Vec Ideal S512x1 .f32) (p : Fin 512)
  (Xp : Fin 20000 → EReal)

abbrev st : EReal × EReal × EReal :=
  Cert.Spec.step (Cert.Spec.blk 2048 20000 Xp (i 1).val) (Cert.Spec.hit 2048 20000 (tg (ix2 p 0)) (i 1).val)
    (M (ix2 p 0), L (ix2 p 0), S (ix2 p 0))

theorem st_fst : (st i tg M L S p Xp).1
    = max (M (ix2 p 0)) (Finset.univ.sup (Cert.Spec.blk 2048 20000 Xp (i 1).val)) := rfl
theorem st_snd : (st i tg M L S p Xp).2.1
    = Ideal.exp (M (ix2 p 0) - (st i tg M L S p Xp).1) * L (ix2 p 0)
      + ∑ j, Ideal.exp (Cert.Spec.blk 2048 20000 Xp (i 1).val j - (st i tg M L S p Xp).1) := rfl
theorem st_trd : (st i tg M L S p Xp).2.2
    = S (ix2 p 0) + ∑ j, (if Cert.Spec.hit 2048 20000 (tg (ix2 p 0)) (i 1).val j
        then Cert.Spec.blk 2048 20000 Xp (i 1).val j else 0) := rfl

theorem valid_lane (j : Fin 2048) :
    k0_pay8 i (ix2 p j) = BitVec.ofBool (decide ((i 1).val * 2048 + j.val < 20000)) := by
  have hk : (i 1).val < 10 := (i 1).isLt
  unfold k0_pay8
  show IntOp.cmpi .slt (IntOp.addi (Scalar.muli (BitVec.ofNat 32 (i 1).val) 2048#32)
    (iota .tc S512x2048 32 [1] iota_S512x2048_d1_w32 (ix2 p j))) 20000#32 = _
  rw [iota_single_apply .tc S512x2048 32 1 iota_S512x2048_d1_w32 (ix2 p j)]
  exact valid_word 2048 20000 (i 1).val j.val (by have := j.isLt; omega) (by omega)

theorem pay9_lane
    (hX : ∀ (j : Fin 2048) (h : (i 1).val * 2048 + j.val < 20000),
      (∑ kk : Fin 1024, x (ix2 p kk) * W (ix2 kk j)) + b (ix2 0 j) = Xp ⟨(i 1).val * 2048 + j.val, h⟩)
    (j : Fin 2048) :
    k0_pay9 (F := Ideal) i W x b (ix2 p j) = Cert.Spec.blk 2048 20000 Xp (i 1).val j := by
  unfold k0_pay9
  show Scalar.select (k0_pay8 i (ix2 p j))
      (matmul dot_S512x1024_S1024x2048_S512x2048_1_0_0_1_n_n none (shapeCast S512x1024 x shapeCasts_S512x1024_S512x1024)
          (truncf .bf16 W bitsLt_bf16_f32) (constant (F := Ideal) S512x2048 .f32 0x00000000#32) (ix2 p j)
        + broadcastTo S512x2048 (shapeCast S1x2048 b shapeCasts_S1x2048_S1x2048) broadcasts_S1x2048_S512x2048 (ix2 p j))
      (Named.named (F := Ideal) κ "neg_big" (φ := .f32) 0xF149F2CA#32) = _
  rw [valid_lane, matmul_lane, broadcastTo_1b_ab_apply, shapeCast_self, shapeCast_self,
    IdealRules.named_const.ideal_named_scalar κ "neg_big" _ ⊥ rfl]
  unfold Cert.Spec.blk
  by_cases h : (i 1).val * 2048 + j.val < 20000
  · rw [dif_pos h, decide_eq_true h]
    exact (select_one _ _).trans (hX j h)
  · rw [dif_neg h, decide_eq_false h]
    exact select_zero _ _

variable (hX : ∀ (j : Fin 2048) (h : (i 1).val * 2048 + j.val < 20000),
      (∑ kk : Fin 1024, x (ix2 p kk) * W (ix2 kk j)) + b (ix2 0 j) = Xp ⟨(i 1).val * 2048 + j.val, h⟩)
include hX

theorem pay10_row : k0_pay10 (F := Ideal) i W x b M (ix2 p 0) = (st i tg M L S p Xp).1 := by
  unfold k0_pay10
  refine (maximumf_apply (s := S512x1) (φ := .f32) M _ (ix2 p 0)).trans ?_
  refine (congrArg (max (M (ix2 p 0))) ((rowMax _ _ _ _ _ p).trans ?_)).trans (st_fst i tg M L S p Xp).symm
  exact congrArg Finset.univ.sup (funext fun j => pay9_lane i W x b p Xp hX j)

theorem pay11_row : k0_pay11 (F := Ideal) i W x b M M L (ix2 p 0) = (st i tg M L S p Xp).2.1 := by
  have h10 := pay10_row i W x b tg M L S p Xp hX
  unfold k0_pay11
  refine (addf_apply (s := S512x1) (φ := .f32) _ _ (ix2 p 0)).trans ?_
  refine (congrArg₂ (fun u v : EReal => u + v) ?_ ?_).trans (st_snd i tg M L S p Xp).symm
  · refine (mulf_apply (s := S512x1) (φ := .f32) _ L (ix2 p 0)).trans ?_
    refine congrArg (fun u : EReal => u * L (ix2 p 0)) ?_
    refine (exp_apply (s := S512x1) (φ := .f32) _ (ix2 p 0)).trans (congrArg Ideal.exp ?_)
    refine (subf_apply (s := S512x1) (φ := .f32) M _ (ix2 p 0)).trans ?_
    exact congrArg (fun u : EReal => M (ix2 p 0) - u) h10
  · refine (rowSum _ _ _ _ _ p).trans (Finset.sum_congr rfl fun j _ => ?_)
    refine (exp_apply (s := S512x2048) (φ := .f32) _ (ix2 p j)).trans (congrArg Ideal.exp ?_)
    refine (subf_apply (s := S512x2048) (φ := .f32) _ _ (ix2 p j)).trans ?_
    refine congrArg₂ (fun u v : EReal => u - v) (pay9_lane i W x b p Xp hX j) ?_
    exact (broadcastTo_a1_ab_apply _ _ p j).trans h10

theorem pick_lane (j : Fin 2048) :
    Scalar.select
      (IntOp.andi
        (IntOp.cmpi .eq (iota .tc S512x2048 32 [1] iota_S512x2048_d1_w32 (ix2 p j))
          (broadcastTo S512x2048
            (subi (shapeCast S512x1 tg shapeCasts_S512x1_S512x1)
              (broadcast S512x1 (Scalar.muli (BitVec.ofNat 32 (i 1).val) 2048#32)))
            broadcasts_S512x1_S512x2048 (ix2 p j)))
        (k0_pay8 i (ix2 p j)))
      (k0_pay9 (F := Ideal) i W x b (ix2 p j)) (Scalar.ofBits (F := Ideal) .f32 0x00000000#32)
    = if Cert.Spec.hit 2048 20000 (tg (ix2 p 0)) (i 1).val j then Cert.Spec.blk 2048 20000 Xp (i 1).val j else 0 := by
  rw [broadcastTo_a1_ab_apply, valid_lane, pay9_lane i W x b p Xp hX,
    iota_single_apply .tc S512x2048 32 1 iota_S512x2048_d1_w32 (ix2 p j)]
  show Scalar.select (IntOp.andi (IntOp.cmpi .eq (BitVec.ofNat 32 j.val)
      (IntOp.subi (shapeCast S512x1 tg shapeCasts_S512x1_S512x1 (ix2 p 0))
        (Scalar.muli (BitVec.ofNat 32 (i 1).val) 2048#32))) _) _ (Ideal.ofBits .f32 0x00000000#32) = _
  rw [shapeCast_self, hit_word, WordArith.andi_ofBool, Ideal.ofBits_zero_f32]
  unfold Cert.Spec.hit
  cases ((BitVec.ofNat 32 j.val == tg (ix2 p 0) - BitVec.ofNat 32 ((i 1).val * 2048))
      && decide ((i 1).val * 2048 + j.val < 20000))
  · exact (select_zero _ _).trans (if_neg Bool.false_ne_true).symm
  · exact (select_one _ _).trans (if_pos rfl).symm

theorem pay3_row :
    k0_pay3 (F := Ideal) (Scalar.muli (BitVec.ofNat 32 (i 1).val) 2048#32)
      (iota .tc S512x2048 32 [1] iota_S512x2048_d1_w32) (k0_pay8 i) (k0_pay9 i W x b) tg S (ix2 p 0)
      = (st i tg M L S p Xp).2.2 := by
  unfold k0_pay3
  refine (congrFun (shapeCast_self _ _) (ix2 p 0)).trans ?_
  refine (addf_apply (s := S512x1) (φ := .f32) S _ (ix2 p 0)).trans ?_
  refine (congrArg (fun u : EReal => S (ix2 p 0) + u) ((rowSum _ _ _ _ _ p).trans ?_)).trans
    (st_trd i tg M L S p Xp).symm
  exact Finset.sum_congr rfl fun j _ => pick_lane i W x b tg p Xp hX j

end step

end Cert.Proof.KBody0

end
-- ==== Proof.KHost.lean ====
import proofs.«407035_j66254165508793_2_alg».proof.Proof.Gen.KernelIdeal.Regions
import proofs.«407035_j66254165508793_2_alg».proof.Proof.Spec
import proofs.«407035_j66254165508793_2_alg».proof.Proof.KOuts
import proofs.«407035_j66254165508793_2_alg».proof.Proof.LibRows
import Idealize.ShloMosaic.Lib.Pipeline.Value
import Idealize.ShloMosaic.Lib.ValueIdx
import Idealize.ShloMosaic.Lib.IdealHost
import Idealize.ShloMosaic.Lib.WordArith
import Idealize.ShloMosaic.PureOps.Ideal.Laws
import Idealize.ShloMosaic.PureOps.Reduce

noncomputable section

namespace Cert.Proof.KHost

open Cert.KernelIdeal Cert.KernelIdeal.Gen Idealize.ShloMosaic Idealize.ShloMosaic.TcCoe ValueIdx Idealize.SL.Sem
open Cert.Proof.KOuts Cert.Proof.LibRows

section layout
variable {α : Type}

theorem cast_row_apply {n : ℕ} (x : (⟨1, ![n]⟩ : Shape).Idx → α) (h : (⟨1, ![n]⟩ : Shape).ShapeCasts ⟨2, ![1, n]⟩)
    (i : (⟨2, ![1, n]⟩ : Shape).Idx) : shapeCast ⟨2, ![1, n]⟩ x h i = x (ix1 (i 1)) := by
  refine shapeCast_apply x h i (ix1 (i 1)) ?_
  rw [Shape.rowMajor_val_one, Shape.rowMajor_val_two]
  have h0 : (i 0).val < 1 := idx2_lt0 i
  show (i 1).val = (i 0).val * n + (i 1).val
  rw [Nat.lt_one_iff.mp h0, Nat.zero_mul, Nat.zero_add]

theorem cast_col_apply {n : ℕ} (x : (⟨1, ![n]⟩ : Shape).Idx → α) (h : (⟨1, ![n]⟩ : Shape).ShapeCasts ⟨2, ![n, 1]⟩)
    (i : (⟨2, ![n, 1]⟩ : Shape).Idx) : shapeCast ⟨2, ![n, 1]⟩ x h i = x (ix1 (i 0)) := by
  refine shapeCast_apply x h i (ix1 (i 0)) ?_
  rw [Shape.rowMajor_val_one, Shape.rowMajor_val_two]
  have h1 : (i 1).val < 1 := idx2_lt1 i
  show (i 0).val = (i 0).val * 1 + (i 1).val
  rw [Nat.lt_one_iff.mp h1, Nat.mul_one, Nat.add_zero]

theorem cast_uncol_apply {n : ℕ} (x : (⟨2, ![n, 1]⟩ : Shape).Idx → α) (h : (⟨2, ![n, 1]⟩ : Shape).ShapeCasts ⟨1, ![n]⟩)
    (j : (⟨1, ![n]⟩ : Shape).Idx) : shapeCast ⟨1, ![n]⟩ x h j = x (ix2 (j 0) (0 : Fin 1)) := by
  refine shapeCast_apply x h j (ix2 (j 0) (0 : Fin 1)) ?_
  rw [Shape.rowMajor_val_one, Shape.rowMajor_val_two]
  show (j 0).val * 1 + 0 = (j 0).val
  rw [Nat.mul_one, Nat.add_zero]

end layout

variable (m : (ℓ : Loc nD τ sig) → Buf (Elt Ideal) ℓ) (c : Dev nD)

theorem in0_x : (V1 m c main_v9 : S1024x1024.Idx → EReal) = hid m c := by
  show StableHlo.after hostOps0 (V0 m c) (Proc.devRef .tc main_v9) = _
  after_results
  rfl

theorem in0_W : (V1 m c main_arg2 : S1024x20000.Idx → EReal) = Wh m c :=
  V1_of m c main_arg2 (by decide)

theorem in0_b : (V1 m c main_v10 : S1x20000.Idx → EReal) = fun i => bh m c (ix1 (i 1)) := by
  have e : (V1 m c main_v10 : S1x20000.Idx → EReal) = shapeCast S1x20000 (bh m c) shapeCasts_S20000_S1x20000 := by
    show StableHlo.after hostOps0 (V0 m c) (Proc.devRef .tc main_v10) = _
    after_results
    rfl
  rw [e]
  funext i
  exact cast_row_apply (bh m c) shapeCasts_S20000_S1x20000 i

theorem in0_t : (V1 m c main_v11 : S1024x1.Idx → BitVec 32) = fun i => tgt m c (ix1 (i 0)) - 0#32 := by
  have e : (V1 m c main_v11 : S1024x1.Idx → BitVec 32) =
      shapeCast S1024x1 (subi (tgt m c) (broadcastInDim S1024 ![] bcast_S_S1024 (constantI S_ 32 0#32))) shapeCasts_S1024_S1024x1 := by
    show StableHlo.after hostOps0 (V0 m c) (Proc.devRef .tc main_v11) = _
    after_results
    rfl
  rw [e]
  funext i
  rw [cast_col_apply]
  rfl

theorem V1_v4 : (V1 m c main_v4 : S1024x256.Idx → EReal) = Host.dotGeneral (F := Ideal) (φ₁ := .f32) (φ₂ := .f32) dot_S1024x1024_S1024x256_S1024x256_1_0_0_1_n_n none (hid m c) (Wp1 m c) := by
  show StableHlo.after hostOps0 (V0 m c) (Proc.devRef .tc main_v4) = _
  after_results

theorem in1_x : (V3 m (outs m) c main_v15 : S1024x256.Idx → EReal) = fun i => Spec.proj (Spec.row (hid m c) (i 0)) (Spec.mat (Wp1 m c)) (i 1) := by
  have e : (V3 m (outs m) c main_v15 : S1024x256.Idx → EReal) = (V2 m (outs m) c main_v4 : _) := by
    show StableHlo.after hostOps1 (V2 m (outs m) c) (Proc.devRef .tc main_v15) = _
    after_results
    rfl
  rw [e, V2_of m (outs m) c main_v4 (by decide), V1_v4]
  funext i
  exact plain_dot_apply (hid m c) (Wp1 m c) i

theorem in1_W : (V3 m (outs m) c main_arg7 : S256x40000.Idx → EReal) = Wt1 m c := by
  rw [V3_of m (outs m) c main_arg7 (by decide), V2_of m (outs m) c main_arg7 (by decide), V1_of m c main_arg7 (by decide)]

theorem in1_b : (V3 m (outs m) c main_v16 : S1x40000.Idx → EReal) = fun i => bt1 m c (ix1 (i 1)) := by
  have e : (V3 m (outs m) c main_v16 : S1x40000.Idx → EReal) = shapeCast S1x40000 (V2 m (outs m) c main_arg8) shapeCasts_S40000_S1x40000 := by
    show StableHlo.after hostOps1 (V2 m (outs m) c) (Proc.devRef .tc main_v16) = _
    after_results
    rfl
  rw [e, V2_of m (outs m) c main_arg8 (by decide), V1_of m c main_arg8 (by decide)]
  funext i
  exact cast_row_apply (bt1 m c) shapeCasts_S40000_S1x40000 i

theorem in1_t : (V3 m (outs m) c main_v17 : S1024x1.Idx → BitVec 32) = fun i => tgt m c (ix1 (i 0)) - 20000#32 := by
  have e : (V3 m (outs m) c main_v17 : S1024x1.Idx → BitVec 32) =
      shapeCast S1024x1 (subi (V2 m (outs m) c main_arg1) (broadcastInDim S1024 ![] bcast_S_S1024 (constantI S_ 32 20000#32))) shapeCasts_S1024_S1024x1 := by
    show StableHlo.after hostOps1 (V2 m (outs m) c) (Proc.devRef .tc main_v17) = _
    after_results
    rfl
  rw [e, V2_of m (outs m) c main_arg1 (by decide), V1_of m c main_arg1 (by decide)]
  funext i
  rw [cast_col_apply]
  rfl

theorem V1_v5 : (V1 m c main_v5 : S1024x64.Idx → EReal) = Host.dotGeneral (F := Ideal) (φ₁ := .f32) (φ₂ := .f32) dot_S1024x1024_S1024x64_S1024x64_1_0_0_1_n_n none (hid m c) (Wp2 m c) := by
  show StableHlo.after hostOps0 (V0 m c) (Proc.devRef .tc main_v5) = _
  after_results

theorem in2_x : (V5 m (outs m) c main_v21 : S1024x64.Idx → EReal) = fun i => Spec.proj (Spec.row (hid m c) (i 0)) (Spec.mat (Wp2 m c)) (i 1) := by
  have e : (V5 m (outs m) c main_v21 : S1024x64.Idx → EReal) = (V4 m (outs m) c main_v5 : _) := by
    show StableHlo.after hostOps2 (V4 m (outs m) c) (Proc.devRef .tc main_v21) = _
    after_results
    rfl
  rw [e, V4_of m (outs m) c main_v5 (by decide), V3_of m (outs m) c main_v5 (by decide), V2_of m (outs m) c main_v5 (by decide), V1_v5]
  funext i
  exact plain_dot_apply (hid m c) (Wp2 m c) i

theorem in2_W : (V5 m (outs m) c main_arg10 : S64x120000.Idx → EReal) = Wt2 m c := by
  rw [V5_of m (outs m) c main_arg10 (by decide), V4_of m (outs m) c main_arg10 (by decide), V3_of m (outs m) c main_arg10 (by decide), V2_of m (outs m) c main_arg10 (by decide), V1_of m c main_arg10 (by decide)]

theorem in2_b : (V5 m (outs m) c main_v22 : S1x120000.Idx → EReal) = fun i => bt2 m c (ix1 (i 1)) := by
  have e : (V5 m (outs m) c main_v22 : S1x120000.Idx → EReal) = shapeCast S1x120000 (V4 m (outs m) c main_arg11) shapeCasts_S120000_S1x120000 := by
    show StableHlo.after hostOps2 (V4 m (outs m) c) (Proc.devRef .tc main_v22) = _
    after_results
    rfl
  rw [e, V4_of m (outs m) c main_arg11 (by decide), V3_of m (outs m) c main_arg11 (by decide), V2_of m (outs m) c main_arg11 (by decide), V1_of m c main_arg11 (by decide)]
  funext i
  exact cast_row_apply (bt2 m c) shapeCasts_S120000_S1x120000 i

theorem in2_t : (V5 m (outs m) c main_v23 : S1024x1.Idx → BitVec 32) = fun i => tgt m c (ix1 (i 0)) - 60000#32 := by
  have e : (V5 m (outs m) c main_v23 : S1024x1.Idx → BitVec 32) =
      shapeCast S1024x1 (subi (V4 m (outs m) c main_arg1) (broadcastInDim S1024 ![] bcast_S_S1024 (constantI S_ 32 60000#32))) shapeCasts_S1024_S1024x1 := by
    show StableHlo.after hostOps2 (V4 m (outs m) c) (Proc.devRef .tc main_v23) = _
    after_results
    rfl
  rw [e, V4_of m (outs m) c main_arg1 (by decide), V3_of m (outs m) c main_arg1 (by decide), V2_of m (outs m) c main_arg1 (by decide), V1_of m c main_arg1 (by decide)]
  funext i
  rw [cast_col_apply]
  rfl

theorem V1_v6 : (V1 m c main_v6 : S1024x16.Idx → EReal) = Host.dotGeneral (F := Ideal) (φ₁ := .f32) (φ₂ := .f32) dot_S1024x1024_S1024x16_S1024x16_1_0_0_1_n_n none (hid m c) (Wp3 m c) := by
  show StableHlo.after hostOps0 (V0 m c) (Proc.devRef .tc main_v6) = _
  after_results

theorem in3_x : (V7 m (outs m) c main_v27 : S1024x16.Idx → EReal) = fun i => Spec.proj (Spec.row (hid m c) (i 0)) (Spec.mat (Wp3 m c)) (i 1) := by
  have e : (V7 m (outs m) c main_v27 : S1024x16.Idx → EReal) = (V6 m (outs m) c main_v6 : _) := by
    show StableHlo.after hostOps3 (V6 m (outs m) c) (Proc.devRef .tc main_v27) = _
    after_results
    rfl
  rw [e, V6_of m (outs m) c main_v6 (by decide), V5_of m (outs m) c main_v6 (by decide), V4_of m (outs m) c main_v6 (by decide), V3_of m (outs m) c main_v6 (by decide), V2_of m (outs m) c main_v6 (by decide), V1_v6]
  funext i
  exact plain_dot_apply (hid m c) (Wp3 m c) i

theorem in3_W : (V7 m (outs m) c main_arg13 : S16x87735.Idx → EReal) = Wt3 m c := by
  rw [V7_of m (outs m) c main_arg13 (by decide), V6_of m (outs m) c main_arg13 (by decide), V5_of m (outs m) c main_arg13 (by decide), V4_of m (outs m) c main_arg13 (by decide), V3_of m (outs m) c main_arg13 (by decide), V2_of m (outs m) c main_arg13 (by decide), V1_of m c main_arg13 (by decide)]

theorem in3_b : (V7 m (outs m) c main_v28 : S1x87735.Idx → EReal) = fun i => bt3 m c (ix1 (i 1)) := by
  have e : (V7 m (outs m) c main_v28 : S1x87735.Idx → EReal) = shapeCast S1x87735 (V6 m (outs m) c main_arg14) shapeCasts_S87735_S1x87735 := by
    show StableHlo.after hostOps3 (V6 m (outs m) c) (Proc.devRef .tc main_v28) = _
    after_results
    rfl
  rw [e, V6_of m (outs m) c main_arg14 (by decide), V5_of m (outs m) c main_arg14 (by decide), V4_of m (outs m) c main_arg14 (by decide), V3_of m (outs m) c main_arg14 (by decide), V2_of m (outs m) c main_arg14 (by decide), V1_of m c main_arg14 (by decide)]
  funext i
  exact cast_row_apply (bt3 m c) shapeCasts_S87735_S1x87735 i

theorem in3_t : (V7 m (outs m) c main_v29 : S1024x1.Idx → BitVec 32) = fun i => tgt m c (ix1 (i 0)) - 180000#32 := by
  have e : (V7 m (outs m) c main_v29 : S1024x1.Idx → BitVec 32) =
      shapeCast S1024x1 (subi (V6 m (outs m) c main_arg1) (broadcastInDim S1024 ![] bcast_S_S1024 (constantI S_ 32 180000#32))) shapeCasts_S1024_S1024x1 := by
    show StableHlo.after hostOps3 (V6 m (outs m) c) (Proc.devRef .tc main_v29) = _
    after_results
    rfl
  rw [e, V6_of m (outs m) c main_arg1 (by decide), V5_of m (outs m) c main_arg1 (by decide), V4_of m (outs m) c main_arg1 (by decide), V3_of m (outs m) c main_arg1 (by decide), V2_of m (outs m) c main_arg1 (by decide), V1_of m c main_arg1 (by decide)]
  funext i
  rw [cast_col_apply]
  rfl

section tailLayout
variable {α : Type}

theorem bcast_col_apply (x : S1024.Idx → α) (i : S1024x1.Idx) :
    broadcastInDim S1024x1 ![0] bcast_S1024_S1024x1_0 x i = x (ix1 (i 0)) :=
  broadcastInDim_apply _ bcast_S1024_S1024x1_0 x i (ix1 (i 0)) (fun a => match a with
    | ⟨0, _⟩ => by show (i 0).val = if (1024 : ℕ) = 1 then 0 else (i 0).val; rw [if_neg (by decide)])

theorem bcast_cols_apply (y : S1024x1.Idx → α) (i : S1024x3.Idx) :
    broadcastInDim S1024x3 ![0, 1] bcast_S1024x1_S1024x3_0_1 y i = y (ix2 (i 0) (0 : Fin 1)) :=
  broadcastInDim_apply _ bcast_S1024x1_S1024x3_0_1 y i (ix2 (i 0) (0 : Fin 1)) (fun a => match a with
    | ⟨0, _⟩ => by show (i 0).val = if (1024 : ℕ) = 1 then 0 else (i 0).val; rw [if_neg (by decide)]
    | ⟨1, _⟩ => by show 0 = if (1 : ℕ) = 1 then 0 else (i 1).val; rw [if_pos rfl])

theorem bcast_row_apply (b : S3.Idx → α) (i : S1x3.Idx) :
    broadcastInDim S1x3 ![1] bcast_S3_S1x3_1 b i = b (ix1 (i 1)) :=
  broadcastInDim_apply _ bcast_S3_S1x3_1 b i (ix1 (i 1)) (fun a => match a with
    | ⟨0, _⟩ => by show (i 1).val = if (3 : ℕ) = 1 then 0 else (i 1).val; rw [if_neg (by decide)])

theorem bcast_rows_apply (y : S1x3.Idx → α) (i : S1024x3.Idx) :
    broadcastInDim S1024x3 ![0, 1] bcast_S1x3_S1024x3_0_1 y i = y (ix2 (0 : Fin 1) (i 1)) :=
  broadcastInDim_apply _ bcast_S1x3_S1024x3_0_1 y i (ix2 (0 : Fin 1) (i 1)) (fun a => match a with
    | ⟨0, _⟩ => by show 0 = if (1 : ℕ) = 1 then 0 else (i 0).val; rw [if_pos rfl]
    | ⟨1, _⟩ => by show (i 1).val = if (3 : ℕ) = 1 then 0 else (i 1).val; rw [if_neg (by decide)])

theorem slice_col_apply (off : Fin S1024x3.rank → ℕ) (q : Fin 3) (h0 : off 0 = 0) (h1 : off 1 = q.val)
    (lp : S1024x3.Idx → α) (hs : S1024x3.Slices off S1024x1) (i : S1024x1.Idx) :
    extractStridedSlice S1024x1 off lp hs i = lp (ix2 (i 0) q) :=
  extractStridedSlice_apply off lp hs i (ix2 (i 0) q) (fun a => match a with
    | ⟨0, _⟩ => by show (i 0).val = off 0 + (i 0).val; rw [h0, Nat.zero_add]
    | ⟨1, _⟩ => by
        show q.val = off 1 + (i 1).val
        rw [h1, Nat.lt_one_iff.mp (idx2_lt1 i), Nat.add_zero])

end tailLayout

theorem lift_row (hred : S1024x3.Reduces [1] S1024) (r : Fin 1024) (q : Fin 3) : hred.lift (ix1 r) q = ix2 r q :=
  funext fun a => match a with
    | ⟨0, _⟩ => Fin.ext rfl
    | ⟨1, _⟩ => Fin.ext rfl

theorem redmax_apply (cl : FVec Ideal S1024x3 .f32) (r : Fin 1024) :
    Host.reduce FloatOps.maximumf cl (constant (F := Ideal) S_ .f32 0xFF800000#32) reducesTo_S1024x3_S1024_d1 h_S_ (ix1 r)
      = Finset.univ.sup fun q : Fin 3 => cl (ix2 r q) := by
  have hred : S1024x3.Reduces [1] S1024 := by decide
  rw [Host.reduce_eq_fold_single FloatOps.maximumf cl _ reducesTo_S1024x3_S1024_d1 hred h_S_ (ix1 r)]
  have hc : (cl ∘ hred.lift (ix1 r)) = fun q : Fin 3 => cl (ix2 r q) := funext fun q => congrArg cl (lift_row hred r q)
  rw [hc]
  show (Finset.univ : Finset (Fin 3)).fold max (Ideal.ofBits .f32 0xFF800000#32) (fun q : Fin 3 => cl (ix2 r q)) = _
  rw [show Ideal.ofBits .f32 0xFF800000#32 = (⊥ : EReal) by simp [Ideal.ofBits, Ideal.ieee]]
  rfl

theorem redadd_apply (x : FVec Ideal S1024x3 .f32) (r : Fin 1024) :
    Host.reduceAdd x (constant (F := Ideal) S_ .f32 0x00000000#32) reducesTo_S1024x3_S1024_d1 h_S_ (ix1 r)
      = ∑ q : Fin 3, x (ix2 r q) := by
  have hred : S1024x3.Reduces [1] S1024 := by decide
  rw [hostReduceAdd_apply, Ideal.hostReduceAdd_single reducesTo_S1024x3_S1024_d1 hred]
  show Ideal.ofBits .f32 0x00000000#32 + _ = _
  rw [Ideal.ofBits_zero_f32, zero_add]
  exact Finset.sum_congr rfl fun q _ => congrArg x (lift_row hred r q)

def clArr (h : FVec Ideal S1024x1024 .f32) (w : FVec Ideal S1024x3 .f32) (b : FVec Ideal S3 .f32) : FVec Ideal S1024x3 .f32 :=
  addf (Host.dotGeneral dot_S1024x1024_S1024x3_S1024x3_1_0_0_1_n_n none h w)
    (broadcastInDim S1024x3 ![0, 1] bcast_S1x3_S1024x3_0_1 (broadcastInDim S1x3 ![1] bcast_S3_S1x3_1 b))

def mxArr (l0 : FVec Ideal S1024x1 .f32) (cl : FVec Ideal S1024x3 .f32) : FVec Ideal S1024 .f32 :=
  maximumf (shapeCast S1024 l0 shapeCasts_S1024x1_S1024)
    (Host.reduce FloatOps.maximumf cl (constant S_ .f32 0xFF800000#32) reducesTo_S1024x3_S1024_d1 h_S_)

def fullArr (l0 : FVec Ideal S1024x1 .f32) (cl : FVec Ideal S1024x3 .f32) : FVec Ideal S1024 .f32 :=
  addf (mxArr l0 cl)
    (Host.log (addf (Host.exp (subf (shapeCast S1024 l0 shapeCasts_S1024x1_S1024) (mxArr l0 cl)))
      (Host.reduceAdd
        (Host.exp (subf cl (broadcastInDim S1024x3 ![0, 1] bcast_S1024x1_S1024x3_0_1 (broadcastInDim S1024x1 ![0] bcast_S1024_S1024x1_0 (mxArr l0 cl)))))
        (constant S_ .f32 0x00000000#32) reducesTo_S1024x3_S1024_d1 h_S_)))

def lpArr (full : FVec Ideal S1024 .f32) (cl : FVec Ideal S1024x3 .f32) : FVec Ideal S1024x3 .f32 :=
  subf cl (broadcastInDim S1024x3 ![0, 1] bcast_S1024x1_S1024x3_0_1 (broadcastInDim S1024x1 ![0] bcast_S1024_S1024x1_0 full))

def dArr (s l : FVec Ideal S1024x1 .f32) : FVec Ideal S1024 .f32 :=
  subf (shapeCast S1024 s shapeCasts_S1024x1_S1024) (shapeCast S1024 l shapeCasts_S1024x1_S1024)

def n0Arr (t : IVec S1024 32) (s0 : FVec Ideal S1024x1 .f32) (full : FVec Ideal S1024 .f32) : FVec Ideal S1024 .f32 :=
  select (cmpi .slt t (broadcastInDim S1024 ![] bcast_S_S1024 (constantI S_ 32 20000#32)))
    (Host.negf (subf (shapeCast S1024 s0 shapeCasts_S1024x1_S1024) full))
    (broadcastInDim S1024 ![] bcast_S_S1024 (constant S_ .f32 0x00000000#32))

def nkArr (lo hi : BitVec 32) (off : Fin S1024x3.rank → ℕ) (hs : S1024x3.Slices off S1024x1) (t : IVec S1024 32)
    (lp : FVec Ideal S1024x3 .f32) (d prev : FVec Ideal S1024 .f32) : FVec Ideal S1024 .f32 :=
  select (andi (cmpi .sge t (broadcastInDim S1024 ![] bcast_S_S1024 (constantI S_ 32 lo)))
      (cmpi .slt t (broadcastInDim S1024 ![] bcast_S_S1024 (constantI S_ 32 hi))))
    (Host.negf (addf (shapeCast S1024 (extractStridedSlice S1024x1 off lp hs) shapeCasts_S1024x1_S1024) d))
    prev

def fullOf (L : EReal) (cl : Fin 3 → EReal) : EReal :=
  max L (Finset.univ.sup cl) + Ideal.log (Ideal.exp (L - max L (Finset.univ.sup cl)) + ∑ j, Ideal.exp (cl j - max L (Finset.univ.sup cl)))

theorem clArr_apply (h : FVec Ideal S1024x1024 .f32) (w : FVec Ideal S1024x3 .f32) (b : FVec Ideal S3 .f32) (r : Fin 1024) (q : Fin 3) :
    clArr h w b (ix2 r q) = Spec.cl (Spec.row h r) (Spec.mat w) (Spec.vec b) q := by
  have hb : broadcastInDim S1024x3 ![0, 1] bcast_S1x3_S1024x3_0_1 (broadcastInDim S1x3 ![1] bcast_S3_S1x3_1 b) (ix2 r q) = b (ix1 q) :=
    (bcast_rows_apply _ (ix2 r q)).trans (bcast_row_apply b (ix2 (0 : Fin 1) q))
  show (Host.dotGeneral (F := Ideal) (φ₁ := .f32) (φ₂ := .f32) (DotDims.plain 1024 1024 3) none h w : S1024x3.Idx → EReal) (ix2 r q)
      + broadcastInDim S1024x3 ![0, 1] bcast_S1x3_S1024x3_0_1 (broadcastInDim S1x3 ![1] bcast_S3_S1x3_1 b) (ix2 r q) = _
  rw [hb, plain_dot_apply]
  rfl

theorem mxArr_apply (l0 : FVec Ideal S1024x1 .f32) (cl : FVec Ideal S1024x3 .f32) (r : Fin 1024) :
    mxArr l0 cl (ix1 r) = max (l0 (ix2 r (0 : Fin 1))) (Finset.univ.sup fun q : Fin 3 => cl (ix2 r q)) := by
  show max (shapeCast S1024 l0 shapeCasts_S1024x1_S1024 (ix1 r))
    (Host.reduce FloatOps.maximumf cl (constant (F := Ideal) S_ .f32 0xFF800000#32) reducesTo_S1024x3_S1024_d1 h_S_ (ix1 r)) = _
  rw [redmax_apply, cast_uncol_apply]

theorem fullArr_apply (l0 : FVec Ideal S1024x1 .f32) (cl : FVec Ideal S1024x3 .f32) (r : Fin 1024) :
    fullArr l0 cl (ix1 r) = fullOf (l0 (ix2 r (0 : Fin 1))) (fun q => cl (ix2 r q)) := by
  have hb : ∀ q : Fin 3, broadcastInDim S1024x3 ![0, 1] bcast_S1024x1_S1024x3_0_1 (broadcastInDim S1024x1 ![0] bcast_S1024_S1024x1_0 (mxArr l0 cl)) (ix2 r q)
      = mxArr l0 cl (ix1 r) :=
    fun q => (bcast_cols_apply _ (ix2 r q)).trans (bcast_col_apply (mxArr l0 cl) (ix2 r (0 : Fin 1)))
  show mxArr l0 cl (ix1 r) + Ideal.log (Ideal.exp (shapeCast S1024 l0 shapeCasts_S1024x1_S1024 (ix1 r) - mxArr l0 cl (ix1 r))
      + Host.reduceAdd (Host.exp (subf cl (broadcastInDim S1024x3 ![0, 1] bcast_S1024x1_S1024x3_0_1 (broadcastInDim S1024x1 ![0] bcast_S1024_S1024x1_0 (mxArr l0 cl)))))
          (constant (F := Ideal) S_ .f32 0x00000000#32) reducesTo_S1024x3_S1024_d1 h_S_ (ix1 r)) = _
  rw [redadd_apply, cast_uncol_apply]
  have hs : (∑ q : Fin 3, Host.exp (subf cl (broadcastInDim S1024x3 ![0, 1] bcast_S1024x1_S1024x3_0_1 (broadcastInDim S1024x1 ![0] bcast_S1024_S1024x1_0 (mxArr l0 cl)))) (ix2 r q))
      = ∑ q : Fin 3, Ideal.exp (cl (ix2 r q) - mxArr l0 cl (ix1 r)) :=
    Finset.sum_congr rfl fun q _ => congrArg (fun z => Ideal.exp (cl (ix2 r q) - z)) (hb q)
  rw [hs, mxArr_apply]
  rfl

theorem lpArr_apply (full : FVec Ideal S1024 .f32) (cl : FVec Ideal S1024x3 .f32) (r : Fin 1024) (q : Fin 3) :
    lpArr full cl (ix2 r q) = cl (ix2 r q) - full (ix1 r) :=
  congrArg (fun z => cl (ix2 r q) - z) ((bcast_cols_apply _ (ix2 r q)).trans (bcast_col_apply full (ix2 r (0 : Fin 1))))

theorem dArr_apply (s l : FVec Ideal S1024x1 .f32) (r : Fin 1024) :
    dArr s l (ix1 r) = s (ix2 r (0 : Fin 1)) - l (ix2 r (0 : Fin 1)) := by
  show shapeCast S1024 s shapeCasts_S1024x1_S1024 (ix1 r) - shapeCast S1024 l shapeCasts_S1024x1_S1024 (ix1 r) = _
  rw [cast_uncol_apply, cast_uncol_apply]

theorem n0Arr_apply (t : IVec S1024 32) (s0 : FVec Ideal S1024x1 .f32) (full : FVec Ideal S1024 .f32) (r : Fin 1024) :
    n0Arr t s0 full (ix1 r) = if BitVec.slt (t (ix1 r)) 20000#32 then -(s0 (ix2 r (0 : Fin 1)) - full (ix1 r)) else 0 := by
  show (if BitVec.ofBool ((t (ix1 r)).slt (broadcastInDim S1024 ![] bcast_S_S1024 (constantI S_ 32 20000#32) (ix1 r))) = 1#1
      then -(shapeCast S1024 s0 shapeCasts_S1024x1_S1024 (ix1 r) - full (ix1 r))
      else broadcastInDim S1024 ![] bcast_S_S1024 (constant (F := Ideal) S_ .f32 0x00000000#32) (ix1 r)) = _
  rw [broadcastInDim_scalar_apply, broadcastInDim_scalar_apply, cast_uncol_apply]
  show (if BitVec.ofBool ((t (ix1 r)).slt 20000#32) = 1#1 then -(s0 (ix2 r (0 : Fin 1)) - full (ix1 r)) else Ideal.ofBits .f32 0x00000000#32) = _
  rw [Ideal.ofBits_zero_f32]
  exact if_congr (WordArith.ofBool_eq_one_iff _) rfl rfl

theorem nkArr_apply (lo hi : BitVec 32) (off : Fin S1024x3.rank → ℕ) (q : Fin 3) (h0 : off 0 = 0) (h1 : off 1 = q.val)
    (hs : S1024x3.Slices off S1024x1) (t : IVec S1024 32) (lp : FVec Ideal S1024x3 .f32) (d prev : FVec Ideal S1024 .f32) (r : Fin 1024) :
    nkArr lo hi off hs t lp d prev (ix1 r)
      = if (BitVec.sle lo (t (ix1 r)) && BitVec.slt (t (ix1 r)) hi) then -(lp (ix2 r q) + d (ix1 r)) else prev (ix1 r) := by
  show (if IntOp.andi (BitVec.ofBool ((broadcastInDim S1024 ![] bcast_S_S1024 (constantI S_ 32 lo) (ix1 r)).sle (t (ix1 r))))
        (BitVec.ofBool ((t (ix1 r)).slt (broadcastInDim S1024 ![] bcast_S_S1024 (constantI S_ 32 hi) (ix1 r)))) = 1#1
      then -(shapeCast S1024 (extractStridedSlice S1024x1 off lp hs) shapeCasts_S1024x1_S1024 (ix1 r) + d (ix1 r))
      else prev (ix1 r)) = _
  rw [broadcastInDim_scalar_apply, broadcastInDim_scalar_apply, cast_uncol_apply, slice_col_apply off q h0 h1, WordArith.andi_ofBool]
  exact if_congr (WordArith.ofBool_eq_one_iff _) rfl rfl

section tailOps
variable (W : Valuation τ sig (Elt Ideal))

theorem t4_v54 : StableHlo.after hostOps4 W (Proc.devRef .tc main_v54) = lpArr (fullArr (W main_v12_0) (W main_v3)) (W main_v3) := by
  after_results_simp <;> rfl

theorem t4_v55 : StableHlo.after hostOps4 W (Proc.devRef .tc main_v55) = dArr (W main_v18_1) (W main_v18_0) := by
  after_results_simp <;> rfl

theorem t4_v56 : StableHlo.after hostOps4 W (Proc.devRef .tc main_v56) = dArr (W main_v24_1) (W main_v24_0) := by
  after_results_simp <;> rfl

theorem t4_v57 : StableHlo.after hostOps4 W (Proc.devRef .tc main_v57) = dArr (W main_v30_1) (W main_v30_0) := by
  after_results_simp <;> rfl

theorem t4_v59 : StableHlo.after hostOps4 W (Proc.devRef .tc main_v59)
    = cmpi .slt (W main_arg1) (broadcastInDim S1024 ![] bcast_S_S1024 (constantI S_ 32 20000#32)) := by
  after_results_simp <;> rfl

theorem t4_v60 : StableHlo.after hostOps4 W (Proc.devRef .tc main_v60)
    = Host.negf (subf (shapeCast S1024 (W main_v12_1) shapeCasts_S1024x1_S1024) (fullArr (W main_v12_0) (W main_v3))) := by
  after_results_simp <;> rfl

theorem t4_cst5 : StableHlo.after hostOps4 W (Proc.devRef .tc main_cst_5) = constant (F := Ideal) S_ .f32 0x00000000#32 := by
  after_results_simp <;> rfl

theorem t41_v61 : StableHlo.after hostOps4_1 W (Proc.devRef .tc main_v61)
    = select (W main_v59) (W main_v60) (broadcastInDim S1024 ![] bcast_S_S1024 (W main_cst_5)) := by
  after_results_simp <;> rfl

theorem t43_v71 : StableHlo.after hostOps4_3 (StableHlo.after hostOps4_2 W) (Proc.devRef .tc main_v71)
    = nkArr 20000#32 60000#32 ![0, 2] slices_S1024x3_S1024x1_0_2 (W main_arg1) (W main_v54) (W main_v55) (W main_v61) := by
  after_results_simp <;> rfl

theorem t45_v81 : StableHlo.after hostOps4_5 (StableHlo.after hostOps4_4 W) (Proc.devRef .tc main_v81)
    = nkArr 60000#32 180000#32 ![0, 1] slices_S1024x3_S1024x1_0_1 (W main_arg1) (W main_v54) (W main_v56) (W main_v71) := by
  after_results_simp <;> rfl

theorem t47_v91 : StableHlo.after hostOps4_7 (StableHlo.after hostOps4_6 W) (Proc.devRef .tc main_v91)
    = nkArr 180000#32 267735#32 ![0, 0] slices_S1024x3_S1024x1_0_0 (W main_arg1) (W main_v54) (W main_v57) (W main_v81) := by
  after_results_simp <;> rfl

end tailOps

local notation "clA" => clArr (hid m c) (Wc m c) (bc m c)
local notation "fullA" => fullArr (lse0 m c) (clArr (hid m c) (Wc m c) (bc m c))
local notation "lpA" => lpArr (fullArr (lse0 m c) (clArr (hid m c) (Wc m c) (bc m c))) (clArr (hid m c) (Wc m c) (bc m c))

theorem V8_v30_1 : (V8 m (outs m) c main_v30_1 : S1024x1.Idx → EReal) = sel3 m c := by
  unfold V8
  rw [Function.update_self]
  exact outs_v30_1 m c 8

theorem V8_v30_0 : (V8 m (outs m) c main_v30_0 : S1024x1.Idx → EReal) = lse3 m c := by
  unfold V8
  rw [Function.update_of_ne (StableHlo.devRef_ne_of_ne (show main_v30_0 ≠ main_v30_1 by decide)), Function.update_self]
  exact outs_v30_0 m c 8

theorem V8_v24_1 : (V8 m (outs m) c main_v24_1 : S1024x1.Idx → EReal) = sel2 m c := by
  rw [V8_of m (outs m) c main_v24_1 (by decide), V7_of m (outs m) c main_v24_1 (by decide)]
  unfold V6
  rw [Function.update_self]
  exact outs_v24_1 m c 6

theorem V8_v24_0 : (V8 m (outs m) c main_v24_0 : S1024x1.Idx → EReal) = lse2 m c := by
  rw [V8_of m (outs m) c main_v24_0 (by decide), V7_of m (outs m) c main_v24_0 (by decide)]
  unfold V6
  rw [Function.update_of_ne (StableHlo.devRef_ne_of_ne (show main_v24_0 ≠ main_v24_1 by decide)), Function.update_self]
  exact outs_v24_0 m c 6

theorem V8_v18_1 : (V8 m (outs m) c main_v18_1 : S1024x1.Idx → EReal) = sel1 m c := by
  rw [V8_of m (outs m) c main_v18_1 (by decide), V7_of m (outs m) c main_v18_1 (by decide), V6_of m (outs m) c main_v18_1 (by decide), V5_of m (outs m) c main_v18_1 (by decide)]
  unfold V4
  rw [Function.update_self]
  exact outs_v18_1 m c 4

theorem V8_v18_0 : (V8 m (outs m) c main_v18_0 : S1024x1.Idx → EReal) = lse1 m c := by
  rw [V8_of m (outs m) c main_v18_0 (by decide), V7_of m (outs m) c main_v18_0 (by decide), V6_of m (outs m) c main_v18_0 (by decide), V5_of m (outs m) c main_v18_0 (by decide)]
  unfold V4
  rw [Function.update_of_ne (StableHlo.devRef_ne_of_ne (show main_v18_0 ≠ main_v18_1 by decide)), Function.update_self]
  exact outs_v18_0 m c 4

theorem V8_v12_1 : (V8 m (outs m) c main_v12_1 : S1024x1.Idx → EReal) = sel0 m c := by
  rw [V8_of m (outs m) c main_v12_1 (by decide), V7_of m (outs m) c main_v12_1 (by decide), V6_of m (outs m) c main_v12_1 (by decide), V5_of m (outs m) c main_v12_1 (by decide), V4_of m (outs m) c main_v12_1 (by decide), V3_of m (outs m) c main_v12_1 (by decide)]
  unfold V2
  rw [Function.update_self]
  exact outs_v12_1 m c 2

theorem V8_v12_0 : (V8 m (outs m) c main_v12_0 : S1024x1.Idx → EReal) = lse0 m c := by
  rw [V8_of m (outs m) c main_v12_0 (by decide), V7_of m (outs m) c main_v12_0 (by decide), V6_of m (outs m) c main_v12_0 (by decide), V5_of m (outs m) c main_v12_0 (by decide), V4_of m (outs m) c main_v12_0 (by decide), V3_of m (outs m) c main_v12_0 (by decide)]
  unfold V2
  rw [Function.update_of_ne (StableHlo.devRef_ne_of_ne (show main_v12_0 ≠ main_v12_1 by decide)), Function.update_self]
  exact outs_v12_0 m c 2

theorem V8_v3 : (V8 m (outs m) c main_v3 : S1024x3.Idx → EReal) = clA := by
  rw [V8_of m (outs m) c main_v3 (by decide), V7_of m (outs m) c main_v3 (by decide), V6_of m (outs m) c main_v3 (by decide), V5_of m (outs m) c main_v3 (by decide), V4_of m (outs m) c main_v3 (by decide), V3_of m (outs m) c main_v3 (by decide), V2_of m (outs m) c main_v3 (by decide)]
  show StableHlo.after hostOps0 (V0 m c) (Proc.devRef .tc main_v3) = _
  after_results
  rfl

theorem V8_arg1 : (V8 m (outs m) c main_arg1 : S1024.Idx → BitVec 32) = tgt m c := by
  rw [V8_of m (outs m) c main_arg1 (by decide), V7_of m (outs m) c main_arg1 (by decide), V6_of m (outs m) c main_arg1 (by decide), V5_of m (outs m) c main_arg1 (by decide), V4_of m (outs m) c main_arg1 (by decide), V3_of m (outs m) c main_arg1 (by decide), V2_of m (outs m) c main_arg1 (by decide), V1_of m c main_arg1 (by decide)]

theorem V10_arg1 : (V10 m (outs m) c main_arg1 : S1024.Idx → BitVec 32) = tgt m c := by
  rw [V10_of m (outs m) c main_arg1 (by decide), V9_of m (outs m) c main_arg1 (by decide), V8_arg1]

theorem V10_v54 : (V10 m (outs m) c main_v54 : S1024x3.Idx → EReal) = lpA := by
  rw [V10_of m (outs m) c main_v54 (by decide)]
  show StableHlo.after hostOps4 (V8 m (outs m) c) (Proc.devRef .tc main_v54) = _
  rw [t4_v54, V8_v12_0, V8_v3]

theorem V10_v55 : (V10 m (outs m) c main_v55 : S1024.Idx → EReal) = dArr (sel1 m c) (lse1 m c) := by
  rw [V10_of m (outs m) c main_v55 (by decide)]
  show StableHlo.after hostOps4 (V8 m (outs m) c) (Proc.devRef .tc main_v55) = _
  rw [t4_v55, V8_v18_1, V8_v18_0]

theorem V10_v56 : (V10 m (outs m) c main_v56 : S1024.Idx → EReal) = dArr (sel2 m c) (lse2 m c) := by
  rw [V10_of m (outs m) c main_v56 (by decide)]
  show StableHlo.after hostOps4 (V8 m (outs m) c) (Proc.devRef .tc main_v56) = _
  rw [t4_v56, V8_v24_1, V8_v24_0]

theorem V10_v57 : (V10 m (outs m) c main_v57 : S1024.Idx → EReal) = dArr (sel3 m c) (lse3 m c) := by
  rw [V10_of m (outs m) c main_v57 (by decide)]
  show StableHlo.after hostOps4 (V8 m (outs m) c) (Proc.devRef .tc main_v57) = _
  rw [t4_v57, V8_v30_1, V8_v30_0]

theorem V10_v61 : (V10 m (outs m) c main_v61 : S1024.Idx → EReal) = n0Arr (tgt m c) (sel0 m c) fullA := by
  have e59 : (V9 m (outs m) c main_v59 : S1024.Idx → BitVec 1)
      = cmpi .slt (tgt m c) (broadcastInDim S1024 ![] bcast_S_S1024 (constantI S_ 32 20000#32)) := by
    show StableHlo.after hostOps4 (V8 m (outs m) c) (Proc.devRef .tc main_v59) = _
    rw [t4_v59, V8_arg1]
  have e60 : (V9 m (outs m) c main_v60 : S1024.Idx → EReal)
      = Host.negf (subf (shapeCast S1024 (sel0 m c) shapeCasts_S1024x1_S1024) fullA) := by
    show StableHlo.after hostOps4 (V8 m (outs m) c) (Proc.devRef .tc main_v60) = _
    rw [t4_v60, V8_v12_1, V8_v12_0, V8_v3]
  have ec5 : (V9 m (outs m) c main_cst_5 : S_.Idx → EReal) = constant (F := Ideal) S_ .f32 0x00000000#32 := by
    show StableHlo.after hostOps4 (V8 m (outs m) c) (Proc.devRef .tc main_cst_5) = _
    rw [t4_cst5]
  show StableHlo.after hostOps4_1 (V9 m (outs m) c) (Proc.devRef .tc main_v61) = _
  rw [t41_v61, e59, e60, ec5]
  rfl

theorem V12_v71 : (V12 m (outs m) c main_v71 : S1024.Idx → EReal)
    = nkArr 20000#32 60000#32 ![0, 2] slices_S1024x3_S1024x1_0_2 (tgt m c) lpA (dArr (sel1 m c) (lse1 m c))
        (n0Arr (tgt m c) (sel0 m c) fullA) := by
  show StableHlo.after hostOps4_3 (StableHlo.after hostOps4_2 (V10 m (outs m) c)) (Proc.devRef .tc main_v71) = _
  rw [t43_v71, V10_arg1, V10_v54, V10_v55, V10_v61]

theorem V14_v81 : (V14 m (outs m) c main_v81 : S1024.Idx → EReal)
    = nkArr 60000#32 180000#32 ![0, 1] slices_S1024x3_S1024x1_0_1 (tgt m c) lpA (dArr (sel2 m c) (lse2 m c))
        (nkArr 20000#32 60000#32 ![0, 2] slices_S1024x3_S1024x1_0_2 (tgt m c) lpA (dArr (sel1 m c) (lse1 m c))
          (n0Arr (tgt m c) (sel0 m c) fullA)) := by
  show StableHlo.after hostOps4_5 (StableHlo.after hostOps4_4 (V12 m (outs m) c)) (Proc.devRef .tc main_v81) = _
  rw [t45_v81, V12_of m (outs m) c main_arg1 (by decide), V11_of m (outs m) c main_arg1 (by decide), V10_arg1, V12_of m (outs m) c main_v54 (by decide), V11_of m (outs m) c main_v54 (by decide), V10_v54,
    V12_of m (outs m) c main_v56 (by decide), V11_of m (outs m) c main_v56 (by decide), V10_v56, V12_v71]

theorem v91_arr : (V16 m (outs m) c main_v91 : S1024.Idx → EReal)
    = nkArr 180000#32 267735#32 ![0, 0] slices_S1024x3_S1024x1_0_0 (tgt m c) lpA (dArr (sel3 m c) (lse3 m c))
        (nkArr 60000#32 180000#32 ![0, 1] slices_S1024x3_S1024x1_0_1 (tgt m c) lpA (dArr (sel2 m c) (lse2 m c))
          (nkArr 20000#32 60000#32 ![0, 2] slices_S1024x3_S1024x1_0_2 (tgt m c) lpA (dArr (sel1 m c) (lse1 m c))
            (n0Arr (tgt m c) (sel0 m c) fullA))) := by
  show StableHlo.after hostOps4_7 (StableHlo.after hostOps4_6 (V14 m (outs m) c)) (Proc.devRef .tc main_v91) = _
  rw [t47_v91, V14_of m (outs m) c main_arg1 (by decide), V13_of m (outs m) c main_arg1 (by decide), V12_of m (outs m) c main_arg1 (by decide), V11_of m (outs m) c main_arg1 (by decide), V10_arg1, V14_of m (outs m) c main_v54 (by decide), V13_of m (outs m) c main_v54 (by decide), V12_of m (outs m) c main_v54 (by decide), V11_of m (outs m) c main_v54 (by decide), V10_v54,
    V14_of m (outs m) c main_v57 (by decide), V13_of m (outs m) c main_v57 (by decide), V12_of m (outs m) c main_v57 (by decide), V11_of m (outs m) c main_v57 (by decide), V10_v57, V14_v81]

theorem v91_eq : (V16 m (outs m) c main_v91 : S1024.Idx → EReal) =
    Cert.Spec.nllKArr (hid m c) (tgt m c) (Wh m c) (bh m c) (Wc m c) (bc m c) (Wp1 m c) (Wt1 m c) (bt1 m c)
      (Wp2 m c) (Wt2 m c) (bt2 m c) (Wp3 m c) (Wt3 m c) (bt3 m c) := by
  funext j
  obtain ⟨r, rfl⟩ : ∃ r, j = ix1 r := ⟨j 0, eq_ix1 j⟩
  have hcl : (fun q : Fin 3 => clA (ix2 r q)) = Spec.cl (Spec.row (hid m c) r) (Spec.mat (Wc m c)) (Spec.vec (bc m c)) :=
    funext fun q => clArr_apply (hid m c) (Wc m c) (bc m c) r q
  rw [v91_arr, nkArr_apply _ _ _ 0 rfl rfl, nkArr_apply _ _ _ 1 rfl rfl, nkArr_apply _ _ _ 2 rfl rfl, n0Arr_apply,
    lpArr_apply, lpArr_apply, lpArr_apply, dArr_apply, dArr_apply, dArr_apply, fullArr_apply, hcl,
    clArr_apply, clArr_apply, clArr_apply]
  rfl

end Cert.Proof.KHost

end
-- ==== Proof.KRegion0.lean ====
import proofs.«407035_j66254165508793_2_alg».proof.Proof.Gen.KernelIdeal.Regions
import proofs.«407035_j66254165508793_2_alg».proof.Proof.Gen.KernelIdeal.Points
import proofs.«407035_j66254165508793_2_alg».proof.Proof.Gen.KernelIdeal.Skeleton
import proofs.«407035_j66254165508793_2_alg».proof.Proof.Spec
import proofs.«407035_j66254165508793_2_alg».proof.Proof.KOuts
import proofs.«407035_j66254165508793_2_alg».proof.Proof.KBody0
import proofs.«407035_j66254165508793_2_alg».proof.Proof.KRuns0
import proofs.«407035_j66254165508793_2_alg».proof.Proof.KHost
import Idealize.ShloMosaic.Lib.Pipeline.Kit
import Idealize.ShloMosaic.Lib.Pipeline.FrameBody
import Idealize.ShloMosaic.Lib.Pipeline.Value
import Idealize.ShloMosaic.Lib.Pipeline.RegionsLoop
import Idealize.ShloMosaic.Lib.Tactic

set_option quotPrecheck false
set_option maxRecDepth 16384

noncomputable section

namespace Cert.Proof.KRegion0

open Cert.KernelIdeal Cert.KernelIdeal.Gen Cert.Proof.KOuts Cert.Proof.KBody0 Cert.Proof.KRuns0 Cert.Proof.KHost
open Idealize.ShloMosaic Idealize.ShloMosaic.TcCoe Idealize.ShloMosaic.Tactic ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ UU ℕ

variable (m : (ℓ : Loc nD τ sig) → Buf (Elt Ideal) ℓ)

theorem coords_t : ∀ t : Fin cfg0.N, ((grid0.coords t) 1).val = t.val % 10 ∧ ((grid0.coords t) 0).val = t.val / 10 :=
  (by decide +kernel : ∀ t : Fin grid0.N, ((grid0.coords t) 1).val = t.val % 10 ∧ ((grid0.coords t) 0).val = t.val / 10)

def rowOf (rb : ℕ) (p : Fin 512) : Fin 1024 :=
  ⟨(rb % (2)) * 512 + p.val, by have := p.isLt; have := Nat.mod_lt rb (show (2) > 0 by decide); omega⟩

def onl (c : Dev nD) (r : Fin 1024) (k : ℕ) : EReal × EReal × EReal :=
  Spec.online 2048 20000 (X0r m c r) (tr m c r - 0#32) k

def scrM (c : Dev nD) (rb k : ℕ) : Vec Ideal S512x1 .f32 := fun y => (onl m c (rowOf rb (y 0)) k).1
def scrL (c : Dev nD) (rb k : ℕ) : Vec Ideal S512x1 .f32 := fun y => (onl m c (rowOf rb (y 0)) k).2.1
def scrS (c : Dev nD) (rb k : ℕ) : Vec Ideal S512x1 .f32 := fun y => (onl m c (rowOf rb (y 0)) k).2.2

abbrev scM0 : Memref sig .tc .vmem S512x1 .f32 := Memref.whole cc0_scratch0
abbrev scM1 : Memref sig .tc .vmem S512x1 .f32 := Memref.whole cc0_scratch1
abbrev scM2 : Memref sig .tc .vmem S512x1 .f32 := Memref.whole cc0_scratch2

def Phi (c : Dev nD) (n : ℕ) : sProp 𝕄 :=
  if n % 10 = 0 then Pipeline.scopedRest (Ix := Unit) (Name := ℕ) (U := UU) (Lvl := ℕ) (Val := Elt Ideal) spec0 c
  else
    iprop(iprop(owns (c : Thread nD τ) scM0 fullShare (scrM m c ((n - 1) / 10) (n % 10))
        ∗ owns (c : Thread nD τ) scM1 fullShare (scrL m c ((n - 1) / 10) (n % 10))
        ∗ owns (c : Thread nD τ) scM2 fullShare (scrS m c ((n - 1) / 10) (n % 10)))
      ∗ Pipeline.scopedRestBut (Ix := Unit) (Name := ℕ) (U := UU) (Lvl := ℕ) (Val := Elt Ideal) spec0 c [cc0_scratch0, cc0_scratch1, cc0_scratch2])

def arb {S : Shape} {e : EltTy} : S.Idx → Elt Ideal e := fun _ => Classical.arbitrary _

def dat (c : Dev nD) : Dat τ (Elt Ideal) Unit ℕ UU ℕ cfg0 c where
  A w := V1 m c (Pipeline.arrRef spec0 w)
  after w t := match w with
    | ⟨0, h⟩ => (cfg0.win ⟨0, h⟩).fill (grid0.coords t) arb (((cfg0.win ⟨0, h⟩).blk t).view.read (Elt Ideal) (V1 m c (Pipeline.arrRef spec0 ⟨0, h⟩)))
    | ⟨1, h⟩ => (cfg0.win ⟨1, h⟩).fill (grid0.coords t) arb (((cfg0.win ⟨1, h⟩).blk t).view.read (Elt Ideal) (V1 m c (Pipeline.arrRef spec0 ⟨1, h⟩)))
    | ⟨2, h⟩ => (cfg0.win ⟨2, h⟩).fill (grid0.coords t) arb (((cfg0.win ⟨2, h⟩).blk t).view.read (Elt Ideal) (V1 m c (Pipeline.arrRef spec0 ⟨2, h⟩)))
    | ⟨3, h⟩ => (cfg0.win ⟨3, h⟩).fill (grid0.coords t) arb (((cfg0.win ⟨3, h⟩).blk t).view.read (Elt Ideal) (V1 m c (Pipeline.arrRef spec0 ⟨3, h⟩)))
    | ⟨4, h⟩ => (cfg0.win ⟨4, h⟩).fill (grid0.coords t) arb (((cfg0.win ⟨4, h⟩).blk t).view.read (Elt Ideal) (lse0 m c))
    | ⟨5, h⟩ => (cfg0.win ⟨5, h⟩).fill (grid0.coords t) arb (((cfg0.win ⟨5, h⟩).blk t).view.read (Elt Ideal) (sel0 m c))
  Φ t := Phi m c t.val
  q _ := fullShare
  owed _ := 0

theorem A_eq (c : Dev nD) (w : Fin cfg0.W) : (dat m c).A w = V1 m c (Pipeline.arrRef spec0 w) := by dsimp only [dat]

abbrev blkOf (c : Dev nD) (w : Fin cfg0.W) (t : Fin cfg0.N) : ((cfg0.win w).xblock (grid0.coords t)).Idx → Elt Ideal (cfg0.win w).elt :=
  ((cfg0.win w).blk t).view.read (Elt Ideal) (V1 m c (Pipeline.arrRef spec0 w))

theorem before0 (c : Dev nD) (t : Fin cfg0.N) (d) :
    (dat m c).before 0 t d = (cfg0.win 0).fill (grid0.coords t) d (blkOf m c 0 t) :=
  ((dat m c).before_in_eq_fetched 0 rfl (fun _ => rfl) (fun _ _ _ => rfl)
    (fun t => by dsimp only [dat]; exact (cfg0.win 0).cut_fill _ _ _) t d).trans (by unfold Dat.fetched Dat.blockOf; dsimp only [dat])
theorem before3 (c : Dev nD) (t : Fin cfg0.N) (d) :
    (dat m c).before 3 t d = (cfg0.win 3).fill (grid0.coords t) d (blkOf m c 3 t) :=
  ((dat m c).before_in_eq_fetched 3 rfl (fun _ => rfl) (fun _ _ _ => rfl)
    (fun t => by dsimp only [dat]; exact (cfg0.win 3).cut_fill _ _ _) t d).trans (by unfold Dat.fetched Dat.blockOf; dsimp only [dat])
theorem before1 (c : Dev nD) (t : Fin cfg0.N) (d) :
    (dat m c).before 1 t d = (cfg0.win 1).fill (grid0.coords t) d (blkOf m c 1 t) := by
  unfold Dat.before; rw [if_pos (fetch0_1 t)]; unfold Dat.fetched Dat.blockOf; dsimp only [dat]
theorem before2 (c : Dev nD) (t : Fin cfg0.N) (d) :
    (dat m c).before 2 t d = (cfg0.win 2).fill (grid0.coords t) d (blkOf m c 2 t) := by
  unfold Dat.before; rw [if_pos (fetch0_2 t)]; unfold Dat.fetched Dat.blockOf; dsimp only [dat]

theorem index0 : ∀ t : Fin cfg0.N, win0_0.index t 0 = t.val / 10 ∧ win0_0.index t 1 = 0 :=
  (by decide +kernel : ∀ t : Fin grid0.N, win0_0.index t 0 = t.val / 10 ∧ win0_0.index t 1 = 0)
theorem index1 : ∀ t : Fin cfg0.N, win0_1.index t 0 = 0 ∧ win0_1.index t 1 = t.val % 10 :=
  (by decide +kernel : ∀ t : Fin grid0.N, win0_1.index t 0 = 0 ∧ win0_1.index t 1 = t.val % 10)
theorem index2 : ∀ t : Fin cfg0.N, win0_2.index t 0 = 0 ∧ win0_2.index t 1 = t.val % 10 :=
  (by decide +kernel : ∀ t : Fin grid0.N, win0_2.index t 0 = 0 ∧ win0_2.index t 1 = t.val % 10)
theorem index3 : ∀ t : Fin cfg0.N, win0_3.index t 0 = t.val / 10 ∧ win0_3.index t 1 = 0 :=
  (by decide +kernel : ∀ t : Fin grid0.N, win0_3.index t 0 = t.val / 10 ∧ win0_3.index t 1 = 0)
theorem index4 : ∀ t : Fin cfg0.N, win0_4.index t 0 = t.val / 10 ∧ win0_4.index t 1 = 0 :=
  (by decide +kernel : ∀ t : Fin grid0.N, win0_4.index t 0 = t.val / 10 ∧ win0_4.index t 1 = 0)
theorem index5 : ∀ t : Fin cfg0.N, win0_5.index t 0 = t.val / 10 ∧ win0_5.index t 1 = 0 :=
  (by decide +kernel : ∀ t : Fin grid0.N, win0_5.index t 0 = t.val / 10 ∧ win0_5.index t 1 = 0)
theorem xsize1 : ∀ t : Fin cfg0.N, win0_1.xsize (grid0.coords t) 0 = (1024) ∧ win0_1.xsize (grid0.coords t) 1 = min 2048 (20000 - (t.val % 10) * 2048) :=
  (by decide +kernel : ∀ t : Fin grid0.N, win0_1.xsize (grid0.coords t) 0 = (1024) ∧ win0_1.xsize (grid0.coords t) 1 = min 2048 (20000 - (t.val % 10) * 2048))
theorem xsize2 : ∀ t : Fin cfg0.N, win0_2.xsize (grid0.coords t) 0 = 1 ∧ win0_2.xsize (grid0.coords t) 1 = min 2048 (20000 - (t.val % 10) * 2048) :=
  (by decide +kernel : ∀ t : Fin grid0.N, win0_2.xsize (grid0.coords t) 0 = 1 ∧ win0_2.xsize (grid0.coords t) 1 = min 2048 (20000 - (t.val % 10) * 2048))

theorem rowOf_t (t : Fin cfg0.N) (p : Fin 512) : (rowOf (t.val / 10) p).val = (t.val / 10) * 512 + p.val := by
  have := t.isLt; have h : cfg0.N = 20 := N_0; unfold rowOf; show ((t.val / 10) % (2)) * 512 + p.val = _; omega

theorem Wst_apply (c : Dev nD) (t : Fin cfg0.N) (d) (kk : Fin (1024)) (j : Fin 2048) (h : ((grid0.coords t) 1).val * 2048 + j.val < 20000) :
    (cfg0.win 1).fill (grid0.coords t) d (blkOf m c 1 t) (ix2 kk j)
      = (V1 m c main_arg2 : S1024x20000.Idx → EReal) (ix2 kk ⟨((grid0.coords t) 1).val * 2048 + j.val, h⟩) := by
  have hk := (coords_t t).1
  have hm : (cfg0.win 1).moved (grid0.coords t) (ix2 kk j) = true := ((cfg0.win 1).moved_iff _ _).mpr fun a => by
    match a with
    | ⟨0, _⟩ => show kk.val < win0_1.xsize (grid0.coords t) 0; rw [(xsize1 t).1]; exact kk.isLt
    | ⟨1, _⟩ => show j.val < win0_1.xsize (grid0.coords t) 1; rw [(xsize1 t).2]; have := j.isLt; omega
  unfold Window.fill; rw [dif_pos hm]
  show V1 m c main_arg2 (((cfg0.win 1).blk t).view.emb _) = _
  congr 1; funext a; apply Fin.ext
  match a with
  | ⟨0, _⟩ => show win0_1.index t 0 * (1024) + 1 * kk.val = kk.val; rw [(index1 t).1]; omega
  | ⟨1, _⟩ => show win0_1.index t 1 * 2048 + 1 * j.val = ((grid0.coords t) 1).val * 2048 + j.val; rw [(index1 t).2]; omega

theorem bst_apply (c : Dev nD) (t : Fin cfg0.N) (d) (j : Fin 2048) (h : ((grid0.coords t) 1).val * 2048 + j.val < 20000) :
    (cfg0.win 2).fill (grid0.coords t) d (blkOf m c 2 t) (ix2 0 j)
      = (V1 m c main_v10 : S1x20000.Idx → EReal) (ix2 0 ⟨((grid0.coords t) 1).val * 2048 + j.val, h⟩) := by
  have hk := (coords_t t).1
  have hm : (cfg0.win 2).moved (grid0.coords t) (ix2 0 j) = true := ((cfg0.win 2).moved_iff _ _).mpr fun a => by
    match a with
    | ⟨0, _⟩ => show 0 < win0_2.xsize (grid0.coords t) 0; rw [(xsize2 t).1]; decide
    | ⟨1, _⟩ => show j.val < win0_2.xsize (grid0.coords t) 1; rw [(xsize2 t).2]; have := j.isLt; omega
  unfold Window.fill; rw [dif_pos hm]
  show V1 m c main_v10 (((cfg0.win 2).blk t).view.emb _) = _
  congr 1; funext a; apply Fin.ext
  match a with
  | ⟨0, _⟩ => show win0_2.index t 0 * 1 + 1 * 0 = 0; rw [(index2 t).1]
  | ⟨1, _⟩ => show win0_2.index t 1 * 2048 + 1 * j.val = ((grid0.coords t) 1).val * 2048 + j.val; rw [(index2 t).2]; omega

theorem xst_apply (c : Dev nD) (t : Fin cfg0.N) (d) (p : Fin 512) (kk : Fin (1024)) :
    (cfg0.win 0).fill (grid0.coords t) d (blkOf m c 0 t) (ix2 p kk)
      = (V1 m c main_v9 : S1024x1024.Idx → EReal) (ix2 (rowOf (t.val / 10) p) kk) := by
  have hm : (cfg0.win 0).moved (grid0.coords t) (ix2 p kk) = true := ((cfg0.win 0).moved_iff _ _).mpr fun a => by
    match a with
    | ⟨0, _⟩ => exact p.isLt
    | ⟨1, _⟩ => exact kk.isLt
  unfold Window.fill; rw [dif_pos hm]
  show V1 m c main_v9 (((cfg0.win 0).blk t).view.emb _) = _
  congr 1; funext a; apply Fin.ext
  match a with
  | ⟨0, _⟩ => show win0_0.index t 0 * 512 + 1 * p.val = (rowOf (t.val / 10) p).val; rw [(index0 t).1, rowOf_t]; omega
  | ⟨1, _⟩ => show win0_0.index t 1 * (1024) + 1 * kk.val = kk.val; rw [(index0 t).2]; omega

theorem tst_apply (c : Dev nD) (t : Fin cfg0.N) (d) (p : Fin 512) :
    (cfg0.win 3).fill (grid0.coords t) d (blkOf m c 3 t) (ix2 p 0)
      = (V1 m c main_v11 : S1024x1.Idx → BitVec 32) (ix2 (rowOf (t.val / 10) p) 0) := by
  have hm : (cfg0.win 3).moved (grid0.coords t) (ix2 p 0) = true := ((cfg0.win 3).moved_iff _ _).mpr fun a => by
    match a with
    | ⟨0, _⟩ => exact p.isLt
    | ⟨1, _⟩ => exact (by decide : (0 : ℕ) < 1)
  unfold Window.fill; rw [dif_pos hm]
  show V1 m c main_v11 (((cfg0.win 3).blk t).view.emb _) = _
  congr 1; funext a; apply Fin.ext
  match a with
  | ⟨0, _⟩ => show win0_3.index t 0 * 512 + 1 * p.val = (rowOf (t.val / 10) p).val; rw [(index3 t).1, rowOf_t]; omega
  | ⟨1, _⟩ => show win0_3.index t 1 * 1 + 1 * 0 = 0; rw [(index3 t).2]

abbrev HX (i : grid0.Coords) (W : Vec Ideal S1024x2048 .f32) (x : Vec Ideal S512x1024 .bf16) (b : Vec Ideal S1x2048 .f32) (p : Fin 512) (Xp : Fin 20000 → EReal) : Prop :=
  ∀ (j : Fin 2048) (h : (i 1).val * 2048 + j.val < 20000), (∑ kk : Fin (1024), x (ix2 p kk) * W (ix2 kk j)) + b (ix2 0 j) = Xp ⟨(i 1).val * 2048 + j.val, h⟩

section step
variable (c : Dev nD) (t : Fin cfg0.N) (d0 : (cfg0.win 0).block.Idx → Elt Ideal (cfg0.win 0).elt) (d1 : (cfg0.win 1).block.Idx → Elt Ideal (cfg0.win 1).elt)
  (d2 : (cfg0.win 2).block.Idx → Elt Ideal (cfg0.win 2).elt) (d3 : (cfg0.win 3).block.Idx → Elt Ideal (cfg0.win 3).elt)

local notation "xst" => (Window.fill (cfg0.win 0) (grid0.coords t) d0 (blkOf m c 0 t) : Vec Ideal S512x1024 .bf16)
local notation "Wst" => (Window.fill (cfg0.win 1) (grid0.coords t) d1 (blkOf m c 1 t) : Vec Ideal S1024x2048 .f32)
local notation "bst" => (Window.fill (cfg0.win 2) (grid0.coords t) d2 (blkOf m c 2 t) : Vec Ideal S1x2048 .f32)
local notation "tst" => (Window.fill (cfg0.win 3) (grid0.coords t) d3 (blkOf m c 3 t) : Vec Ideal S512x1 .i32)

theorem hX0 (p : Fin 512) : HX (grid0.coords t) Wst xst bst p (X0r m c (rowOf (t.val / 10) p)) := by
  intro j h
  simp only [xst_apply m c t d0 p, Wst_apply m c t d1 _ j h, bst_apply m c t d2 j h]
  rw [in0_x, in0_W, in0_b]
  rfl

theorem st_eq (p : Fin 512) (k : ℕ) (hk : ((grid0.coords t) 1).val = k) :
    st (grid0.coords t) tst (scrM m c (t.val / 10) k) (scrL m c (t.val / 10) k) (scrS m c (t.val / 10) k) p (X0r m c (rowOf (t.val / 10) p))
      = onl m c (rowOf (t.val / 10) p) (k + 1) := by
  subst hk
  unfold st
  rw [tst_apply, in0_t]
  rfl
end step

theorem hfirst : ∀ t : Fin cfg0.N, cond0_first (grid0.coords t) ↔ t.val % 10 = 0 :=
  (by decide +kernel : ∀ t : Fin grid0.N, cond0_first (grid0.coords t) ↔ t.val % 10 = 0)
theorem hlast : ∀ t : Fin cfg0.N, k0_cond2 (grid0.coords t) = 1#1 ↔ t.val % 10 = 9 :=
  (by decide +kernel : ∀ t : Fin grid0.N, k0_cond2 (grid0.coords t) = 1#1 ↔ t.val % 10 = 9)
theorem idle4 : ∀ t : Fin cfg0.N, cfg0.idle 4 (grid0.coords t) = !decide (t.val % 10 = 9) :=
  (by decide +kernel : ∀ t : Fin grid0.N, cfg0.idle 4 (grid0.coords t) = !decide (t.val % 10 = 9))
theorem idle5 : ∀ t : Fin cfg0.N, cfg0.idle 5 (grid0.coords t) = !decide (t.val % 10 = 9) :=
  (by decide +kernel : ∀ t : Fin grid0.N, cfg0.idle 5 (grid0.coords t) = !decide (t.val % 10 = 9))

theorem Phi_edge (c : Dev nD) (n : ℕ) (h : n % 10 = 0) :
    Phi m c n = Pipeline.scopedRest (Ix := Unit) (Name := ℕ) (U := UU) (Lvl := ℕ) (Val := Elt Ideal) spec0 c := by
  unfold Phi; rw [if_pos h]
theorem Phi_mid (c : Dev nD) (n : ℕ) (h : ¬n % 10 = 0) :
    Phi m c n = iprop(iprop(owns (c : Thread nD τ) scM0 fullShare (scrM m c ((n - 1) / 10) (n % 10))
        ∗ owns (c : Thread nD τ) scM1 fullShare (scrL m c ((n - 1) / 10) (n % 10))
        ∗ owns (c : Thread nD τ) scM2 fullShare (scrS m c ((n - 1) / 10) (n % 10)))
      ∗ Pipeline.scopedRestBut (Ix := Unit) (Name := ℕ) (U := UU) (Lvl := ℕ) (Val := Elt Ideal) spec0 c [cc0_scratch0, cc0_scratch1, cc0_scratch2]) := by
  unfold Phi; rw [if_neg h]

def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d)))

def bodyPost (c : Dev nD) (t : Fin cfg0.N) : sProp 𝕄 :=
  iprop((dat m c).Φ t.succ ∗ (dat m c).owesAt () t.succ
    ∗ (dat m c).leaves 0 t ∗ (dat m c).leaves 1 t ∗ (dat m c).leaves 2 t ∗ (dat m c).leaves 3 t ∗ (dat m c).leaves 4 t ∗ (dat m c).leaves 5 t)

theorem leaves0 (c : Dev nD) (t : Fin cfg0.N) : (dat m c).leaves 0 t = owns (c : Thread nD τ) (st0_0 t) fullShare ((dat m c).after 0 t) := rfl
theorem leaves3 (c : Dev nD) (t : Fin cfg0.N) : (dat m c).leaves 3 t = owns (c : Thread nD τ) (st0_3 t) fullShare ((dat m c).after 3 t) := rfl
theorem leaves1 (c : Dev nD) (t : Fin cfg0.N) : (dat m c).leaves 1 t
    = iprop(∃ d, owns (c : Thread nD τ) (st0_1 t) fullShare ((cfg0.win 1).fill (grid0.coords t) d ((cfg0.win 1).cut (grid0.coords t) ((dat m c).after 1 t)))) := rfl
theorem leaves2 (c : Dev nD) (t : Fin cfg0.N) : (dat m c).leaves 2 t
    = iprop(∃ d, owns (c : Thread nD τ) (st0_2 t) fullShare ((cfg0.win 2).fill (grid0.coords t) d ((cfg0.win 2).cut (grid0.coords t) ((dat m c).after 2 t)))) := rfl
theorem leaves4_live (c : Dev nD) (t : Fin cfg0.N) (h : t.val % 10 = 9) :
    (dat m c).leaves 4 t = owns (c : Thread nD τ) (st0_4 t) fullShare ((dat m c).after 4 t) := by
  unfold Dat.leaves; rw [show cfg0.idle 4 (cfg0.grid.coords t) = false from by rw [idle4 t, decide_eq_true h]; rfl]
theorem leaves5_live (c : Dev nD) (t : Fin cfg0.N) (h : t.val % 10 = 9) :
    (dat m c).leaves 5 t = owns (c : Thread nD τ) (st0_5 t) fullShare ((dat m c).after 5 t) := by
  unfold Dat.leaves; rw [show cfg0.idle 5 (cfg0.grid.coords t) = false from by rw [idle5 t, decide_eq_true h]; rfl]
theorem leaves4_idle (c : Dev nD) (t : Fin cfg0.N) (h : ¬t.val % 10 = 9) :
    (dat m c).leaves 4 t = iprop(∃ d, owns (c : Thread nD τ) (st0_4 t) fullShare ((dat m c).before 4 t d)) :=
  (dat m c).leaves_idle 4 t (by rw [idle4 t, decide_eq_false h]; rfl) (by rw [Bool.eq_false_iff]; exact fun hf => h ((flush0_4 t).mp hf))
theorem leaves5_idle (c : Dev nD) (t : Fin cfg0.N) (h : ¬t.val % 10 = 9) :
    (dat m c).leaves 5 t = iprop(∃ d, owns (c : Thread nD τ) (st0_5 t) fullShare ((dat m c).before 5 t d)) :=
  (dat m c).leaves_idle 5 t (by rw [idle5 t, decide_eq_false h]; rfl) (by rw [Bool.eq_false_iff]; exact fun hf => h ((flush0_5 t).mp hf))

theorem after0 (c : Dev nD) (t : Fin cfg0.N) : (dat m c).after 0 t = (cfg0.win 0).fill (grid0.coords t) arb (blkOf m c 0 t) := by dsimp only [dat]
theorem after1 (c : Dev nD) (t : Fin cfg0.N) : (dat m c).after 1 t = (cfg0.win 1).fill (grid0.coords t) arb (blkOf m c 1 t) := by dsimp only [dat]
theorem after2 (c : Dev nD) (t : Fin cfg0.N) : (dat m c).after 2 t = (cfg0.win 2).fill (grid0.coords t) arb (blkOf m c 2 t) := by dsimp only [dat]
theorem after3 (c : Dev nD) (t : Fin cfg0.N) : (dat m c).after 3 t = (cfg0.win 3).fill (grid0.coords t) arb (blkOf m c 3 t) := by dsimp only [dat]
theorem after4 (c : Dev nD) (t : Fin cfg0.N) : (dat m c).after 4 t = (cfg0.win 4).fill (grid0.coords t) arb (((cfg0.win 4).blk t).view.read (Elt Ideal) (lse0 m c)) := by dsimp only [dat]
theorem after5 (c : Dev nD) (t : Fin cfg0.N) : (dat m c).after 5 t = (cfg0.win 5).fill (grid0.coords t) arb (((cfg0.win 5).blk t).view.read (Elt Ideal) (sel0 m c)) := by dsimp only [dat]

theorem fill0_irrel (c : Dev nD) (t : Fin cfg0.N) (d d') : (cfg0.win 0).fill (grid0.coords t) d (blkOf m c 0 t) = (cfg0.win 0).fill (grid0.coords t) d' (blkOf m c 0 t) := by
  funext j
  have hm : (cfg0.win 0).moved (grid0.coords t) j = true := ((cfg0.win 0).moved_iff _ _).mpr fun a => (j a).isLt
  unfold Window.fill; rw [dif_pos hm, dif_pos hm]
theorem fill3_irrel (c : Dev nD) (t : Fin cfg0.N) (d d') : (cfg0.win 3).fill (grid0.coords t) d (blkOf m c 3 t) = (cfg0.win 3).fill (grid0.coords t) d' (blkOf m c 3 t) := by
  funext j
  have hm : (cfg0.win 3).moved (grid0.coords t) j = true := ((cfg0.win 3).moved_iff _ _).mpr fun a => (j a).isLt
  unfold Window.fill; rw [dif_pos hm, dif_pos hm]

theorem Phi_cast (c : Dev nD) (t : Fin cfg0.N) : (dat m c).Φ t.castSucc = Phi m c t.val := by dsimp only [dat]; simp only [Fin.coe_castSucc]
theorem Phi_succ (c : Dev nD) (t : Fin cfg0.N) : (dat m c).Φ t.succ = Phi m c (t.val + 1) := by dsimp only [dat]; simp only [Fin.val_succ]

section newscratch
variable (c : Dev nD) (t : Fin cfg0.N) (d0 : (cfg0.win 0).block.Idx → Elt Ideal (cfg0.win 0).elt) (d1 : (cfg0.win 1).block.Idx → Elt Ideal (cfg0.win 1).elt)
  (d2 : (cfg0.win 2).block.Idx → Elt Ideal (cfg0.win 2).elt) (d3 : (cfg0.win 3).block.Idx → Elt Ideal (cfg0.win 3).elt)
local notation "xst" => (Window.fill (cfg0.win 0) (grid0.coords t) d0 (blkOf m c 0 t) : Vec Ideal S512x1024 .bf16)
local notation "Wst" => (Window.fill (cfg0.win 1) (grid0.coords t) d1 (blkOf m c 1 t) : Vec Ideal S1024x2048 .f32)
local notation "bst" => (Window.fill (cfg0.win 2) (grid0.coords t) d2 (blkOf m c 2 t) : Vec Ideal S1x2048 .f32)
local notation "tst" => (Window.fill (cfg0.win 3) (grid0.coords t) d3 (blkOf m c 3 t) : Vec Ideal S512x1 .i32)

omit m in
theorem row_idx (y : S512x1.Idx) : ∃ p : Fin 512, y = ix2 p 0 :=
  ⟨y 0, funext fun a => by
    match a with
    | ⟨0, _⟩ => rfl
    | ⟨1, _⟩ => exact Fin.ext (by have h : (y 1).val < 1 := (y 1).isLt; show (y 1).val = 0; omega)⟩

include d3 in
theorem newM (k : ℕ) (hk : ((grid0.coords t) 1).val = k) :
    k0_pay2 (k0_pay10 (F := Ideal) (grid0.coords t) Wst xst bst (scrM m c (t.val / 10) k)) = scrM m c (t.val / 10) (k + 1) := by
  rw [pay2_eq]; funext y; obtain ⟨p, rfl⟩ := row_idx y
  refine (pay10_row (grid0.coords t) Wst xst bst tst (scrM m c (t.val / 10) k) (scrL m c (t.val / 10) k) (scrS m c (t.val / 10) k) p _ (hX0 m c t d0 d1 d2 p)).trans ?_
  rw [st_eq m c t d3 p k hk]; rfl
include d3 in
theorem newL (k : ℕ) (hk : ((grid0.coords t) 1).val = k) :
    k0_pay1 (k0_pay11 (F := Ideal) (grid0.coords t) Wst xst bst (scrM m c (t.val / 10) k) (scrM m c (t.val / 10) k) (scrL m c (t.val / 10) k)) = scrL m c (t.val / 10) (k + 1) := by
  rw [pay1_eq]; funext y; obtain ⟨p, rfl⟩ := row_idx y
  refine (pay11_row (grid0.coords t) Wst xst bst tst (scrM m c (t.val / 10) k) (scrL m c (t.val / 10) k) (scrS m c (t.val / 10) k) p _ (hX0 m c t d0 d1 d2 p)).trans ?_
  rw [st_eq m c t d3 p k hk]; rfl
theorem newS (k : ℕ) (hk : ((grid0.coords t) 1).val = k) :
    k0_pay3 (F := Ideal) (Scalar.muli (BitVec.ofNat 32 ((grid0.coords t) 1).val) 2048#32) (iota .tc S512x2048 32 [1] iota_S512x2048_d1_w32) (k0_pay8 (grid0.coords t)) (k0_pay9 (grid0.coords t) Wst xst bst) tst (scrS m c (t.val / 10) k) = scrS m c (t.val / 10) (k + 1) := by
  funext y; obtain ⟨p, rfl⟩ := row_idx y
  refine (pay3_row (grid0.coords t) Wst xst bst tst (scrM m c (t.val / 10) k) (scrL m c (t.val / 10) k) (scrS m c (t.val / 10) k) p _ (hX0 m c t d0 d1 d2 p)).trans ?_
  rw [st_eq m c t d3 p k hk]; rfl
end newscratch

set_option maxHeartbeats 1600000 in

theorem sound_B (c : Dev nD) (t : Fin cfg0.N) (h0 : ¬t.val % 10 = 0) (h9 : ¬t.val % 10 = 9) :
    bodyPre m c t ⊢ wp frame (wpE (defs₀ (F := Ideal)) Variants.none c none) Set.univ (bodyAt0 t) (fun _ => bodyPost m c t) := by
  unfold bodyPre bodyPost
  have hk := (coords_t t).1
  have e1 : (t.val - 1) / 10 = t.val / 10 := by omega
  have e2 : (t.val + 1 - 1) / 10 = t.val / 10 := by omega
  have e3 : (t.val + 1) % 10 = t.val % 10 + 1 := by omega
  rw [Phi_cast, Phi_succ, Phi_mid m c t.val h0, Phi_mid m c (t.val + 1) (by omega), e1, e2, e3,
    show (dat m c).owesAt () t.succ = (dat m c).owesAt () t.castSucc from rfl,
    leaves0, leaves1, leaves2, leaves3, leaves4_idle m c t h9, leaves5_idle m c t h9,
    after0, after1, after2, after3, Window.cut_fill, Window.cut_fill]
  simp only [before0, before1, before2, before3]
  iintro ⟨⟨⟨HM, HL, HS⟩, Hrest⟩, Ho, ⟨%d0, H0⟩, ⟨%d1, H1⟩, ⟨%d2, H2⟩, ⟨%d3, H3⟩, ⟨%d4, H4⟩, ⟨%d5, H5⟩⟩
  iapply (run0_B c (grid0.coords t) _ _ _ _ _ _ _ _ _ _ _ _ _ _ _ _ _ _ (fun h => h0 ((hfirst t).mp h)) (fun h => h9 ((hlast t).mp h))
    _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HM]; · iexact HM
  isplitl [HL]; · iexact HL
  isplitl [HS]; · iexact HS
  iintro ⟨H0, H1, H2, H3, H4, H5, HM, HL, HS⟩
  rw [newM m c t d0 d1 d2 d3 _ hk, newL m c t d0 d1 d2 d3 _ hk, newS m c t d0 d1 d2 d3 _ hk]
  isplitl [HM HL HS Hrest]
  · isplitr [Hrest]
    · isplitl [HM]; · iexact HM
      isplitl [HL]; · iexact HL
      iexact HS
    · iexact Hrest
  isplitl [Ho]; · iexact Ho
  isplitl [H0]; · rw [fill0_irrel m c t arb d0]; iexact H0
  isplitl [H1]; · iexists d1; iexact H1
  isplitl [H2]; · iexists d2; iexact H2
  isplitl [H3]; · rw [fill3_irrel m c t arb d3]; iexact H3
  isplitl [H4]; · iexists d4; iexact H4
  iexists d5; iexact H5

theorem final_in (c : Dev nD) (w : Fin cfg0.W) (hw : (cfg0.win w).isOut = false) :
    (dat m c).arrAt w cfg0.N = V1 m c (Pipeline.arrRef spec0 w) := ((dat m c).arrAt_in w hw _).trans (A_eq m c w)

theorem mem_blk4 (t : Fin cfg0.N) (i : S1024x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v12_0).slice (win0_4.rect t)).set ↔ _
  rw [View.set_slice_whole, Rect.mem_set_unit]
  exact Iff.rfl
theorem mem_blk5 (t : Fin cfg0.N) (i : S1024x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v12_1).slice (win0_5.rect t)).set ↔ _
  rw [View.set_slice_whole, Rect.mem_set_unit]
  exact Iff.rfl

theorem cover4 (i : S1024x1.Idx) : ∃ t : Fin cfg0.N, (cfg0.win 4).flush t = true ∧ i ∈ ((cfg0.win 4).blk t).view.set := by
  have hr : (i 0).val < 1024 := (i 0).isLt
  have h1 : (i 1).val < 1 := (i 1).isLt
  have hN : ((i 0).val / 512) * 10 + 9 < cfg0.N := by rw [show cfg0.N = 20 from N_0]; omega
  refine ⟨⟨((i 0).val / 512) * 10 + 9, hN⟩, (flush0_4 _).mpr (by show (((i 0).val / 512) * 10 + 9) % 10 = 9; omega), ?_⟩
  rw [mem_blk4]; intro a
  have ht : (((i 0).val / 512) * 10 + 9) / 10 = (i 0).val / 512 := by omega
  match a with
  | ⟨0, _⟩ =>
    show win0_4.index ⟨((i 0).val / 512) * 10 + 9, hN⟩ 0 * 512 ≤ (i 0).val ∧ (i 0).val < win0_4.index ⟨((i 0).val / 512) * 10 + 9, hN⟩ 0 * 512 + 512
    rw [(index4 _).1]; show (((i 0).val / 512) * 10 + 9) / 10 * 512 ≤ _ ∧ _ < (((i 0).val / 512) * 10 + 9) / 10 * 512 + 512; rw [ht]; omega
  | ⟨1, _⟩ =>
    show win0_4.index ⟨((i 0).val / 512) * 10 + 9, hN⟩ 1 * 1 ≤ (i 1).val ∧ (i 1).val < win0_4.index ⟨((i 0).val / 512) * 10 + 9, hN⟩ 1 * 1 + 1
    rw [(index4 _).2]; omega
theorem cover5 (i : S1024x1.Idx) : ∃ t : Fin cfg0.N, (cfg0.win 5).flush t = true ∧ i ∈ ((cfg0.win 5).blk t).view.set := by
  have hr : (i 0).val < 1024 := (i 0).isLt
  have h1 : (i 1).val < 1 := (i 1).isLt
  have hN : ((i 0).val / 512) * 10 + 9 < cfg0.N := by rw [show cfg0.N = 20 from N_0]; omega
  refine ⟨⟨((i 0).val / 512) * 10 + 9, hN⟩, (flush0_5 _).mpr (by show (((i 0).val / 512) * 10 + 9) % 10 = 9; omega), ?_⟩
  rw [mem_blk5]; intro a
  have ht : (((i 0).val / 512) * 10 + 9) / 10 = (i 0).val / 512 := by omega
  match a with
  | ⟨0, _⟩ =>
    show win0_5.index ⟨((i 0).val / 512) * 10 + 9, hN⟩ 0 * 512 ≤ (i 0).val ∧ (i 0).val < win0_5.index ⟨((i 0).val / 512) * 10 + 9, hN⟩ 0 * 512 + 512
    rw [(index5 _).1]; show (((i 0).val / 512) * 10 + 9) / 10 * 512 ≤ _ ∧ _ < (((i 0).val / 512) * 10 + 9) / 10 * 512 + 512; rw [ht]; omega
  | ⟨1, _⟩ =>
    show win0_5.index ⟨((i 0).val / 512) * 10 + 9, hN⟩ 1 * 1 ≤ (i 1).val ∧ (i 1).val < win0_5.index ⟨((i 0).val / 512) * 10 + 9, hN⟩ 1 * 1 + 1
    rw [(index5 _).2]; omega

theorem final4 (c : Dev nD) : (dat m c).arrAt 4 cfg0.N = lse0 m c :=
  (dat m c).arrAt_eq_of_cover 4 (lse0 m c) (fun t _ => by
    show (cfg0.win 4).cut (grid0.coords t) ((dat m c).after 4 t) = _; rw [after4, Window.cut_fill]) cover4
theorem final5 (c : Dev nD) : (dat m c).arrAt 5 cfg0.N = sel0 m c :=
  (dat m c).arrAt_eq_of_cover 5 (sel0 m c) (fun t _ => by
    show (cfg0.win 5).cut (grid0.coords t) ((dat m c).after 5 t) = _; rw [after5, Window.cut_fill]) cover5

theorem scr_unfold (c : Dev nD) :
    (Pipeline.scopedRest (Ix := Unit) (Name := ℕ) (U := UU) (Lvl := ℕ) (Val := Elt Ideal) spec0 c : sProp 𝕄)
      ⊢ iprop(iprop((∃ d, owns (c : Thread nD τ) scM0 fullShare d) ∗ (∃ d, owns (c : Thread nD τ) scM1 fullShare d) ∗ (∃ d, owns (c : Thread nD τ) scM2 fullShare d))
          ∗ Pipeline.scopedRestBut (Ix := Unit) (Name := ℕ) (U := UU) (Lvl := ℕ) (Val := Elt Ideal) spec0 c [cc0_scratch0, cc0_scratch1, cc0_scratch2]) := by
  rw [scopedRest0_split]; simp only [scM0, scM1, scM2, owns_whole]; exact .rfl
theorem scr_fold (c : Dev nD) :
    iprop(iprop((∃ d, owns (c : Thread nD τ) scM0 fullShare d) ∗ (∃ d, owns (c : Thread nD τ) scM1 fullShare d) ∗ (∃ d, owns (c : Thread nD τ) scM2 fullShare d))
          ∗ Pipeline.scopedRestBut (Ix := Unit) (Name := ℕ) (U := UU) (Lvl := ℕ) (Val := Elt Ideal) spec0 c [cc0_scratch0, cc0_scratch1, cc0_scratch2])
      ⊢ (Pipeline.scopedRest (Ix := Unit) (Name := ℕ) (U := UU) (Lvl := ℕ) (Val := Elt Ideal) spec0 c : sProp 𝕄) := by
  rw [scopedRest0_split]; simp only [scM0, scM1, scM2, owns_whole]; exact .rfl

theorem init_M (c : Dev nD) (rb : ℕ) : (k0_pay5 (F := Ideal) : Vec Ideal S512x1 .f32) = scrM m c rb 0 := by
  funext y; obtain ⟨p, rfl⟩ := row_idx y; rw [pay5_row]; rfl
theorem init_L (c : Dev nD) (rb : ℕ) : (k0_pay6 (F := Ideal) : Vec Ideal S512x1 .f32) = scrL m c rb 0 := by
  funext y; obtain ⟨p, rfl⟩ := row_idx y; rw [pay6_row]; rfl
theorem init_S (c : Dev nD) (rb : ℕ) : (k0_pay7 (F := Ideal) : Vec Ideal S512x1 .f32) = scrS m c rb 0 := by
  funext y; obtain ⟨p, rfl⟩ := row_idx y; rw [pay7_row]; rfl

theorem out4_eq (c : Dev nD) (t : Fin cfg0.N) :
    k0_pay4 (F := Ideal) (scrM m c (t.val / 10) 10) (scrL m c (t.val / 10) 10)
      = (cfg0.win 4).fill (grid0.coords t) arb (((cfg0.win 4).blk t).view.read (Elt Ideal) (lse0 m c)) := by
  funext y; obtain ⟨p, rfl⟩ := row_idx y
  have hm : (cfg0.win 4).moved (grid0.coords t) (ix2 p 0) = true := ((cfg0.win 4).moved_iff _ _).mpr fun a => by
    match a with
    | ⟨0, _⟩ => exact p.isLt
    | ⟨1, _⟩ => exact (by decide : (0 : ℕ) < 1)
  rw [pay4_row]; unfold Window.fill; rw [dif_pos hm]
  show _ = lse0 m c (((cfg0.win 4).blk t).view.emb _)
  unfold lse0 Spec.lseOnline
  rw [show (((cfg0.win 4).blk t).view.emb (fun a => (⟨((ix2 p 0 : S512x1.Idx) a).val, ((cfg0.win 4).moved_iff (grid0.coords t) (ix2 p 0)).mp hm a⟩ : Fin _))) 0 = rowOf (t.val / 10) p from
    Fin.ext (by show win0_4.index t 0 * 512 + 1 * p.val = _; rw [(index4 t).1, rowOf_t]; omega)]
  rfl
theorem out5_eq (c : Dev nD) (t : Fin cfg0.N) :
    scrS m c (t.val / 10) 10 = (cfg0.win 5).fill (grid0.coords t) arb (((cfg0.win 5).blk t).view.read (Elt Ideal) (sel0 m c)) := by
  funext y; obtain ⟨p, rfl⟩ := row_idx y
  have hm : (cfg0.win 5).moved (grid0.coords t) (ix2 p 0) = true := ((cfg0.win 5).moved_iff _ _).mpr fun a => by
    match a with
    | ⟨0, _⟩ => exact p.isLt
    | ⟨1, _⟩ => exact (by decide : (0 : ℕ) < 1)
  unfold Window.fill; rw [dif_pos hm]
  show _ = sel0 m c (((cfg0.win 5).blk t).view.emb _)
  unfold sel0 Spec.selOnline
  rw [show (((cfg0.win 5).blk t).view.emb (fun a => (⟨((ix2 p 0 : S512x1.Idx) a).val, ((cfg0.win 5).moved_iff (grid0.coords t) (ix2 p 0)).mp hm a⟩ : Fin _))) 0 = rowOf (t.val / 10) p from
    Fin.ext (by show win0_5.index t 0 * 512 + 1 * p.val = _; rw [(index5 t).1, rowOf_t]; omega)]
  rfl

set_option maxHeartbeats 1600000 in

theorem sound_A (c : Dev nD) (t : Fin cfg0.N) (h0 : t.val % 10 = 0) :
    bodyPre m c t ⊢ wp frame (wpE (defs₀ (F := Ideal)) Variants.none c none) Set.univ (bodyAt0 t) (fun _ => bodyPost m c t) := by
  unfold bodyPre bodyPost
  have hk : ((grid0.coords t) 1).val = 0 := (coords_t t).1.trans h0
  have h9 : ¬t.val % 10 = 9 := by omega
  have e2 : (t.val + 1 - 1) / 10 = t.val / 10 := by omega
  have e3 : (t.val + 1) % 10 = 0 + 1 := by omega
  rw [Phi_cast, Phi_succ, Phi_edge m c t.val h0, Phi_mid m c (t.val + 1) (by omega), e2, e3,
    show (dat m c).owesAt () t.succ = (dat m c).owesAt () t.castSucc from rfl,
    leaves0, leaves1, leaves2, leaves3, leaves4_idle m c t h9, leaves5_idle m c t h9,
    after0, after1, after2, after3, Window.cut_fill, Window.cut_fill]
  simp only [before0, before1, before2, before3]
  iintro ⟨HΦ, Ho, ⟨%d0, H0⟩, ⟨%d1, H1⟩, ⟨%d2, H2⟩, ⟨%d3, H3⟩, ⟨%d4, H4⟩, ⟨%d5, H5⟩⟩
  ihave HΦ' := (scr_unfold c) $$ HΦ
  icases HΦ' with ⟨⟨HM, HL, HS⟩, Hrest⟩
  iapply (run0_A c (grid0.coords t) _ _ _ _ _ _ _ _ _ _ _ _ _ _ _ _ _ _ ((hfirst t).mpr h0) (fun h => h9 ((hlast t).mp h))
    _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HM]; · iexact HM
  isplitl [HL]; · iexact HL
  isplitl [HS]; · iexact HS
  iintro ⟨H0, H1, H2, H3, H4, H5, HM, HL, HS⟩
  rw [init_M m c (t.val / 10), init_L m c (t.val / 10), init_S m c (t.val / 10),
    newM m c t d0 d1 d2 d3 _ hk, newL m c t d0 d1 d2 d3 _ hk, newS m c t d0 d1 d2 d3 _ hk]
  isplitl [HM HL HS Hrest]
  · isplitr [Hrest]
    · isplitl [HM]; · iexact HM
      isplitl [HL]; · iexact HL
      iexact HS
    · iexact Hrest
  isplitl [Ho]; · iexact Ho
  isplitl [H0]; · rw [fill0_irrel m c t arb d0]; iexact H0
  isplitl [H1]; · iexists d1; iexact H1
  isplitl [H2]; · iexists d2; iexact H2
  isplitl [H3]; · rw [fill3_irrel m c t arb d3]; iexact H3
  isplitl [H4]; · iexists d4; iexact H4
  iexists d5; iexact H5

set_option maxHeartbeats 1600000 in

theorem sound_C (c : Dev nD) (t : Fin cfg0.N) (h0 : ¬t.val % 10 = 0) (h9 : t.val % 10 = 9) :
    bodyPre m c t ⊢ wp frame (wpE (defs₀ (F := Ideal)) Variants.none c none) Set.univ (bodyAt0 t) (fun _ => bodyPost m c t) := by
  unfold bodyPre bodyPost
  have hk : ((grid0.coords t) 1).val = 9 := (coords_t t).1.trans h9
  have e1 : (t.val - 1) / 10 = t.val / 10 := by omega
  rw [Phi_cast, Phi_succ, Phi_mid m c t.val h0, Phi_edge m c (t.val + 1) (by omega), e1, h9,
    show (dat m c).owesAt () t.succ = (dat m c).owesAt () t.castSucc from rfl,
    leaves0, leaves1, leaves2, leaves3, leaves4_live m c t h9, leaves5_live m c t h9,
    after0, after1, after2, after3, after4, after5, Window.cut_fill, Window.cut_fill]
  simp only [before0, before1, before2, before3]
  iintro ⟨⟨⟨HM, HL, HS⟩, Hrest⟩, Ho, ⟨%d0, H0⟩, ⟨%d1, H1⟩, ⟨%d2, H2⟩, ⟨%d3, H3⟩, ⟨%d4, H4⟩, ⟨%d5, H5⟩⟩
  iapply (run0_C c (grid0.coords t) _ _ _ _ _ _ _ _ _ _ _ _ _ _ _ _ _ _ (fun h => h0 ((hfirst t).mp h)) ((hlast t).mpr h9)
    _ _ _ _ _ _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HM]; · iexact HM
  isplitl [HL]; · iexact HL
  isplitl [HS]; · iexact HS
  iintro ⟨H0, H1, H2, H3, H4, H5, HM, HL, HS⟩
  rw [newM m c t d0 d1 d2 d3 _ hk, newL m c t d0 d1 d2 d3 _ hk, newS m c t d0 d1 d2 d3 _ hk, out4_eq m c t, out5_eq m c t]
  isplitl [HM HL HS Hrest]
  · iapply (scr_fold c)
    isplitr [Hrest]
    · isplitl [HM]; · iexists _; iexact HM
      isplitl [HL]; · iexists _; iexact HL
      iexists _; iexact HS
    · iexact Hrest
  isplitl [Ho]; · iexact Ho
  isplitl [H0]; · rw [fill0_irrel m c t arb d0]; iexact H0
  isplitl [H1]; · iexists d1; iexact H1
  isplitl [H2]; · iexists d2; iexact H2
  isplitl [H3]; · rw [fill3_irrel m c t arb d3]; iexact H3
  isplitl [H4]; · iexact H4
  iexact H5

theorem body_obligation (c : Dev nD) : BodyObligationLoose (dat m c) (defs₀ (F := Ideal)) Variants.none () Set.univ := fun t => by
  rw [bigSep_W0, bigSep_W0]
  by_cases h0 : t.val % 10 = 0
  · exact sound_A m c t h0
  · by_cases h9 : t.val % 10 = 9
    · exact sound_C m c t h0 h9
    · exact sound_B m c t h0 h9

def junk {cfg : Cfg sig Λ₀} (c : Dev nD) : Dat τ (Elt Ideal) Unit ℕ UU ℕ cfg c where
  A _ := fun _ => Classical.arbitrary _
  after _ _ := fun _ => Classical.arbitrary _
  Φ _ := BI.emp
  q _ := fullShare
  owed _ := 0

def fam : (p : Fin 4) → (c : Dev nD) → Dat τ (Elt Ideal) Unit ℕ UU ℕ (Pipeline.pin (pcfgs (F := Ideal)) adm p) c
  | ⟨0, _⟩ => fun c => dat m c
  | ⟨1, _⟩ => fun c => junk c
  | ⟨2, _⟩ => fun c => junk c
  | ⟨3, _⟩ => fun c => junk c

theorem entry_split (c : Dev nD) :
    (unscopedBufs c (fun b => V1 m c b) : sProp 𝕄) ⊢ iprop((dat m c).arrays ((dat m c).arrAt · 0) ∗ Pipeline.unscopedRest spec0 c (fun b => V1 m c b)) :=
  Pipeline.arrays_of_unscopedBufs (p := (0 : Fin 4)) (pcfgs (F := Ideal)) adm (fam m) launch0.win launch0.arr_whole c
    ((fam m (0 : Fin 4) c).share_full fun _ => rfl) (fun b => V1 m c b) fun _ => rfl

theorem V2_v12_0 (c : Dev nD) : V2 m (outs m) c main_v12_0 = lse0 m c := by
  simp only [V2, Function.update_self, Function.update_of_ne (StableHlo.devRef_ne_of_ne (show main_v12_0 ≠ main_v12_1 by decide) : (Proc.devRef .tc main_v12_0 : DevRef τ sig) ≠ Proc.devRef .tc main_v12_1)]
  exact outs_v12_0 m c (2 : ℕ)
theorem V2_v12_1 (c : Dev nD) : V2 m (outs m) c main_v12_1 = sel0 m c := by
  simp only [V2, Function.update_self]
  exact outs_v12_1 m c (2 : ℕ)

theorem exit_join (c : Dev nD) :
    iprop((dat m c).arrays ((dat m c).arrAt · cfg0.N) ∗ Pipeline.unscopedRest spec0 c (fun b => V1 m c b)) ⊢ (unscopedBufs c (fun b => V2 m (outs m) c b) : sProp 𝕄) :=
  Pipeline.unscopedBufs_of_arrays (p := (0 : Fin 4)) (pcfgs (F := Ideal)) adm launch0.win launch0.arr_whole c (fam m)
    ((fam m (0 : Fin 4) c).share_full fun _ => rfl) (fun b => V1 m c b) (fun b => V2 m (outs m) c b) ((dat m c).arrAt · cfg0.N)
    (fun w => by
      fin_cases w
      · exact (final_in m c 0 rfl).trans (V2_of m (outs m) c main_v9 (by decide)).symm
      · exact (final_in m c 1 rfl).trans (V2_of m (outs m) c main_arg2 (by decide)).symm
      · exact (final_in m c 2 rfl).trans (V2_of m (outs m) c main_v10 (by decide)).symm
      · exact (final_in m c 3 rfl).trans (V2_of m (outs m) c main_v11 (by decide)).symm
      · exact (final4 m c).trans (V2_v12_0 m c).symm
      · exact (final5 m c).trans (V2_v12_1 m c).symm)
    (fun b hb => V2_of m (outs m) c b (by
      intro h
      simp only [List.mem_cons, List.not_mem_nil, or_false] at h
      rcases h with rfl | rfl
      · exact hb (Finset.mem_image.mpr ⟨4, Finset.mem_univ _, rfl⟩)
      · exact hb (Finset.mem_image.mpr ⟨5, Finset.mem_univ _, rfl⟩)))

theorem hin (c : Dev nD) : (Pipeline.scopedRest (Ix := Unit) (Name := ℕ) (U := UU) (Lvl := ℕ) (Val := Elt Ideal) spec0 c : sProp 𝕄) ⊢ (dat m c).Φ 0 := by
  rw [show (dat m c).Φ 0 = Phi m c 0 from rfl, Phi_edge m c 0 rfl]
theorem hout (c : Dev nD) : (dat m c).Φ (Fin.last cfg0.N) ⊢ (Pipeline.scopedRest (Ix := Unit) (Name := ℕ) (U := UU) (Lvl := ℕ) (Val := Elt Ideal) spec0 c : sProp 𝕄) := by
  rw [show (dat m c).Φ (Fin.last cfg0.N) = Phi m c cfg0.N from rfl, Phi_edge m c cfg0.N (by rw [show cfg0.N = 20 from N_0])]

end Cert.Proof.KRegion0

end
-- ==== Proof.KBody1.lean ====
import proofs.«407035_j66254165508793_2_alg».proof.Proof.Gen.KernelIdeal.Skeleton
import proofs.«407035_j66254165508793_2_alg».proof.Proof.Spec
import proofs.«407035_j66254165508793_2_alg».proof.Proof.LibRows
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.WordArith

noncomputable section

namespace Cert.Proof.KBody1

open Cert.KernelIdeal Cert.KernelIdeal.Gen Idealize.ShloMosaic ValueIdx Cert.Proof.LibRows

theorem pay1_eq (v : FVec Ideal S512x1 .f32) : k1_pay1 v = v := shapeCast_self v _
theorem pay2_eq (v : FVec Ideal S512x1 .f32) : k1_pay2 v = v := shapeCast_self v _

theorem pay5_row (p : Fin 512) : k1_pay5 (F := Ideal) (ix2 p 0) = (⊥ : EReal) := by
  unfold k1_pay5
  refine (congrFun (shapeCast_self _ _) (ix2 p 0)).trans ?_
  exact ofBits_neg_inf_f32

theorem pay6_row (p : Fin 512) : k1_pay6 (F := Ideal) (ix2 p 0) = (0 : EReal) := by
  unfold k1_pay6
  refine (congrFun (shapeCast_self _ _) (ix2 p 0)).trans ?_
  exact Ideal.ofBits_zero_f32

theorem pay7_row (p : Fin 512) : k1_pay7 (F := Ideal) (ix2 p 0) = (0 : EReal) := by
  unfold k1_pay7
  refine (congrFun (shapeCast_self _ _) (ix2 p 0)).trans ?_
  exact Ideal.ofBits_zero_f32

theorem pay4_row (M L : Vec Ideal S512x1 .f32) (p : Fin 512) :
    k1_pay4 (F := Ideal) M L (ix2 p 0) = M (ix2 p 0) + Ideal.log (L (ix2 p 0)) := rfl

theorem matmul_lane (lhs : FVec Ideal S512x256 .bf16) (rhs : FVec Ideal S256x4096 .bf16) (p : Fin 512) (j : Fin 4096) :
    matmul dot_S512x256_S256x4096_S512x4096_1_0_0_1_n_n none lhs rhs (constant (F := Ideal) S512x4096 .f32 0x00000000#32) (ix2 p j)
      = ∑ kk : Fin 256, lhs (ix2 p kk) * rhs (ix2 kk j) :=
  plain_matmul_entry lhs rhs p j

section step

variable (i : grid1.Coords) (W : Vec Ideal S256x4096 .f32) (x : Vec Ideal S512x256 .bf16)
  (b : Vec Ideal S1x4096 .f32) (tg : Vec Ideal S512x1 .i32) (M L S : Vec Ideal S512x1 .f32) (p : Fin 512)
  (Xp : Fin 40000 → EReal)

abbrev st : EReal × EReal × EReal :=
  Cert.Spec.step (Cert.Spec.blk 4096 40000 Xp (i 1).val) (Cert.Spec.hit 4096 40000 (tg (ix2 p 0)) (i 1).val)
    (M (ix2 p 0), L (ix2 p 0), S (ix2 p 0))

theorem st_fst : (st i tg M L S p Xp).1
    = max (M (ix2 p 0)) (Finset.univ.sup (Cert.Spec.blk 4096 40000 Xp (i 1).val)) := rfl
theorem st_snd : (st i tg M L S p Xp).2.1
    = Ideal.exp (M (ix2 p 0) - (st i tg M L S p Xp).1) * L (ix2 p 0)
      + ∑ j, Ideal.exp (Cert.Spec.blk 4096 40000 Xp (i 1).val j - (st i tg M L S p Xp).1) := rfl
theorem st_trd : (st i tg M L S p Xp).2.2
    = S (ix2 p 0) + ∑ j, (if Cert.Spec.hit 4096 40000 (tg (ix2 p 0)) (i 1).val j
        then Cert.Spec.blk 4096 40000 Xp (i 1).val j else 0) := rfl

theorem valid_lane (j : Fin 4096) :
    k1_pay8 i (ix2 p j) = BitVec.ofBool (decide ((i 1).val * 4096 + j.val < 40000)) := by
  have hk : (i 1).val < 10 := (i 1).isLt
  unfold k1_pay8
  show IntOp.cmpi .slt (IntOp.addi (Scalar.muli (BitVec.ofNat 32 (i 1).val) 4096#32)
    (iota .tc S512x4096 32 [1] iota_S512x4096_d1_w32 (ix2 p j))) 40000#32 = _
  rw [iota_single_apply .tc S512x4096 32 1 iota_S512x4096_d1_w32 (ix2 p j)]
  exact valid_word 4096 40000 (i 1).val j.val (by have := j.isLt; omega) (by omega)

theorem pay9_lane
    (hX : ∀ (j : Fin 4096) (h : (i 1).val * 4096 + j.val < 40000),
      (∑ kk : Fin 256, x (ix2 p kk) * W (ix2 kk j)) + b (ix2 0 j) = Xp ⟨(i 1).val * 4096 + j.val, h⟩)
    (j : Fin 4096) :
    k1_pay9 (F := Ideal) i W x b (ix2 p j) = Cert.Spec.blk 4096 40000 Xp (i 1).val j := by
  unfold k1_pay9
  show Scalar.select (k1_pay8 i (ix2 p j))
      (matmul dot_S512x256_S256x4096_S512x4096_1_0_0_1_n_n none (shapeCast S512x256 x shapeCasts_S512x256_S512x256)
          (truncf .bf16 W bitsLt_bf16_f32) (constant (F := Ideal) S512x4096 .f32 0x00000000#32) (ix2 p j)
        + broadcastTo S512x4096 (shapeCast S1x4096 b shapeCasts_S1x4096_S1x4096) broadcasts_S1x4096_S512x4096 (ix2 p j))
      (Named.named (F := Ideal) κ "neg_big" (φ := .f32) 0xF149F2CA#32) = _
  rw [valid_lane, matmul_lane, broadcastTo_1b_ab_apply, shapeCast_self, shapeCast_self,
    IdealRules.named_const.ideal_named_scalar κ "neg_big" _ ⊥ rfl]
  unfold Cert.Spec.blk
  by_cases h : (i 1).val * 4096 + j.val < 40000
  · rw [dif_pos h, decide_eq_true h]
    exact (select_one _ _).trans (hX j h)
  · rw [dif_neg h, decide_eq_false h]
    exact select_zero _ _

variable (hX : ∀ (j : Fin 4096) (h : (i 1).val * 4096 + j.val < 40000),
      (∑ kk : Fin 256, x (ix2 p kk) * W (ix2 kk j)) + b (ix2 0 j) = Xp ⟨(i 1).val * 4096 + j.val, h⟩)
include hX

theorem pay10_row : k1_pay10 (F := Ideal) i W x b M (ix2 p 0) = (st i tg M L S p Xp).1 := by
  unfold k1_pay10
  refine (maximumf_apply (s := S512x1) (φ := .f32) M _ (ix2 p 0)).trans ?_
  refine (congrArg (max (M (ix2 p 0))) ((rowMax _ _ _ _ _ p).trans ?_)).trans (st_fst i tg M L S p Xp).symm
  exact congrArg Finset.univ.sup (funext fun j => pay9_lane i W x b p Xp hX j)

theorem pay11_row : k1_pay11 (F := Ideal) i W x b M M L (ix2 p 0) = (st i tg M L S p Xp).2.1 := by
  have h10 := pay10_row i W x b tg M L S p Xp hX
  unfold k1_pay11
  refine (addf_apply (s := S512x1) (φ := .f32) _ _ (ix2 p 0)).trans ?_
  refine (congrArg₂ (fun u v : EReal => u + v) ?_ ?_).trans (st_snd i tg M L S p Xp).symm
  · refine (mulf_apply (s := S512x1) (φ := .f32) _ L (ix2 p 0)).trans ?_
    refine congrArg (fun u : EReal => u * L (ix2 p 0)) ?_
    refine (exp_apply (s := S512x1) (φ := .f32) _ (ix2 p 0)).trans (congrArg Ideal.exp ?_)
    refine (subf_apply (s := S512x1) (φ := .f32) M _ (ix2 p 0)).trans ?_
    exact congrArg (fun u : EReal => M (ix2 p 0) - u) h10
  · refine (rowSum _ _ _ _ _ p).trans (Finset.sum_congr rfl fun j _ => ?_)
    refine (exp_apply (s := S512x4096) (φ := .f32) _ (ix2 p j)).trans (congrArg Ideal.exp ?_)
    refine (subf_apply (s := S512x4096) (φ := .f32) _ _ (ix2 p j)).trans ?_
    refine congrArg₂ (fun u v : EReal => u - v) (pay9_lane i W x b p Xp hX j) ?_
    exact (broadcastTo_a1_ab_apply _ _ p j).trans h10

theorem pick_lane (j : Fin 4096) :
    Scalar.select
      (IntOp.andi
        (IntOp.cmpi .eq (iota .tc S512x4096 32 [1] iota_S512x4096_d1_w32 (ix2 p j))
          (broadcastTo S512x4096
            (subi (shapeCast S512x1 tg shapeCasts_S512x1_S512x1)
              (broadcast S512x1 (Scalar.muli (BitVec.ofNat 32 (i 1).val) 4096#32)))
            broadcasts_S512x1_S512x4096 (ix2 p j)))
        (k1_pay8 i (ix2 p j)))
      (k1_pay9 (F := Ideal) i W x b (ix2 p j)) (Scalar.ofBits (F := Ideal) .f32 0x00000000#32)
    = if Cert.Spec.hit 4096 40000 (tg (ix2 p 0)) (i 1).val j then Cert.Spec.blk 4096 40000 Xp (i 1).val j else 0 := by
  rw [broadcastTo_a1_ab_apply, valid_lane, pay9_lane i W x b p Xp hX,
    iota_single_apply .tc S512x4096 32 1 iota_S512x4096_d1_w32 (ix2 p j)]
  show Scalar.select (IntOp.andi (IntOp.cmpi .eq (BitVec.ofNat 32 j.val)
      (IntOp.subi (shapeCast S512x1 tg shapeCasts_S512x1_S512x1 (ix2 p 0))
        (Scalar.muli (BitVec.ofNat 32 (i 1).val) 4096#32))) _) _ (Ideal.ofBits .f32 0x00000000#32) = _
  rw [shapeCast_self, hit_word, WordArith.andi_ofBool, Ideal.ofBits_zero_f32]
  unfold Cert.Spec.hit
  cases ((BitVec.ofNat 32 j.val == tg (ix2 p 0) - BitVec.ofNat 32 ((i 1).val * 4096))
      && decide ((i 1).val * 4096 + j.val < 40000))
  · exact (select_zero _ _).trans (if_neg Bool.false_ne_true).symm
  · exact (select_one _ _).trans (if_pos rfl).symm

theorem pay3_row :
    k1_pay3 (F := Ideal) (Scalar.muli (BitVec.ofNat 32 (i 1).val) 4096#32)
      (iota .tc S512x4096 32 [1] iota_S512x4096_d1_w32) (k1_pay8 i) (k1_pay9 i W x b) tg S (ix2 p 0)
      = (st i tg M L S p Xp).2.2 := by
  unfold k1_pay3
  refine (congrFun (shapeCast_self _ _) (ix2 p 0)).trans ?_
  refine (addf_apply (s := S512x1) (φ := .f32) S _ (ix2 p 0)).trans ?_
  refine (congrArg (fun u : EReal => S (ix2 p 0) + u) ((rowSum _ _ _ _ _ p).trans ?_)).trans
    (st_trd i tg M L S p Xp).symm
  exact Finset.sum_congr rfl fun j _ => pick_lane i W x b tg p Xp hX j

end step

end Cert.Proof.KBody1

end
-- ==== Proof.KRuns1.lean ====
import proofs.«407035_j66254165508793_2_alg».proof.Proof.Gen.KernelIdeal.Regions
import proofs.«407035_j66254165508793_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.Proof.KRuns1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU : Type := UR sig nD τ × Counters

local notation "𝕄" => MT nD τ sig Unit (Elt F) ℕ UU ℕ

abbrev cond1_first (i : grid1.Coords) : Prop :=
  (Scalar.cmpi .ne (Scalar.extui (Scalar.cmpi .eq (BitVec.ofNat 32 (i 1).val) 0#32)) 0#32) = 1#1

theorem hz : (![0, 0] : Fin 2 → Nat) = fun _ => 0 := funext fun a => by fin_cases a <;> rfl

theorem read_writes_last {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

set_option maxHeartbeats 1000000 in

theorem run1_B (c : Dev nD) (i : grid1.Coords)
    (arg2 : Memref sig .tc .vmem S512x256 .bf16) (harg2 : arg2.IsWhole) (arg3 : Memref sig .tc .vmem S256x4096 .f32) (harg3 : arg3.IsWhole)
    (arg4 : Memref sig .tc .vmem S1x4096 .f32) (harg4 : arg4.IsWhole) (arg5 : Memref sig .tc .vmem S512x1 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole)
    (hc1 : ¬cond1_first i) (hc2 : ¬k1_cond2 i = 1#1)
    (x : Vec F S512x256 .bf16) (W : Vec F S256x4096 .f32) (b : Vec F S1x4096 .f32) (tg : Vec F S512x1 .i32)
    (o6 o7 M L S : Vec F S512x1 .f32) (E : Set ℕ) (K : PUnit → sProp 𝕄) :
    iprop(owns (c : Thread nD τ) arg2 fullShare x ∗ owns (c : Thread nD τ) arg3 fullShare W ∗ owns (c : Thread nD τ) arg4 fullShare b
        ∗ owns (c : Thread nD τ) arg5 fullShare tg ∗ owns (c : Thread nD τ) arg6 fullShare o6 ∗ owns (c : Thread nD τ) arg7 fullShare o7
        ∗ owns (c : Thread nD τ) arg8 fullShare M ∗ owns (c : Thread nD τ) arg9 fullShare L ∗ owns (c : Thread nD τ) arg10 fullShare S
        ∗ (iprop(owns (c : Thread nD τ) arg2 fullShare x ∗ owns (c : Thread nD τ) arg3 fullShare W ∗ owns (c : Thread nD τ) arg4 fullShare b
            ∗ owns (c : Thread nD τ) arg5 fullShare tg ∗ owns (c : Thread nD τ) arg6 fullShare o6 ∗ owns (c : Thread nD τ) arg7 fullShare o7
            ∗ owns (c : Thread nD τ) arg8 fullShare (k1_pay2 (k1_pay10 i W x b M))
            ∗ owns (c : Thread nD τ) arg9 fullShare (k1_pay1 (k1_pay11 i W x b M M L))
            ∗ owns (c : Thread nD τ) arg10 fullShare
                (k1_pay3 (Scalar.muli (BitVec.ofNat 32 (i 1).val) 4096#32) (iota .tc S512x4096 32 [1] iota_S512x4096_d1_w32)
                  (k1_pay8 i) (k1_pay9 i W x b) tg S)) -∗ K ⟨⟩))
      ⊢ wp frame (wpE (defs₀ (F := F)) Variants.none c none) E
          (cc1__cluster_kernel i arg2 harg2 arg3 harg3 arg4 harg4 arg5 harg5 arg6 harg6 arg7 harg7 arg8 harg8 arg9 harg9 arg10 harg10) K := by
  simp only [cc1__cluster_kernel_eq_skeleton]; unfold cc1__cluster_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2)
  sl_step
  iapply Hk
  isplitl [H2]; iexists _; isplitr; rotate_left; iexact H2
  isplitl [H3]; iexists _; isplitr; rotate_left; iexact H3
  isplitl [H4]; iexists _; isplitr; rotate_left; iexact H4
  isplitl [H5]; iexists _; isplitr; rotate_left; iexact H5
  isplitl [H6]; iexists _; isplitr; rotate_left; iexact H6
  isplitl [H7]; iexists _; isplitr; rotate_left; iexact H7
  isplitl [H8]; iexists _; isplitr; rotate_left; iexact H8
  isplitl [H9]; iexists _; isplitr; rotate_left; iexact H9
  iexists _; isplitr; rotate_left; iexact H10
  all_goals
    ipureintro
    try refine (read_writes_last _ _ hz _ _ _).trans ?_
    try sl_unfold_run_names
    simp only [View.readAt_eq_ld, harg2.read_unread, harg3.read_unread, harg4.read_unread, harg5.read_unread,
      harg6.read_unread, harg7.read_unread, harg8.read_unread, harg9.read_unread, harg10.read_unread, View.readCov_unit_zero (S := S512x1) _ hz,
      View.ld_unit_zero (S := S512x256) hz, View.ld_unit_zero (S := S256x4096) hz, View.ld_unit_zero (S := S1x4096) hz,
      View.ld_unit_zero (S := S512x1) hz]

set_option maxHeartbeats 1000000 in

theorem run1_A (c : Dev nD) (i : grid1.Coords)
    (arg2 : Memref sig .tc .vmem S512x256 .bf16) (harg2 : arg2.IsWhole) (arg3 : Memref sig .tc .vmem S256x4096 .f32) (harg3 : arg3.IsWhole)
    (arg4 : Memref sig .tc .vmem S1x4096 .f32) (harg4 : arg4.IsWhole) (arg5 : Memref sig .tc .vmem S512x1 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole)
    (hc1 : cond1_first i) (hc2 : ¬k1_cond2 i = 1#1)
    (x : Vec F S512x256 .bf16) (W : Vec F S256x4096 .f32) (b : Vec F S1x4096 .f32) (tg : Vec F S512x1 .i32)
    (o6 o7 : Vec F S512x1 .f32) (E : Set ℕ) (K : PUnit → sProp 𝕄) :
    iprop(owns (c : Thread nD τ) arg2 fullShare x ∗ owns (c : Thread nD τ) arg3 fullShare W ∗ owns (c : Thread nD τ) arg4 fullShare b
        ∗ owns (c : Thread nD τ) arg5 fullShare tg ∗ owns (c : Thread nD τ) arg6 fullShare o6 ∗ owns (c : Thread nD τ) arg7 fullShare o7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x ∗ owns (c : Thread nD τ) arg3 fullShare W ∗ owns (c : Thread nD τ) arg4 fullShare b
            ∗ owns (c : Thread nD τ) arg5 fullShare tg ∗ owns (c : Thread nD τ) arg6 fullShare o6 ∗ owns (c : Thread nD τ) arg7 fullShare o7
            ∗ owns (c : Thread nD τ) arg8 fullShare (k1_pay2 (k1_pay10 i W x b k1_pay5))
            ∗ owns (c : Thread nD τ) arg9 fullShare (k1_pay1 (k1_pay11 i W x b k1_pay5 k1_pay5 k1_pay6))
            ∗ owns (c : Thread nD τ) arg10 fullShare (k1_pay3 (Scalar.muli (BitVec.ofNat 32 (i 1).val) 4096#32) (iota .tc S512x4096 32 [1] iota_S512x4096_d1_w32)
                  (k1_pay8 i) (k1_pay9 i W x b) tg k1_pay7)) -∗ K ⟨⟩))
      ⊢ wp frame (wpE (defs₀ (F := F)) Variants.none c none) E
          (cc1__cluster_kernel i arg2 harg2 arg3 harg3 arg4 harg4 arg5 harg5 arg6 harg6 arg7 harg7 arg8 harg8 arg9 harg9 arg10 harg10) K := by
  simp only [cc1__cluster_kernel_eq_skeleton]; unfold cc1__cluster_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H2]; iexists _; isplitr; rotate_left; iexact H2
  isplitl [H3]; iexists _; isplitr; rotate_left; iexact H3
  isplitl [H4]; iexists _; isplitr; rotate_left; iexact H4
  isplitl [H5]; iexists _; isplitr; rotate_left; iexact H5
  isplitl [H6]; iexists _; isplitr; rotate_left; iexact H6
  isplitl [H7]; iexists _; isplitr; rotate_left; iexact H7
  isplitl [H8]; iexists _; isplitr; rotate_left; iexact H8
  isplitl [H9]; iexists _; isplitr; rotate_left; iexact H9
  iexists _; isplitr; rotate_left; iexact H10
  all_goals
    ipureintro
    try refine (read_writes_last _ _ hz _ _ _).trans ?_
    try sl_unfold_run_names
    simp only [View.readAt_eq_ld, harg2.read_unread, harg3.read_unread, harg4.read_unread, harg5.read_unread,
      harg6.read_unread, harg7.read_unread, harg8.read_unread, harg9.read_unread, harg10.read_unread, View.readCov_unit_zero (S := S512x1) _ hz,
      View.ld_unit_zero (S := S512x256) hz, View.ld_unit_zero (S := S256x4096) hz, View.ld_unit_zero (S := S1x4096) hz,
      View.ld_unit_zero (S := S512x1) hz]

set_option maxHeartbeats 1000000 in

theorem run1_C (c : Dev nD) (i : grid1.Coords)
    (arg2 : Memref sig .tc .vmem S512x256 .bf16) (harg2 : arg2.IsWhole) (arg3 : Memref sig .tc .vmem S256x4096 .f32) (harg3 : arg3.IsWhole)
    (arg4 : Memref sig .tc .vmem S1x4096 .f32) (harg4 : arg4.IsWhole) (arg5 : Memref sig .tc .vmem S512x1 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1 .f32) (harg10 : arg10.IsWhole)
    (hc1 : ¬cond1_first i) (hc2 : k1_cond2 i = 1#1)
    (x : Vec F S512x256 .bf16) (W : Vec F S256x4096 .f32) (b : Vec F S1x4096 .f32) (tg : Vec F S512x1 .i32)
    (M L S : Vec F S512x1 .f32) (E : Set ℕ) (K : PUnit → sProp 𝕄) :
    iprop(owns (c : Thread nD τ) arg2 fullShare x ∗ owns (c : Thread nD τ) arg3 fullShare W ∗ owns (c : Thread nD τ) arg4 fullShare b
        ∗ owns (c : Thread nD τ) arg5 fullShare tg ∗ (∃ d, owns (c : Thread nD τ) arg6 fullShare d) ∗ (∃ d, owns (c : Thread nD τ) arg7 fullShare d)
        ∗ owns (c : Thread nD τ) arg8 fullShare M ∗ owns (c : Thread nD τ) arg9 fullShare L ∗ owns (c : Thread nD τ) arg10 fullShare S
        ∗ (iprop(owns (c : Thread nD τ) arg2 fullShare x ∗ owns (c : Thread nD τ) arg3 fullShare W ∗ owns (c : Thread nD τ) arg4 fullShare b
            ∗ owns (c : Thread nD τ) arg5 fullShare tg
            ∗ owns (c : Thread nD τ) arg6 fullShare (k1_pay4 (k1_pay2 (k1_pay10 i W x b M)) (k1_pay1 (k1_pay11 i W x b M M L)))
            ∗ owns (c : Thread nD τ) arg7 fullShare (k1_pay3 (Scalar.muli (BitVec.ofNat 32 (i 1).val) 4096#32) (iota .tc S512x4096 32 [1] iota_S512x4096_d1_w32)
                  (k1_pay8 i) (k1_pay9 i W x b) tg S)
            ∗ owns (c : Thread nD τ) arg8 fullShare (k1_pay2 (k1_pay10 i W x b M))
            ∗ owns (c : Thread nD τ) arg9 fullShare (k1_pay1 (k1_pay11 i W x b M M L))
            ∗ owns (c : Thread nD τ) arg10 fullShare (k1_pay3 (Scalar.muli (BitVec.ofNat 32 (i 1).val) 4096#32) (iota .tc S512x4096 32 [1] iota_S512x4096_d1_w32)
                  (k1_pay8 i) (k1_pay9 i W x b) tg S)) -∗ K ⟨⟩))
      ⊢ wp frame (wpE (defs₀ (F := F)) Variants.none c none) E
          (cc1__cluster_kernel i arg2 harg2 arg3 harg3 arg4 harg4 arg5 harg5 arg6 harg6 arg7 harg7 arg8 harg8 arg9 harg9 arg10 harg10) K := by
  simp only [cc1__cluster_kernel_eq_skeleton]; unfold cc1__cluster_kernel_skel
  simp only [k1_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5
  obtain rfl := harg8.eq_unread hf8; obtain rfl := harg9.eq_unread hf9; obtain rfl := harg10.eq_unread hf10
  sl_exec (disch := first | exact hc1 | exact hc2)
  sl_step
  iapply Hk
  isplitl [H2]; iexists _; isplitr; rotate_left; iexact H2
  isplitl [H3]; iexists _; isplitr; rotate_left; iexact H3
  isplitl [H4]; iexists _; isplitr; rotate_left; iexact H4
  isplitl [H5]; iexists _; isplitr; rotate_left; iexact H5
  isplitl [H6]; iexists _; isplitr; rotate_left; iexact H6
  isplitl [H7]; iexists _; isplitr; rotate_left; iexact H7
  isplitl [H8]; iexists _; isplitr; rotate_left; iexact H8
  isplitl [H9]; iexists _; isplitr; rotate_left; iexact H9
  iexists _; isplitr; rotate_left; iexact H10
  all_goals
    ipureintro
    try refine (read_writes_last _ _ hz _ _ _).trans ?_
    try sl_unfold_run_names
    simp only [View.readAt_eq_ld, harg2.read_unread, harg3.read_unread, harg4.read_unread, harg5.read_unread,
      harg6.read_unread, harg7.read_unread, harg8.read_unread, harg9.read_unread, harg10.read_unread, View.readCov_unit_zero (S := S512x1) _ hz,
      View.ld_unit_zero (S := S512x256) hz, View.ld_unit_zero (S := S256x4096) hz, View.ld_unit_zero (S := S1x4096) hz,
      View.ld_unit_zero (S := S512x1) hz]

end Cert.Proof.KRuns1

end
-- ==== Proof.KRegion1.lean ====
/-
  Kernel region 1 (the logits of tail 1): its proof data, the body at every grid point, and its two ends.

  The grid is (row block, column block), 2 × 10 points in row-major order: point `t` is column block `t % 10` of row
  block `t / 10`. The region's three scratch buffers carry, for each of the 512 rows of the current row block, the
  running triple (maximum, rescaled sum of exponentials, pick) of that row's logits over the column blocks done so far
  — `Spec.online` of the row's logits and its shifted label. The invariant between points says exactly this (inside a
  row block), and says nothing of the scratch at the start of a row block, where the body resets it. One point's body,
  run on the staged blocks, takes the triple after `k` blocks to the triple after `k + 1` (the arithmetic is one
  `Spec.step`: the staged weight and bias lanes inside the array are the array's entries there, so the block's logits
  inside the array are the row's logits; the lanes past the array's end are masked to -∞ whatever the staging buffer
  holds there); at the last column block it also stores maximum + log sum and the pick into the two outputs' buffers,
  which are then written back. Every row lies in exactly one written-back block, so the two output arrays end at the
  closed forms `lse1` and `sel1`; the four input arrays are unchanged.
-/
import proofs.«407035_j66254165508793_2_alg».proof.Proof.Gen.KernelIdeal.Regions
import proofs.«407035_j66254165508793_2_alg».proof.Proof.Gen.KernelIdeal.Points
import proofs.«407035_j66254165508793_2_alg».proof.Proof.Gen.KernelIdeal.Skeleton
import proofs.«407035_j66254165508793_2_alg».proof.Proof.Spec
import proofs.«407035_j66254165508793_2_alg».proof.Proof.KOuts
import proofs.«407035_j66254165508793_2_alg».proof.Proof.KBody1
import proofs.«407035_j66254165508793_2_alg».proof.Proof.KRuns1
import proofs.«407035_j66254165508793_2_alg».proof.Proof.KHost
import Idealize.ShloMosaic.Lib.Pipeline.Kit
import Idealize.ShloMosaic.Lib.Pipeline.FrameBody
import Idealize.ShloMosaic.Lib.Pipeline.Value
import Idealize.ShloMosaic.Lib.Pipeline.RegionsLoop
import Idealize.ShloMosaic.Lib.Tactic

set_option quotPrecheck false
set_option maxRecDepth 16384

noncomputable section

namespace Cert.Proof.KRegion1

open Cert.KernelIdeal Cert.KernelIdeal.Gen Cert.Proof.KOuts Cert.Proof.KBody1 Cert.Proof.KRuns1 Cert.Proof.KHost
open Idealize.ShloMosaic Idealize.ShloMosaic.TcCoe Idealize.ShloMosaic.Tactic ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ UU ℕ

variable (m : (ℓ : Loc nD τ sig) → Buf (Elt Ideal) ℓ)

/-! ## The grid, decided -/

theorem coords_t : ∀ t : Fin cfg1.N, ((grid1.coords t) 1).val = t.val % 10 ∧ ((grid1.coords t) 0).val = t.val / 10 :=
  (by decide +kernel : ∀ t : Fin grid1.N, ((grid1.coords t) 1).val = t.val % 10 ∧ ((grid1.coords t) 0).val = t.val / 10)

/-- The row of the 1024 that row `p` of row block `rb` is. -/
def rowOf (rb : ℕ) (p : Fin 512) : Fin 1024 :=
  ⟨(rb % (2)) * 512 + p.val, by have := p.isLt; have := Nat.mod_lt rb (show (2) > 0 by decide); omega⟩

/-- The running triple of row `r` after `k` column blocks. -/
def onl (c : Dev nD) (r : Fin 1024) (k : ℕ) : EReal × EReal × EReal :=
  Spec.online 4096 40000 (X1r m c r) (tr m c r - 20000#32) k

/-- What the three scratch buffers hold after `k` column blocks of row block `rb`. -/
def scrM (c : Dev nD) (rb k : ℕ) : Vec Ideal S512x1 .f32 := fun y => (onl m c (rowOf rb (y 0)) k).1
def scrL (c : Dev nD) (rb k : ℕ) : Vec Ideal S512x1 .f32 := fun y => (onl m c (rowOf rb (y 0)) k).2.1
def scrS (c : Dev nD) (rb k : ℕ) : Vec Ideal S512x1 .f32 := fun y => (onl m c (rowOf rb (y 0)) k).2.2

/-- The scratch operands as memrefs. -/
abbrev scM0 : Memref sig .tc .vmem S512x1 .f32 := Memref.whole cc1_scratch0
abbrev scM1 : Memref sig .tc .vmem S512x1 .f32 := Memref.whole cc1_scratch1
abbrev scM2 : Memref sig .tc .vmem S512x1 .f32 := Memref.whole cc1_scratch2

/-- The invariant before position `n`: at the start of a row block (and at the end of the grid) every scoped buffer no
    window stages at anything; inside a row block the three scratch buffers at the running triple after the column
    blocks done so far, the other scoped buffers at anything. -/
def Phi (c : Dev nD) (n : ℕ) : sProp 𝕄 :=
  if n % 10 = 0 then Pipeline.scopedRest (Ix := Unit) (Name := ℕ) (U := UU) (Lvl := ℕ) (Val := Elt Ideal) spec1 c
  else
    iprop(iprop(owns (c : Thread nD τ) scM0 fullShare (scrM m c ((n - 1) / 10) (n % 10))
        ∗ owns (c : Thread nD τ) scM1 fullShare (scrL m c ((n - 1) / 10) (n % 10))
        ∗ owns (c : Thread nD τ) scM2 fullShare (scrS m c ((n - 1) / 10) (n % 10)))
      ∗ Pipeline.scopedRestBut (Ix := Unit) (Name := ℕ) (U := UU) (Lvl := ℕ) (Val := Elt Ideal) spec1 c [cc1_scratch0, cc1_scratch1, cc1_scratch2])

/-- A filler for the lanes of a staging buffer no transfer moves. -/
def arb {S : Shape} {e : EltTy} : S.Idx → Elt Ideal e := fun _ => Classical.arbitrary _

/-- The proof data: the arrays as the region finds them; after the body each input's buffer at its block (filled out past
    the array's end with words nothing reads), the two outputs' at their blocks of the closed forms; the invariant. -/
def dat (c : Dev nD) : Dat τ (Elt Ideal) Unit ℕ UU ℕ cfg1 c where
  A w := V3 m (outs m) c (Pipeline.arrRef spec1 w)
  after w t := match w with
    | ⟨0, h⟩ => (cfg1.win ⟨0, h⟩).fill (grid1.coords t) arb (((cfg1.win ⟨0, h⟩).blk t).view.read (Elt Ideal) (V3 m (outs m) c (Pipeline.arrRef spec1 ⟨0, h⟩)))
    | ⟨1, h⟩ => (cfg1.win ⟨1, h⟩).fill (grid1.coords t) arb (((cfg1.win ⟨1, h⟩).blk t).view.read (Elt Ideal) (V3 m (outs m) c (Pipeline.arrRef spec1 ⟨1, h⟩)))
    | ⟨2, h⟩ => (cfg1.win ⟨2, h⟩).fill (grid1.coords t) arb (((cfg1.win ⟨2, h⟩).blk t).view.read (Elt Ideal) (V3 m (outs m) c (Pipeline.arrRef spec1 ⟨2, h⟩)))
    | ⟨3, h⟩ => (cfg1.win ⟨3, h⟩).fill (grid1.coords t) arb (((cfg1.win ⟨3, h⟩).blk t).view.read (Elt Ideal) (V3 m (outs m) c (Pipeline.arrRef spec1 ⟨3, h⟩)))
    | ⟨4, h⟩ => (cfg1.win ⟨4, h⟩).fill (grid1.coords t) arb (((cfg1.win ⟨4, h⟩).blk t).view.read (Elt Ideal) (lse1 m c))
    | ⟨5, h⟩ => (cfg1.win ⟨5, h⟩).fill (grid1.coords t) arb (((cfg1.win ⟨5, h⟩).blk t).view.read (Elt Ideal) (sel1 m c))
  Φ t := Phi m c t.val
  q _ := fullShare
  owed _ := 0

theorem A_eq (c : Dev nD) (w : Fin cfg1.W) : (dat m c).A w = V3 m (outs m) c (Pipeline.arrRef spec1 w) := by dsimp only [dat]

/-! ## What the body finds in the inputs' staging buffers -/

/-- The block of window `w`'s array at point `t`, its part inside the array. -/
abbrev blkOf (c : Dev nD) (w : Fin cfg1.W) (t : Fin cfg1.N) : ((cfg1.win w).xblock (grid1.coords t)).Idx → Elt Ideal (cfg1.win w).elt :=
  ((cfg1.win w).blk t).view.read (Elt Ideal) (V3 m (outs m) c (Pipeline.arrRef spec1 w))

theorem before0 (c : Dev nD) (t : Fin cfg1.N) (d) :
    (dat m c).before 0 t d = (cfg1.win 0).fill (grid1.coords t) d (blkOf m c 0 t) :=
  ((dat m c).before_in_eq_fetched 0 rfl (fun _ => rfl) (fun _ _ _ => rfl)
    (fun t => by dsimp only [dat]; exact (cfg1.win 0).cut_fill _ _ _) t d).trans (by unfold Dat.fetched Dat.blockOf; dsimp only [dat])
theorem before3 (c : Dev nD) (t : Fin cfg1.N) (d) :
    (dat m c).before 3 t d = (cfg1.win 3).fill (grid1.coords t) d (blkOf m c 3 t) :=
  ((dat m c).before_in_eq_fetched 3 rfl (fun _ => rfl) (fun _ _ _ => rfl)
    (fun t => by dsimp only [dat]; exact (cfg1.win 3).cut_fill _ _ _) t d).trans (by unfold Dat.fetched Dat.blockOf; dsimp only [dat])
theorem before1 (c : Dev nD) (t : Fin cfg1.N) (d) :
    (dat m c).before 1 t d = (cfg1.win 1).fill (grid1.coords t) d (blkOf m c 1 t) := by
  unfold Dat.before; rw [if_pos (fetch1_1 t)]; unfold Dat.fetched Dat.blockOf; dsimp only [dat]
theorem before2 (c : Dev nD) (t : Fin cfg1.N) (d) :
    (dat m c).before 2 t d = (cfg1.win 2).fill (grid1.coords t) d (blkOf m c 2 t) := by
  unfold Dat.before; rw [if_pos (fetch1_2 t)]; unfold Dat.fetched Dat.blockOf; dsimp only [dat]

/-! ## The staged blocks at an index -/

theorem index0 : ∀ t : Fin cfg1.N, win1_0.index t 0 = t.val / 10 ∧ win1_0.index t 1 = 0 :=
  (by decide +kernel : ∀ t : Fin grid1.N, win1_0.index t 0 = t.val / 10 ∧ win1_0.index t 1 = 0)
theorem index1 : ∀ t : Fin cfg1.N, win1_1.index t 0 = 0 ∧ win1_1.index t 1 = t.val % 10 :=
  (by decide +kernel : ∀ t : Fin grid1.N, win1_1.index t 0 = 0 ∧ win1_1.index t 1 = t.val % 10)
theorem index2 : ∀ t : Fin cfg1.N, win1_2.index t 0 = 0 ∧ win1_2.index t 1 = t.val % 10 :=
  (by decide +kernel : ∀ t : Fin grid1.N, win1_2.index t 0 = 0 ∧ win1_2.index t 1 = t.val % 10)
theorem index3 : ∀ t : Fin cfg1.N, win1_3.index t 0 = t.val / 10 ∧ win1_3.index t 1 = 0 :=
  (by decide +kernel : ∀ t : Fin grid1.N, win1_3.index t 0 = t.val / 10 ∧ win1_3.index t 1 = 0)
theorem index4 : ∀ t : Fin cfg1.N, win1_4.index t 0 = t.val / 10 ∧ win1_4.index t 1 = 0 :=
  (by decide +kernel : ∀ t : Fin grid1.N, win1_4.index t 0 = t.val / 10 ∧ win1_4.index t 1 = 0)
theorem index5 : ∀ t : Fin cfg1.N, win1_5.index t 0 = t.val / 10 ∧ win1_5.index t 1 = 0 :=
  (by decide +kernel : ∀ t : Fin grid1.N, win1_5.index t 0 = t.val / 10 ∧ win1_5.index t 1 = 0)
theorem xsize1 : ∀ t : Fin cfg1.N, win1_1.xsize (grid1.coords t) 0 = (256) ∧ win1_1.xsize (grid1.coords t) 1 = min 4096 (40000 - (t.val % 10) * 4096) :=
  (by decide +kernel : ∀ t : Fin grid1.N, win1_1.xsize (grid1.coords t) 0 = (256) ∧ win1_1.xsize (grid1.coords t) 1 = min 4096 (40000 - (t.val % 10) * 4096))
theorem xsize2 : ∀ t : Fin cfg1.N, win1_2.xsize (grid1.coords t) 0 = 1 ∧ win1_2.xsize (grid1.coords t) 1 = min 4096 (40000 - (t.val % 10) * 4096) :=
  (by decide +kernel : ∀ t : Fin grid1.N, win1_2.xsize (grid1.coords t) 0 = 1 ∧ win1_2.xsize (grid1.coords t) 1 = min 4096 (40000 - (t.val % 10) * 4096))

theorem rowOf_t (t : Fin cfg1.N) (p : Fin 512) : (rowOf (t.val / 10) p).val = (t.val / 10) * 512 + p.val := by
  have := t.isLt; have h : cfg1.N = 20 := N_1; unfold rowOf; show ((t.val / 10) % (2)) * 512 + p.val = _; omega

/-- Lane `(kk, j)` of the staged weight block, for a column inside the array: the array's entry there. -/
theorem Wst_apply (c : Dev nD) (t : Fin cfg1.N) (d) (kk : Fin (256)) (j : Fin 4096) (h : ((grid1.coords t) 1).val * 4096 + j.val < 40000) :
    (cfg1.win 1).fill (grid1.coords t) d (blkOf m c 1 t) (ix2 kk j)
      = (V3 m (outs m) c main_arg7 : S256x40000.Idx → EReal) (ix2 kk ⟨((grid1.coords t) 1).val * 4096 + j.val, h⟩) := by
  have hk := (coords_t t).1
  have hm : (cfg1.win 1).moved (grid1.coords t) (ix2 kk j) = true := ((cfg1.win 1).moved_iff _ _).mpr fun a => by
    match a with
    | ⟨0, _⟩ => show kk.val < win1_1.xsize (grid1.coords t) 0; rw [(xsize1 t).1]; exact kk.isLt
    | ⟨1, _⟩ => show j.val < win1_1.xsize (grid1.coords t) 1; rw [(xsize1 t).2]; have := j.isLt; omega
  unfold Window.fill; rw [dif_pos hm]
  show V3 m (outs m) c main_arg7 (((cfg1.win 1).blk t).view.emb _) = _
  congr 1; funext a; apply Fin.ext
  match a with
  | ⟨0, _⟩ => show win1_1.index t 0 * (256) + 1 * kk.val = kk.val; rw [(index1 t).1]; omega
  | ⟨1, _⟩ => show win1_1.index t 1 * 4096 + 1 * j.val = ((grid1.coords t) 1).val * 4096 + j.val; rw [(index1 t).2]; omega

/-- Lane `j` of the staged bias block, for a column inside the array. -/
theorem bst_apply (c : Dev nD) (t : Fin cfg1.N) (d) (j : Fin 4096) (h : ((grid1.coords t) 1).val * 4096 + j.val < 40000) :
    (cfg1.win 2).fill (grid1.coords t) d (blkOf m c 2 t) (ix2 0 j)
      = (V3 m (outs m) c main_v16 : S1x40000.Idx → EReal) (ix2 0 ⟨((grid1.coords t) 1).val * 4096 + j.val, h⟩) := by
  have hk := (coords_t t).1
  have hm : (cfg1.win 2).moved (grid1.coords t) (ix2 0 j) = true := ((cfg1.win 2).moved_iff _ _).mpr fun a => by
    match a with
    | ⟨0, _⟩ => show 0 < win1_2.xsize (grid1.coords t) 0; rw [(xsize2 t).1]; decide
    | ⟨1, _⟩ => show j.val < win1_2.xsize (grid1.coords t) 1; rw [(xsize2 t).2]; have := j.isLt; omega
  unfold Window.fill; rw [dif_pos hm]
  show V3 m (outs m) c main_v16 (((cfg1.win 2).blk t).view.emb _) = _
  congr 1; funext a; apply Fin.ext
  match a with
  | ⟨0, _⟩ => show win1_2.index t 0 * 1 + 1 * 0 = 0; rw [(index2 t).1]
  | ⟨1, _⟩ => show win1_2.index t 1 * 4096 + 1 * j.val = ((grid1.coords t) 1).val * 4096 + j.val; rw [(index2 t).2]; omega

/-- Entry `(p, kk)` of the staged block of the rows' inputs: the array's row `rowOf`. -/
theorem xst_apply (c : Dev nD) (t : Fin cfg1.N) (d) (p : Fin 512) (kk : Fin (256)) :
    (cfg1.win 0).fill (grid1.coords t) d (blkOf m c 0 t) (ix2 p kk)
      = (V3 m (outs m) c main_v15 : S1024x256.Idx → EReal) (ix2 (rowOf (t.val / 10) p) kk) := by
  have hm : (cfg1.win 0).moved (grid1.coords t) (ix2 p kk) = true := ((cfg1.win 0).moved_iff _ _).mpr fun a => by
    match a with
    | ⟨0, _⟩ => exact p.isLt
    | ⟨1, _⟩ => exact kk.isLt
  unfold Window.fill; rw [dif_pos hm]
  show V3 m (outs m) c main_v15 (((cfg1.win 0).blk t).view.emb _) = _
  congr 1; funext a; apply Fin.ext
  match a with
  | ⟨0, _⟩ => show win1_0.index t 0 * 512 + 1 * p.val = (rowOf (t.val / 10) p).val; rw [(index0 t).1, rowOf_t]; omega
  | ⟨1, _⟩ => show win1_0.index t 1 * (256) + 1 * kk.val = kk.val; rw [(index0 t).2]; omega

/-- Row `p` of the staged block of shifted labels. -/
theorem tst_apply (c : Dev nD) (t : Fin cfg1.N) (d) (p : Fin 512) :
    (cfg1.win 3).fill (grid1.coords t) d (blkOf m c 3 t) (ix2 p 0)
      = (V3 m (outs m) c main_v17 : S1024x1.Idx → BitVec 32) (ix2 (rowOf (t.val / 10) p) 0) := by
  have hm : (cfg1.win 3).moved (grid1.coords t) (ix2 p 0) = true := ((cfg1.win 3).moved_iff _ _).mpr fun a => by
    match a with
    | ⟨0, _⟩ => exact p.isLt
    | ⟨1, _⟩ => exact (by decide : (0 : ℕ) < 1)
  unfold Window.fill; rw [dif_pos hm]
  show V3 m (outs m) c main_v17 (((cfg1.win 3).blk t).view.emb _) = _
  congr 1; funext a; apply Fin.ext
  match a with
  | ⟨0, _⟩ => show win1_3.index t 0 * 512 + 1 * p.val = (rowOf (t.val / 10) p).val; rw [(index3 t).1, rowOf_t]; omega
  | ⟨1, _⟩ => show win1_3.index t 1 * 1 + 1 * 0 = 0; rw [(index3 t).2]

/-- The lanes of a staged block that lie inside the array are the row's logits there. -/
abbrev HX (i : grid1.Coords) (W : Vec Ideal S256x4096 .f32) (x : Vec Ideal S512x256 .bf16) (b : Vec Ideal S1x4096 .f32) (p : Fin 512) (Xp : Fin 40000 → EReal) : Prop :=
  ∀ (j : Fin 4096) (h : (i 1).val * 4096 + j.val < 40000), (∑ kk : Fin (256), x (ix2 p kk) * W (ix2 kk j)) + b (ix2 0 j) = Xp ⟨(i 1).val * 4096 + j.val, h⟩

/-! ## One column step on the staged blocks is one step of the running triple -/

section step
variable (c : Dev nD) (t : Fin cfg1.N) (d0 : (cfg1.win 0).block.Idx → Elt Ideal (cfg1.win 0).elt) (d1 : (cfg1.win 1).block.Idx → Elt Ideal (cfg1.win 1).elt)
  (d2 : (cfg1.win 2).block.Idx → Elt Ideal (cfg1.win 2).elt) (d3 : (cfg1.win 3).block.Idx → Elt Ideal (cfg1.win 3).elt)

/-- The four staged input blocks at point `t`. -/
local notation "xst" => (Window.fill (cfg1.win 0) (grid1.coords t) d0 (blkOf m c 0 t) : Vec Ideal S512x256 .bf16)
local notation "Wst" => (Window.fill (cfg1.win 1) (grid1.coords t) d1 (blkOf m c 1 t) : Vec Ideal S256x4096 .f32)
local notation "bst" => (Window.fill (cfg1.win 2) (grid1.coords t) d2 (blkOf m c 2 t) : Vec Ideal S1x4096 .f32)
local notation "tst" => (Window.fill (cfg1.win 3) (grid1.coords t) d3 (blkOf m c 3 t) : Vec Ideal S512x1 .i32)

/-- The lanes of the staged block inside the array are the row's logits. -/
theorem hX0 (p : Fin 512) : HX (grid1.coords t) Wst xst bst p (X1r m c (rowOf (t.val / 10) p)) := by
  intro j h
  simp only [xst_apply m c t d0 p, Wst_apply m c t d1 _ j h, bst_apply m c t d2 j h]
  rw [in1_x, in1_W, in1_b]
  rfl

/-- The step's state and label read off the scratch contents and the staged labels: one more step of the running triple. -/
theorem st_eq (p : Fin 512) (k : ℕ) (hk : ((grid1.coords t) 1).val = k) :
    st (grid1.coords t) tst (scrM m c (t.val / 10) k) (scrL m c (t.val / 10) k) (scrS m c (t.val / 10) k) p (X1r m c (rowOf (t.val / 10) p))
      = onl m c (rowOf (t.val / 10) p) (k + 1) := by
  subst hk
  unfold st
  rw [tst_apply, in1_t]
  rfl
end step

/-! ## The body obligation -/

theorem hfirst : ∀ t : Fin cfg1.N, cond1_first (grid1.coords t) ↔ t.val % 10 = 0 :=
  (by decide +kernel : ∀ t : Fin grid1.N, cond1_first (grid1.coords t) ↔ t.val % 10 = 0)
theorem hlast : ∀ t : Fin cfg1.N, k1_cond2 (grid1.coords t) = 1#1 ↔ t.val % 10 = 9 :=
  (by decide +kernel : ∀ t : Fin grid1.N, k1_cond2 (grid1.coords t) = 1#1 ↔ t.val % 10 = 9)
theorem idle4 : ∀ t : Fin cfg1.N, cfg1.idle 4 (grid1.coords t) = !decide (t.val % 10 = 9) :=
  (by decide +kernel : ∀ t : Fin grid1.N, cfg1.idle 4 (grid1.coords t) = !decide (t.val % 10 = 9))
theorem idle5 : ∀ t : Fin cfg1.N, cfg1.idle 5 (grid1.coords t) = !decide (t.val % 10 = 9) :=
  (by decide +kernel : ∀ t : Fin grid1.N, cfg1.idle 5 (grid1.coords t) = !decide (t.val % 10 = 9))

theorem Phi_edge (c : Dev nD) (n : ℕ) (h : n % 10 = 0) :
    Phi m c n = Pipeline.scopedRest (Ix := Unit) (Name := ℕ) (U := UU) (Lvl := ℕ) (Val := Elt Ideal) spec1 c := by
  unfold Phi; rw [if_pos h]
theorem Phi_mid (c : Dev nD) (n : ℕ) (h : ¬n % 10 = 0) :
    Phi m c n = iprop(iprop(owns (c : Thread nD τ) scM0 fullShare (scrM m c ((n - 1) / 10) (n % 10))
        ∗ owns (c : Thread nD τ) scM1 fullShare (scrL m c ((n - 1) / 10) (n % 10))
        ∗ owns (c : Thread nD τ) scM2 fullShare (scrS m c ((n - 1) / 10) (n % 10)))
      ∗ Pipeline.scopedRestBut (Ix := Unit) (Name := ℕ) (U := UU) (Lvl := ℕ) (Val := Elt Ideal) spec1 c [cc1_scratch0, cc1_scratch1, cc1_scratch2]) := by
  unfold Phi; rw [if_neg h]

/-- What the body is called with at point `t`, the windows one by one, -/
def bodyPre (c : Dev nD) (t : Fin cfg1.N) : sProp 𝕄 :=
  iprop((dat m c).Φ t.castSucc ∗ (dat m c).owesAt () t.castSucc
    ∗ (∃ d, owns (c : Thread nD τ) (st1_0 t) fullShare ((dat m c).before 0 t d))
    ∗ (∃ d, owns (c : Thread nD τ) (st1_1 t) fullShare ((dat m c).before 1 t d))
    ∗ (∃ d, owns (c : Thread nD τ) (st1_2 t) fullShare ((dat m c).before 2 t d))
    ∗ (∃ d, owns (c : Thread nD τ) (st1_3 t) fullShare ((dat m c).before 3 t d))
    ∗ (∃ d, owns (c : Thread nD τ) (st1_4 t) fullShare ((dat m c).before 4 t d))
    ∗ (∃ d, owns (c : Thread nD τ) (st1_5 t) fullShare ((dat m c).before 5 t d)))

/-- and what it returns. -/
def bodyPost (c : Dev nD) (t : Fin cfg1.N) : sProp 𝕄 :=
  iprop((dat m c).Φ t.succ ∗ (dat m c).owesAt () t.succ
    ∗ (dat m c).leaves 0 t ∗ (dat m c).leaves 1 t ∗ (dat m c).leaves 2 t ∗ (dat m c).leaves 3 t ∗ (dat m c).leaves 4 t ∗ (dat m c).leaves 5 t)

theorem leaves0 (c : Dev nD) (t : Fin cfg1.N) : (dat m c).leaves 0 t = owns (c : Thread nD τ) (st1_0 t) fullShare ((dat m c).after 0 t) := rfl
theorem leaves3 (c : Dev nD) (t : Fin cfg1.N) : (dat m c).leaves 3 t = owns (c : Thread nD τ) (st1_3 t) fullShare ((dat m c).after 3 t) := rfl
theorem leaves1 (c : Dev nD) (t : Fin cfg1.N) : (dat m c).leaves 1 t
    = iprop(∃ d, owns (c : Thread nD τ) (st1_1 t) fullShare ((cfg1.win 1).fill (grid1.coords t) d ((cfg1.win 1).cut (grid1.coords t) ((dat m c).after 1 t)))) := rfl
theorem leaves2 (c : Dev nD) (t : Fin cfg1.N) : (dat m c).leaves 2 t
    = iprop(∃ d, owns (c : Thread nD τ) (st1_2 t) fullShare ((cfg1.win 2).fill (grid1.coords t) d ((cfg1.win 2).cut (grid1.coords t) ((dat m c).after 2 t)))) := rfl
theorem leaves4_live (c : Dev nD) (t : Fin cfg1.N) (h : t.val % 10 = 9) :
    (dat m c).leaves 4 t = owns (c : Thread nD τ) (st1_4 t) fullShare ((dat m c).after 4 t) := by
  unfold Dat.leaves; rw [show cfg1.idle 4 (cfg1.grid.coords t) = false from by rw [idle4 t, decide_eq_true h]; rfl]
theorem leaves5_live (c : Dev nD) (t : Fin cfg1.N) (h : t.val % 10 = 9) :
    (dat m c).leaves 5 t = owns (c : Thread nD τ) (st1_5 t) fullShare ((dat m c).after 5 t) := by
  unfold Dat.leaves; rw [show cfg1.idle 5 (cfg1.grid.coords t) = false from by rw [idle5 t, decide_eq_true h]; rfl]
theorem leaves4_idle (c : Dev nD) (t : Fin cfg1.N) (h : ¬t.val % 10 = 9) :
    (dat m c).leaves 4 t = iprop(∃ d, owns (c : Thread nD τ) (st1_4 t) fullShare ((dat m c).before 4 t d)) :=
  (dat m c).leaves_idle 4 t (by rw [idle4 t, decide_eq_false h]; rfl) (by rw [Bool.eq_false_iff]; exact fun hf => h ((flush1_4 t).mp hf))
theorem leaves5_idle (c : Dev nD) (t : Fin cfg1.N) (h : ¬t.val % 10 = 9) :
    (dat m c).leaves 5 t = iprop(∃ d, owns (c : Thread nD τ) (st1_5 t) fullShare ((dat m c).before 5 t d)) :=
  (dat m c).leaves_idle 5 t (by rw [idle5 t, decide_eq_false h]; rfl) (by rw [Bool.eq_false_iff]; exact fun hf => h ((flush1_5 t).mp hf))

theorem after0 (c : Dev nD) (t : Fin cfg1.N) : (dat m c).after 0 t = (cfg1.win 0).fill (grid1.coords t) arb (blkOf m c 0 t) := by dsimp only [dat]
theorem after1 (c : Dev nD) (t : Fin cfg1.N) : (dat m c).after 1 t = (cfg1.win 1).fill (grid1.coords t) arb (blkOf m c 1 t) := by dsimp only [dat]
theorem after2 (c : Dev nD) (t : Fin cfg1.N) : (dat m c).after 2 t = (cfg1.win 2).fill (grid1.coords t) arb (blkOf m c 2 t) := by dsimp only [dat]
theorem after3 (c : Dev nD) (t : Fin cfg1.N) : (dat m c).after 3 t = (cfg1.win 3).fill (grid1.coords t) arb (blkOf m c 3 t) := by dsimp only [dat]
theorem after4 (c : Dev nD) (t : Fin cfg1.N) : (dat m c).after 4 t = (cfg1.win 4).fill (grid1.coords t) arb (((cfg1.win 4).blk t).view.read (Elt Ideal) (lse1 m c)) := by dsimp only [dat]
theorem after5 (c : Dev nD) (t : Fin cfg1.N) : (dat m c).after 5 t = (cfg1.win 5).fill (grid1.coords t) arb (((cfg1.win 5).blk t).view.read (Elt Ideal) (sel1 m c)) := by dsimp only [dat]

/-- An uncut window's buffer is all moved: what fills the rest does not matter. -/
theorem fill0_irrel (c : Dev nD) (t : Fin cfg1.N) (d d') : (cfg1.win 0).fill (grid1.coords t) d (blkOf m c 0 t) = (cfg1.win 0).fill (grid1.coords t) d' (blkOf m c 0 t) := by
  funext j
  have hm : (cfg1.win 0).moved (grid1.coords t) j = true := ((cfg1.win 0).moved_iff _ _).mpr fun a => (j a).isLt
  unfold Window.fill; rw [dif_pos hm, dif_pos hm]
theorem fill3_irrel (c : Dev nD) (t : Fin cfg1.N) (d d') : (cfg1.win 3).fill (grid1.coords t) d (blkOf m c 3 t) = (cfg1.win 3).fill (grid1.coords t) d' (blkOf m c 3 t) := by
  funext j
  have hm : (cfg1.win 3).moved (grid1.coords t) j = true := ((cfg1.win 3).moved_iff _ _).mpr fun a => (j a).isLt
  unfold Window.fill; rw [dif_pos hm, dif_pos hm]

theorem Phi_cast (c : Dev nD) (t : Fin cfg1.N) : (dat m c).Φ t.castSucc = Phi m c t.val := by dsimp only [dat]; simp only [Fin.coe_castSucc]
theorem Phi_succ (c : Dev nD) (t : Fin cfg1.N) : (dat m c).Φ t.succ = Phi m c (t.val + 1) := by dsimp only [dat]; simp only [Fin.val_succ]

section newscratch
variable (c : Dev nD) (t : Fin cfg1.N) (d0 : (cfg1.win 0).block.Idx → Elt Ideal (cfg1.win 0).elt) (d1 : (cfg1.win 1).block.Idx → Elt Ideal (cfg1.win 1).elt)
  (d2 : (cfg1.win 2).block.Idx → Elt Ideal (cfg1.win 2).elt) (d3 : (cfg1.win 3).block.Idx → Elt Ideal (cfg1.win 3).elt)
local notation "xst" => (Window.fill (cfg1.win 0) (grid1.coords t) d0 (blkOf m c 0 t) : Vec Ideal S512x256 .bf16)
local notation "Wst" => (Window.fill (cfg1.win 1) (grid1.coords t) d1 (blkOf m c 1 t) : Vec Ideal S256x4096 .f32)
local notation "bst" => (Window.fill (cfg1.win 2) (grid1.coords t) d2 (blkOf m c 2 t) : Vec Ideal S1x4096 .f32)
local notation "tst" => (Window.fill (cfg1.win 3) (grid1.coords t) d3 (blkOf m c 3 t) : Vec Ideal S512x1 .i32)

omit m in
theorem row_idx (y : S512x1.Idx) : ∃ p : Fin 512, y = ix2 p 0 :=
  ⟨y 0, funext fun a => by
    match a with
    | ⟨0, _⟩ => rfl
    | ⟨1, _⟩ => exact Fin.ext (by have h : (y 1).val < 1 := (y 1).isLt; show (y 1).val = 0; omega)⟩

include d3 in
theorem newM (k : ℕ) (hk : ((grid1.coords t) 1).val = k) :
    k1_pay2 (k1_pay10 (F := Ideal) (grid1.coords t) Wst xst bst (scrM m c (t.val / 10) k)) = scrM m c (t.val / 10) (k + 1) := by
  rw [pay2_eq]; funext y; obtain ⟨p, rfl⟩ := row_idx y
  refine (pay10_row (grid1.coords t) Wst xst bst tst (scrM m c (t.val / 10) k) (scrL m c (t.val / 10) k) (scrS m c (t.val / 10) k) p _ (hX0 m c t d0 d1 d2 p)).trans ?_
  rw [st_eq m c t d3 p k hk]; rfl
include d3 in
theorem newL (k : ℕ) (hk : ((grid1.coords t) 1).val = k) :
    k1_pay1 (k1_pay11 (F := Ideal) (grid1.coords t) Wst xst bst (scrM m c (t.val / 10) k) (scrM m c (t.val / 10) k) (scrL m c (t.val / 10) k)) = scrL m c (t.val / 10) (k + 1) := by
  rw [pay1_eq]; funext y; obtain ⟨p, rfl⟩ := row_idx y
  refine (pay11_row (grid1.coords t) Wst xst bst tst (scrM m c (t.val / 10) k) (scrL m c (t.val / 10) k) (scrS m c (t.val / 10) k) p _ (hX0 m c t d0 d1 d2 p)).trans ?_
  rw [st_eq m c t d3 p k hk]; rfl
theorem newS (k : ℕ) (hk : ((grid1.coords t) 1).val = k) :
    k1_pay3 (F := Ideal) (Scalar.muli (BitVec.ofNat 32 ((grid1.coords t) 1).val) 4096#32) (iota .tc S512x4096 32 [1] iota_S512x4096_d1_w32) (k1_pay8 (grid1.coords t)) (k1_pay9 (grid1.coords t) Wst xst bst) tst (scrS m c (t.val / 10) k) = scrS m c (t.val / 10) (k + 1) := by
  funext y; obtain ⟨p, rfl⟩ := row_idx y
  refine (pay3_row (grid1.coords t) Wst xst bst tst (scrM m c (t.val / 10) k) (scrL m c (t.val / 10) k) (scrS m c (t.val / 10) k) p _ (hX0 m c t d0 d1 d2 p)).trans ?_
  rw [st_eq m c t d3 p k hk]; rfl
end newscratch

set_option maxHeartbeats 1600000 in
/-- A middle column: the scratch at the triple after `k` blocks goes to the triple after `k + 1`; every window's buffer is handed back as found. -/
theorem sound_B (c : Dev nD) (t : Fin cfg1.N) (h0 : ¬t.val % 10 = 0) (h9 : ¬t.val % 10 = 9) :
    bodyPre m c t ⊢ wp frame (wpE (defs₀ (F := Ideal)) Variants.none c none) Set.univ (bodyAt1 t) (fun _ => bodyPost m c t) := by
  unfold bodyPre bodyPost
  have hk := (coords_t t).1
  have e1 : (t.val - 1) / 10 = t.val / 10 := by omega
  have e2 : (t.val + 1 - 1) / 10 = t.val / 10 := by omega
  have e3 : (t.val + 1) % 10 = t.val % 10 + 1 := by omega
  rw [Phi_cast, Phi_succ, Phi_mid m c t.val h0, Phi_mid m c (t.val + 1) (by omega), e1, e2, e3,
    show (dat m c).owesAt () t.succ = (dat m c).owesAt () t.castSucc from rfl,
    leaves0, leaves1, leaves2, leaves3, leaves4_idle m c t h9, leaves5_idle m c t h9,
    after0, after1, after2, after3, Window.cut_fill, Window.cut_fill]
  simp only [before0, before1, before2, before3]
  iintro ⟨⟨⟨HM, HL, HS⟩, Hrest⟩, Ho, ⟨%d0, H0⟩, ⟨%d1, H1⟩, ⟨%d2, H2⟩, ⟨%d3, H3⟩, ⟨%d4, H4⟩, ⟨%d5, H5⟩⟩
  iapply (run1_B c (grid1.coords t) _ _ _ _ _ _ _ _ _ _ _ _ _ _ _ _ _ _ (fun h => h0 ((hfirst t).mp h)) (fun h => h9 ((hlast t).mp h))
    _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HM]; · iexact HM
  isplitl [HL]; · iexact HL
  isplitl [HS]; · iexact HS
  iintro ⟨H0, H1, H2, H3, H4, H5, HM, HL, HS⟩
  rw [newM m c t d0 d1 d2 d3 _ hk, newL m c t d0 d1 d2 d3 _ hk, newS m c t d0 d1 d2 d3 _ hk]
  isplitl [HM HL HS Hrest]
  · isplitr [Hrest]
    · isplitl [HM]; · iexact HM
      isplitl [HL]; · iexact HL
      iexact HS
    · iexact Hrest
  isplitl [Ho]; · iexact Ho
  isplitl [H0]; · rw [fill0_irrel m c t arb d0]; iexact H0
  isplitl [H1]; · iexists d1; iexact H1
  isplitl [H2]; · iexists d2; iexact H2
  isplitl [H3]; · rw [fill3_irrel m c t arb d3]; iexact H3
  isplitl [H4]; · iexists d4; iexact H4
  iexists d5; iexact H5

/-! ## The arrays after the region -/

theorem final_in (c : Dev nD) (w : Fin cfg1.W) (hw : (cfg1.win w).isOut = false) :
    (dat m c).arrAt w cfg1.N = V3 m (outs m) c (Pipeline.arrRef spec1 w) := ((dat m c).arrAt_in w hw _).trans (A_eq m c w)

theorem mem_blk4 (t : Fin cfg1.N) (i : S1024x1.Idx) :
    i ∈ ((cfg1.win 4).blk t).view.set ↔ ∀ a : Fin 2, win1_4.index t a * S512x1.size a ≤ (i a).val ∧ (i a).val < win1_4.index t a * S512x1.size a + S512x1.size a := by
  show i ∈ ((View.whole main_v18_0).slice (win1_4.rect t)).set ↔ _
  rw [View.set_slice_whole, Rect.mem_set_unit]
  exact Iff.rfl
theorem mem_blk5 (t : Fin cfg1.N) (i : S1024x1.Idx) :
    i ∈ ((cfg1.win 5).blk t).view.set ↔ ∀ a : Fin 2, win1_5.index t a * S512x1.size a ≤ (i a).val ∧ (i a).val < win1_5.index t a * S512x1.size a + S512x1.size a := by
  show i ∈ ((View.whole main_v18_1).slice (win1_5.rect t)).set ↔ _
  rw [View.set_slice_whole, Rect.mem_set_unit]
  exact Iff.rfl

/-- Every row lies in the block written back at the last column of its row block. -/
theorem cover4 (i : S1024x1.Idx) : ∃ t : Fin cfg1.N, (cfg1.win 4).flush t = true ∧ i ∈ ((cfg1.win 4).blk t).view.set := by
  have hr : (i 0).val < 1024 := (i 0).isLt
  have h1 : (i 1).val < 1 := (i 1).isLt
  have hN : ((i 0).val / 512) * 10 + 9 < cfg1.N := by rw [show cfg1.N = 20 from N_1]; omega
  refine ⟨⟨((i 0).val / 512) * 10 + 9, hN⟩, (flush1_4 _).mpr (by show (((i 0).val / 512) * 10 + 9) % 10 = 9; omega), ?_⟩
  rw [mem_blk4]; intro a
  have ht : (((i 0).val / 512) * 10 + 9) / 10 = (i 0).val / 512 := by omega
  match a with
  | ⟨0, _⟩ =>
    show win1_4.index ⟨((i 0).val / 512) * 10 + 9, hN⟩ 0 * 512 ≤ (i 0).val ∧ (i 0).val < win1_4.index ⟨((i 0).val / 512) * 10 + 9, hN⟩ 0 * 512 + 512
    rw [(index4 _).1]; show (((i 0).val / 512) * 10 + 9) / 10 * 512 ≤ _ ∧ _ < (((i 0).val / 512) * 10 + 9) / 10 * 512 + 512; rw [ht]; omega
  | ⟨1, _⟩ =>
    show win1_4.index ⟨((i 0).val / 512) * 10 + 9, hN⟩ 1 * 1 ≤ (i 1).val ∧ (i 1).val < win1_4.index ⟨((i 0).val / 512) * 10 + 9, hN⟩ 1 * 1 + 1
    rw [(index4 _).2]; omega
theorem cover5 (i : S1024x1.Idx) : ∃ t : Fin cfg1.N, (cfg1.win 5).flush t = true ∧ i ∈ ((cfg1.win 5).blk t).view.set := by
  have hr : (i 0).val < 1024 := (i 0).isLt
  have h1 : (i 1).val < 1 := (i 1).isLt
  have hN : ((i 0).val / 512) * 10 + 9 < cfg1.N := by rw [show cfg1.N = 20 from N_1]; omega
  refine ⟨⟨((i 0).val / 512) * 10 + 9, hN⟩, (flush1_5 _).mpr (by show (((i 0).val / 512) * 10 + 9) % 10 = 9; omega), ?_⟩
  rw [mem_blk5]; intro a
  have ht : (((i 0).val / 512) * 10 + 9) / 10 = (i 0).val / 512 := by omega
  match a with
  | ⟨0, _⟩ =>
    show win1_5.index ⟨((i 0).val / 512) * 10 + 9, hN⟩ 0 * 512 ≤ (i 0).val ∧ (i 0).val < win1_5.index ⟨((i 0).val / 512) * 10 + 9, hN⟩ 0 * 512 + 512
    rw [(index5 _).1]; show (((i 0).val / 512) * 10 + 9) / 10 * 512 ≤ _ ∧ _ < (((i 0).val / 512) * 10 + 9) / 10 * 512 + 512; rw [ht]; omega
  | ⟨1, _⟩ =>
    show win1_5.index ⟨((i 0).val / 512) * 10 + 9, hN⟩ 1 * 1 ≤ (i 1).val ∧ (i 1).val < win1_5.index ⟨((i 0).val / 512) * 10 + 9, hN⟩ 1 * 1 + 1
    rw [(index5 _).2]; omega

/-- The two output arrays end at the closed forms: each written-back block is its block of them, and the blocks cover. -/
theorem final4 (c : Dev nD) : (dat m c).arrAt 4 cfg1.N = lse1 m c :=
  (dat m c).arrAt_eq_of_cover 4 (lse1 m c) (fun t _ => by
    show (cfg1.win 4).cut (grid1.coords t) ((dat m c).after 4 t) = _; rw [after4, Window.cut_fill]) cover4
theorem final5 (c : Dev nD) : (dat m c).arrAt 5 cfg1.N = sel1 m c :=
  (dat m c).arrAt_eq_of_cover 5 (sel1 m c) (fun t _ => by
    show (cfg1.win 5).cut (grid1.coords t) ((dat m c).after 5 t) = _; rw [after5, Window.cut_fill]) cover5

/-! ## The first and the last column -/

/-- The scratch buffers out of, and back into, the scoped buffers no window stages. -/
theorem scr_unfold (c : Dev nD) :
    (Pipeline.scopedRest (Ix := Unit) (Name := ℕ) (U := UU) (Lvl := ℕ) (Val := Elt Ideal) spec1 c : sProp 𝕄)
      ⊢ iprop(iprop((∃ d, owns (c : Thread nD τ) scM0 fullShare d) ∗ (∃ d, owns (c : Thread nD τ) scM1 fullShare d) ∗ (∃ d, owns (c : Thread nD τ) scM2 fullShare d))
          ∗ Pipeline.scopedRestBut (Ix := Unit) (Name := ℕ) (U := UU) (Lvl := ℕ) (Val := Elt Ideal) spec1 c [cc1_scratch0, cc1_scratch1, cc1_scratch2]) := by
  rw [scopedRest1_split]; simp only [scM0, scM1, scM2, owns_whole]; exact .rfl
theorem scr_fold (c : Dev nD) :
    iprop(iprop((∃ d, owns (c : Thread nD τ) scM0 fullShare d) ∗ (∃ d, owns (c : Thread nD τ) scM1 fullShare d) ∗ (∃ d, owns (c : Thread nD τ) scM2 fullShare d))
          ∗ Pipeline.scopedRestBut (Ix := Unit) (Name := ℕ) (U := UU) (Lvl := ℕ) (Val := Elt Ideal) spec1 c [cc1_scratch0, cc1_scratch1, cc1_scratch2])
      ⊢ (Pipeline.scopedRest (Ix := Unit) (Name := ℕ) (U := UU) (Lvl := ℕ) (Val := Elt Ideal) spec1 c : sProp 𝕄) := by
  rw [scopedRest1_split]; simp only [scM0, scM1, scM2, owns_whole]; exact .rfl

/-- The reset values are the running triple after no block. -/
theorem init_M (c : Dev nD) (rb : ℕ) : (k1_pay5 (F := Ideal) : Vec Ideal S512x1 .f32) = scrM m c rb 0 := by
  funext y; obtain ⟨p, rfl⟩ := row_idx y; rw [pay5_row]; rfl
theorem init_L (c : Dev nD) (rb : ℕ) : (k1_pay6 (F := Ideal) : Vec Ideal S512x1 .f32) = scrL m c rb 0 := by
  funext y; obtain ⟨p, rfl⟩ := row_idx y; rw [pay6_row]; rfl
theorem init_S (c : Dev nD) (rb : ℕ) : (k1_pay7 (F := Ideal) : Vec Ideal S512x1 .f32) = scrS m c rb 0 := by
  funext y; obtain ⟨p, rfl⟩ := row_idx y; rw [pay7_row]; rfl

/-- At the last column the two outputs' buffers get their blocks of the closed forms. -/
theorem out4_eq (c : Dev nD) (t : Fin cfg1.N) :
    k1_pay4 (F := Ideal) (scrM m c (t.val / 10) 10) (scrL m c (t.val / 10) 10)
      = (cfg1.win 4).fill (grid1.coords t) arb (((cfg1.win 4).blk t).view.read (Elt Ideal) (lse1 m c)) := by
  funext y; obtain ⟨p, rfl⟩ := row_idx y
  have hm : (cfg1.win 4).moved (grid1.coords t) (ix2 p 0) = true := ((cfg1.win 4).moved_iff _ _).mpr fun a => by
    match a with
    | ⟨0, _⟩ => exact p.isLt
    | ⟨1, _⟩ => exact (by decide : (0 : ℕ) < 1)
  rw [pay4_row]; unfold Window.fill; rw [dif_pos hm]
  show _ = lse1 m c (((cfg1.win 4).blk t).view.emb _)
  unfold lse1 Spec.lseOnline
  rw [show (((cfg1.win 4).blk t).view.emb (fun a => (⟨((ix2 p 0 : S512x1.Idx) a).val, ((cfg1.win 4).moved_iff (grid1.coords t) (ix2 p 0)).mp hm a⟩ : Fin _))) 0 = rowOf (t.val / 10) p from
    Fin.ext (by show win1_4.index t 0 * 512 + 1 * p.val = _; rw [(index4 t).1, rowOf_t]; omega)]
  rfl
theorem out5_eq (c : Dev nD) (t : Fin cfg1.N) :
    scrS m c (t.val / 10) 10 = (cfg1.win 5).fill (grid1.coords t) arb (((cfg1.win 5).blk t).view.read (Elt Ideal) (sel1 m c)) := by
  funext y; obtain ⟨p, rfl⟩ := row_idx y
  have hm : (cfg1.win 5).moved (grid1.coords t) (ix2 p 0) = true := ((cfg1.win 5).moved_iff _ _).mpr fun a => by
    match a with
    | ⟨0, _⟩ => exact p.isLt
    | ⟨1, _⟩ => exact (by decide : (0 : ℕ) < 1)
  unfold Window.fill; rw [dif_pos hm]
  show _ = sel1 m c (((cfg1.win 5).blk t).view.emb _)
  unfold sel1 Spec.selOnline
  rw [show (((cfg1.win 5).blk t).view.emb (fun a => (⟨((ix2 p 0 : S512x1.Idx) a).val, ((cfg1.win 5).moved_iff (grid1.coords t) (ix2 p 0)).mp hm a⟩ : Fin _))) 0 = rowOf (t.val / 10) p from
    Fin.ext (by show win1_5.index t 0 * 512 + 1 * p.val = _; rw [(index5 t).1, rowOf_t]; omega)]
  rfl

set_option maxHeartbeats 1600000 in
/-- The first column of a row block: the scratch comes at anything, is reset, and leaves at the triple after one block. -/
theorem sound_A (c : Dev nD) (t : Fin cfg1.N) (h0 : t.val % 10 = 0) :
    bodyPre m c t ⊢ wp frame (wpE (defs₀ (F := Ideal)) Variants.none c none) Set.univ (bodyAt1 t) (fun _ => bodyPost m c t) := by
  unfold bodyPre bodyPost
  have hk : ((grid1.coords t) 1).val = 0 := (coords_t t).1.trans h0
  have h9 : ¬t.val % 10 = 9 := by omega
  have e2 : (t.val + 1 - 1) / 10 = t.val / 10 := by omega
  have e3 : (t.val + 1) % 10 = 0 + 1 := by omega
  rw [Phi_cast, Phi_succ, Phi_edge m c t.val h0, Phi_mid m c (t.val + 1) (by omega), e2, e3,
    show (dat m c).owesAt () t.succ = (dat m c).owesAt () t.castSucc from rfl,
    leaves0, leaves1, leaves2, leaves3, leaves4_idle m c t h9, leaves5_idle m c t h9,
    after0, after1, after2, after3, Window.cut_fill, Window.cut_fill]
  simp only [before0, before1, before2, before3]
  iintro ⟨HΦ, Ho, ⟨%d0, H0⟩, ⟨%d1, H1⟩, ⟨%d2, H2⟩, ⟨%d3, H3⟩, ⟨%d4, H4⟩, ⟨%d5, H5⟩⟩
  ihave HΦ' := (scr_unfold c) $$ HΦ
  icases HΦ' with ⟨⟨HM, HL, HS⟩, Hrest⟩
  iapply (run1_A c (grid1.coords t) _ _ _ _ _ _ _ _ _ _ _ _ _ _ _ _ _ _ ((hfirst t).mpr h0) (fun h => h9 ((hlast t).mp h))
    _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HM]; · iexact HM
  isplitl [HL]; · iexact HL
  isplitl [HS]; · iexact HS
  iintro ⟨H0, H1, H2, H3, H4, H5, HM, HL, HS⟩
  rw [init_M m c (t.val / 10), init_L m c (t.val / 10), init_S m c (t.val / 10),
    newM m c t d0 d1 d2 d3 _ hk, newL m c t d0 d1 d2 d3 _ hk, newS m c t d0 d1 d2 d3 _ hk]
  isplitl [HM HL HS Hrest]
  · isplitr [Hrest]
    · isplitl [HM]; · iexact HM
      isplitl [HL]; · iexact HL
      iexact HS
    · iexact Hrest
  isplitl [Ho]; · iexact Ho
  isplitl [H0]; · rw [fill0_irrel m c t arb d0]; iexact H0
  isplitl [H1]; · iexists d1; iexact H1
  isplitl [H2]; · iexists d2; iexact H2
  isplitl [H3]; · rw [fill3_irrel m c t arb d3]; iexact H3
  isplitl [H4]; · iexists d4; iexact H4
  iexists d5; iexact H5

set_option maxHeartbeats 1600000 in
/-- The last column of a row block: the scratch goes to the triple after all blocks, the two outputs' buffers get the
    maximum plus the logarithm of the sum and the pick, and the scratch is given back among the scoped buffers. -/
theorem sound_C (c : Dev nD) (t : Fin cfg1.N) (h0 : ¬t.val % 10 = 0) (h9 : t.val % 10 = 9) :
    bodyPre m c t ⊢ wp frame (wpE (defs₀ (F := Ideal)) Variants.none c none) Set.univ (bodyAt1 t) (fun _ => bodyPost m c t) := by
  unfold bodyPre bodyPost
  have hk : ((grid1.coords t) 1).val = 9 := (coords_t t).1.trans h9
  have e1 : (t.val - 1) / 10 = t.val / 10 := by omega
  rw [Phi_cast, Phi_succ, Phi_mid m c t.val h0, Phi_edge m c (t.val + 1) (by omega), e1, h9,
    show (dat m c).owesAt () t.succ = (dat m c).owesAt () t.castSucc from rfl,
    leaves0, leaves1, leaves2, leaves3, leaves4_live m c t h9, leaves5_live m c t h9,
    after0, after1, after2, after3, after4, after5, Window.cut_fill, Window.cut_fill]
  simp only [before0, before1, before2, before3]
  iintro ⟨⟨⟨HM, HL, HS⟩, Hrest⟩, Ho, ⟨%d0, H0⟩, ⟨%d1, H1⟩, ⟨%d2, H2⟩, ⟨%d3, H3⟩, ⟨%d4, H4⟩, ⟨%d5, H5⟩⟩
  iapply (run1_C c (grid1.coords t) _ _ _ _ _ _ _ _ _ _ _ _ _ _ _ _ _ _ (fun h => h0 ((hfirst t).mp h)) ((hlast t).mpr h9)
    _ _ _ _ _ _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HM]; · iexact HM
  isplitl [HL]; · iexact HL
  isplitl [HS]; · iexact HS
  iintro ⟨H0, H1, H2, H3, H4, H5, HM, HL, HS⟩
  rw [newM m c t d0 d1 d2 d3 _ hk, newL m c t d0 d1 d2 d3 _ hk, newS m c t d0 d1 d2 d3 _ hk, out4_eq m c t, out5_eq m c t]
  isplitl [HM HL HS Hrest]
  · iapply (scr_fold c)
    isplitr [Hrest]
    · isplitl [HM]; · iexists _; iexact HM
      isplitl [HL]; · iexists _; iexact HL
      iexists _; iexact HS
    · iexact Hrest
  isplitl [Ho]; · iexact Ho
  isplitl [H0]; · rw [fill0_irrel m c t arb d0]; iexact H0
  isplitl [H1]; · iexists d1; iexact H1
  isplitl [H2]; · iexists d2; iexact H2
  isplitl [H3]; · rw [fill3_irrel m c t arb d3]; iexact H3
  isplitl [H4]; · iexact H4
  iexact H5

/-- The library's body obligation, at every point: by the column's position in its row block. -/
theorem body_obligation (c : Dev nD) : BodyObligationLoose (dat m c) (defs₀ (F := Ideal)) Variants.none () Set.univ := fun t => by
  rw [bigSep_W1, bigSep_W1]
  by_cases h0 : t.val % 10 = 0
  · exact sound_A m c t h0
  · by_cases h9 : t.val % 10 = 9
    · exact sound_C m c t h0 h9
    · exact sound_B m c t h0 h9

/-! ## The region's ends -/

/-- Proof data for the other pipelines of the program: nothing is asked of it here. -/
def junk {cfg : Cfg sig Λ₀} (c : Dev nD) : Dat τ (Elt Ideal) Unit ℕ UU ℕ cfg c where
  A _ := fun _ => Classical.arbitrary _
  after _ _ := fun _ => Classical.arbitrary _
  Φ _ := BI.emp
  q _ := fullShare
  owed _ := 0

/-- This region's proof data among a family over the program's pipelines (the library's splitting lemmas are stated over a family). -/
def fam : (p : Fin 4) → (c : Dev nD) → Dat τ (Elt Ideal) Unit ℕ UU ℕ (Pipeline.pin (pcfgs (F := Ideal)) adm p) c
  | ⟨0, _⟩ => fun c => junk c
  | ⟨1, _⟩ => fun c => dat m c
  | ⟨2, _⟩ => fun c => junk c
  | ⟨3, _⟩ => fun c => junk c

/-- ENTRY: the region's six arrays split out of the core's unscoped buffers. -/
theorem entry_split (c : Dev nD) :
    (unscopedBufs c (fun b => V3 m (outs m) c b) : sProp 𝕄) ⊢ iprop((dat m c).arrays ((dat m c).arrAt · 0) ∗ Pipeline.unscopedRest spec1 c (fun b => V3 m (outs m) c b)) :=
  Pipeline.arrays_of_unscopedBufs (p := (1 : Fin 4)) (pcfgs (F := Ideal)) adm (fam m) launch1.win launch1.arr_whole c
    ((fam m (1 : Fin 4) c).share_full fun _ => rfl) (fun b => V3 m (outs m) c b) fun _ => rfl

theorem V2_v12_0 (c : Dev nD) : V4 m (outs m) c main_v18_0 = lse1 m c := by
  simp only [V4, Function.update_self, Function.update_of_ne (StableHlo.devRef_ne_of_ne (show main_v18_0 ≠ main_v18_1 by decide) : (Proc.devRef .tc main_v18_0 : DevRef τ sig) ≠ Proc.devRef .tc main_v18_1)]
  exact outs_v18_0 m c (4 : ℕ)
theorem V2_v12_1 (c : Dev nD) : V4 m (outs m) c main_v18_1 = sel1 m c := by
  simp only [V4, Function.update_self]
  exact outs_v18_1 m c (4 : ℕ)

/-- EXIT: the arrays after the last write-back and the unscoped rest are the core's unscoped buffers at the next valuation. -/
theorem exit_join (c : Dev nD) :
    iprop((dat m c).arrays ((dat m c).arrAt · cfg1.N) ∗ Pipeline.unscopedRest spec1 c (fun b => V3 m (outs m) c b)) ⊢ (unscopedBufs c (fun b => V4 m (outs m) c b) : sProp 𝕄) :=
  Pipeline.unscopedBufs_of_arrays (p := (1 : Fin 4)) (pcfgs (F := Ideal)) adm launch1.win launch1.arr_whole c (fam m)
    ((fam m (1 : Fin 4) c).share_full fun _ => rfl) (fun b => V3 m (outs m) c b) (fun b => V4 m (outs m) c b) ((dat m c).arrAt · cfg1.N)
    (fun w => by
      fin_cases w
      · exact (final_in m c 0 rfl).trans (V4_of m (outs m) c main_v15 (by decide)).symm
      · exact (final_in m c 1 rfl).trans (V4_of m (outs m) c main_arg7 (by decide)).symm
      · exact (final_in m c 2 rfl).trans (V4_of m (outs m) c main_v16 (by decide)).symm
      · exact (final_in m c 3 rfl).trans (V4_of m (outs m) c main_v17 (by decide)).symm
      · exact (final4 m c).trans (V2_v12_0 m c).symm
      · exact (final5 m c).trans (V2_v12_1 m c).symm)
    (fun b hb => V4_of m (outs m) c b (by
      intro h
      simp only [List.mem_cons, List.not_mem_nil, or_false] at h
      rcases h with rfl | rfl
      · exact hb (Finset.mem_image.mpr ⟨4, Finset.mem_univ _, rfl⟩)
      · exact hb (Finset.mem_image.mpr ⟨5, Finset.mem_univ _, rfl⟩)))

/-- The invariant at the region's two ends is the scoped buffers no window stages, each at anything. -/
theorem hin (c : Dev nD) : (Pipeline.scopedRest (Ix := Unit) (Name := ℕ) (U := UU) (Lvl := ℕ) (Val := Elt Ideal) spec1 c : sProp 𝕄) ⊢ (dat m c).Φ 0 := by
  rw [show (dat m c).Φ 0 = Phi m c 0 from rfl, Phi_edge m c 0 rfl]
theorem hout (c : Dev nD) : (dat m c).Φ (Fin.last cfg1.N) ⊢ (Pipeline.scopedRest (Ix := Unit) (Name := ℕ) (U := UU) (Lvl := ℕ) (Val := Elt Ideal) spec1 c : sProp 𝕄) := by
  rw [show (dat m c).Φ (Fin.last cfg1.N) = Phi m c cfg1.N from rfl, Phi_edge m c cfg1.N (by rw [show cfg1.N = 20 from N_1])]

end Cert.Proof.KRegion1

end
-- ==== Proof.KBody2.lean ====
import proofs.«407035_j66254165508793_2_alg».proof.Proof.Gen.KernelIdeal.Skeleton
import proofs.«407035_j66254165508793_2_alg».proof.Proof.Spec
import proofs.«407035_j66254165508793_2_alg».proof.Proof.LibRows
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.WordArith

noncomputable section

namespace Cert.Proof.KBody2

open Cert.KernelIdeal Cert.KernelIdeal.Gen Idealize.ShloMosaic ValueIdx Cert.Proof.LibRows

theorem pay1_eq (v : FVec Ideal S256x1 .f32) : k2_pay1 v = v := shapeCast_self v _
theorem pay2_eq (v : FVec Ideal S256x1 .f32) : k2_pay2 v = v := shapeCast_self v _

theorem pay5_row (p : Fin 256) : k2_pay5 (F := Ideal) (ix2 p 0) = (⊥ : EReal) := by
  unfold k2_pay5
  refine (congrFun (shapeCast_self _ _) (ix2 p 0)).trans ?_
  exact ofBits_neg_inf_f32

theorem pay6_row (p : Fin 256) : k2_pay6 (F := Ideal) (ix2 p 0) = (0 : EReal) := by
  unfold k2_pay6
  refine (congrFun (shapeCast_self _ _) (ix2 p 0)).trans ?_
  exact Ideal.ofBits_zero_f32

theorem pay7_row (p : Fin 256) : k2_pay7 (F := Ideal) (ix2 p 0) = (0 : EReal) := by
  unfold k2_pay7
  refine (congrFun (shapeCast_self _ _) (ix2 p 0)).trans ?_
  exact Ideal.ofBits_zero_f32

theorem pay4_row (M L : Vec Ideal S256x1 .f32) (p : Fin 256) :
    k2_pay4 (F := Ideal) M L (ix2 p 0) = M (ix2 p 0) + Ideal.log (L (ix2 p 0)) := rfl

theorem matmul_lane (lhs : FVec Ideal S256x64 .bf16) (rhs : FVec Ideal S64x8192 .bf16) (p : Fin 256) (j : Fin 8192) :
    matmul dot_S256x64_S64x8192_S256x8192_1_0_0_1_n_n none lhs rhs (constant (F := Ideal) S256x8192 .f32 0x00000000#32) (ix2 p j)
      = ∑ kk : Fin 64, lhs (ix2 p kk) * rhs (ix2 kk j) :=
  plain_matmul_entry lhs rhs p j

section step

variable (i : grid2.Coords) (W : Vec Ideal S64x8192 .f32) (x : Vec Ideal S256x64 .bf16)
  (b : Vec Ideal S1x8192 .f32) (tg : Vec Ideal S256x1 .i32) (M L S : Vec Ideal S256x1 .f32) (p : Fin 256)
  (Xp : Fin 120000 → EReal)

abbrev st : EReal × EReal × EReal :=
  Cert.Spec.step (Cert.Spec.blk 8192 120000 Xp (i 1).val) (Cert.Spec.hit 8192 120000 (tg (ix2 p 0)) (i 1).val)
    (M (ix2 p 0), L (ix2 p 0), S (ix2 p 0))

theorem st_fst : (st i tg M L S p Xp).1
    = max (M (ix2 p 0)) (Finset.univ.sup (Cert.Spec.blk 8192 120000 Xp (i 1).val)) := rfl
theorem st_snd : (st i tg M L S p Xp).2.1
    = Ideal.exp (M (ix2 p 0) - (st i tg M L S p Xp).1) * L (ix2 p 0)
      + ∑ j, Ideal.exp (Cert.Spec.blk 8192 120000 Xp (i 1).val j - (st i tg M L S p Xp).1) := rfl
theorem st_trd : (st i tg M L S p Xp).2.2
    = S (ix2 p 0) + ∑ j, (if Cert.Spec.hit 8192 120000 (tg (ix2 p 0)) (i 1).val j
        then Cert.Spec.blk 8192 120000 Xp (i 1).val j else 0) := rfl

theorem valid_lane (j : Fin 8192) :
    k2_pay8 i (ix2 p j) = BitVec.ofBool (decide ((i 1).val * 8192 + j.val < 120000)) := by
  have hk : (i 1).val < 15 := (i 1).isLt
  unfold k2_pay8
  show IntOp.cmpi .slt (IntOp.addi (Scalar.muli (BitVec.ofNat 32 (i 1).val) 8192#32)
    (iota .tc S256x8192 32 [1] iota_S256x8192_d1_w32 (ix2 p j))) 120000#32 = _
  rw [iota_single_apply .tc S256x8192 32 1 iota_S256x8192_d1_w32 (ix2 p j)]
  exact valid_word 8192 120000 (i 1).val j.val (by have := j.isLt; omega) (by omega)

theorem pay9_lane
    (hX : ∀ (j : Fin 8192) (h : (i 1).val * 8192 + j.val < 120000),
      (∑ kk : Fin 64, x (ix2 p kk) * W (ix2 kk j)) + b (ix2 0 j) = Xp ⟨(i 1).val * 8192 + j.val, h⟩)
    (j : Fin 8192) :
    k2_pay9 (F := Ideal) i W x b (ix2 p j) = Cert.Spec.blk 8192 120000 Xp (i 1).val j := by
  unfold k2_pay9
  show Scalar.select (k2_pay8 i (ix2 p j))
      (matmul dot_S256x64_S64x8192_S256x8192_1_0_0_1_n_n none (shapeCast S256x64 x shapeCasts_S256x64_S256x64)
          (truncf .bf16 W bitsLt_bf16_f32) (constant (F := Ideal) S256x8192 .f32 0x00000000#32) (ix2 p j)
        + broadcastTo S256x8192 (shapeCast S1x8192 b shapeCasts_S1x8192_S1x8192) broadcasts_S1x8192_S256x8192 (ix2 p j))
      (Named.named (F := Ideal) κ "neg_big" (φ := .f32) 0xF149F2CA#32) = _
  rw [valid_lane, matmul_lane, broadcastTo_1b_ab_apply, shapeCast_self, shapeCast_self,
    IdealRules.named_const.ideal_named_scalar κ "neg_big" _ ⊥ rfl]
  unfold Cert.Spec.blk
  by_cases h : (i 1).val * 8192 + j.val < 120000
  · rw [dif_pos h, decide_eq_true h]
    exact (select_one _ _).trans (hX j h)
  · rw [dif_neg h, decide_eq_false h]
    exact select_zero _ _

variable (hX : ∀ (j : Fin 8192) (h : (i 1).val * 8192 + j.val < 120000),
      (∑ kk : Fin 64, x (ix2 p kk) * W (ix2 kk j)) + b (ix2 0 j) = Xp ⟨(i 1).val * 8192 + j.val, h⟩)
include hX

theorem pay10_row : k2_pay10 (F := Ideal) i W x b M (ix2 p 0) = (st i tg M L S p Xp).1 := by
  unfold k2_pay10
  refine (maximumf_apply (s := S256x1) (φ := .f32) M _ (ix2 p 0)).trans ?_
  refine (congrArg (max (M (ix2 p 0))) ((rowMax _ _ _ _ _ p).trans ?_)).trans (st_fst i tg M L S p Xp).symm
  exact congrArg Finset.univ.sup (funext fun j => pay9_lane i W x b p Xp hX j)

theorem pay11_row : k2_pay11 (F := Ideal) i W x b M M L (ix2 p 0) = (st i tg M L S p Xp).2.1 := by
  have h10 := pay10_row i W x b tg M L S p Xp hX
  unfold k2_pay11
  refine (addf_apply (s := S256x1) (φ := .f32) _ _ (ix2 p 0)).trans ?_
  refine (congrArg₂ (fun u v : EReal => u + v) ?_ ?_).trans (st_snd i tg M L S p Xp).symm
  · refine (mulf_apply (s := S256x1) (φ := .f32) _ L (ix2 p 0)).trans ?_
    refine congrArg (fun u : EReal => u * L (ix2 p 0)) ?_
    refine (exp_apply (s := S256x1) (φ := .f32) _ (ix2 p 0)).trans (congrArg Ideal.exp ?_)
    refine (subf_apply (s := S256x1) (φ := .f32) M _ (ix2 p 0)).trans ?_
    exact congrArg (fun u : EReal => M (ix2 p 0) - u) h10
  · refine (rowSum _ _ _ _ _ p).trans (Finset.sum_congr rfl fun j _ => ?_)
    refine (exp_apply (s := S256x8192) (φ := .f32) _ (ix2 p j)).trans (congrArg Ideal.exp ?_)
    refine (subf_apply (s := S256x8192) (φ := .f32) _ _ (ix2 p j)).trans ?_
    refine congrArg₂ (fun u v : EReal => u - v) (pay9_lane i W x b p Xp hX j) ?_
    exact (broadcastTo_a1_ab_apply _ _ p j).trans h10

theorem pick_lane (j : Fin 8192) :
    Scalar.select
      (IntOp.andi
        (IntOp.cmpi .eq (iota .tc S256x8192 32 [1] iota_S256x8192_d1_w32 (ix2 p j))
          (broadcastTo S256x8192
            (subi (shapeCast S256x1 tg shapeCasts_S256x1_S256x1)
              (broadcast S256x1 (Scalar.muli (BitVec.ofNat 32 (i 1).val) 8192#32)))
            broadcasts_S256x1_S256x8192 (ix2 p j)))
        (k2_pay8 i (ix2 p j)))
      (k2_pay9 (F := Ideal) i W x b (ix2 p j)) (Scalar.ofBits (F := Ideal) .f32 0x00000000#32)
    = if Cert.Spec.hit 8192 120000 (tg (ix2 p 0)) (i 1).val j then Cert.Spec.blk 8192 120000 Xp (i 1).val j else 0 := by
  rw [broadcastTo_a1_ab_apply, valid_lane, pay9_lane i W x b p Xp hX,
    iota_single_apply .tc S256x8192 32 1 iota_S256x8192_d1_w32 (ix2 p j)]
  show Scalar.select (IntOp.andi (IntOp.cmpi .eq (BitVec.ofNat 32 j.val)
      (IntOp.subi (shapeCast S256x1 tg shapeCasts_S256x1_S256x1 (ix2 p 0))
        (Scalar.muli (BitVec.ofNat 32 (i 1).val) 8192#32))) _) _ (Ideal.ofBits .f32 0x00000000#32) = _
  rw [shapeCast_self, hit_word, WordArith.andi_ofBool, Ideal.ofBits_zero_f32]
  unfold Cert.Spec.hit
  cases ((BitVec.ofNat 32 j.val == tg (ix2 p 0) - BitVec.ofNat 32 ((i 1).val * 8192))
      && decide ((i 1).val * 8192 + j.val < 120000))
  · exact (select_zero _ _).trans (if_neg Bool.false_ne_true).symm
  · exact (select_one _ _).trans (if_pos rfl).symm

theorem pay3_row :
    k2_pay3 (F := Ideal) (Scalar.muli (BitVec.ofNat 32 (i 1).val) 8192#32)
      (iota .tc S256x8192 32 [1] iota_S256x8192_d1_w32) (k2_pay8 i) (k2_pay9 i W x b) tg S (ix2 p 0)
      = (st i tg M L S p Xp).2.2 := by
  unfold k2_pay3
  refine (congrFun (shapeCast_self _ _) (ix2 p 0)).trans ?_
  refine (addf_apply (s := S256x1) (φ := .f32) S _ (ix2 p 0)).trans ?_
  refine (congrArg (fun u : EReal => S (ix2 p 0) + u) ((rowSum _ _ _ _ _ p).trans ?_)).trans
    (st_trd i tg M L S p Xp).symm
  exact Finset.sum_congr rfl fun j _ => pick_lane i W x b tg p Xp hX j

end step

end Cert.Proof.KBody2

end
-- ==== Proof.KRuns2.lean ====
import proofs.«407035_j66254165508793_2_alg».proof.Proof.Gen.KernelIdeal.Regions
import proofs.«407035_j66254165508793_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.Proof.KRuns2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU : Type := UR sig nD τ × Counters

local notation "𝕄" => MT nD τ sig Unit (Elt F) ℕ UU ℕ

abbrev cond2_first (i : grid2.Coords) : Prop :=
  (Scalar.cmpi .ne (Scalar.extui (Scalar.cmpi .eq (BitVec.ofNat 32 (i 1).val) 0#32)) 0#32) = 1#1

theorem hz : (![0, 0] : Fin 2 → Nat) = fun _ => 0 := funext fun a => by fin_cases a <;> rfl

theorem read_writes_last {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

set_option maxHeartbeats 1000000 in

theorem run2_B (c : Dev nD) (i : grid2.Coords)
    (arg2 : Memref sig .tc .vmem S256x64 .bf16) (harg2 : arg2.IsWhole) (arg3 : Memref sig .tc .vmem S64x8192 .f32) (harg3 : arg3.IsWhole)
    (arg4 : Memref sig .tc .vmem S1x8192 .f32) (harg4 : arg4.IsWhole) (arg5 : Memref sig .tc .vmem S256x1 .i32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x1 .f32) (harg8 : arg8.IsWhole) (arg9 : Memref sig .tc .vmem S256x1 .f32) (harg9 : arg9.IsWhole)
    (arg10 : Memref sig .tc .vmem S256x1 .f32) (harg10 : arg10.IsWhole)
    (hc1 : ¬cond2_first i) (hc2 : ¬k2_cond2 i = 1#1)
    (x : Vec F S256x64 .bf16) (W : Vec F S64x8192 .f32) (b : Vec F S1x8192 .f32) (tg : Vec F S256x1 .i32)
    (o6 o7 M L S : Vec F S256x1 .f32) (E : Set ℕ) (K : PUnit → sProp 𝕄) :
    iprop(owns (c : Thread nD τ) arg2 fullShare x ∗ owns (c : Thread nD τ) arg3 fullShare W ∗ owns (c : Thread nD τ) arg4 fullShare b
        ∗ owns (c : Thread nD τ) arg5 fullShare tg ∗ owns (c : Thread nD τ) arg6 fullShare o6 ∗ owns (c : Thread nD τ) arg7 fullShare o7
        ∗ owns (c : Thread nD τ) arg8 fullShare M ∗ owns (c : Thread nD τ) arg9 fullShare L ∗ owns (c : Thread nD τ) arg10 fullShare S
        ∗ (iprop(owns (c : Thread nD τ) arg2 fullShare x ∗ owns (c : Thread nD τ) arg3 fullShare W ∗ owns (c : Thread nD τ) arg4 fullShare b
            ∗ owns (c : Thread nD τ) arg5 fullShare tg ∗ owns (c : Thread nD τ) arg6 fullShare o6 ∗ owns (c : Thread nD τ) arg7 fullShare o7
            ∗ owns (c : Thread nD τ) arg8 fullShare (k2_pay2 (k2_pay10 i W x b M))
            ∗ owns (c : Thread nD τ) arg9 fullShare (k2_pay1 (k2_pay11 i W x b M M L))
            ∗ owns (c : Thread nD τ) arg10 fullShare
                (k2_pay3 (Scalar.muli (BitVec.ofNat 32 (i 1).val) 8192#32) (iota .tc S256x8192 32 [1] iota_S256x8192_d1_w32)
                  (k2_pay8 i) (k2_pay9 i W x b) tg S)) -∗ K ⟨⟩))
      ⊢ wp frame (wpE (defs₀ (F := F)) Variants.none c none) E
          (cc2__cluster_kernel i arg2 harg2 arg3 harg3 arg4 harg4 arg5 harg5 arg6 harg6 arg7 harg7 arg8 harg8 arg9 harg9 arg10 harg10) K := by
  simp only [cc2__cluster_kernel_eq_skeleton]; unfold cc2__cluster_kernel_skel
  simp only [k2_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2)
  sl_step
  iapply Hk
  isplitl [H2]; iexists _; isplitr; rotate_left; iexact H2
  isplitl [H3]; iexists _; isplitr; rotate_left; iexact H3
  isplitl [H4]; iexists _; isplitr; rotate_left; iexact H4
  isplitl [H5]; iexists _; isplitr; rotate_left; iexact H5
  isplitl [H6]; iexists _; isplitr; rotate_left; iexact H6
  isplitl [H7]; iexists _; isplitr; rotate_left; iexact H7
  isplitl [H8]; iexists _; isplitr; rotate_left; iexact H8
  isplitl [H9]; iexists _; isplitr; rotate_left; iexact H9
  iexists _; isplitr; rotate_left; iexact H10
  all_goals
    ipureintro
    try refine (read_writes_last _ _ hz _ _ _).trans ?_
    try sl_unfold_run_names
    simp only [View.readAt_eq_ld, harg2.read_unread, harg3.read_unread, harg4.read_unread, harg5.read_unread,
      harg6.read_unread, harg7.read_unread, harg8.read_unread, harg9.read_unread, harg10.read_unread, View.readCov_unit_zero (S := S256x1) _ hz,
      View.ld_unit_zero (S := S256x64) hz, View.ld_unit_zero (S := S64x8192) hz, View.ld_unit_zero (S := S1x8192) hz,
      View.ld_unit_zero (S := S256x1) hz]

set_option maxHeartbeats 1000000 in

theorem run2_A (c : Dev nD) (i : grid2.Coords)
    (arg2 : Memref sig .tc .vmem S256x64 .bf16) (harg2 : arg2.IsWhole) (arg3 : Memref sig .tc .vmem S64x8192 .f32) (harg3 : arg3.IsWhole)
    (arg4 : Memref sig .tc .vmem S1x8192 .f32) (harg4 : arg4.IsWhole) (arg5 : Memref sig .tc .vmem S256x1 .i32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x1 .f32) (harg8 : arg8.IsWhole) (arg9 : Memref sig .tc .vmem S256x1 .f32) (harg9 : arg9.IsWhole)
    (arg10 : Memref sig .tc .vmem S256x1 .f32) (harg10 : arg10.IsWhole)
    (hc1 : cond2_first i) (hc2 : ¬k2_cond2 i = 1#1)
    (x : Vec F S256x64 .bf16) (W : Vec F S64x8192 .f32) (b : Vec F S1x8192 .f32) (tg : Vec F S256x1 .i32)
    (o6 o7 : Vec F S256x1 .f32) (E : Set ℕ) (K : PUnit → sProp 𝕄) :
    iprop(owns (c : Thread nD τ) arg2 fullShare x ∗ owns (c : Thread nD τ) arg3 fullShare W ∗ owns (c : Thread nD τ) arg4 fullShare b
        ∗ owns (c : Thread nD τ) arg5 fullShare tg ∗ owns (c : Thread nD τ) arg6 fullShare o6 ∗ owns (c : Thread nD τ) arg7 fullShare o7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x ∗ owns (c : Thread nD τ) arg3 fullShare W ∗ owns (c : Thread nD τ) arg4 fullShare b
            ∗ owns (c : Thread nD τ) arg5 fullShare tg ∗ owns (c : Thread nD τ) arg6 fullShare o6 ∗ owns (c : Thread nD τ) arg7 fullShare o7
            ∗ owns (c : Thread nD τ) arg8 fullShare (k2_pay2 (k2_pay10 i W x b k2_pay5))
            ∗ owns (c : Thread nD τ) arg9 fullShare (k2_pay1 (k2_pay11 i W x b k2_pay5 k2_pay5 k2_pay6))
            ∗ owns (c : Thread nD τ) arg10 fullShare (k2_pay3 (Scalar.muli (BitVec.ofNat 32 (i 1).val) 8192#32) (iota .tc S256x8192 32 [1] iota_S256x8192_d1_w32)
                  (k2_pay8 i) (k2_pay9 i W x b) tg k2_pay7)) -∗ K ⟨⟩))
      ⊢ wp frame (wpE (defs₀ (F := F)) Variants.none c none) E
          (cc2__cluster_kernel i arg2 harg2 arg3 harg3 arg4 harg4 arg5 harg5 arg6 harg6 arg7 harg7 arg8 harg8 arg9 harg9 arg10 harg10) K := by
  simp only [cc2__cluster_kernel_eq_skeleton]; unfold cc2__cluster_kernel_skel
  simp only [k2_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H2]; iexists _; isplitr; rotate_left; iexact H2
  isplitl [H3]; iexists _; isplitr; rotate_left; iexact H3
  isplitl [H4]; iexists _; isplitr; rotate_left; iexact H4
  isplitl [H5]; iexists _; isplitr; rotate_left; iexact H5
  isplitl [H6]; iexists _; isplitr; rotate_left; iexact H6
  isplitl [H7]; iexists _; isplitr; rotate_left; iexact H7
  isplitl [H8]; iexists _; isplitr; rotate_left; iexact H8
  isplitl [H9]; iexists _; isplitr; rotate_left; iexact H9
  iexists _; isplitr; rotate_left; iexact H10
  all_goals
    ipureintro
    try refine (read_writes_last _ _ hz _ _ _).trans ?_
    try sl_unfold_run_names
    simp only [View.readAt_eq_ld, harg2.read_unread, harg3.read_unread, harg4.read_unread, harg5.read_unread,
      harg6.read_unread, harg7.read_unread, harg8.read_unread, harg9.read_unread, harg10.read_unread, View.readCov_unit_zero (S := S256x1) _ hz,
      View.ld_unit_zero (S := S256x64) hz, View.ld_unit_zero (S := S64x8192) hz, View.ld_unit_zero (S := S1x8192) hz,
      View.ld_unit_zero (S := S256x1) hz]

set_option maxHeartbeats 1000000 in

theorem run2_C (c : Dev nD) (i : grid2.Coords)
    (arg2 : Memref sig .tc .vmem S256x64 .bf16) (harg2 : arg2.IsWhole) (arg3 : Memref sig .tc .vmem S64x8192 .f32) (harg3 : arg3.IsWhole)
    (arg4 : Memref sig .tc .vmem S1x8192 .f32) (harg4 : arg4.IsWhole) (arg5 : Memref sig .tc .vmem S256x1 .i32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x1 .f32) (harg8 : arg8.IsWhole) (arg9 : Memref sig .tc .vmem S256x1 .f32) (harg9 : arg9.IsWhole)
    (arg10 : Memref sig .tc .vmem S256x1 .f32) (harg10 : arg10.IsWhole)
    (hc1 : ¬cond2_first i) (hc2 : k2_cond2 i = 1#1)
    (x : Vec F S256x64 .bf16) (W : Vec F S64x8192 .f32) (b : Vec F S1x8192 .f32) (tg : Vec F S256x1 .i32)
    (M L S : Vec F S256x1 .f32) (E : Set ℕ) (K : PUnit → sProp 𝕄) :
    iprop(owns (c : Thread nD τ) arg2 fullShare x ∗ owns (c : Thread nD τ) arg3 fullShare W ∗ owns (c : Thread nD τ) arg4 fullShare b
        ∗ owns (c : Thread nD τ) arg5 fullShare tg ∗ (∃ d, owns (c : Thread nD τ) arg6 fullShare d) ∗ (∃ d, owns (c : Thread nD τ) arg7 fullShare d)
        ∗ owns (c : Thread nD τ) arg8 fullShare M ∗ owns (c : Thread nD τ) arg9 fullShare L ∗ owns (c : Thread nD τ) arg10 fullShare S
        ∗ (iprop(owns (c : Thread nD τ) arg2 fullShare x ∗ owns (c : Thread nD τ) arg3 fullShare W ∗ owns (c : Thread nD τ) arg4 fullShare b
            ∗ owns (c : Thread nD τ) arg5 fullShare tg
            ∗ owns (c : Thread nD τ) arg6 fullShare (k2_pay4 (k2_pay2 (k2_pay10 i W x b M)) (k2_pay1 (k2_pay11 i W x b M M L)))
            ∗ owns (c : Thread nD τ) arg7 fullShare (k2_pay3 (Scalar.muli (BitVec.ofNat 32 (i 1).val) 8192#32) (iota .tc S256x8192 32 [1] iota_S256x8192_d1_w32)
                  (k2_pay8 i) (k2_pay9 i W x b) tg S)
            ∗ owns (c : Thread nD τ) arg8 fullShare (k2_pay2 (k2_pay10 i W x b M))
            ∗ owns (c : Thread nD τ) arg9 fullShare (k2_pay1 (k2_pay11 i W x b M M L))
            ∗ owns (c : Thread nD τ) arg10 fullShare (k2_pay3 (Scalar.muli (BitVec.ofNat 32 (i 1).val) 8192#32) (iota .tc S256x8192 32 [1] iota_S256x8192_d1_w32)
                  (k2_pay8 i) (k2_pay9 i W x b) tg S)) -∗ K ⟨⟩))
      ⊢ wp frame (wpE (defs₀ (F := F)) Variants.none c none) E
          (cc2__cluster_kernel i arg2 harg2 arg3 harg3 arg4 harg4 arg5 harg5 arg6 harg6 arg7 harg7 arg8 harg8 arg9 harg9 arg10 harg10) K := by
  simp only [cc2__cluster_kernel_eq_skeleton]; unfold cc2__cluster_kernel_skel
  simp only [k2_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5
  obtain rfl := harg8.eq_unread hf8; obtain rfl := harg9.eq_unread hf9; obtain rfl := harg10.eq_unread hf10
  sl_exec (disch := first | exact hc1 | exact hc2)
  sl_step
  iapply Hk
  isplitl [H2]; iexists _; isplitr; rotate_left; iexact H2
  isplitl [H3]; iexists _; isplitr; rotate_left; iexact H3
  isplitl [H4]; iexists _; isplitr; rotate_left; iexact H4
  isplitl [H5]; iexists _; isplitr; rotate_left; iexact H5
  isplitl [H6]; iexists _; isplitr; rotate_left; iexact H6
  isplitl [H7]; iexists _; isplitr; rotate_left; iexact H7
  isplitl [H8]; iexists _; isplitr; rotate_left; iexact H8
  isplitl [H9]; iexists _; isplitr; rotate_left; iexact H9
  iexists _; isplitr; rotate_left; iexact H10
  all_goals
    ipureintro
    try refine (read_writes_last _ _ hz _ _ _).trans ?_
    try sl_unfold_run_names
    simp only [View.readAt_eq_ld, harg2.read_unread, harg3.read_unread, harg4.read_unread, harg5.read_unread,
      harg6.read_unread, harg7.read_unread, harg8.read_unread, harg9.read_unread, harg10.read_unread, View.readCov_unit_zero (S := S256x1) _ hz,
      View.ld_unit_zero (S := S256x64) hz, View.ld_unit_zero (S := S64x8192) hz, View.ld_unit_zero (S := S1x8192) hz,
      View.ld_unit_zero (S := S256x1) hz]

end Cert.Proof.KRuns2

end
-- ==== Proof.KRegion2.lean ====
/-
  Kernel region 2 (the logits of tail 2): its proof data, the body at every grid point, and its two ends.

  The grid is (row block, column block), 4 × 15 points in row-major order: point `t` is column block `t % 15` of row
  block `t / 15`. The region's three scratch buffers carry, for each of the 256 rows of the current row block, the
  running triple (maximum, rescaled sum of exponentials, pick) of that row's logits over the column blocks done so far
  — `Spec.online` of the row's logits and its shifted label. The invariant between points says exactly this (inside a
  row block), and says nothing of the scratch at the start of a row block, where the body resets it. One point's body,
  run on the staged blocks, takes the triple after `k` blocks to the triple after `k + 1` (the arithmetic is one
  `Spec.step`: the staged weight and bias lanes inside the array are the array's entries there, so the block's logits
  inside the array are the row's logits; the lanes past the array's end are masked to -∞ whatever the staging buffer
  holds there); at the last column block it also stores maximum + log sum and the pick into the two outputs' buffers,
  which are then written back. Every row lies in exactly one written-back block, so the two output arrays end at the
  closed forms `lse2` and `sel2`; the four input arrays are unchanged.
-/
import proofs.«407035_j66254165508793_2_alg».proof.Proof.Gen.KernelIdeal.Regions
import proofs.«407035_j66254165508793_2_alg».proof.Proof.Gen.KernelIdeal.Points
import proofs.«407035_j66254165508793_2_alg».proof.Proof.Gen.KernelIdeal.Skeleton
import proofs.«407035_j66254165508793_2_alg».proof.Proof.Spec
import proofs.«407035_j66254165508793_2_alg».proof.Proof.KOuts
import proofs.«407035_j66254165508793_2_alg».proof.Proof.KBody2
import proofs.«407035_j66254165508793_2_alg».proof.Proof.KRuns2
import proofs.«407035_j66254165508793_2_alg».proof.Proof.KHost
import Idealize.ShloMosaic.Lib.Pipeline.Kit
import Idealize.ShloMosaic.Lib.Pipeline.FrameBody
import Idealize.ShloMosaic.Lib.Pipeline.Value
import Idealize.ShloMosaic.Lib.Pipeline.RegionsLoop
import Idealize.ShloMosaic.Lib.Tactic

set_option quotPrecheck false
set_option maxRecDepth 16384

noncomputable section

namespace Cert.Proof.KRegion2

open Cert.KernelIdeal Cert.KernelIdeal.Gen Cert.Proof.KOuts Cert.Proof.KBody2 Cert.Proof.KRuns2 Cert.Proof.KHost
open Idealize.ShloMosaic Idealize.ShloMosaic.TcCoe Idealize.ShloMosaic.Tactic ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ UU ℕ

variable (m : (ℓ : Loc nD τ sig) → Buf (Elt Ideal) ℓ)

/-! ## The grid, decided -/

theorem coords_t : ∀ t : Fin cfg2.N, ((grid2.coords t) 1).val = t.val % 15 ∧ ((grid2.coords t) 0).val = t.val / 15 :=
  (by decide +kernel : ∀ t : Fin grid2.N, ((grid2.coords t) 1).val = t.val % 15 ∧ ((grid2.coords t) 0).val = t.val / 15)

/-- The row of the 1024 that row `p` of row block `rb` is. -/
def rowOf (rb : ℕ) (p : Fin 256) : Fin 1024 :=
  ⟨(rb % (4)) * 256 + p.val, by have := p.isLt; have := Nat.mod_lt rb (show (4) > 0 by decide); omega⟩

/-- The running triple of row `r` after `k` column blocks. -/
def onl (c : Dev nD) (r : Fin 1024) (k : ℕ) : EReal × EReal × EReal :=
  Spec.online 8192 120000 (X2r m c r) (tr m c r - 60000#32) k

/-- What the three scratch buffers hold after `k` column blocks of row block `rb`. -/
def scrM (c : Dev nD) (rb k : ℕ) : Vec Ideal S256x1 .f32 := fun y => (onl m c (rowOf rb (y 0)) k).1
def scrL (c : Dev nD) (rb k : ℕ) : Vec Ideal S256x1 .f32 := fun y => (onl m c (rowOf rb (y 0)) k).2.1
def scrS (c : Dev nD) (rb k : ℕ) : Vec Ideal S256x1 .f32 := fun y => (onl m c (rowOf rb (y 0)) k).2.2

/-- The scratch operands as memrefs. -/
abbrev scM0 : Memref sig .tc .vmem S256x1 .f32 := Memref.whole cc2_scratch0
abbrev scM1 : Memref sig .tc .vmem S256x1 .f32 := Memref.whole cc2_scratch1
abbrev scM2 : Memref sig .tc .vmem S256x1 .f32 := Memref.whole cc2_scratch2

/-- The invariant before position `n`: at the start of a row block (and at the end of the grid) every scoped buffer no
    window stages at anything; inside a row block the three scratch buffers at the running triple after the column
    blocks done so far, the other scoped buffers at anything. -/
def Phi (c : Dev nD) (n : ℕ) : sProp 𝕄 :=
  if n % 15 = 0 then Pipeline.scopedRest (Ix := Unit) (Name := ℕ) (U := UU) (Lvl := ℕ) (Val := Elt Ideal) spec2 c
  else
    iprop(iprop(owns (c : Thread nD τ) scM0 fullShare (scrM m c ((n - 1) / 15) (n % 15))
        ∗ owns (c : Thread nD τ) scM1 fullShare (scrL m c ((n - 1) / 15) (n % 15))
        ∗ owns (c : Thread nD τ) scM2 fullShare (scrS m c ((n - 1) / 15) (n % 15)))
      ∗ Pipeline.scopedRestBut (Ix := Unit) (Name := ℕ) (U := UU) (Lvl := ℕ) (Val := Elt Ideal) spec2 c [cc2_scratch0, cc2_scratch1, cc2_scratch2])

/-- A filler for the lanes of a staging buffer no transfer moves. -/
def arb {S : Shape} {e : EltTy} : S.Idx → Elt Ideal e := fun _ => Classical.arbitrary _

/-- The proof data: the arrays as the region finds them; after the body each input's buffer at its block (filled out past
    the array's end with words nothing reads), the two outputs' at their blocks of the closed forms; the invariant. -/
def dat (c : Dev nD) : Dat τ (Elt Ideal) Unit ℕ UU ℕ cfg2 c where
  A w := V5 m (outs m) c (Pipeline.arrRef spec2 w)
  after w t := match w with
    | ⟨0, h⟩ => (cfg2.win ⟨0, h⟩).fill (grid2.coords t) arb (((cfg2.win ⟨0, h⟩).blk t).view.read (Elt Ideal) (V5 m (outs m) c (Pipeline.arrRef spec2 ⟨0, h⟩)))
    | ⟨1, h⟩ => (cfg2.win ⟨1, h⟩).fill (grid2.coords t) arb (((cfg2.win ⟨1, h⟩).blk t).view.read (Elt Ideal) (V5 m (outs m) c (Pipeline.arrRef spec2 ⟨1, h⟩)))
    | ⟨2, h⟩ => (cfg2.win ⟨2, h⟩).fill (grid2.coords t) arb (((cfg2.win ⟨2, h⟩).blk t).view.read (Elt Ideal) (V5 m (outs m) c (Pipeline.arrRef spec2 ⟨2, h⟩)))
    | ⟨3, h⟩ => (cfg2.win ⟨3, h⟩).fill (grid2.coords t) arb (((cfg2.win ⟨3, h⟩).blk t).view.read (Elt Ideal) (V5 m (outs m) c (Pipeline.arrRef spec2 ⟨3, h⟩)))
    | ⟨4, h⟩ => (cfg2.win ⟨4, h⟩).fill (grid2.coords t) arb (((cfg2.win ⟨4, h⟩).blk t).view.read (Elt Ideal) (lse2 m c))
    | ⟨5, h⟩ => (cfg2.win ⟨5, h⟩).fill (grid2.coords t) arb (((cfg2.win ⟨5, h⟩).blk t).view.read (Elt Ideal) (sel2 m c))
  Φ t := Phi m c t.val
  q _ := fullShare
  owed _ := 0

theorem A_eq (c : Dev nD) (w : Fin cfg2.W) : (dat m c).A w = V5 m (outs m) c (Pipeline.arrRef spec2 w) := by dsimp only [dat]

/-! ## What the body finds in the inputs' staging buffers -/

/-- The block of window `w`'s array at point `t`, its part inside the array. -/
abbrev blkOf (c : Dev nD) (w : Fin cfg2.W) (t : Fin cfg2.N) : ((cfg2.win w).xblock (grid2.coords t)).Idx → Elt Ideal (cfg2.win w).elt :=
  ((cfg2.win w).blk t).view.read (Elt Ideal) (V5 m (outs m) c (Pipeline.arrRef spec2 w))

theorem before0 (c : Dev nD) (t : Fin cfg2.N) (d) :
    (dat m c).before 0 t d = (cfg2.win 0).fill (grid2.coords t) d (blkOf m c 0 t) :=
  ((dat m c).before_in_eq_fetched 0 rfl (fun _ => rfl) (fun _ _ _ => rfl)
    (fun t => by dsimp only [dat]; exact (cfg2.win 0).cut_fill _ _ _) t d).trans (by unfold Dat.fetched Dat.blockOf; dsimp only [dat])
theorem before3 (c : Dev nD) (t : Fin cfg2.N) (d) :
    (dat m c).before 3 t d = (cfg2.win 3).fill (grid2.coords t) d (blkOf m c 3 t) :=
  ((dat m c).before_in_eq_fetched 3 rfl (fun _ => rfl) (fun _ _ _ => rfl)
    (fun t => by dsimp only [dat]; exact (cfg2.win 3).cut_fill _ _ _) t d).trans (by unfold Dat.fetched Dat.blockOf; dsimp only [dat])
theorem before1 (c : Dev nD) (t : Fin cfg2.N) (d) :
    (dat m c).before 1 t d = (cfg2.win 1).fill (grid2.coords t) d (blkOf m c 1 t) := by
  unfold Dat.before; rw [if_pos (fetch2_1 t)]; unfold Dat.fetched Dat.blockOf; dsimp only [dat]
theorem before2 (c : Dev nD) (t : Fin cfg2.N) (d) :
    (dat m c).before 2 t d = (cfg2.win 2).fill (grid2.coords t) d (blkOf m c 2 t) := by
  unfold Dat.before; rw [if_pos (fetch2_2 t)]; unfold Dat.fetched Dat.blockOf; dsimp only [dat]

/-! ## The staged blocks at an index -/

theorem index0 : ∀ t : Fin cfg2.N, win2_0.index t 0 = t.val / 15 ∧ win2_0.index t 1 = 0 :=
  (by decide +kernel : ∀ t : Fin grid2.N, win2_0.index t 0 = t.val / 15 ∧ win2_0.index t 1 = 0)
theorem index1 : ∀ t : Fin cfg2.N, win2_1.index t 0 = 0 ∧ win2_1.index t 1 = t.val % 15 :=
  (by decide +kernel : ∀ t : Fin grid2.N, win2_1.index t 0 = 0 ∧ win2_1.index t 1 = t.val % 15)
theorem index2 : ∀ t : Fin cfg2.N, win2_2.index t 0 = 0 ∧ win2_2.index t 1 = t.val % 15 :=
  (by decide +kernel : ∀ t : Fin grid2.N, win2_2.index t 0 = 0 ∧ win2_2.index t 1 = t.val % 15)
theorem index3 : ∀ t : Fin cfg2.N, win2_3.index t 0 = t.val / 15 ∧ win2_3.index t 1 = 0 :=
  (by decide +kernel : ∀ t : Fin grid2.N, win2_3.index t 0 = t.val / 15 ∧ win2_3.index t 1 = 0)
theorem index4 : ∀ t : Fin cfg2.N, win2_4.index t 0 = t.val / 15 ∧ win2_4.index t 1 = 0 :=
  (by decide +kernel : ∀ t : Fin grid2.N, win2_4.index t 0 = t.val / 15 ∧ win2_4.index t 1 = 0)
theorem index5 : ∀ t : Fin cfg2.N, win2_5.index t 0 = t.val / 15 ∧ win2_5.index t 1 = 0 :=
  (by decide +kernel : ∀ t : Fin grid2.N, win2_5.index t 0 = t.val / 15 ∧ win2_5.index t 1 = 0)
theorem xsize1 : ∀ t : Fin cfg2.N, win2_1.xsize (grid2.coords t) 0 = (64) ∧ win2_1.xsize (grid2.coords t) 1 = min 8192 (120000 - (t.val % 15) * 8192) :=
  (by decide +kernel : ∀ t : Fin grid2.N, win2_1.xsize (grid2.coords t) 0 = (64) ∧ win2_1.xsize (grid2.coords t) 1 = min 8192 (120000 - (t.val % 15) * 8192))
theorem xsize2 : ∀ t : Fin cfg2.N, win2_2.xsize (grid2.coords t) 0 = 1 ∧ win2_2.xsize (grid2.coords t) 1 = min 8192 (120000 - (t.val % 15) * 8192) :=
  (by decide +kernel : ∀ t : Fin grid2.N, win2_2.xsize (grid2.coords t) 0 = 1 ∧ win2_2.xsize (grid2.coords t) 1 = min 8192 (120000 - (t.val % 15) * 8192))

theorem rowOf_t (t : Fin cfg2.N) (p : Fin 256) : (rowOf (t.val / 15) p).val = (t.val / 15) * 256 + p.val := by
  have := t.isLt; have h : cfg2.N = 60 := N_2; unfold rowOf; show ((t.val / 15) % (4)) * 256 + p.val = _; omega

/-- Lane `(kk, j)` of the staged weight block, for a column inside the array: the array's entry there. -/
theorem Wst_apply (c : Dev nD) (t : Fin cfg2.N) (d) (kk : Fin (64)) (j : Fin 8192) (h : ((grid2.coords t) 1).val * 8192 + j.val < 120000) :
    (cfg2.win 1).fill (grid2.coords t) d (blkOf m c 1 t) (ix2 kk j)
      = (V5 m (outs m) c main_arg10 : S64x120000.Idx → EReal) (ix2 kk ⟨((grid2.coords t) 1).val * 8192 + j.val, h⟩) := by
  have hk := (coords_t t).1
  have hm : (cfg2.win 1).moved (grid2.coords t) (ix2 kk j) = true := ((cfg2.win 1).moved_iff _ _).mpr fun a => by
    match a with
    | ⟨0, _⟩ => show kk.val < win2_1.xsize (grid2.coords t) 0; rw [(xsize1 t).1]; exact kk.isLt
    | ⟨1, _⟩ => show j.val < win2_1.xsize (grid2.coords t) 1; rw [(xsize1 t).2]; have := j.isLt; omega
  unfold Window.fill; rw [dif_pos hm]
  show V5 m (outs m) c main_arg10 (((cfg2.win 1).blk t).view.emb _) = _
  congr 1; funext a; apply Fin.ext
  match a with
  | ⟨0, _⟩ => show win2_1.index t 0 * (64) + 1 * kk.val = kk.val; rw [(index1 t).1]; omega
  | ⟨1, _⟩ => show win2_1.index t 1 * 8192 + 1 * j.val = ((grid2.coords t) 1).val * 8192 + j.val; rw [(index1 t).2]; omega

/-- Lane `j` of the staged bias block, for a column inside the array. -/
theorem bst_apply (c : Dev nD) (t : Fin cfg2.N) (d) (j : Fin 8192) (h : ((grid2.coords t) 1).val * 8192 + j.val < 120000) :
    (cfg2.win 2).fill (grid2.coords t) d (blkOf m c 2 t) (ix2 0 j)
      = (V5 m (outs m) c main_v22 : S1x120000.Idx → EReal) (ix2 0 ⟨((grid2.coords t) 1).val * 8192 + j.val, h⟩) := by
  have hk := (coords_t t).1
  have hm : (cfg2.win 2).moved (grid2.coords t) (ix2 0 j) = true := ((cfg2.win 2).moved_iff _ _).mpr fun a => by
    match a with
    | ⟨0, _⟩ => show 0 < win2_2.xsize (grid2.coords t) 0; rw [(xsize2 t).1]; decide
    | ⟨1, _⟩ => show j.val < win2_2.xsize (grid2.coords t) 1; rw [(xsize2 t).2]; have := j.isLt; omega
  unfold Window.fill; rw [dif_pos hm]
  show V5 m (outs m) c main_v22 (((cfg2.win 2).blk t).view.emb _) = _
  congr 1; funext a; apply Fin.ext
  match a with
  | ⟨0, _⟩ => show win2_2.index t 0 * 1 + 1 * 0 = 0; rw [(index2 t).1]
  | ⟨1, _⟩ => show win2_2.index t 1 * 8192 + 1 * j.val = ((grid2.coords t) 1).val * 8192 + j.val; rw [(index2 t).2]; omega

/-- Entry `(p, kk)` of the staged block of the rows' inputs: the array's row `rowOf`. -/
theorem xst_apply (c : Dev nD) (t : Fin cfg2.N) (d) (p : Fin 256) (kk : Fin (64)) :
    (cfg2.win 0).fill (grid2.coords t) d (blkOf m c 0 t) (ix2 p kk)
      = (V5 m (outs m) c main_v21 : S1024x64.Idx → EReal) (ix2 (rowOf (t.val / 15) p) kk) := by
  have hm : (cfg2.win 0).moved (grid2.coords t) (ix2 p kk) = true := ((cfg2.win 0).moved_iff _ _).mpr fun a => by
    match a with
    | ⟨0, _⟩ => exact p.isLt
    | ⟨1, _⟩ => exact kk.isLt
  unfold Window.fill; rw [dif_pos hm]
  show V5 m (outs m) c main_v21 (((cfg2.win 0).blk t).view.emb _) = _
  congr 1; funext a; apply Fin.ext
  match a with
  | ⟨0, _⟩ => show win2_0.index t 0 * 256 + 1 * p.val = (rowOf (t.val / 15) p).val; rw [(index0 t).1, rowOf_t]; omega
  | ⟨1, _⟩ => show win2_0.index t 1 * (64) + 1 * kk.val = kk.val; rw [(index0 t).2]; omega

/-- Row `p` of the staged block of shifted labels. -/
theorem tst_apply (c : Dev nD) (t : Fin cfg2.N) (d) (p : Fin 256) :
    (cfg2.win 3).fill (grid2.coords t) d (blkOf m c 3 t) (ix2 p 0)
      = (V5 m (outs m) c main_v23 : S1024x1.Idx → BitVec 32) (ix2 (rowOf (t.val / 15) p) 0) := by
  have hm : (cfg2.win 3).moved (grid2.coords t) (ix2 p 0) = true := ((cfg2.win 3).moved_iff _ _).mpr fun a => by
    match a with
    | ⟨0, _⟩ => exact p.isLt
    | ⟨1, _⟩ => exact (by decide : (0 : ℕ) < 1)
  unfold Window.fill; rw [dif_pos hm]
  show V5 m (outs m) c main_v23 (((cfg2.win 3).blk t).view.emb _) = _
  congr 1; funext a; apply Fin.ext
  match a with
  | ⟨0, _⟩ => show win2_3.index t 0 * 256 + 1 * p.val = (rowOf (t.val / 15) p).val; rw [(index3 t).1, rowOf_t]; omega
  | ⟨1, _⟩ => show win2_3.index t 1 * 1 + 1 * 0 = 0; rw [(index3 t).2]

/-- The lanes of a staged block that lie inside the array are the row's logits there. -/
abbrev HX (i : grid2.Coords) (W : Vec Ideal S64x8192 .f32) (x : Vec Ideal S256x64 .bf16) (b : Vec Ideal S1x8192 .f32) (p : Fin 256) (Xp : Fin 120000 → EReal) : Prop :=
  ∀ (j : Fin 8192) (h : (i 1).val * 8192 + j.val < 120000), (∑ kk : Fin (64), x (ix2 p kk) * W (ix2 kk j)) + b (ix2 0 j) = Xp ⟨(i 1).val * 8192 + j.val, h⟩

/-! ## One column step on the staged blocks is one step of the running triple -/

section step
variable (c : Dev nD) (t : Fin cfg2.N) (d0 : (cfg2.win 0).block.Idx → Elt Ideal (cfg2.win 0).elt) (d1 : (cfg2.win 1).block.Idx → Elt Ideal (cfg2.win 1).elt)
  (d2 : (cfg2.win 2).block.Idx → Elt Ideal (cfg2.win 2).elt) (d3 : (cfg2.win 3).block.Idx → Elt Ideal (cfg2.win 3).elt)

/-- The four staged input blocks at point `t`. -/
local notation "xst" => (Window.fill (cfg2.win 0) (grid2.coords t) d0 (blkOf m c 0 t) : Vec Ideal S256x64 .bf16)
local notation "Wst" => (Window.fill (cfg2.win 1) (grid2.coords t) d1 (blkOf m c 1 t) : Vec Ideal S64x8192 .f32)
local notation "bst" => (Window.fill (cfg2.win 2) (grid2.coords t) d2 (blkOf m c 2 t) : Vec Ideal S1x8192 .f32)
local notation "tst" => (Window.fill (cfg2.win 3) (grid2.coords t) d3 (blkOf m c 3 t) : Vec Ideal S256x1 .i32)

/-- The lanes of the staged block inside the array are the row's logits. -/
theorem hX0 (p : Fin 256) : HX (grid2.coords t) Wst xst bst p (X2r m c (rowOf (t.val / 15) p)) := by
  intro j h
  simp only [xst_apply m c t d0 p, Wst_apply m c t d1 _ j h, bst_apply m c t d2 j h]
  rw [in2_x, in2_W, in2_b]
  rfl

/-- The step's state and label read off the scratch contents and the staged labels: one more step of the running triple. -/
theorem st_eq (p : Fin 256) (k : ℕ) (hk : ((grid2.coords t) 1).val = k) :
    st (grid2.coords t) tst (scrM m c (t.val / 15) k) (scrL m c (t.val / 15) k) (scrS m c (t.val / 15) k) p (X2r m c (rowOf (t.val / 15) p))
      = onl m c (rowOf (t.val / 15) p) (k + 1) := by
  subst hk
  unfold st
  rw [tst_apply, in2_t]
  rfl
end step

/-! ## The body obligation -/

theorem hfirst : ∀ t : Fin cfg2.N, cond2_first (grid2.coords t) ↔ t.val % 15 = 0 :=
  (by decide +kernel : ∀ t : Fin grid2.N, cond2_first (grid2.coords t) ↔ t.val % 15 = 0)
theorem hlast : ∀ t : Fin cfg2.N, k2_cond2 (grid2.coords t) = 1#1 ↔ t.val % 15 = 14 :=
  (by decide +kernel : ∀ t : Fin grid2.N, k2_cond2 (grid2.coords t) = 1#1 ↔ t.val % 15 = 14)
theorem idle4 : ∀ t : Fin cfg2.N, cfg2.idle 4 (grid2.coords t) = !decide (t.val % 15 = 14) :=
  (by decide +kernel : ∀ t : Fin grid2.N, cfg2.idle 4 (grid2.coords t) = !decide (t.val % 15 = 14))
theorem idle5 : ∀ t : Fin cfg2.N, cfg2.idle 5 (grid2.coords t) = !decide (t.val % 15 = 14) :=
  (by decide +kernel : ∀ t : Fin grid2.N, cfg2.idle 5 (grid2.coords t) = !decide (t.val % 15 = 14))

theorem Phi_edge (c : Dev nD) (n : ℕ) (h : n % 15 = 0) :
    Phi m c n = Pipeline.scopedRest (Ix := Unit) (Name := ℕ) (U := UU) (Lvl := ℕ) (Val := Elt Ideal) spec2 c := by
  unfold Phi; rw [if_pos h]
theorem Phi_mid (c : Dev nD) (n : ℕ) (h : ¬n % 15 = 0) :
    Phi m c n = iprop(iprop(owns (c : Thread nD τ) scM0 fullShare (scrM m c ((n - 1) / 15) (n % 15))
        ∗ owns (c : Thread nD τ) scM1 fullShare (scrL m c ((n - 1) / 15) (n % 15))
        ∗ owns (c : Thread nD τ) scM2 fullShare (scrS m c ((n - 1) / 15) (n % 15)))
      ∗ Pipeline.scopedRestBut (Ix := Unit) (Name := ℕ) (U := UU) (Lvl := ℕ) (Val := Elt Ideal) spec2 c [cc2_scratch0, cc2_scratch1, cc2_scratch2]) := by
  unfold Phi; rw [if_neg h]

/-- What the body is called with at point `t`, the windows one by one, -/
def bodyPre (c : Dev nD) (t : Fin cfg2.N) : sProp 𝕄 :=
  iprop((dat m c).Φ t.castSucc ∗ (dat m c).owesAt () t.castSucc
    ∗ (∃ d, owns (c : Thread nD τ) (st2_0 t) fullShare ((dat m c).before 0 t d))
    ∗ (∃ d, owns (c : Thread nD τ) (st2_1 t) fullShare ((dat m c).before 1 t d))
    ∗ (∃ d, owns (c : Thread nD τ) (st2_2 t) fullShare ((dat m c).before 2 t d))
    ∗ (∃ d, owns (c : Thread nD τ) (st2_3 t) fullShare ((dat m c).before 3 t d))
    ∗ (∃ d, owns (c : Thread nD τ) (st2_4 t) fullShare ((dat m c).before 4 t d))
    ∗ (∃ d, owns (c : Thread nD τ) (st2_5 t) fullShare ((dat m c).before 5 t d)))

/-- and what it returns. -/
def bodyPost (c : Dev nD) (t : Fin cfg2.N) : sProp 𝕄 :=
  iprop((dat m c).Φ t.succ ∗ (dat m c).owesAt () t.succ
    ∗ (dat m c).leaves 0 t ∗ (dat m c).leaves 1 t ∗ (dat m c).leaves 2 t ∗ (dat m c).leaves 3 t ∗ (dat m c).leaves 4 t ∗ (dat m c).leaves 5 t)

theorem leaves0 (c : Dev nD) (t : Fin cfg2.N) : (dat m c).leaves 0 t = owns (c : Thread nD τ) (st2_0 t) fullShare ((dat m c).after 0 t) := rfl
theorem leaves3 (c : Dev nD) (t : Fin cfg2.N) : (dat m c).leaves 3 t = owns (c : Thread nD τ) (st2_3 t) fullShare ((dat m c).after 3 t) := rfl
theorem leaves1 (c : Dev nD) (t : Fin cfg2.N) : (dat m c).leaves 1 t
    = iprop(∃ d, owns (c : Thread nD τ) (st2_1 t) fullShare ((cfg2.win 1).fill (grid2.coords t) d ((cfg2.win 1).cut (grid2.coords t) ((dat m c).after 1 t)))) := rfl
theorem leaves2 (c : Dev nD) (t : Fin cfg2.N) : (dat m c).leaves 2 t
    = iprop(∃ d, owns (c : Thread nD τ) (st2_2 t) fullShare ((cfg2.win 2).fill (grid2.coords t) d ((cfg2.win 2).cut (grid2.coords t) ((dat m c).after 2 t)))) := rfl
theorem leaves4_live (c : Dev nD) (t : Fin cfg2.N) (h : t.val % 15 = 14) :
    (dat m c).leaves 4 t = owns (c : Thread nD τ) (st2_4 t) fullShare ((dat m c).after 4 t) := by
  unfold Dat.leaves; rw [show cfg2.idle 4 (cfg2.grid.coords t) = false from by rw [idle4 t, decide_eq_true h]; rfl]
theorem leaves5_live (c : Dev nD) (t : Fin cfg2.N) (h : t.val % 15 = 14) :
    (dat m c).leaves 5 t = owns (c : Thread nD τ) (st2_5 t) fullShare ((dat m c).after 5 t) := by
  unfold Dat.leaves; rw [show cfg2.idle 5 (cfg2.grid.coords t) = false from by rw [idle5 t, decide_eq_true h]; rfl]
theorem leaves4_idle (c : Dev nD) (t : Fin cfg2.N) (h : ¬t.val % 15 = 14) :
    (dat m c).leaves 4 t = iprop(∃ d, owns (c : Thread nD τ) (st2_4 t) fullShare ((dat m c).before 4 t d)) :=
  (dat m c).leaves_idle 4 t (by rw [idle4 t, decide_eq_false h]; rfl) (by rw [Bool.eq_false_iff]; exact fun hf => h ((flush2_4 t).mp hf))
theorem leaves5_idle (c : Dev nD) (t : Fin cfg2.N) (h : ¬t.val % 15 = 14) :
    (dat m c).leaves 5 t = iprop(∃ d, owns (c : Thread nD τ) (st2_5 t) fullShare ((dat m c).before 5 t d)) :=
  (dat m c).leaves_idle 5 t (by rw [idle5 t, decide_eq_false h]; rfl) (by rw [Bool.eq_false_iff]; exact fun hf => h ((flush2_5 t).mp hf))

theorem after0 (c : Dev nD) (t : Fin cfg2.N) : (dat m c).after 0 t = (cfg2.win 0).fill (grid2.coords t) arb (blkOf m c 0 t) := by dsimp only [dat]
theorem after1 (c : Dev nD) (t : Fin cfg2.N) : (dat m c).after 1 t = (cfg2.win 1).fill (grid2.coords t) arb (blkOf m c 1 t) := by dsimp only [dat]
theorem after2 (c : Dev nD) (t : Fin cfg2.N) : (dat m c).after 2 t = (cfg2.win 2).fill (grid2.coords t) arb (blkOf m c 2 t) := by dsimp only [dat]
theorem after3 (c : Dev nD) (t : Fin cfg2.N) : (dat m c).after 3 t = (cfg2.win 3).fill (grid2.coords t) arb (blkOf m c 3 t) := by dsimp only [dat]
theorem after4 (c : Dev nD) (t : Fin cfg2.N) : (dat m c).after 4 t = (cfg2.win 4).fill (grid2.coords t) arb (((cfg2.win 4).blk t).view.read (Elt Ideal) (lse2 m c)) := by dsimp only [dat]
theorem after5 (c : Dev nD) (t : Fin cfg2.N) : (dat m c).after 5 t = (cfg2.win 5).fill (grid2.coords t) arb (((cfg2.win 5).blk t).view.read (Elt Ideal) (sel2 m c)) := by dsimp only [dat]

/-- An uncut window's buffer is all moved: what fills the rest does not matter. -/
theorem fill0_irrel (c : Dev nD) (t : Fin cfg2.N) (d d') : (cfg2.win 0).fill (grid2.coords t) d (blkOf m c 0 t) = (cfg2.win 0).fill (grid2.coords t) d' (blkOf m c 0 t) := by
  funext j
  have hm : (cfg2.win 0).moved (grid2.coords t) j = true := ((cfg2.win 0).moved_iff _ _).mpr fun a => (j a).isLt
  unfold Window.fill; rw [dif_pos hm, dif_pos hm]
theorem fill3_irrel (c : Dev nD) (t : Fin cfg2.N) (d d') : (cfg2.win 3).fill (grid2.coords t) d (blkOf m c 3 t) = (cfg2.win 3).fill (grid2.coords t) d' (blkOf m c 3 t) := by
  funext j
  have hm : (cfg2.win 3).moved (grid2.coords t) j = true := ((cfg2.win 3).moved_iff _ _).mpr fun a => (j a).isLt
  unfold Window.fill; rw [dif_pos hm, dif_pos hm]

theorem Phi_cast (c : Dev nD) (t : Fin cfg2.N) : (dat m c).Φ t.castSucc = Phi m c t.val := by dsimp only [dat]; simp only [Fin.coe_castSucc]
theorem Phi_succ (c : Dev nD) (t : Fin cfg2.N) : (dat m c).Φ t.succ = Phi m c (t.val + 1) := by dsimp only [dat]; simp only [Fin.val_succ]

section newscratch
variable (c : Dev nD) (t : Fin cfg2.N) (d0 : (cfg2.win 0).block.Idx → Elt Ideal (cfg2.win 0).elt) (d1 : (cfg2.win 1).block.Idx → Elt Ideal (cfg2.win 1).elt)
  (d2 : (cfg2.win 2).block.Idx → Elt Ideal (cfg2.win 2).elt) (d3 : (cfg2.win 3).block.Idx → Elt Ideal (cfg2.win 3).elt)
local notation "xst" => (Window.fill (cfg2.win 0) (grid2.coords t) d0 (blkOf m c 0 t) : Vec Ideal S256x64 .bf16)
local notation "Wst" => (Window.fill (cfg2.win 1) (grid2.coords t) d1 (blkOf m c 1 t) : Vec Ideal S64x8192 .f32)
local notation "bst" => (Window.fill (cfg2.win 2) (grid2.coords t) d2 (blkOf m c 2 t) : Vec Ideal S1x8192 .f32)
local notation "tst" => (Window.fill (cfg2.win 3) (grid2.coords t) d3 (blkOf m c 3 t) : Vec Ideal S256x1 .i32)

omit m in
theorem row_idx (y : S256x1.Idx) : ∃ p : Fin 256, y = ix2 p 0 :=
  ⟨y 0, funext fun a => by
    match a with
    | ⟨0, _⟩ => rfl
    | ⟨1, _⟩ => exact Fin.ext (by have h : (y 1).val < 1 := (y 1).isLt; show (y 1).val = 0; omega)⟩

include d3 in
theorem newM (k : ℕ) (hk : ((grid2.coords t) 1).val = k) :
    k2_pay2 (k2_pay10 (F := Ideal) (grid2.coords t) Wst xst bst (scrM m c (t.val / 15) k)) = scrM m c (t.val / 15) (k + 1) := by
  rw [pay2_eq]; funext y; obtain ⟨p, rfl⟩ := row_idx y
  refine (pay10_row (grid2.coords t) Wst xst bst tst (scrM m c (t.val / 15) k) (scrL m c (t.val / 15) k) (scrS m c (t.val / 15) k) p _ (hX0 m c t d0 d1 d2 p)).trans ?_
  rw [st_eq m c t d3 p k hk]; rfl
include d3 in
theorem newL (k : ℕ) (hk : ((grid2.coords t) 1).val = k) :
    k2_pay1 (k2_pay11 (F := Ideal) (grid2.coords t) Wst xst bst (scrM m c (t.val / 15) k) (scrM m c (t.val / 15) k) (scrL m c (t.val / 15) k)) = scrL m c (t.val / 15) (k + 1) := by
  rw [pay1_eq]; funext y; obtain ⟨p, rfl⟩ := row_idx y
  refine (pay11_row (grid2.coords t) Wst xst bst tst (scrM m c (t.val / 15) k) (scrL m c (t.val / 15) k) (scrS m c (t.val / 15) k) p _ (hX0 m c t d0 d1 d2 p)).trans ?_
  rw [st_eq m c t d3 p k hk]; rfl
theorem newS (k : ℕ) (hk : ((grid2.coords t) 1).val = k) :
    k2_pay3 (F := Ideal) (Scalar.muli (BitVec.ofNat 32 ((grid2.coords t) 1).val) 8192#32) (iota .tc S256x8192 32 [1] iota_S256x8192_d1_w32) (k2_pay8 (grid2.coords t)) (k2_pay9 (grid2.coords t) Wst xst bst) tst (scrS m c (t.val / 15) k) = scrS m c (t.val / 15) (k + 1) := by
  funext y; obtain ⟨p, rfl⟩ := row_idx y
  refine (pay3_row (grid2.coords t) Wst xst bst tst (scrM m c (t.val / 15) k) (scrL m c (t.val / 15) k) (scrS m c (t.val / 15) k) p _ (hX0 m c t d0 d1 d2 p)).trans ?_
  rw [st_eq m c t d3 p k hk]; rfl
end newscratch

set_option maxHeartbeats 1600000 in
/-- A middle column: the scratch at the triple after `k` blocks goes to the triple after `k + 1`; every window's buffer is handed back as found. -/
theorem sound_B (c : Dev nD) (t : Fin cfg2.N) (h0 : ¬t.val % 15 = 0) (h9 : ¬t.val % 15 = 14) :
    bodyPre m c t ⊢ wp frame (wpE (defs₀ (F := Ideal)) Variants.none c none) Set.univ (bodyAt2 t) (fun _ => bodyPost m c t) := by
  unfold bodyPre bodyPost
  have hk := (coords_t t).1
  have e1 : (t.val - 1) / 15 = t.val / 15 := by omega
  have e2 : (t.val + 1 - 1) / 15 = t.val / 15 := by omega
  have e3 : (t.val + 1) % 15 = t.val % 15 + 1 := by omega
  rw [Phi_cast, Phi_succ, Phi_mid m c t.val h0, Phi_mid m c (t.val + 1) (by omega), e1, e2, e3,
    show (dat m c).owesAt () t.succ = (dat m c).owesAt () t.castSucc from rfl,
    leaves0, leaves1, leaves2, leaves3, leaves4_idle m c t h9, leaves5_idle m c t h9,
    after0, after1, after2, after3, Window.cut_fill, Window.cut_fill]
  simp only [before0, before1, before2, before3]
  iintro ⟨⟨⟨HM, HL, HS⟩, Hrest⟩, Ho, ⟨%d0, H0⟩, ⟨%d1, H1⟩, ⟨%d2, H2⟩, ⟨%d3, H3⟩, ⟨%d4, H4⟩, ⟨%d5, H5⟩⟩
  iapply (run2_B c (grid2.coords t) _ _ _ _ _ _ _ _ _ _ _ _ _ _ _ _ _ _ (fun h => h0 ((hfirst t).mp h)) (fun h => h9 ((hlast t).mp h))
    _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HM]; · iexact HM
  isplitl [HL]; · iexact HL
  isplitl [HS]; · iexact HS
  iintro ⟨H0, H1, H2, H3, H4, H5, HM, HL, HS⟩
  rw [newM m c t d0 d1 d2 d3 _ hk, newL m c t d0 d1 d2 d3 _ hk, newS m c t d0 d1 d2 d3 _ hk]
  isplitl [HM HL HS Hrest]
  · isplitr [Hrest]
    · isplitl [HM]; · iexact HM
      isplitl [HL]; · iexact HL
      iexact HS
    · iexact Hrest
  isplitl [Ho]; · iexact Ho
  isplitl [H0]; · rw [fill0_irrel m c t arb d0]; iexact H0
  isplitl [H1]; · iexists d1; iexact H1
  isplitl [H2]; · iexists d2; iexact H2
  isplitl [H3]; · rw [fill3_irrel m c t arb d3]; iexact H3
  isplitl [H4]; · iexists d4; iexact H4
  iexists d5; iexact H5

/-! ## The arrays after the region -/

theorem final_in (c : Dev nD) (w : Fin cfg2.W) (hw : (cfg2.win w).isOut = false) :
    (dat m c).arrAt w cfg2.N = V5 m (outs m) c (Pipeline.arrRef spec2 w) := ((dat m c).arrAt_in w hw _).trans (A_eq m c w)

theorem mem_blk4 (t : Fin cfg2.N) (i : S1024x1.Idx) :
    i ∈ ((cfg2.win 4).blk t).view.set ↔ ∀ a : Fin 2, win2_4.index t a * S256x1.size a ≤ (i a).val ∧ (i a).val < win2_4.index t a * S256x1.size a + S256x1.size a := by
  show i ∈ ((View.whole main_v24_0).slice (win2_4.rect t)).set ↔ _
  rw [View.set_slice_whole, Rect.mem_set_unit]
  exact Iff.rfl
theorem mem_blk5 (t : Fin cfg2.N) (i : S1024x1.Idx) :
    i ∈ ((cfg2.win 5).blk t).view.set ↔ ∀ a : Fin 2, win2_5.index t a * S256x1.size a ≤ (i a).val ∧ (i a).val < win2_5.index t a * S256x1.size a + S256x1.size a := by
  show i ∈ ((View.whole main_v24_1).slice (win2_5.rect t)).set ↔ _
  rw [View.set_slice_whole, Rect.mem_set_unit]
  exact Iff.rfl

/-- Every row lies in the block written back at the last column of its row block. -/
theorem cover4 (i : S1024x1.Idx) : ∃ t : Fin cfg2.N, (cfg2.win 4).flush t = true ∧ i ∈ ((cfg2.win 4).blk t).view.set := by
  have hr : (i 0).val < 1024 := (i 0).isLt
  have h1 : (i 1).val < 1 := (i 1).isLt
  have hN : ((i 0).val / 256) * 15 + 14 < cfg2.N := by rw [show cfg2.N = 60 from N_2]; omega
  refine ⟨⟨((i 0).val / 256) * 15 + 14, hN⟩, (flush2_4 _).mpr (by show (((i 0).val / 256) * 15 + 14) % 15 = 14; omega), ?_⟩
  rw [mem_blk4]; intro a
  have ht : (((i 0).val / 256) * 15 + 14) / 15 = (i 0).val / 256 := by omega
  match a with
  | ⟨0, _⟩ =>
    show win2_4.index ⟨((i 0).val / 256) * 15 + 14, hN⟩ 0 * 256 ≤ (i 0).val ∧ (i 0).val < win2_4.index ⟨((i 0).val / 256) * 15 + 14, hN⟩ 0 * 256 + 256
    rw [(index4 _).1]; show (((i 0).val / 256) * 15 + 14) / 15 * 256 ≤ _ ∧ _ < (((i 0).val / 256) * 15 + 14) / 15 * 256 + 256; rw [ht]; omega
  | ⟨1, _⟩ =>
    show win2_4.index ⟨((i 0).val / 256) * 15 + 14, hN⟩ 1 * 1 ≤ (i 1).val ∧ (i 1).val < win2_4.index ⟨((i 0).val / 256) * 15 + 14, hN⟩ 1 * 1 + 1
    rw [(index4 _).2]; omega
theorem cover5 (i : S1024x1.Idx) : ∃ t : Fin cfg2.N, (cfg2.win 5).flush t = true ∧ i ∈ ((cfg2.win 5).blk t).view.set := by
  have hr : (i 0).val < 1024 := (i 0).isLt
  have h1 : (i 1).val < 1 := (i 1).isLt
  have hN : ((i 0).val / 256) * 15 + 14 < cfg2.N := by rw [show cfg2.N = 60 from N_2]; omega
  refine ⟨⟨((i 0).val / 256) * 15 + 14, hN⟩, (flush2_5 _).mpr (by show (((i 0).val / 256) * 15 + 14) % 15 = 14; omega), ?_⟩
  rw [mem_blk5]; intro a
  have ht : (((i 0).val / 256) * 15 + 14) / 15 = (i 0).val / 256 := by omega
  match a with
  | ⟨0, _⟩ =>
    show win2_5.index ⟨((i 0).val / 256) * 15 + 14, hN⟩ 0 * 256 ≤ (i 0).val ∧ (i 0).val < win2_5.index ⟨((i 0).val / 256) * 15 + 14, hN⟩ 0 * 256 + 256
    rw [(index5 _).1]; show (((i 0).val / 256) * 15 + 14) / 15 * 256 ≤ _ ∧ _ < (((i 0).val / 256) * 15 + 14) / 15 * 256 + 256; rw [ht]; omega
  | ⟨1, _⟩ =>
    show win2_5.index ⟨((i 0).val / 256) * 15 + 14, hN⟩ 1 * 1 ≤ (i 1).val ∧ (i 1).val < win2_5.index ⟨((i 0).val / 256) * 15 + 14, hN⟩ 1 * 1 + 1
    rw [(index5 _).2]; omega

/-- The two output arrays end at the closed forms: each written-back block is its block of them, and the blocks cover. -/
theorem final4 (c : Dev nD) : (dat m c).arrAt 4 cfg2.N = lse2 m c :=
  (dat m c).arrAt_eq_of_cover 4 (lse2 m c) (fun t _ => by
    show (cfg2.win 4).cut (grid2.coords t) ((dat m c).after 4 t) = _; rw [after4, Window.cut_fill]) cover4
theorem final5 (c : Dev nD) : (dat m c).arrAt 5 cfg2.N = sel2 m c :=
  (dat m c).arrAt_eq_of_cover 5 (sel2 m c) (fun t _ => by
    show (cfg2.win 5).cut (grid2.coords t) ((dat m c).after 5 t) = _; rw [after5, Window.cut_fill]) cover5

/-! ## The first and the last column -/

/-- The scratch buffers out of, and back into, the scoped buffers no window stages. -/
theorem scr_unfold (c : Dev nD) :
    (Pipeline.scopedRest (Ix := Unit) (Name := ℕ) (U := UU) (Lvl := ℕ) (Val := Elt Ideal) spec2 c : sProp 𝕄)
      ⊢ iprop(iprop((∃ d, owns (c : Thread nD τ) scM0 fullShare d) ∗ (∃ d, owns (c : Thread nD τ) scM1 fullShare d) ∗ (∃ d, owns (c : Thread nD τ) scM2 fullShare d))
          ∗ Pipeline.scopedRestBut (Ix := Unit) (Name := ℕ) (U := UU) (Lvl := ℕ) (Val := Elt Ideal) spec2 c [cc2_scratch0, cc2_scratch1, cc2_scratch2]) := by
  rw [scopedRest2_split]; simp only [scM0, scM1, scM2, owns_whole]; exact .rfl
theorem scr_fold (c : Dev nD) :
    iprop(iprop((∃ d, owns (c : Thread nD τ) scM0 fullShare d) ∗ (∃ d, owns (c : Thread nD τ) scM1 fullShare d) ∗ (∃ d, owns (c : Thread nD τ) scM2 fullShare d))
          ∗ Pipeline.scopedRestBut (Ix := Unit) (Name := ℕ) (U := UU) (Lvl := ℕ) (Val := Elt Ideal) spec2 c [cc2_scratch0, cc2_scratch1, cc2_scratch2])
      ⊢ (Pipeline.scopedRest (Ix := Unit) (Name := ℕ) (U := UU) (Lvl := ℕ) (Val := Elt Ideal) spec2 c : sProp 𝕄) := by
  rw [scopedRest2_split]; simp only [scM0, scM1, scM2, owns_whole]; exact .rfl

/-- The reset values are the running triple after no block. -/
theorem init_M (c : Dev nD) (rb : ℕ) : (k2_pay5 (F := Ideal) : Vec Ideal S256x1 .f32) = scrM m c rb 0 := by
  funext y; obtain ⟨p, rfl⟩ := row_idx y; rw [pay5_row]; rfl
theorem init_L (c : Dev nD) (rb : ℕ) : (k2_pay6 (F := Ideal) : Vec Ideal S256x1 .f32) = scrL m c rb 0 := by
  funext y; obtain ⟨p, rfl⟩ := row_idx y; rw [pay6_row]; rfl
theorem init_S (c : Dev nD) (rb : ℕ) : (k2_pay7 (F := Ideal) : Vec Ideal S256x1 .f32) = scrS m c rb 0 := by
  funext y; obtain ⟨p, rfl⟩ := row_idx y; rw [pay7_row]; rfl

/-- At the last column the two outputs' buffers get their blocks of the closed forms. -/
theorem out4_eq (c : Dev nD) (t : Fin cfg2.N) :
    k2_pay4 (F := Ideal) (scrM m c (t.val / 15) 15) (scrL m c (t.val / 15) 15)
      = (cfg2.win 4).fill (grid2.coords t) arb (((cfg2.win 4).blk t).view.read (Elt Ideal) (lse2 m c)) := by
  funext y; obtain ⟨p, rfl⟩ := row_idx y
  have hm : (cfg2.win 4).moved (grid2.coords t) (ix2 p 0) = true := ((cfg2.win 4).moved_iff _ _).mpr fun a => by
    match a with
    | ⟨0, _⟩ => exact p.isLt
    | ⟨1, _⟩ => exact (by decide : (0 : ℕ) < 1)
  rw [pay4_row]; unfold Window.fill; rw [dif_pos hm]
  show _ = lse2 m c (((cfg2.win 4).blk t).view.emb _)
  unfold lse2 Spec.lseOnline
  rw [show (((cfg2.win 4).blk t).view.emb (fun a => (⟨((ix2 p 0 : S256x1.Idx) a).val, ((cfg2.win 4).moved_iff (grid2.coords t) (ix2 p 0)).mp hm a⟩ : Fin _))) 0 = rowOf (t.val / 15) p from
    Fin.ext (by show win2_4.index t 0 * 256 + 1 * p.val = _; rw [(index4 t).1, rowOf_t]; omega)]
  rfl
theorem out5_eq (c : Dev nD) (t : Fin cfg2.N) :
    scrS m c (t.val / 15) 15 = (cfg2.win 5).fill (grid2.coords t) arb (((cfg2.win 5).blk t).view.read (Elt Ideal) (sel2 m c)) := by
  funext y; obtain ⟨p, rfl⟩ := row_idx y
  have hm : (cfg2.win 5).moved (grid2.coords t) (ix2 p 0) = true := ((cfg2.win 5).moved_iff _ _).mpr fun a => by
    match a with
    | ⟨0, _⟩ => exact p.isLt
    | ⟨1, _⟩ => exact (by decide : (0 : ℕ) < 1)
  unfold Window.fill; rw [dif_pos hm]
  show _ = sel2 m c (((cfg2.win 5).blk t).view.emb _)
  unfold sel2 Spec.selOnline
  rw [show (((cfg2.win 5).blk t).view.emb (fun a => (⟨((ix2 p 0 : S256x1.Idx) a).val, ((cfg2.win 5).moved_iff (grid2.coords t) (ix2 p 0)).mp hm a⟩ : Fin _))) 0 = rowOf (t.val / 15) p from
    Fin.ext (by show win2_5.index t 0 * 256 + 1 * p.val = _; rw [(index5 t).1, rowOf_t]; omega)]
  rfl

set_option maxHeartbeats 1600000 in
/-- The first column of a row block: the scratch comes at anything, is reset, and leaves at the triple after one block. -/
theorem sound_A (c : Dev nD) (t : Fin cfg2.N) (h0 : t.val % 15 = 0) :
    bodyPre m c t ⊢ wp frame (wpE (defs₀ (F := Ideal)) Variants.none c none) Set.univ (bodyAt2 t) (fun _ => bodyPost m c t) := by
  unfold bodyPre bodyPost
  have hk : ((grid2.coords t) 1).val = 0 := (coords_t t).1.trans h0
  have h9 : ¬t.val % 15 = 14 := by omega
  have e2 : (t.val + 1 - 1) / 15 = t.val / 15 := by omega
  have e3 : (t.val + 1) % 15 = 0 + 1 := by omega
  rw [Phi_cast, Phi_succ, Phi_edge m c t.val h0, Phi_mid m c (t.val + 1) (by omega), e2, e3,
    show (dat m c).owesAt () t.succ = (dat m c).owesAt () t.castSucc from rfl,
    leaves0, leaves1, leaves2, leaves3, leaves4_idle m c t h9, leaves5_idle m c t h9,
    after0, after1, after2, after3, Window.cut_fill, Window.cut_fill]
  simp only [before0, before1, before2, before3]
  iintro ⟨HΦ, Ho, ⟨%d0, H0⟩, ⟨%d1, H1⟩, ⟨%d2, H2⟩, ⟨%d3, H3⟩, ⟨%d4, H4⟩, ⟨%d5, H5⟩⟩
  ihave HΦ' := (scr_unfold c) $$ HΦ
  icases HΦ' with ⟨⟨HM, HL, HS⟩, Hrest⟩
  iapply (run2_A c (grid2.coords t) _ _ _ _ _ _ _ _ _ _ _ _ _ _ _ _ _ _ ((hfirst t).mpr h0) (fun h => h9 ((hlast t).mp h))
    _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HM]; · iexact HM
  isplitl [HL]; · iexact HL
  isplitl [HS]; · iexact HS
  iintro ⟨H0, H1, H2, H3, H4, H5, HM, HL, HS⟩
  rw [init_M m c (t.val / 15), init_L m c (t.val / 15), init_S m c (t.val / 15),
    newM m c t d0 d1 d2 d3 _ hk, newL m c t d0 d1 d2 d3 _ hk, newS m c t d0 d1 d2 d3 _ hk]
  isplitl [HM HL HS Hrest]
  · isplitr [Hrest]
    · isplitl [HM]; · iexact HM
      isplitl [HL]; · iexact HL
      iexact HS
    · iexact Hrest
  isplitl [Ho]; · iexact Ho
  isplitl [H0]; · rw [fill0_irrel m c t arb d0]; iexact H0
  isplitl [H1]; · iexists d1; iexact H1
  isplitl [H2]; · iexists d2; iexact H2
  isplitl [H3]; · rw [fill3_irrel m c t arb d3]; iexact H3
  isplitl [H4]; · iexists d4; iexact H4
  iexists d5; iexact H5

set_option maxHeartbeats 1600000 in
/-- The last column of a row block: the scratch goes to the triple after all blocks, the two outputs' buffers get the
    maximum plus the logarithm of the sum and the pick, and the scratch is given back among the scoped buffers. -/
theorem sound_C (c : Dev nD) (t : Fin cfg2.N) (h0 : ¬t.val % 15 = 0) (h9 : t.val % 15 = 14) :
    bodyPre m c t ⊢ wp frame (wpE (defs₀ (F := Ideal)) Variants.none c none) Set.univ (bodyAt2 t) (fun _ => bodyPost m c t) := by
  unfold bodyPre bodyPost
  have hk : ((grid2.coords t) 1).val = 14 := (coords_t t).1.trans h9
  have e1 : (t.val - 1) / 15 = t.val / 15 := by omega
  rw [Phi_cast, Phi_succ, Phi_mid m c t.val h0, Phi_edge m c (t.val + 1) (by omega), e1, h9,
    show (dat m c).owesAt () t.succ = (dat m c).owesAt () t.castSucc from rfl,
    leaves0, leaves1, leaves2, leaves3, leaves4_live m c t h9, leaves5_live m c t h9,
    after0, after1, after2, after3, after4, after5, Window.cut_fill, Window.cut_fill]
  simp only [before0, before1, before2, before3]
  iintro ⟨⟨⟨HM, HL, HS⟩, Hrest⟩, Ho, ⟨%d0, H0⟩, ⟨%d1, H1⟩, ⟨%d2, H2⟩, ⟨%d3, H3⟩, ⟨%d4, H4⟩, ⟨%d5, H5⟩⟩
  iapply (run2_C c (grid2.coords t) _ _ _ _ _ _ _ _ _ _ _ _ _ _ _ _ _ _ (fun h => h0 ((hfirst t).mp h)) ((hlast t).mpr h9)
    _ _ _ _ _ _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HM]; · iexact HM
  isplitl [HL]; · iexact HL
  isplitl [HS]; · iexact HS
  iintro ⟨H0, H1, H2, H3, H4, H5, HM, HL, HS⟩
  rw [newM m c t d0 d1 d2 d3 _ hk, newL m c t d0 d1 d2 d3 _ hk, newS m c t d0 d1 d2 d3 _ hk, out4_eq m c t, out5_eq m c t]
  isplitl [HM HL HS Hrest]
  · iapply (scr_fold c)
    isplitr [Hrest]
    · isplitl [HM]; · iexists _; iexact HM
      isplitl [HL]; · iexists _; iexact HL
      iexists _; iexact HS
    · iexact Hrest
  isplitl [Ho]; · iexact Ho
  isplitl [H0]; · rw [fill0_irrel m c t arb d0]; iexact H0
  isplitl [H1]; · iexists d1; iexact H1
  isplitl [H2]; · iexists d2; iexact H2
  isplitl [H3]; · rw [fill3_irrel m c t arb d3]; iexact H3
  isplitl [H4]; · iexact H4
  iexact H5

/-- The library's body obligation, at every point: by the column's position in its row block. -/
theorem body_obligation (c : Dev nD) : BodyObligationLoose (dat m c) (defs₀ (F := Ideal)) Variants.none () Set.univ := fun t => by
  rw [bigSep_W2, bigSep_W2]
  by_cases h0 : t.val % 15 = 0
  · exact sound_A m c t h0
  · by_cases h9 : t.val % 15 = 14
    · exact sound_C m c t h0 h9
    · exact sound_B m c t h0 h9

/-! ## The region's ends -/

/-- Proof data for the other pipelines of the program: nothing is asked of it here. -/
def junk {cfg : Cfg sig Λ₀} (c : Dev nD) : Dat τ (Elt Ideal) Unit ℕ UU ℕ cfg c where
  A _ := fun _ => Classical.arbitrary _
  after _ _ := fun _ => Classical.arbitrary _
  Φ _ := BI.emp
  q _ := fullShare
  owed _ := 0

/-- This region's proof data among a family over the program's pipelines (the library's splitting lemmas are stated over a family). -/
def fam : (p : Fin 4) → (c : Dev nD) → Dat τ (Elt Ideal) Unit ℕ UU ℕ (Pipeline.pin (pcfgs (F := Ideal)) adm p) c
  | ⟨0, _⟩ => fun c => junk c
  | ⟨1, _⟩ => fun c => junk c
  | ⟨2, _⟩ => fun c => dat m c
  | ⟨3, _⟩ => fun c => junk c

/-- ENTRY: the region's six arrays split out of the core's unscoped buffers. -/
theorem entry_split (c : Dev nD) :
    (unscopedBufs c (fun b => V5 m (outs m) c b) : sProp 𝕄) ⊢ iprop((dat m c).arrays ((dat m c).arrAt · 0) ∗ Pipeline.unscopedRest spec2 c (fun b => V5 m (outs m) c b)) :=
  Pipeline.arrays_of_unscopedBufs (p := (2 : Fin 4)) (pcfgs (F := Ideal)) adm (fam m) launch2.win launch2.arr_whole c
    ((fam m (2 : Fin 4) c).share_full fun _ => rfl) (fun b => V5 m (outs m) c b) fun _ => rfl

theorem V2_v12_0 (c : Dev nD) : V6 m (outs m) c main_v24_0 = lse2 m c := by
  simp only [V6, Function.update_self, Function.update_of_ne (StableHlo.devRef_ne_of_ne (show main_v24_0 ≠ main_v24_1 by decide) : (Proc.devRef .tc main_v24_0 : DevRef τ sig) ≠ Proc.devRef .tc main_v24_1)]
  exact outs_v24_0 m c (6 : ℕ)
theorem V2_v12_1 (c : Dev nD) : V6 m (outs m) c main_v24_1 = sel2 m c := by
  simp only [V6, Function.update_self]
  exact outs_v24_1 m c (6 : ℕ)

/-- EXIT: the arrays after the last write-back and the unscoped rest are the core's unscoped buffers at the next valuation. -/
theorem exit_join (c : Dev nD) :
    iprop((dat m c).arrays ((dat m c).arrAt · cfg2.N) ∗ Pipeline.unscopedRest spec2 c (fun b => V5 m (outs m) c b)) ⊢ (unscopedBufs c (fun b => V6 m (outs m) c b) : sProp 𝕄) :=
  Pipeline.unscopedBufs_of_arrays (p := (2 : Fin 4)) (pcfgs (F := Ideal)) adm launch2.win launch2.arr_whole c (fam m)
    ((fam m (2 : Fin 4) c).share_full fun _ => rfl) (fun b => V5 m (outs m) c b) (fun b => V6 m (outs m) c b) ((dat m c).arrAt · cfg2.N)
    (fun w => by
      fin_cases w
      · exact (final_in m c 0 rfl).trans (V6_of m (outs m) c main_v21 (by decide)).symm
      · exact (final_in m c 1 rfl).trans (V6_of m (outs m) c main_arg10 (by decide)).symm
      · exact (final_in m c 2 rfl).trans (V6_of m (outs m) c main_v22 (by decide)).symm
      · exact (final_in m c 3 rfl).trans (V6_of m (outs m) c main_v23 (by decide)).symm
      · exact (final4 m c).trans (V2_v12_0 m c).symm
      · exact (final5 m c).trans (V2_v12_1 m c).symm)
    (fun b hb => V6_of m (outs m) c b (by
      intro h
      simp only [List.mem_cons, List.not_mem_nil, or_false] at h
      rcases h with rfl | rfl
      · exact hb (Finset.mem_image.mpr ⟨4, Finset.mem_univ _, rfl⟩)
      · exact hb (Finset.mem_image.mpr ⟨5, Finset.mem_univ _, rfl⟩)))

/-- The invariant at the region's two ends is the scoped buffers no window stages, each at anything. -/
theorem hin (c : Dev nD) : (Pipeline.scopedRest (Ix := Unit) (Name := ℕ) (U := UU) (Lvl := ℕ) (Val := Elt Ideal) spec2 c : sProp 𝕄) ⊢ (dat m c).Φ 0 := by
  rw [show (dat m c).Φ 0 = Phi m c 0 from rfl, Phi_edge m c 0 rfl]
theorem hout (c : Dev nD) : (dat m c).Φ (Fin.last cfg2.N) ⊢ (Pipeline.scopedRest (Ix := Unit) (Name := ℕ) (U := UU) (Lvl := ℕ) (Val := Elt Ideal) spec2 c : sProp 𝕄) := by
  rw [show (dat m c).Φ (Fin.last cfg2.N) = Phi m c cfg2.N from rfl, Phi_edge m c cfg2.N (by rw [show cfg2.N = 60 from N_2])]

end Cert.Proof.KRegion2

end
-- ==== Proof.KBody3.lean ====
import proofs.«407035_j66254165508793_2_alg».proof.Proof.Gen.KernelIdeal.Skeleton
import proofs.«407035_j66254165508793_2_alg».proof.Proof.Spec
import proofs.«407035_j66254165508793_2_alg».proof.Proof.LibRows
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.WordArith

noncomputable section

namespace Cert.Proof.KBody3

open Cert.KernelIdeal Cert.KernelIdeal.Gen Idealize.ShloMosaic ValueIdx Cert.Proof.LibRows

theorem pay1_eq (v : FVec Ideal S256x1 .f32) : k3_pay1 v = v := shapeCast_self v _
theorem pay2_eq (v : FVec Ideal S256x1 .f32) : k3_pay2 v = v := shapeCast_self v _

theorem pay5_row (p : Fin 256) : k3_pay5 (F := Ideal) (ix2 p 0) = (⊥ : EReal) := by
  unfold k3_pay5
  refine (congrFun (shapeCast_self _ _) (ix2 p 0)).trans ?_
  exact ofBits_neg_inf_f32

theorem pay6_row (p : Fin 256) : k3_pay6 (F := Ideal) (ix2 p 0) = (0 : EReal) := by
  unfold k3_pay6
  refine (congrFun (shapeCast_self _ _) (ix2 p 0)).trans ?_
  exact Ideal.ofBits_zero_f32

theorem pay7_row (p : Fin 256) : k3_pay7 (F := Ideal) (ix2 p 0) = (0 : EReal) := by
  unfold k3_pay7
  refine (congrFun (shapeCast_self _ _) (ix2 p 0)).trans ?_
  exact Ideal.ofBits_zero_f32

theorem pay4_row (M L : Vec Ideal S256x1 .f32) (p : Fin 256) :
    k3_pay4 (F := Ideal) M L (ix2 p 0) = M (ix2 p 0) + Ideal.log (L (ix2 p 0)) := rfl

theorem matmul_lane (lhs : FVec Ideal S256x16 .bf16) (rhs : FVec Ideal S16x8192 .bf16) (p : Fin 256) (j : Fin 8192) :
    matmul dot_S256x16_S16x8192_S256x8192_1_0_0_1_n_n none lhs rhs (constant (F := Ideal) S256x8192 .f32 0x00000000#32) (ix2 p j)
      = ∑ kk : Fin 16, lhs (ix2 p kk) * rhs (ix2 kk j) :=
  plain_matmul_entry lhs rhs p j

section step

variable (i : grid3.Coords) (W : Vec Ideal S16x8192 .f32) (x : Vec Ideal S256x16 .bf16)
  (b : Vec Ideal S1x8192 .f32) (tg : Vec Ideal S256x1 .i32) (M L S : Vec Ideal S256x1 .f32) (p : Fin 256)
  (Xp : Fin 87735 → EReal)

abbrev st : EReal × EReal × EReal :=
  Cert.Spec.step (Cert.Spec.blk 8192 87735 Xp (i 1).val) (Cert.Spec.hit 8192 87735 (tg (ix2 p 0)) (i 1).val)
    (M (ix2 p 0), L (ix2 p 0), S (ix2 p 0))

theorem st_fst : (st i tg M L S p Xp).1
    = max (M (ix2 p 0)) (Finset.univ.sup (Cert.Spec.blk 8192 87735 Xp (i 1).val)) := rfl
theorem st_snd : (st i tg M L S p Xp).2.1
    = Ideal.exp (M (ix2 p 0) - (st i tg M L S p Xp).1) * L (ix2 p 0)
      + ∑ j, Ideal.exp (Cert.Spec.blk 8192 87735 Xp (i 1).val j - (st i tg M L S p Xp).1) := rfl
theorem st_trd : (st i tg M L S p Xp).2.2
    = S (ix2 p 0) + ∑ j, (if Cert.Spec.hit 8192 87735 (tg (ix2 p 0)) (i 1).val j
        then Cert.Spec.blk 8192 87735 Xp (i 1).val j else 0) := rfl

theorem valid_lane (j : Fin 8192) :
    k3_pay8 i (ix2 p j) = BitVec.ofBool (decide ((i 1).val * 8192 + j.val < 87735)) := by
  have hk : (i 1).val < 11 := (i 1).isLt
  unfold k3_pay8
  show IntOp.cmpi .slt (IntOp.addi (Scalar.muli (BitVec.ofNat 32 (i 1).val) 8192#32)
    (iota .tc S256x8192 32 [1] iota_S256x8192_d1_w32 (ix2 p j))) 87735#32 = _
  rw [iota_single_apply .tc S256x8192 32 1 iota_S256x8192_d1_w32 (ix2 p j)]
  exact valid_word 8192 87735 (i 1).val j.val (by have := j.isLt; omega) (by omega)

theorem pay9_lane
    (hX : ∀ (j : Fin 8192) (h : (i 1).val * 8192 + j.val < 87735),
      (∑ kk : Fin 16, x (ix2 p kk) * W (ix2 kk j)) + b (ix2 0 j) = Xp ⟨(i 1).val * 8192 + j.val, h⟩)
    (j : Fin 8192) :
    k3_pay9 (F := Ideal) i W x b (ix2 p j) = Cert.Spec.blk 8192 87735 Xp (i 1).val j := by
  unfold k3_pay9
  show Scalar.select (k3_pay8 i (ix2 p j))
      (matmul dot_S256x16_S16x8192_S256x8192_1_0_0_1_n_n none (shapeCast S256x16 x shapeCasts_S256x16_S256x16)
          (truncf .bf16 W bitsLt_bf16_f32) (constant (F := Ideal) S256x8192 .f32 0x00000000#32) (ix2 p j)
        + broadcastTo S256x8192 (shapeCast S1x8192 b shapeCasts_S1x8192_S1x8192) broadcasts_S1x8192_S256x8192 (ix2 p j))
      (Named.named (F := Ideal) κ "neg_big" (φ := .f32) 0xF149F2CA#32) = _
  rw [valid_lane, matmul_lane, broadcastTo_1b_ab_apply, shapeCast_self, shapeCast_self,
    IdealRules.named_const.ideal_named_scalar κ "neg_big" _ ⊥ rfl]
  unfold Cert.Spec.blk
  by_cases h : (i 1).val * 8192 + j.val < 87735
  · rw [dif_pos h, decide_eq_true h]
    exact (select_one _ _).trans (hX j h)
  · rw [dif_neg h, decide_eq_false h]
    exact select_zero _ _

variable (hX : ∀ (j : Fin 8192) (h : (i 1).val * 8192 + j.val < 87735),
      (∑ kk : Fin 16, x (ix2 p kk) * W (ix2 kk j)) + b (ix2 0 j) = Xp ⟨(i 1).val * 8192 + j.val, h⟩)
include hX

theorem pay10_row : k3_pay10 (F := Ideal) i W x b M (ix2 p 0) = (st i tg M L S p Xp).1 := by
  unfold k3_pay10
  refine (maximumf_apply (s := S256x1) (φ := .f32) M _ (ix2 p 0)).trans ?_
  refine (congrArg (max (M (ix2 p 0))) ((rowMax _ _ _ _ _ p).trans ?_)).trans (st_fst i tg M L S p Xp).symm
  exact congrArg Finset.univ.sup (funext fun j => pay9_lane i W x b p Xp hX j)

theorem pay11_row : k3_pay11 (F := Ideal) i W x b M M L (ix2 p 0) = (st i tg M L S p Xp).2.1 := by
  have h10 := pay10_row i W x b tg M L S p Xp hX
  unfold k3_pay11
  refine (addf_apply (s := S256x1) (φ := .f32) _ _ (ix2 p 0)).trans ?_
  refine (congrArg₂ (fun u v : EReal => u + v) ?_ ?_).trans (st_snd i tg M L S p Xp).symm
  · refine (mulf_apply (s := S256x1) (φ := .f32) _ L (ix2 p 0)).trans ?_
    refine congrArg (fun u : EReal => u * L (ix2 p 0)) ?_
    refine (exp_apply (s := S256x1) (φ := .f32) _ (ix2 p 0)).trans (congrArg Ideal.exp ?_)
    refine (subf_apply (s := S256x1) (φ := .f32) M _ (ix2 p 0)).trans ?_
    exact congrArg (fun u : EReal => M (ix2 p 0) - u) h10
  · refine (rowSum _ _ _ _ _ p).trans (Finset.sum_congr rfl fun j _ => ?_)
    refine (exp_apply (s := S256x8192) (φ := .f32) _ (ix2 p j)).trans (congrArg Ideal.exp ?_)
    refine (subf_apply (s := S256x8192) (φ := .f32) _ _ (ix2 p j)).trans ?_
    refine congrArg₂ (fun u v : EReal => u - v) (pay9_lane i W x b p Xp hX j) ?_
    exact (broadcastTo_a1_ab_apply _ _ p j).trans h10

theorem pick_lane (j : Fin 8192) :
    Scalar.select
      (IntOp.andi
        (IntOp.cmpi .eq (iota .tc S256x8192 32 [1] iota_S256x8192_d1_w32 (ix2 p j))
          (broadcastTo S256x8192
            (subi (shapeCast S256x1 tg shapeCasts_S256x1_S256x1)
              (broadcast S256x1 (Scalar.muli (BitVec.ofNat 32 (i 1).val) 8192#32)))
            broadcasts_S256x1_S256x8192 (ix2 p j)))
        (k3_pay8 i (ix2 p j)))
      (k3_pay9 (F := Ideal) i W x b (ix2 p j)) (Scalar.ofBits (F := Ideal) .f32 0x00000000#32)
    = if Cert.Spec.hit 8192 87735 (tg (ix2 p 0)) (i 1).val j then Cert.Spec.blk 8192 87735 Xp (i 1).val j else 0 := by
  rw [broadcastTo_a1_ab_apply, valid_lane, pay9_lane i W x b p Xp hX,
    iota_single_apply .tc S256x8192 32 1 iota_S256x8192_d1_w32 (ix2 p j)]
  show Scalar.select (IntOp.andi (IntOp.cmpi .eq (BitVec.ofNat 32 j.val)
      (IntOp.subi (shapeCast S256x1 tg shapeCasts_S256x1_S256x1 (ix2 p 0))
        (Scalar.muli (BitVec.ofNat 32 (i 1).val) 8192#32))) _) _ (Ideal.ofBits .f32 0x00000000#32) = _
  rw [shapeCast_self, hit_word, WordArith.andi_ofBool, Ideal.ofBits_zero_f32]
  unfold Cert.Spec.hit
  cases ((BitVec.ofNat 32 j.val == tg (ix2 p 0) - BitVec.ofNat 32 ((i 1).val * 8192))
      && decide ((i 1).val * 8192 + j.val < 87735))
  · exact (select_zero _ _).trans (if_neg Bool.false_ne_true).symm
  · exact (select_one _ _).trans (if_pos rfl).symm

theorem pay3_row :
    k3_pay3 (F := Ideal) (Scalar.muli (BitVec.ofNat 32 (i 1).val) 8192#32)
      (iota .tc S256x8192 32 [1] iota_S256x8192_d1_w32) (k3_pay8 i) (k3_pay9 i W x b) tg S (ix2 p 0)
      = (st i tg M L S p Xp).2.2 := by
  unfold k3_pay3
  refine (congrFun (shapeCast_self _ _) (ix2 p 0)).trans ?_
  refine (addf_apply (s := S256x1) (φ := .f32) S _ (ix2 p 0)).trans ?_
  refine (congrArg (fun u : EReal => S (ix2 p 0) + u) ((rowSum _ _ _ _ _ p).trans ?_)).trans
    (st_trd i tg M L S p Xp).symm
  exact Finset.sum_congr rfl fun j _ => pick_lane i W x b tg p Xp hX j

end step

end Cert.Proof.KBody3

end
-- ==== Proof.KRuns3.lean ====
import proofs.«407035_j66254165508793_2_alg».proof.Proof.Gen.KernelIdeal.Regions
import proofs.«407035_j66254165508793_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.Proof.KRuns3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU : Type := UR sig nD τ × Counters

local notation "𝕄" => MT nD τ sig Unit (Elt F) ℕ UU ℕ

abbrev cond3_first (i : grid3.Coords) : Prop :=
  (Scalar.cmpi .ne (Scalar.extui (Scalar.cmpi .eq (BitVec.ofNat 32 (i 1).val) 0#32)) 0#32) = 1#1

theorem hz : (![0, 0] : Fin 2 → Nat) = fun _ => 0 := funext fun a => by fin_cases a <;> rfl

theorem read_writes_last {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

set_option maxHeartbeats 1000000 in

theorem run3_B (c : Dev nD) (i : grid3.Coords)
    (arg2 : Memref sig .tc .vmem S256x16 .bf16) (harg2 : arg2.IsWhole) (arg3 : Memref sig .tc .vmem S16x8192 .f32) (harg3 : arg3.IsWhole)
    (arg4 : Memref sig .tc .vmem S1x8192 .f32) (harg4 : arg4.IsWhole) (arg5 : Memref sig .tc .vmem S256x1 .i32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x1 .f32) (harg8 : arg8.IsWhole) (arg9 : Memref sig .tc .vmem S256x1 .f32) (harg9 : arg9.IsWhole)
    (arg10 : Memref sig .tc .vmem S256x1 .f32) (harg10 : arg10.IsWhole)
    (hc1 : ¬cond3_first i) (hc2 : ¬k3_cond2 i = 1#1)
    (x : Vec F S256x16 .bf16) (W : Vec F S16x8192 .f32) (b : Vec F S1x8192 .f32) (tg : Vec F S256x1 .i32)
    (o6 o7 M L S : Vec F S256x1 .f32) (E : Set ℕ) (K : PUnit → sProp 𝕄) :
    iprop(owns (c : Thread nD τ) arg2 fullShare x ∗ owns (c : Thread nD τ) arg3 fullShare W ∗ owns (c : Thread nD τ) arg4 fullShare b
        ∗ owns (c : Thread nD τ) arg5 fullShare tg ∗ owns (c : Thread nD τ) arg6 fullShare o6 ∗ owns (c : Thread nD τ) arg7 fullShare o7
        ∗ owns (c : Thread nD τ) arg8 fullShare M ∗ owns (c : Thread nD τ) arg9 fullShare L ∗ owns (c : Thread nD τ) arg10 fullShare S
        ∗ (iprop(owns (c : Thread nD τ) arg2 fullShare x ∗ owns (c : Thread nD τ) arg3 fullShare W ∗ owns (c : Thread nD τ) arg4 fullShare b
            ∗ owns (c : Thread nD τ) arg5 fullShare tg ∗ owns (c : Thread nD τ) arg6 fullShare o6 ∗ owns (c : Thread nD τ) arg7 fullShare o7
            ∗ owns (c : Thread nD τ) arg8 fullShare (k3_pay2 (k3_pay10 i W x b M))
            ∗ owns (c : Thread nD τ) arg9 fullShare (k3_pay1 (k3_pay11 i W x b M M L))
            ∗ owns (c : Thread nD τ) arg10 fullShare
                (k3_pay3 (Scalar.muli (BitVec.ofNat 32 (i 1).val) 8192#32) (iota .tc S256x8192 32 [1] iota_S256x8192_d1_w32)
                  (k3_pay8 i) (k3_pay9 i W x b) tg S)) -∗ K ⟨⟩))
      ⊢ wp frame (wpE (defs₀ (F := F)) Variants.none c none) E
          (cc3__cluster_kernel i arg2 harg2 arg3 harg3 arg4 harg4 arg5 harg5 arg6 harg6 arg7 harg7 arg8 harg8 arg9 harg9 arg10 harg10) K := by
  simp only [cc3__cluster_kernel_eq_skeleton]; unfold cc3__cluster_kernel_skel
  simp only [k3_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2)
  sl_step
  iapply Hk
  isplitl [H2]; iexists _; isplitr; rotate_left; iexact H2
  isplitl [H3]; iexists _; isplitr; rotate_left; iexact H3
  isplitl [H4]; iexists _; isplitr; rotate_left; iexact H4
  isplitl [H5]; iexists _; isplitr; rotate_left; iexact H5
  isplitl [H6]; iexists _; isplitr; rotate_left; iexact H6
  isplitl [H7]; iexists _; isplitr; rotate_left; iexact H7
  isplitl [H8]; iexists _; isplitr; rotate_left; iexact H8
  isplitl [H9]; iexists _; isplitr; rotate_left; iexact H9
  iexists _; isplitr; rotate_left; iexact H10
  all_goals
    ipureintro
    try refine (read_writes_last _ _ hz _ _ _).trans ?_
    try sl_unfold_run_names
    simp only [View.readAt_eq_ld, harg2.read_unread, harg3.read_unread, harg4.read_unread, harg5.read_unread,
      harg6.read_unread, harg7.read_unread, harg8.read_unread, harg9.read_unread, harg10.read_unread, View.readCov_unit_zero (S := S256x1) _ hz,
      View.ld_unit_zero (S := S256x16) hz, View.ld_unit_zero (S := S16x8192) hz, View.ld_unit_zero (S := S1x8192) hz,
      View.ld_unit_zero (S := S256x1) hz]

set_option maxHeartbeats 1000000 in

theorem run3_A (c : Dev nD) (i : grid3.Coords)
    (arg2 : Memref sig .tc .vmem S256x16 .bf16) (harg2 : arg2.IsWhole) (arg3 : Memref sig .tc .vmem S16x8192 .f32) (harg3 : arg3.IsWhole)
    (arg4 : Memref sig .tc .vmem S1x8192 .f32) (harg4 : arg4.IsWhole) (arg5 : Memref sig .tc .vmem S256x1 .i32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x1 .f32) (harg8 : arg8.IsWhole) (arg9 : Memref sig .tc .vmem S256x1 .f32) (harg9 : arg9.IsWhole)
    (arg10 : Memref sig .tc .vmem S256x1 .f32) (harg10 : arg10.IsWhole)
    (hc1 : cond3_first i) (hc2 : ¬k3_cond2 i = 1#1)
    (x : Vec F S256x16 .bf16) (W : Vec F S16x8192 .f32) (b : Vec F S1x8192 .f32) (tg : Vec F S256x1 .i32)
    (o6 o7 : Vec F S256x1 .f32) (E : Set ℕ) (K : PUnit → sProp 𝕄) :
    iprop(owns (c : Thread nD τ) arg2 fullShare x ∗ owns (c : Thread nD τ) arg3 fullShare W ∗ owns (c : Thread nD τ) arg4 fullShare b
        ∗ owns (c : Thread nD τ) arg5 fullShare tg ∗ owns (c : Thread nD τ) arg6 fullShare o6 ∗ owns (c : Thread nD τ) arg7 fullShare o7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x ∗ owns (c : Thread nD τ) arg3 fullShare W ∗ owns (c : Thread nD τ) arg4 fullShare b
            ∗ owns (c : Thread nD τ) arg5 fullShare tg ∗ owns (c : Thread nD τ) arg6 fullShare o6 ∗ owns (c : Thread nD τ) arg7 fullShare o7
            ∗ owns (c : Thread nD τ) arg8 fullShare (k3_pay2 (k3_pay10 i W x b k3_pay5))
            ∗ owns (c : Thread nD τ) arg9 fullShare (k3_pay1 (k3_pay11 i W x b k3_pay5 k3_pay5 k3_pay6))
            ∗ owns (c : Thread nD τ) arg10 fullShare (k3_pay3 (Scalar.muli (BitVec.ofNat 32 (i 1).val) 8192#32) (iota .tc S256x8192 32 [1] iota_S256x8192_d1_w32)
                  (k3_pay8 i) (k3_pay9 i W x b) tg k3_pay7)) -∗ K ⟨⟩))
      ⊢ wp frame (wpE (defs₀ (F := F)) Variants.none c none) E
          (cc3__cluster_kernel i arg2 harg2 arg3 harg3 arg4 harg4 arg5 harg5 arg6 harg6 arg7 harg7 arg8 harg8 arg9 harg9 arg10 harg10) K := by
  simp only [cc3__cluster_kernel_eq_skeleton]; unfold cc3__cluster_kernel_skel
  simp only [k3_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H2]; iexists _; isplitr; rotate_left; iexact H2
  isplitl [H3]; iexists _; isplitr; rotate_left; iexact H3
  isplitl [H4]; iexists _; isplitr; rotate_left; iexact H4
  isplitl [H5]; iexists _; isplitr; rotate_left; iexact H5
  isplitl [H6]; iexists _; isplitr; rotate_left; iexact H6
  isplitl [H7]; iexists _; isplitr; rotate_left; iexact H7
  isplitl [H8]; iexists _; isplitr; rotate_left; iexact H8
  isplitl [H9]; iexists _; isplitr; rotate_left; iexact H9
  iexists _; isplitr; rotate_left; iexact H10
  all_goals
    ipureintro
    try refine (read_writes_last _ _ hz _ _ _).trans ?_
    try sl_unfold_run_names
    simp only [View.readAt_eq_ld, harg2.read_unread, harg3.read_unread, harg4.read_unread, harg5.read_unread,
      harg6.read_unread, harg7.read_unread, harg8.read_unread, harg9.read_unread, harg10.read_unread, View.readCov_unit_zero (S := S256x1) _ hz,
      View.ld_unit_zero (S := S256x16) hz, View.ld_unit_zero (S := S16x8192) hz, View.ld_unit_zero (S := S1x8192) hz,
      View.ld_unit_zero (S := S256x1) hz]

set_option maxHeartbeats 1000000 in

theorem run3_C (c : Dev nD) (i : grid3.Coords)
    (arg2 : Memref sig .tc .vmem S256x16 .bf16) (harg2 : arg2.IsWhole) (arg3 : Memref sig .tc .vmem S16x8192 .f32) (harg3 : arg3.IsWhole)
    (arg4 : Memref sig .tc .vmem S1x8192 .f32) (harg4 : arg4.IsWhole) (arg5 : Memref sig .tc .vmem S256x1 .i32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x1 .f32) (harg8 : arg8.IsWhole) (arg9 : Memref sig .tc .vmem S256x1 .f32) (harg9 : arg9.IsWhole)
    (arg10 : Memref sig .tc .vmem S256x1 .f32) (harg10 : arg10.IsWhole)
    (hc1 : ¬cond3_first i) (hc2 : k3_cond2 i = 1#1)
    (x : Vec F S256x16 .bf16) (W : Vec F S16x8192 .f32) (b : Vec F S1x8192 .f32) (tg : Vec F S256x1 .i32)
    (M L S : Vec F S256x1 .f32) (E : Set ℕ) (K : PUnit → sProp 𝕄) :
    iprop(owns (c : Thread nD τ) arg2 fullShare x ∗ owns (c : Thread nD τ) arg3 fullShare W ∗ owns (c : Thread nD τ) arg4 fullShare b
        ∗ owns (c : Thread nD τ) arg5 fullShare tg ∗ (∃ d, owns (c : Thread nD τ) arg6 fullShare d) ∗ (∃ d, owns (c : Thread nD τ) arg7 fullShare d)
        ∗ owns (c : Thread nD τ) arg8 fullShare M ∗ owns (c : Thread nD τ) arg9 fullShare L ∗ owns (c : Thread nD τ) arg10 fullShare S
        ∗ (iprop(owns (c : Thread nD τ) arg2 fullShare x ∗ owns (c : Thread nD τ) arg3 fullShare W ∗ owns (c : Thread nD τ) arg4 fullShare b
            ∗ owns (c : Thread nD τ) arg5 fullShare tg
            ∗ owns (c : Thread nD τ) arg6 fullShare (k3_pay4 (k3_pay2 (k3_pay10 i W x b M)) (k3_pay1 (k3_pay11 i W x b M M L)))
            ∗ owns (c : Thread nD τ) arg7 fullShare (k3_pay3 (Scalar.muli (BitVec.ofNat 32 (i 1).val) 8192#32) (iota .tc S256x8192 32 [1] iota_S256x8192_d1_w32)
                  (k3_pay8 i) (k3_pay9 i W x b) tg S)
            ∗ owns (c : Thread nD τ) arg8 fullShare (k3_pay2 (k3_pay10 i W x b M))
            ∗ owns (c : Thread nD τ) arg9 fullShare (k3_pay1 (k3_pay11 i W x b M M L))
            ∗ owns (c : Thread nD τ) arg10 fullShare (k3_pay3 (Scalar.muli (BitVec.ofNat 32 (i 1).val) 8192#32) (iota .tc S256x8192 32 [1] iota_S256x8192_d1_w32)
                  (k3_pay8 i) (k3_pay9 i W x b) tg S)) -∗ K ⟨⟩))
      ⊢ wp frame (wpE (defs₀ (F := F)) Variants.none c none) E
          (cc3__cluster_kernel i arg2 harg2 arg3 harg3 arg4 harg4 arg5 harg5 arg6 harg6 arg7 harg7 arg8 harg8 arg9 harg9 arg10 harg10) K := by
  simp only [cc3__cluster_kernel_eq_skeleton]; unfold cc3__cluster_kernel_skel
  simp only [k3_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5
  obtain rfl := harg8.eq_unread hf8; obtain rfl := harg9.eq_unread hf9; obtain rfl := harg10.eq_unread hf10
  sl_exec (disch := first | exact hc1 | exact hc2)
  sl_step
  iapply Hk
  isplitl [H2]; iexists _; isplitr; rotate_left; iexact H2
  isplitl [H3]; iexists _; isplitr; rotate_left; iexact H3
  isplitl [H4]; iexists _; isplitr; rotate_left; iexact H4
  isplitl [H5]; iexists _; isplitr; rotate_left; iexact H5
  isplitl [H6]; iexists _; isplitr; rotate_left; iexact H6
  isplitl [H7]; iexists _; isplitr; rotate_left; iexact H7
  isplitl [H8]; iexists _; isplitr; rotate_left; iexact H8
  isplitl [H9]; iexists _; isplitr; rotate_left; iexact H9
  iexists _; isplitr; rotate_left; iexact H10
  all_goals
    ipureintro
    try refine (read_writes_last _ _ hz _ _ _).trans ?_
    try sl_unfold_run_names
    simp only [View.readAt_eq_ld, harg2.read_unread, harg3.read_unread, harg4.read_unread, harg5.read_unread,
      harg6.read_unread, harg7.read_unread, harg8.read_unread, harg9.read_unread, harg10.read_unread, View.readCov_unit_zero (S := S256x1) _ hz,
      View.ld_unit_zero (S := S256x16) hz, View.ld_unit_zero (S := S16x8192) hz, View.ld_unit_zero (S := S1x8192) hz,
      View.ld_unit_zero (S := S256x1) hz]

end Cert.Proof.KRuns3

end
-- ==== Proof.KRegion3.lean ====
/-
  Kernel region 3 (the logits of tail 3): its proof data, the body at every grid point, and its two ends.

  The grid is (row block, column block), 4 × 11 points in row-major order: point `t` is column block `t % 11` of row
  block `t / 11`. The region's three scratch buffers carry, for each of the 256 rows of the current row block, the
  running triple (maximum, rescaled sum of exponentials, pick) of that row's logits over the column blocks done so far
  — `Spec.online` of the row's logits and its shifted label. The invariant between points says exactly this (inside a
  row block), and says nothing of the scratch at the start of a row block, where the body resets it. One point's body,
  run on the staged blocks, takes the triple after `k` blocks to the triple after `k + 1` (the arithmetic is one
  `Spec.step`: the staged weight and bias lanes inside the array are the array's entries there, so the block's logits
  inside the array are the row's logits; the lanes past the array's end are masked to -∞ whatever the staging buffer
  holds there); at the last column block it also stores maximum + log sum and the pick into the two outputs' buffers,
  which are then written back. Every row lies in exactly one written-back block, so the two output arrays end at the
  closed forms `lse3` and `sel3`; the four input arrays are unchanged.
-/
import proofs.«407035_j66254165508793_2_alg».proof.Proof.Gen.KernelIdeal.Regions
import proofs.«407035_j66254165508793_2_alg».proof.Proof.Gen.KernelIdeal.Points
import proofs.«407035_j66254165508793_2_alg».proof.Proof.Gen.KernelIdeal.Skeleton
import proofs.«407035_j66254165508793_2_alg».proof.Proof.Spec
import proofs.«407035_j66254165508793_2_alg».proof.Proof.KOuts
import proofs.«407035_j66254165508793_2_alg».proof.Proof.KBody3
import proofs.«407035_j66254165508793_2_alg».proof.Proof.KRuns3
import proofs.«407035_j66254165508793_2_alg».proof.Proof.KHost
import Idealize.ShloMosaic.Lib.Pipeline.Kit
import Idealize.ShloMosaic.Lib.Pipeline.FrameBody
import Idealize.ShloMosaic.Lib.Pipeline.Value
import Idealize.ShloMosaic.Lib.Pipeline.RegionsLoop
import Idealize.ShloMosaic.Lib.Tactic

set_option quotPrecheck false
set_option maxRecDepth 16384

noncomputable section

namespace Cert.Proof.KRegion3

open Cert.KernelIdeal Cert.KernelIdeal.Gen Cert.Proof.KOuts Cert.Proof.KBody3 Cert.Proof.KRuns3 Cert.Proof.KHost
open Idealize.ShloMosaic Idealize.ShloMosaic.TcCoe Idealize.ShloMosaic.Tactic ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ UU ℕ

variable (m : (ℓ : Loc nD τ sig) → Buf (Elt Ideal) ℓ)

/-! ## The grid, decided -/

theorem coords_t : ∀ t : Fin cfg3.N, ((grid3.coords t) 1).val = t.val % 11 ∧ ((grid3.coords t) 0).val = t.val / 11 :=
  (by decide +kernel : ∀ t : Fin grid3.N, ((grid3.coords t) 1).val = t.val % 11 ∧ ((grid3.coords t) 0).val = t.val / 11)

/-- The row of the 1024 that row `p` of row block `rb` is. -/
def rowOf (rb : ℕ) (p : Fin 256) : Fin 1024 :=
  ⟨(rb % (4)) * 256 + p.val, by have := p.isLt; have := Nat.mod_lt rb (show (4) > 0 by decide); omega⟩

/-- The running triple of row `r` after `k` column blocks. -/
def onl (c : Dev nD) (r : Fin 1024) (k : ℕ) : EReal × EReal × EReal :=
  Spec.online 8192 87735 (X3r m c r) (tr m c r - 180000#32) k

/-- What the three scratch buffers hold after `k` column blocks of row block `rb`. -/
def scrM (c : Dev nD) (rb k : ℕ) : Vec Ideal S256x1 .f32 := fun y => (onl m c (rowOf rb (y 0)) k).1
def scrL (c : Dev nD) (rb k : ℕ) : Vec Ideal S256x1 .f32 := fun y => (onl m c (rowOf rb (y 0)) k).2.1
def scrS (c : Dev nD) (rb k : ℕ) : Vec Ideal S256x1 .f32 := fun y => (onl m c (rowOf rb (y 0)) k).2.2

/-- The scratch operands as memrefs. -/
abbrev scM0 : Memref sig .tc .vmem S256x1 .f32 := Memref.whole cc3_scratch0
abbrev scM1 : Memref sig .tc .vmem S256x1 .f32 := Memref.whole cc3_scratch1
abbrev scM2 : Memref sig .tc .vmem S256x1 .f32 := Memref.whole cc3_scratch2

/-- The invariant before position `n`: at the start of a row block (and at the end of the grid) every scoped buffer no
    window stages at anything; inside a row block the three scratch buffers at the running triple after the column
    blocks done so far, the other scoped buffers at anything. -/
def Phi (c : Dev nD) (n : ℕ) : sProp 𝕄 :=
  if n % 11 = 0 then Pipeline.scopedRest (Ix := Unit) (Name := ℕ) (U := UU) (Lvl := ℕ) (Val := Elt Ideal) spec3 c
  else
    iprop(iprop(owns (c : Thread nD τ) scM0 fullShare (scrM m c ((n - 1) / 11) (n % 11))
        ∗ owns (c : Thread nD τ) scM1 fullShare (scrL m c ((n - 1) / 11) (n % 11))
        ∗ owns (c : Thread nD τ) scM2 fullShare (scrS m c ((n - 1) / 11) (n % 11)))
      ∗ Pipeline.scopedRestBut (Ix := Unit) (Name := ℕ) (U := UU) (Lvl := ℕ) (Val := Elt Ideal) spec3 c [cc3_scratch0, cc3_scratch1, cc3_scratch2])

/-- A filler for the lanes of a staging buffer no transfer moves. -/
def arb {S : Shape} {e : EltTy} : S.Idx → Elt Ideal e := fun _ => Classical.arbitrary _

/-- The proof data: the arrays as the region finds them; after the body each input's buffer at its block (filled out past
    the array's end with words nothing reads), the two outputs' at their blocks of the closed forms; the invariant. -/
def dat (c : Dev nD) : Dat τ (Elt Ideal) Unit ℕ UU ℕ cfg3 c where
  A w := V7 m (outs m) c (Pipeline.arrRef spec3 w)
  after w t := match w with
    | ⟨0, h⟩ => (cfg3.win ⟨0, h⟩).fill (grid3.coords t) arb (((cfg3.win ⟨0, h⟩).blk t).view.read (Elt Ideal) (V7 m (outs m) c (Pipeline.arrRef spec3 ⟨0, h⟩)))
    | ⟨1, h⟩ => (cfg3.win ⟨1, h⟩).fill (grid3.coords t) arb (((cfg3.win ⟨1, h⟩).blk t).view.read (Elt Ideal) (V7 m (outs m) c (Pipeline.arrRef spec3 ⟨1, h⟩)))
    | ⟨2, h⟩ => (cfg3.win ⟨2, h⟩).fill (grid3.coords t) arb (((cfg3.win ⟨2, h⟩).blk t).view.read (Elt Ideal) (V7 m (outs m) c (Pipeline.arrRef spec3 ⟨2, h⟩)))
    | ⟨3, h⟩ => (cfg3.win ⟨3, h⟩).fill (grid3.coords t) arb (((cfg3.win ⟨3, h⟩).blk t).view.read (Elt Ideal) (V7 m (outs m) c (Pipeline.arrRef spec3 ⟨3, h⟩)))
    | ⟨4, h⟩ => (cfg3.win ⟨4, h⟩).fill (grid3.coords t) arb (((cfg3.win ⟨4, h⟩).blk t).view.read (Elt Ideal) (lse3 m c))
    | ⟨5, h⟩ => (cfg3.win ⟨5, h⟩).fill (grid3.coords t) arb (((cfg3.win ⟨5, h⟩).blk t).view.read (Elt Ideal) (sel3 m c))
  Φ t := Phi m c t.val
  q _ := fullShare
  owed _ := 0

theorem A_eq (c : Dev nD) (w : Fin cfg3.W) : (dat m c).A w = V7 m (outs m) c (Pipeline.arrRef spec3 w) := by dsimp only [dat]

/-! ## What the body finds in the inputs' staging buffers -/

/-- The block of window `w`'s array at point `t`, its part inside the array. -/
abbrev blkOf (c : Dev nD) (w : Fin cfg3.W) (t : Fin cfg3.N) : ((cfg3.win w).xblock (grid3.coords t)).Idx → Elt Ideal (cfg3.win w).elt :=
  ((cfg3.win w).blk t).view.read (Elt Ideal) (V7 m (outs m) c (Pipeline.arrRef spec3 w))

theorem before0 (c : Dev nD) (t : Fin cfg3.N) (d) :
    (dat m c).before 0 t d = (cfg3.win 0).fill (grid3.coords t) d (blkOf m c 0 t) :=
  ((dat m c).before_in_eq_fetched 0 rfl (fun _ => rfl) (fun _ _ _ => rfl)
    (fun t => by dsimp only [dat]; exact (cfg3.win 0).cut_fill _ _ _) t d).trans (by unfold Dat.fetched Dat.blockOf; dsimp only [dat])
theorem before3 (c : Dev nD) (t : Fin cfg3.N) (d) :
    (dat m c).before 3 t d = (cfg3.win 3).fill (grid3.coords t) d (blkOf m c 3 t) :=
  ((dat m c).before_in_eq_fetched 3 rfl (fun _ => rfl) (fun _ _ _ => rfl)
    (fun t => by dsimp only [dat]; exact (cfg3.win 3).cut_fill _ _ _) t d).trans (by unfold Dat.fetched Dat.blockOf; dsimp only [dat])
theorem before1 (c : Dev nD) (t : Fin cfg3.N) (d) :
    (dat m c).before 1 t d = (cfg3.win 1).fill (grid3.coords t) d (blkOf m c 1 t) := by
  unfold Dat.before; rw [if_pos (fetch3_1 t)]; unfold Dat.fetched Dat.blockOf; dsimp only [dat]
theorem before2 (c : Dev nD) (t : Fin cfg3.N) (d) :
    (dat m c).before 2 t d = (cfg3.win 2).fill (grid3.coords t) d (blkOf m c 2 t) := by
  unfold Dat.before; rw [if_pos (fetch3_2 t)]; unfold Dat.fetched Dat.blockOf; dsimp only [dat]

/-! ## The staged blocks at an index -/

theorem index0 : ∀ t : Fin cfg3.N, win3_0.index t 0 = t.val / 11 ∧ win3_0.index t 1 = 0 :=
  (by decide +kernel : ∀ t : Fin grid3.N, win3_0.index t 0 = t.val / 11 ∧ win3_0.index t 1 = 0)
theorem index1 : ∀ t : Fin cfg3.N, win3_1.index t 0 = 0 ∧ win3_1.index t 1 = t.val % 11 :=
  (by decide +kernel : ∀ t : Fin grid3.N, win3_1.index t 0 = 0 ∧ win3_1.index t 1 = t.val % 11)
theorem index2 : ∀ t : Fin cfg3.N, win3_2.index t 0 = 0 ∧ win3_2.index t 1 = t.val % 11 :=
  (by decide +kernel : ∀ t : Fin grid3.N, win3_2.index t 0 = 0 ∧ win3_2.index t 1 = t.val % 11)
theorem index3 : ∀ t : Fin cfg3.N, win3_3.index t 0 = t.val / 11 ∧ win3_3.index t 1 = 0 :=
  (by decide +kernel : ∀ t : Fin grid3.N, win3_3.index t 0 = t.val / 11 ∧ win3_3.index t 1 = 0)
theorem index4 : ∀ t : Fin cfg3.N, win3_4.index t 0 = t.val / 11 ∧ win3_4.index t 1 = 0 :=
  (by decide +kernel : ∀ t : Fin grid3.N, win3_4.index t 0 = t.val / 11 ∧ win3_4.index t 1 = 0)
theorem index5 : ∀ t : Fin cfg3.N, win3_5.index t 0 = t.val / 11 ∧ win3_5.index t 1 = 0 :=
  (by decide +kernel : ∀ t : Fin grid3.N, win3_5.index t 0 = t.val / 11 ∧ win3_5.index t 1 = 0)
theorem xsize1 : ∀ t : Fin cfg3.N, win3_1.xsize (grid3.coords t) 0 = (16) ∧ win3_1.xsize (grid3.coords t) 1 = min 8192 (87735 - (t.val % 11) * 8192) :=
  (by decide +kernel : ∀ t : Fin grid3.N, win3_1.xsize (grid3.coords t) 0 = (16) ∧ win3_1.xsize (grid3.coords t) 1 = min 8192 (87735 - (t.val % 11) * 8192))
theorem xsize2 : ∀ t : Fin cfg3.N, win3_2.xsize (grid3.coords t) 0 = 1 ∧ win3_2.xsize (grid3.coords t) 1 = min 8192 (87735 - (t.val % 11) * 8192) :=
  (by decide +kernel : ∀ t : Fin grid3.N, win3_2.xsize (grid3.coords t) 0 = 1 ∧ win3_2.xsize (grid3.coords t) 1 = min 8192 (87735 - (t.val % 11) * 8192))

theorem rowOf_t (t : Fin cfg3.N) (p : Fin 256) : (rowOf (t.val / 11) p).val = (t.val / 11) * 256 + p.val := by
  have := t.isLt; have h : cfg3.N = 44 := N_3; unfold rowOf; show ((t.val / 11) % (4)) * 256 + p.val = _; omega

/-- Lane `(kk, j)` of the staged weight block, for a column inside the array: the array's entry there. -/
theorem Wst_apply (c : Dev nD) (t : Fin cfg3.N) (d) (kk : Fin (16)) (j : Fin 8192) (h : ((grid3.coords t) 1).val * 8192 + j.val < 87735) :
    (cfg3.win 1).fill (grid3.coords t) d (blkOf m c 1 t) (ix2 kk j)
      = (V7 m (outs m) c main_arg13 : S16x87735.Idx → EReal) (ix2 kk ⟨((grid3.coords t) 1).val * 8192 + j.val, h⟩) := by
  have hk := (coords_t t).1
  have hm : (cfg3.win 1).moved (grid3.coords t) (ix2 kk j) = true := ((cfg3.win 1).moved_iff _ _).mpr fun a => by
    match a with
    | ⟨0, _⟩ => show kk.val < win3_1.xsize (grid3.coords t) 0; rw [(xsize1 t).1]; exact kk.isLt
    | ⟨1, _⟩ => show j.val < win3_1.xsize (grid3.coords t) 1; rw [(xsize1 t).2]; have := j.isLt; omega
  unfold Window.fill; rw [dif_pos hm]
  show V7 m (outs m) c main_arg13 (((cfg3.win 1).blk t).view.emb _) = _
  congr 1; funext a; apply Fin.ext
  match a with
  | ⟨0, _⟩ => show win3_1.index t 0 * (16) + 1 * kk.val = kk.val; rw [(index1 t).1]; omega
  | ⟨1, _⟩ => show win3_1.index t 1 * 8192 + 1 * j.val = ((grid3.coords t) 1).val * 8192 + j.val; rw [(index1 t).2]; omega

/-- Lane `j` of the staged bias block, for a column inside the array. -/
theorem bst_apply (c : Dev nD) (t : Fin cfg3.N) (d) (j : Fin 8192) (h : ((grid3.coords t) 1).val * 8192 + j.val < 87735) :
    (cfg3.win 2).fill (grid3.coords t) d (blkOf m c 2 t) (ix2 0 j)
      = (V7 m (outs m) c main_v28 : S1x87735.Idx → EReal) (ix2 0 ⟨((grid3.coords t) 1).val * 8192 + j.val, h⟩) := by
  have hk := (coords_t t).1
  have hm : (cfg3.win 2).moved (grid3.coords t) (ix2 0 j) = true := ((cfg3.win 2).moved_iff _ _).mpr fun a => by
    match a with
    | ⟨0, _⟩ => show 0 < win3_2.xsize (grid3.coords t) 0; rw [(xsize2 t).1]; decide
    | ⟨1, _⟩ => show j.val < win3_2.xsize (grid3.coords t) 1; rw [(xsize2 t).2]; have := j.isLt; omega
  unfold Window.fill; rw [dif_pos hm]
  show V7 m (outs m) c main_v28 (((cfg3.win 2).blk t).view.emb _) = _
  congr 1; funext a; apply Fin.ext
  match a with
  | ⟨0, _⟩ => show win3_2.index t 0 * 1 + 1 * 0 = 0; rw [(index2 t).1]
  | ⟨1, _⟩ => show win3_2.index t 1 * 8192 + 1 * j.val = ((grid3.coords t) 1).val * 8192 + j.val; rw [(index2 t).2]; omega

/-- Entry `(p, kk)` of the staged block of the rows' inputs: the array's row `rowOf`. -/
theorem xst_apply (c : Dev nD) (t : Fin cfg3.N) (d) (p : Fin 256) (kk : Fin (16)) :
    (cfg3.win 0).fill (grid3.coords t) d (blkOf m c 0 t) (ix2 p kk)
      = (V7 m (outs m) c main_v27 : S1024x16.Idx → EReal) (ix2 (rowOf (t.val / 11) p) kk) := by
  have hm : (cfg3.win 0).moved (grid3.coords t) (ix2 p kk) = true := ((cfg3.win 0).moved_iff _ _).mpr fun a => by
    match a with
    | ⟨0, _⟩ => exact p.isLt
    | ⟨1, _⟩ => exact kk.isLt
  unfold Window.fill; rw [dif_pos hm]
  show V7 m (outs m) c main_v27 (((cfg3.win 0).blk t).view.emb _) = _
  congr 1; funext a; apply Fin.ext
  match a with
  | ⟨0, _⟩ => show win3_0.index t 0 * 256 + 1 * p.val = (rowOf (t.val / 11) p).val; rw [(index0 t).1, rowOf_t]; omega
  | ⟨1, _⟩ => show win3_0.index t 1 * (16) + 1 * kk.val = kk.val; rw [(index0 t).2]; omega

/-- Row `p` of the staged block of shifted labels. -/
theorem tst_apply (c : Dev nD) (t : Fin cfg3.N) (d) (p : Fin 256) :
    (cfg3.win 3).fill (grid3.coords t) d (blkOf m c 3 t) (ix2 p 0)
      = (V7 m (outs m) c main_v29 : S1024x1.Idx → BitVec 32) (ix2 (rowOf (t.val / 11) p) 0) := by
  have hm : (cfg3.win 3).moved (grid3.coords t) (ix2 p 0) = true := ((cfg3.win 3).moved_iff _ _).mpr fun a => by
    match a with
    | ⟨0, _⟩ => exact p.isLt
    | ⟨1, _⟩ => exact (by decide : (0 : ℕ) < 1)
  unfold Window.fill; rw [dif_pos hm]
  show V7 m (outs m) c main_v29 (((cfg3.win 3).blk t).view.emb _) = _
  congr 1; funext a; apply Fin.ext
  match a with
  | ⟨0, _⟩ => show win3_3.index t 0 * 256 + 1 * p.val = (rowOf (t.val / 11) p).val; rw [(index3 t).1, rowOf_t]; omega
  | ⟨1, _⟩ => show win3_3.index t 1 * 1 + 1 * 0 = 0; rw [(index3 t).2]

/-- The lanes of a staged block that lie inside the array are the row's logits there. -/
abbrev HX (i : grid3.Coords) (W : Vec Ideal S16x8192 .f32) (x : Vec Ideal S256x16 .bf16) (b : Vec Ideal S1x8192 .f32) (p : Fin 256) (Xp : Fin 87735 → EReal) : Prop :=
  ∀ (j : Fin 8192) (h : (i 1).val * 8192 + j.val < 87735), (∑ kk : Fin (16), x (ix2 p kk) * W (ix2 kk j)) + b (ix2 0 j) = Xp ⟨(i 1).val * 8192 + j.val, h⟩

/-! ## One column step on the staged blocks is one step of the running triple -/

section step
variable (c : Dev nD) (t : Fin cfg3.N) (d0 : (cfg3.win 0).block.Idx → Elt Ideal (cfg3.win 0).elt) (d1 : (cfg3.win 1).block.Idx → Elt Ideal (cfg3.win 1).elt)
  (d2 : (cfg3.win 2).block.Idx → Elt Ideal (cfg3.win 2).elt) (d3 : (cfg3.win 3).block.Idx → Elt Ideal (cfg3.win 3).elt)

/-- The four staged input blocks at point `t`. -/
local notation "xst" => (Window.fill (cfg3.win 0) (grid3.coords t) d0 (blkOf m c 0 t) : Vec Ideal S256x16 .bf16)
local notation "Wst" => (Window.fill (cfg3.win 1) (grid3.coords t) d1 (blkOf m c 1 t) : Vec Ideal S16x8192 .f32)
local notation "bst" => (Window.fill (cfg3.win 2) (grid3.coords t) d2 (blkOf m c 2 t) : Vec Ideal S1x8192 .f32)
local notation "tst" => (Window.fill (cfg3.win 3) (grid3.coords t) d3 (blkOf m c 3 t) : Vec Ideal S256x1 .i32)

/-- The lanes of the staged block inside the array are the row's logits. -/
theorem hX0 (p : Fin 256) : HX (grid3.coords t) Wst xst bst p (X3r m c (rowOf (t.val / 11) p)) := by
  intro j h
  simp only [xst_apply m c t d0 p, Wst_apply m c t d1 _ j h, bst_apply m c t d2 j h]
  rw [in3_x, in3_W, in3_b]
  rfl

/-- The step's state and label read off the scratch contents and the staged labels: one more step of the running triple. -/
theorem st_eq (p : Fin 256) (k : ℕ) (hk : ((grid3.coords t) 1).val = k) :
    st (grid3.coords t) tst (scrM m c (t.val / 11) k) (scrL m c (t.val / 11) k) (scrS m c (t.val / 11) k) p (X3r m c (rowOf (t.val / 11) p))
      = onl m c (rowOf (t.val / 11) p) (k + 1) := by
  subst hk
  unfold st
  rw [tst_apply, in3_t]
  rfl
end step

/-! ## The body obligation -/

theorem hfirst : ∀ t : Fin cfg3.N, cond3_first (grid3.coords t) ↔ t.val % 11 = 0 :=
  (by decide +kernel : ∀ t : Fin grid3.N, cond3_first (grid3.coords t) ↔ t.val % 11 = 0)
theorem hlast : ∀ t : Fin cfg3.N, k3_cond2 (grid3.coords t) = 1#1 ↔ t.val % 11 = 10 :=
  (by decide +kernel : ∀ t : Fin grid3.N, k3_cond2 (grid3.coords t) = 1#1 ↔ t.val % 11 = 10)
theorem idle4 : ∀ t : Fin cfg3.N, cfg3.idle 4 (grid3.coords t) = !decide (t.val % 11 = 10) :=
  (by decide +kernel : ∀ t : Fin grid3.N, cfg3.idle 4 (grid3.coords t) = !decide (t.val % 11 = 10))
theorem idle5 : ∀ t : Fin cfg3.N, cfg3.idle 5 (grid3.coords t) = !decide (t.val % 11 = 10) :=
  (by decide +kernel : ∀ t : Fin grid3.N, cfg3.idle 5 (grid3.coords t) = !decide (t.val % 11 = 10))

theorem Phi_edge (c : Dev nD) (n : ℕ) (h : n % 11 = 0) :
    Phi m c n = Pipeline.scopedRest (Ix := Unit) (Name := ℕ) (U := UU) (Lvl := ℕ) (Val := Elt Ideal) spec3 c := by
  unfold Phi; rw [if_pos h]
theorem Phi_mid (c : Dev nD) (n : ℕ) (h : ¬n % 11 = 0) :
    Phi m c n = iprop(iprop(owns (c : Thread nD τ) scM0 fullShare (scrM m c ((n - 1) / 11) (n % 11))
        ∗ owns (c : Thread nD τ) scM1 fullShare (scrL m c ((n - 1) / 11) (n % 11))
        ∗ owns (c : Thread nD τ) scM2 fullShare (scrS m c ((n - 1) / 11) (n % 11)))
      ∗ Pipeline.scopedRestBut (Ix := Unit) (Name := ℕ) (U := UU) (Lvl := ℕ) (Val := Elt Ideal) spec3 c [cc3_scratch0, cc3_scratch1, cc3_scratch2]) := by
  unfold Phi; rw [if_neg h]

/-- What the body is called with at point `t`, the windows one by one, -/
def bodyPre (c : Dev nD) (t : Fin cfg3.N) : sProp 𝕄 :=
  iprop((dat m c).Φ t.castSucc ∗ (dat m c).owesAt () t.castSucc
    ∗ (∃ d, owns (c : Thread nD τ) (st3_0 t) fullShare ((dat m c).before 0 t d))
    ∗ (∃ d, owns (c : Thread nD τ) (st3_1 t) fullShare ((dat m c).before 1 t d))
    ∗ (∃ d, owns (c : Thread nD τ) (st3_2 t) fullShare ((dat m c).before 2 t d))
    ∗ (∃ d, owns (c : Thread nD τ) (st3_3 t) fullShare ((dat m c).before 3 t d))
    ∗ (∃ d, owns (c : Thread nD τ) (st3_4 t) fullShare ((dat m c).before 4 t d))
    ∗ (∃ d, owns (c : Thread nD τ) (st3_5 t) fullShare ((dat m c).before 5 t d)))

/-- and what it returns. -/
def bodyPost (c : Dev nD) (t : Fin cfg3.N) : sProp 𝕄 :=
  iprop((dat m c).Φ t.succ ∗ (dat m c).owesAt () t.succ
    ∗ (dat m c).leaves 0 t ∗ (dat m c).leaves 1 t ∗ (dat m c).leaves 2 t ∗ (dat m c).leaves 3 t ∗ (dat m c).leaves 4 t ∗ (dat m c).leaves 5 t)

theorem leaves0 (c : Dev nD) (t : Fin cfg3.N) : (dat m c).leaves 0 t = owns (c : Thread nD τ) (st3_0 t) fullShare ((dat m c).after 0 t) := rfl
theorem leaves3 (c : Dev nD) (t : Fin cfg3.N) : (dat m c).leaves 3 t = owns (c : Thread nD τ) (st3_3 t) fullShare ((dat m c).after 3 t) := rfl
theorem leaves1 (c : Dev nD) (t : Fin cfg3.N) : (dat m c).leaves 1 t
    = iprop(∃ d, owns (c : Thread nD τ) (st3_1 t) fullShare ((cfg3.win 1).fill (grid3.coords t) d ((cfg3.win 1).cut (grid3.coords t) ((dat m c).after 1 t)))) := rfl
theorem leaves2 (c : Dev nD) (t : Fin cfg3.N) : (dat m c).leaves 2 t
    = iprop(∃ d, owns (c : Thread nD τ) (st3_2 t) fullShare ((cfg3.win 2).fill (grid3.coords t) d ((cfg3.win 2).cut (grid3.coords t) ((dat m c).after 2 t)))) := rfl
theorem leaves4_live (c : Dev nD) (t : Fin cfg3.N) (h : t.val % 11 = 10) :
    (dat m c).leaves 4 t = owns (c : Thread nD τ) (st3_4 t) fullShare ((dat m c).after 4 t) := by
  unfold Dat.leaves; rw [show cfg3.idle 4 (cfg3.grid.coords t) = false from by rw [idle4 t, decide_eq_true h]; rfl]
theorem leaves5_live (c : Dev nD) (t : Fin cfg3.N) (h : t.val % 11 = 10) :
    (dat m c).leaves 5 t = owns (c : Thread nD τ) (st3_5 t) fullShare ((dat m c).after 5 t) := by
  unfold Dat.leaves; rw [show cfg3.idle 5 (cfg3.grid.coords t) = false from by rw [idle5 t, decide_eq_true h]; rfl]
theorem leaves4_idle (c : Dev nD) (t : Fin cfg3.N) (h : ¬t.val % 11 = 10) :
    (dat m c).leaves 4 t = iprop(∃ d, owns (c : Thread nD τ) (st3_4 t) fullShare ((dat m c).before 4 t d)) :=
  (dat m c).leaves_idle 4 t (by rw [idle4 t, decide_eq_false h]; rfl) (by rw [Bool.eq_false_iff]; exact fun hf => h ((flush3_4 t).mp hf))
theorem leaves5_idle (c : Dev nD) (t : Fin cfg3.N) (h : ¬t.val % 11 = 10) :
    (dat m c).leaves 5 t = iprop(∃ d, owns (c : Thread nD τ) (st3_5 t) fullShare ((dat m c).before 5 t d)) :=
  (dat m c).leaves_idle 5 t (by rw [idle5 t, decide_eq_false h]; rfl) (by rw [Bool.eq_false_iff]; exact fun hf => h ((flush3_5 t).mp hf))

theorem after0 (c : Dev nD) (t : Fin cfg3.N) : (dat m c).after 0 t = (cfg3.win 0).fill (grid3.coords t) arb (blkOf m c 0 t) := by dsimp only [dat]
theorem after1 (c : Dev nD) (t : Fin cfg3.N) : (dat m c).after 1 t = (cfg3.win 1).fill (grid3.coords t) arb (blkOf m c 1 t) := by dsimp only [dat]
theorem after2 (c : Dev nD) (t : Fin cfg3.N) : (dat m c).after 2 t = (cfg3.win 2).fill (grid3.coords t) arb (blkOf m c 2 t) := by dsimp only [dat]
theorem after3 (c : Dev nD) (t : Fin cfg3.N) : (dat m c).after 3 t = (cfg3.win 3).fill (grid3.coords t) arb (blkOf m c 3 t) := by dsimp only [dat]
theorem after4 (c : Dev nD) (t : Fin cfg3.N) : (dat m c).after 4 t = (cfg3.win 4).fill (grid3.coords t) arb (((cfg3.win 4).blk t).view.read (Elt Ideal) (lse3 m c)) := by dsimp only [dat]
theorem after5 (c : Dev nD) (t : Fin cfg3.N) : (dat m c).after 5 t = (cfg3.win 5).fill (grid3.coords t) arb (((cfg3.win 5).blk t).view.read (Elt Ideal) (sel3 m c)) := by dsimp only [dat]

/-- An uncut window's buffer is all moved: what fills the rest does not matter. -/
theorem fill0_irrel (c : Dev nD) (t : Fin cfg3.N) (d d') : (cfg3.win 0).fill (grid3.coords t) d (blkOf m c 0 t) = (cfg3.win 0).fill (grid3.coords t) d' (blkOf m c 0 t) := by
  funext j
  have hm : (cfg3.win 0).moved (grid3.coords t) j = true := ((cfg3.win 0).moved_iff _ _).mpr fun a => (j a).isLt
  unfold Window.fill; rw [dif_pos hm, dif_pos hm]
theorem fill3_irrel (c : Dev nD) (t : Fin cfg3.N) (d d') : (cfg3.win 3).fill (grid3.coords t) d (blkOf m c 3 t) = (cfg3.win 3).fill (grid3.coords t) d' (blkOf m c 3 t) := by
  funext j
  have hm : (cfg3.win 3).moved (grid3.coords t) j = true := ((cfg3.win 3).moved_iff _ _).mpr fun a => (j a).isLt
  unfold Window.fill; rw [dif_pos hm, dif_pos hm]

theorem Phi_cast (c : Dev nD) (t : Fin cfg3.N) : (dat m c).Φ t.castSucc = Phi m c t.val := by dsimp only [dat]; simp only [Fin.coe_castSucc]
theorem Phi_succ (c : Dev nD) (t : Fin cfg3.N) : (dat m c).Φ t.succ = Phi m c (t.val + 1) := by dsimp only [dat]; simp only [Fin.val_succ]

section newscratch
variable (c : Dev nD) (t : Fin cfg3.N) (d0 : (cfg3.win 0).block.Idx → Elt Ideal (cfg3.win 0).elt) (d1 : (cfg3.win 1).block.Idx → Elt Ideal (cfg3.win 1).elt)
  (d2 : (cfg3.win 2).block.Idx → Elt Ideal (cfg3.win 2).elt) (d3 : (cfg3.win 3).block.Idx → Elt Ideal (cfg3.win 3).elt)
local notation "xst" => (Window.fill (cfg3.win 0) (grid3.coords t) d0 (blkOf m c 0 t) : Vec Ideal S256x16 .bf16)
local notation "Wst" => (Window.fill (cfg3.win 1) (grid3.coords t) d1 (blkOf m c 1 t) : Vec Ideal S16x8192 .f32)
local notation "bst" => (Window.fill (cfg3.win 2) (grid3.coords t) d2 (blkOf m c 2 t) : Vec Ideal S1x8192 .f32)
local notation "tst" => (Window.fill (cfg3.win 3) (grid3.coords t) d3 (blkOf m c 3 t) : Vec Ideal S256x1 .i32)

omit m in
theorem row_idx (y : S256x1.Idx) : ∃ p : Fin 256, y = ix2 p 0 :=
  ⟨y 0, funext fun a => by
    match a with
    | ⟨0, _⟩ => rfl
    | ⟨1, _⟩ => exact Fin.ext (by have h : (y 1).val < 1 := (y 1).isLt; show (y 1).val = 0; omega)⟩

include d3 in
theorem newM (k : ℕ) (hk : ((grid3.coords t) 1).val = k) :
    k3_pay2 (k3_pay10 (F := Ideal) (grid3.coords t) Wst xst bst (scrM m c (t.val / 11) k)) = scrM m c (t.val / 11) (k + 1) := by
  rw [pay2_eq]; funext y; obtain ⟨p, rfl⟩ := row_idx y
  refine (pay10_row (grid3.coords t) Wst xst bst tst (scrM m c (t.val / 11) k) (scrL m c (t.val / 11) k) (scrS m c (t.val / 11) k) p _ (hX0 m c t d0 d1 d2 p)).trans ?_
  rw [st_eq m c t d3 p k hk]; rfl
include d3 in
theorem newL (k : ℕ) (hk : ((grid3.coords t) 1).val = k) :
    k3_pay1 (k3_pay11 (F := Ideal) (grid3.coords t) Wst xst bst (scrM m c (t.val / 11) k) (scrM m c (t.val / 11) k) (scrL m c (t.val / 11) k)) = scrL m c (t.val / 11) (k + 1) := by
  rw [pay1_eq]; funext y; obtain ⟨p, rfl⟩ := row_idx y
  refine (pay11_row (grid3.coords t) Wst xst bst tst (scrM m c (t.val / 11) k) (scrL m c (t.val / 11) k) (scrS m c (t.val / 11) k) p _ (hX0 m c t d0 d1 d2 p)).trans ?_
  rw [st_eq m c t d3 p k hk]; rfl
theorem newS (k : ℕ) (hk : ((grid3.coords t) 1).val = k) :
    k3_pay3 (F := Ideal) (Scalar.muli (BitVec.ofNat 32 ((grid3.coords t) 1).val) 8192#32) (iota .tc S256x8192 32 [1] iota_S256x8192_d1_w32) (k3_pay8 (grid3.coords t)) (k3_pay9 (grid3.coords t) Wst xst bst) tst (scrS m c (t.val / 11) k) = scrS m c (t.val / 11) (k + 1) := by
  funext y; obtain ⟨p, rfl⟩ := row_idx y
  refine (pay3_row (grid3.coords t) Wst xst bst tst (scrM m c (t.val / 11) k) (scrL m c (t.val / 11) k) (scrS m c (t.val / 11) k) p _ (hX0 m c t d0 d1 d2 p)).trans ?_
  rw [st_eq m c t d3 p k hk]; rfl
end newscratch

set_option maxHeartbeats 1600000 in
/-- A middle column: the scratch at the triple after `k` blocks goes to the triple after `k + 1`; every window's buffer is handed back as found. -/
theorem sound_B (c : Dev nD) (t : Fin cfg3.N) (h0 : ¬t.val % 11 = 0) (h9 : ¬t.val % 11 = 10) :
    bodyPre m c t ⊢ wp frame (wpE (defs₀ (F := Ideal)) Variants.none c none) Set.univ (bodyAt3 t) (fun _ => bodyPost m c t) := by
  unfold bodyPre bodyPost
  have hk := (coords_t t).1
  have e1 : (t.val - 1) / 11 = t.val / 11 := by omega
  have e2 : (t.val + 1 - 1) / 11 = t.val / 11 := by omega
  have e3 : (t.val + 1) % 11 = t.val % 11 + 1 := by omega
  rw [Phi_cast, Phi_succ, Phi_mid m c t.val h0, Phi_mid m c (t.val + 1) (by omega), e1, e2, e3,
    show (dat m c).owesAt () t.succ = (dat m c).owesAt () t.castSucc from rfl,
    leaves0, leaves1, leaves2, leaves3, leaves4_idle m c t h9, leaves5_idle m c t h9,
    after0, after1, after2, after3, Window.cut_fill, Window.cut_fill]
  simp only [before0, before1, before2, before3]
  iintro ⟨⟨⟨HM, HL, HS⟩, Hrest⟩, Ho, ⟨%d0, H0⟩, ⟨%d1, H1⟩, ⟨%d2, H2⟩, ⟨%d3, H3⟩, ⟨%d4, H4⟩, ⟨%d5, H5⟩⟩
  iapply (run3_B c (grid3.coords t) _ _ _ _ _ _ _ _ _ _ _ _ _ _ _ _ _ _ (fun h => h0 ((hfirst t).mp h)) (fun h => h9 ((hlast t).mp h))
    _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HM]; · iexact HM
  isplitl [HL]; · iexact HL
  isplitl [HS]; · iexact HS
  iintro ⟨H0, H1, H2, H3, H4, H5, HM, HL, HS⟩
  rw [newM m c t d0 d1 d2 d3 _ hk, newL m c t d0 d1 d2 d3 _ hk, newS m c t d0 d1 d2 d3 _ hk]
  isplitl [HM HL HS Hrest]
  · isplitr [Hrest]
    · isplitl [HM]; · iexact HM
      isplitl [HL]; · iexact HL
      iexact HS
    · iexact Hrest
  isplitl [Ho]; · iexact Ho
  isplitl [H0]; · rw [fill0_irrel m c t arb d0]; iexact H0
  isplitl [H1]; · iexists d1; iexact H1
  isplitl [H2]; · iexists d2; iexact H2
  isplitl [H3]; · rw [fill3_irrel m c t arb d3]; iexact H3
  isplitl [H4]; · iexists d4; iexact H4
  iexists d5; iexact H5

/-! ## The arrays after the region -/

theorem final_in (c : Dev nD) (w : Fin cfg3.W) (hw : (cfg3.win w).isOut = false) :
    (dat m c).arrAt w cfg3.N = V7 m (outs m) c (Pipeline.arrRef spec3 w) := ((dat m c).arrAt_in w hw _).trans (A_eq m c w)

theorem mem_blk4 (t : Fin cfg3.N) (i : S1024x1.Idx) :
    i ∈ ((cfg3.win 4).blk t).view.set ↔ ∀ a : Fin 2, win3_4.index t a * S256x1.size a ≤ (i a).val ∧ (i a).val < win3_4.index t a * S256x1.size a + S256x1.size a := by
  show i ∈ ((View.whole main_v30_0).slice (win3_4.rect t)).set ↔ _
  rw [View.set_slice_whole, Rect.mem_set_unit]
  exact Iff.rfl
theorem mem_blk5 (t : Fin cfg3.N) (i : S1024x1.Idx) :
    i ∈ ((cfg3.win 5).blk t).view.set ↔ ∀ a : Fin 2, win3_5.index t a * S256x1.size a ≤ (i a).val ∧ (i a).val < win3_5.index t a * S256x1.size a + S256x1.size a := by
  show i ∈ ((View.whole main_v30_1).slice (win3_5.rect t)).set ↔ _
  rw [View.set_slice_whole, Rect.mem_set_unit]
  exact Iff.rfl

/-- Every row lies in the block written back at the last column of its row block. -/
theorem cover4 (i : S1024x1.Idx) : ∃ t : Fin cfg3.N, (cfg3.win 4).flush t = true ∧ i ∈ ((cfg3.win 4).blk t).view.set := by
  have hr : (i 0).val < 1024 := (i 0).isLt
  have h1 : (i 1).val < 1 := (i 1).isLt
  have hN : ((i 0).val / 256) * 11 + 10 < cfg3.N := by rw [show cfg3.N = 44 from N_3]; omega
  refine ⟨⟨((i 0).val / 256) * 11 + 10, hN⟩, (flush3_4 _).mpr (by show (((i 0).val / 256) * 11 + 10) % 11 = 10; omega), ?_⟩
  rw [mem_blk4]; intro a
  have ht : (((i 0).val / 256) * 11 + 10) / 11 = (i 0).val / 256 := by omega
  match a with
  | ⟨0, _⟩ =>
    show win3_4.index ⟨((i 0).val / 256) * 11 + 10, hN⟩ 0 * 256 ≤ (i 0).val ∧ (i 0).val < win3_4.index ⟨((i 0).val / 256) * 11 + 10, hN⟩ 0 * 256 + 256
    rw [(index4 _).1]; show (((i 0).val / 256) * 11 + 10) / 11 * 256 ≤ _ ∧ _ < (((i 0).val / 256) * 11 + 10) / 11 * 256 + 256; rw [ht]; omega
  | ⟨1, _⟩ =>
    show win3_4.index ⟨((i 0).val / 256) * 11 + 10, hN⟩ 1 * 1 ≤ (i 1).val ∧ (i 1).val < win3_4.index ⟨((i 0).val / 256) * 11 + 10, hN⟩ 1 * 1 + 1
    rw [(index4 _).2]; omega
theorem cover5 (i : S1024x1.Idx) : ∃ t : Fin cfg3.N, (cfg3.win 5).flush t = true ∧ i ∈ ((cfg3.win 5).blk t).view.set := by
  have hr : (i 0).val < 1024 := (i 0).isLt
  have h1 : (i 1).val < 1 := (i 1).isLt
  have hN : ((i 0).val / 256) * 11 + 10 < cfg3.N := by rw [show cfg3.N = 44 from N_3]; omega
  refine ⟨⟨((i 0).val / 256) * 11 + 10, hN⟩, (flush3_5 _).mpr (by show (((i 0).val / 256) * 11 + 10) % 11 = 10; omega), ?_⟩
  rw [mem_blk5]; intro a
  have ht : (((i 0).val / 256) * 11 + 10) / 11 = (i 0).val / 256 := by omega
  match a with
  | ⟨0, _⟩ =>
    show win3_5.index ⟨((i 0).val / 256) * 11 + 10, hN⟩ 0 * 256 ≤ (i 0).val ∧ (i 0).val < win3_5.index ⟨((i 0).val / 256) * 11 + 10, hN⟩ 0 * 256 + 256
    rw [(index5 _).1]; show (((i 0).val / 256) * 11 + 10) / 11 * 256 ≤ _ ∧ _ < (((i 0).val / 256) * 11 + 10) / 11 * 256 + 256; rw [ht]; omega
  | ⟨1, _⟩ =>
    show win3_5.index ⟨((i 0).val / 256) * 11 + 10, hN⟩ 1 * 1 ≤ (i 1).val ∧ (i 1).val < win3_5.index ⟨((i 0).val / 256) * 11 + 10, hN⟩ 1 * 1 + 1
    rw [(index5 _).2]; omega

/-- The two output arrays end at the closed forms: each written-back block is its block of them, and the blocks cover. -/
theorem final4 (c : Dev nD) : (dat m c).arrAt 4 cfg3.N = lse3 m c :=
  (dat m c).arrAt_eq_of_cover 4 (lse3 m c) (fun t _ => by
    show (cfg3.win 4).cut (grid3.coords t) ((dat m c).after 4 t) = _; rw [after4, Window.cut_fill]) cover4
theorem final5 (c : Dev nD) : (dat m c).arrAt 5 cfg3.N = sel3 m c :=
  (dat m c).arrAt_eq_of_cover 5 (sel3 m c) (fun t _ => by
    show (cfg3.win 5).cut (grid3.coords t) ((dat m c).after 5 t) = _; rw [after5, Window.cut_fill]) cover5

/-! ## The first and the last column -/

/-- The scratch buffers out of, and back into, the scoped buffers no window stages. -/
theorem scr_unfold (c : Dev nD) :
    (Pipeline.scopedRest (Ix := Unit) (Name := ℕ) (U := UU) (Lvl := ℕ) (Val := Elt Ideal) spec3 c : sProp 𝕄)
      ⊢ iprop(iprop((∃ d, owns (c : Thread nD τ) scM0 fullShare d) ∗ (∃ d, owns (c : Thread nD τ) scM1 fullShare d) ∗ (∃ d, owns (c : Thread nD τ) scM2 fullShare d))
          ∗ Pipeline.scopedRestBut (Ix := Unit) (Name := ℕ) (U := UU) (Lvl := ℕ) (Val := Elt Ideal) spec3 c [cc3_scratch0, cc3_scratch1, cc3_scratch2]) := by
  rw [scopedRest3_split]; simp only [scM0, scM1, scM2, owns_whole]; exact .rfl
theorem scr_fold (c : Dev nD) :
    iprop(iprop((∃ d, owns (c : Thread nD τ) scM0 fullShare d) ∗ (∃ d, owns (c : Thread nD τ) scM1 fullShare d) ∗ (∃ d, owns (c : Thread nD τ) scM2 fullShare d))
          ∗ Pipeline.scopedRestBut (Ix := Unit) (Name := ℕ) (U := UU) (Lvl := ℕ) (Val := Elt Ideal) spec3 c [cc3_scratch0, cc3_scratch1, cc3_scratch2])
      ⊢ (Pipeline.scopedRest (Ix := Unit) (Name := ℕ) (U := UU) (Lvl := ℕ) (Val := Elt Ideal) spec3 c : sProp 𝕄) := by
  rw [scopedRest3_split]; simp only [scM0, scM1, scM2, owns_whole]; exact .rfl

/-- The reset values are the running triple after no block. -/
theorem init_M (c : Dev nD) (rb : ℕ) : (k3_pay5 (F := Ideal) : Vec Ideal S256x1 .f32) = scrM m c rb 0 := by
  funext y; obtain ⟨p, rfl⟩ := row_idx y; rw [pay5_row]; rfl
theorem init_L (c : Dev nD) (rb : ℕ) : (k3_pay6 (F := Ideal) : Vec Ideal S256x1 .f32) = scrL m c rb 0 := by
  funext y; obtain ⟨p, rfl⟩ := row_idx y; rw [pay6_row]; rfl
theorem init_S (c : Dev nD) (rb : ℕ) : (k3_pay7 (F := Ideal) : Vec Ideal S256x1 .f32) = scrS m c rb 0 := by
  funext y; obtain ⟨p, rfl⟩ := row_idx y; rw [pay7_row]; rfl

/-- At the last column the two outputs' buffers get their blocks of the closed forms. -/
theorem out4_eq (c : Dev nD) (t : Fin cfg3.N) :
    k3_pay4 (F := Ideal) (scrM m c (t.val / 11) 11) (scrL m c (t.val / 11) 11)
      = (cfg3.win 4).fill (grid3.coords t) arb (((cfg3.win 4).blk t).view.read (Elt Ideal) (lse3 m c)) := by
  funext y; obtain ⟨p, rfl⟩ := row_idx y
  have hm : (cfg3.win 4).moved (grid3.coords t) (ix2 p 0) = true := ((cfg3.win 4).moved_iff _ _).mpr fun a => by
    match a with
    | ⟨0, _⟩ => exact p.isLt
    | ⟨1, _⟩ => exact (by decide : (0 : ℕ) < 1)
  rw [pay4_row]; unfold Window.fill; rw [dif_pos hm]
  show _ = lse3 m c (((cfg3.win 4).blk t).view.emb _)
  unfold lse3 Spec.lseOnline
  rw [show (((cfg3.win 4).blk t).view.emb (fun a => (⟨((ix2 p 0 : S256x1.Idx) a).val, ((cfg3.win 4).moved_iff (grid3.coords t) (ix2 p 0)).mp hm a⟩ : Fin _))) 0 = rowOf (t.val / 11) p from
    Fin.ext (by show win3_4.index t 0 * 256 + 1 * p.val = _; rw [(index4 t).1, rowOf_t]; omega)]
  rfl
theorem out5_eq (c : Dev nD) (t : Fin cfg3.N) :
    scrS m c (t.val / 11) 11 = (cfg3.win 5).fill (grid3.coords t) arb (((cfg3.win 5).blk t).view.read (Elt Ideal) (sel3 m c)) := by
  funext y; obtain ⟨p, rfl⟩ := row_idx y
  have hm : (cfg3.win 5).moved (grid3.coords t) (ix2 p 0) = true := ((cfg3.win 5).moved_iff _ _).mpr fun a => by
    match a with
    | ⟨0, _⟩ => exact p.isLt
    | ⟨1, _⟩ => exact (by decide : (0 : ℕ) < 1)
  unfold Window.fill; rw [dif_pos hm]
  show _ = sel3 m c (((cfg3.win 5).blk t).view.emb _)
  unfold sel3 Spec.selOnline
  rw [show (((cfg3.win 5).blk t).view.emb (fun a => (⟨((ix2 p 0 : S256x1.Idx) a).val, ((cfg3.win 5).moved_iff (grid3.coords t) (ix2 p 0)).mp hm a⟩ : Fin _))) 0 = rowOf (t.val / 11) p from
    Fin.ext (by show win3_5.index t 0 * 256 + 1 * p.val = _; rw [(index5 t).1, rowOf_t]; omega)]
  rfl

set_option maxHeartbeats 1600000 in
/-- The first column of a row block: the scratch comes at anything, is reset, and leaves at the triple after one block. -/
theorem sound_A (c : Dev nD) (t : Fin cfg3.N) (h0 : t.val % 11 = 0) :
    bodyPre m c t ⊢ wp frame (wpE (defs₀ (F := Ideal)) Variants.none c none) Set.univ (bodyAt3 t) (fun _ => bodyPost m c t) := by
  unfold bodyPre bodyPost
  have hk : ((grid3.coords t) 1).val = 0 := (coords_t t).1.trans h0
  have h9 : ¬t.val % 11 = 10 := by omega
  have e2 : (t.val + 1 - 1) / 11 = t.val / 11 := by omega
  have e3 : (t.val + 1) % 11 = 0 + 1 := by omega
  rw [Phi_cast, Phi_succ, Phi_edge m c t.val h0, Phi_mid m c (t.val + 1) (by omega), e2, e3,
    show (dat m c).owesAt () t.succ = (dat m c).owesAt () t.castSucc from rfl,
    leaves0, leaves1, leaves2, leaves3, leaves4_idle m c t h9, leaves5_idle m c t h9,
    after0, after1, after2, after3, Window.cut_fill, Window.cut_fill]
  simp only [before0, before1, before2, before3]
  iintro ⟨HΦ, Ho, ⟨%d0, H0⟩, ⟨%d1, H1⟩, ⟨%d2, H2⟩, ⟨%d3, H3⟩, ⟨%d4, H4⟩, ⟨%d5, H5⟩⟩
  ihave HΦ' := (scr_unfold c) $$ HΦ
  icases HΦ' with ⟨⟨HM, HL, HS⟩, Hrest⟩
  iapply (run3_A c (grid3.coords t) _ _ _ _ _ _ _ _ _ _ _ _ _ _ _ _ _ _ ((hfirst t).mpr h0) (fun h => h9 ((hlast t).mp h))
    _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HM]; · iexact HM
  isplitl [HL]; · iexact HL
  isplitl [HS]; · iexact HS
  iintro ⟨H0, H1, H2, H3, H4, H5, HM, HL, HS⟩
  rw [init_M m c (t.val / 11), init_L m c (t.val / 11), init_S m c (t.val / 11),
    newM m c t d0 d1 d2 d3 _ hk, newL m c t d0 d1 d2 d3 _ hk, newS m c t d0 d1 d2 d3 _ hk]
  isplitl [HM HL HS Hrest]
  · isplitr [Hrest]
    · isplitl [HM]; · iexact HM
      isplitl [HL]; · iexact HL
      iexact HS
    · iexact Hrest
  isplitl [Ho]; · iexact Ho
  isplitl [H0]; · rw [fill0_irrel m c t arb d0]; iexact H0
  isplitl [H1]; · iexists d1; iexact H1
  isplitl [H2]; · iexists d2; iexact H2
  isplitl [H3]; · rw [fill3_irrel m c t arb d3]; iexact H3
  isplitl [H4]; · iexists d4; iexact H4
  iexists d5; iexact H5

set_option maxHeartbeats 1600000 in
/-- The last column of a row block: the scratch goes to the triple after all blocks, the two outputs' buffers get the
    maximum plus the logarithm of the sum and the pick, and the scratch is given back among the scoped buffers. -/
theorem sound_C (c : Dev nD) (t : Fin cfg3.N) (h0 : ¬t.val % 11 = 0) (h9 : t.val % 11 = 10) :
    bodyPre m c t ⊢ wp frame (wpE (defs₀ (F := Ideal)) Variants.none c none) Set.univ (bodyAt3 t) (fun _ => bodyPost m c t) := by
  unfold bodyPre bodyPost
  have hk : ((grid3.coords t) 1).val = 10 := (coords_t t).1.trans h9
  have e1 : (t.val - 1) / 11 = t.val / 11 := by omega
  rw [Phi_cast, Phi_succ, Phi_mid m c t.val h0, Phi_edge m c (t.val + 1) (by omega), e1, h9,
    show (dat m c).owesAt () t.succ = (dat m c).owesAt () t.castSucc from rfl,
    leaves0, leaves1, leaves2, leaves3, leaves4_live m c t h9, leaves5_live m c t h9,
    after0, after1, after2, after3, after4, after5, Window.cut_fill, Window.cut_fill]
  simp only [before0, before1, before2, before3]
  iintro ⟨⟨⟨HM, HL, HS⟩, Hrest⟩, Ho, ⟨%d0, H0⟩, ⟨%d1, H1⟩, ⟨%d2, H2⟩, ⟨%d3, H3⟩, ⟨%d4, H4⟩, ⟨%d5, H5⟩⟩
  iapply (run3_C c (grid3.coords t) _ _ _ _ _ _ _ _ _ _ _ _ _ _ _ _ _ _ (fun h => h0 ((hfirst t).mp h)) ((hlast t).mpr h9)
    _ _ _ _ _ _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HM]; · iexact HM
  isplitl [HL]; · iexact HL
  isplitl [HS]; · iexact HS
  iintro ⟨H0, H1, H2, H3, H4, H5, HM, HL, HS⟩
  rw [newM m c t d0 d1 d2 d3 _ hk, newL m c t d0 d1 d2 d3 _ hk, newS m c t d0 d1 d2 d3 _ hk, out4_eq m c t, out5_eq m c t]
  isplitl [HM HL HS Hrest]
  · iapply (scr_fold c)
    isplitr [Hrest]
    · isplitl [HM]; · iexists _; iexact HM
      isplitl [HL]; · iexists _; iexact HL
      iexists _; iexact HS
    · iexact Hrest
  isplitl [Ho]; · iexact Ho
  isplitl [H0]; · rw [fill0_irrel m c t arb d0]; iexact H0
  isplitl [H1]; · iexists d1; iexact H1
  isplitl [H2]; · iexists d2; iexact H2
  isplitl [H3]; · rw [fill3_irrel m c t arb d3]; iexact H3
  isplitl [H4]; · iexact H4
  iexact H5

/-- The library's body obligation, at every point: by the column's position in its row block. -/
theorem body_obligation (c : Dev nD) : BodyObligationLoose (dat m c) (defs₀ (F := Ideal)) Variants.none () Set.univ := fun t => by
  rw [bigSep_W3, bigSep_W3]
  by_cases h0 : t.val % 11 = 0
  · exact sound_A m c t h0
  · by_cases h9 : t.val % 11 = 10
    · exact sound_C m c t h0 h9
    · exact sound_B m c t h0 h9

/-! ## The region's ends -/

/-- Proof data for the other pipelines of the program: nothing is asked of it here. -/
def junk {cfg : Cfg sig Λ₀} (c : Dev nD) : Dat τ (Elt Ideal) Unit ℕ UU ℕ cfg c where
  A _ := fun _ => Classical.arbitrary _
  after _ _ := fun _ => Classical.arbitrary _
  Φ _ := BI.emp
  q _ := fullShare
  owed _ := 0

/-- This region's proof data among a family over the program's pipelines (the library's splitting lemmas are stated over a family). -/
def fam : (p : Fin 4) → (c : Dev nD) → Dat τ (Elt Ideal) Unit ℕ UU ℕ (Pipeline.pin (pcfgs (F := Ideal)) adm p) c
  | ⟨0, _⟩ => fun c => junk c
  | ⟨1, _⟩ => fun c => junk c
  | ⟨2, _⟩ => fun c => junk c
  | ⟨3, _⟩ => fun c => dat m c

/-- ENTRY: the region's six arrays split out of the core's unscoped buffers. -/
theorem entry_split (c : Dev nD) :
    (unscopedBufs c (fun b => V7 m (outs m) c b) : sProp 𝕄) ⊢ iprop((dat m c).arrays ((dat m c).arrAt · 0) ∗ Pipeline.unscopedRest spec3 c (fun b => V7 m (outs m) c b)) :=
  Pipeline.arrays_of_unscopedBufs (p := (3 : Fin 4)) (pcfgs (F := Ideal)) adm (fam m) launch3.win launch3.arr_whole c
    ((fam m (3 : Fin 4) c).share_full fun _ => rfl) (fun b => V7 m (outs m) c b) fun _ => rfl

theorem V2_v12_0 (c : Dev nD) : V8 m (outs m) c main_v30_0 = lse3 m c := by
  simp only [V8, Function.update_self, Function.update_of_ne (StableHlo.devRef_ne_of_ne (show main_v30_0 ≠ main_v30_1 by decide) : (Proc.devRef .tc main_v30_0 : DevRef τ sig) ≠ Proc.devRef .tc main_v30_1)]
  exact outs_v30_0 m c (8 : ℕ)
theorem V2_v12_1 (c : Dev nD) : V8 m (outs m) c main_v30_1 = sel3 m c := by
  simp only [V8, Function.update_self]
  exact outs_v30_1 m c (8 : ℕ)

/-- EXIT: the arrays after the last write-back and the unscoped rest are the core's unscoped buffers at the next valuation. -/
theorem exit_join (c : Dev nD) :
    iprop((dat m c).arrays ((dat m c).arrAt · cfg3.N) ∗ Pipeline.unscopedRest spec3 c (fun b => V7 m (outs m) c b)) ⊢ (unscopedBufs c (fun b => V8 m (outs m) c b) : sProp 𝕄) :=
  Pipeline.unscopedBufs_of_arrays (p := (3 : Fin 4)) (pcfgs (F := Ideal)) adm launch3.win launch3.arr_whole c (fam m)
    ((fam m (3 : Fin 4) c).share_full fun _ => rfl) (fun b => V7 m (outs m) c b) (fun b => V8 m (outs m) c b) ((dat m c).arrAt · cfg3.N)
    (fun w => by
      fin_cases w
      · exact (final_in m c 0 rfl).trans (V8_of m (outs m) c main_v27 (by decide)).symm
      · exact (final_in m c 1 rfl).trans (V8_of m (outs m) c main_arg13 (by decide)).symm
      · exact (final_in m c 2 rfl).trans (V8_of m (outs m) c main_v28 (by decide)).symm
      · exact (final_in m c 3 rfl).trans (V8_of m (outs m) c main_v29 (by decide)).symm
      · exact (final4 m c).trans (V2_v12_0 m c).symm
      · exact (final5 m c).trans (V2_v12_1 m c).symm)
    (fun b hb => V8_of m (outs m) c b (by
      intro h
      simp only [List.mem_cons, List.not_mem_nil, or_false] at h
      rcases h with rfl | rfl
      · exact hb (Finset.mem_image.mpr ⟨4, Finset.mem_univ _, rfl⟩)
      · exact hb (Finset.mem_image.mpr ⟨5, Finset.mem_univ _, rfl⟩)))

/-- The invariant at the region's two ends is the scoped buffers no window stages, each at anything. -/
theorem hin (c : Dev nD) : (Pipeline.scopedRest (Ix := Unit) (Name := ℕ) (U := UU) (Lvl := ℕ) (Val := Elt Ideal) spec3 c : sProp 𝕄) ⊢ (dat m c).Φ 0 := by
  rw [show (dat m c).Φ 0 = Phi m c 0 from rfl, Phi_edge m c 0 rfl]
theorem hout (c : Dev nD) : (dat m c).Φ (Fin.last cfg3.N) ⊢ (Pipeline.scopedRest (Ix := Unit) (Name := ℕ) (U := UU) (Lvl := ℕ) (Val := Elt Ideal) spec3 c : sProp 𝕄) := by
  rw [show (dat m c).Φ (Fin.last cfg3.N) = Phi m c cfg3.N from rfl, Phi_edge m c cfg3.N (by rw [show cfg3.N = 44 from N_3])]

end Cert.Proof.KRegion3

end
-- ==== Proof.KernelRun.lean ====
import proofs.«407035_j66254165508793_2_alg».proof.Proof.Gen.KernelIdeal.Regions
import proofs.«407035_j66254165508793_2_alg».proof.Proof.KOuts
import proofs.«407035_j66254165508793_2_alg».proof.Proof.Spec
import proofs.«407035_j66254165508793_2_alg».proof.Proof.KRuns0
import proofs.«407035_j66254165508793_2_alg».proof.Proof.KRegion0
import proofs.«407035_j66254165508793_2_alg».proof.Proof.KRegion1
import proofs.«407035_j66254165508793_2_alg».proof.Proof.KRegion2
import proofs.«407035_j66254165508793_2_alg».proof.Proof.KRegion3
import proofs.«407035_j66254165508793_2_alg».proof.Proof.KHost

set_option maxRecDepth 4096

noncomputable section

namespace Cert.Proof.KernelRun
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

abbrev UU : Type := Cert.Proof.KRuns0.UU

local notation "𝕄" => MT nD τ sig Unit (Elt Ideal) ℕ UU ℕ

variable (m : (ℓ : Loc nD τ sig) → Buf (Elt Ideal) ℓ)

abbrev L : GSem nD τ sig → Finset Unit := fun _ => ∅
abbrev lv : GSem nD τ sig → Unit → ℕ := fun _ _ => 0

abbrev EP : Emb (UR sig nD τ) (MT nD τ sig Unit (Elt Ideal) ℕ UU ℕ) := embL

abbrev Rest (c : Dev nD) : sProp 𝕄 := iprop(∃ W, owes (c : Thread nD τ) (0 : CellTallies nD τ sig Unit) W)

abbrev outs : Outs (F := Ideal) := Cert.Proof.KOuts.outs m

theorem owesAt_intro {cfg : Pipeline.Cfg sig Λ₀} {c : Dev nD} (dat : Dat τ (Elt Ideal) Unit ℕ UU ℕ cfg c) (t : Fin (cfg.N + 1))
    (h0 : dat.owed t = 0) (hr : dat.recorded t = Set.univ) : Rest c ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
theorem owesAt_elim {cfg : Pipeline.Cfg sig Λ₀} {c : Dev nD} (dat : Dat τ (Elt Ideal) Unit ℕ UU ℕ cfg c) (t : Fin (cfg.N + 1))
    (h0 : dat.owed t = 0) : (dat.owesAt () t : sProp 𝕄) ⊢ Rest c := by
  unfold Pipeline.Dat.owesAt Pipeline.owesWithin; rw [h0]
  iintro ⟨%W, -, HO⟩; iexists W; iexact HO

def pdats : (p : Fin 4) → (c : Dev nD) → Dat τ (Elt Ideal) Unit ℕ UU ℕ (cfgs p) c
  | ⟨0, _⟩ => fun c => KRegion0.dat m c
  | ⟨1, _⟩ => fun c => KRegion1.dat m c
  | ⟨2, _⟩ => fun c => KRegion2.dat m c
  | ⟨3, _⟩ => fun c => KRegion3.dat m c

set_option backward.isDefEq.respectTransparency.types false in

def R0 : RegionSeg (pcfgs (F := Ideal)) adm (pdats m) () defs₀ Variants.none L lv 0 where
  win := launch0.win.to₀
  block_pos := launch0.block_pos
  stage_whole := launch0.stage_whole
  K := PEmpty
  osem k := k.elim
  ho := Pipeline.OwnSemFacts.none _
  hbody c := KRegion0.body_obligation m c
  hwaits := Pipeline.hwaits_of_owed_zero _ _ _ _ L lv 0 fun _ _ => rfl
  pre c := iprop(StableHlo.held (c : Thread nD τ) (Pipeline.ucRefs τ sig) (V1 m c) ∗ Rest c)
  post c := iprop(StableHlo.held (c : Thread nD τ) (Pipeline.ucRefs τ sig) (V2 m (outs m) c) ∗ Rest c)
  X _ := BI.emp
  Y _ := BI.emp
  Z c := Pipeline.unscopedRest (Ix := Unit) (Name := ℕ) (U := UU) (Lvl := ℕ) spec0 c (fun b => V1 m c b)
  hentry c := by
    rw [Pipeline.ownSems0_none, ← Pipeline.unscopedBufs_held (Ix := Unit) (Name := ℕ) (U := UU) (Lvl := ℕ) c (V1 m c)]
    iintro ⟨⟨Hub, HO⟩, -, -⟩
    ihave H := (KRegion0.entry_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_intro (pdats m 0 c) 0 rfl rfl); iexact HO
    isplitr; · iempintro
    iexact Hrest
  hin c := by
    change _ ⊢ (KRegion0.dat m c).Φ 0
    iintro ⟨-, -, Hr⟩
    iapply (KRegion0.hin m c); iexact Hr
  hout c := by
    change (KRegion0.dat m c).Φ (Fin.last cfg0.N) ⊢ _
    rw [Pipeline.ownSems0_none]
    iintro H
    isplitr; · iempintro
    isplitr; · iempintro
    iapply (KRegion0.hout m c); iexact H
  hexit c := by
    change iprop((KRegion0.dat m c).arrays ((KRegion0.dat m c).arrAt · cfg0.N) ∗ (KRegion0.dat m c).owesAt () (Fin.last cfg0.N) ∗ _ ∗ _) ⊢ _
    rw [← Pipeline.unscopedBufs_held (Ix := Unit) (Name := ℕ) (U := UU) (Lvl := ℕ) c (V2 m (outs m) c)]
    iintro ⟨Ha, HO, -, Hrest⟩
    imodintro
    isplitl [Ha Hrest]
    · iapply (KRegion0.exit_join m c)
      isplitl [Ha]; · iexact Ha
      iexact Hrest
    iapply (owesAt_elim (KRegion0.dat m c) _ rfl); iexact HO

set_option backward.isDefEq.respectTransparency.types false in

def R1 : RegionSeg (pcfgs (F := Ideal)) adm (pdats m) () defs₀ Variants.none L lv 1 where
  win := launch1.win.to₀
  block_pos := launch1.block_pos
  stage_whole := launch1.stage_whole
  K := PEmpty
  osem k := k.elim
  ho := Pipeline.OwnSemFacts.none _
  hbody c := KRegion1.body_obligation m c
  hwaits := Pipeline.hwaits_of_owed_zero _ _ _ _ L lv 1 fun _ _ => rfl
  pre c := iprop(StableHlo.held (c : Thread nD τ) (Pipeline.ucRefs τ sig) (V3 m (outs m) c) ∗ Rest c)
  post c := iprop(StableHlo.held (c : Thread nD τ) (Pipeline.ucRefs τ sig) (V4 m (outs m) c) ∗ Rest c)
  X _ := BI.emp
  Y _ := BI.emp
  Z c := Pipeline.unscopedRest (Ix := Unit) (Name := ℕ) (U := UU) (Lvl := ℕ) spec1 c (fun b => V3 m (outs m) c b)
  hentry c := by
    rw [Pipeline.ownSems0_none, ← Pipeline.unscopedBufs_held (Ix := Unit) (Name := ℕ) (U := UU) (Lvl := ℕ) c (V3 m (outs m) c)]
    iintro ⟨⟨Hub, HO⟩, -, -⟩
    ihave H := (KRegion1.entry_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_intro (pdats m 1 c) 0 rfl rfl); iexact HO
    isplitr; · iempintro
    iexact Hrest
  hin c := by
    change _ ⊢ (KRegion1.dat m c).Φ 0
    iintro ⟨-, -, Hr⟩
    iapply (KRegion1.hin m c); iexact Hr
  hout c := by
    change (KRegion1.dat m c).Φ (Fin.last cfg1.N) ⊢ _
    rw [Pipeline.ownSems0_none]
    iintro H
    isplitr; · iempintro
    isplitr; · iempintro
    iapply (KRegion1.hout m c); iexact H
  hexit c := by
    change iprop((KRegion1.dat m c).arrays ((KRegion1.dat m c).arrAt · cfg1.N) ∗ (KRegion1.dat m c).owesAt () (Fin.last cfg1.N) ∗ _ ∗ _) ⊢ _
    rw [← Pipeline.unscopedBufs_held (Ix := Unit) (Name := ℕ) (U := UU) (Lvl := ℕ) c (V4 m (outs m) c)]
    iintro ⟨Ha, HO, -, Hrest⟩
    imodintro
    isplitl [Ha Hrest]
    · iapply (KRegion1.exit_join m c)
      isplitl [Ha]; · iexact Ha
      iexact Hrest
    iapply (owesAt_elim (KRegion1.dat m c) _ rfl); iexact HO

set_option backward.isDefEq.respectTransparency.types false in

def R2 : RegionSeg (pcfgs (F := Ideal)) adm (pdats m) () defs₀ Variants.none L lv 2 where
  win := launch2.win.to₀
  block_pos := launch2.block_pos
  stage_whole := launch2.stage_whole
  K := PEmpty
  osem k := k.elim
  ho := Pipeline.OwnSemFacts.none _
  hbody c := KRegion2.body_obligation m c
  hwaits := Pipeline.hwaits_of_owed_zero _ _ _ _ L lv 2 fun _ _ => rfl
  pre c := iprop(StableHlo.held (c : Thread nD τ) (Pipeline.ucRefs τ sig) (V5 m (outs m) c) ∗ Rest c)
  post c := iprop(StableHlo.held (c : Thread nD τ) (Pipeline.ucRefs τ sig) (V6 m (outs m) c) ∗ Rest c)
  X _ := BI.emp
  Y _ := BI.emp
  Z c := Pipeline.unscopedRest (Ix := Unit) (Name := ℕ) (U := UU) (Lvl := ℕ) spec2 c (fun b => V5 m (outs m) c b)
  hentry c := by
    rw [Pipeline.ownSems0_none, ← Pipeline.unscopedBufs_held (Ix := Unit) (Name := ℕ) (U := UU) (Lvl := ℕ) c (V5 m (outs m) c)]
    iintro ⟨⟨Hub, HO⟩, -, -⟩
    ihave H := (KRegion2.entry_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_intro (pdats m 2 c) 0 rfl rfl); iexact HO
    isplitr; · iempintro
    iexact Hrest
  hin c := by
    change _ ⊢ (KRegion2.dat m c).Φ 0
    iintro ⟨-, -, Hr⟩
    iapply (KRegion2.hin m c); iexact Hr
  hout c := by
    change (KRegion2.dat m c).Φ (Fin.last cfg2.N) ⊢ _
    rw [Pipeline.ownSems0_none]
    iintro H
    isplitr; · iempintro
    isplitr; · iempintro
    iapply (KRegion2.hout m c); iexact H
  hexit c := by
    change iprop((KRegion2.dat m c).arrays ((KRegion2.dat m c).arrAt · cfg2.N) ∗ (KRegion2.dat m c).owesAt () (Fin.last cfg2.N) ∗ _ ∗ _) ⊢ _
    rw [← Pipeline.unscopedBufs_held (Ix := Unit) (Name := ℕ) (U := UU) (Lvl := ℕ) c (V6 m (outs m) c)]
    iintro ⟨Ha, HO, -, Hrest⟩
    imodintro
    isplitl [Ha Hrest]
    · iapply (KRegion2.exit_join m c)
      isplitl [Ha]; · iexact Ha
      iexact Hrest
    iapply (owesAt_elim (KRegion2.dat m c) _ rfl); iexact HO

set_option backward.isDefEq.respectTransparency.types false in

def R3 : RegionSeg (pcfgs (F := Ideal)) adm (pdats m) () defs₀ Variants.none L lv 3 where
  win := launch3.win.to₀
  block_pos := launch3.block_pos
  stage_whole := launch3.stage_whole
  K := PEmpty
  osem k := k.elim
  ho := Pipeline.OwnSemFacts.none _
  hbody c := KRegion3.body_obligation m c
  hwaits := Pipeline.hwaits_of_owed_zero _ _ _ _ L lv 3 fun _ _ => rfl
  pre c := iprop(StableHlo.held (c : Thread nD τ) (Pipeline.ucRefs τ sig) (V7 m (outs m) c) ∗ Rest c)
  post c := iprop(StableHlo.held (c : Thread nD τ) (Pipeline.ucRefs τ sig) (V8 m (outs m) c) ∗ Rest c)
  X _ := BI.emp
  Y _ := BI.emp
  Z c := Pipeline.unscopedRest (Ix := Unit) (Name := ℕ) (U := UU) (Lvl := ℕ) spec3 c (fun b => V7 m (outs m) c b)
  hentry c := by
    rw [Pipeline.ownSems0_none, ← Pipeline.unscopedBufs_held (Ix := Unit) (Name := ℕ) (U := UU) (Lvl := ℕ) c (V7 m (outs m) c)]
    iintro ⟨⟨Hub, HO⟩, -, -⟩
    ihave H := (KRegion3.entry_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_intro (pdats m 3 c) 0 rfl rfl); iexact HO
    isplitr; · iempintro
    iexact Hrest
  hin c := by
    change _ ⊢ (KRegion3.dat m c).Φ 0
    iintro ⟨-, -, Hr⟩
    iapply (KRegion3.hin m c); iexact Hr
  hout c := by
    change (KRegion3.dat m c).Φ (Fin.last cfg3.N) ⊢ _
    rw [Pipeline.ownSems0_none]
    iintro H
    isplitr; · iempintro
    isplitr; · iempintro
    iapply (KRegion3.hout m c); iexact H
  hexit c := by
    change iprop((KRegion3.dat m c).arrays ((KRegion3.dat m c).arrAt · cfg3.N) ∗ (KRegion3.dat m c).owesAt () (Fin.last cfg3.N) ∗ _ ∗ _) ⊢ _
    rw [← Pipeline.unscopedBufs_held (Ix := Unit) (Name := ℕ) (U := UU) (Lvl := ℕ) c (V8 m (outs m) c)]
    iintro ⟨Ha, HO, -, Hrest⟩
    imodintro
    isplitl [Ha Hrest]
    · iapply (KRegion3.exit_join m c)
      isplitl [Ha]; · iexact Ha
      iexact Hrest
    iapply (owesAt_elim (KRegion3.dat m c) _ rfl); iexact HO

def QY (c : Dev nD) (s : MemSt nD τ sig (Elt Ideal)) : Prop :=
  s.mem ((c.tc : Thread nD τ).loc main_v91) = V16 m (outs m) c main_v91
        ∧ s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2)
        ∧ s.mem ((c.tc : Thread nD τ).loc main_arg3) = m ((c.tc : Thread nD τ).loc main_arg3)
        ∧ s.mem ((c.tc : Thread nD τ).loc main_arg4) = m ((c.tc : Thread nD τ).loc main_arg4)
        ∧ s.mem ((c.tc : Thread nD τ).loc main_arg5) = m ((c.tc : Thread nD τ).loc main_arg5)
        ∧ s.mem ((c.tc : Thread nD τ).loc main_arg6) = m ((c.tc : Thread nD τ).loc main_arg6)
        ∧ s.mem ((c.tc : Thread nD τ).loc main_arg7) = m ((c.tc : Thread nD τ).loc main_arg7)
        ∧ s.mem ((c.tc : Thread nD τ).loc main_arg8) = m ((c.tc : Thread nD τ).loc main_arg8)
        ∧ s.mem ((c.tc : Thread nD τ).loc main_arg9) = m ((c.tc : Thread nD τ).loc main_arg9)
        ∧ s.mem ((c.tc : Thread nD τ).loc main_arg10) = m ((c.tc : Thread nD τ).loc main_arg10)
        ∧ s.mem ((c.tc : Thread nD τ).loc main_arg11) = m ((c.tc : Thread nD τ).loc main_arg11)
        ∧ s.mem ((c.tc : Thread nD τ).loc main_arg12) = m ((c.tc : Thread nD τ).loc main_arg12)
        ∧ s.mem ((c.tc : Thread nD τ).loc main_arg13) = m ((c.tc : Thread nD τ).loc main_arg13)
        ∧ s.mem ((c.tc : Thread nD τ).loc main_arg14) = m ((c.tc : Thread nD τ).loc main_arg14)

set_option backward.isDefEq.respectTransparency.types false in

theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v91)
          = Cert.Spec.nllKArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)) := by
  refine Pipeline.θ_run_regions_kit_dev (pcfgs (F := Ideal)) adm (pdats m) () cellOf_inj EP defs₀ Variants.none L lv m ρ main
    (segs m (outs m) Variants.none L lv (fun _ c => Rest c) () (pdats m) (R0 m) (R1 m) (R2 m) (R3 m))
    (fun c Q => by
      rewrite [main_chain c, Seg.run_eq_chain,
        show ((segs m (outs m) Variants.none L lv (fun _ c => Rest c) () (pdats m) (R0 m) (R1 m) (R2 m) (R3 m)) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          StableHlo.seq hostOps4_7 ] from rfl]
      exact .rfl)
    (fun c => by simp only [segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => StableHlo.held (c : Thread nD τ) (Pipeline.ucRefs τ sig) (V16 m (outs m) c))
    (hch := fun c => ⟨.rfl, .rfl, .rfl, .rfl, .rfl, .rfl, .rfl, .rfl, .rfl, .rfl, .rfl, .rfl, .rfl, .rfl, .rfl, .rfl, .rfl⟩)
    (hinit := ?_) (QY := QY m) (hfin := fun c s' => ?_)
    (hQ := fun s h c => ⟨(h c).1.trans (KHost.v91_eq m c), (h c).2⟩)
  ·
    refine Pipeline.initEach L lv fun c => ?_
    rw [show unscopedBufs c (fun b => m ((c.tc : Thread nD τ).loc b)) = StableHlo.held (c : Thread nD τ) (Pipeline.ucRefs τ sig) (V0 m c) from
      Pipeline.unscopedBufs_held (Ix := Unit) (Name := ℕ) (U := UU) (Lvl := ℕ) c (V0 m c)]
    iintro ⟨⟨Hh, -, HO, -, -, -⟩, -⟩
    imodintro
    isplitl [Hh]; · iexact Hh
    iexists ∅; iexact HO
  ·
    unfold StableHlo.held
    iintro ⟨Hh, HSI⟩
    ihave Hr := (pointsTo_read_all (Pipeline.ucRefs τ sig) (fun b => ((c : Thread nD τ).1, b)) (V16 m (outs m) c) s') $$ [Hh HSI]
    · isplitl [Hh] <;> iassumption
    icases Hr with ⟨%h, HSI⟩
    imodintro
    isplitr
    · ipureintro
      exact ⟨(h (Proc.devRef .tc main_v91) (Finset.mem_filter.mpr ⟨StableHlo.devRef_mem_tcRefs main_v91, by decide⟩)),
        (h (Proc.devRef .tc main_arg0) (Finset.mem_filter.mpr ⟨StableHlo.devRef_mem_tcRefs main_arg0, by decide⟩)).trans (V16_main_arg0 m (outs m) c),
        (h (Proc.devRef .tc main_arg1) (Finset.mem_filter.mpr ⟨StableHlo.devRef_mem_tcRefs main_arg1, by decide⟩)).trans (V16_main_arg1 m (outs m) c),
        (h (Proc.devRef .tc main_arg2) (Finset.mem_filter.mpr ⟨StableHlo.devRef_mem_tcRefs main_arg2, by decide⟩)).trans (V16_main_arg2 m (outs m) c),
        (h (Proc.devRef .tc main_arg3) (Finset.mem_filter.mpr ⟨StableHlo.devRef_mem_tcRefs main_arg3, by decide⟩)).trans (V16_main_arg3 m (outs m) c),
        (h (Proc.devRef .tc main_arg4) (Finset.mem_filter.mpr ⟨StableHlo.devRef_mem_tcRefs main_arg4, by decide⟩)).trans (V16_main_arg4 m (outs m) c),
        (h (Proc.devRef .tc main_arg5) (Finset.mem_filter.mpr ⟨StableHlo.devRef_mem_tcRefs main_arg5, by decide⟩)).trans (V16_main_arg5 m (outs m) c),
        (h (Proc.devRef .tc main_arg6) (Finset.mem_filter.mpr ⟨StableHlo.devRef_mem_tcRefs main_arg6, by decide⟩)).trans (V16_main_arg6 m (outs m) c),
        (h (Proc.devRef .tc main_arg7) (Finset.mem_filter.mpr ⟨StableHlo.devRef_mem_tcRefs main_arg7, by decide⟩)).trans (V16_main_arg7 m (outs m) c),
        (h (Proc.devRef .tc main_arg8) (Finset.mem_filter.mpr ⟨StableHlo.devRef_mem_tcRefs main_arg8, by decide⟩)).trans (V16_main_arg8 m (outs m) c),
        (h (Proc.devRef .tc main_arg9) (Finset.mem_filter.mpr ⟨StableHlo.devRef_mem_tcRefs main_arg9, by decide⟩)).trans (V16_main_arg9 m (outs m) c),
        (h (Proc.devRef .tc main_arg10) (Finset.mem_filter.mpr ⟨StableHlo.devRef_mem_tcRefs main_arg10, by decide⟩)).trans (V16_main_arg10 m (outs m) c),
        (h (Proc.devRef .tc main_arg11) (Finset.mem_filter.mpr ⟨StableHlo.devRef_mem_tcRefs main_arg11, by decide⟩)).trans (V16_main_arg11 m (outs m) c),
        (h (Proc.devRef .tc main_arg12) (Finset.mem_filter.mpr ⟨StableHlo.devRef_mem_tcRefs main_arg12, by decide⟩)).trans (V16_main_arg12 m (outs m) c),
        (h (Proc.devRef .tc main_arg13) (Finset.mem_filter.mpr ⟨StableHlo.devRef_mem_tcRefs main_arg13, by decide⟩)).trans (V16_main_arg13 m (outs m) c),
        (h (Proc.devRef .tc main_arg14) (Finset.mem_filter.mpr ⟨StableHlo.devRef_mem_tcRefs main_arg14, by decide⟩)).trans (V16_main_arg14 m (outs m) c)⟩
    · iexact HSI

end Cert.Proof.KernelRun

end
-- ==== Proof.FrameBits.After.lean ====
import Idealize.ShloMosaic.Lib.StableHlo.Run

namespace Cert.Proof.FrameBits

open Idealize.ShloMosaic

variable {τ : Topo} {sig : RefSig} {Val : EltTy → Type}

theorem result_agree (op : HloOp τ sig Val) (S : Finset (DevRef τ sig)) (hS : op.bufs ⊆ S)
    {F G : Valuation τ sig Val} (h : ∀ b ∈ S, F b = G b) : ∀ b ∈ S, op.result F b = op.result G b := by
  intro b hb
  by_cases hm : b ∈ op.bufs
  · exact op.result_congr (fun b' hb' => h b' (hS hb')) b hm
  · have hw : b ∉ op.writes := fun hw => hm (op.writes_sub hw)
    rw [op.result_of_not_mem F hw, op.result_of_not_mem G hw]
    exact h b hb

theorem after_agree : ∀ (ops : List (HloOp τ sig Val)) (S : Finset (DevRef τ sig)), (∀ op ∈ ops, op.bufs ⊆ S) →
    ∀ (F G : Valuation τ sig Val), (∀ b ∈ S, F b = G b) → ∀ b ∈ S, StableHlo.after ops F b = StableHlo.after ops G b
  | [], _, _, _, _, h => h
  | op :: ops, S, hS, F, G, h => by
    intro b hb
    rw [StableHlo.after_cons, StableHlo.after_cons]
    exact after_agree ops S (fun o ho => hS o (List.mem_cons_of_mem _ ho)) _ _
      (result_agree op S (hS op List.mem_cons_self) h) b hb

theorem after_named {W L Bad : List (Ref sig .tc)} (ops : List (HloOp τ sig Val))
    (hW : ops.Forall fun op => op.writes ⊆ (W.map (Proc.devRef (τ := τ) .tc)).toFinset)
    (hL : ops.Forall fun op => op.bufs ⊆ (L.map (Proc.devRef (τ := τ) .tc)).toFinset)
    (hWL : ∀ r ∈ W, r ∈ L) (hLB : ∀ r ∈ L, r ∉ Bad)
    {V N : Valuation τ sig Val} (h : ∀ r : Ref sig .tc, r ∉ Bad → V (Proc.devRef .tc r) = N (Proc.devRef .tc r)) :
    ∀ r : Ref sig .tc, r ∉ Bad →
      StableHlo.after ops V (Proc.devRef .tc r) = StableHlo.after ops N (Proc.devRef .tc r) := by
  classical
  intro r hr
  by_cases hrW : r ∈ W
  · refine after_agree ops _ (List.forall_iff_forall_mem.mp hL) V N (fun b hb => ?_) _
      (List.mem_toFinset.mpr (List.mem_map_of_mem (hWL r hrW)))
    obtain ⟨y, hy, rfl⟩ := List.mem_map.mp (List.mem_toFinset.mp hb)
    exact h y (hLB y hy)
  · rw [StableHlo.after_of_writes_sub ops V hW hrW, StableHlo.after_of_writes_sub ops N hW hrW]
    exact h r hr

end Cert.Proof.FrameBits
-- ==== Proof.FrameBits.Data.lean ====
import proofs.«407035_j66254165508793_2_alg».proof.Proof.Gen.Kernel.Regions
import proofs.«407035_j66254165508793_2_alg».proof.Proof.Gen.Kernel.Points
import proofs.«407035_j66254165508793_2_alg».proof.Proof.FrameBits.After

noncomputable section

namespace Cert.Proof.FrameBits

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

abbrev UU : Type := UR sig nD τ

abbrev MM (F : FTy → Type) : Type := MT nD τ sig Unit (Elt F) ℕ UU ℕ

variable (m : (ℓ : Loc nD τ sig) → Buf (Elt F) ℓ)

abbrev outs₀ : Outs (F := F) := fun _ r c => m ((c : Thread nD τ).loc r)

abbrev NV1 (c : Dev nD) (b : Ref sig .tc) : Buf (Elt F) ((c : Thread nD τ).loc b) := V1 m c b
abbrev NV3 (c : Dev nD) (b : Ref sig .tc) : Buf (Elt F) ((c : Thread nD τ).loc b) := V3 m (outs₀ m) c b
abbrev NV5 (c : Dev nD) (b : Ref sig .tc) : Buf (Elt F) ((c : Thread nD τ).loc b) := V5 m (outs₀ m) c b
abbrev NV7 (c : Dev nD) (b : Ref sig .tc) : Buf (Elt F) ((c : Thread nD τ).loc b) := V7 m (outs₀ m) c b

def rdat0 (c : Dev nD) : RDat τ (Elt F) Unit ℕ UU ℕ cfg0 c where
  A w := NV1 m c (Pipeline.arrRef spec0 w)
  after _ _ _ _ := True
  Φ _ := Pipeline.scopedRest (Ix := Unit) (Name := ℕ) (U := UU) (Lvl := ℕ) (Val := Elt F) spec0 c
  q _ := fullShare
  owed _ := 0

def rdat1 (c : Dev nD) : RDat τ (Elt F) Unit ℕ UU ℕ cfg1 c where
  A w := NV3 m c (Pipeline.arrRef spec1 w)
  after _ _ _ _ := True
  Φ _ := Pipeline.scopedRest (Ix := Unit) (Name := ℕ) (U := UU) (Lvl := ℕ) (Val := Elt F) spec1 c
  q _ := fullShare
  owed _ := 0

def rdat2 (c : Dev nD) : RDat τ (Elt F) Unit ℕ UU ℕ cfg2 c where
  A w := NV5 m c (Pipeline.arrRef spec2 w)
  after _ _ _ _ := True
  Φ _ := Pipeline.scopedRest (Ix := Unit) (Name := ℕ) (U := UU) (Lvl := ℕ) (Val := Elt F) spec2 c
  q _ := fullShare
  owed _ := 0

def rdat3 (c : Dev nD) : RDat τ (Elt F) Unit ℕ UU ℕ cfg3 c where
  A w := NV7 m c (Pipeline.arrRef spec3 w)
  after _ _ _ _ := True
  Φ _ := Pipeline.scopedRest (Ix := Unit) (Name := ℕ) (U := UU) (Lvl := ℕ) (Val := Elt F) spec3 c
  q _ := fullShare
  owed _ := 0

def rdats : (p : Fin 4) → (c : Dev nD) → RDat τ (Elt F) Unit ℕ UU ℕ (cfgs p) c :=
  fun | ⟨0, _⟩ => rdat0 m | ⟨1, _⟩ => rdat1 m | ⟨2, _⟩ => rdat2 m | ⟨3, _⟩ => rdat3 m
      | ⟨_ + 4, h⟩ => absurd h (Nat.not_lt.2 (Nat.le_add_left _ _))

end Cert.Proof.FrameBits
-- ==== Proof.FrameBits.States.lean ====
import proofs.«407035_j66254165508793_2_alg».proof.Proof.FrameBits.Data
import Idealize.ShloMosaic.Lib.Pipeline.Regions

noncomputable section

namespace Cert.Proof.FrameBits

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

variable {F : FTy → Type} [FloatOps F]

abbrev L₀ : GSem nD τ sig → Finset Unit := fun _ => ∅
abbrev lv₀ : GSem nD τ sig → Unit → ℕ := fun _ _ => 0
abbrev 𝒱₀ : Variants := Variants.none

abbrev Rr (c : Dev nD) : sProp (MM F) := iprop(∃ W, owes (c : Thread nD τ) (0 : CellTallies nD τ sig Unit) W)

def Agree (Bad : List (Ref sig .tc)) (N V : Valuation τ sig (Elt F)) : Prop :=
  ∀ r : Ref sig .tc, r ∉ Bad → V (Proc.devRef .tc r) = N (Proc.devRef .tc r)

def TS (G : Valuation τ sig (Elt F) → Prop) (c : Dev nD) : sProp (MM F) :=
  iprop(∃ V, ⌜G V⌝ ∗ StableHlo.held (c : Thread nD τ) (Pipeline.ucRefs τ sig) V ∗ Rr c)

set_option backward.isDefEq.respectTransparency.types false in

def hostEx (ops : List (HloOp τ sig (Elt F))) (hsub : ∀ op ∈ ops, op.bufs ⊆ Pipeline.ucRefs τ sig)
    (hf : ∀ op ∈ ops, op.fresh = ∅) (G G' : Dev nD → Valuation τ sig (Elt F) → Prop)
    (hstep : ∀ c V, G c V → G' c (StableHlo.after ops V)) :
    HostSeg (Ix := Unit) (Name := ℕ) (U := UU) (Lvl := ℕ) (pcfgs (F := F)) defs₀ 𝒱₀ L₀ lv₀ where
  prog := StableHlo.seq ops
  pre c := TS (G c) c
  post c := TS (G' c) c
  run c {β} k K := by
    unfold TS
    iintro ⟨Hk, Hbd, ⟨%V, %hV, Hh, HR⟩, Hl⟩
    have hrun := (HostSeg.ofOps (pcfgs (F := F)) defs₀ 𝒱₀ L₀ lv₀ (Pipeline.ucRefs τ sig) ops hsub hf (fun _ => V) (fun c => Rr c)).run c k K
    dsimp only [HostSeg.ofOps] at hrun
    iapply hrun
    isplitl [Hk]
    · iintro ⟨Hbd, Hh, HR⟩
      iapply Hk
      isplitl [Hbd]; · iexact Hbd
      iexists StableHlo.after ops V
      isplitr; · ipureintro; exact hstep c V hV
      isplitl [Hh] <;> iassumption
    isplitl [Hbd]; · iexact Hbd
    isplitl [Hh HR]
    · isplitl [Hh] <;> iassumption
    iexact Hl

end Cert.Proof.FrameBits
-- ==== Proof.FrameBits.Steps.lean ====
import proofs.«407035_j66254165508793_2_alg».proof.Proof.FrameBits.States

set_option maxRecDepth 4096

noncomputable section

namespace Cert.Proof.FrameBits

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

variable {F : FTy → Type} [FloatOps F]

abbrev Bad2 : List (Ref sig .tc) := [main_v12_0, main_v12_1]
abbrev Bad4 : List (Ref sig .tc) := [main_v12_0, main_v12_1, main_v18_0, main_v18_1]
abbrev Bad6 : List (Ref sig .tc) := [main_v12_0, main_v12_1, main_v18_0, main_v18_1, main_v24_0, main_v24_1]
abbrev Bad8 : List (Ref sig .tc) := [main_v12_0, main_v12_1, main_v18_0, main_v18_1, main_v24_0, main_v24_1, main_v30_0, main_v30_1]
abbrev Args : List (Ref sig .tc) := [main_arg0, main_arg1, main_arg2, main_arg3, main_arg4, main_arg5, main_arg6, main_arg7, main_arg8, main_arg9, main_arg10, main_arg11, main_arg12, main_arg13, main_arg14]

variable (m : (ℓ : Loc nD τ sig) → Buf (Elt F) ℓ)

def G0 (c : Dev nD) : Valuation τ sig (Elt F) → Prop := Agree [] (V0 m c)
def G1 (c : Dev nD) : Valuation τ sig (Elt F) → Prop := Agree [] (V1 m c)
def G2 (c : Dev nD) : Valuation τ sig (Elt F) → Prop := Agree Bad2 (V2 m (outs₀ m) c)
def G3 (c : Dev nD) : Valuation τ sig (Elt F) → Prop := Agree Bad2 (V3 m (outs₀ m) c)
def G4 (c : Dev nD) : Valuation τ sig (Elt F) → Prop := Agree Bad4 (V4 m (outs₀ m) c)
def G5 (c : Dev nD) : Valuation τ sig (Elt F) → Prop := Agree Bad4 (V5 m (outs₀ m) c)
def G6 (c : Dev nD) : Valuation τ sig (Elt F) → Prop := Agree Bad6 (V6 m (outs₀ m) c)
def G7 (c : Dev nD) : Valuation τ sig (Elt F) → Prop := Agree Bad6 (V7 m (outs₀ m) c)
def G8 (c : Dev nD) : Valuation τ sig (Elt F) → Prop := Agree Bad8 (V8 m (outs₀ m) c)

def GT (c : Dev nD) (V : Valuation τ sig (Elt F)) : Prop :=
  ∀ r ∈ Args, V (Proc.devRef .tc r) = V0 m c (Proc.devRef .tc r)

omit [FloatOps F] in
theorem agree_nil_after (ops : List (HloOp τ sig (Elt F))) (hsub : ops.Forall fun op => op.bufs ⊆ StableHlo.tcRefs τ sig)
    {N V : Valuation τ sig (Elt F)} (h : Agree [] N V) : Agree [] (StableHlo.after ops N) (StableHlo.after ops V) := by
  intro r _
  refine after_agree ops (StableHlo.tcRefs τ sig) (List.forall_iff_forall_mem.mp hsub) V N (fun b hb => ?_) _
    (StableHlo.devRef_mem_tcRefs r)
  obtain ⟨y, -, rfl⟩ := Finset.mem_map.mp hb
  exact h y List.not_mem_nil

abbrev L1 : List (Ref sig .tc) := [main_c_0, main_v13, main_arg1, main_v14, main_v4, main_v15, main_arg8, main_v16, main_v17]
abbrev L2 : List (Ref sig .tc) := [main_c_1, main_v19, main_arg1, main_v20, main_v5, main_v21, main_arg11, main_v22, main_v23]
abbrev L3 : List (Ref sig .tc) := [main_c_2, main_v25, main_arg1, main_v26, main_v6, main_v27, main_arg14, main_v28, main_v29]

theorem hostOps1_bufs : (hostOps1 : List (HloOp τ sig (Elt F))).Forall fun op => op.bufs ⊆ (L1.map (Proc.devRef (τ := τ) .tc)).toFinset := by
  simp only [List.Forall, StableHlo.nullary_bufs, StableHlo.unary_bufs, StableHlo.binary_bufs, StableHlo.reshape_bufs,
    Finset.insert_subset_iff, Finset.singleton_subset_iff, List.mem_toFinset]
  repeat' constructor
  all_goals exact List.mem_map_of_mem (by decide)
theorem hostOps2_bufs : (hostOps2 : List (HloOp τ sig (Elt F))).Forall fun op => op.bufs ⊆ (L2.map (Proc.devRef (τ := τ) .tc)).toFinset := by
  simp only [List.Forall, StableHlo.nullary_bufs, StableHlo.unary_bufs, StableHlo.binary_bufs, StableHlo.reshape_bufs,
    Finset.insert_subset_iff, Finset.singleton_subset_iff, List.mem_toFinset]
  repeat' constructor
  all_goals exact List.mem_map_of_mem (by decide)
theorem hostOps3_bufs : (hostOps3 : List (HloOp τ sig (Elt F))).Forall fun op => op.bufs ⊆ (L3.map (Proc.devRef (τ := τ) .tc)).toFinset := by
  simp only [List.Forall, StableHlo.nullary_bufs, StableHlo.unary_bufs, StableHlo.binary_bufs, StableHlo.reshape_bufs,
    Finset.insert_subset_iff, Finset.singleton_subset_iff, List.mem_toFinset]
  repeat' constructor
  all_goals exact List.mem_map_of_mem (by decide)

theorem args_W0 : ∀ r ∈ Args, r ∉ hostOps0_W := by decide
theorem args_W1 : ∀ r ∈ Args, r ∉ hostOps1_W := by decide
theorem args_W2 : ∀ r ∈ Args, r ∉ hostOps2_W := by decide
theorem args_W3 : ∀ r ∈ Args, r ∉ hostOps3_W := by decide
theorem args_W4 : ∀ r ∈ Args, r ∉ hostOps4_W := by decide
theorem args_W4_1 : ∀ r ∈ Args, r ∉ hostOps4_1_W := by decide
theorem args_W4_2 : ∀ r ∈ Args, r ∉ hostOps4_2_W := by decide
theorem args_W4_3 : ∀ r ∈ Args, r ∉ hostOps4_3_W := by decide
theorem args_W4_4 : ∀ r ∈ Args, r ∉ hostOps4_4_W := by decide
theorem args_W4_5 : ∀ r ∈ Args, r ∉ hostOps4_5_W := by decide
theorem args_W4_6 : ∀ r ∈ Args, r ∉ hostOps4_6_W := by decide
theorem args_W4_7 : ∀ r ∈ Args, r ∉ hostOps4_7_W := by decide
theorem args_O0 : ∀ r ∈ Args, r ∉ ([main_v12_0, main_v12_1] : List (Ref sig .tc)) := by decide
theorem args_O1 : ∀ r ∈ Args, r ∉ ([main_v18_0, main_v18_1] : List (Ref sig .tc)) := by decide
theorem args_O2 : ∀ r ∈ Args, r ∉ ([main_v24_0, main_v24_1] : List (Ref sig .tc)) := by decide
theorem args_O3 : ∀ r ∈ Args, r ∉ ([main_v30_0, main_v30_1] : List (Ref sig .tc)) := by decide
theorem args_Bad8 : ∀ r ∈ Args, r ∉ Bad8 := by decide

theorem V8_arg (c : Dev nD) (r : Ref sig .tc) (hr : r ∈ Args) : V8 m (outs₀ m) c r = V0 m c r :=
  (V8_of m (outs₀ m) c r (args_O3 r hr)).trans <| (V7_of m (outs₀ m) c r (args_W3 r hr)).trans <|
  (V6_of m (outs₀ m) c r (args_O2 r hr)).trans <| (V5_of m (outs₀ m) c r (args_W2 r hr)).trans <|
  (V4_of m (outs₀ m) c r (args_O1 r hr)).trans <| (V3_of m (outs₀ m) c r (args_W1 r hr)).trans <|
  (V2_of m (outs₀ m) c r (args_O0 r hr)).trans <| (V1_of m c r (args_W0 r hr))

theorem step0 (c : Dev nD) (V : Valuation τ sig (Elt F)) (h : G0 m c V) : G1 m c (StableHlo.after hostOps0 V) :=
  agree_nil_after hostOps0 hostOps0_sub h
theorem step2 (c : Dev nD) (V : Valuation τ sig (Elt F)) (h : G2 m c V) : G3 m c (StableHlo.after hostOps1 V) :=
  after_named hostOps1 hostOps1_writes hostOps1_bufs (by decide) (by decide) h
theorem step4 (c : Dev nD) (V : Valuation τ sig (Elt F)) (h : G4 m c V) : G5 m c (StableHlo.after hostOps2 V) :=
  after_named hostOps2 hostOps2_writes hostOps2_bufs (by decide) (by decide) h
theorem step6 (c : Dev nD) (V : Valuation τ sig (Elt F)) (h : G6 m c V) : G7 m c (StableHlo.after hostOps3 V) :=
  after_named hostOps3 hostOps3_writes hostOps3_bufs (by decide) (by decide) h
theorem step8 (c : Dev nD) (V : Valuation τ sig (Elt F)) (h : G8 m c V) : GT m c (StableHlo.after hostOps4 V) :=
  fun r hr => (StableHlo.after_of_writes_sub hostOps4 V hostOps4_writes (args_W4 r hr)).trans
    ((h r (args_Bad8 r hr)).trans (V8_arg m c r hr))

theorem stepT {W : List (Ref sig .tc)} (ops : List (HloOp τ sig (Elt F)))
    (hW : ops.Forall fun op => op.writes ⊆ (W.map (Proc.devRef (τ := τ) .tc)).toFinset) (hA : ∀ r ∈ Args, r ∉ W)
    (c : Dev nD) (V : Valuation τ sig (Elt F)) (h : GT m c V) : GT m c (StableHlo.after ops V) :=
  fun r hr => (StableHlo.after_of_writes_sub ops V hW (hA r hr)).trans (h r hr)

abbrev HS (F : FTy → Type) [FloatOps F] : Type _ :=
  HostSeg (Ix := Unit) (Name := ℕ) (U := UU) (Lvl := ℕ) (pcfgs (F := F)) defs₀ 𝒱₀ L₀ lv₀

def hs0 : HS F := hostEx hostOps0 (fun op h => Pipeline.sub_ucRefs op ((List.forall_iff_forall_mem.mp hostOps0_sub) op h))
  (fun op h => (List.forall_iff_forall_mem.mp hostOps0_fresh) op h) (G0 m) (G1 m) (step0 m)
def hs2 : HS F := hostEx hostOps1 (fun op h => Pipeline.sub_ucRefs op ((List.forall_iff_forall_mem.mp hostOps1_sub) op h))
  (fun op h => (List.forall_iff_forall_mem.mp hostOps1_fresh) op h) (G2 m) (G3 m) (step2 m)
def hs4 : HS F := hostEx hostOps2 (fun op h => Pipeline.sub_ucRefs op ((List.forall_iff_forall_mem.mp hostOps2_sub) op h))
  (fun op h => (List.forall_iff_forall_mem.mp hostOps2_fresh) op h) (G4 m) (G5 m) (step4 m)
def hs6 : HS F := hostEx hostOps3 (fun op h => Pipeline.sub_ucRefs op ((List.forall_iff_forall_mem.mp hostOps3_sub) op h))
  (fun op h => (List.forall_iff_forall_mem.mp hostOps3_fresh) op h) (G6 m) (G7 m) (step6 m)
def hs8 : HS F := hostEx hostOps4 (fun op h => Pipeline.sub_ucRefs op ((List.forall_iff_forall_mem.mp hostOps4_sub) op h))
  (fun op h => (List.forall_iff_forall_mem.mp hostOps4_fresh) op h) (G8 m) (GT m) (step8 m)
def hs9 : HS F := hostEx hostOps4_1 (fun op h => Pipeline.sub_ucRefs op ((List.forall_iff_forall_mem.mp hostOps4_1_sub) op h))
  (fun op h => (List.forall_iff_forall_mem.mp hostOps4_1_fresh) op h) (GT m) (GT m) (stepT m hostOps4_1 hostOps4_1_writes args_W4_1)
def hs10 : HS F := hostEx hostOps4_2 (fun op h => Pipeline.sub_ucRefs op ((List.forall_iff_forall_mem.mp hostOps4_2_sub) op h))
  (fun op h => (List.forall_iff_forall_mem.mp hostOps4_2_fresh) op h) (GT m) (GT m) (stepT m hostOps4_2 hostOps4_2_writes args_W4_2)
def hs11 : HS F := hostEx hostOps4_3 (fun op h => Pipeline.sub_ucRefs op ((List.forall_iff_forall_mem.mp hostOps4_3_sub) op h))
  (fun op h => (List.forall_iff_forall_mem.mp hostOps4_3_fresh) op h) (GT m) (GT m) (stepT m hostOps4_3 hostOps4_3_writes args_W4_3)
def hs12 : HS F := hostEx hostOps4_4 (fun op h => Pipeline.sub_ucRefs op ((List.forall_iff_forall_mem.mp hostOps4_4_sub) op h))
  (fun op h => (List.forall_iff_forall_mem.mp hostOps4_4_fresh) op h) (GT m) (GT m) (stepT m hostOps4_4 hostOps4_4_writes args_W4_4)
def hs13 : HS F := hostEx hostOps4_5 (fun op h => Pipeline.sub_ucRefs op ((List.forall_iff_forall_mem.mp hostOps4_5_sub) op h))
  (fun op h => (List.forall_iff_forall_mem.mp hostOps4_5_fresh) op h) (GT m) (GT m) (stepT m hostOps4_5 hostOps4_5_writes args_W4_5)
def hs14 : HS F := hostEx hostOps4_6 (fun op h => Pipeline.sub_ucRefs op ((List.forall_iff_forall_mem.mp hostOps4_6_sub) op h))
  (fun op h => (List.forall_iff_forall_mem.mp hostOps4_6_fresh) op h) (GT m) (GT m) (stepT m hostOps4_6 hostOps4_6_writes args_W4_6)
def hs15 : HS F := hostEx hostOps4_7 (fun op h => Pipeline.sub_ucRefs op ((List.forall_iff_forall_mem.mp hostOps4_7_sub) op h))
  (fun op h => (List.forall_iff_forall_mem.mp hostOps4_7_fresh) op h) (GT m) (GT m) (stepT m hostOps4_7 hostOps4_7_writes args_W4_7)

end Cert.Proof.FrameBits
-- ==== Proof.FrameBits.RegLemmas.lean ====
import proofs.«407035_j66254165508793_2_alg».proof.Proof.FrameBits.Steps

noncomputable section

namespace Cert.Proof.FrameBits

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

variable {F : FTy → Type} [FloatOps F]

theorem owesAt_intro {cfg : Pipeline.Cfg sig Λ₀} {c : Dev nD} (rd : RDat τ (Elt F) Unit ℕ UU ℕ cfg c) (t : Fin (cfg.N + 1))
    (h0 : rd.owed t = 0) (hr : rd.recorded t = Set.univ) : Rr c ⊢ (rd.owesAt () t : sProp (MM F)) := by
  unfold Pipeline.RDat.owesAt Pipeline.owesWithin Pipeline.RDat.bound; rw [h0, hr]
  iintro ⟨%W, HO⟩; iexists W; isplitr; · ipureintro; exact fun _ _ => Or.inl trivial
  iexact HO

theorem owesAt_elim {cfg : Pipeline.Cfg sig Λ₀} {c : Dev nD} (rd : RDat τ (Elt F) Unit ℕ UU ℕ cfg c) (t : Fin (cfg.N + 1))
    (h0 : rd.owed t = 0) : (rd.owesAt () t : sProp (MM F)) ⊢ Rr c := by
  unfold Pipeline.RDat.owesAt Pipeline.owesWithin; rw [h0]
  iintro ⟨%W, -, HO⟩; iexists W; iexact HO

variable (m : (ℓ : Loc nD τ sig) → Buf (Elt F) ℓ)

set_option backward.isDefEq.respectTransparency.types false in

theorem entry_arrays {p : Fin 4} (hw : Pipeline.WinFacts (cfgs p).spec) (harr : ∀ w, ((cfgs p).spec w).arr.IsWhole)
    (c : Dev nD) (hshare : ∀ w, (rdats m p c).share w = fullShare) (V : Valuation τ sig (Elt F))
    (hA : ∀ w, (rdats m p c).A w = V (Pipeline.arrRef (cfgs p).spec w)) :
    (StableHlo.held (c : Thread nD τ) (Pipeline.ucRefs τ sig) V : sProp (MM F))
      ⊢ iprop((rdats m p c).arrays (rdats m p c).A ∗ Pipeline.unscopedRest (cfgs p).spec c (fun b => V b)) := by
  rw [← Pipeline.unscopedBufs_held (Ix := Unit) (Name := ℕ) (U := UU) (Lvl := ℕ) c V]
  exact Pipeline.RDat.arrays_of_unscopedBufs (pcfgs (F := F)) adm (rdats m) hw harr c hshare (fun b => V b) hA

set_option backward.isDefEq.respectTransparency.types false in

theorem unscopedBufs_of_arraysR {p : Fin 4} (hw : Pipeline.WinFacts (cfgs p).spec) (harr : ∀ w, ((cfgs p).spec w).arr.IsWhole)
    (c : Dev nD) (hshare : ∀ w, (rdats m p c).share w = fullShare)
    (V V' : (b : Ref sig .tc) → Buf (Elt F) ((c : Thread nD τ).loc b))
    (Fs : (w : Fin (cfgs p).W) → Buf (Elt F) (((cfgs p).spec w).arr.view.loc (c : Thread nD τ)))
    (hF : ∀ w, Fs w = V' (Pipeline.arrRef (cfgs p).spec w))
    (hrest : ∀ b, b ∉ Finset.univ.image (Pipeline.arrRef (cfgs p).spec) → V' b = V b) :
    iprop((rdats m p c).arrays Fs ∗ Pipeline.unscopedRest (cfgs p).spec c V) ⊢ (unscopedBufs c V' : sProp (MM F)) := by
  rw [Pipeline.unscopedBufs_split (Pipeline.pin (pcfgs (F := F)) adm) p hw.arr_unscoped hw.arr_inj c V',
    Pipeline.RDat.arrays_eq (pcfgs (F := F)) adm (rdats m) p c harr hshare]
  refine sep_mono (Entails.of_eq (bigSep_congr fun w _ => by rw [hF])) (Entails.of_eq ?_)
  unfold Pipeline.unscopedRest
  exact bigSep_congr fun b hb => by rw [hrest b (Finset.mem_sdiff.mp hb).2]

set_option backward.isDefEq.respectTransparency.types false in

theorem exit_arrays {p : Fin 4} (hw : Pipeline.WinFacts (cfgs p).spec) (harr : ∀ w, ((cfgs p).spec w).arr.IsWhole)
    (c : Dev nD) (hshare : ∀ w, (rdats m p c).share w = fullShare) (n : Nat) (V : Valuation τ sig (Elt F))
    (w0 w1 : Fin (cfgs p).W) (hne : w0 ≠ w1)
    (hin : ∀ w, w ≠ w0 → w ≠ w1 → ((cfgs p).win w).isOut = false)
    (hA : ∀ w, (rdats m p c).A w = V (Pipeline.arrRef (cfgs p).spec w)) :
    iprop((rdats m p c).arraysAt n ∗ Pipeline.unscopedRest (cfgs p).spec c (fun b => V b))
      ⊢ (iprop(∃ V' : Valuation τ sig (Elt F),
            ⌜∀ r : Ref sig .tc, r ≠ Pipeline.arrRef (cfgs p).spec w0 → r ≠ Pipeline.arrRef (cfgs p).spec w1 →
                V' (Proc.devRef .tc r) = V (Proc.devRef .tc r)⌝
            ∗ StableHlo.held (c : Thread nD τ) (Pipeline.ucRefs τ sig) V') : sProp (MM F)) := by
  classical
  unfold Pipeline.RDat.arraysAt
  iintro ⟨Ha, Hr⟩
  ihave Ha1 := (bigSep_exists_pi Finset.univ fun (w : Fin (cfgs p).W) (Fw : Buf (Elt F) (((cfgs p).win w).arr.view.loc (c : Thread nD τ))) =>
      (iprop(⌜(rdats m p c).ArrAt w n Fw⌝ ∗ ((cfgs p).win w).arr.view.loc (c : Thread nD τ) ↦[((cfgs p).win w).arr.view.set]{(rdats m p c).share w} Fw) : sProp (MM F))) $$ Ha
  icases Ha1 with ⟨%Fs, Ha1⟩
  ihave Ha2 := (bigSep_pure_sep Finset.univ (fun w : Fin (cfgs p).W => (rdats m p c).ArrAt w n (Fs w))
      (fun w => (((cfgs p).win w).arr.view.loc (c : Thread nD τ) ↦[((cfgs p).win w).arr.view.set]{(rdats m p c).share w} Fs w : sProp (MM F)))) $$ Ha1
  icases Ha2 with ⟨%hFs, Ha2⟩
  have hinj := hw.arr_inj
  have hne' : Pipeline.arrRef (cfgs p).spec w0 ≠ Pipeline.arrRef (cfgs p).spec w1 := fun h => hne (hinj h)
  let V' : Valuation τ sig (Elt F) :=
    Function.update (Function.update V (Proc.devRef .tc (Pipeline.arrRef (cfgs p).spec w0)) (Fs w0))
      (Proc.devRef .tc (Pipeline.arrRef (cfgs p).spec w1)) (Fs w1)
  have hV'1 : V' (Proc.devRef .tc (Pipeline.arrRef (cfgs p).spec w1)) = Fs w1 := Function.update_self ..
  have hV'0 : V' (Proc.devRef .tc (Pipeline.arrRef (cfgs p).spec w0)) = Fs w0 := by
    show Function.update _ _ _ _ = _
    rw [Function.update_of_ne (StableHlo.devRef_ne_of_ne hne'), Function.update_self]
  have hV'r : ∀ r : Ref sig .tc, r ≠ Pipeline.arrRef (cfgs p).spec w0 → r ≠ Pipeline.arrRef (cfgs p).spec w1 →
      V' (Proc.devRef .tc r) = V (Proc.devRef .tc r) := fun r h0 h1 => by
    show Function.update _ _ _ _ = _
    rw [Function.update_of_ne (StableHlo.devRef_ne_of_ne h1), Function.update_of_ne (StableHlo.devRef_ne_of_ne h0)]
  iexists V'
  isplitr
  · ipureintro; exact hV'r
  rw [← Pipeline.unscopedBufs_held (Ix := Unit) (Name := ℕ) (U := UU) (Lvl := ℕ) c V']
  iapply (unscopedBufs_of_arraysR m hw harr c hshare (fun b => V b) (fun b => V' b) Fs
    (fun w => by
      by_cases h1 : w = w1
      · subst h1; exact hV'1.symm
      · by_cases h0 : w = w0
        · subst h0; exact hV'0.symm
        · have hF := hFs w (Finset.mem_univ w)
          rw [(rdats m p c).ArrAt_in w (hin w h0 h1) n] at hF
          rw [hF, hA w]
          exact (hV'r _ (fun h => h0 (hinj h)) (fun h => h1 (hinj h))).symm)
    (fun b hb => hV'r b (fun h => hb (h ▸ Finset.mem_image_of_mem _ (Finset.mem_univ w0)))
      (fun h => hb (h ▸ Finset.mem_image_of_mem _ (Finset.mem_univ w1)))))
  isplitl [Ha2]
  · unfold Pipeline.RDat.arrays; iexact Ha2
  iexact Hr

end Cert.Proof.FrameBits
-- ==== Proof.FrameBits.Body0.lean ====
import proofs.«407035_j66254165508793_2_alg».proof.Proof.FrameBits.Data
import proofs.«407035_j66254165508793_2_alg».proof.Proof.Gen.Kernel.Skeleton
import Idealize.ShloMosaic.Lib.Tactic

noncomputable section

namespace Cert.Proof.FrameBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ UU ℕ

private abbrev Bf (c : Dev nD) {sp : Space} {S : Shape} {e : EltTy} (M : Memref sig .tc sp S e) : Type := Buf (Elt F) (M.view.loc (c : Thread nD τ))

private abbrev own (c : Dev nD) {sp : Space} {S : Shape} {e : EltTy} (M : Memref sig .tc sp S e) (f : Bf (F := F) c M) : sProp 𝕄 :=
  M.view.loc (c : Thread nD τ) ↦[M.view.set]{fullShare} f

private abbrev pt (c : Dev nD) (b : Ref sig .tc) (f : Buf (Elt F) ((c : Thread nD τ).loc b)) : sProp 𝕄 :=
  (Memref.whole b : Memref sig .tc _ _ _).view.loc (c : Thread nD τ) ↦{fullShare} f

theorem kernelRun0 (c : Dev nD) (i : grid0.Coords)
    (M2 : Memref sig .tc .vmem S512x1024 .bf16) (h2 : M2.IsWhole) (M3 : Memref sig .tc .vmem S1024x2048 .f32) (h3 : M3.IsWhole)
    (M4 : Memref sig .tc .vmem S1x2048 .f32) (h4 : M4.IsWhole) (M5 : Memref sig .tc .vmem S512x1 .i32) (h5 : M5.IsWhole)
    (M6 : Memref sig .tc .vmem S512x1 .f32) (h6 : M6.IsWhole) (M7 : Memref sig .tc .vmem S512x1 .f32) (h7 : M7.IsWhole)
    (f2 : Bf (F := F) c M2) (f3 : Bf (F := F) c M3) (f4 : Bf (F := F) c M4) (f5 : Bf (F := F) c M5) (f6 : Bf (F := F) c M6) (f7 : Bf (F := F) c M7)
    (g0 : Buf (Elt F) ((c : Thread nD τ).loc cc0_scratch0)) (g1 : Buf (Elt F) ((c : Thread nD τ).loc cc0_scratch1)) (g2 : Buf (Elt F) ((c : Thread nD τ).loc cc0_scratch2))
    (Q : PUnit → sProp 𝕄) :
    iprop(own c M2 f2 ∗ own c M3 f3 ∗ own c M4 f4 ∗ own c M5 f5 ∗ own c M6 f6 ∗ own c M7 f7
        ∗ pt c cc0_scratch0 g0 ∗ pt c cc0_scratch1 g1 ∗ pt c cc0_scratch2 g2
        ∗ (iprop((∃ f, own c M2 f) ∗ (∃ f, own c M3 f) ∗ (∃ f, own c M4 f) ∗ (∃ f, own c M5 f) ∗ (∃ f, own c M6 f) ∗ (∃ f, own c M7 f)
              ∗ (∃ f, pt c cc0_scratch0 f) ∗ (∃ f, pt c cc0_scratch1 f) ∗ (∃ f, pt c cc0_scratch2 f)) -∗ Q ⟨⟩))
      ⊢ wp frame (wpE (defs₀ (F := F)) Variants.none c none) Set.univ
          (cc0__cluster_kernel i M2 h2 M3 h3 M4 h4 M5 h5 M6 h6 M7 h7 (Memref.whole cc0_scratch0) (Memref.isWhole_whole _)
            (Memref.whole cc0_scratch1) (Memref.isWhole_whole _) (Memref.whole cc0_scratch2) (Memref.isWhole_whole _)) Q := by
  iintro ⟨H2, H3, H4, H5, H6, H7, G0, G1, G2, Hk⟩
  sl_exec
  sl_step
  iapply Hk
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [G0]; · iexists _; iexact G0
  isplitl [G1]; · iexists _; iexact G1
  iexists _; iexact G2

set_option maxHeartbeats 4000000 in

theorem body0 (m : (ℓ : Loc nD τ sig) → Buf (Elt F) ℓ) (c : Dev nD) :
    (rdat0 m c).BodyObligation (defs₀ (F := F)) Variants.none () Set.univ := fun t Y _ => by
  rw [bigSep_W0, bigSep_W0]
  show iprop(Pipeline.scopedRest (Ix := Unit) (Name := ℕ) (U := UU) (Lvl := ℕ) (Val := Elt F) spec0 c ∗ (rdat0 m c).owesAt () t.castSucc ∗ _)
    ⊢ wp frame (wpE (defs₀ (F := F)) Variants.none c none) Set.univ (bodyAt0 t) (fun _ =>
      iprop(Pipeline.scopedRest (Ix := Unit) (Name := ℕ) (U := UU) (Lvl := ℕ) (Val := Elt F) spec0 c ∗ (rdat0 m c).owesAt () t.castSucc ∗ _))
  rw [scopedRest0_split c]
  unfold owns
  iintro ⟨⟨⟨⟨%g0, G0⟩, ⟨%g1, G1⟩, ⟨%g2, G2⟩⟩, HR⟩, HO, ⟨%f2, -, H2⟩, ⟨%f3, -, H3⟩, ⟨%f4, -, H4⟩, ⟨%f5, -, H5⟩, ⟨%f6, -, H6⟩, ⟨%f7, -, H7⟩⟩
  iapply (kernelRun0 c (grid0.coords t) (win0_0.stage (cfg0.slots t 0)) _ (win0_1.stage (cfg0.slots t 1)) _ (win0_2.stage (cfg0.slots t 2)) _
      (win0_3.stage (cfg0.slots t 3)) _ (win0_4.stage (cfg0.slots t 4)) _ (win0_5.stage (cfg0.slots t 5)) _ f2 f3 f4 f5 f6 f7 g0 g1 g2 _)
  isplitl [H2]; · iexact H2
  isplitl [H3]; · iexact H3
  isplitl [H4]; · iexact H4
  isplitl [H5]; · iexact H5
  isplitl [H6]; · iexact H6
  isplitl [H7]; · iexact H7
  isplitl [G0]; · iexact G0
  isplitl [G1]; · iexact G1
  isplitl [G2]; · iexact G2
  iintro ⟨⟨%f2', H2⟩, ⟨%f3', H3⟩, ⟨%f4', H4⟩, ⟨%f5', H5⟩, ⟨%f6', H6⟩, ⟨%f7', H7⟩, ⟨%g0', G0⟩, ⟨%g1', G1⟩, ⟨%g2', G2⟩⟩
  isplitl [G0 G1 G2 HR]
  · isplitr [HR]
    · isplitl [G0]; · iexists g0'; iexact G0
      isplitl [G1]; · iexists g1'; iexact G1
      iexists g2'; iexact G2
    · iexact HR
  isplitl [HO]; · iexact HO
  isplitl [H2]
  · iexists (win0_0.stage (cfg0.slots t 0)).view.read (Elt F) f2'; isplitr; · ipureintro; trivial
    iexists f2'; isplitr; · ipureintro; rfl
    iexact H2
  isplitl [H3]
  · iexists (win0_1.stage (cfg0.slots t 1)).view.read (Elt F) f3'; isplitr; · ipureintro; trivial
    iexists f3'; isplitr; · ipureintro; rfl
    iexact H3
  isplitl [H4]
  · iexists (win0_2.stage (cfg0.slots t 2)).view.read (Elt F) f4'; isplitr; · ipureintro; trivial
    iexists f4'; isplitr; · ipureintro; rfl
    iexact H4
  isplitl [H5]
  · iexists (win0_3.stage (cfg0.slots t 3)).view.read (Elt F) f5'; isplitr; · ipureintro; trivial
    iexists f5'; isplitr; · ipureintro; rfl
    iexact H5
  isplitl [H6]
  · iexists (win0_4.stage (cfg0.slots t 4)).view.read (Elt F) f6'; isplitr; · ipureintro; trivial
    iexists f6'; isplitr; · ipureintro; rfl
    iexact H6
  iexists (win0_5.stage (cfg0.slots t 5)).view.read (Elt F) f7'; isplitr; · ipureintro; trivial
  iexists f7'; isplitr; · ipureintro; rfl
  iexact H7

end Cert.Proof.FrameBits

end
-- ==== Proof.FrameBits.Reg0.lean ====
import proofs.«407035_j66254165508793_2_alg».proof.Proof.FrameBits.RegLemmas
import proofs.«407035_j66254165508793_2_alg».proof.Proof.FrameBits.Body0

set_option maxRecDepth 4096

noncomputable section

namespace Cert.Proof.FrameBits

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

variable {F : FTy → Type} [FloatOps F]
variable (m : (ℓ : Loc nD τ sig) → Buf (Elt F) ℓ)

theorem arr0_named : ∀ w : Fin 6, Pipeline.arrRef spec0 w ∉ ([] : List (Ref sig .tc)) := by decide

theorem entryA0 (c : Dev nD) (V : Valuation τ sig (Elt F)) (hV : G1 m c V) (w : Fin (cfgs 0).W) :
    (rdats m 0 c).A w = V (Pipeline.arrRef (cfgs 0).spec w) :=
  (hV (Pipeline.arrRef spec0 w) (arr0_named w)).symm

theorem exitG0 (c : Dev nD) (V V' : Valuation τ sig (Elt F)) (hV : G1 m c V)
    (hV' : ∀ r : Ref sig .tc, r ≠ main_v12_0 → r ≠ main_v12_1 → V' (Proc.devRef .tc r) = V (Proc.devRef .tc r)) : G2 m c V' := by
  intro r hr
  have h0 : r ≠ main_v12_0 := fun h => hr (h ▸ (by decide))
  have h1 : r ≠ main_v12_1 := fun h => hr (h ▸ (by decide))
  have hpre : r ∉ ([] : List (Ref sig .tc)) := fun h => hr ((by decide : ∀ x ∈ ([] : List (Ref sig .tc)), x ∈ Bad2) r h)
  have h01 : r ∉ ([main_v12_0, main_v12_1] : List (Ref sig .tc)) := fun h => by
    rcases List.mem_cons.mp h with h | h
    · exact h0 h
    · rcases List.mem_cons.mp h with h | h
      · exact h1 h
      · exact absurd h List.not_mem_nil
  rw [hV' r h0 h1, hV r hpre]
  exact (V2_of m (outs₀ m) c r h01).symm

set_option backward.isDefEq.respectTransparency.types false in

def reg0 : Pipeline.RDat.RegionSeg (pcfgs (F := F)) adm (rdats m) () defs₀ 𝒱₀ L₀ lv₀ 0 where
  win := launch0.win.to₀
  block_pos := launch0.block_pos
  stage_whole := launch0.stage_whole
  K := PEmpty
  osem k := k.elim
  ho := Pipeline.OwnSemFacts.none _
  hbody c := body0 m c
  hwaits := Pipeline.RDat.hwaits_of_owed_zero _ _ _ _ L₀ lv₀ 0 fun _ _ => rfl
  pre c := TS (G1 m c) c
  post c := TS (G2 m c) c
  X _ := iprop(emp)
  Y _ := iprop(emp)
  Z c := iprop(∃ V, ⌜G1 m c V⌝ ∗ Pipeline.unscopedRest (cfgs 0).spec c (fun b => V b))
  hentry c := by
    rw [Pipeline.ownSems0_none]
    unfold TS
    iintro ⟨⟨%V, %hV, Hh, HO⟩, -, -⟩
    ihave H := (entry_arrays m launch0.win launch0.arr_whole c ((rdats m 0 c).share_full fun _ => rfl) V (entryA0 m c V hV)) $$ Hh
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_intro (rdats m 0 c) 0 rfl rfl); iexact HO
    isplitr; · iempintro
    iexists V
    isplitr; · ipureintro; exact hV
    iexact Hrest
  hin c := by
    show (iprop(iprop(emp) ∗ _ ∗ Pipeline.scopedRest (Ix := Unit) (Name := ℕ) (U := UU) (Lvl := ℕ) (Val := Elt F) spec0 c) : sProp (MM F))
      ⊢ Pipeline.scopedRest (Ix := Unit) (Name := ℕ) (U := UU) (Lvl := ℕ) (Val := Elt F) spec0 c
    iintro ⟨-, -, Hr⟩; iexact Hr
  hout c := by
    show (Pipeline.scopedRest (Ix := Unit) (Name := ℕ) (U := UU) (Lvl := ℕ) (Val := Elt F) spec0 c : sProp (MM F))
      ⊢ iprop(iprop(emp) ∗ Pipeline.ownSems0 (fun k : PEmpty => k.elim) c
          ∗ Pipeline.scopedRest (Ix := Unit) (Name := ℕ) (U := UU) (Lvl := ℕ) (Val := Elt F) spec0 c)
    rw [Pipeline.ownSems0_none]
    iintro H
    isplitr; · iempintro
    isplitr; · iempintro
    iexact H
  hexit c := by
    unfold TS
    iintro ⟨Ha, HO, -, ⟨%V, %hV, Hrest⟩⟩
    ihave H := (exit_arrays m launch0.win launch0.arr_whole c ((rdats m 0 c).share_full fun _ => rfl) _ V 4 5 (by decide) (by decide)
      (entryA0 m c V hV)) $$ [Ha Hrest]
    · isplitl [Ha] <;> iassumption
    icases H with ⟨%V', %hV', Hh⟩
    imodintro
    iexists V'
    isplitr; · ipureintro; exact exitG0 m c V V' hV hV'
    isplitl [Hh]; · iexact Hh
    iapply (owesAt_elim (rdats m 0 c) _ rfl); iexact HO

end Cert.Proof.FrameBits
-- ==== Proof.FrameBits.Body1.lean ====
/-
  The body obligation of kernel region 1, for proof data that say nothing of what a staging buffer holds.

  The region's body is loop-free: whole-buffer loads and stores on nine memrefs — the six windows' current staging
  buffers and the region's three accumulators (running maximum, running sum, running pick) —, an initialisation of
  the accumulators guarded by a condition on the grid point (first column block), and the store of the two results
  guarded by another (last column block). Every stored value is a pure function of loaded values, no access has a
  side condition, and no address depends on data. So from the nine buffers held at ANY contents the body runs to its
  return without fault and hands the nine buffers back, each at some contents (`kernelRun1`, stated once for
  arbitrary whole staging memrefs and an arbitrary grid point; both guarded regions are run both ways).

  The obligation (`body1`) follows: the invariant between points is the region's scoped buffers that stage no window,
  each at some contents; it is split at the three accumulators, which are opened for the run and closed again at
  whatever the run left, the other scoped buffers carried along untouched. What the core owes is the same assertion
  before and after the point (nothing is owed at either end). Each window's current buffer comes back at some contents,
  and the relation asked of them holds of everything.
-/
import proofs.«407035_j66254165508793_2_alg».proof.Proof.FrameBits.Data
import proofs.«407035_j66254165508793_2_alg».proof.Proof.Gen.Kernel.Skeleton
import Idealize.ShloMosaic.Lib.Tactic

noncomputable section

namespace Cert.Proof.FrameBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ UU ℕ

/-- The contents type of memref `M`'s buffer on core `c`. -/
private abbrev Bf (c : Dev nD) {sp : Space} {S : Shape} {e : EltTy} (M : Memref sig .tc sp S e) : Type := Buf (Elt F) (M.view.loc (c : Thread nD τ))
/-- Memref `M`'s own elements held at contents `f`. -/
private abbrev own (c : Dev nD) {sp : Space} {S : Shape} {e : EltTy} (M : Memref sig .tc sp S e) (f : Bf (F := F) c M) : sProp 𝕄 :=
  M.view.loc (c : Thread nD τ) ↦[M.view.set]{fullShare} f
/-- A whole buffer held at contents `f`, named through its whole memref. -/
private abbrev pt (c : Dev nD) (b : Ref sig .tc) (f : Buf (Elt F) ((c : Thread nD τ).loc b)) : sProp 𝕄 :=
  (Memref.whole b : Memref sig .tc _ _ _).view.loc (c : Thread nD τ) ↦{fullShare} f

/-- Region 0's kernel function at any grid point `i`, on any six whole staging memrefs and the region's three
    accumulators, each held at any contents: it runs to its return and hands all nine back, each at some contents.
    The initialisation of the accumulators (first column block) and the store of the two results (last column block)
    are each run both ways; nothing is asked of any value. -/
theorem kernelRun1 (c : Dev nD) (i : grid1.Coords)
    (M2 : Memref sig .tc .vmem S512x256 .bf16) (h2 : M2.IsWhole) (M3 : Memref sig .tc .vmem S256x4096 .f32) (h3 : M3.IsWhole)
    (M4 : Memref sig .tc .vmem S1x4096 .f32) (h4 : M4.IsWhole) (M5 : Memref sig .tc .vmem S512x1 .i32) (h5 : M5.IsWhole)
    (M6 : Memref sig .tc .vmem S512x1 .f32) (h6 : M6.IsWhole) (M7 : Memref sig .tc .vmem S512x1 .f32) (h7 : M7.IsWhole)
    (f2 : Bf (F := F) c M2) (f3 : Bf (F := F) c M3) (f4 : Bf (F := F) c M4) (f5 : Bf (F := F) c M5) (f6 : Bf (F := F) c M6) (f7 : Bf (F := F) c M7)
    (g0 : Buf (Elt F) ((c : Thread nD τ).loc cc1_scratch0)) (g1 : Buf (Elt F) ((c : Thread nD τ).loc cc1_scratch1)) (g2 : Buf (Elt F) ((c : Thread nD τ).loc cc1_scratch2))
    (Q : PUnit → sProp 𝕄) :
    iprop(own c M2 f2 ∗ own c M3 f3 ∗ own c M4 f4 ∗ own c M5 f5 ∗ own c M6 f6 ∗ own c M7 f7
        ∗ pt c cc1_scratch0 g0 ∗ pt c cc1_scratch1 g1 ∗ pt c cc1_scratch2 g2
        ∗ (iprop((∃ f, own c M2 f) ∗ (∃ f, own c M3 f) ∗ (∃ f, own c M4 f) ∗ (∃ f, own c M5 f) ∗ (∃ f, own c M6 f) ∗ (∃ f, own c M7 f)
              ∗ (∃ f, pt c cc1_scratch0 f) ∗ (∃ f, pt c cc1_scratch1 f) ∗ (∃ f, pt c cc1_scratch2 f)) -∗ Q ⟨⟩))
      ⊢ wp frame (wpE (defs₀ (F := F)) Variants.none c none) Set.univ
          (cc1__cluster_kernel i M2 h2 M3 h3 M4 h4 M5 h5 M6 h6 M7 h7 (Memref.whole cc1_scratch0) (Memref.isWhole_whole _)
            (Memref.whole cc1_scratch1) (Memref.isWhole_whole _) (Memref.whole cc1_scratch2) (Memref.isWhole_whole _)) Q := by
  iintro ⟨H2, H3, H4, H5, H6, H7, G0, G1, G2, Hk⟩
  sl_exec
  sl_step
  iapply Hk
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [G0]; · iexists _; iexact G0
  isplitl [G1]; · iexists _; iexact G1
  iexists _; iexact G2

set_option maxHeartbeats 4000000 in
/-- Region 0's body obligation: the invariant's three accumulators are opened, the body is run from them and the six
    current staging buffers (whatever they hold), and everything is handed back at whatever the run left — the
    accumulators closed again into the invariant, the other scoped buffers and what the core owes untouched, each
    window's buffer at some contents (the relation asked of it holds of everything). -/
theorem body1 (m : (ℓ : Loc nD τ sig) → Buf (Elt F) ℓ) (c : Dev nD) :
    (rdat1 m c).BodyObligation (defs₀ (F := F)) Variants.none () Set.univ := fun t Y _ => by
  rw [bigSep_W1, bigSep_W1]
  show iprop(Pipeline.scopedRest (Ix := Unit) (Name := ℕ) (U := UU) (Lvl := ℕ) (Val := Elt F) spec1 c ∗ (rdat1 m c).owesAt () t.castSucc ∗ _)
    ⊢ wp frame (wpE (defs₀ (F := F)) Variants.none c none) Set.univ (bodyAt1 t) (fun _ =>
      iprop(Pipeline.scopedRest (Ix := Unit) (Name := ℕ) (U := UU) (Lvl := ℕ) (Val := Elt F) spec1 c ∗ (rdat1 m c).owesAt () t.castSucc ∗ _))
  rw [scopedRest1_split c]
  unfold owns
  iintro ⟨⟨⟨⟨%g0, G0⟩, ⟨%g1, G1⟩, ⟨%g2, G2⟩⟩, HR⟩, HO, ⟨%f2, -, H2⟩, ⟨%f3, -, H3⟩, ⟨%f4, -, H4⟩, ⟨%f5, -, H5⟩, ⟨%f6, -, H6⟩, ⟨%f7, -, H7⟩⟩
  iapply (kernelRun1 c (grid1.coords t) (win1_0.stage (cfg1.slots t 0)) _ (win1_1.stage (cfg1.slots t 1)) _ (win1_2.stage (cfg1.slots t 2)) _
      (win1_3.stage (cfg1.slots t 3)) _ (win1_4.stage (cfg1.slots t 4)) _ (win1_5.stage (cfg1.slots t 5)) _ f2 f3 f4 f5 f6 f7 g0 g1 g2 _)
  isplitl [H2]; · iexact H2
  isplitl [H3]; · iexact H3
  isplitl [H4]; · iexact H4
  isplitl [H5]; · iexact H5
  isplitl [H6]; · iexact H6
  isplitl [H7]; · iexact H7
  isplitl [G0]; · iexact G0
  isplitl [G1]; · iexact G1
  isplitl [G2]; · iexact G2
  iintro ⟨⟨%f2', H2⟩, ⟨%f3', H3⟩, ⟨%f4', H4⟩, ⟨%f5', H5⟩, ⟨%f6', H6⟩, ⟨%f7', H7⟩, ⟨%g0', G0⟩, ⟨%g1', G1⟩, ⟨%g2', G2⟩⟩
  isplitl [G0 G1 G2 HR]
  · isplitr [HR]
    · isplitl [G0]; · iexists g0'; iexact G0
      isplitl [G1]; · iexists g1'; iexact G1
      iexists g2'; iexact G2
    · iexact HR
  isplitl [HO]; · iexact HO
  isplitl [H2]
  · iexists (win1_0.stage (cfg1.slots t 0)).view.read (Elt F) f2'; isplitr; · ipureintro; trivial
    iexists f2'; isplitr; · ipureintro; rfl
    iexact H2
  isplitl [H3]
  · iexists (win1_1.stage (cfg1.slots t 1)).view.read (Elt F) f3'; isplitr; · ipureintro; trivial
    iexists f3'; isplitr; · ipureintro; rfl
    iexact H3
  isplitl [H4]
  · iexists (win1_2.stage (cfg1.slots t 2)).view.read (Elt F) f4'; isplitr; · ipureintro; trivial
    iexists f4'; isplitr; · ipureintro; rfl
    iexact H4
  isplitl [H5]
  · iexists (win1_3.stage (cfg1.slots t 3)).view.read (Elt F) f5'; isplitr; · ipureintro; trivial
    iexists f5'; isplitr; · ipureintro; rfl
    iexact H5
  isplitl [H6]
  · iexists (win1_4.stage (cfg1.slots t 4)).view.read (Elt F) f6'; isplitr; · ipureintro; trivial
    iexists f6'; isplitr; · ipureintro; rfl
    iexact H6
  iexists (win1_5.stage (cfg1.slots t 5)).view.read (Elt F) f7'; isplitr; · ipureintro; trivial
  iexists f7'; isplitr; · ipureintro; rfl
  iexact H7

end Cert.Proof.FrameBits

end
-- ==== Proof.FrameBits.Reg1.lean ====
/-
  Kernel region 1 as a segment of the program.

  It is entered from the thread state before it (every unscoped buffer at some valuation that agrees with the named one off
  the outputs of the regions already run): the six arrays go to the pipeline at the data's entry contents, which are that
  valuation's there; the unscoped rest bypasses the region; the scoped buffers that stage no window are the invariant. It is
  left with the arrays at some contents: the four inputs unchanged, the two outputs at contents not named, which join the
  references off which the next thread state says nothing.
-/
import proofs.«407035_j66254165508793_2_alg».proof.Proof.FrameBits.RegLemmas
import proofs.«407035_j66254165508793_2_alg».proof.Proof.FrameBits.Body1

set_option maxRecDepth 4096

noncomputable section

namespace Cert.Proof.FrameBits

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

variable {F : FTy → Type} [FloatOps F]
variable (m : (ℓ : Loc nD τ sig) → Buf (Elt F) ℓ)

/-- No array of region 1 is an output of an earlier region. -/
theorem arr1_named : ∀ w : Fin 6, Pipeline.arrRef spec1 w ∉ Bad2 := by decide

/-- The data's entry contents are the valuation's at the arrays' references. -/
theorem entryA1 (c : Dev nD) (V : Valuation τ sig (Elt F)) (hV : G3 m c V) (w : Fin (cfgs 1).W) :
    (rdats m 1 c).A w = V (Pipeline.arrRef (cfgs 1).spec w) :=
  (hV (Pipeline.arrRef spec1 w) (arr1_named w)).symm

/-- What the next thread state says of the valuation at the exit. -/
theorem exitG1 (c : Dev nD) (V V' : Valuation τ sig (Elt F)) (hV : G3 m c V)
    (hV' : ∀ r : Ref sig .tc, r ≠ main_v18_0 → r ≠ main_v18_1 → V' (Proc.devRef .tc r) = V (Proc.devRef .tc r)) : G4 m c V' := by
  intro r hr
  have h0 : r ≠ main_v18_0 := fun h => hr (h ▸ (by decide))
  have h1 : r ≠ main_v18_1 := fun h => hr (h ▸ (by decide))
  have hpre : r ∉ Bad2 := fun h => hr ((by decide : ∀ x ∈ Bad2, x ∈ Bad4) r h)
  have h01 : r ∉ ([main_v18_0, main_v18_1] : List (Ref sig .tc)) := fun h => by
    rcases List.mem_cons.mp h with h | h
    · exact h0 h
    · rcases List.mem_cons.mp h with h | h
      · exact h1 h
      · exact absurd h List.not_mem_nil
  rw [hV' r h0 h1, hV r hpre]
  exact (V4_of m (outs₀ m) c r h01).symm

-- the library's records are stated at the pinned configuration, the data and the launch facts at `cfgs 1`: the same
-- by unfolding plain definitions
set_option backward.isDefEq.respectTransparency.types false in
/-- THE REGION. -/
def reg1 : Pipeline.RDat.RegionSeg (pcfgs (F := F)) adm (rdats m) () defs₀ 𝒱₀ L₀ lv₀ 1 where
  win := launch1.win.to₀
  block_pos := launch1.block_pos
  stage_whole := launch1.stage_whole
  K := PEmpty
  osem k := k.elim
  ho := Pipeline.OwnSemFacts.none _
  hbody c := body1 m c
  hwaits := Pipeline.RDat.hwaits_of_owed_zero _ _ _ _ L₀ lv₀ 1 fun _ _ => rfl
  pre c := TS (G3 m c) c
  post c := TS (G4 m c) c
  X _ := iprop(emp)
  Y _ := iprop(emp)
  Z c := iprop(∃ V, ⌜G3 m c V⌝ ∗ Pipeline.unscopedRest (cfgs 1).spec c (fun b => V b))
  hentry c := by
    rw [Pipeline.ownSems0_none]
    unfold TS
    iintro ⟨⟨%V, %hV, Hh, HO⟩, -, -⟩
    ihave H := (entry_arrays m launch1.win launch1.arr_whole c ((rdats m 1 c).share_full fun _ => rfl) V (entryA1 m c V hV)) $$ Hh
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_intro (rdats m 1 c) 0 rfl rfl); iexact HO
    isplitr; · iempintro
    iexists V
    isplitr; · ipureintro; exact hV
    iexact Hrest
  hin c := by
    show (iprop(iprop(emp) ∗ _ ∗ Pipeline.scopedRest (Ix := Unit) (Name := ℕ) (U := UU) (Lvl := ℕ) (Val := Elt F) spec1 c) : sProp (MM F))
      ⊢ Pipeline.scopedRest (Ix := Unit) (Name := ℕ) (U := UU) (Lvl := ℕ) (Val := Elt F) spec1 c
    iintro ⟨-, -, Hr⟩; iexact Hr
  hout c := by
    show (Pipeline.scopedRest (Ix := Unit) (Name := ℕ) (U := UU) (Lvl := ℕ) (Val := Elt F) spec1 c : sProp (MM F))
      ⊢ iprop(iprop(emp) ∗ Pipeline.ownSems0 (fun k : PEmpty => k.elim) c
          ∗ Pipeline.scopedRest (Ix := Unit) (Name := ℕ) (U := UU) (Lvl := ℕ) (Val := Elt F) spec1 c)
    rw [Pipeline.ownSems0_none]
    iintro H
    isplitr; · iempintro
    isplitr; · iempintro
    iexact H
  hexit c := by
    unfold TS
    iintro ⟨Ha, HO, -, ⟨%V, %hV, Hrest⟩⟩
    ihave H := (exit_arrays m launch1.win launch1.arr_whole c ((rdats m 1 c).share_full fun _ => rfl) _ V 4 5 (by decide) (by decide)
      (entryA1 m c V hV)) $$ [Ha Hrest]
    · isplitl [Ha] <;> iassumption
    icases H with ⟨%V', %hV', Hh⟩
    imodintro
    iexists V'
    isplitr; · ipureintro; exact exitG1 m c V V' hV hV'
    isplitl [Hh]; · iexact Hh
    iapply (owesAt_elim (rdats m 1 c) _ rfl); iexact HO

end Cert.Proof.FrameBits
-- ==== Proof.FrameBits.Body2.lean ====
/-
  The body obligation of kernel region 2, for proof data that say nothing of what a staging buffer holds.

  The region's body is loop-free: whole-buffer loads and stores on nine memrefs — the six windows' current staging
  buffers and the region's three accumulators (running maximum, running sum, running pick) —, an initialisation of
  the accumulators guarded by a condition on the grid point (first column block), and the store of the two results
  guarded by another (last column block). Every stored value is a pure function of loaded values, no access has a
  side condition, and no address depends on data. So from the nine buffers held at ANY contents the body runs to its
  return without fault and hands the nine buffers back, each at some contents (`kernelRun2`, stated once for
  arbitrary whole staging memrefs and an arbitrary grid point; both guarded regions are run both ways).

  The obligation (`body2`) follows: the invariant between points is the region's scoped buffers that stage no window,
  each at some contents; it is split at the three accumulators, which are opened for the run and closed again at
  whatever the run left, the other scoped buffers carried along untouched. What the core owes is the same assertion
  before and after the point (nothing is owed at either end). Each window's current buffer comes back at some contents,
  and the relation asked of them holds of everything.
-/
import proofs.«407035_j66254165508793_2_alg».proof.Proof.FrameBits.Data
import proofs.«407035_j66254165508793_2_alg».proof.Proof.Gen.Kernel.Skeleton
import Idealize.ShloMosaic.Lib.Tactic

noncomputable section

namespace Cert.Proof.FrameBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ UU ℕ

/-- The contents type of memref `M`'s buffer on core `c`. -/
private abbrev Bf (c : Dev nD) {sp : Space} {S : Shape} {e : EltTy} (M : Memref sig .tc sp S e) : Type := Buf (Elt F) (M.view.loc (c : Thread nD τ))
/-- Memref `M`'s own elements held at contents `f`. -/
private abbrev own (c : Dev nD) {sp : Space} {S : Shape} {e : EltTy} (M : Memref sig .tc sp S e) (f : Bf (F := F) c M) : sProp 𝕄 :=
  M.view.loc (c : Thread nD τ) ↦[M.view.set]{fullShare} f
/-- A whole buffer held at contents `f`, named through its whole memref. -/
private abbrev pt (c : Dev nD) (b : Ref sig .tc) (f : Buf (Elt F) ((c : Thread nD τ).loc b)) : sProp 𝕄 :=
  (Memref.whole b : Memref sig .tc _ _ _).view.loc (c : Thread nD τ) ↦{fullShare} f

/-- Region 0's kernel function at any grid point `i`, on any six whole staging memrefs and the region's three
    accumulators, each held at any contents: it runs to its return and hands all nine back, each at some contents.
    The initialisation of the accumulators (first column block) and the store of the two results (last column block)
    are each run both ways; nothing is asked of any value. -/
theorem kernelRun2 (c : Dev nD) (i : grid2.Coords)
    (M2 : Memref sig .tc .vmem S256x64 .bf16) (h2 : M2.IsWhole) (M3 : Memref sig .tc .vmem S64x8192 .f32) (h3 : M3.IsWhole)
    (M4 : Memref sig .tc .vmem S1x8192 .f32) (h4 : M4.IsWhole) (M5 : Memref sig .tc .vmem S256x1 .i32) (h5 : M5.IsWhole)
    (M6 : Memref sig .tc .vmem S256x1 .f32) (h6 : M6.IsWhole) (M7 : Memref sig .tc .vmem S256x1 .f32) (h7 : M7.IsWhole)
    (f2 : Bf (F := F) c M2) (f3 : Bf (F := F) c M3) (f4 : Bf (F := F) c M4) (f5 : Bf (F := F) c M5) (f6 : Bf (F := F) c M6) (f7 : Bf (F := F) c M7)
    (g0 : Buf (Elt F) ((c : Thread nD τ).loc cc2_scratch0)) (g1 : Buf (Elt F) ((c : Thread nD τ).loc cc2_scratch1)) (g2 : Buf (Elt F) ((c : Thread nD τ).loc cc2_scratch2))
    (Q : PUnit → sProp 𝕄) :
    iprop(own c M2 f2 ∗ own c M3 f3 ∗ own c M4 f4 ∗ own c M5 f5 ∗ own c M6 f6 ∗ own c M7 f7
        ∗ pt c cc2_scratch0 g0 ∗ pt c cc2_scratch1 g1 ∗ pt c cc2_scratch2 g2
        ∗ (iprop((∃ f, own c M2 f) ∗ (∃ f, own c M3 f) ∗ (∃ f, own c M4 f) ∗ (∃ f, own c M5 f) ∗ (∃ f, own c M6 f) ∗ (∃ f, own c M7 f)
              ∗ (∃ f, pt c cc2_scratch0 f) ∗ (∃ f, pt c cc2_scratch1 f) ∗ (∃ f, pt c cc2_scratch2 f)) -∗ Q ⟨⟩))
      ⊢ wp frame (wpE (defs₀ (F := F)) Variants.none c none) Set.univ
          (cc2__cluster_kernel i M2 h2 M3 h3 M4 h4 M5 h5 M6 h6 M7 h7 (Memref.whole cc2_scratch0) (Memref.isWhole_whole _)
            (Memref.whole cc2_scratch1) (Memref.isWhole_whole _) (Memref.whole cc2_scratch2) (Memref.isWhole_whole _)) Q := by
  iintro ⟨H2, H3, H4, H5, H6, H7, G0, G1, G2, Hk⟩
  sl_exec
  sl_step
  iapply Hk
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [G0]; · iexists _; iexact G0
  isplitl [G1]; · iexists _; iexact G1
  iexists _; iexact G2

set_option maxHeartbeats 4000000 in
/-- Region 0's body obligation: the invariant's three accumulators are opened, the body is run from them and the six
    current staging buffers (whatever they hold), and everything is handed back at whatever the run left — the
    accumulators closed again into the invariant, the other scoped buffers and what the core owes untouched, each
    window's buffer at some contents (the relation asked of it holds of everything). -/
theorem body2 (m : (ℓ : Loc nD τ sig) → Buf (Elt F) ℓ) (c : Dev nD) :
    (rdat2 m c).BodyObligation (defs₀ (F := F)) Variants.none () Set.univ := fun t Y _ => by
  rw [bigSep_W2, bigSep_W2]
  show iprop(Pipeline.scopedRest (Ix := Unit) (Name := ℕ) (U := UU) (Lvl := ℕ) (Val := Elt F) spec2 c ∗ (rdat2 m c).owesAt () t.castSucc ∗ _)
    ⊢ wp frame (wpE (defs₀ (F := F)) Variants.none c none) Set.univ (bodyAt2 t) (fun _ =>
      iprop(Pipeline.scopedRest (Ix := Unit) (Name := ℕ) (U := UU) (Lvl := ℕ) (Val := Elt F) spec2 c ∗ (rdat2 m c).owesAt () t.castSucc ∗ _))
  rw [scopedRest2_split c]
  unfold owns
  iintro ⟨⟨⟨⟨%g0, G0⟩, ⟨%g1, G1⟩, ⟨%g2, G2⟩⟩, HR⟩, HO, ⟨%f2, -, H2⟩, ⟨%f3, -, H3⟩, ⟨%f4, -, H4⟩, ⟨%f5, -, H5⟩, ⟨%f6, -, H6⟩, ⟨%f7, -, H7⟩⟩
  iapply (kernelRun2 c (grid2.coords t) (win2_0.stage (cfg2.slots t 0)) _ (win2_1.stage (cfg2.slots t 1)) _ (win2_2.stage (cfg2.slots t 2)) _
      (win2_3.stage (cfg2.slots t 3)) _ (win2_4.stage (cfg2.slots t 4)) _ (win2_5.stage (cfg2.slots t 5)) _ f2 f3 f4 f5 f6 f7 g0 g1 g2 _)
  isplitl [H2]; · iexact H2
  isplitl [H3]; · iexact H3
  isplitl [H4]; · iexact H4
  isplitl [H5]; · iexact H5
  isplitl [H6]; · iexact H6
  isplitl [H7]; · iexact H7
  isplitl [G0]; · iexact G0
  isplitl [G1]; · iexact G1
  isplitl [G2]; · iexact G2
  iintro ⟨⟨%f2', H2⟩, ⟨%f3', H3⟩, ⟨%f4', H4⟩, ⟨%f5', H5⟩, ⟨%f6', H6⟩, ⟨%f7', H7⟩, ⟨%g0', G0⟩, ⟨%g1', G1⟩, ⟨%g2', G2⟩⟩
  isplitl [G0 G1 G2 HR]
  · isplitr [HR]
    · isplitl [G0]; · iexists g0'; iexact G0
      isplitl [G1]; · iexists g1'; iexact G1
      iexists g2'; iexact G2
    · iexact HR
  isplitl [HO]; · iexact HO
  isplitl [H2]
  · iexists (win2_0.stage (cfg2.slots t 0)).view.read (Elt F) f2'; isplitr; · ipureintro; trivial
    iexists f2'; isplitr; · ipureintro; rfl
    iexact H2
  isplitl [H3]
  · iexists (win2_1.stage (cfg2.slots t 1)).view.read (Elt F) f3'; isplitr; · ipureintro; trivial
    iexists f3'; isplitr; · ipureintro; rfl
    iexact H3
  isplitl [H4]
  · iexists (win2_2.stage (cfg2.slots t 2)).view.read (Elt F) f4'; isplitr; · ipureintro; trivial
    iexists f4'; isplitr; · ipureintro; rfl
    iexact H4
  isplitl [H5]
  · iexists (win2_3.stage (cfg2.slots t 3)).view.read (Elt F) f5'; isplitr; · ipureintro; trivial
    iexists f5'; isplitr; · ipureintro; rfl
    iexact H5
  isplitl [H6]
  · iexists (win2_4.stage (cfg2.slots t 4)).view.read (Elt F) f6'; isplitr; · ipureintro; trivial
    iexists f6'; isplitr; · ipureintro; rfl
    iexact H6
  iexists (win2_5.stage (cfg2.slots t 5)).view.read (Elt F) f7'; isplitr; · ipureintro; trivial
  iexists f7'; isplitr; · ipureintro; rfl
  iexact H7

end Cert.Proof.FrameBits

end
-- ==== Proof.FrameBits.Reg2.lean ====
/-
  Kernel region 2 as a segment of the program.

  It is entered from the thread state before it (every unscoped buffer at some valuation that agrees with the named one off
  the outputs of the regions already run): the six arrays go to the pipeline at the data's entry contents, which are that
  valuation's there; the unscoped rest bypasses the region; the scoped buffers that stage no window are the invariant. It is
  left with the arrays at some contents: the four inputs unchanged, the two outputs at contents not named, which join the
  references off which the next thread state says nothing.
-/
import proofs.«407035_j66254165508793_2_alg».proof.Proof.FrameBits.RegLemmas
import proofs.«407035_j66254165508793_2_alg».proof.Proof.FrameBits.Body2

set_option maxRecDepth 4096

noncomputable section

namespace Cert.Proof.FrameBits

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

variable {F : FTy → Type} [FloatOps F]
variable (m : (ℓ : Loc nD τ sig) → Buf (Elt F) ℓ)

/-- No array of region 2 is an output of an earlier region. -/
theorem arr2_named : ∀ w : Fin 6, Pipeline.arrRef spec2 w ∉ Bad4 := by decide

/-- The data's entry contents are the valuation's at the arrays' references. -/
theorem entryA2 (c : Dev nD) (V : Valuation τ sig (Elt F)) (hV : G5 m c V) (w : Fin (cfgs 2).W) :
    (rdats m 2 c).A w = V (Pipeline.arrRef (cfgs 2).spec w) :=
  (hV (Pipeline.arrRef spec2 w) (arr2_named w)).symm

/-- What the next thread state says of the valuation at the exit. -/
theorem exitG2 (c : Dev nD) (V V' : Valuation τ sig (Elt F)) (hV : G5 m c V)
    (hV' : ∀ r : Ref sig .tc, r ≠ main_v24_0 → r ≠ main_v24_1 → V' (Proc.devRef .tc r) = V (Proc.devRef .tc r)) : G6 m c V' := by
  intro r hr
  have h0 : r ≠ main_v24_0 := fun h => hr (h ▸ (by decide))
  have h1 : r ≠ main_v24_1 := fun h => hr (h ▸ (by decide))
  have hpre : r ∉ Bad4 := fun h => hr ((by decide : ∀ x ∈ Bad4, x ∈ Bad6) r h)
  have h01 : r ∉ ([main_v24_0, main_v24_1] : List (Ref sig .tc)) := fun h => by
    rcases List.mem_cons.mp h with h | h
    · exact h0 h
    · rcases List.mem_cons.mp h with h | h
      · exact h1 h
      · exact absurd h List.not_mem_nil
  rw [hV' r h0 h1, hV r hpre]
  exact (V6_of m (outs₀ m) c r h01).symm

-- the library's records are stated at the pinned configuration, the data and the launch facts at `cfgs 2`: the same
-- by unfolding plain definitions
set_option backward.isDefEq.respectTransparency.types false in
/-- THE REGION. -/
def reg2 : Pipeline.RDat.RegionSeg (pcfgs (F := F)) adm (rdats m) () defs₀ 𝒱₀ L₀ lv₀ 2 where
  win := launch2.win.to₀
  block_pos := launch2.block_pos
  stage_whole := launch2.stage_whole
  K := PEmpty
  osem k := k.elim
  ho := Pipeline.OwnSemFacts.none _
  hbody c := body2 m c
  hwaits := Pipeline.RDat.hwaits_of_owed_zero _ _ _ _ L₀ lv₀ 2 fun _ _ => rfl
  pre c := TS (G5 m c) c
  post c := TS (G6 m c) c
  X _ := iprop(emp)
  Y _ := iprop(emp)
  Z c := iprop(∃ V, ⌜G5 m c V⌝ ∗ Pipeline.unscopedRest (cfgs 2).spec c (fun b => V b))
  hentry c := by
    rw [Pipeline.ownSems0_none]
    unfold TS
    iintro ⟨⟨%V, %hV, Hh, HO⟩, -, -⟩
    ihave H := (entry_arrays m launch2.win launch2.arr_whole c ((rdats m 2 c).share_full fun _ => rfl) V (entryA2 m c V hV)) $$ Hh
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_intro (rdats m 2 c) 0 rfl rfl); iexact HO
    isplitr; · iempintro
    iexists V
    isplitr; · ipureintro; exact hV
    iexact Hrest
  hin c := by
    show (iprop(iprop(emp) ∗ _ ∗ Pipeline.scopedRest (Ix := Unit) (Name := ℕ) (U := UU) (Lvl := ℕ) (Val := Elt F) spec2 c) : sProp (MM F))
      ⊢ Pipeline.scopedRest (Ix := Unit) (Name := ℕ) (U := UU) (Lvl := ℕ) (Val := Elt F) spec2 c
    iintro ⟨-, -, Hr⟩; iexact Hr
  hout c := by
    show (Pipeline.scopedRest (Ix := Unit) (Name := ℕ) (U := UU) (Lvl := ℕ) (Val := Elt F) spec2 c : sProp (MM F))
      ⊢ iprop(iprop(emp) ∗ Pipeline.ownSems0 (fun k : PEmpty => k.elim) c
          ∗ Pipeline.scopedRest (Ix := Unit) (Name := ℕ) (U := UU) (Lvl := ℕ) (Val := Elt F) spec2 c)
    rw [Pipeline.ownSems0_none]
    iintro H
    isplitr; · iempintro
    isplitr; · iempintro
    iexact H
  hexit c := by
    unfold TS
    iintro ⟨Ha, HO, -, ⟨%V, %hV, Hrest⟩⟩
    ihave H := (exit_arrays m launch2.win launch2.arr_whole c ((rdats m 2 c).share_full fun _ => rfl) _ V 4 5 (by decide) (by decide)
      (entryA2 m c V hV)) $$ [Ha Hrest]
    · isplitl [Ha] <;> iassumption
    icases H with ⟨%V', %hV', Hh⟩
    imodintro
    iexists V'
    isplitr; · ipureintro; exact exitG2 m c V V' hV hV'
    isplitl [Hh]; · iexact Hh
    iapply (owesAt_elim (rdats m 2 c) _ rfl); iexact HO

end Cert.Proof.FrameBits
-- ==== Proof.FrameBits.Body3.lean ====
/-
  The body obligation of kernel region 3, for proof data that say nothing of what a staging buffer holds.

  The region's body is loop-free: whole-buffer loads and stores on nine memrefs — the six windows' current staging
  buffers and the region's three accumulators (running maximum, running sum, running pick) —, an initialisation of
  the accumulators guarded by a condition on the grid point (first column block), and the store of the two results
  guarded by another (last column block). Every stored value is a pure function of loaded values, no access has a
  side condition, and no address depends on data. So from the nine buffers held at ANY contents the body runs to its
  return without fault and hands the nine buffers back, each at some contents (`kernelRun3`, stated once for
  arbitrary whole staging memrefs and an arbitrary grid point; both guarded regions are run both ways).

  The obligation (`body3`) follows: the invariant between points is the region's scoped buffers that stage no window,
  each at some contents; it is split at the three accumulators, which are opened for the run and closed again at
  whatever the run left, the other scoped buffers carried along untouched. What the core owes is the same assertion
  before and after the point (nothing is owed at either end). Each window's current buffer comes back at some contents,
  and the relation asked of them holds of everything.
-/
import proofs.«407035_j66254165508793_2_alg».proof.Proof.FrameBits.Data
import proofs.«407035_j66254165508793_2_alg».proof.Proof.Gen.Kernel.Skeleton
import Idealize.ShloMosaic.Lib.Tactic

noncomputable section

namespace Cert.Proof.FrameBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ UU ℕ

/-- The contents type of memref `M`'s buffer on core `c`. -/
private abbrev Bf (c : Dev nD) {sp : Space} {S : Shape} {e : EltTy} (M : Memref sig .tc sp S e) : Type := Buf (Elt F) (M.view.loc (c : Thread nD τ))
/-- Memref `M`'s own elements held at contents `f`. -/
private abbrev own (c : Dev nD) {sp : Space} {S : Shape} {e : EltTy} (M : Memref sig .tc sp S e) (f : Bf (F := F) c M) : sProp 𝕄 :=
  M.view.loc (c : Thread nD τ) ↦[M.view.set]{fullShare} f
/-- A whole buffer held at contents `f`, named through its whole memref. -/
private abbrev pt (c : Dev nD) (b : Ref sig .tc) (f : Buf (Elt F) ((c : Thread nD τ).loc b)) : sProp 𝕄 :=
  (Memref.whole b : Memref sig .tc _ _ _).view.loc (c : Thread nD τ) ↦{fullShare} f

/-- Region 0's kernel function at any grid point `i`, on any six whole staging memrefs and the region's three
    accumulators, each held at any contents: it runs to its return and hands all nine back, each at some contents.
    The initialisation of the accumulators (first column block) and the store of the two results (last column block)
    are each run both ways; nothing is asked of any value. -/
theorem kernelRun3 (c : Dev nD) (i : grid3.Coords)
    (M2 : Memref sig .tc .vmem S256x16 .bf16) (h2 : M2.IsWhole) (M3 : Memref sig .tc .vmem S16x8192 .f32) (h3 : M3.IsWhole)
    (M4 : Memref sig .tc .vmem S1x8192 .f32) (h4 : M4.IsWhole) (M5 : Memref sig .tc .vmem S256x1 .i32) (h5 : M5.IsWhole)
    (M6 : Memref sig .tc .vmem S256x1 .f32) (h6 : M6.IsWhole) (M7 : Memref sig .tc .vmem S256x1 .f32) (h7 : M7.IsWhole)
    (f2 : Bf (F := F) c M2) (f3 : Bf (F := F) c M3) (f4 : Bf (F := F) c M4) (f5 : Bf (F := F) c M5) (f6 : Bf (F := F) c M6) (f7 : Bf (F := F) c M7)
    (g0 : Buf (Elt F) ((c : Thread nD τ).loc cc3_scratch0)) (g1 : Buf (Elt F) ((c : Thread nD τ).loc cc3_scratch1)) (g2 : Buf (Elt F) ((c : Thread nD τ).loc cc3_scratch2))
    (Q : PUnit → sProp 𝕄) :
    iprop(own c M2 f2 ∗ own c M3 f3 ∗ own c M4 f4 ∗ own c M5 f5 ∗ own c M6 f6 ∗ own c M7 f7
        ∗ pt c cc3_scratch0 g0 ∗ pt c cc3_scratch1 g1 ∗ pt c cc3_scratch2 g2
        ∗ (iprop((∃ f, own c M2 f) ∗ (∃ f, own c M3 f) ∗ (∃ f, own c M4 f) ∗ (∃ f, own c M5 f) ∗ (∃ f, own c M6 f) ∗ (∃ f, own c M7 f)
              ∗ (∃ f, pt c cc3_scratch0 f) ∗ (∃ f, pt c cc3_scratch1 f) ∗ (∃ f, pt c cc3_scratch2 f)) -∗ Q ⟨⟩))
      ⊢ wp frame (wpE (defs₀ (F := F)) Variants.none c none) Set.univ
          (cc3__cluster_kernel i M2 h2 M3 h3 M4 h4 M5 h5 M6 h6 M7 h7 (Memref.whole cc3_scratch0) (Memref.isWhole_whole _)
            (Memref.whole cc3_scratch1) (Memref.isWhole_whole _) (Memref.whole cc3_scratch2) (Memref.isWhole_whole _)) Q := by
  iintro ⟨H2, H3, H4, H5, H6, H7, G0, G1, G2, Hk⟩
  sl_exec
  sl_step
  iapply Hk
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [G0]; · iexists _; iexact G0
  isplitl [G1]; · iexists _; iexact G1
  iexists _; iexact G2

set_option maxHeartbeats 4000000 in
/-- Region 0's body obligation: the invariant's three accumulators are opened, the body is run from them and the six
    current staging buffers (whatever they hold), and everything is handed back at whatever the run left — the
    accumulators closed again into the invariant, the other scoped buffers and what the core owes untouched, each
    window's buffer at some contents (the relation asked of it holds of everything). -/
theorem body3 (m : (ℓ : Loc nD τ sig) → Buf (Elt F) ℓ) (c : Dev nD) :
    (rdat3 m c).BodyObligation (defs₀ (F := F)) Variants.none () Set.univ := fun t Y _ => by
  rw [bigSep_W3, bigSep_W3]
  show iprop(Pipeline.scopedRest (Ix := Unit) (Name := ℕ) (U := UU) (Lvl := ℕ) (Val := Elt F) spec3 c ∗ (rdat3 m c).owesAt () t.castSucc ∗ _)
    ⊢ wp frame (wpE (defs₀ (F := F)) Variants.none c none) Set.univ (bodyAt3 t) (fun _ =>
      iprop(Pipeline.scopedRest (Ix := Unit) (Name := ℕ) (U := UU) (Lvl := ℕ) (Val := Elt F) spec3 c ∗ (rdat3 m c).owesAt () t.castSucc ∗ _))
  rw [scopedRest3_split c]
  unfold owns
  iintro ⟨⟨⟨⟨%g0, G0⟩, ⟨%g1, G1⟩, ⟨%g2, G2⟩⟩, HR⟩, HO, ⟨%f2, -, H2⟩, ⟨%f3, -, H3⟩, ⟨%f4, -, H4⟩, ⟨%f5, -, H5⟩, ⟨%f6, -, H6⟩, ⟨%f7, -, H7⟩⟩
  iapply (kernelRun3 c (grid3.coords t) (win3_0.stage (cfg3.slots t 0)) _ (win3_1.stage (cfg3.slots t 1)) _ (win3_2.stage (cfg3.slots t 2)) _
      (win3_3.stage (cfg3.slots t 3)) _ (win3_4.stage (cfg3.slots t 4)) _ (win3_5.stage (cfg3.slots t 5)) _ f2 f3 f4 f5 f6 f7 g0 g1 g2 _)
  isplitl [H2]; · iexact H2
  isplitl [H3]; · iexact H3
  isplitl [H4]; · iexact H4
  isplitl [H5]; · iexact H5
  isplitl [H6]; · iexact H6
  isplitl [H7]; · iexact H7
  isplitl [G0]; · iexact G0
  isplitl [G1]; · iexact G1
  isplitl [G2]; · iexact G2
  iintro ⟨⟨%f2', H2⟩, ⟨%f3', H3⟩, ⟨%f4', H4⟩, ⟨%f5', H5⟩, ⟨%f6', H6⟩, ⟨%f7', H7⟩, ⟨%g0', G0⟩, ⟨%g1', G1⟩, ⟨%g2', G2⟩⟩
  isplitl [G0 G1 G2 HR]
  · isplitr [HR]
    · isplitl [G0]; · iexists g0'; iexact G0
      isplitl [G1]; · iexists g1'; iexact G1
      iexists g2'; iexact G2
    · iexact HR
  isplitl [HO]; · iexact HO
  isplitl [H2]
  · iexists (win3_0.stage (cfg3.slots t 0)).view.read (Elt F) f2'; isplitr; · ipureintro; trivial
    iexists f2'; isplitr; · ipureintro; rfl
    iexact H2
  isplitl [H3]
  · iexists (win3_1.stage (cfg3.slots t 1)).view.read (Elt F) f3'; isplitr; · ipureintro; trivial
    iexists f3'; isplitr; · ipureintro; rfl
    iexact H3
  isplitl [H4]
  · iexists (win3_2.stage (cfg3.slots t 2)).view.read (Elt F) f4'; isplitr; · ipureintro; trivial
    iexists f4'; isplitr; · ipureintro; rfl
    iexact H4
  isplitl [H5]
  · iexists (win3_3.stage (cfg3.slots t 3)).view.read (Elt F) f5'; isplitr; · ipureintro; trivial
    iexists f5'; isplitr; · ipureintro; rfl
    iexact H5
  isplitl [H6]
  · iexists (win3_4.stage (cfg3.slots t 4)).view.read (Elt F) f6'; isplitr; · ipureintro; trivial
    iexists f6'; isplitr; · ipureintro; rfl
    iexact H6
  iexists (win3_5.stage (cfg3.slots t 5)).view.read (Elt F) f7'; isplitr; · ipureintro; trivial
  iexists f7'; isplitr; · ipureintro; rfl
  iexact H7

end Cert.Proof.FrameBits

end
-- ==== Proof.FrameBits.Reg3.lean ====
/-
  Kernel region 3 as a segment of the program.

  It is entered from the thread state before it (every unscoped buffer at some valuation that agrees with the named one off
  the outputs of the regions already run): the six arrays go to the pipeline at the data's entry contents, which are that
  valuation's there; the unscoped rest bypasses the region; the scoped buffers that stage no window are the invariant. It is
  left with the arrays at some contents: the four inputs unchanged, the two outputs at contents not named, which join the
  references off which the next thread state says nothing.
-/
import proofs.«407035_j66254165508793_2_alg».proof.Proof.FrameBits.RegLemmas
import proofs.«407035_j66254165508793_2_alg».proof.Proof.FrameBits.Body3

set_option maxRecDepth 4096

noncomputable section

namespace Cert.Proof.FrameBits

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

variable {F : FTy → Type} [FloatOps F]
variable (m : (ℓ : Loc nD τ sig) → Buf (Elt F) ℓ)

/-- No array of region 3 is an output of an earlier region. -/
theorem arr3_named : ∀ w : Fin 6, Pipeline.arrRef spec3 w ∉ Bad6 := by decide

/-- The data's entry contents are the valuation's at the arrays' references. -/
theorem entryA3 (c : Dev nD) (V : Valuation τ sig (Elt F)) (hV : G7 m c V) (w : Fin (cfgs 3).W) :
    (rdats m 3 c).A w = V (Pipeline.arrRef (cfgs 3).spec w) :=
  (hV (Pipeline.arrRef spec3 w) (arr3_named w)).symm

/-- What the next thread state says of the valuation at the exit. -/
theorem exitG3 (c : Dev nD) (V V' : Valuation τ sig (Elt F)) (hV : G7 m c V)
    (hV' : ∀ r : Ref sig .tc, r ≠ main_v30_0 → r ≠ main_v30_1 → V' (Proc.devRef .tc r) = V (Proc.devRef .tc r)) : G8 m c V' := by
  intro r hr
  have h0 : r ≠ main_v30_0 := fun h => hr (h ▸ (by decide))
  have h1 : r ≠ main_v30_1 := fun h => hr (h ▸ (by decide))
  have hpre : r ∉ Bad6 := fun h => hr ((by decide : ∀ x ∈ Bad6, x ∈ Bad8) r h)
  have h01 : r ∉ ([main_v30_0, main_v30_1] : List (Ref sig .tc)) := fun h => by
    rcases List.mem_cons.mp h with h | h
    · exact h0 h
    · rcases List.mem_cons.mp h with h | h
      · exact h1 h
      · exact absurd h List.not_mem_nil
  rw [hV' r h0 h1, hV r hpre]
  exact (V8_of m (outs₀ m) c r h01).symm

-- the library's records are stated at the pinned configuration, the data and the launch facts at `cfgs 3`: the same
-- by unfolding plain definitions
set_option backward.isDefEq.respectTransparency.types false in
/-- THE REGION. -/
def reg3 : Pipeline.RDat.RegionSeg (pcfgs (F := F)) adm (rdats m) () defs₀ 𝒱₀ L₀ lv₀ 3 where
  win := launch3.win.to₀
  block_pos := launch3.block_pos
  stage_whole := launch3.stage_whole
  K := PEmpty
  osem k := k.elim
  ho := Pipeline.OwnSemFacts.none _
  hbody c := body3 m c
  hwaits := Pipeline.RDat.hwaits_of_owed_zero _ _ _ _ L₀ lv₀ 3 fun _ _ => rfl
  pre c := TS (G7 m c) c
  post c := TS (G8 m c) c
  X _ := iprop(emp)
  Y _ := iprop(emp)
  Z c := iprop(∃ V, ⌜G7 m c V⌝ ∗ Pipeline.unscopedRest (cfgs 3).spec c (fun b => V b))
  hentry c := by
    rw [Pipeline.ownSems0_none]
    unfold TS
    iintro ⟨⟨%V, %hV, Hh, HO⟩, -, -⟩
    ihave H := (entry_arrays m launch3.win launch3.arr_whole c ((rdats m 3 c).share_full fun _ => rfl) V (entryA3 m c V hV)) $$ Hh
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_intro (rdats m 3 c) 0 rfl rfl); iexact HO
    isplitr; · iempintro
    iexists V
    isplitr; · ipureintro; exact hV
    iexact Hrest
  hin c := by
    show (iprop(iprop(emp) ∗ _ ∗ Pipeline.scopedRest (Ix := Unit) (Name := ℕ) (U := UU) (Lvl := ℕ) (Val := Elt F) spec3 c) : sProp (MM F))
      ⊢ Pipeline.scopedRest (Ix := Unit) (Name := ℕ) (U := UU) (Lvl := ℕ) (Val := Elt F) spec3 c
    iintro ⟨-, -, Hr⟩; iexact Hr
  hout c := by
    show (Pipeline.scopedRest (Ix := Unit) (Name := ℕ) (U := UU) (Lvl := ℕ) (Val := Elt F) spec3 c : sProp (MM F))
      ⊢ iprop(iprop(emp) ∗ Pipeline.ownSems0 (fun k : PEmpty => k.elim) c
          ∗ Pipeline.scopedRest (Ix := Unit) (Name := ℕ) (U := UU) (Lvl := ℕ) (Val := Elt F) spec3 c)
    rw [Pipeline.ownSems0_none]
    iintro H
    isplitr; · iempintro
    isplitr; · iempintro
    iexact H
  hexit c := by
    unfold TS
    iintro ⟨Ha, HO, -, ⟨%V, %hV, Hrest⟩⟩
    ihave H := (exit_arrays m launch3.win launch3.arr_whole c ((rdats m 3 c).share_full fun _ => rfl) _ V 4 5 (by decide) (by decide)
      (entryA3 m c V hV)) $$ [Ha Hrest]
    · isplitl [Ha] <;> iassumption
    icases H with ⟨%V', %hV', Hh⟩
    imodintro
    iexists V'
    isplitr; · ipureintro; exact exitG3 m c V V' hV hV'
    isplitl [Hh]; · iexact Hh
    iapply (owesAt_elim (rdats m 3 c) _ rfl); iexact HO

end Cert.Proof.FrameBits
-- ==== Proof.FrameBits.lean ====
import proofs.«407035_j66254165508793_2_alg».proof.Defs
import proofs.«407035_j66254165508793_2_alg».proof.Proof.Gen.Kernel
import proofs.«407035_j66254165508793_2_alg».proof.Proof.Gen.Pre_finite_inputs
import proofs.«407035_j66254165508793_2_alg».proof.Proof.FrameBits.Reg0
import proofs.«407035_j66254165508793_2_alg».proof.Proof.FrameBits.Reg1
import proofs.«407035_j66254165508793_2_alg».proof.Proof.FrameBits.Reg2
import proofs.«407035_j66254165508793_2_alg».proof.Proof.FrameBits.Reg3

set_option maxRecDepth 4096

noncomputable section

namespace Cert.Proof.FrameBits

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat HostSeg)

variable {F : FTy → Type} [FloatOps F]
variable (m : (ℓ : Loc nD τ sig) → Buf (Elt F) ℓ)

abbrev EP : Emb (UR sig nD τ) (MM F) := emb₁

def u₀ : UU := initOf (Pipeline.cells cfgs cellOf_inj) (Pipeline.launchToks cfgs cellOf_inj)

abbrev segsF : List (Pipeline.RDat.Seg (pcfgs (F := F)) adm (rdats m) () defs₀ 𝒱₀ L₀ lv₀) :=
  [.host (hs0 m), .region (reg0 m), .host (hs2 m), .region (reg1 m), .host (hs4 m), .region (reg2 m), .host (hs6 m),
    .region (reg3 m), .host (hs8 m), .host (hs9 m), .host (hs10 m), .host (hs11 m), .host (hs12 m), .host (hs13 m),
    .host (hs14 m), .host (hs15 m)]

set_option backward.isDefEq.respectTransparency.types false in

theorem run_main (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.RDat.θ_run_regions_kit (pcfgs (F := F)) adm (rdats m) () cellOf_inj EP defs₀ 𝒱₀ L₀ lv₀ m ρ main (segsF m)
    (fun c Q => by
      rewrite [main_chain c, Pipeline.RDat.Seg.run_eq_chain,
        show (segsF m).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          StableHlo.seq hostOps4_7 ] from rfl]
      exact .rfl)
    (by simp only [segsF, Pipeline.RDat.Seg.pipes_host, Pipeline.RDat.Seg.pipes_region, Pipeline.RDat.Seg.pipes_nil]; decide)
    (O₀ := 0) (hL := fun _ _ => rfl) (G := fun _ => iprop(emp)) (u₀ := u₀)
    (hu₀ := ?_)
    (T₀ := fun c => TS (G0 m c) c)
    (Tₙ := fun c => iprop(∃ V, ⌜GT m c V⌝ ∗ StableHlo.held (c : Thread nD τ) (Pipeline.ucRefs τ sig) V))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun c => ?_⟩)
    (hinit := ?_)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14))
    (hfin := fun c s' => ?_) (hQ := fun _ h => h)
  ·
    unfold u₀
    rw [ownU_emb₁]
    iintro Hu
    imodintro
    isplitl [Hu]; · iexact Hu
    iapply (show (BI.emp : sProp (MM F)) ⊢ bigSep Finset.univ (fun _ : Dev nD => (BI.emp : sProp (MM F))) from by rw [BI.bigSep_emp_const])
    iempintro
  ·
    show TS (GT m c) c ⊢ _
    unfold TS
    iintro ⟨%V, %hV, Hh, HR⟩
    isplitl [Hh]
    · iexists V; isplitr; · ipureintro; exact hV
      iexact Hh
    iexact HR
  ·
    refine Pipeline.initEach L₀ lv₀ fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c)]
    iintro ⟨⟨Hh, -, HO, -, -, -⟩, -⟩
    imodintro
    unfold TS
    iexists V0 m c
    isplitr; · ipureintro; exact fun _ _ => rfl
    isplitl [Hh]; · iexact Hh
    iexists ∅; iexact HO
  ·
    unfold StableHlo.held
    iintro ⟨⟨%V, %hV, Hh⟩, HSI⟩
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (hV main_arg0 (by decide)),
        (h (Proc.devRef .tc main_arg1) (Finset.mem_filter.mpr ⟨StableHlo.devRef_mem_tcRefs main_arg1, by decide⟩)).trans (hV main_arg1 (by decide)),
        (h (Proc.devRef .tc main_arg2) (Finset.mem_filter.mpr ⟨StableHlo.devRef_mem_tcRefs main_arg2, by decide⟩)).trans (hV main_arg2 (by decide)),
        (h (Proc.devRef .tc main_arg3) (Finset.mem_filter.mpr ⟨StableHlo.devRef_mem_tcRefs main_arg3, by decide⟩)).trans (hV main_arg3 (by decide)),
        (h (Proc.devRef .tc main_arg4) (Finset.mem_filter.mpr ⟨StableHlo.devRef_mem_tcRefs main_arg4, by decide⟩)).trans (hV main_arg4 (by decide)),
        (h (Proc.devRef .tc main_arg5) (Finset.mem_filter.mpr ⟨StableHlo.devRef_mem_tcRefs main_arg5, by decide⟩)).trans (hV main_arg5 (by decide)),
        (h (Proc.devRef .tc main_arg6) (Finset.mem_filter.mpr ⟨StableHlo.devRef_mem_tcRefs main_arg6, by decide⟩)).trans (hV main_arg6 (by decide)),
        (h (Proc.devRef .tc main_arg7) (Finset.mem_filter.mpr ⟨StableHlo.devRef_mem_tcRefs main_arg7, by decide⟩)).trans (hV main_arg7 (by decide)),
        (h (Proc.devRef .tc main_arg8) (Finset.mem_filter.mpr ⟨StableHlo.devRef_mem_tcRefs main_arg8, by decide⟩)).trans (hV main_arg8 (by decide)),
        (h (Proc.devRef .tc main_arg9) (Finset.mem_filter.mpr ⟨StableHlo.devRef_mem_tcRefs main_arg9, by decide⟩)).trans (hV main_arg9 (by decide)),
        (h (Proc.devRef .tc main_arg10) (Finset.mem_filter.mpr ⟨StableHlo.devRef_mem_tcRefs main_arg10, by decide⟩)).trans (hV main_arg10 (by decide)),
        (h (Proc.devRef .tc main_arg11) (Finset.mem_filter.mpr ⟨StableHlo.devRef_mem_tcRefs main_arg11, by decide⟩)).trans (hV main_arg11 (by decide)),
        (h (Proc.devRef .tc main_arg12) (Finset.mem_filter.mpr ⟨StableHlo.devRef_mem_tcRefs main_arg12, by decide⟩)).trans (hV main_arg12 (by decide)),
        (h (Proc.devRef .tc main_arg13) (Finset.mem_filter.mpr ⟨StableHlo.devRef_mem_tcRefs main_arg13, by decide⟩)).trans (hV main_arg13 (by decide)),
        (h (Proc.devRef .tc main_arg14) (Finset.mem_filter.mpr ⟨StableHlo.devRef_mem_tcRefs main_arg14, by decide⟩)).trans (hV main_arg14 (by decide))⟩
    · iexact HSI

theorem frame_p : Cert.frame_Kernel := fun m ρ _ => run_main (F := Bits) m ρ

end Cert.Proof.FrameBits
-- ==== Proof.lean ====
import proofs.«407035_j66254165508793_2_alg».proof.Defs
import proofs.«407035_j66254165508793_2_alg».proof.Proof.Gen.Kernel
import proofs.«407035_j66254165508793_2_alg».proof.Proof.Gen.KernelIdeal
import proofs.«407035_j66254165508793_2_alg».proof.Proof.Gen.ReferenceIdeal
import proofs.«407035_j66254165508793_2_alg».proof.Proof.Gen.Pre_finite_inputs
import proofs.«407035_j66254165508793_2_alg».proof.Proof.Preserves
import proofs.«407035_j66254165508793_2_alg».proof.Proof.PreRead
import proofs.«407035_j66254165508793_2_alg».proof.Proof.SpecLaws
import proofs.«407035_j66254165508793_2_alg».proof.Proof.RefValue
import proofs.«407035_j66254165508793_2_alg».proof.Proof.KernelRun
import proofs.«407035_j66254165508793_2_alg».proof.Proof.FrameBits

noncomputable section

namespace Cert.Proof

open Idealize.ShloMosaic Idealize.SL.Sem

theorem frame_pi : Cert.frame_KernelIdeal := fun m ρ _ =>
  (θ_run Cert.KernelIdeal.defs _ _).mono (fun _ h c => (h c).2) (KernelRun.run m ρ)

theorem frame_ri : Cert.frame_ReferenceIdeal := fun m ρ _ =>
  (θ_run Cert.ReferenceIdeal.defs _ _).mono (fun _ h c => (h c).2) (RefValue.run m ρ)

theorem algebraic : Cert.algebraic_KernelIdeal_ReferenceIdeal := by
  intro m ρ m' ρ' hpre hagree
  refine ⟨fun c => Cert.Spec.nllKArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), KernelRun.run m ρ, ?_⟩
  refine (θ_run Cert.ReferenceIdeal.defs _ _).mono (fun _ h c => ⟨(h c).1.trans ?_, (h c).2⟩) (RefValue.run m' ρ')
  obtain ⟨e0, e1, e2, e3, e4, e5, e6, e7, e8, e9, e10, e11, e12, e13, e14⟩ := hagree c
  rw [e0, e1, e2, e3, e4, e5, e6, e7, e8, e9, e10, e11, e12, e13, e14]
  obtain ⟨f0, f2, f3, f4, f5, f6, f7, f8, f9, f10, f11, f12, f13, f14, f1⟩ := PreRead.finite_of_pre _ _ _ _ _ _ _ _ _ _ _ _ _ _ _ (hpre c)
  exact (Cert.Spec.nllKArr_eq_nllRArr _ _ _ _ _ _ _ _ _ _ _ _ _ _ _ f0 f2 f3 f4 f5 f6 f7 f8 f9 f10 f11 f12 f13 f14 f1).symm

theorem claim : Cert.Claim :=
  ⟨Cert.Kernel.Gen.facts, Cert.KernelIdeal.Gen.facts, Cert.ReferenceIdeal.Gen.facts, Cert.Pre_finite_inputs.Gen.facts,
    FrameBits.frame_p, frame_pi, frame_ri, Preserves.preserves, algebraic⟩

end Cert.Proof

end
